-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v268)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v268) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x2 : Shape := ⟨2, ![10000, 2]⟩
abbrev S2x320000 : Shape := ⟨2, ![2, 320000]⟩
abbrev S320000x2 : Shape := ⟨2, ![320000, 2]⟩
abbrev S119x128 : Shape := ⟨2, ![119, 128]⟩
abbrev S4x128 : Shape := ⟨2, ![4, 128]⟩
abbrev S3x6x128 : Shape := ⟨3, ![3, 6, 128]⟩
abbrev S3x3x128 : Shape := ⟨3, ![3, 3, 128]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S_ : Shape := ⟨0, ![]⟩

class Facts : Prop where
  bcast_S_S119x128 : S_.BroadcastsInDim S119x128 (![] : Fin 0 → Fin S119x128.rank)
  reducesTo_S119x128_S_d0_1 : S119x128.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S3x6x128 : S_.BroadcastsInDim S3x6x128 (![] : Fin 0 → Fin S3x6x128.rank)
  reducesTo_S3x6x128_S_d0_1_2 : S3x6x128.ReducesTo [0, 1, 2] S_
  bcast_S_S3x3x128 : S_.BroadcastsInDim S3x3x128 (![] : Fin 0 → Fin S3x3x128.rank)
  reducesTo_S3x3x128_S_d0_1_2 : S3x3x128.ReducesTo [0, 1, 2] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S10000x2 : S_.BroadcastsInDim S10000x2 (![] : Fin 0 → Fin S10000x2.rank)
  reducesTo_S10000x2_S_d0_1 : S10000x2.ReducesTo [0, 1] S_
  bcast_S_S2x320000 : S_.BroadcastsInDim S2x320000 (![] : Fin 0 → Fin S2x320000.rank)
  reducesTo_S2x320000_S_d0_1 : S2x320000.ReducesTo [0, 1] S_
  bcast_S_S320000x2 : S_.BroadcastsInDim S320000x2 (![] : Fin 0 → Fin S320000x2.rank)
  reducesTo_S320000x2_S_d0_1 : S320000x2.ReducesTo [0, 1] S_

variable [Facts]

def fn_part4 {F : FTy → Type} [FloatOps F] (main_v62 : IVec S_ 1) (main_v67 : IVec S320000x2 1) : IVec S_ 1 :=
  let main_c_26 : IVec S_ 1 := constantI S_ 1 1#1
  let main_v68 : IVec S_ 1 := (fun x v => Host.reduce IntOp.andi x v reducesTo_S320000x2_S_d0_1 h_S_) main_v67 main_c_26
  let main_v69 : IVec S_ 1 := andi main_v62 main_v68
  main_v69

def fn_part3 {F : FTy → Type} [FloatOps F] (main_arg0 : IVec S10000x2 32) (main_arg1 : IVec S2x320000 32) (main_arg2 : IVec S320000x2 32) (main_v48 : IVec S_ 1) (main_v50 : IVec S10000x2 1) : IVec S_ 1 :=
  let main_c_19 : IVec S_ 32 := constantI S_ 32 3#32
  let main_v51 : IVec S10000x2 32 := broadcastInDim S10000x2 ![] bcast_S_S10000x2 main_c_19
  let main_v52 : IVec S10000x2 1 := cmpi .sle main_arg0 main_v51
  let main_v53 : IVec S10000x2 1 := andi main_v50 main_v52
  let main_c_20 : IVec S_ 1 := constantI S_ 1 1#1
  let main_v54 : IVec S_ 1 := (fun x v => Host.reduce IntOp.andi x v reducesTo_S10000x2_S_d0_1 h_S_) main_v53 main_c_20
  let main_v55 : IVec S_ 1 := andi main_v48 main_v54
  let main_c_21 : IVec S_ 32 := constantI S_ 32 0#32
  let main_v56 : IVec S2x320000 32 := broadcastInDim S2x320000 ![] bcast_S_S2x320000 main_c_21
  let main_v57 : IVec S2x320000 1 := cmpi .sge main_arg1 main_v56
  let main_c_22 : IVec S_ 32 := constantI S_ 32 9999#32
  let main_v58 : IVec S2x320000 32 := broadcastInDim S2x320000 ![] bcast_S_S2x320000 main_c_22
  let main_v59 : IVec S2x320000 1 := cmpi .sle main_arg1 main_v58
  let main_v60 : IVec S2x320000 1 := andi main_v57 main_v59
  let main_c_23 : IVec S_ 1 := constantI S_ 1 1#1
  let main_v61 : IVec S_ 1 := (fun x v => Host.reduce IntOp.andi x v reducesTo_S2x320000_S_d0_1 h_S_) main_v60 main_c_23
  let main_v62 : IVec S_ 1 := andi main_v55 main_v61
  let main_c_24 : IVec S_ 32 := constantI S_ 32 0#32
  let main_v63 : IVec S320000x2 32 := broadcastInDim S320000x2 ![] bcast_S_S320000x2 main_c_24
  let main_v64 : IVec S320000x2 1 := cmpi .sge main_arg2 main_v63
  let main_c_25 : IVec S_ 32 := constantI S_ 32 2#32
  let main_v65 : IVec S320000x2 32 := broadcastInDim S320000x2 ![] bcast_S_S320000x2 main_c_25
  let main_v66 : IVec S320000x2 1 := cmpi .sle main_arg2 main_v65
  let main_v67 : IVec S320000x2 1 := andi main_v64 main_v66
  fn_part4 (F := F) main_v62 main_v67

def fn_part2 {F : FTy → Type} [FloatOps F] (main_arg0 : IVec S10000x2 32) (main_arg1 : IVec S2x320000 32) (main_arg2 : IVec S320000x2 32) (main_arg10 : FVec F S3x128 .f32) (main_arg11 : FVec F S3x128 .f32) (main_arg12 : FVec F S3x128 .f32) (main_v33 : IVec S_ 1) : IVec S_ 1 :=
  let main_v34 : FVec F S3x128 .f32 := Host.absf main_arg10
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg12
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_c_18 : IVec S_ 32 := constantI S_ 32 0#32
  let main_v49 : IVec S10000x2 32 := broadcastInDim S10000x2 ![] bcast_S_S10000x2 main_c_18
  let main_v50 : IVec S10000x2 1 := cmpi .sge main_arg0 main_v49
  fn_part3 (F := F) main_arg0 main_arg1 main_arg2 main_v48 main_v50

def fn_part1 {F : FTy → Type} [FloatOps F] (main_arg0 : IVec S10000x2 32) (main_arg1 : IVec S2x320000 32) (main_arg2 : IVec S320000x2 32) (main_arg7 : FVec F S3x128x256 .f32) (main_arg8 : FVec F S3x256 .f32) (main_arg9 : FVec F S3x256x128 .f32) (main_arg10 : FVec F S3x128 .f32) (main_arg11 : FVec F S3x128 .f32) (main_arg12 : FVec F S3x128 .f32) (main_v13 : IVec S_ 1) (main_v16 : IVec S3x3x128 1) : IVec S_ 1 :=
  let main_c_5 : IVec S_ 1 := constantI S_ 1 1#1
  let main_v17 : IVec S_ 1 := (fun x v => Host.reduce IntOp.andi x v reducesTo_S3x3x128_S_d0_1_2 h_S_) main_v16 main_c_5
  let main_v18 : IVec S_ 1 := andi main_v13 main_v17
  let main_v19 : FVec F S3x128x256 .f32 := Host.absf main_arg7
  let main_cst_6 : FVec F S_ .f32 := constant S_ .f32 0x7F800000#32
  let main_v20 : FVec F S3x128x256 .f32 := broadcastInDim S3x128x256 ![] bcast_S_S3x128x256 main_cst_6
  let main_v21 : IVec S3x128x256 1 := cmpf .olt main_v19 main_v20
  let main_c_7 : IVec S_ 1 := constantI S_ 1 1#1
  let main_v22 : IVec S_ 1 := (fun x v => Host.reduce IntOp.andi x v reducesTo_S3x128x256_S_d0_1_2 h_S_) main_v21 main_c_7
  let main_v23 : IVec S_ 1 := andi main_v18 main_v22
  let main_v24 : FVec F S3x256 .f32 := Host.absf main_arg8
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256x128 .f32 := Host.absf main_arg9
  let main_cst_10 : FVec F S_ .f32 := constant S_ .f32 0x7F800000#32
  let main_v30 : FVec F S3x256x128 .f32 := broadcastInDim S3x256x128 ![] bcast_S_S3x256x128 main_cst_10
  let main_v31 : IVec S3x256x128 1 := cmpf .olt main_v29 main_v30
  let main_c_11 : IVec S_ 1 := constantI S_ 1 1#1
  let main_v32 : IVec S_ 1 := (fun x v => Host.reduce IntOp.andi x v reducesTo_S3x256x128_S_d0_1_2 h_S_) main_v31 main_c_11
  let main_v33 : IVec S_ 1 := andi main_v28 main_v32
  fn_part2 (F := F) main_arg0 main_arg1 main_arg2 main_arg10 main_arg11 main_arg12 main_v33

def fn {F : FTy → Type} [FloatOps F] (main_arg0 : IVec S10000x2 32) (main_arg1 : IVec S2x320000 32) (main_arg2 : IVec S320000x2 32) (main_arg3 : FVec F S119x128 .f32) (main_arg4 : FVec F S4x128 .f32) (main_arg5 : FVec F S3x6x128 .f32) (main_arg6 : FVec F S3x3x128 .f32) (main_arg7 : FVec F S3x128x256 .f32) (main_arg8 : FVec F S3x256 .f32) (main_arg9 : FVec F S3x256x128 .f32) (main_arg10 : FVec F S3x128 .f32) (main_arg11 : FVec F S3x128 .f32) (main_arg12 : FVec F S3x128 .f32) : IVec S_ 1 :=
  let main_v0 : FVec F S119x128 .f32 := Host.absf main_arg3
  let main_cst : FVec F S_ .f32 := constant S_ .f32 0x7F800000#32
  let main_v1 : FVec F S119x128 .f32 := broadcastInDim S119x128 ![] bcast_S_S119x128 main_cst
  let main_v2 : IVec S119x128 1 := cmpf .olt main_v0 main_v1
  let main_c : IVec S_ 1 := constantI S_ 1 1#1
  let main_v3 : IVec S_ 1 := (fun x v => Host.reduce IntOp.andi x v reducesTo_S119x128_S_d0_1 h_S_) main_v2 main_c
  let main_v4 : FVec F S4x128 .f32 := Host.absf main_arg4
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S3x6x128 .f32 := Host.absf main_arg5
  let main_cst_2 : FVec F S_ .f32 := constant S_ .f32 0x7F800000#32
  let main_v10 : FVec F S3x6x128 .f32 := broadcastInDim S3x6x128 ![] bcast_S_S3x6x128 main_cst_2
  let main_v11 : IVec S3x6x128 1 := cmpf .olt main_v9 main_v10
  let main_c_3 : IVec S_ 1 := constantI S_ 1 1#1
  let main_v12 : IVec S_ 1 := (fun x v => Host.reduce IntOp.andi x v reducesTo_S3x6x128_S_d0_1_2 h_S_) main_v11 main_c_3
  let main_v13 : IVec S_ 1 := andi main_v8 main_v12
  let main_v14 : FVec F S3x3x128 .f32 := Host.absf main_arg6
  let main_cst_4 : FVec F S_ .f32 := constant S_ .f32 0x7F800000#32
  let main_v15 : FVec F S3x3x128 .f32 := broadcastInDim S3x3x128 ![] bcast_S_S3x3x128 main_cst_4
  let main_v16 : IVec S3x3x128 1 := cmpf .olt main_v14 main_v15
  fn_part1 (F := F) main_arg0 main_arg1 main_arg2 main_arg7 main_arg8 main_arg9 main_arg10 main_arg11 main_arg12 main_v13 main_v16
-- ==== Kernel.lean ====
abbrev S10000x2 : Shape := ⟨2, ![10000, 2]⟩
abbrev S2x320000 : Shape := ⟨2, ![2, 320000]⟩
abbrev S320000x2 : Shape := ⟨2, ![320000, 2]⟩
abbrev S119x128 : Shape := ⟨2, ![119, 128]⟩
abbrev S4x128 : Shape := ⟨2, ![4, 128]⟩
abbrev S3x6x128 : Shape := ⟨3, ![3, 6, 128]⟩
abbrev S3x3x128 : Shape := ⟨3, ![3, 3, 128]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S10000x1 : Shape := ⟨2, ![10000, 1]⟩
abbrev S10000 : Shape := ⟨1, ![10000]⟩
abbrev S_ : Shape := ⟨0, ![]⟩
abbrev S240 : Shape := ⟨1, ![240]⟩
abbrev S10240 : Shape := ⟨1, ![10240]⟩
abbrev S10240x128 : Shape := ⟨2, ![10240, 128]⟩
abbrev S320 : Shape := ⟨1, ![320]⟩
abbrev S320x128 : Shape := ⟨2, ![320, 128]⟩
abbrev S1x16 : Shape := ⟨2, ![1, 16]⟩
abbrev S16 : Shape := ⟨1, ![16]⟩
abbrev S10000x128 : Shape := ⟨2, ![10000, 128]⟩
abbrev S1x320000 : Shape := ⟨2, ![1, 320000]⟩
abbrev S320000 : Shape := ⟨1, ![320000]⟩
abbrev S320000x1 : Shape := ⟨2, ![320000, 1]⟩
abbrev S1x6x128 : Shape := ⟨3, ![1, 6, 128]⟩
abbrev S6x128 : Shape := ⟨2, ![6, 128]⟩
abbrev S6x1x128 : Shape := ⟨3, ![6, 1, 128]⟩
abbrev S1x3x128 : Shape := ⟨3, ![1, 3, 128]⟩
abbrev S6x3x128 : Shape := ⟨3, ![6, 3, 128]⟩
abbrev S18x128 : Shape := ⟨2, ![18, 128]⟩
abbrev S1x18x1x128 : Shape := ⟨4, ![1, 18, 1, 128]⟩
abbrev S32x18x1x128 : Shape := ⟨4, ![32, 18, 1, 128]⟩
abbrev S576x128 : Shape := ⟨2, ![576, 128]⟩
abbrev S320000x128 : Shape := ⟨2, ![320000, 128]⟩
abbrev S400 : Shape := ⟨1, ![400]⟩
abbrev S400x128 : Shape := ⟨2, ![400, 128]⟩
abbrev S1x128 : Shape := ⟨2, ![1, 128]⟩
abbrev S128 : Shape := ⟨1, ![128]⟩
abbrev S1x128x256 : Shape := ⟨3, ![1, 128, 256]⟩
abbrev S128x256 : Shape := ⟨2, ![128, 256]⟩
abbrev S10000x256 : Shape := ⟨2, ![10000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩

abbrev nBuf : Table → Nat
  | .hbm => 396
  | .local .scVector .vmem => 16
  | _ => 0

abbrev hbmTy0_0 (i : Nat) : BufTy := match i % 128 with
  | 0 => ⟨S10000x2, .i32⟩
  | 1 => ⟨S2x320000, .i32⟩
  | 2 => ⟨S320000x2, .i32⟩
  | 3 => ⟨S119x128, .f32⟩
  | 4 => ⟨S4x128, .f32⟩
  | 5 => ⟨S3x6x128, .f32⟩
  | 6 => ⟨S3x3x128, .f32⟩
  | 7 => ⟨S3x128x256, .f32⟩
  | 8 => ⟨S3x256, .f32⟩
  | 9 => ⟨S3x256x128, .f32⟩
  | 10 => ⟨S3x128, .f32⟩
  | 11 => ⟨S3x128, .f32⟩
  | 12 => ⟨S3x128, .f32⟩
  | 13 => ⟨S10000x1, .i32⟩
  | 14 => ⟨S10000, .i32⟩
  | 15 => ⟨S_, .i32⟩
  | 16 => ⟨S240, .i32⟩
  | 17 => ⟨S10240, .i32⟩
  | 18 => ⟨S10000x1, .i32⟩
  | 19 => ⟨S10000, .i32⟩
  | 20 => ⟨S_, .i32⟩
  | 21 => ⟨S240, .i32⟩
  | 22 => ⟨S10240, .i32⟩
  | 23 => ⟨S10240x128, .f32⟩
  | 24 => ⟨S10000x128, .f32⟩
  | 25 => ⟨S1x320000, .i32⟩
  | 26 => ⟨S320000, .i32⟩
  | 27 => ⟨S1x320000, .i32⟩
  | 28 => ⟨S320000, .i32⟩
  | 29 => ⟨S320000, .i32⟩
  | 30 => ⟨S320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .i32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .i32⟩
  | 50 => ⟨S320000x1, .i32⟩
  | 51 => ⟨S320000, .i32⟩
  | 52 => ⟨S_, .i32⟩
  | 53 => ⟨S320000, .i32⟩
  | 54 => ⟨S320000, .i32⟩
  | 55 => ⟨S320000x1, .i32⟩
  | 56 => ⟨S320000, .i32⟩
  | 57 => ⟨S320000, .i32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000, .i32⟩
  | 67 => ⟨S320000, .i32⟩
  | 68 => ⟨S_, .i32⟩
  | 69 => ⟨S_, .i32⟩
  | 70 => ⟨S320000, .i32⟩
  | 71 => ⟨S320000, .i32⟩
  | 72 => ⟨S320000, .i32⟩
  | 73 => ⟨S_, .i32⟩
  | 74 => ⟨S320000, .i32⟩
  | 75 => ⟨S320000, .i1⟩
  | 76 => ⟨S320000, .i32⟩
  | 77 => ⟨S320000, .i32⟩
  | 78 => ⟨S_, .i32⟩
  | 79 => ⟨S320000, .i32⟩
  | 80 => ⟨S320000, .i1⟩
  | 81 => ⟨S320000, .i1⟩
  | 82 => ⟨S_, .i32⟩
  | 83 => ⟨S320000, .i32⟩
  | 84 => ⟨S320000, .i32⟩
  | 85 => ⟨S320000, .i32⟩
  | 86 => ⟨S_, .i32⟩
  | 87 => ⟨S320000, .i32⟩
  | 88 => ⟨S320000, .i32⟩
  | 89 => ⟨S320000, .i32⟩
  | 90 => ⟨S1x6x128, .f32⟩
  | 91 => ⟨S6x128, .f32⟩
  | 92 => ⟨S6x1x128, .f32⟩
  | 93 => ⟨S1x3x128, .f32⟩
  | 94 => ⟨S3x128, .f32⟩
  | 95 => ⟨S1x3x128, .f32⟩
  | 96 => ⟨S6x3x128, .f32⟩
  | 97 => ⟨S6x3x128, .f32⟩
  | 98 => ⟨S6x3x128, .f32⟩
  | 99 => ⟨S18x128, .f32⟩
  | 100 => ⟨S1x18x1x128, .f32⟩
  | 101 => ⟨S32x18x1x128, .f32⟩
  | 102 => ⟨S576x128, .f32⟩
  | 103 => ⟨S320000x128, .f32⟩
  | 104 => ⟨S_, .f32⟩
  | 105 => ⟨S10000x128, .f32⟩
  | 106 => ⟨S320000x1, .i32⟩
  | 107 => ⟨S10000x128, .f32⟩
  | 108 => ⟨S1x6x128, .f32⟩
  | 109 => ⟨S6x128, .f32⟩
  | 110 => ⟨S1x128, .f32⟩
  | 111 => ⟨S128, .f32⟩
  | 112 => ⟨S1x3x128, .f32⟩
  | 113 => ⟨S3x128, .f32⟩
  | 114 => ⟨S1x128, .f32⟩
  | 115 => ⟨S128, .f32⟩
  | 116 => ⟨S128, .f32⟩
  | 117 => ⟨S10000x128, .f32⟩
  | 118 => ⟨S1x128, .f32⟩
  | 119 => ⟨S10000x128, .f32⟩
  | 120 => ⟨S10000x128, .f32⟩
  | 121 => ⟨S1x128x256, .f32⟩
  | 122 => ⟨S128x256, .f32⟩
  | 123 => ⟨S10000x256, .f32⟩
  | 124 => ⟨S1x256, .f32⟩
  | 125 => ⟨S256, .f32⟩
  | 126 => ⟨S1x256, .f32⟩
  | 127 => ⟨S10000x256, .f32⟩
  | _ => ⟨S10000x2, .i32⟩

abbrev hbmTy0_1 (i : Nat) : BufTy := match i % 128 with
  | 0 => ⟨S10000x256, .f32⟩
  | 1 => ⟨S_, .f32⟩
  | 2 => ⟨S10000x256, .f32⟩
  | 3 => ⟨S10000x256, .f32⟩
  | 4 => ⟨S1x256x128, .f32⟩
  | 5 => ⟨S256x128, .f32⟩
  | 6 => ⟨S10000x128, .f32⟩
  | 7 => ⟨S1x128, .f32⟩
  | 8 => ⟨S128, .f32⟩
  | 9 => ⟨S1x128, .f32⟩
  | 10 => ⟨S10000x128, .f32⟩
  | 11 => ⟨S10000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S10000x128, .f32⟩
  | 25 => ⟨S10000x128, .f32⟩
  | 26 => ⟨S10000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S10000x128, .f32⟩
  | 42 => ⟨S10000x128, .f32⟩
  | 43 => ⟨S_, .f32⟩
  | 44 => ⟨S128, .f32⟩
  | 45 => ⟨S128, .f32⟩
  | 46 => ⟨S128, .f32⟩
  | 47 => ⟨S1x128, .f32⟩
  | 48 => ⟨S10000x128, .f32⟩
  | 49 => ⟨S10000x128, .f32⟩
  | 50 => ⟨S1x128, .f32⟩
  | 51 => ⟨S128, .f32⟩
  | 52 => ⟨S1x128, .f32⟩
  | 53 => ⟨S10000x128, .f32⟩
  | 54 => ⟨S10000x128, .f32⟩
  | 55 => ⟨S1x128, .f32⟩
  | 56 => ⟨S128, .f32⟩
  | 57 => ⟨S1x128, .f32⟩
  | 58 => ⟨S10000x128, .f32⟩
  | 59 => ⟨S10000x128, .f32⟩
  | 60 => ⟨S_, .f32⟩
  | 61 => ⟨S10000x128, .f32⟩
  | 62 => ⟨S10000x128, .f32⟩
  | 63 => ⟨S1x6x128, .f32⟩
  | 64 => ⟨S6x128, .f32⟩
  | 65 => ⟨S6x1x128, .f32⟩
  | 66 => ⟨S1x3x128, .f32⟩
  | 67 => ⟨S3x128, .f32⟩
  | 68 => ⟨S1x3x128, .f32⟩
  | 69 => ⟨S6x3x128, .f32⟩
  | 70 => ⟨S6x3x128, .f32⟩
  | 71 => ⟨S6x3x128, .f32⟩
  | 72 => ⟨S18x128, .f32⟩
  | 73 => ⟨S1x18x1x128, .f32⟩
  | 74 => ⟨S32x18x1x128, .f32⟩
  | 75 => ⟨S576x128, .f32⟩
  | 76 => ⟨S320000x128, .f32⟩
  | 77 => ⟨S_, .f32⟩
  | 78 => ⟨S10000x128, .f32⟩
  | 79 => ⟨S320000x1, .i32⟩
  | 80 => ⟨S10000x128, .f32⟩
  | 81 => ⟨S1x6x128, .f32⟩
  | 82 => ⟨S6x128, .f32⟩
  | 83 => ⟨S1x128, .f32⟩
  | 84 => ⟨S128, .f32⟩
  | 85 => ⟨S1x3x128, .f32⟩
  | 86 => ⟨S3x128, .f32⟩
  | 87 => ⟨S1x128, .f32⟩
  | 88 => ⟨S128, .f32⟩
  | 89 => ⟨S128, .f32⟩
  | 90 => ⟨S10000x128, .f32⟩
  | 91 => ⟨S1x128, .f32⟩
  | 92 => ⟨S10000x128, .f32⟩
  | 93 => ⟨S10000x128, .f32⟩
  | 94 => ⟨S1x128x256, .f32⟩
  | 95 => ⟨S128x256, .f32⟩
  | 96 => ⟨S10000x256, .f32⟩
  | 97 => ⟨S1x256, .f32⟩
  | 98 => ⟨S256, .f32⟩
  | 99 => ⟨S1x256, .f32⟩
  | 100 => ⟨S10000x256, .f32⟩
  | 101 => ⟨S10000x256, .f32⟩
  | 102 => ⟨S_, .f32⟩
  | 103 => ⟨S10000x256, .f32⟩
  | 104 => ⟨S10000x256, .f32⟩
  | 105 => ⟨S1x256x128, .f32⟩
  | 106 => ⟨S256x128, .f32⟩
  | 107 => ⟨S10000x128, .f32⟩
  | 108 => ⟨S1x128, .f32⟩
  | 109 => ⟨S128, .f32⟩
  | 110 => ⟨S1x128, .f32⟩
  | 111 => ⟨S10000x128, .f32⟩
  | 112 => ⟨S10000x128, .f32⟩
  | 113 => ⟨S_, .f32⟩
  | 114 => ⟨S128, .f32⟩
  | 115 => ⟨S_, .f32⟩
  | 116 => ⟨S128, .f32⟩
  | 117 => ⟨S128, .f32⟩
  | 118 => ⟨S_, .i32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S10000x128, .f32⟩
  | 126 => ⟨S10000x128, .f32⟩
  | 127 => ⟨S10000x128, .f32⟩
  | _ => ⟨S10000x2, .i32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S128, .f32⟩
  | 5 => ⟨S128, .f32⟩
  | 6 => ⟨S128, .f32⟩
  | 7 => ⟨S_, .f32⟩
  | 8 => ⟨S_, .i1⟩
  | 9 => ⟨S_, .f32⟩
  | 10 => ⟨S_, .f32⟩
  | 11 => ⟨S128, .f32⟩
  | 12 => ⟨S128, .f32⟩
  | 13 => ⟨S1x128, .f32⟩
  | 14 => ⟨S10000x128, .f32⟩
  | 15 => ⟨S10000x128, .f32⟩
  | 16 => ⟨S_, .f32⟩
  | 17 => ⟨S128, .f32⟩
  | 18 => ⟨S128, .f32⟩
  | 19 => ⟨S128, .f32⟩
  | 20 => ⟨S1x128, .f32⟩
  | 21 => ⟨S10000x128, .f32⟩
  | 22 => ⟨S10000x128, .f32⟩
  | 23 => ⟨S1x128, .f32⟩
  | 24 => ⟨S128, .f32⟩
  | 25 => ⟨S1x128, .f32⟩
  | 26 => ⟨S10000x128, .f32⟩
  | 27 => ⟨S10000x128, .f32⟩
  | 28 => ⟨S1x128, .f32⟩
  | 29 => ⟨S128, .f32⟩
  | 30 => ⟨S1x128, .f32⟩
  | 31 => ⟨S10000x128, .f32⟩
  | 32 => ⟨S10000x128, .f32⟩
  | 33 => ⟨S_, .f32⟩
  | 34 => ⟨S10000x128, .f32⟩
  | 35 => ⟨S10000x128, .f32⟩
  | 36 => ⟨S1x6x128, .f32⟩
  | 37 => ⟨S6x128, .f32⟩
  | 38 => ⟨S6x1x128, .f32⟩
  | 39 => ⟨S1x3x128, .f32⟩
  | 40 => ⟨S3x128, .f32⟩
  | 41 => ⟨S1x3x128, .f32⟩
  | 42 => ⟨S6x3x128, .f32⟩
  | 43 => ⟨S6x3x128, .f32⟩
  | 44 => ⟨S6x3x128, .f32⟩
  | 45 => ⟨S18x128, .f32⟩
  | 46 => ⟨S1x18x1x128, .f32⟩
  | 47 => ⟨S32x18x1x128, .f32⟩
  | 48 => ⟨S576x128, .f32⟩
  | 49 => ⟨S320000x128, .f32⟩
  | 50 => ⟨S_, .f32⟩
  | 51 => ⟨S10000x128, .f32⟩
  | 52 => ⟨S320000x1, .i32⟩
  | 53 => ⟨S10000x128, .f32⟩
  | 54 => ⟨S1x6x128, .f32⟩
  | 55 => ⟨S6x128, .f32⟩
  | 56 => ⟨S1x128, .f32⟩
  | 57 => ⟨S128, .f32⟩
  | 58 => ⟨S1x3x128, .f32⟩
  | 59 => ⟨S3x128, .f32⟩
  | 60 => ⟨S1x128, .f32⟩
  | 61 => ⟨S128, .f32⟩
  | 62 => ⟨S128, .f32⟩
  | 63 => ⟨S10000x128, .f32⟩
  | 64 => ⟨S1x128, .f32⟩
  | 65 => ⟨S10000x128, .f32⟩
  | 66 => ⟨S10000x128, .f32⟩
  | 67 => ⟨S1x128x256, .f32⟩
  | 68 => ⟨S128x256, .f32⟩
  | 69 => ⟨S10000x256, .f32⟩
  | 70 => ⟨S1x256, .f32⟩
  | 71 => ⟨S256, .f32⟩
  | 72 => ⟨S1x256, .f32⟩
  | 73 => ⟨S10000x256, .f32⟩
  | 74 => ⟨S10000x256, .f32⟩
  | 75 => ⟨S_, .f32⟩
  | 76 => ⟨S10000x256, .f32⟩
  | 77 => ⟨S10000x256, .f32⟩
  | 78 => ⟨S1x256x128, .f32⟩
  | 79 => ⟨S256x128, .f32⟩
  | 80 => ⟨S10000x128, .f32⟩
  | 81 => ⟨S1x128, .f32⟩
  | 82 => ⟨S128, .f32⟩
  | 83 => ⟨S1x128, .f32⟩
  | 84 => ⟨S10000x128, .f32⟩
  | 85 => ⟨S10000x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S10000x128, .f32⟩
  | 99 => ⟨S10000x128, .f32⟩
  | 100 => ⟨S10000x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S10000x128, .f32⟩
  | 116 => ⟨S10000x128, .f32⟩
  | 117 => ⟨S_, .f32⟩
  | 118 => ⟨S128, .f32⟩
  | 119 => ⟨S128, .f32⟩
  | 120 => ⟨S128, .f32⟩
  | 121 => ⟨S1x128, .f32⟩
  | 122 => ⟨S10000x128, .f32⟩
  | 123 => ⟨S10000x128, .f32⟩
  | 124 => ⟨S1x128, .f32⟩
  | 125 => ⟨S128, .f32⟩
  | 126 => ⟨S1x128, .f32⟩
  | 127 => ⟨S10000x128, .f32⟩
  | _ => ⟨S10000x2, .i32⟩

abbrev hbmTy0_3 (i : Nat) : BufTy := match i % 128 with
  | 0 => ⟨S10000x128, .f32⟩
  | 1 => ⟨S1x128, .f32⟩
  | 2 => ⟨S128, .f32⟩
  | 3 => ⟨S1x128, .f32⟩
  | 4 => ⟨S10000x128, .f32⟩
  | 5 => ⟨S10000x128, .f32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | _ => ⟨S10000x2, .i32⟩

abbrev hbmTy (i : Nat) : BufTy := match i / 128 with
  | 0 => hbmTy0_0 i
  | 1 => hbmTy0_1 i
  | 2 => hbmTy0_2 i
  | 3 => hbmTy0_3 i
  | _ => ⟨S10000x2, .i32⟩

abbrev bufTy : (tb : Table) → Fin (nBuf tb) → BufTy
  | .hbm, ⟨i, _⟩ => hbmTy i
  | .local .scVector .vmem, ⟨0, _⟩ => ⟨S320, .i32⟩
  | .local .scVector .vmem, ⟨1, _⟩ => ⟨S320, .i32⟩
  | .local .scVector .vmem, ⟨2, _⟩ => ⟨S320x128, .f32⟩
  | .local .scVector .vmem, ⟨3, _⟩ => ⟨S320x128, .f32⟩
  | .local .scVector .vmem, ⟨4, _⟩ => ⟨S400, .i32⟩
  | .local .scVector .vmem, ⟨5, _⟩ => ⟨S400, .i32⟩
  | .local .scVector .vmem, ⟨6, _⟩ => ⟨S400x128, .f32⟩
  | .local .scVector .vmem, ⟨7, _⟩ => ⟨S400x128, .f32⟩
  | .local .scVector .vmem, ⟨8, _⟩ => ⟨S400, .i32⟩
  | .local .scVector .vmem, ⟨9, _⟩ => ⟨S400, .i32⟩
  | .local .scVector .vmem, ⟨10, _⟩ => ⟨S400x128, .f32⟩
  | .local .scVector .vmem, ⟨11, _⟩ => ⟨S400x128, .f32⟩
  | .local .scVector .vmem, ⟨12, _⟩ => ⟨S400, .i32⟩
  | .local .scVector .vmem, ⟨13, _⟩ => ⟨S400, .i32⟩
  | .local .scVector .vmem, ⟨14, _⟩ => ⟨S400x128, .f32⟩
  | .local .scVector .vmem, ⟨15, _⟩ => ⟨S400x128, .f32⟩
  | _, _ => ⟨S10000x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_v1_0 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_c : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_0 : Ref sig .tc := ⟨.hbm, 82, rfl⟩
abbrev main_call1_v12 : Ref sig .tc := ⟨.hbm, 83, rfl⟩
abbrev main_call1_v13 : Ref sig .tc := ⟨.hbm, 84, rfl⟩
abbrev main_v44 : Ref sig .tc := ⟨.hbm, 85, rfl⟩
abbrev main_c_9 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_10 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_11 : Ref sig .tc := ⟨.hbm, 140, rfl⟩
abbrev main_v96 : Ref sig .tc := ⟨.hbm, 141, rfl⟩
abbrev main_cst_12 : Ref sig .tc := ⟨.hbm, 142, rfl⟩
abbrev main_v97 : Ref sig .tc := ⟨.hbm, 143, rfl⟩
abbrev main_v98 : Ref sig .tc := ⟨.hbm, 144, rfl⟩
abbrev main_c_13 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_14 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_15 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_cst_16 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_cst_17 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_cst_18 : Ref sig .tc := ⟨.hbm, 241, rfl⟩
abbrev main_v169 : Ref sig .tc := ⟨.hbm, 242, rfl⟩
abbrev main_cst_19 : Ref sig .tc := ⟨.hbm, 243, rfl⟩
abbrev main_v170 : Ref sig .tc := ⟨.hbm, 244, rfl⟩
abbrev main_v171 : Ref sig .tc := ⟨.hbm, 245, rfl⟩
abbrev main_c_20 : Ref sig .tc := ⟨.hbm, 246, rfl⟩
abbrev main_call3_cst : Ref sig .tc := ⟨.hbm, 247, rfl⟩
abbrev main_call3_v0 : Ref sig .tc := ⟨.hbm, 248, rfl⟩
abbrev main_call3_v1 : Ref sig .tc := ⟨.hbm, 249, rfl⟩
abbrev main_call3_cst_0 : Ref sig .tc := ⟨.hbm, 250, rfl⟩
abbrev main_call3_v2 : Ref sig .tc := ⟨.hbm, 251, rfl⟩
abbrev main_call3_v3 : Ref sig .tc := ⟨.hbm, 252, rfl⟩
abbrev main_call3_v4 : Ref sig .tc := ⟨.hbm, 253, rfl⟩
abbrev main_call3_v5 : Ref sig .tc := ⟨.hbm, 254, rfl⟩
abbrev main_call3_v6 : Ref sig .tc := ⟨.hbm, 255, rfl⟩
abbrev main_call3_v7 : Ref sig .tc := ⟨.hbm, 256, rfl⟩
abbrev main_call3_cst_1 : Ref sig .tc := ⟨.hbm, 257, rfl⟩
abbrev main_call3_v8 : Ref sig .tc := ⟨.hbm, 258, rfl⟩
abbrev main_call3_cst_2 : Ref sig .tc := ⟨.hbm, 259, rfl⟩
abbrev main_call3_v9 : Ref sig .tc := ⟨.hbm, 260, rfl⟩
abbrev main_call3_v10 : Ref sig .tc := ⟨.hbm, 261, rfl⟩
abbrev main_call3_v11 : Ref sig .tc := ⟨.hbm, 262, rfl⟩
abbrev main_call3_cst_3 : Ref sig .tc := ⟨.hbm, 263, rfl⟩
abbrev main_call3_v12 : Ref sig .tc := ⟨.hbm, 264, rfl⟩
abbrev main_call3_cst_4 : Ref sig .tc := ⟨.hbm, 265, rfl⟩
abbrev main_call3_call0_v0 : Ref sig .tc := ⟨.hbm, 266, rfl⟩
abbrev main_call3_call0_v1 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_cst_21 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_cst_22 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_cst_23 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_cst_24 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_cst_25 : Ref sig .tc := ⟨.hbm, 342, rfl⟩
abbrev main_v242 : Ref sig .tc := ⟨.hbm, 343, rfl⟩
abbrev main_cst_26 : Ref sig .tc := ⟨.hbm, 344, rfl⟩
abbrev main_v243 : Ref sig .tc := ⟨.hbm, 345, rfl⟩
abbrev main_v244 : Ref sig .tc := ⟨.hbm, 346, rfl⟩
abbrev main_c_27 : Ref sig .tc := ⟨.hbm, 347, rfl⟩
abbrev main_call4_cst : Ref sig .tc := ⟨.hbm, 348, rfl⟩
abbrev main_call4_v0 : Ref sig .tc := ⟨.hbm, 349, rfl⟩
abbrev main_call4_v1 : Ref sig .tc := ⟨.hbm, 350, rfl⟩
abbrev main_call4_cst_0 : Ref sig .tc := ⟨.hbm, 351, rfl⟩
abbrev main_call4_v2 : Ref sig .tc := ⟨.hbm, 352, rfl⟩
abbrev main_call4_v3 : Ref sig .tc := ⟨.hbm, 353, rfl⟩
abbrev main_call4_v4 : Ref sig .tc := ⟨.hbm, 354, rfl⟩
abbrev main_call4_v5 : Ref sig .tc := ⟨.hbm, 355, rfl⟩
abbrev main_call4_v6 : Ref sig .tc := ⟨.hbm, 356, rfl⟩
abbrev main_call4_v7 : Ref sig .tc := ⟨.hbm, 357, rfl⟩
abbrev main_call4_cst_1 : Ref sig .tc := ⟨.hbm, 358, rfl⟩
abbrev main_call4_v8 : Ref sig .tc := ⟨.hbm, 359, rfl⟩
abbrev main_call4_cst_2 : Ref sig .tc := ⟨.hbm, 360, rfl⟩
abbrev main_call4_v9 : Ref sig .tc := ⟨.hbm, 361, rfl⟩
abbrev main_call4_v10 : Ref sig .tc := ⟨.hbm, 362, rfl⟩
abbrev main_call4_v11 : Ref sig .tc := ⟨.hbm, 363, rfl⟩
abbrev main_call4_cst_3 : Ref sig .tc := ⟨.hbm, 364, rfl⟩
abbrev main_call4_v12 : Ref sig .tc := ⟨.hbm, 365, rfl⟩
abbrev main_call4_cst_4 : Ref sig .tc := ⟨.hbm, 366, rfl⟩
abbrev main_call4_call0_v0 : Ref sig .tc := ⟨.hbm, 367, rfl⟩
abbrev main_call4_call0_v1 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_cst_28 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_v252 : Ref sig .tc := ⟨.hbm, 377, rfl⟩
abbrev main_v253 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_v264 : Ref sig .tc := ⟨.hbm, 389, rfl⟩
abbrev main_cst_29 : Ref sig .tc := ⟨.hbm, 390, rfl⟩
abbrev main_v265 : Ref sig .tc := ⟨.hbm, 391, rfl⟩
abbrev main_v266 : Ref sig .tc := ⟨.hbm, 392, rfl⟩
abbrev main_cst_30 : Ref sig .tc := ⟨.hbm, 393, rfl⟩
abbrev main_v267 : Ref sig .tc := ⟨.hbm, 394, rfl⟩
abbrev main_v268 : Ref sig .tc := ⟨.hbm, 395, rfl⟩
abbrev main_arg3_scv : Ref sig .scVector := ⟨.hbm, 3, rfl⟩
abbrev main_v3_scv : Ref sig .scVector := ⟨.hbm, 17, rfl⟩
abbrev main_arg4_scv : Ref sig .scVector := ⟨.hbm, 4, rfl⟩
abbrev main_v7_scv : Ref sig .scVector := ⟨.hbm, 22, rfl⟩
abbrev main_v8_scv : Ref sig .scVector := ⟨.hbm, 23, rfl⟩
abbrev main_v9_scv : Ref sig .scVector := ⟨.hbm, 24, rfl⟩
abbrev main_v21_scv : Ref sig .scVector := ⟨.hbm, 40, rfl⟩
abbrev main_v60_scv : Ref sig .scVector := ⟨.hbm, 102, rfl⟩
abbrev main_v47_scv : Ref sig .scVector := ⟨.hbm, 89, rfl⟩
abbrev main_v61_scv : Ref sig .scVector := ⟨.hbm, 103, rfl⟩
abbrev main_v120_scv : Ref sig .scVector := ⟨.hbm, 190, rfl⟩
abbrev main_v133_scv : Ref sig .scVector := ⟨.hbm, 203, rfl⟩
abbrev main_v134_scv : Ref sig .scVector := ⟨.hbm, 204, rfl⟩
abbrev main_v193_scv : Ref sig .scVector := ⟨.hbm, 291, rfl⟩
abbrev main_v206_scv : Ref sig .scVector := ⟨.hbm, 304, rfl⟩
abbrev main_v207_scv : Ref sig .scVector := ⟨.hbm, 305, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_scratch0 : Ref sig .scVector := ⟨.vmem, 8, rfl⟩
abbrev cc2_scratch1 : Ref sig .scVector := ⟨.vmem, 9, rfl⟩
abbrev cc2_scratch2 : Ref sig .scVector := ⟨.vmem, 10, rfl⟩
abbrev cc2_scratch3 : Ref sig .scVector := ⟨.vmem, 11, rfl⟩
abbrev cc3_scratch0 : Ref sig .scVector := ⟨.vmem, 12, rfl⟩
abbrev cc3_scratch1 : Ref sig .scVector := ⟨.vmem, 13, rfl⟩
abbrev cc3_scratch2 : Ref sig .scVector := ⟨.vmem, 14, rfl⟩
abbrev cc3_scratch3 : Ref sig .scVector := ⟨.vmem, 15, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_0 : BitVec 32 := 0#32
  let c320_i32_1 : BitVec 32 := 320#32
  let v3 : BitVec 32 := Scalar.muli c0_i32_0 c320_i32_1
  let v4 : BitVec 32 := Scalar.addi v2 v3
  ![v4.toNat]
@[reducible] def k0_t1_loop : Scf.Loop 32 :=
  let c0_i32_11 : BitVec 32 := 0#32
  let c80_i32 : BitVec 32 := 80#32
  let v9 : BitVec 32 := Scalar.addi c0_i32_11 c80_i32
  let c1_i32 : BitVec 32 := 1#32
  ⟨c0_i32_11, v9, c1_i32⟩
def k0_off2 (k0_t1 : Fin k0_t1_loop.trips) (c0_i32_14 : BitVec 32) : Fin 2 → Nat :=
  let c0_i32_11 : BitVec 32 := 0#32
  let c1_i32 : BitVec 32 := 1#32
  let arg13 : BitVec 32 := Scf.iv c0_i32_11 c1_i32 k0_t1
  let c4_i32 : BitVec 32 := 4#32
  let v10 : BitVec 32 := Scalar.muli arg13 c4_i32
  let v11 : BitVec 32 := Scalar.addi v10 c0_i32_14
  let v12 : Index := Scalar.indexCast v11
  let c0 : Index := 0#32
  ![v12.toNat, 0]
def k0_off3 (k0_t1 : Fin k0_t1_loop.trips) (c0_i32_14 : BitVec 32) : Fin 2 → Nat :=
  let c0_i32_11 : BitVec 32 := 0#32
  let c1_i32 : BitVec 32 := 1#32
  let arg13 : BitVec 32 := Scf.iv c0_i32_11 c1_i32 k0_t1
  let c4_i32 : BitVec 32 := 4#32
  let v10 : BitVec 32 := Scalar.muli arg13 c4_i32
  let v11 : BitVec 32 := Scalar.addi v10 c0_i32_14
  let v23 : Index := Scalar.indexCast v11
  let c16 : Index := 16#32
  ![v23.toNat, 16]
def k0_off4 (k0_t1 : Fin k0_t1_loop.trips) (c0_i32_14 : BitVec 32) : Fin 2 → Nat :=
  let c0_i32_11 : BitVec 32 := 0#32
  let c1_i32 : BitVec 32 := 1#32
  let arg13 : BitVec 32 := Scf.iv c0_i32_11 c1_i32 k0_t1
  let c4_i32 : BitVec 32 := 4#32
  let v10 : BitVec 32 := Scalar.muli arg13 c4_i32
  let v11 : BitVec 32 := Scalar.addi v10 c0_i32_14
  let v34 : Index := Scalar.indexCast v11
  let c32 : Index := 32#32
  ![v34.toNat, 32]
def k0_off5 (k0_t1 : Fin k0_t1_loop.trips) (c0_i32_14 : BitVec 32) : Fin 2 → Nat :=
  let c0_i32_11 : BitVec 32 := 0#32
  let c1_i32 : BitVec 32 := 1#32
  let arg13 : BitVec 32 := Scf.iv c0_i32_11 c1_i32 k0_t1
  let c4_i32 : BitVec 32 := 4#32
  let v10 : BitVec 32 := Scalar.muli arg13 c4_i32
  let v11 : BitVec 32 := Scalar.addi v10 c0_i32_14
  let v45 : Index := Scalar.indexCast v11
  let c48 : Index := 48#32
  ![v45.toNat, 48]
def k0_off6 (k0_t1 : Fin k0_t1_loop.trips) (c0_i32_14 : BitVec 32) : Fin 2 → Nat :=
  let c0_i32_11 : BitVec 32 := 0#32
  let c1_i32 : BitVec 32 := 1#32
  let arg13 : BitVec 32 := Scf.iv c0_i32_11 c1_i32 k0_t1
  let c4_i32 : BitVec 32 := 4#32
  let v10 : BitVec 32 := Scalar.muli arg13 c4_i32
  let v11 : BitVec 32 := Scalar.addi v10 c0_i32_14
  let v56 : Index := Scalar.indexCast v11
  let c64 : Index := 64#32
  ![v56.toNat, 64]
def k0_off7 (k0_t1 : Fin k0_t1_loop.trips) (c0_i32_14 : BitVec 32) : Fin 2 → Nat :=
  let c0_i32_11 : BitVec 32 := 0#32
  let c1_i32 : BitVec 32 := 1#32
  let arg13 : BitVec 32 := Scf.iv c0_i32_11 c1_i32 k0_t1
  let c4_i32 : BitVec 32 := 4#32
  let v10 : BitVec 32 := Scalar.muli arg13 c4_i32
  let v11 : BitVec 32 := Scalar.addi v10 c0_i32_14
  let v67 : Index := Scalar.indexCast v11
  let c80 : Index := 80#32
  ![v67.toNat, 80]
def k0_off8 (k0_t1 : Fin k0_t1_loop.trips) (c0_i32_14 : BitVec 32) : Fin 2 → Nat :=
  let c0_i32_11 : BitVec 32 := 0#32
  let c1_i32 : BitVec 32 := 1#32
  let arg13 : BitVec 32 := Scf.iv c0_i32_11 c1_i32 k0_t1
  let c4_i32 : BitVec 32 := 4#32
  let v10 : BitVec 32 := Scalar.muli arg13 c4_i32
  let v11 : BitVec 32 := Scalar.addi v10 c0_i32_14
  let v78 : Index := Scalar.indexCast v11
  let c96 : Index := 96#32
  ![v78.toNat, 96]
def k0_off9 (k0_t1 : Fin k0_t1_loop.trips) (c0_i32_14 : BitVec 32) : Fin 2 → Nat :=
  let c0_i32_11 : BitVec 32 := 0#32
  let c1_i32 : BitVec 32 := 1#32
  let arg13 : BitVec 32 := Scf.iv c0_i32_11 c1_i32 k0_t1
  let c4_i32 : BitVec 32 := 4#32
  let v10 : BitVec 32 := Scalar.muli arg13 c4_i32
  let v11 : BitVec 32 := Scalar.addi v10 c0_i32_14
  let v89 : Index := Scalar.indexCast v11
  let c112 : Index := 112#32
  ![v89.toNat, 112]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_0 : BitVec 32 := 0#32
  let c320_i32_1 : BitVec 32 := 320#32
  let v3 : BitVec 32 := Scalar.muli c0_i32_0 c320_i32_1
  let v4 : BitVec 32 := Scalar.addi v2 v3
  let c0_i32_14_r2 : BitVec 32 := 0#32
  ![v4.toNat, 0]
abbrev grid1 : Pipeline.Grid := ⟨2, ![2, 16], ![false, false]⟩

@[reducible] def k1_t1_loop : Scf.Loop 32 :=
  let c0_i32_0 : BitVec 32 := 0#32
  let c25_i32 : BitVec 32 := 25#32
  let v3 : BitVec 32 := Scalar.addi c0_i32_0 c25_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg13 : BitVec 32 := Scf.iv c0_i32_0 c1_i32 k1_t1
  let c400_i32 : BitVec 32 := 400#32
  let v4 : BitVec 32 := Scalar.muli arg13 c400_i32
  let v5 : BitVec 32 := Scalar.addi v2 v4
  ![v5.toNat]
@[reducible] def k1_t2_loop : Scf.Loop 32 :=
  let c0_i32_11 : BitVec 32 := 0#32
  let c100_i32 : BitVec 32 := 100#32
  let v10 : BitVec 32 := Scalar.addi c0_i32_11 c100_i32
  let c1_i32_12 : BitVec 32 := 1#32
  ⟨c0_i32_11, v10, c1_i32_12⟩
def k1_off2 (k1_t2 : Fin k1_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k1_t2
  let c4_i32 : BitVec 32 := 4#32
  let v11 : BitVec 32 := Scalar.muli arg14 c4_i32
  let v12 : BitVec 32 := Scalar.addi v11 c0_i32_14
  let v13 : Index := Scalar.indexCast v12
  let c0 : Index := 0#32
  ![v13.toNat, 0]
def k1_off3 (k1_t2 : Fin k1_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k1_t2
  let c4_i32 : BitVec 32 := 4#32
  let v11 : BitVec 32 := Scalar.muli arg14 c4_i32
  let v12 : BitVec 32 := Scalar.addi v11 c0_i32_14
  let v24 : Index := Scalar.indexCast v12
  let c16 : Index := 16#32
  ![v24.toNat, 16]
def k1_off4 (k1_t2 : Fin k1_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k1_t2
  let c4_i32 : BitVec 32 := 4#32
  let v11 : BitVec 32 := Scalar.muli arg14 c4_i32
  let v12 : BitVec 32 := Scalar.addi v11 c0_i32_14
  let v35 : Index := Scalar.indexCast v12
  let c32 : Index := 32#32
  ![v35.toNat, 32]
def k1_off5 (k1_t2 : Fin k1_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k1_t2
  let c4_i32 : BitVec 32 := 4#32
  let v11 : BitVec 32 := Scalar.muli arg14 c4_i32
  let v12 : BitVec 32 := Scalar.addi v11 c0_i32_14
  let v46 : Index := Scalar.indexCast v12
  let c48 : Index := 48#32
  ![v46.toNat, 48]
def k1_off6 (k1_t2 : Fin k1_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k1_t2
  let c4_i32 : BitVec 32 := 4#32
  let v11 : BitVec 32 := Scalar.muli arg14 c4_i32
  let v12 : BitVec 32 := Scalar.addi v11 c0_i32_14
  let v57 : Index := Scalar.indexCast v12
  let c64 : Index := 64#32
  ![v57.toNat, 64]
def k1_off7 (k1_t2 : Fin k1_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k1_t2
  let c4_i32 : BitVec 32 := 4#32
  let v11 : BitVec 32 := Scalar.muli arg14 c4_i32
  let v12 : BitVec 32 := Scalar.addi v11 c0_i32_14
  let v68 : Index := Scalar.indexCast v12
  let c80 : Index := 80#32
  ![v68.toNat, 80]
def k1_off8 (k1_t2 : Fin k1_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k1_t2
  let c4_i32 : BitVec 32 := 4#32
  let v11 : BitVec 32 := Scalar.muli arg14 c4_i32
  let v12 : BitVec 32 := Scalar.addi v11 c0_i32_14
  let v79 : Index := Scalar.indexCast v12
  let c96 : Index := 96#32
  ![v79.toNat, 96]
def k1_off9 (k1_t2 : Fin k1_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k1_t2
  let c4_i32 : BitVec 32 := 4#32
  let v11 : BitVec 32 := Scalar.muli arg14 c4_i32
  let v12 : BitVec 32 := Scalar.addi v11 c0_i32_14
  let v90 : Index := Scalar.indexCast v12
  let c112 : Index := 112#32
  ![v90.toNat, 112]
def k1_off10 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg13 : BitVec 32 := Scf.iv c0_i32_0 c1_i32 k1_t1
  let c400_i32 : BitVec 32 := 400#32
  let v4 : BitVec 32 := Scalar.muli arg13 c400_i32
  let v5 : BitVec 32 := Scalar.addi v2 v4
  let c0_i32_14_r2 : BitVec 32 := 0#32
  ![v5.toNat, 0]
abbrev grid2 : Pipeline.Grid := ⟨2, ![2, 16], ![false, false]⟩

@[reducible] def k2_t1_loop : Scf.Loop 32 :=
  let c0_i32_0 : BitVec 32 := 0#32
  let c25_i32 : BitVec 32 := 25#32
  let v3 : BitVec 32 := Scalar.addi c0_i32_0 c25_i32
  let c1_i32 : BitVec 32 := 1#32
  ⟨c0_i32_0, v3, c1_i32⟩
def k2_off1 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg13 : BitVec 32 := Scf.iv c0_i32_0 c1_i32 k2_t1
  let c400_i32 : BitVec 32 := 400#32
  let v4 : BitVec 32 := Scalar.muli arg13 c400_i32
  let v5 : BitVec 32 := Scalar.addi v2 v4
  ![v5.toNat]
@[reducible] def k2_t2_loop : Scf.Loop 32 :=
  let c0_i32_11 : BitVec 32 := 0#32
  let c100_i32 : BitVec 32 := 100#32
  let v10 : BitVec 32 := Scalar.addi c0_i32_11 c100_i32
  let c1_i32_12 : BitVec 32 := 1#32
  ⟨c0_i32_11, v10, c1_i32_12⟩
def k2_off2 (k2_t2 : Fin k2_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k2_t2
  let c4_i32 : BitVec 32 := 4#32
  let v11 : BitVec 32 := Scalar.muli arg14 c4_i32
  let v12 : BitVec 32 := Scalar.addi v11 c0_i32_14
  let v13 : Index := Scalar.indexCast v12
  let c0 : Index := 0#32
  ![v13.toNat, 0]
def k2_off3 (k2_t2 : Fin k2_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k2_t2
  let c4_i32 : BitVec 32 := 4#32
  let v11 : BitVec 32 := Scalar.muli arg14 c4_i32
  let v12 : BitVec 32 := Scalar.addi v11 c0_i32_14
  let v24 : Index := Scalar.indexCast v12
  let c16 : Index := 16#32
  ![v24.toNat, 16]
def k2_off4 (k2_t2 : Fin k2_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k2_t2
  let c4_i32 : BitVec 32 := 4#32
  let v11 : BitVec 32 := Scalar.muli arg14 c4_i32
  let v12 : BitVec 32 := Scalar.addi v11 c0_i32_14
  let v35 : Index := Scalar.indexCast v12
  let c32 : Index := 32#32
  ![v35.toNat, 32]
def k2_off5 (k2_t2 : Fin k2_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k2_t2
  let c4_i32 : BitVec 32 := 4#32
  let v11 : BitVec 32 := Scalar.muli arg14 c4_i32
  let v12 : BitVec 32 := Scalar.addi v11 c0_i32_14
  let v46 : Index := Scalar.indexCast v12
  let c48 : Index := 48#32
  ![v46.toNat, 48]
def k2_off6 (k2_t2 : Fin k2_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k2_t2
  let c4_i32 : BitVec 32 := 4#32
  let v11 : BitVec 32 := Scalar.muli arg14 c4_i32
  let v12 : BitVec 32 := Scalar.addi v11 c0_i32_14
  let v57 : Index := Scalar.indexCast v12
  let c64 : Index := 64#32
  ![v57.toNat, 64]
def k2_off7 (k2_t2 : Fin k2_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k2_t2
  let c4_i32 : BitVec 32 := 4#32
  let v11 : BitVec 32 := Scalar.muli arg14 c4_i32
  let v12 : BitVec 32 := Scalar.addi v11 c0_i32_14
  let v68 : Index := Scalar.indexCast v12
  let c80 : Index := 80#32
  ![v68.toNat, 80]
def k2_off8 (k2_t2 : Fin k2_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k2_t2
  let c4_i32 : BitVec 32 := 4#32
  let v11 : BitVec 32 := Scalar.muli arg14 c4_i32
  let v12 : BitVec 32 := Scalar.addi v11 c0_i32_14
  let v79 : Index := Scalar.indexCast v12
  let c96 : Index := 96#32
  ![v79.toNat, 96]
def k2_off9 (k2_t2 : Fin k2_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k2_t2
  let c4_i32 : BitVec 32 := 4#32
  let v11 : BitVec 32 := Scalar.muli arg14 c4_i32
  let v12 : BitVec 32 := Scalar.addi v11 c0_i32_14
  let v90 : Index := Scalar.indexCast v12
  let c112 : Index := 112#32
  ![v90.toNat, 112]
def k2_off10 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg13 : BitVec 32 := Scf.iv c0_i32_0 c1_i32 k2_t1
  let c400_i32 : BitVec 32 := 400#32
  let v4 : BitVec 32 := Scalar.muli arg13 c400_i32
  let v5 : BitVec 32 := Scalar.addi v2 v4
  let c0_i32_14_r2 : BitVec 32 := 0#32
  ![v5.toNat, 0]
abbrev grid3 : Pipeline.Grid := ⟨2, ![2, 16], ![false, false]⟩

@[reducible] def k3_t1_loop : Scf.Loop 32 :=
  let c0_i32_0 : BitVec 32 := 0#32
  let c25_i32 : BitVec 32 := 25#32
  let v3 : BitVec 32 := Scalar.addi c0_i32_0 c25_i32
  let c1_i32 : BitVec 32 := 1#32
  ⟨c0_i32_0, v3, c1_i32⟩
def k3_off1 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg13 : BitVec 32 := Scf.iv c0_i32_0 c1_i32 k3_t1
  let c400_i32 : BitVec 32 := 400#32
  let v4 : BitVec 32 := Scalar.muli arg13 c400_i32
  let v5 : BitVec 32 := Scalar.addi v2 v4
  ![v5.toNat]
@[reducible] def k3_t2_loop : Scf.Loop 32 :=
  let c0_i32_11 : BitVec 32 := 0#32
  let c100_i32 : BitVec 32 := 100#32
  let v10 : BitVec 32 := Scalar.addi c0_i32_11 c100_i32
  let c1_i32_12 : BitVec 32 := 1#32
  ⟨c0_i32_11, v10, c1_i32_12⟩
def k3_off2 (k3_t2 : Fin k3_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k3_t2
  let c4_i32 : BitVec 32 := 4#32
  let v11 : BitVec 32 := Scalar.muli arg14 c4_i32
  let v12 : BitVec 32 := Scalar.addi v11 c0_i32_14
  let v13 : Index := Scalar.indexCast v12
  let c0 : Index := 0#32
  ![v13.toNat, 0]
def k3_off3 (k3_t2 : Fin k3_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k3_t2
  let c4_i32 : BitVec 32 := 4#32
  let v11 : BitVec 32 := Scalar.muli arg14 c4_i32
  let v12 : BitVec 32 := Scalar.addi v11 c0_i32_14
  let v24 : Index := Scalar.indexCast v12
  let c16 : Index := 16#32
  ![v24.toNat, 16]
def k3_off4 (k3_t2 : Fin k3_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k3_t2
  let c4_i32 : BitVec 32 := 4#32
  let v11 : BitVec 32 := Scalar.muli arg14 c4_i32
  let v12 : BitVec 32 := Scalar.addi v11 c0_i32_14
  let v35 : Index := Scalar.indexCast v12
  let c32 : Index := 32#32
  ![v35.toNat, 32]
def k3_off5 (k3_t2 : Fin k3_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k3_t2
  let c4_i32 : BitVec 32 := 4#32
  let v11 : BitVec 32 := Scalar.muli arg14 c4_i32
  let v12 : BitVec 32 := Scalar.addi v11 c0_i32_14
  let v46 : Index := Scalar.indexCast v12
  let c48 : Index := 48#32
  ![v46.toNat, 48]
def k3_off6 (k3_t2 : Fin k3_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k3_t2
  let c4_i32 : BitVec 32 := 4#32
  let v11 : BitVec 32 := Scalar.muli arg14 c4_i32
  let v12 : BitVec 32 := Scalar.addi v11 c0_i32_14
  let v57 : Index := Scalar.indexCast v12
  let c64 : Index := 64#32
  ![v57.toNat, 64]
def k3_off7 (k3_t2 : Fin k3_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k3_t2
  let c4_i32 : BitVec 32 := 4#32
  let v11 : BitVec 32 := Scalar.muli arg14 c4_i32
  let v12 : BitVec 32 := Scalar.addi v11 c0_i32_14
  let v68 : Index := Scalar.indexCast v12
  let c80 : Index := 80#32
  ![v68.toNat, 80]
def k3_off8 (k3_t2 : Fin k3_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k3_t2
  let c4_i32 : BitVec 32 := 4#32
  let v11 : BitVec 32 := Scalar.muli arg14 c4_i32
  let v12 : BitVec 32 := Scalar.addi v11 c0_i32_14
  let v79 : Index := Scalar.indexCast v12
  let c96 : Index := 96#32
  ![v79.toNat, 96]
def k3_off9 (k3_t2 : Fin k3_t2_loop.trips) (c0_i32_14 : BitVec 32) : Fin 2 → Nat :=
  let c0_i32_11 : BitVec 32 := 0#32
  let c1_i32_12 : BitVec 32 := 1#32
  let arg14 : BitVec 32 := Scf.iv c0_i32_11 c1_i32_12 k3_t2
  let c4_i32 : BitVec 32 := 4#32
  let v11 : BitVec 32 := Scalar.muli arg14 c4_i32
  let v12 : BitVec 32 := Scalar.addi v11 c0_i32_14
  let v90 : Index := Scalar.indexCast v12
  let c112 : Index := 112#32
  ![v90.toNat, 112]
def k3_off10 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg13 : BitVec 32 := Scf.iv c0_i32_0 c1_i32 k3_t1
  let c400_i32 : BitVec 32 := 400#32
  let v4 : BitVec 32 := Scalar.muli arg13 c400_i32
  let v5 : BitVec 32 := Scalar.addi v2 v4
  let c0_i32_14_r2 : BitVec 32 := 0#32
  ![v5.toNat, 0]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  slices_S10000x2_S10000x1_0_0 : S10000x2.Slices ![0, 0] S10000x1
  shapeCasts_S10000x1_S10000 : S10000x1.ShapeCasts S10000
  bcast_S_S240 : S_.BroadcastsInDim S240 (![] : Fin 0 → Fin S240.rank)
  concatenates_S10000_S240_S10240_d0 : Shape.Concatenates [S10000, S240] S10240 0
  slices_S10000x2_S10000x1_0_1 : S10000x2.Slices ![0, 1] S10000x1
  inb_S119x128_S119x128_0_0 : ∀ a, (![0, 0] : Fin 2 → Nat) a + S119x128.size a ≤ S119x128.size a
  gathers_S119x128_S320x128 : S119x128.Gathers 0 S320x128
  inb_S4x128_S4x128_0_0 : ∀ a, (![0, 0] : Fin 2 → Nat) a + S4x128.size a ≤ S4x128.size a
  gathers_S4x128_S320x128 : S4x128.Gathers 0 S320x128
  h_S1x16 : 0 < S1x16.numel
  shapeCasts_S1x16_S16 : S1x16.ShapeCasts S16
  shapeCasts_S16_S1x16 : S16.ShapeCasts S1x16
  slices_S10240x128_S10000x128_0_0 : S10240x128.Slices ![0, 0] S10000x128
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  slices_S320000x2_S320000x1_0_0 : S320000x2.Slices ![0, 0] S320000x1
  shapeCasts_S320000x1_S320000 : S320000x1.ShapeCasts S320000
  slices_S320000x2_S320000x1_0_1 : S320000x2.Slices ![0, 1] S320000x1
  slices_S3x6x128_S1x6x128_0_0_0 : S3x6x128.Slices ![0, 0, 0] S1x6x128
  shapeCasts_S1x6x128_S6x128 : S1x6x128.ShapeCasts S6x128
  bcast_S6x128_S6x1x128_0_2 : S6x128.BroadcastsInDim S6x1x128 (![0, 2] : Fin 2 → Fin S6x1x128.rank)
  slices_S3x3x128_S1x3x128_0_0_0 : S3x3x128.Slices ![0, 0, 0] S1x3x128
  shapeCasts_S1x3x128_S3x128 : S1x3x128.ShapeCasts S3x128
  bcast_S3x128_S1x3x128_1_2 : S3x128.BroadcastsInDim S1x3x128 (![1, 2] : Fin 2 → Fin S1x3x128.rank)
  bcast_S6x1x128_S6x3x128_0_1_2 : S6x1x128.BroadcastsInDim S6x3x128 (![0, 1, 2] : Fin 3 → Fin S6x3x128.rank)
  bcast_S1x3x128_S6x3x128_0_1_2 : S1x3x128.BroadcastsInDim S6x3x128 (![0, 1, 2] : Fin 3 → Fin S6x3x128.rank)
  shapeCasts_S6x3x128_S18x128 : S6x3x128.ShapeCasts S18x128
  shapeCasts_S18x128_S1x18x1x128 : S18x128.ShapeCasts S1x18x1x128
  bcast_S1x18x1x128_S32x18x1x128_0_1_2_3 : S1x18x1x128.BroadcastsInDim S32x18x1x128 (![0, 1, 2, 3] : Fin 4 → Fin S32x18x1x128.rank)
  shapeCasts_S32x18x1x128_S576x128 : S32x18x1x128.ShapeCasts S576x128
  inb_S10000x128_S10000x128_0_0 : ∀ a, (![0, 0] : Fin 2 → Nat) a + S10000x128.size a ≤ S10000x128.size a
  gathers_S10000x128_S400x128 : S10000x128.Gathers 0 S400x128
  inb_S576x128_S576x128_0_0 : ∀ a, (![0, 0] : Fin 2 → Nat) a + S576x128.size a ≤ S576x128.size a
  gathers_S576x128_S400x128 : S576x128.Gathers 0 S400x128
  bcast_S_S10000x128 : S_.BroadcastsInDim S10000x128 (![] : Fin 0 → Fin S10000x128.rank)
  slices_S6x128_S1x128_4_0 : S6x128.Slices ![4, 0] S1x128
  shapeCasts_S1x128_S128 : S1x128.ShapeCasts S128
  slices_S3x128_S1x128_0_0 : S3x128.Slices ![0, 0] S1x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  slices_S3x256x128_S1x256x128_0_0_0 : S3x256x128.Slices ![0, 0, 0] S1x256x128
  shapeCasts_S1x256x128_S256x128 : S1x256x128.ShapeCasts S256x128
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x6x128_S1x6x128_1_0_0 : S3x6x128.Slices ![1, 0, 0] S1x6x128
  slices_S3x3x128_S1x3x128_1_0_0 : S3x3x128.Slices ![1, 0, 0] S1x3x128
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3x6x128_S1x6x128_2_0_0 : S3x6x128.Slices ![2, 0, 0] S1x6x128
  slices_S3x3x128_S1x3x128_2_0_0 : S3x3x128.Slices ![2, 0, 0] S1x3x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  gather_S320000_S320000x1_S320000_n_0_n_n_0_1_1_wf : GatherDims.WF S320000 S320000x1 S320000 [] [0] [] [0] [] 1 ![1]
  scatter_S10000x128_S320000x1_S320000x128_1_0_0_1_wf : ScatterDims.WF S10000x128 S320000x1 S320000x128 [1] [0] [0] 1
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []
  hcc0_scratch4 : 0 + S_.numel ≤ 20
  hcc0_scratch5 : 1 + S_.numel ≤ 20
  hcc0_scoped0 : 2 + S_.numel ≤ 20
  hcc0_scoped1 : 3 + S_.numel ≤ 20
  hcc0_scoped2 : 4 + S_.numel ≤ 20
  hcc1_scratch4 : 5 + S_.numel ≤ 20
  hcc1_scratch5 : 6 + S_.numel ≤ 20
  hcc1_scoped0 : 7 + S_.numel ≤ 20
  hcc1_scoped1 : 8 + S_.numel ≤ 20
  hcc1_scoped2 : 9 + S_.numel ≤ 20
  hcc2_scratch4 : 10 + S_.numel ≤ 20
  hcc2_scratch5 : 11 + S_.numel ≤ 20
  hcc2_scoped0 : 12 + S_.numel ≤ 20
  hcc2_scoped1 : 13 + S_.numel ≤ 20
  hcc2_scoped2 : 14 + S_.numel ≤ 20
  hcc3_scratch4 : 15 + S_.numel ≤ 20
  hcc3_scratch5 : 16 + S_.numel ≤ 20
  hcc3_scoped0 : 17 + S_.numel ≤ 20
  hcc3_scoped1 : 18 + S_.numel ≤ 20
  hcc3_scoped2 : 19 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S320.size a ≤ S10240.size a
  k0_t1_ok : k0_t1_loop.OK
  k0_off2_inb : ∀ k0_t1 : Fin k0_t1_loop.trips, ∀ (r : Fin 4), ∀ a, (k0_off2 k0_t1 (BitVec.ofNat 32 r.val)) a + S1x16.size a ≤ S320x128.size a
  k0_off3_inb : ∀ k0_t1 : Fin k0_t1_loop.trips, ∀ (r : Fin 4), ∀ a, (k0_off3 k0_t1 (BitVec.ofNat 32 r.val)) a + S1x16.size a ≤ S320x128.size a
  k0_off4_inb : ∀ k0_t1 : Fin k0_t1_loop.trips, ∀ (r : Fin 4), ∀ a, (k0_off4 k0_t1 (BitVec.ofNat 32 r.val)) a + S1x16.size a ≤ S320x128.size a
  k0_off5_inb : ∀ k0_t1 : Fin k0_t1_loop.trips, ∀ (r : Fin 4), ∀ a, (k0_off5 k0_t1 (BitVec.ofNat 32 r.val)) a + S1x16.size a ≤ S320x128.size a
  k0_off6_inb : ∀ k0_t1 : Fin k0_t1_loop.trips, ∀ (r : Fin 4), ∀ a, (k0_off6 k0_t1 (BitVec.ofNat 32 r.val)) a + S1x16.size a ≤ S320x128.size a
  k0_off7_inb : ∀ k0_t1 : Fin k0_t1_loop.trips, ∀ (r : Fin 4), ∀ a, (k0_off7 k0_t1 (BitVec.ofNat 32 r.val)) a + S1x16.size a ≤ S320x128.size a
  k0_off8_inb : ∀ k0_t1 : Fin k0_t1_loop.trips, ∀ (r : Fin 4), ∀ a, (k0_off8 k0_t1 (BitVec.ofNat 32 r.val)) a + S1x16.size a ≤ S320x128.size a
  k0_off9_inb : ∀ k0_t1 : Fin k0_t1_loop.trips, ∀ (r : Fin 4), ∀ a, (k0_off9 k0_t1 (BitVec.ofNat 32 r.val)) a + S1x16.size a ≤ S320x128.size a
  k0_off10_inb : ∀ i : grid0.Coords, ∀ a, (k0_off10 i) a + S320x128.size a ≤ S10240x128.size a
  hcore1 : grid1.bound 0 ≤ τ.nSC
  hsub1 : grid1.bound 1 ≤ τ.nSub
  k1_t1_ok : k1_t1_loop.OK
  k1_off1_inb : ∀ (i : grid1.Coords) (k1_t1 : Fin k1_t1_loop.trips), ∀ a, (k1_off1 i k1_t1) a + S400.size a ≤ S320000.size a
  k1_t2_ok : k1_t2_loop.OK
  k1_off2_inb : ∀ k1_t2 : Fin k1_t2_loop.trips, ∀ (r : Fin 4), ∀ a, (k1_off2 k1_t2 (BitVec.ofNat 32 r.val)) a + S1x16.size a ≤ S400x128.size a
  k1_off3_inb : ∀ k1_t2 : Fin k1_t2_loop.trips, ∀ (r : Fin 4), ∀ a, (k1_off3 k1_t2 (BitVec.ofNat 32 r.val)) a + S1x16.size a ≤ S400x128.size a
  k1_off4_inb : ∀ k1_t2 : Fin k1_t2_loop.trips, ∀ (r : Fin 4), ∀ a, (k1_off4 k1_t2 (BitVec.ofNat 32 r.val)) a + S1x16.size a ≤ S400x128.size a
  k1_off5_inb : ∀ k1_t2 : Fin k1_t2_loop.trips, ∀ (r : Fin 4), ∀ a, (k1_off5 k1_t2 (BitVec.ofNat 32 r.val)) a + S1x16.size a ≤ S400x128.size a
  k1_off6_inb : ∀ k1_t2 : Fin k1_t2_loop.trips, ∀ (r : Fin 4), ∀ a, (k1_off6 k1_t2 (BitVec.ofNat 32 r.val)) a + S1x16.size a ≤ S400x128.size a
  k1_off7_inb : ∀ k1_t2 : Fin k1_t2_loop.trips, ∀ (r : Fin 4), ∀ a, (k1_off7 k1_t2 (BitVec.ofNat 32 r.val)) a + S1x16.size a ≤ S400x128.size a
  k1_off8_inb : ∀ k1_t2 : Fin k1_t2_loop.trips, ∀ (r : Fin 4), ∀ a, (k1_off8 k1_t2 (BitVec.ofNat 32 r.val)) a + S1x16.size a ≤ S400x128.size a
  k1_off9_inb : ∀ k1_t2 : Fin k1_t2_loop.trips, ∀ (r : Fin 4), ∀ a, (k1_off9 k1_t2 (BitVec.ofNat 32 r.val)) a + S1x16.size a ≤ S400x128.size a
  k1_off10_inb : ∀ (i : grid1.Coords) (k1_t1 : Fin k1_t1_loop.trips), ∀ a, (k1_off10 i k1_t1) a + S400x128.size a ≤ S320000x128.size a
  hcore2 : grid2.bound 0 ≤ τ.nSC
  hsub2 : grid2.bound 1 ≤ τ.nSub
  k2_t1_ok : k2_t1_loop.OK
  k2_off1_inb : ∀ (i : grid2.Coords) (k2_t1 : Fin k2_t1_loop.trips), ∀ a, (k2_off1 i k2_t1) a + S400.size a ≤ S320000.size a
  k2_t2_ok : k2_t2_loop.OK
  k2_off2_inb : ∀ k2_t2 : Fin k2_t2_loop.trips, ∀ (r : Fin 4), ∀ a, (k2_off2 k2_t2 (BitVec.ofNat 32 r.val)) a + S1x16.size a ≤ S400x128.size a
  k2_off3_inb : ∀ k2_t2 : Fin k2_t2_loop.trips, ∀ (r : Fin 4), ∀ a, (k2_off3 k2_t2 (BitVec.ofNat 32 r.val)) a + S1x16.size a ≤ S400x128.size a
  k2_off4_inb : ∀ k2_t2 : Fin k2_t2_loop.trips, ∀ (r : Fin 4), ∀ a, (k2_off4 k2_t2 (BitVec.ofNat 32 r.val)) a + S1x16.size a ≤ S400x128.size a
  k2_off5_inb : ∀ k2_t2 : Fin k2_t2_loop.trips, ∀ (r : Fin 4), ∀ a, (k2_off5 k2_t2 (BitVec.ofNat 32 r.val)) a + S1x16.size a ≤ S400x128.size a
  k2_off6_inb : ∀ k2_t2 : Fin k2_t2_loop.trips, ∀ (r : Fin 4), ∀ a, (k2_off6 k2_t2 (BitVec.ofNat 32 r.val)) a + S1x16.size a ≤ S400x128.size a
  k2_off7_inb : ∀ k2_t2 : Fin k2_t2_loop.trips, ∀ (r : Fin 4), ∀ a, (k2_off7 k2_t2 (BitVec.ofNat 32 r.val)) a + S1x16.size a ≤ S400x128.size a
  k2_off8_inb : ∀ k2_t2 : Fin k2_t2_loop.trips, ∀ (r : Fin 4), ∀ a, (k2_off8 k2_t2 (BitVec.ofNat 32 r.val)) a + S1x16.size a ≤ S400x128.size a
  k2_off9_inb : ∀ k2_t2 : Fin k2_t2_loop.trips, ∀ (r : Fin 4), ∀ a, (k2_off9 k2_t2 (BitVec.ofNat 32 r.val)) a + S1x16.size a ≤ S400x128.size a
  k2_off10_inb : ∀ (i : grid2.Coords) (k2_t1 : Fin k2_t1_loop.trips), ∀ a, (k2_off10 i k2_t1) a + S400x128.size a ≤ S320000x128.size a
  hcore3 : grid3.bound 0 ≤ τ.nSC
  hsub3 : grid3.bound 1 ≤ τ.nSub
  k3_t1_ok : k3_t1_loop.OK
  k3_off1_inb : ∀ (i : grid3.Coords) (k3_t1 : Fin k3_t1_loop.trips), ∀ a, (k3_off1 i k3_t1) a + S400.size a ≤ S320000.size a
  k3_t2_ok : k3_t2_loop.OK
  k3_off2_inb : ∀ k3_t2 : Fin k3_t2_loop.trips, ∀ (r : Fin 4), ∀ a, (k3_off2 k3_t2 (BitVec.ofNat 32 r.val)) a + S1x16.size a ≤ S400x128.size a
  k3_off3_inb : ∀ k3_t2 : Fin k3_t2_loop.trips, ∀ (r : Fin 4), ∀ a, (k3_off3 k3_t2 (BitVec.ofNat 32 r.val)) a + S1x16.size a ≤ S400x128.size a
  k3_off4_inb : ∀ k3_t2 : Fin k3_t2_loop.trips, ∀ (r : Fin 4), ∀ a, (k3_off4 k3_t2 (BitVec.ofNat 32 r.val)) a + S1x16.size a ≤ S400x128.size a
  k3_off5_inb : ∀ k3_t2 : Fin k3_t2_loop.trips, ∀ (r : Fin 4), ∀ a, (k3_off5 k3_t2 (BitVec.ofNat 32 r.val)) a + S1x16.size a ≤ S400x128.size a
  k3_off6_inb : ∀ k3_t2 : Fin k3_t2_loop.trips, ∀ (r : Fin 4), ∀ a, (k3_off6 k3_t2 (BitVec.ofNat 32 r.val)) a + S1x16.size a ≤ S400x128.size a
  k3_off7_inb : ∀ k3_t2 : Fin k3_t2_loop.trips, ∀ (r : Fin 4), ∀ a, (k3_off7 k3_t2 (BitVec.ofNat 32 r.val)) a + S1x16.size a ≤ S400x128.size a
  k3_off8_inb : ∀ k3_t2 : Fin k3_t2_loop.trips, ∀ (r : Fin 4), ∀ a, (k3_off8 k3_t2 (BitVec.ofNat 32 r.val)) a + S1x16.size a ≤ S400x128.size a
  k3_off9_inb : ∀ k3_t2 : Fin k3_t2_loop.trips, ∀ (r : Fin 4), ∀ a, (k3_off9 k3_t2 (BitVec.ofNat 32 r.val)) a + S1x16.size a ≤ S400x128.size a
  k3_off10_inb : ∀ (i : grid3.Coords) (k3_t1 : Fin k3_t1_loop.trips), ∀ a, (k3_off10 i k3_t1) a + S400x128.size a ≤ S320000x128.size a

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc1_scratch4 : DmaSems sig S_ := SemArray.consecutive 5 S_ hcc1_scratch4
abbrev cc1_scratch5 : DmaSems sig S_ := SemArray.consecutive 6 S_ hcc1_scratch5
abbrev cc1_scoped0 : DmaSems sig S_ := SemArray.consecutive 7 S_ hcc1_scoped0
abbrev cc1_scoped1 : DmaSems sig S_ := SemArray.consecutive 8 S_ hcc1_scoped1
abbrev cc1_scoped2 : DmaSems sig S_ := SemArray.consecutive 9 S_ hcc1_scoped2
abbrev cc2_scratch4 : DmaSems sig S_ := SemArray.consecutive 10 S_ hcc2_scratch4
abbrev cc2_scratch5 : DmaSems sig S_ := SemArray.consecutive 11 S_ hcc2_scratch5
abbrev cc2_scoped0 : DmaSems sig S_ := SemArray.consecutive 12 S_ hcc2_scoped0
abbrev cc2_scoped1 : DmaSems sig S_ := SemArray.consecutive 13 S_ hcc2_scoped1
abbrev cc2_scoped2 : DmaSems sig S_ := SemArray.consecutive 14 S_ hcc2_scoped2
abbrev cc3_scratch4 : DmaSems sig S_ := SemArray.consecutive 15 S_ hcc3_scratch4
abbrev cc3_scratch5 : DmaSems sig S_ := SemArray.consecutive 16 S_ hcc3_scratch5
abbrev cc3_scoped0 : DmaSems sig S_ := SemArray.consecutive 17 S_ hcc3_scoped0
abbrev cc3_scoped1 : DmaSems sig S_ := SemArray.consecutive 18 S_ hcc3_scoped1
abbrev cc3_scoped2 : DmaSems sig S_ := SemArray.consecutive 19 S_ hcc3_scoped2
def comparator_i32_i32_d0 : BitVec 32 × BitVec 32 → BitVec 32 × BitVec 32 → BitVec 1 :=
  fun l r =>
    let v2 := IntOp.cmpi .slt l.1 r.1
    v2
def gather_S320000_S320000x1_S320000_n_0_n_n_0_1_1 : GatherDims S320000 S320000x1 S320000 where
  offsetDims := []
  collapsedSliceDims := [0]
  operandBatchingDims := []
  startIndicesBatchingDims := []
  startIndexMap := [0]
  indexVectorDim := 1
  sliceSizes := ![1]
  wf := gather_S320000_S320000x1_S320000_n_0_n_n_0_1_1_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== ReferenceIdeal.lean ====
abbrev S10000x2 : Shape := ⟨2, ![10000, 2]⟩
abbrev S2x320000 : Shape := ⟨2, ![2, 320000]⟩
abbrev S320000x2 : Shape := ⟨2, ![320000, 2]⟩
abbrev S119x128 : Shape := ⟨2, ![119, 128]⟩
abbrev S4x128 : Shape := ⟨2, ![4, 128]⟩
abbrev S3x6x128 : Shape := ⟨3, ![3, 6, 128]⟩
abbrev S3x3x128 : Shape := ⟨3, ![3, 3, 128]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S10000x1 : Shape := ⟨2, ![10000, 1]⟩
abbrev S10000 : Shape := ⟨1, ![10000]⟩
abbrev S_ : Shape := ⟨0, ![]⟩
abbrev S10000x128 : Shape := ⟨2, ![10000, 128]⟩
abbrev S1x320000 : Shape := ⟨2, ![1, 320000]⟩
abbrev S320000 : Shape := ⟨1, ![320000]⟩
abbrev S1x6x128 : Shape := ⟨3, ![1, 6, 128]⟩
abbrev S6x128 : Shape := ⟨2, ![6, 128]⟩
abbrev S320000x1 : Shape := ⟨2, ![320000, 1]⟩
abbrev S320000x128 : Shape := ⟨2, ![320000, 128]⟩
abbrev S1x3x128 : Shape := ⟨3, ![1, 3, 128]⟩
abbrev S1x128 : Shape := ⟨2, ![1, 128]⟩
abbrev S128 : Shape := ⟨1, ![128]⟩
abbrev S1x128x256 : Shape := ⟨3, ![1, 128, 256]⟩
abbrev S128x256 : Shape := ⟨2, ![128, 256]⟩
abbrev S10000x256 : Shape := ⟨2, ![10000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩

abbrev nBuf : Space → Nat
  | .hbm => 415
  | .vmem => 0
  | .smem => 0
  | _ => 0

abbrev hbmTy0_0 (i : Nat) : BufTy := match i % 128 with
  | 0 => ⟨S10000x2, .i32⟩
  | 1 => ⟨S2x320000, .i32⟩
  | 2 => ⟨S320000x2, .i32⟩
  | 3 => ⟨S119x128, .f32⟩
  | 4 => ⟨S4x128, .f32⟩
  | 5 => ⟨S3x6x128, .f32⟩
  | 6 => ⟨S3x3x128, .f32⟩
  | 7 => ⟨S3x128x256, .f32⟩
  | 8 => ⟨S3x256, .f32⟩
  | 9 => ⟨S3x256x128, .f32⟩
  | 10 => ⟨S3x128, .f32⟩
  | 11 => ⟨S3x128, .f32⟩
  | 12 => ⟨S3x128, .f32⟩
  | 13 => ⟨S10000x1, .i32⟩
  | 14 => ⟨S10000, .i32⟩
  | 15 => ⟨S_, .i32⟩
  | 16 => ⟨S10000, .i32⟩
  | 17 => ⟨S10000, .i1⟩
  | 18 => ⟨S_, .i32⟩
  | 19 => ⟨S10000, .i32⟩
  | 20 => ⟨S10000, .i32⟩
  | 21 => ⟨S10000, .i32⟩
  | 22 => ⟨S10000x1, .i32⟩
  | 23 => ⟨S10000x128, .f32⟩
  | 24 => ⟨S10000x1, .i32⟩
  | 25 => ⟨S10000, .i32⟩
  | 26 => ⟨S_, .i32⟩
  | 27 => ⟨S10000, .i32⟩
  | 28 => ⟨S10000, .i1⟩
  | 29 => ⟨S_, .i32⟩
  | 30 => ⟨S10000, .i32⟩
  | 31 => ⟨S10000, .i32⟩
  | 32 => ⟨S10000, .i32⟩
  | 33 => ⟨S10000x1, .i32⟩
  | 34 => ⟨S10000x128, .f32⟩
  | 35 => ⟨S10000x128, .f32⟩
  | 36 => ⟨S1x320000, .i32⟩
  | 37 => ⟨S320000, .i32⟩
  | 38 => ⟨S1x320000, .i32⟩
  | 39 => ⟨S320000, .i32⟩
  | 40 => ⟨S1x6x128, .f32⟩
  | 41 => ⟨S6x128, .f32⟩
  | 42 => ⟨S320000x1, .i32⟩
  | 43 => ⟨S320000, .i32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x128, .f32⟩
  | 53 => ⟨S1x3x128, .f32⟩
  | 54 => ⟨S3x128, .f32⟩
  | 55 => ⟨S320000x1, .i32⟩
  | 56 => ⟨S320000, .i32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x128, .f32⟩
  | 66 => ⟨S320000x128, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S320000x128, .f32⟩
  | 76 => ⟨S320000x128, .f32⟩
  | 77 => ⟨S_, .f32⟩
  | 78 => ⟨S10000x128, .f32⟩
  | 79 => ⟨S320000x1, .i32⟩
  | 80 => ⟨S10000x128, .f32⟩
  | 81 => ⟨S1x6x128, .f32⟩
  | 82 => ⟨S6x128, .f32⟩
  | 83 => ⟨S1x128, .f32⟩
  | 84 => ⟨S128, .f32⟩
  | 85 => ⟨S1x3x128, .f32⟩
  | 86 => ⟨S3x128, .f32⟩
  | 87 => ⟨S1x128, .f32⟩
  | 88 => ⟨S128, .f32⟩
  | 89 => ⟨S128, .f32⟩
  | 90 => ⟨S10000x128, .f32⟩
  | 91 => ⟨S1x128, .f32⟩
  | 92 => ⟨S10000x128, .f32⟩
  | 93 => ⟨S10000x128, .f32⟩
  | 94 => ⟨S1x128x256, .f32⟩
  | 95 => ⟨S128x256, .f32⟩
  | 96 => ⟨S10000x256, .f32⟩
  | 97 => ⟨S1x256, .f32⟩
  | 98 => ⟨S256, .f32⟩
  | 99 => ⟨S1x256, .f32⟩
  | 100 => ⟨S10000x256, .f32⟩
  | 101 => ⟨S10000x256, .f32⟩
  | 102 => ⟨S_, .f32⟩
  | 103 => ⟨S10000x256, .f32⟩
  | 104 => ⟨S10000x256, .f32⟩
  | 105 => ⟨S1x256x128, .f32⟩
  | 106 => ⟨S256x128, .f32⟩
  | 107 => ⟨S10000x128, .f32⟩
  | 108 => ⟨S1x128, .f32⟩
  | 109 => ⟨S128, .f32⟩
  | 110 => ⟨S1x128, .f32⟩
  | 111 => ⟨S10000x128, .f32⟩
  | 112 => ⟨S10000x128, .f32⟩
  | 113 => ⟨S_, .f32⟩
  | 114 => ⟨S128, .f32⟩
  | 115 => ⟨S_, .f32⟩
  | 116 => ⟨S128, .f32⟩
  | 117 => ⟨S128, .f32⟩
  | 118 => ⟨S_, .i32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S10000x128, .f32⟩
  | 126 => ⟨S10000x128, .f32⟩
  | 127 => ⟨S10000x128, .f32⟩
  | _ => ⟨S10000x2, .i32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S128, .f32⟩
  | 5 => ⟨S128, .f32⟩
  | 6 => ⟨S128, .f32⟩
  | 7 => ⟨S_, .f32⟩
  | 8 => ⟨S_, .i1⟩
  | 9 => ⟨S_, .f32⟩
  | 10 => ⟨S_, .f32⟩
  | 11 => ⟨S128, .f32⟩
  | 12 => ⟨S128, .f32⟩
  | 13 => ⟨S1x128, .f32⟩
  | 14 => ⟨S10000x128, .f32⟩
  | 15 => ⟨S10000x128, .f32⟩
  | 16 => ⟨S_, .f32⟩
  | 17 => ⟨S128, .f32⟩
  | 18 => ⟨S128, .f32⟩
  | 19 => ⟨S128, .f32⟩
  | 20 => ⟨S1x128, .f32⟩
  | 21 => ⟨S10000x128, .f32⟩
  | 22 => ⟨S10000x128, .f32⟩
  | 23 => ⟨S1x128, .f32⟩
  | 24 => ⟨S128, .f32⟩
  | 25 => ⟨S1x128, .f32⟩
  | 26 => ⟨S10000x128, .f32⟩
  | 27 => ⟨S10000x128, .f32⟩
  | 28 => ⟨S1x128, .f32⟩
  | 29 => ⟨S128, .f32⟩
  | 30 => ⟨S1x128, .f32⟩
  | 31 => ⟨S10000x128, .f32⟩
  | 32 => ⟨S10000x128, .f32⟩
  | 33 => ⟨S_, .f32⟩
  | 34 => ⟨S10000x128, .f32⟩
  | 35 => ⟨S10000x128, .f32⟩
  | 36 => ⟨S1x6x128, .f32⟩
  | 37 => ⟨S6x128, .f32⟩
  | 38 => ⟨S320000x1, .i32⟩
  | 39 => ⟨S320000, .i32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000x128, .f32⟩
  | 49 => ⟨S1x3x128, .f32⟩
  | 50 => ⟨S3x128, .f32⟩
  | 51 => ⟨S320000x1, .i32⟩
  | 52 => ⟨S320000, .i32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x128, .f32⟩
  | 62 => ⟨S320000x128, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x128, .f32⟩
  | 72 => ⟨S320000x128, .f32⟩
  | 73 => ⟨S_, .f32⟩
  | 74 => ⟨S10000x128, .f32⟩
  | 75 => ⟨S320000x1, .i32⟩
  | 76 => ⟨S10000x128, .f32⟩
  | 77 => ⟨S1x6x128, .f32⟩
  | 78 => ⟨S6x128, .f32⟩
  | 79 => ⟨S1x128, .f32⟩
  | 80 => ⟨S128, .f32⟩
  | 81 => ⟨S1x3x128, .f32⟩
  | 82 => ⟨S3x128, .f32⟩
  | 83 => ⟨S1x128, .f32⟩
  | 84 => ⟨S128, .f32⟩
  | 85 => ⟨S128, .f32⟩
  | 86 => ⟨S10000x128, .f32⟩
  | 87 => ⟨S1x128, .f32⟩
  | 88 => ⟨S10000x128, .f32⟩
  | 89 => ⟨S10000x128, .f32⟩
  | 90 => ⟨S1x128x256, .f32⟩
  | 91 => ⟨S128x256, .f32⟩
  | 92 => ⟨S10000x256, .f32⟩
  | 93 => ⟨S1x256, .f32⟩
  | 94 => ⟨S256, .f32⟩
  | 95 => ⟨S1x256, .f32⟩
  | 96 => ⟨S10000x256, .f32⟩
  | 97 => ⟨S10000x256, .f32⟩
  | 98 => ⟨S_, .f32⟩
  | 99 => ⟨S10000x256, .f32⟩
  | 100 => ⟨S10000x256, .f32⟩
  | 101 => ⟨S1x256x128, .f32⟩
  | 102 => ⟨S256x128, .f32⟩
  | 103 => ⟨S10000x128, .f32⟩
  | 104 => ⟨S1x128, .f32⟩
  | 105 => ⟨S128, .f32⟩
  | 106 => ⟨S1x128, .f32⟩
  | 107 => ⟨S10000x128, .f32⟩
  | 108 => ⟨S10000x128, .f32⟩
  | 109 => ⟨S_, .f32⟩
  | 110 => ⟨S128, .f32⟩
  | 111 => ⟨S_, .f32⟩
  | 112 => ⟨S128, .f32⟩
  | 113 => ⟨S128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S10000x128, .f32⟩
  | 122 => ⟨S10000x128, .f32⟩
  | 123 => ⟨S10000x128, .f32⟩
  | 124 => ⟨S_, .f32⟩
  | 125 => ⟨S_, .f32⟩
  | 126 => ⟨S_, .f32⟩
  | 127 => ⟨S_, .f32⟩
  | _ => ⟨S10000x2, .i32⟩

abbrev hbmTy0_2 (i : Nat) : BufTy := match i % 128 with
  | 0 => ⟨S128, .f32⟩
  | 1 => ⟨S128, .f32⟩
  | 2 => ⟨S128, .f32⟩
  | 3 => ⟨S_, .f32⟩
  | 4 => ⟨S_, .i1⟩
  | 5 => ⟨S_, .f32⟩
  | 6 => ⟨S_, .f32⟩
  | 7 => ⟨S128, .f32⟩
  | 8 => ⟨S128, .f32⟩
  | 9 => ⟨S1x128, .f32⟩
  | 10 => ⟨S10000x128, .f32⟩
  | 11 => ⟨S10000x128, .f32⟩
  | 12 => ⟨S_, .f32⟩
  | 13 => ⟨S128, .f32⟩
  | 14 => ⟨S128, .f32⟩
  | 15 => ⟨S128, .f32⟩
  | 16 => ⟨S1x128, .f32⟩
  | 17 => ⟨S10000x128, .f32⟩
  | 18 => ⟨S10000x128, .f32⟩
  | 19 => ⟨S1x128, .f32⟩
  | 20 => ⟨S128, .f32⟩
  | 21 => ⟨S1x128, .f32⟩
  | 22 => ⟨S10000x128, .f32⟩
  | 23 => ⟨S10000x128, .f32⟩
  | 24 => ⟨S1x128, .f32⟩
  | 25 => ⟨S128, .f32⟩
  | 26 => ⟨S1x128, .f32⟩
  | 27 => ⟨S10000x128, .f32⟩
  | 28 => ⟨S10000x128, .f32⟩
  | 29 => ⟨S_, .f32⟩
  | 30 => ⟨S10000x128, .f32⟩
  | 31 => ⟨S10000x128, .f32⟩
  | 32 => ⟨S1x6x128, .f32⟩
  | 33 => ⟨S6x128, .f32⟩
  | 34 => ⟨S320000x1, .i32⟩
  | 35 => ⟨S320000, .i32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x128, .f32⟩
  | 45 => ⟨S1x3x128, .f32⟩
  | 46 => ⟨S3x128, .f32⟩
  | 47 => ⟨S320000x1, .i32⟩
  | 48 => ⟨S320000, .i32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x128, .f32⟩
  | 58 => ⟨S320000x128, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x128, .f32⟩
  | 68 => ⟨S320000x128, .f32⟩
  | 69 => ⟨S_, .f32⟩
  | 70 => ⟨S10000x128, .f32⟩
  | 71 => ⟨S320000x1, .i32⟩
  | 72 => ⟨S10000x128, .f32⟩
  | 73 => ⟨S1x6x128, .f32⟩
  | 74 => ⟨S6x128, .f32⟩
  | 75 => ⟨S1x128, .f32⟩
  | 76 => ⟨S128, .f32⟩
  | 77 => ⟨S1x3x128, .f32⟩
  | 78 => ⟨S3x128, .f32⟩
  | 79 => ⟨S1x128, .f32⟩
  | 80 => ⟨S128, .f32⟩
  | 81 => ⟨S128, .f32⟩
  | 82 => ⟨S10000x128, .f32⟩
  | 83 => ⟨S1x128, .f32⟩
  | 84 => ⟨S10000x128, .f32⟩
  | 85 => ⟨S10000x128, .f32⟩
  | 86 => ⟨S1x128x256, .f32⟩
  | 87 => ⟨S128x256, .f32⟩
  | 88 => ⟨S10000x256, .f32⟩
  | 89 => ⟨S1x256, .f32⟩
  | 90 => ⟨S256, .f32⟩
  | 91 => ⟨S1x256, .f32⟩
  | 92 => ⟨S10000x256, .f32⟩
  | 93 => ⟨S10000x256, .f32⟩
  | 94 => ⟨S_, .f32⟩
  | 95 => ⟨S10000x256, .f32⟩
  | 96 => ⟨S10000x256, .f32⟩
  | 97 => ⟨S1x256x128, .f32⟩
  | 98 => ⟨S256x128, .f32⟩
  | 99 => ⟨S10000x128, .f32⟩
  | 100 => ⟨S1x128, .f32⟩
  | 101 => ⟨S128, .f32⟩
  | 102 => ⟨S1x128, .f32⟩
  | 103 => ⟨S10000x128, .f32⟩
  | 104 => ⟨S10000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S10000x128, .f32⟩
  | 118 => ⟨S10000x128, .f32⟩
  | 119 => ⟨S10000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S10000x2, .i32⟩

abbrev hbmTy0_3 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S10000x128, .f32⟩
  | 7 => ⟨S10000x128, .f32⟩
  | 8 => ⟨S_, .f32⟩
  | 9 => ⟨S128, .f32⟩
  | 10 => ⟨S128, .f32⟩
  | 11 => ⟨S128, .f32⟩
  | 12 => ⟨S1x128, .f32⟩
  | 13 => ⟨S10000x128, .f32⟩
  | 14 => ⟨S10000x128, .f32⟩
  | 15 => ⟨S1x128, .f32⟩
  | 16 => ⟨S128, .f32⟩
  | 17 => ⟨S1x128, .f32⟩
  | 18 => ⟨S10000x128, .f32⟩
  | 19 => ⟨S10000x128, .f32⟩
  | 20 => ⟨S1x128, .f32⟩
  | 21 => ⟨S128, .f32⟩
  | 22 => ⟨S1x128, .f32⟩
  | 23 => ⟨S10000x128, .f32⟩
  | 24 => ⟨S10000x128, .f32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | _ => ⟨S10000x2, .i32⟩

abbrev hbmTy (i : Nat) : BufTy := match i / 128 with
  | 0 => hbmTy0_0 i
  | 1 => hbmTy0_1 i
  | 2 => hbmTy0_2 i
  | 3 => hbmTy0_3 i
  | _ => ⟨S10000x2, .i32⟩

abbrev bufTy : (tb : Table) → Fin (tcTables nBuf tb) → BufTy
  | .hbm, ⟨i, _⟩ => hbmTy i
  | _, _ => ⟨S10000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_9 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_10 : Ref sig .tc := ⟨.hbm, 113, rfl⟩
abbrev main_v88 : Ref sig .tc := ⟨.hbm, 114, rfl⟩
abbrev main_cst_11 : Ref sig .tc := ⟨.hbm, 115, rfl⟩
abbrev main_v89 : Ref sig .tc := ⟨.hbm, 116, rfl⟩
abbrev main_v90 : Ref sig .tc := ⟨.hbm, 117, rfl⟩
abbrev main_c_12 : Ref sig .tc := ⟨.hbm, 118, rfl⟩
abbrev main_call0_cst : Ref sig .tc := ⟨.hbm, 119, rfl⟩
abbrev main_call0_v0 : Ref sig .tc := ⟨.hbm, 120, rfl⟩
abbrev main_call0_v1 : Ref sig .tc := ⟨.hbm, 121, rfl⟩
abbrev main_call0_cst_0 : Ref sig .tc := ⟨.hbm, 122, rfl⟩
abbrev main_call0_v2 : Ref sig .tc := ⟨.hbm, 123, rfl⟩
abbrev main_call0_v3 : Ref sig .tc := ⟨.hbm, 124, rfl⟩
abbrev main_call0_v4 : Ref sig .tc := ⟨.hbm, 125, rfl⟩
abbrev main_call0_v5 : Ref sig .tc := ⟨.hbm, 126, rfl⟩
abbrev main_call0_v6 : Ref sig .tc := ⟨.hbm, 127, rfl⟩
abbrev main_call0_v7 : Ref sig .tc := ⟨.hbm, 128, rfl⟩
abbrev main_call0_cst_1 : Ref sig .tc := ⟨.hbm, 129, rfl⟩
abbrev main_call0_v8 : Ref sig .tc := ⟨.hbm, 130, rfl⟩
abbrev main_call0_cst_2 : Ref sig .tc := ⟨.hbm, 131, rfl⟩
abbrev main_call0_v9 : Ref sig .tc := ⟨.hbm, 132, rfl⟩
abbrev main_call0_v10 : Ref sig .tc := ⟨.hbm, 133, rfl⟩
abbrev main_call0_v11 : Ref sig .tc := ⟨.hbm, 134, rfl⟩
abbrev main_call0_cst_3 : Ref sig .tc := ⟨.hbm, 135, rfl⟩
abbrev main_call0_v12 : Ref sig .tc := ⟨.hbm, 136, rfl⟩
abbrev main_call0_cst_4 : Ref sig .tc := ⟨.hbm, 137, rfl⟩
abbrev main_call0_call0_v0 : Ref sig .tc := ⟨.hbm, 138, rfl⟩
abbrev main_call0_call0_v1 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_13 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_14 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_15 : Ref sig .tc := ⟨.hbm, 168, rfl⟩
abbrev main_v117 : Ref sig .tc := ⟨.hbm, 169, rfl⟩
abbrev main_v118 : Ref sig .tc := ⟨.hbm, 170, rfl⟩
abbrev main_c_16 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_c_17 : Ref sig .tc := ⟨.hbm, 181, rfl⟩
abbrev main_v128 : Ref sig .tc := ⟨.hbm, 182, rfl⟩
abbrev main_v129 : Ref sig .tc := ⟨.hbm, 183, rfl⟩
abbrev main_c_18 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_c_19 : Ref sig .tc := ⟨.hbm, 191, rfl⟩
abbrev main_v136 : Ref sig .tc := ⟨.hbm, 192, rfl⟩
abbrev main_v137 : Ref sig .tc := ⟨.hbm, 193, rfl⟩
abbrev main_c_20 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_21 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_22 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_cst_23 : Ref sig .tc := ⟨.hbm, 237, rfl⟩
abbrev main_v178 : Ref sig .tc := ⟨.hbm, 238, rfl⟩
abbrev main_cst_24 : Ref sig .tc := ⟨.hbm, 239, rfl⟩
abbrev main_v179 : Ref sig .tc := ⟨.hbm, 240, rfl⟩
abbrev main_v180 : Ref sig .tc := ⟨.hbm, 241, rfl⟩
abbrev main_c_25 : Ref sig .tc := ⟨.hbm, 242, rfl⟩
abbrev main_call1_cst : Ref sig .tc := ⟨.hbm, 243, rfl⟩
abbrev main_call1_v0 : Ref sig .tc := ⟨.hbm, 244, rfl⟩
abbrev main_call1_v1 : Ref sig .tc := ⟨.hbm, 245, rfl⟩
abbrev main_call1_cst_0 : Ref sig .tc := ⟨.hbm, 246, rfl⟩
abbrev main_call1_v2 : Ref sig .tc := ⟨.hbm, 247, rfl⟩
abbrev main_call1_v3 : Ref sig .tc := ⟨.hbm, 248, rfl⟩
abbrev main_call1_v4 : Ref sig .tc := ⟨.hbm, 249, rfl⟩
abbrev main_call1_v5 : Ref sig .tc := ⟨.hbm, 250, rfl⟩
abbrev main_call1_v6 : Ref sig .tc := ⟨.hbm, 251, rfl⟩
abbrev main_call1_v7 : Ref sig .tc := ⟨.hbm, 252, rfl⟩
abbrev main_call1_cst_1 : Ref sig .tc := ⟨.hbm, 253, rfl⟩
abbrev main_call1_v8 : Ref sig .tc := ⟨.hbm, 254, rfl⟩
abbrev main_call1_cst_2 : Ref sig .tc := ⟨.hbm, 255, rfl⟩
abbrev main_call1_v9 : Ref sig .tc := ⟨.hbm, 256, rfl⟩
abbrev main_call1_v10 : Ref sig .tc := ⟨.hbm, 257, rfl⟩
abbrev main_call1_v11 : Ref sig .tc := ⟨.hbm, 258, rfl⟩
abbrev main_call1_cst_3 : Ref sig .tc := ⟨.hbm, 259, rfl⟩
abbrev main_call1_v12 : Ref sig .tc := ⟨.hbm, 260, rfl⟩
abbrev main_call1_cst_4 : Ref sig .tc := ⟨.hbm, 261, rfl⟩
abbrev main_call1_call0_v0 : Ref sig .tc := ⟨.hbm, 262, rfl⟩
abbrev main_call1_call0_v1 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_cst_26 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_cst_27 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_c_28 : Ref sig .tc := ⟨.hbm, 292, rfl⟩
abbrev main_v207 : Ref sig .tc := ⟨.hbm, 293, rfl⟩
abbrev main_v208 : Ref sig .tc := ⟨.hbm, 294, rfl⟩
abbrev main_c_29 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_c_30 : Ref sig .tc := ⟨.hbm, 305, rfl⟩
abbrev main_v218 : Ref sig .tc := ⟨.hbm, 306, rfl⟩
abbrev main_v219 : Ref sig .tc := ⟨.hbm, 307, rfl⟩
abbrev main_c_31 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_c_32 : Ref sig .tc := ⟨.hbm, 315, rfl⟩
abbrev main_v226 : Ref sig .tc := ⟨.hbm, 316, rfl⟩
abbrev main_v227 : Ref sig .tc := ⟨.hbm, 317, rfl⟩
abbrev main_c_33 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_cst_34 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_cst_35 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_v262 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_cst_36 : Ref sig .tc := ⟨.hbm, 361, rfl⟩
abbrev main_v268 : Ref sig .tc := ⟨.hbm, 362, rfl⟩
abbrev main_cst_37 : Ref sig .tc := ⟨.hbm, 363, rfl⟩
abbrev main_v269 : Ref sig .tc := ⟨.hbm, 364, rfl⟩
abbrev main_v270 : Ref sig .tc := ⟨.hbm, 365, rfl⟩
abbrev main_c_38 : Ref sig .tc := ⟨.hbm, 366, rfl⟩
abbrev main_call2_cst : Ref sig .tc := ⟨.hbm, 367, rfl⟩
abbrev main_call2_v0 : Ref sig .tc := ⟨.hbm, 368, rfl⟩
abbrev main_call2_v1 : Ref sig .tc := ⟨.hbm, 369, rfl⟩
abbrev main_call2_cst_0 : Ref sig .tc := ⟨.hbm, 370, rfl⟩
abbrev main_call2_v2 : Ref sig .tc := ⟨.hbm, 371, rfl⟩
abbrev main_call2_v3 : Ref sig .tc := ⟨.hbm, 372, rfl⟩
abbrev main_call2_v4 : Ref sig .tc := ⟨.hbm, 373, rfl⟩
abbrev main_call2_v5 : Ref sig .tc := ⟨.hbm, 374, rfl⟩
abbrev main_call2_v6 : Ref sig .tc := ⟨.hbm, 375, rfl⟩
abbrev main_call2_v7 : Ref sig .tc := ⟨.hbm, 376, rfl⟩
abbrev main_call2_cst_1 : Ref sig .tc := ⟨.hbm, 377, rfl⟩
abbrev main_call2_v8 : Ref sig .tc := ⟨.hbm, 378, rfl⟩
abbrev main_call2_cst_2 : Ref sig .tc := ⟨.hbm, 379, rfl⟩
abbrev main_call2_v9 : Ref sig .tc := ⟨.hbm, 380, rfl⟩
abbrev main_call2_v10 : Ref sig .tc := ⟨.hbm, 381, rfl⟩
abbrev main_call2_v11 : Ref sig .tc := ⟨.hbm, 382, rfl⟩
abbrev main_call2_cst_3 : Ref sig .tc := ⟨.hbm, 383, rfl⟩
abbrev main_call2_v12 : Ref sig .tc := ⟨.hbm, 384, rfl⟩
abbrev main_call2_cst_4 : Ref sig .tc := ⟨.hbm, 385, rfl⟩
abbrev main_call2_call0_v0 : Ref sig .tc := ⟨.hbm, 386, rfl⟩
abbrev main_call2_call0_v1 : Ref sig .tc := ⟨.hbm, 387, rfl⟩
abbrev main_v271 : Ref sig .tc := ⟨.hbm, 388, rfl⟩
abbrev main_v272 : Ref sig .tc := ⟨.hbm, 389, rfl⟩
abbrev main_v273 : Ref sig .tc := ⟨.hbm, 390, rfl⟩
abbrev main_v274 : Ref sig .tc := ⟨.hbm, 391, rfl⟩
abbrev main_cst_39 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_v278 : Ref sig .tc := ⟨.hbm, 396, rfl⟩
abbrev main_v279 : Ref sig .tc := ⟨.hbm, 397, rfl⟩
abbrev main_v280 : Ref sig .tc := ⟨.hbm, 398, rfl⟩
abbrev main_v281 : Ref sig .tc := ⟨.hbm, 399, rfl⟩
abbrev main_v282 : Ref sig .tc := ⟨.hbm, 400, rfl⟩
abbrev main_v283 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_v287 : Ref sig .tc := ⟨.hbm, 405, rfl⟩
abbrev main_v288 : Ref sig .tc := ⟨.hbm, 406, rfl⟩
abbrev main_v289 : Ref sig .tc := ⟨.hbm, 407, rfl⟩
abbrev main_v290 : Ref sig .tc := ⟨.hbm, 408, rfl⟩
abbrev main_cst_40 : Ref sig .tc := ⟨.hbm, 409, rfl⟩
abbrev main_v291 : Ref sig .tc := ⟨.hbm, 410, rfl⟩
abbrev main_v292 : Ref sig .tc := ⟨.hbm, 411, rfl⟩
abbrev main_cst_41 : Ref sig .tc := ⟨.hbm, 412, rfl⟩
abbrev main_v293 : Ref sig .tc := ⟨.hbm, 413, rfl⟩
abbrev main_v294 : Ref sig .tc := ⟨.hbm, 414, rfl⟩

abbrev nD : Nat := 1
abbrev τ : Topo := Topo.v7x

variable {F : FTy → Type} [FloatOps F]

class Facts₀ : Prop where
  slices_S10000x2_S10000x1_0_0 : S10000x2.Slices ![0, 0] S10000x1
  shapeCasts_S10000x1_S10000 : S10000x1.ShapeCasts S10000
  bcast_S_S10000 : S_.BroadcastsInDim S10000 (![] : Fin 0 → Fin S10000.rank)
  bcast_S10000_S10000x1_0 : S10000.BroadcastsInDim S10000x1 (![0] : Fin 1 → Fin S10000x1.rank)
  slices_S10000x2_S10000x1_0_1 : S10000x2.Slices ![0, 1] S10000x1
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S3x6x128_S1x6x128_0_0_0 : S3x6x128.Slices ![0, 0, 0] S1x6x128
  shapeCasts_S1x6x128_S6x128 : S1x6x128.ShapeCasts S6x128
  slices_S320000x2_S320000x1_0_0 : S320000x2.Slices ![0, 0] S320000x1
  shapeCasts_S320000x1_S320000 : S320000x1.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S3x3x128_S1x3x128_0_0_0 : S3x3x128.Slices ![0, 0, 0] S1x3x128
  shapeCasts_S1x3x128_S3x128 : S1x3x128.ShapeCasts S3x128
  slices_S320000x2_S320000x1_0_1 : S320000x2.Slices ![0, 1] S320000x1
  bcast_S_S10000x128 : S_.BroadcastsInDim S10000x128 (![] : Fin 0 → Fin S10000x128.rank)
  slices_S6x128_S1x128_4_0 : S6x128.Slices ![4, 0] S1x128
  shapeCasts_S1x128_S128 : S1x128.ShapeCasts S128
  slices_S3x128_S1x128_0_0 : S3x128.Slices ![0, 0] S1x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  slices_S3x256x128_S1x256x128_0_0_0 : S3x256x128.Slices ![0, 0, 0] S1x256x128
  shapeCasts_S1x256x128_S256x128 : S1x256x128.ShapeCasts S256x128
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x6x128_S1x6x128_1_0_0 : S3x6x128.Slices ![1, 0, 0] S1x6x128
  slices_S3x3x128_S1x3x128_1_0_0 : S3x3x128.Slices ![1, 0, 0] S1x3x128
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3x6x128_S1x6x128_2_0_0 : S3x6x128.Slices ![2, 0, 0] S1x6x128
  slices_S3x3x128_S1x3x128_2_0_0 : S3x3x128.Slices ![2, 0, 0] S1x3x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  gather_S119x128_S10000x1_S10000x128_1_0_n_n_0_1_1128_wf : GatherDims.WF S119x128 S10000x1 S10000x128 [1] [0] [] [0] [] 1 ![1, 128]
  gather_S4x128_S10000x1_S10000x128_1_0_n_n_0_1_1128_wf : GatherDims.WF S4x128 S10000x1 S10000x128 [1] [0] [] [0] [] 1 ![1, 128]
  gather_S6x128_S320000x1_S320000x128_1_0_n_n_0_1_1128_wf : GatherDims.WF S6x128 S320000x1 S320000x128 [1] [0] [] [0] [] 1 ![1, 128]
  gather_S3x128_S320000x1_S320000x128_1_0_n_n_0_1_1128_wf : GatherDims.WF S3x128 S320000x1 S320000x128 [1] [0] [] [0] [] 1 ![1, 128]
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []

variable [Facts₀]

def gather_S119x128_S10000x1_S10000x128_1_0_n_n_0_1_1128 : GatherDims S119x128 S10000x1 S10000x128 where
  offsetDims := [1]
  collapsedSliceDims := [0]
  operandBatchingDims := []
  startIndicesBatchingDims := []
  startIndexMap := [0]
  indexVectorDim := 1
  sliceSizes := ![1, 128]
  wf := gather_S119x128_S10000x1_S10000x128_1_0_n_n_0_1_1128_wf
def gather_S4x128_S10000x1_S10000x128_1_0_n_n_0_1_1128 : GatherDims S4x128 S10000x1 S10000x128 where
  offsetDims := [1]
  collapsedSliceDims := [0]
  operandBatchingDims := []
  startIndicesBatchingDims := []
  startIndexMap := [0]
  indexVectorDim := 1
  sliceSizes := ![1, 128]
  wf := gather_S4x128_S10000x1_S10000x128_1_0_n_n_0_1_1128_wf
def gather_S6x128_S320000x1_S320000x128_1_0_n_n_0_1_1128 : GatherDims S6x128 S320000x1 S320000x128 where
  offsetDims := [1]
  collapsedSliceDims := [0]
  operandBatchingDims := []
  startIndicesBatchingDims := []
  startIndexMap := [0]
  indexVectorDim := 1
  sliceSizes := ![1, 128]
  wf := gather_S6x128_S320000x1_S320000x128_1_0_n_n_0_1_1128_wf
def gather_S3x128_S320000x1_S320000x128_1_0_n_n_0_1_1128 : GatherDims S3x128 S320000x1 S320000x128 where
  offsetDims := [1]
  collapsedSliceDims := [0]
  operandBatchingDims := []
  startIndicesBatchingDims := []
  startIndexMap := [0]
  indexVectorDim := 1
  sliceSizes := ![1, 128]
  wf := gather_S3x128_S320000x1_S320000x128_1_0_n_n_0_1_1128_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KI.Ops.lean ====
import proofs.«208129_g65403761983635_cont_9to1_m_1354_7_alg».proof.KernelIdeal
import proofs.«208129_g65403761983635_cont_9to1_m_1354_7_alg».proof.Proof.Gen.KernelIdeal
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

abbrev opsA0 : List (HloOp τ sig (Elt F)) :=
  [ StableHlo.unary main_arg0 main_v0 (extractStridedSlice S10000x1 ![0, 0] · slices_S10000x2_S10000x1_0_0),
    StableHlo.reshape main_v0 main_v1 rfl shapeCasts_S10000x1_S10000,
    StableHlo.nullary main_c (constantI S_ 32 0#32),
    StableHlo.unary main_c main_v2 (broadcastInDim S240 ![] bcast_S_S240),
    StableHlo.binary main_v1 main_v2 main_v3 (fun a b => concatenate S10240 0 [⟨S10000, a⟩, ⟨S240, b⟩] concatenates_S10000_S240_S10240_d0),
    StableHlo.unary main_arg0 main_v4 (extractStridedSlice S10000x1 ![0, 1] · slices_S10000x2_S10000x1_0_1),
    StableHlo.reshape main_v4 main_v5 rfl shapeCasts_S10000x1_S10000,
    StableHlo.nullary main_c_0 (constantI S_ 32 0#32),
    StableHlo.unary main_c_0 main_v6 (broadcastInDim S240 ![] bcast_S_S240),
    StableHlo.binary main_v5 main_v6 main_v7 (fun a b => concatenate S10240 0 [⟨S10000, a⟩, ⟨S240, b⟩] concatenates_S10000_S240_S10240_d0) ]

abbrev opsA1 : List (HloOp τ sig (Elt F)) :=
  [ StableHlo.unary main_v8 main_v9 (extractStridedSlice S10000x128 ![0, 0] · slices_S10240x128_S10000x128_0_0),
    StableHlo.unary main_arg1 main_v10 (extractStridedSlice S1x320000 ![0, 0] · slices_S2x320000_S1x320000_0_0),
    StableHlo.reshape main_v10 main_v11 rfl shapeCasts_S1x320000_S320000,
    StableHlo.unary main_arg1 main_v12 (extractStridedSlice S1x320000 ![1, 0] · slices_S2x320000_S1x320000_1_0),
    StableHlo.reshape main_v12 main_v13 rfl shapeCasts_S1x320000_S320000,
    StableHlo.TRef.nullary main_call0.v0 (iotaInDim S320000 32 0),
    StableHlo.TRef.binary (.of main_v13) main_call0.v0 main_call0.v1_0 (fun x y => (Host.sort2 S320000 0 comparator_i32_i32_d0 x y).1),
    StableHlo.TRef.binary (.of main_v13) main_call0.v0 main_call0.v1_1 (fun x y => (Host.sort2 S320000 0 comparator_i32_i32_d0 x y).2),
    StableHlo.nullary main_c_1 (constantI S_ 32 0#32),
    StableHlo.unary main_c_1 main_v15 (broadcastInDim S320000 ![] bcast_S_S320000),
    StableHlo.binary main_v14 main_v15 main_v16 (cmpi .slt),
    StableHlo.nullary main_c_2 (constantI S_ 32 320000#32),
    StableHlo.unary main_c_2 main_v17 (broadcastInDim S320000 ![] bcast_S_S320000),
    StableHlo.binary main_v14 main_v17 main_v18 addi,
    StableHlo.ternary main_v16 main_v18 main_v14 main_v19 select,
    StableHlo.unary main_v19 main_v20 (broadcastInDim S320000x1 ![0] bcast_S320000_S320000x1_0),
    StableHlo.binary main_v11 main_v20 main_v21 (fun x i => Host.gather gather_S320000_S320000x1_S320000_n_0_n_n_0_1_1 x i),
    StableHlo.nullary main_c_3 (constantI S_ 32 0#32),
    StableHlo.unary main_c_3 main_v22 (broadcastInDim S320000 ![] bcast_S_S320000),
    StableHlo.binary main_v14 main_v22 main_v23 (cmpi .slt),
    StableHlo.nullary main_c_4 (constantI S_ 32 320000#32),
    StableHlo.unary main_c_4 main_v24 (broadcastInDim S320000 ![] bcast_S_S320000),
    StableHlo.binary main_v14 main_v24 main_v25 addi,
    StableHlo.ternary main_v23 main_v25 main_v14 main_v26 select,
    StableHlo.unary main_v26 main_v27 (broadcastInDim S320000x1 ![0] bcast_S320000_S320000x1_0),
    StableHlo.binary main_v13 main_v27 main_v28 (fun x i => Host.gather gather_S320000_S320000x1_S320000_n_0_n_n_0_1_1 x i),
    StableHlo.unary main_arg2 main_v29 (extractStridedSlice S320000x1 ![0, 0] · slices_S320000x2_S320000x1_0_0),
    StableHlo.reshape main_v29 main_v30 rfl shapeCasts_S320000x1_S320000,
    StableHlo.nullary main_c_5 (constantI S_ 32 3#32),
    StableHlo.unary main_c_5 main_v31 (broadcastInDim S320000 ![] bcast_S_S320000),
    StableHlo.binary main_v30 main_v31 main_v32 muli,
    StableHlo.unary main_arg2 main_v33 (extractStridedSlice S320000x1 ![0, 1] · slices_S320000x2_S320000x1_0_1),
    StableHlo.reshape main_v33 main_v34 rfl shapeCasts_S320000x1_S320000,
    StableHlo.binary main_v32 main_v34 main_v35 addi,
    StableHlo.nullary main_c_6 (constantI S_ 32 0#32),
    StableHlo.unary main_c_6 main_v36 (broadcastInDim S320000 ![] bcast_S_S320000),
    StableHlo.binary main_v14 main_v36 main_v37 (cmpi .slt),
    StableHlo.nullary main_c_7 (constantI S_ 32 320000#32),
    StableHlo.unary main_c_7 main_v38 (broadcastInDim S320000 ![] bcast_S_S320000),
    StableHlo.binary main_v14 main_v38 main_v39 addi,
    StableHlo.ternary main_v37 main_v39 main_v14 main_v40 select,
    StableHlo.unary main_v40 main_v41 (broadcastInDim S320000x1 ![0] bcast_S320000_S320000x1_0),
    StableHlo.binary main_v35 main_v41 main_v42 (fun x i => Host.gather gather_S320000_S320000x1_S320000_n_0_n_n_0_1_1 x i),
    StableHlo.nullary main_v43 (iotaInDim S320000 32 0),
    StableHlo.nullary main_c_8 (constantI S_ 32 10000#32),
    StableHlo.TRef.unary (.of main_c_8) main_call1.v0 id,
    StableHlo.TRef.unary main_call1.v0 main_call1.v1 (broadcastInDim S320000 ![] bcast_S_S320000),
    StableHlo.TRef.binary (.of main_v43) main_call1.v1 main_call1.v2 Host.divsi,
    StableHlo.TRef.unary (.of main_v43) main_call1.v3 signi,
    StableHlo.TRef.unary main_call1.v0 main_call1.v4 signi,
    StableHlo.TRef.unary main_call1.v4 main_call1.v5 (broadcastInDim S320000 ![] bcast_S_S320000),
    StableHlo.TRef.binary main_call1.v3 main_call1.v5 main_call1.v6 (cmpi .ne),
    StableHlo.TRef.unary main_call1.v0 main_call1.v7 (broadcastInDim S320000 ![] bcast_S_S320000),
    StableHlo.TRef.binary (.of main_v43) main_call1.v7 main_call1.v8 Host.remsi,
    StableHlo.TRef.nullary main_call1.c (constantI S_ 32 0#32),
    StableHlo.TRef.unary main_call1.c main_call1.v9 (broadcastInDim S320000 ![] bcast_S_S320000),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S320000 ![] bcast_S_S320000),
    StableHlo.TRef.binary main_call1.v2 main_call1.v12 main_call1.v13 subi,
    StableHlo.TRef.ternary main_call1.v11 main_call1.v13 main_call1.v2 main_call1.call0.v0 select,
    StableHlo.nullary main_c_9 (constantI S_ 32 18#32),
    StableHlo.unary main_c_9 main_v45 (broadcastInDim S320000 ![] bcast_S_S320000),
    StableHlo.binary main_v44 main_v45 main_v46 muli,
    StableHlo.binary main_v46 main_v42 main_v47 addi,
    StableHlo.unary main_arg5 main_v48 (extractStridedSlice S1x6x128 ![0, 0, 0] · slices_S3x6x128_S1x6x128_0_0_0),
    StableHlo.reshape main_v48 main_v49 rfl shapeCasts_S1x6x128_S6x128,
    StableHlo.unary main_v49 main_v50 (broadcastInDim S6x1x128 ![0, 2] bcast_S6x128_S6x1x128_0_2),
    StableHlo.unary main_arg6 main_v51 (extractStridedSlice S1x3x128 ![0, 0, 0] · slices_S3x3x128_S1x3x128_0_0_0),
    StableHlo.reshape main_v51 main_v52 rfl shapeCasts_S1x3x128_S3x128,
    StableHlo.unary main_v52 main_v53 (broadcastInDim S1x3x128 ![1, 2] bcast_S3x128_S1x3x128_1_2),
    StableHlo.unary main_v50 main_v54 (broadcastInDim S6x3x128 ![0, 1, 2] bcast_S6x1x128_S6x3x128_0_1_2),
    StableHlo.unary main_v53 main_v55 (broadcastInDim S6x3x128 ![0, 1, 2] bcast_S1x3x128_S6x3x128_0_1_2),
    StableHlo.binary main_v54 main_v55 main_v56 addf,
    StableHlo.reshape main_v56 main_v57 rfl shapeCasts_S6x3x128_S18x128,
    StableHlo.reshape main_v57 main_v58 rfl shapeCasts_S18x128_S1x18x1x128,
    StableHlo.unary main_v58 main_v59 (broadcastInDim S32x18x1x128 ![0, 1, 2, 3] bcast_S1x18x1x128_S32x18x1x128_0_1_2_3),
    StableHlo.reshape main_v59 main_v60 rfl shapeCasts_S32x18x1x128_S576x128 ]

abbrev opsA2 : List (HloOp τ sig (Elt F)) :=
  [ StableHlo.nullary main_cst (constant S_ .f32 0x00000000#32),
    StableHlo.unary main_cst main_v62 (broadcastInDim S10000x128 ![] bcast_S_S10000x128),
    StableHlo.unary main_v28 main_v63 (broadcastInDim S320000x1 ![0] bcast_S320000_S320000x1_0),
    StableHlo.ternary main_v62 main_v63 main_v61 main_v64 (fun x i u => Host.scatterAdd scatter_S10000x128_S320000x1_S320000x128_1_0_0_1 x i u),
    StableHlo.unary main_arg5 main_v65 (extractStridedSlice S1x6x128 ![0, 0, 0] · slices_S3x6x128_S1x6x128_0_0_0),
    StableHlo.reshape main_v65 main_v66 rfl shapeCasts_S1x6x128_S6x128,
    StableHlo.unary main_v66 main_v67 (extractStridedSlice S1x128 ![4, 0] · slices_S6x128_S1x128_4_0),
    StableHlo.reshape main_v67 main_v68 rfl shapeCasts_S1x128_S128,
    StableHlo.unary main_arg6 main_v69 (extractStridedSlice S1x3x128 ![0, 0, 0] · slices_S3x3x128_S1x3x128_0_0_0),
    StableHlo.reshape main_v69 main_v70 rfl shapeCasts_S1x3x128_S3x128,
    StableHlo.unary main_v70 main_v71 (extractStridedSlice S1x128 ![0, 0] · slices_S3x128_S1x128_0_0),
    StableHlo.reshape main_v71 main_v72 rfl shapeCasts_S1x128_S128,
    StableHlo.binary main_v68 main_v72 main_v73 addf,
    StableHlo.binary main_v64 main_v9 main_v74 addf,
    StableHlo.unary main_v73 main_v75 (broadcastInDim S1x128 ![1] bcast_S128_S1x128_1),
    StableHlo.unary main_v75 main_v76 (broadcastInDim S10000x128 ![0, 1] bcast_S1x128_S10000x128_0_1),
    StableHlo.binary main_v74 main_v76 main_v77 addf,
    StableHlo.unary main_arg7 main_v78 (extractStridedSlice S1x128x256 ![0, 0, 0] · slices_S3x128x256_S1x128x256_0_0_0),
    StableHlo.reshape main_v78 main_v79 rfl shapeCasts_S1x128x256_S128x256,
    StableHlo.binary main_v77 main_v79 main_v80 (fun l r => Host.dotGeneral dot_S10000x128_S128x256_S10000x256_1_0_0_1_n_n none l r),
    StableHlo.unary main_arg8 main_v81 (extractStridedSlice S1x256 ![0, 0] · slices_S3x256_S1x256_0_0),
    StableHlo.reshape main_v81 main_v82 rfl shapeCasts_S1x256_S256,
    StableHlo.unary main_v82 main_v83 (broadcastInDim S1x256 ![1] bcast_S256_S1x256_1),
    StableHlo.unary main_v83 main_v84 (broadcastInDim S10000x256 ![0, 1] bcast_S1x256_S10000x256_0_1),
    StableHlo.binary main_v80 main_v84 main_v85 addf,
    StableHlo.nullary main_cst_10 (constant S_ .f32 0x00000000#32),
    StableHlo.unary main_cst_10 main_v86 (broadcastInDim S10000x256 ![] bcast_S_S10000x256),
    StableHlo.binary main_v85 main_v86 main_v87 maximumf,
    StableHlo.unary main_arg9 main_v88 (extractStridedSlice S1x256x128 ![0, 0, 0] · slices_S3x256x128_S1x256x128_0_0_0),
    StableHlo.reshape main_v88 main_v89 rfl shapeCasts_S1x256x128_S256x128,
    StableHlo.binary main_v87 main_v89 main_v90 (fun l r => Host.dotGeneral dot_S10000x256_S256x128_S10000x128_1_0_0_1_n_n none l r),
    StableHlo.unary main_arg10 main_v91 (extractStridedSlice S1x128 ![0, 0] · slices_S3x128_S1x128_0_0),
    StableHlo.reshape main_v91 main_v92 rfl shapeCasts_S1x128_S128,
    StableHlo.unary main_v92 main_v93 (broadcastInDim S1x128 ![1] bcast_S128_S1x128_1),
    StableHlo.unary main_v93 main_v94 (broadcastInDim S10000x128 ![0, 1] bcast_S1x128_S10000x128_0_1),
    StableHlo.binary main_v90 main_v94 main_v95 addf,
    StableHlo.nullary main_cst_11 (constant S_ .f32 0x00000000#32),
    StableHlo.binary main_v95 main_cst_11 main_v96 (fun x v => Host.reduceAdd x v reducesTo_S10000x128_S128_d0 h_S_),
    StableHlo.nullary main_cst_12 (constant S_ .f32 0x461C4000#32),
    StableHlo.unary main_cst_12 main_v97 (broadcastInDim S128 ![] bcast_S_S128),
    StableHlo.binary main_v96 main_v97 main_v98 Host.divf,
    StableHlo.nullary main_c_13 (constantI S_ 32 0#32),
    StableHlo.TRef.nullary main_call2.cst (constant S_ .f32 0x00000000#32),
    StableHlo.TRef.binary (.of main_v95) main_call2.cst main_call2.v0 (fun x v => Host.reduceAdd x v reducesTo_S10000x128_S128_d0 h_S_),
    StableHlo.TRef.unary main_call2.v0 main_call2.v1 (broadcastInDim S1x128 ![1] bcast_S128_S1x128_1),
    StableHlo.TRef.nullary main_call2.cst_0 (constant S_ .f32 0x461C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S10000x128 ![0, 1] bcast_S1x128_S10000x128_0_1),
    StableHlo.TRef.binary (.of main_v95) main_call2.v4 main_call2.v5 subf,
    StableHlo.TRef.binary main_call2.v5 main_call2.v5 main_call2.v6 mulf,
    StableHlo.TRef.unary (.of main_c_13) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v98 main_v100 (broadcastInDim S1x128 ![1] bcast_S128_S1x128_1),
    StableHlo.unary main_v100 main_v101 (broadcastInDim S10000x128 ![0, 1] bcast_S1x128_S10000x128_0_1),
    StableHlo.binary main_v95 main_v101 main_v102 subf,
    StableHlo.nullary main_cst_14 (constant S_ .f32 0x3727C5AC#32),
    StableHlo.unary main_cst_14 main_v103 (broadcastInDim S128 ![] bcast_S_S128),
    StableHlo.binary main_v99 main_v103 main_v104 addf,
    StableHlo.unary main_v104 main_v105 Host.sqrt,
    StableHlo.unary main_v105 main_v106 (broadcastInDim S1x128 ![1] bcast_S128_S1x128_1),
    StableHlo.unary main_v106 main_v107 (broadcastInDim S10000x128 ![0, 1] bcast_S1x128_S10000x128_0_1),
    StableHlo.binary main_v102 main_v107 main_v108 Host.divf,
    StableHlo.unary main_arg11 main_v109 (extractStridedSlice S1x128 ![0, 0] · slices_S3x128_S1x128_0_0),
    StableHlo.reshape main_v109 main_v110 rfl shapeCasts_S1x128_S128,
    StableHlo.unary main_v110 main_v111 (broadcastInDim S1x128 ![1] bcast_S128_S1x128_1),
    StableHlo.unary main_v111 main_v112 (broadcastInDim S10000x128 ![0, 1] bcast_S1x128_S10000x128_0_1),
    StableHlo.binary main_v108 main_v112 main_v113 mulf,
    StableHlo.unary main_arg12 main_v114 (extractStridedSlice S1x128 ![0, 0] · slices_S3x128_S1x128_0_0),
    StableHlo.reshape main_v114 main_v115 rfl shapeCasts_S1x128_S128,
    StableHlo.unary main_v115 main_v116 (broadcastInDim S1x128 ![1] bcast_S128_S1x128_1),
    StableHlo.unary main_v116 main_v117 (broadcastInDim S10000x128 ![0, 1] bcast_S1x128_S10000x128_0_1),
    StableHlo.binary main_v113 main_v117 main_v118 addf,
    StableHlo.nullary main_cst_15 (constant S_ .f32 0x00000000#32),
    StableHlo.unary main_cst_15 main_v119 (broadcastInDim S10000x128 ![] bcast_S_S10000x128),
    StableHlo.binary main_v118 main_v119 main_v120 maximumf,
    StableHlo.unary main_arg5 main_v121 (extractStridedSlice S1x6x128 ![1, 0, 0] · slices_S3x6x128_S1x6x128_1_0_0),
    StableHlo.reshape main_v121 main_v122 rfl shapeCasts_S1x6x128_S6x128,
    StableHlo.unary main_v122 main_v123 (broadcastInDim S6x1x128 ![0, 2] bcast_S6x128_S6x1x128_0_2),
    StableHlo.unary main_arg6 main_v124 (extractStridedSlice S1x3x128 ![1, 0, 0] · slices_S3x3x128_S1x3x128_1_0_0),
    StableHlo.reshape main_v124 main_v125 rfl shapeCasts_S1x3x128_S3x128,
    StableHlo.unary main_v125 main_v126 (broadcastInDim S1x3x128 ![1, 2] bcast_S3x128_S1x3x128_1_2),
    StableHlo.unary main_v123 main_v127 (broadcastInDim S6x3x128 ![0, 1, 2] bcast_S6x1x128_S6x3x128_0_1_2),
    StableHlo.unary main_v126 main_v128 (broadcastInDim S6x3x128 ![0, 1, 2] bcast_S1x3x128_S6x3x128_0_1_2),
    StableHlo.binary main_v127 main_v128 main_v129 addf,
    StableHlo.reshape main_v129 main_v130 rfl shapeCasts_S6x3x128_S18x128,
    StableHlo.reshape main_v130 main_v131 rfl shapeCasts_S18x128_S1x18x1x128,
    StableHlo.unary main_v131 main_v132 (broadcastInDim S32x18x1x128 ![0, 1, 2, 3] bcast_S1x18x1x128_S32x18x1x128_0_1_2_3),
    StableHlo.reshape main_v132 main_v133 rfl shapeCasts_S32x18x1x128_S576x128 ]

abbrev opsA3 : List (HloOp τ sig (Elt F)) :=
  [ StableHlo.nullary main_cst_16 (constant S_ .f32 0x00000000#32),
    StableHlo.unary main_cst_16 main_v135 (broadcastInDim S10000x128 ![] bcast_S_S10000x128),
    StableHlo.unary main_v28 main_v136 (broadcastInDim S320000x1 ![0] bcast_S320000_S320000x1_0),
    StableHlo.ternary main_v135 main_v136 main_v134 main_v137 (fun x i u => Host.scatterAdd scatter_S10000x128_S320000x1_S320000x128_1_0_0_1 x i u),
    StableHlo.unary main_arg5 main_v138 (extractStridedSlice S1x6x128 ![1, 0, 0] · slices_S3x6x128_S1x6x128_1_0_0),
    StableHlo.reshape main_v138 main_v139 rfl shapeCasts_S1x6x128_S6x128,
    StableHlo.unary main_v139 main_v140 (extractStridedSlice S1x128 ![4, 0] · slices_S6x128_S1x128_4_0),
    StableHlo.reshape main_v140 main_v141 rfl shapeCasts_S1x128_S128,
    StableHlo.unary main_arg6 main_v142 (extractStridedSlice S1x3x128 ![1, 0, 0] · slices_S3x3x128_S1x3x128_1_0_0),
    StableHlo.reshape main_v142 main_v143 rfl shapeCasts_S1x3x128_S3x128,
    StableHlo.unary main_v143 main_v144 (extractStridedSlice S1x128 ![0, 0] · slices_S3x128_S1x128_0_0),
    StableHlo.reshape main_v144 main_v145 rfl shapeCasts_S1x128_S128,
    StableHlo.binary main_v141 main_v145 main_v146 addf,
    StableHlo.binary main_v137 main_v120 main_v147 addf,
    StableHlo.unary main_v146 main_v148 (broadcastInDim S1x128 ![1] bcast_S128_S1x128_1),
    StableHlo.unary main_v148 main_v149 (broadcastInDim S10000x128 ![0, 1] bcast_S1x128_S10000x128_0_1),
    StableHlo.binary main_v147 main_v149 main_v150 addf,
    StableHlo.unary main_arg7 main_v151 (extractStridedSlice S1x128x256 ![1, 0, 0] · slices_S3x128x256_S1x128x256_1_0_0),
    StableHlo.reshape main_v151 main_v152 rfl shapeCasts_S1x128x256_S128x256,
    StableHlo.binary main_v150 main_v152 main_v153 (fun l r => Host.dotGeneral dot_S10000x128_S128x256_S10000x256_1_0_0_1_n_n none l r),
    StableHlo.unary main_arg8 main_v154 (extractStridedSlice S1x256 ![1, 0] · slices_S3x256_S1x256_1_0),
    StableHlo.reshape main_v154 main_v155 rfl shapeCasts_S1x256_S256,
    StableHlo.unary main_v155 main_v156 (broadcastInDim S1x256 ![1] bcast_S256_S1x256_1),
    StableHlo.unary main_v156 main_v157 (broadcastInDim S10000x256 ![0, 1] bcast_S1x256_S10000x256_0_1),
    StableHlo.binary main_v153 main_v157 main_v158 addf,
    StableHlo.nullary main_cst_17 (constant S_ .f32 0x00000000#32),
    StableHlo.unary main_cst_17 main_v159 (broadcastInDim S10000x256 ![] bcast_S_S10000x256),
    StableHlo.binary main_v158 main_v159 main_v160 maximumf,
    StableHlo.unary main_arg9 main_v161 (extractStridedSlice S1x256x128 ![1, 0, 0] · slices_S3x256x128_S1x256x128_1_0_0),
    StableHlo.reshape main_v161 main_v162 rfl shapeCasts_S1x256x128_S256x128,
    StableHlo.binary main_v160 main_v162 main_v163 (fun l r => Host.dotGeneral dot_S10000x256_S256x128_S10000x128_1_0_0_1_n_n none l r),
    StableHlo.unary main_arg10 main_v164 (extractStridedSlice S1x128 ![1, 0] · slices_S3x128_S1x128_1_0),
    StableHlo.reshape main_v164 main_v165 rfl shapeCasts_S1x128_S128,
    StableHlo.unary main_v165 main_v166 (broadcastInDim S1x128 ![1] bcast_S128_S1x128_1),
    StableHlo.unary main_v166 main_v167 (broadcastInDim S10000x128 ![0, 1] bcast_S1x128_S10000x128_0_1),
    StableHlo.binary main_v163 main_v167 main_v168 addf,
    StableHlo.nullary main_cst_18 (constant S_ .f32 0x00000000#32),
    StableHlo.binary main_v168 main_cst_18 main_v169 (fun x v => Host.reduceAdd x v reducesTo_S10000x128_S128_d0 h_S_),
    StableHlo.nullary main_cst_19 (constant S_ .f32 0x461C4000#32),
    StableHlo.unary main_cst_19 main_v170 (broadcastInDim S128 ![] bcast_S_S128),
    StableHlo.binary main_v169 main_v170 main_v171 Host.divf,
    StableHlo.nullary main_c_20 (constantI S_ 32 0#32),
    StableHlo.TRef.nullary main_call3.cst (constant S_ .f32 0x00000000#32),
    StableHlo.TRef.binary (.of main_v168) main_call3.cst main_call3.v0 (fun x v => Host.reduceAdd x v reducesTo_S10000x128_S128_d0 h_S_),
    StableHlo.TRef.unary main_call3.v0 main_call3.v1 (broadcastInDim S1x128 ![1] bcast_S128_S1x128_1),
    StableHlo.TRef.nullary main_call3.cst_0 (constant S_ .f32 0x461C4000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S10000x128 ![0, 1] bcast_S1x128_S10000x128_0_1),
    StableHlo.TRef.binary (.of main_v168) main_call3.v4 main_call3.v5 subf,
    StableHlo.TRef.binary main_call3.v5 main_call3.v5 main_call3.v6 mulf,
    StableHlo.TRef.unary (.of main_c_20) main_call3.v7 (sitofp .f32),
    StableHlo.TRef.nullary main_call3.cst_1 (constant S_ .f32 0x461C4000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S10000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v171 main_v173 (broadcastInDim S1x128 ![1] bcast_S128_S1x128_1),
    StableHlo.unary main_v173 main_v174 (broadcastInDim S10000x128 ![0, 1] bcast_S1x128_S10000x128_0_1),
    StableHlo.binary main_v168 main_v174 main_v175 subf,
    StableHlo.nullary main_cst_21 (constant S_ .f32 0x3727C5AC#32),
    StableHlo.unary main_cst_21 main_v176 (broadcastInDim S128 ![] bcast_S_S128),
    StableHlo.binary main_v172 main_v176 main_v177 addf,
    StableHlo.unary main_v177 main_v178 Host.sqrt,
    StableHlo.unary main_v178 main_v179 (broadcastInDim S1x128 ![1] bcast_S128_S1x128_1),
    StableHlo.unary main_v179 main_v180 (broadcastInDim S10000x128 ![0, 1] bcast_S1x128_S10000x128_0_1),
    StableHlo.binary main_v175 main_v180 main_v181 Host.divf,
    StableHlo.unary main_arg11 main_v182 (extractStridedSlice S1x128 ![1, 0] · slices_S3x128_S1x128_1_0),
    StableHlo.reshape main_v182 main_v183 rfl shapeCasts_S1x128_S128,
    StableHlo.unary main_v183 main_v184 (broadcastInDim S1x128 ![1] bcast_S128_S1x128_1),
    StableHlo.unary main_v184 main_v185 (broadcastInDim S10000x128 ![0, 1] bcast_S1x128_S10000x128_0_1),
    StableHlo.binary main_v181 main_v185 main_v186 mulf,
    StableHlo.unary main_arg12 main_v187 (extractStridedSlice S1x128 ![1, 0] · slices_S3x128_S1x128_1_0),
    StableHlo.reshape main_v187 main_v188 rfl shapeCasts_S1x128_S128,
    StableHlo.unary main_v188 main_v189 (broadcastInDim S1x128 ![1] bcast_S128_S1x128_1),
    StableHlo.unary main_v189 main_v190 (broadcastInDim S10000x128 ![0, 1] bcast_S1x128_S10000x128_0_1),
    StableHlo.binary main_v186 main_v190 main_v191 addf,
    StableHlo.nullary main_cst_22 (constant S_ .f32 0x00000000#32),
    StableHlo.unary main_cst_22 main_v192 (broadcastInDim S10000x128 ![] bcast_S_S10000x128),
    StableHlo.binary main_v191 main_v192 main_v193 maximumf,
    StableHlo.unary main_arg5 main_v194 (extractStridedSlice S1x6x128 ![2, 0, 0] · slices_S3x6x128_S1x6x128_2_0_0),
    StableHlo.reshape main_v194 main_v195 rfl shapeCasts_S1x6x128_S6x128,
    StableHlo.unary main_v195 main_v196 (broadcastInDim S6x1x128 ![0, 2] bcast_S6x128_S6x1x128_0_2),
    StableHlo.unary main_arg6 main_v197 (extractStridedSlice S1x3x128 ![2, 0, 0] · slices_S3x3x128_S1x3x128_2_0_0),
    StableHlo.reshape main_v197 main_v198 rfl shapeCasts_S1x3x128_S3x128,
    StableHlo.unary main_v198 main_v199 (broadcastInDim S1x3x128 ![1, 2] bcast_S3x128_S1x3x128_1_2),
    StableHlo.unary main_v196 main_v200 (broadcastInDim S6x3x128 ![0, 1, 2] bcast_S6x1x128_S6x3x128_0_1_2),
    StableHlo.unary main_v199 main_v201 (broadcastInDim S6x3x128 ![0, 1, 2] bcast_S1x3x128_S6x3x128_0_1_2),
    StableHlo.binary main_v200 main_v201 main_v202 addf,
    StableHlo.reshape main_v202 main_v203 rfl shapeCasts_S6x3x128_S18x128,
    StableHlo.reshape main_v203 main_v204 rfl shapeCasts_S18x128_S1x18x1x128,
    StableHlo.unary main_v204 main_v205 (broadcastInDim S32x18x1x128 ![0, 1, 2, 3] bcast_S1x18x1x128_S32x18x1x128_0_1_2_3),
    StableHlo.reshape main_v205 main_v206 rfl shapeCasts_S32x18x1x128_S576x128 ]

abbrev opsA4 : List (HloOp τ sig (Elt F)) :=
  [ StableHlo.nullary main_cst_23 (constant S_ .f32 0x00000000#32),
    StableHlo.unary main_cst_23 main_v208 (broadcastInDim S10000x128 ![] bcast_S_S10000x128),
    StableHlo.unary main_v28 main_v209 (broadcastInDim S320000x1 ![0] bcast_S320000_S320000x1_0),
    StableHlo.ternary main_v208 main_v209 main_v207 main_v210 (fun x i u => Host.scatterAdd scatter_S10000x128_S320000x1_S320000x128_1_0_0_1 x i u),
    StableHlo.unary main_arg5 main_v211 (extractStridedSlice S1x6x128 ![2, 0, 0] · slices_S3x6x128_S1x6x128_2_0_0),
    StableHlo.reshape main_v211 main_v212 rfl shapeCasts_S1x6x128_S6x128,
    StableHlo.unary main_v212 main_v213 (extractStridedSlice S1x128 ![4, 0] · slices_S6x128_S1x128_4_0),
    StableHlo.reshape main_v213 main_v214 rfl shapeCasts_S1x128_S128,
    StableHlo.unary main_arg6 main_v215 (extractStridedSlice S1x3x128 ![2, 0, 0] · slices_S3x3x128_S1x3x128_2_0_0),
    StableHlo.reshape main_v215 main_v216 rfl shapeCasts_S1x3x128_S3x128,
    StableHlo.unary main_v216 main_v217 (extractStridedSlice S1x128 ![0, 0] · slices_S3x128_S1x128_0_0),
    StableHlo.reshape main_v217 main_v218 rfl shapeCasts_S1x128_S128,
    StableHlo.binary main_v214 main_v218 main_v219 addf,
    StableHlo.binary main_v210 main_v193 main_v220 addf,
    StableHlo.unary main_v219 main_v221 (broadcastInDim S1x128 ![1] bcast_S128_S1x128_1),
    StableHlo.unary main_v221 main_v222 (broadcastInDim S10000x128 ![0, 1] bcast_S1x128_S10000x128_0_1),
    StableHlo.binary main_v220 main_v222 main_v223 addf,
    StableHlo.unary main_arg7 main_v224 (extractStridedSlice S1x128x256 ![2, 0, 0] · slices_S3x128x256_S1x128x256_2_0_0),
    StableHlo.reshape main_v224 main_v225 rfl shapeCasts_S1x128x256_S128x256,
    StableHlo.binary main_v223 main_v225 main_v226 (fun l r => Host.dotGeneral dot_S10000x128_S128x256_S10000x256_1_0_0_1_n_n none l r),
    StableHlo.unary main_arg8 main_v227 (extractStridedSlice S1x256 ![2, 0] · slices_S3x256_S1x256_2_0),
    StableHlo.reshape main_v227 main_v228 rfl shapeCasts_S1x256_S256,
    StableHlo.unary main_v228 main_v229 (broadcastInDim S1x256 ![1] bcast_S256_S1x256_1),
    StableHlo.unary main_v229 main_v230 (broadcastInDim S10000x256 ![0, 1] bcast_S1x256_S10000x256_0_1),
    StableHlo.binary main_v226 main_v230 main_v231 addf,
    StableHlo.nullary main_cst_24 (constant S_ .f32 0x00000000#32),
    StableHlo.unary main_cst_24 main_v232 (broadcastInDim S10000x256 ![] bcast_S_S10000x256),
    StableHlo.binary main_v231 main_v232 main_v233 maximumf,
    StableHlo.unary main_arg9 main_v234 (extractStridedSlice S1x256x128 ![2, 0, 0] · slices_S3x256x128_S1x256x128_2_0_0),
    StableHlo.reshape main_v234 main_v235 rfl shapeCasts_S1x256x128_S256x128,
    StableHlo.binary main_v233 main_v235 main_v236 (fun l r => Host.dotGeneral dot_S10000x256_S256x128_S10000x128_1_0_0_1_n_n none l r),
    StableHlo.unary main_arg10 main_v237 (extractStridedSlice S1x128 ![2, 0] · slices_S3x128_S1x128_2_0),
    StableHlo.reshape main_v237 main_v238 rfl shapeCasts_S1x128_S128,
    StableHlo.unary main_v238 main_v239 (broadcastInDim S1x128 ![1] bcast_S128_S1x128_1),
    StableHlo.unary main_v239 main_v240 (broadcastInDim S10000x128 ![0, 1] bcast_S1x128_S10000x128_0_1),
    StableHlo.binary main_v236 main_v240 main_v241 addf,
    StableHlo.nullary main_cst_25 (constant S_ .f32 0x00000000#32),
    StableHlo.binary main_v241 main_cst_25 main_v242 (fun x v => Host.reduceAdd x v reducesTo_S10000x128_S128_d0 h_S_),
    StableHlo.nullary main_cst_26 (constant S_ .f32 0x461C4000#32),
    StableHlo.unary main_cst_26 main_v243 (broadcastInDim S128 ![] bcast_S_S128),
    StableHlo.binary main_v242 main_v243 main_v244 Host.divf,
    StableHlo.nullary main_c_27 (constantI S_ 32 0#32),
    StableHlo.TRef.nullary main_call4.cst (constant S_ .f32 0x00000000#32),
    StableHlo.TRef.binary (.of main_v241) main_call4.cst main_call4.v0 (fun x v => Host.reduceAdd x v reducesTo_S10000x128_S128_d0 h_S_),
    StableHlo.TRef.unary main_call4.v0 main_call4.v1 (broadcastInDim S1x128 ![1] bcast_S128_S1x128_1),
    StableHlo.TRef.nullary main_call4.cst_0 (constant S_ .f32 0x461C4000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S10000x128 ![0, 1] bcast_S1x128_S10000x128_0_1),
    StableHlo.TRef.binary (.of main_v241) main_call4.v4 main_call4.v5 subf,
    StableHlo.TRef.binary main_call4.v5 main_call4.v5 main_call4.v6 mulf,
    StableHlo.TRef.unary (.of main_c_27) main_call4.v7 (sitofp .f32),
    StableHlo.TRef.nullary main_call4.cst_1 (constant S_ .f32 0x461C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v244 main_v246 (broadcastInDim S1x128 ![1] bcast_S128_S1x128_1),
    StableHlo.unary main_v246 main_v247 (broadcastInDim S10000x128 ![0, 1] bcast_S1x128_S10000x128_0_1),
    StableHlo.binary main_v241 main_v247 main_v248 subf,
    StableHlo.nullary main_cst_28 (constant S_ .f32 0x3727C5AC#32),
    StableHlo.unary main_cst_28 main_v249 (broadcastInDim S128 ![] bcast_S_S128),
    StableHlo.binary main_v245 main_v249 main_v250 addf,
    StableHlo.unary main_v250 main_v251 Host.sqrt,
    StableHlo.unary main_v251 main_v252 (broadcastInDim S1x128 ![1] bcast_S128_S1x128_1),
    StableHlo.unary main_v252 main_v253 (broadcastInDim S10000x128 ![0, 1] bcast_S1x128_S10000x128_0_1),
    StableHlo.binary main_v248 main_v253 main_v254 Host.divf,
    StableHlo.unary main_arg11 main_v255 (extractStridedSlice S1x128 ![2, 0] · slices_S3x128_S1x128_2_0),
    StableHlo.reshape main_v255 main_v256 rfl shapeCasts_S1x128_S128,
    StableHlo.unary main_v256 main_v257 (broadcastInDim S1x128 ![1] bcast_S128_S1x128_1),
    StableHlo.unary main_v257 main_v258 (broadcastInDim S10000x128 ![0, 1] bcast_S1x128_S10000x128_0_1),
    StableHlo.binary main_v254 main_v258 main_v259 mulf,
    StableHlo.unary main_arg12 main_v260 (extractStridedSlice S1x128 ![2, 0] · slices_S3x128_S1x128_2_0),
    StableHlo.reshape main_v260 main_v261 rfl shapeCasts_S1x128_S128,
    StableHlo.unary main_v261 main_v262 (broadcastInDim S1x128 ![1] bcast_S128_S1x128_1),
    StableHlo.unary main_v262 main_v263 (broadcastInDim S10000x128 ![0, 1] bcast_S1x128_S10000x128_0_1),
    StableHlo.binary main_v259 main_v263 main_v264 addf,
    StableHlo.nullary main_cst_29 (constant S_ .f32 0x00000000#32),
    StableHlo.binary main_v264 main_cst_29 main_v265 (fun x v => Host.reduceAdd x v reducesTo_S10000x128_S128_d0 h_S_),
    StableHlo.unary main_v265 main_v266 (broadcastInDim S1x128 ![1] bcast_S128_S1x128_1),
    StableHlo.nullary main_cst_30 (constant S_ .f32 0x461C4000#32),
    StableHlo.unary main_cst_30 main_v267 (broadcastInDim S1x128 ![] bcast_S_S1x128),
    StableHlo.binary main_v266 main_v267 main_v268 Host.divf ]

theorem opsA_lengths : [(opsA0 (F := F)).length, (opsA1 (F := F)).length, (opsA2 (F := F)).length, (opsA3 (F := F)).length, (opsA4 (F := F)).length] = [10, 79, 100, 100, 90] := rfl

end Cert.KernelIdeal.Hand

end
-- ==== Proof.KI.Base.lean ====
import proofs.«208129_g65403761983635_cont_9to1_m_1354_7_alg».proof.KernelIdeal
import proofs.«208129_g65403761983635_cont_9to1_m_1354_7_alg».proof.Proof.Gen.KernelIdeal
import proofs.«208129_g65403761983635_cont_9to1_m_1354_7_alg».proof.Proof.KI.Ops
import Idealize.ShloMosaic.Lib.SparseCore.Launch
import Idealize.ShloMosaic.Lib.StableHlo.Run
import Idealize.ShloMosaic.Lib.Pipeline.Kit
import Idealize.ShloMosaic.Lib.ValueIdx
import Idealize.ShloMosaic.Lib.Tactic

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after)

variable {F : FTy → Type}

abbrev ΛP : Labels := Pipeline.Sig Λ₀ (Fin 0) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 4) (Elt F) ℕ UU ℕ

abbrev EH : Emb UH (MT nD τ sig (HIx 4) (Elt F) ℕ UU ℕ) := embL

def rowOf (z : ℕ) (hz : 0 < z) (w : BitVec 32) : Fin z := if h : w.toNat < z then ⟨w.toNat, h⟩ else ⟨0, hz⟩

def gadd [FloatOps F] {R1 R2 N : ℕ} (h1 : 0 < R1) (h2 : 0 < R2) (t1 : Vec F ⟨2, ![R1, 128]⟩ .f32) (i1 : Vec F ⟨1, ![N]⟩ .i32)
    (t2 : Vec F ⟨2, ![R2, 128]⟩ .f32) (i2 : Vec F ⟨1, ![N]⟩ .i32) : Vec F ⟨2, ![N, 128]⟩ .f32 :=
  fun j => FloatOps.addf (φ := .f32)
    (t1 (ValueIdx.ix2 (rowOf R1 h1 (i1 (ValueIdx.ix1 (n := N) (j 0)))) (j 1)))
    (t2 (ValueIdx.ix2 (rowOf R2 h2 (i2 (ValueIdx.ix1 (n := N) (j 0)))) (j 1)))

variable [FloatOps F]

abbrev r (b : Ref sig .tc) : DevRef τ sig := Proc.devRef .tc b
abbrev tLoc (d : Dev nD) (b : Ref sig .tc) : Loc nD τ sig := (SparseCore.T d).loc b

abbrev Val' : Type := Valuation τ sig (Elt F)

def VA0 (V : Valuation τ sig (Elt F)) : Valuation τ sig (Elt F) := after opsA0 V
def out0 (V : Valuation τ sig (Elt F)) : Vec F S10240x128 .f32 :=
  gadd (R1 := 119) (R2 := 4) (N := 10240) (by decide) (by decide) (VA0 V (r main_arg3)) (VA0 V (r main_v3)) (VA0 V (r main_arg4)) (VA0 V (r main_v7))
def VB0 (V : Valuation τ sig (Elt F)) : Valuation τ sig (Elt F) := Function.update (VA0 V) (r main_v8) (out0 V)
def VA1 (V : Valuation τ sig (Elt F)) : Valuation τ sig (Elt F) := after opsA1 (VB0 V)
def out1 (V : Valuation τ sig (Elt F)) : Vec F S320000x128 .f32 :=
  gadd (R1 := 10000) (R2 := 576) (N := 320000) (by decide) (by decide) (VA1 V (r main_v9)) (VA1 V (r main_v21)) (VA1 V (r main_v60)) (VA1 V (r main_v47))
def VB1 (V : Valuation τ sig (Elt F)) : Valuation τ sig (Elt F) := Function.update (VA1 V) (r main_v61) (out1 V)
def VA2 (V : Valuation τ sig (Elt F)) : Valuation τ sig (Elt F) := after opsA2 (VB1 V)
def out2 (V : Valuation τ sig (Elt F)) : Vec F S320000x128 .f32 :=
  gadd (R1 := 10000) (R2 := 576) (N := 320000) (by decide) (by decide) (VA2 V (r main_v120)) (VA2 V (r main_v21)) (VA2 V (r main_v133)) (VA2 V (r main_v47))
def VB2 (V : Valuation τ sig (Elt F)) : Valuation τ sig (Elt F) := Function.update (VA2 V) (r main_v134) (out2 V)
def VA3 (V : Valuation τ sig (Elt F)) : Valuation τ sig (Elt F) := after opsA3 (VB2 V)
def out3 (V : Valuation τ sig (Elt F)) : Vec F S320000x128 .f32 :=
  gadd (R1 := 10000) (R2 := 576) (N := 320000) (by decide) (by decide) (VA3 V (r main_v193)) (VA3 V (r main_v21)) (VA3 V (r main_v206)) (VA3 V (r main_v47))
def VB3 (V : Valuation τ sig (Elt F)) : Valuation τ sig (Elt F) := Function.update (VA3 V) (r main_v207) (out3 V)
def VA4 (V : Valuation τ sig (Elt F)) : Valuation τ sig (Elt F) := after opsA4 (VB3 V)

structure PreOK (V : Valuation τ sig (Elt F)) : Prop where
  h0a : ∀ j : S10240.Idx, ((VA0 V (r main_v3) : Vec F S10240 .i32) j).toNat < 119
  h0b : ∀ j : S10240.Idx, ((VA0 V (r main_v7) : Vec F S10240 .i32) j).toNat < 4
  h1a : ∀ j : S320000.Idx, ((VA1 V (r main_v21) : Vec F S320000 .i32) j).toNat < 10000
  h1b : ∀ j : S320000.Idx, ((VA1 V (r main_v47) : Vec F S320000 .i32) j).toNat < 576
  h2a : ∀ j : S320000.Idx, ((VA2 V (r main_v21) : Vec F S320000 .i32) j).toNat < 10000
  h2b : ∀ j : S320000.Idx, ((VA2 V (r main_v47) : Vec F S320000 .i32) j).toNat < 576
  h3a : ∀ j : S320000.Idx, ((VA3 V (r main_v21) : Vec F S320000 .i32) j).toNat < 10000
  h3b : ∀ j : S320000.Idx, ((VA3 V (r main_v47) : Vec F S320000 .i32) j).toNat < 576

def splitShare (q : PosShare TreeShare) : (n : ℕ) → ℕ → PosShare TreeShare
  | 0, _ => q
  | n + 1, k => splitShare (if k % 2 = 0 then q.left else q.right) n (k / 2)

abbrev coreShare (c : ℕ) : PosShare TreeShare := splitShare fullShare 1 c
abbrev tileShare (c i : ℕ) : PosShare TreeShare := splitShare (coreShare c) 4 i

theorem hdiv0 : 32 ∣ S10240x128.size 0 := ⟨320, rfl⟩
theorem hdiv1 : 800 ∣ S320000x128.size 0 := ⟨400, rfl⟩

def part0N (p : ℕ) : Finset S10240x128.Idx := if h : p < 32 then (Rect.part (s := S10240x128) (a₀ := 0) hdiv0 ⟨p, h⟩).set else ∅

def part1N (p : ℕ) : Finset S320000x128.Idx := if h : p < 800 then (Rect.part (s := S320000x128) (a₀ := 0) hdiv1 ⟨p, h⟩).set else ∅

variable (m : (ℓ : Loc nD τ sig) → Buf (Elt F) ℓ)

abbrev V0 (d : Dev nD) : Valuation τ sig (Elt F) := StableHlo.launchContents m d

def ins (d : Dev nD) (t1 i1 t2 i2 : Ref sig .tc) (W : Valuation τ sig (Elt F)) (q : PosShare TreeShare) : sProp 𝕄 :=
  iprop((tLoc d t1 ↦{q} W (r t1)) ∗ (tLoc d i1 ↦{q} W (r i1)) ∗ (tLoc d t2 ↦{q} W (r t2)) ∗ (tLoc d i2 ↦{q} W (r i2)))

def outs0 (d : Dev nD) (c i : ℕ) (f : Vec F S10240x128 .f32) : sProp 𝕄 := tLoc d main_v8 ↦[part0N (2 * i + c)]{fullShare} f
def outs1 (d : Dev nD) (c i : ℕ) (f : Vec F S320000x128 .f32) : sProp 𝕄 :=
  bigSep (Finset.univ : Finset (Fin 25)) fun t => tLoc d main_v61 ↦[part1N (50 * i + 25 * c + t.val)]{fullShare} f
def outs2 (d : Dev nD) (c i : ℕ) (f : Vec F S320000x128 .f32) : sProp 𝕄 :=
  bigSep (Finset.univ : Finset (Fin 25)) fun t => tLoc d main_v134 ↦[part1N (50 * i + 25 * c + t.val)]{fullShare} f
def outs3 (d : Dev nD) (c i : ℕ) (f : Vec F S320000x128 .f32) : sProp 𝕄 :=
  bigSep (Finset.univ : Finset (Fin 25)) fun t => tLoc d main_v207 ↦[part1N (50 * i + 25 * c + t.val)]{fullShare} f

def tilePay (d : Dev nD) (q : Fin 4) (c i : ℕ) (after : Bool) : sProp 𝕄 :=
  match q with
  | 0 => iprop(ins d main_arg3 main_v3 main_arg4 main_v7 (VA0 (V0 m d)) (tileShare c i)
      ∗ outs0 d c i (if after then out0 (V0 m d) else VA0 (V0 m d) (r main_v8)))
  | 1 => iprop(ins d main_v9 main_v21 main_v60 main_v47 (VA1 (V0 m d)) (tileShare c i)
      ∗ outs1 d c i (if after then out1 (V0 m d) else VA1 (V0 m d) (r main_v61)))
  | 2 => iprop(ins d main_v120 main_v21 main_v133 main_v47 (VA2 (V0 m d)) (tileShare c i)
      ∗ outs2 d c i (if after then out2 (V0 m d) else VA2 (V0 m d) (r main_v134)))
  | 3 => iprop(ins d main_v193 main_v21 main_v206 main_v47 (VA3 (V0 m d)) (tileShare c i)
      ∗ outs3 d c i (if after then out3 (V0 m d) else VA3 (V0 m d) (r main_v207)))

def corePay (d : Dev nD) (q : Fin 4) (c : ℕ) (after : Bool) : sProp 𝕄 :=
  match q with
  | 0 => iprop(ins d main_arg3 main_v3 main_arg4 main_v7 (VA0 (V0 m d)) (coreShare c)
      ∗ bigSep (Finset.univ : Finset (Fin 16)) fun i => outs0 d c i.val (if after then out0 (V0 m d) else VA0 (V0 m d) (r main_v8)))
  | 1 => iprop(ins d main_v9 main_v21 main_v60 main_v47 (VA1 (V0 m d)) (coreShare c)
      ∗ bigSep (Finset.univ : Finset (Fin 16)) fun i => outs1 d c i.val (if after then out1 (V0 m d) else VA1 (V0 m d) (r main_v61)))
  | 2 => iprop(ins d main_v120 main_v21 main_v133 main_v47 (VA2 (V0 m d)) (coreShare c)
      ∗ bigSep (Finset.univ : Finset (Fin 16)) fun i => outs2 d c i.val (if after then out2 (V0 m d) else VA2 (V0 m d) (r main_v134)))
  | 3 => iprop(ins d main_v193 main_v21 main_v206 main_v47 (VA3 (V0 m d)) (coreShare c)
      ∗ bigSep (Finset.univ : Finset (Fin 16)) fun i => outs3 d c i.val (if after then out3 (V0 m d) else VA3 (V0 m d) (r main_v207)))

def P : (K (F := F)).Pay (nD := nD) (Val := Elt F) (Name := ℕ) (U := UU) where
  st := fun q d c => corePay m d q c.val false
  dn := fun q d c => corePay m d q c.val true
  go := fun q d c i => tilePay m d q c.val i.val false
  td := fun q d c i => tilePay m d q c.val i.val true
  x := fun _ _ => iprop(emp)

end Cert.KernelIdeal.Hand

end
-- ==== Proof.KI.Split.lean ====
import proofs.«208129_g65403761983635_cont_9to1_m_1354_7_alg».proof.Proof.KI.Base

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

theorem bigSep_fin_mul (a b : ℕ) (Φ : ℕ → sProp 𝕄) :
    (bigSep (Finset.univ : Finset (Fin (a * b))) fun p => Φ p.val)
      = bigSep (Finset.univ : Finset (Fin a)) fun x => bigSep (Finset.univ : Finset (Fin b)) fun y => Φ (y.val + b * x.val) := by
  rw [bigSep_univ_equiv (finProdFinEquiv (m := a) (n := b)) (fun p : Fin (a * b) => Φ p.val), bigSep_univ_prod]
  rfl

theorem bigSep_fin_mul' {N : ℕ} (a b : ℕ) (h : N = a * b) (Φ : ℕ → sProp 𝕄) :
    (bigSep (Finset.univ : Finset (Fin N)) fun p => Φ p.val)
      = bigSep (Finset.univ : Finset (Fin a)) fun x => bigSep (Finset.univ : Finset (Fin b)) fun y => Φ (y.val + b * x.val) := by
  subst h; exact bigSep_fin_mul a b Φ

theorem pointsTo_splitShare {ℓ : Loc nD τ sig} (I : Finset (Idx ℓ)) (f : Buf (Elt F) ℓ) (n : ℕ) :
    ∀ q : PosShare TreeShare,
      (ℓ ↦[I]{q} f : sProp 𝕄) = bigSep (Finset.univ : Finset (Fin (2 ^ n))) fun k => ℓ ↦[I]{splitShare q n k.val} f := by
  induction n with
  | zero =>
    intro q
    haveI : Subsingleton (Fin (2 ^ 0)) := (inferInstance : Subsingleton (Fin 1))
    rw [bigSep_univ_of_subsingleton (⟨0, Nat.one_pos⟩ : Fin (2 ^ 0))]; rfl
  | succ n ih =>
    intro q
    rw [bigSep_fin_mul' (2 ^ n) 2 (pow_succ 2 n) (fun k => (ℓ ↦[I]{splitShare q (n + 1) k} f : sProp 𝕄)),
      bigSep_univ_comm, bigSep_univ_two]
    have h0 : ∀ x : Fin (2 ^ n), splitShare q (n + 1) ((0 : Fin 2).val + 2 * x.val) = splitShare q.left n x.val := by
      intro x
      show splitShare (if (0 + 2 * x.val) % 2 = 0 then q.left else q.right) n ((0 + 2 * x.val) / 2) = _
      rw [if_pos (by omega), show (0 + 2 * x.val) / 2 = x.val by omega]
    have h1 : ∀ x : Fin (2 ^ n), splitShare q (n + 1) ((1 : Fin 2).val + 2 * x.val) = splitShare q.right n x.val := by
      intro x
      show splitShare (if (1 + 2 * x.val) % 2 = 0 then q.left else q.right) n ((1 + 2 * x.val) / 2) = _
      rw [if_neg (by omega), show (1 + 2 * x.val) / 2 = x.val by omega]
    simp only [h0, h1]
    rw [← ih q.left, ← ih q.right]
    have hs : (ℓ ↦[I]{q} f : sProp 𝕄) ⊣⊢ iprop((ℓ ↦[I]{q.left} f) ∗ ℓ ↦[I]{q.right} f) := pointsTo_share (PosShare.mem_left_op_right q)
    exact BI.equiv_iff.mp ⟨hs.1, hs.2⟩

theorem ins_split (d : Dev nD) (t1 i1 t2 i2 : Ref sig .tc) (W : Valuation τ sig (Elt F)) (n : ℕ) (q : PosShare TreeShare) :
    (ins d t1 i1 t2 i2 W q : sProp 𝕄)
      = bigSep (Finset.univ : Finset (Fin (2 ^ n))) fun k => ins d t1 i1 t2 i2 W (splitShare q n k.val) := by
  unfold ins
  rw [bigSep_sep', bigSep_sep', bigSep_sep', ← pointsTo_splitShare, ← pointsTo_splitShare, ← pointsTo_splitShare, ← pointsTo_splitShare]

theorem out0_cores (d : Dev nD) (f : Vec F S10240x128 .f32) :
    (tLoc d main_v8 ↦{fullShare} f : sProp 𝕄)
      = bigSep (Finset.univ : Finset (Fin 2)) fun c => bigSep (Finset.univ : Finset (Fin 16)) fun i => outs0 d c.val i.val f := by
  have hp : ∀ p : Fin 32, part0N p.val = (Rect.part (s := S10240x128) (a₀ := 0) hdiv0 p).set := fun p => dif_pos p.isLt
  have h1 : (tLoc d main_v8 ↦{fullShare} f : sProp 𝕄)
      = bigSep (Finset.univ : Finset (Fin 32)) fun p => tLoc d main_v8 ↦[part0N p.val]{fullShare} f := by
    simp only [hp]
    rw [← pointsTo_biUnion Finset.univ (ℓ := tLoc d main_v8) (fun p : Fin 32 => (Rect.part (s := S10240x128) (a₀ := 0) hdiv0 p).set)
      (fun p _ p' _ h => Rect.part_disjoint hdiv0 h), Rect.biUnion_part]
  rw [h1, bigSep_fin_mul' 16 2 rfl (fun p => (tLoc d main_v8 ↦[part0N p]{fullShare} f : sProp 𝕄)), bigSep_univ_comm]
  refine bigSep_congr fun c _ => bigSep_congr fun i _ => ?_
  unfold outs0
  rw [show c.val + 2 * i.val = 2 * i.val + c.val from Nat.add_comm _ _]

/-- What splits over the 800 parts of 400 rows, regrouped by core c, tile i and chunk t (part 50 i + 25 c + t). -/
theorem cores_of_parts (Φ : Finset S320000x128.Idx → sProp 𝕄)
    (hΦ : Φ Finset.univ = bigSep Finset.univ fun p : Fin 800 => Φ (Rect.part (s := S320000x128) (a₀ := 0) hdiv1 p).set) :
    Φ Finset.univ = bigSep (Finset.univ : Finset (Fin 2)) fun c => bigSep (Finset.univ : Finset (Fin 16)) fun i =>
      bigSep (Finset.univ : Finset (Fin 25)) fun t => Φ (part1N (50 * i.val + 25 * c.val + t.val)) := by
  have hp : ∀ p : Fin 800, part1N p.val = (Rect.part (s := S320000x128) (a₀ := 0) hdiv1 p).set := fun p => dif_pos p.isLt
  have h1 : Φ Finset.univ = bigSep (Finset.univ : Finset (Fin 800)) fun p => Φ (part1N p.val) := by
    simp only [hp]
    exact hΦ
  rw [h1, bigSep_fin_mul' 16 50 rfl (fun p => Φ (part1N p))]
  have h2 : ∀ x : Fin 16, (bigSep (Finset.univ : Finset (Fin 50)) fun y => Φ (part1N (y.val + 50 * x.val)))
      = bigSep (Finset.univ : Finset (Fin 2)) fun c => bigSep (Finset.univ : Finset (Fin 25)) fun t => Φ (part1N (50 * x.val + 25 * c.val + t.val)) := by
    intro x
    rw [bigSep_fin_mul' 2 25 rfl (fun u => Φ (part1N (u + 50 * x.val)))]
    refine bigSep_congr fun c _ => bigSep_congr fun t _ => ?_
    rw [show t.val + 25 * c.val + 50 * x.val = 50 * x.val + 25 * c.val + t.val by omega]
  simp only [h2]
  exact bigSep_univ_comm _

theorem out1_cores (d : Dev nD) (f : Vec F S320000x128 .f32) :
    (tLoc d main_v61 ↦{fullShare} f : sProp 𝕄)
      = bigSep (Finset.univ : Finset (Fin 2)) fun c => bigSep (Finset.univ : Finset (Fin 16)) fun i => outs1 d c.val i.val f := by
  unfold outs1
  refine cores_of_parts (fun I => tLoc d main_v61 ↦[I]{fullShare} f) ?_
  beta_reduce
  rw [← pointsTo_biUnion Finset.univ (ℓ := tLoc d main_v61) (fun p : Fin 800 => (Rect.part (s := S320000x128) (a₀ := 0) hdiv1 p).set)
    (fun p _ p' _ h => Rect.part_disjoint hdiv1 h), Rect.biUnion_part]

theorem out2_cores (d : Dev nD) (f : Vec F S320000x128 .f32) :
    (tLoc d main_v134 ↦{fullShare} f : sProp 𝕄)
      = bigSep (Finset.univ : Finset (Fin 2)) fun c => bigSep (Finset.univ : Finset (Fin 16)) fun i => outs2 d c.val i.val f := by
  unfold outs2
  refine cores_of_parts (fun I => tLoc d main_v134 ↦[I]{fullShare} f) ?_
  beta_reduce
  rw [← pointsTo_biUnion Finset.univ (ℓ := tLoc d main_v134) (fun p : Fin 800 => (Rect.part (s := S320000x128) (a₀ := 0) hdiv1 p).set)
    (fun p _ p' _ h => Rect.part_disjoint hdiv1 h), Rect.biUnion_part]

theorem out3_cores (d : Dev nD) (f : Vec F S320000x128 .f32) :
    (tLoc d main_v207 ↦{fullShare} f : sProp 𝕄)
      = bigSep (Finset.univ : Finset (Fin 2)) fun c => bigSep (Finset.univ : Finset (Fin 16)) fun i => outs3 d c.val i.val f := by
  unfold outs3
  refine cores_of_parts (fun I => tLoc d main_v207 ↦[I]{fullShare} f) ?_
  beta_reduce
  rw [← pointsTo_biUnion Finset.univ (ℓ := tLoc d main_v207) (fun p : Fin 800 => (Rect.part (s := S320000x128) (a₀ := 0) hdiv1 p).set)
    (fun p _ p' _ h => Rect.part_disjoint hdiv1 h), Rect.biUnion_part]

theorem ins_tiles (d : Dev nD) (t1 i1 t2 i2 : Ref sig .tc) (W : Valuation τ sig (Elt F)) (c : ℕ) :
    (ins d t1 i1 t2 i2 W (coreShare c) : sProp 𝕄)
      = bigSep (Finset.univ : Finset (Fin 16)) fun i => ins d t1 i1 t2 i2 W (tileShare c i.val) :=
  ins_split d t1 i1 t2 i2 W 4 (coreShare c)

theorem ins_cores (d : Dev nD) (t1 i1 t2 i2 : Ref sig .tc) (W : Valuation τ sig (Elt F)) :
    (ins d t1 i1 t2 i2 W fullShare : sProp 𝕄)
      = bigSep (Finset.univ : Finset (Fin 2)) fun c => ins d t1 i1 t2 i2 W (coreShare c.val) :=
  ins_split d t1 i1 t2 i2 W 1 fullShare

theorem corePay_tiles (d : Dev nD) (q : Fin 4) (c : ℕ) (b : Bool) :
    corePay m d q c b = bigSep (Finset.univ : Finset (Fin 16)) fun i => tilePay m d q c i.val b := by
  match q with
  | 0 | 1 | 2 | 3 => simp only [corePay, tilePay]; rw [bigSep_sep', ← ins_tiles]

theorem whole0 (d : Dev nD) (f : Vec F S10240x128 .f32) :
    (iprop(ins d main_arg3 main_v3 main_arg4 main_v7 (VA0 (V0 m d)) fullShare ∗ tLoc d main_v8 ↦{fullShare} f) : sProp 𝕄)
      = bigSep (Finset.univ : Finset (Fin 2)) fun c => iprop(ins d main_arg3 main_v3 main_arg4 main_v7 (VA0 (V0 m d)) (coreShare c.val)
          ∗ bigSep (Finset.univ : Finset (Fin 16)) fun i => outs0 d c.val i.val f) := by
  rw [bigSep_sep', ← ins_cores, ← out0_cores]

theorem whole1 (d : Dev nD) (f : Vec F S320000x128 .f32) :
    (iprop(ins d main_v9 main_v21 main_v60 main_v47 (VA1 (V0 m d)) fullShare ∗ tLoc d main_v61 ↦{fullShare} f) : sProp 𝕄)
      = bigSep (Finset.univ : Finset (Fin 2)) fun c => iprop(ins d main_v9 main_v21 main_v60 main_v47 (VA1 (V0 m d)) (coreShare c.val)
          ∗ bigSep (Finset.univ : Finset (Fin 16)) fun i => outs1 d c.val i.val f) := by
  rw [bigSep_sep', ← ins_cores, ← out1_cores]

theorem whole2 (d : Dev nD) (f : Vec F S320000x128 .f32) :
    (iprop(ins d main_v120 main_v21 main_v133 main_v47 (VA2 (V0 m d)) fullShare ∗ tLoc d main_v134 ↦{fullShare} f) : sProp 𝕄)
      = bigSep (Finset.univ : Finset (Fin 2)) fun c => iprop(ins d main_v120 main_v21 main_v133 main_v47 (VA2 (V0 m d)) (coreShare c.val)
          ∗ bigSep (Finset.univ : Finset (Fin 16)) fun i => outs2 d c.val i.val f) := by
  rw [bigSep_sep', ← ins_cores, ← out2_cores]

theorem whole3 (d : Dev nD) (f : Vec F S320000x128 .f32) :
    (iprop(ins d main_v193 main_v21 main_v206 main_v47 (VA3 (V0 m d)) fullShare ∗ tLoc d main_v207 ↦{fullShare} f) : sProp 𝕄)
      = bigSep (Finset.univ : Finset (Fin 2)) fun c => iprop(ins d main_v193 main_v21 main_v206 main_v47 (VA3 (V0 m d)) (coreShare c.val)
          ∗ bigSep (Finset.univ : Finset (Fin 16)) fun i => outs3 d c.val i.val f) := by
  rw [bigSep_sep', ← ins_cores, ← out3_cores]

instance corePay_storable (d : Dev nD) (q : Fin 4) (c : ℕ) (b : Bool) : BI.Storable (upEmb : UEmb _ 𝕄) (corePay m d q c b) := by
  match q with
  | 0 | 1 | 2 | 3 => simp only [corePay, ins, outs0, outs1, outs2, outs3]; infer_instance

instance tilePay_storable (d : Dev nD) (q : Fin 4) (c i : ℕ) (b : Bool) : BI.Storable (upEmb : UEmb _ 𝕄) (tilePay m d q c i b) := by
  match q with
  | 0 | 1 | 2 | 3 => simp only [tilePay, ins, outs0, outs1, outs2, outs3]; infer_instance

instance P_storable : (P (F := F) m).IsStorable where
  st q d c := corePay_storable m d q c.val false
  dn q d c := corePay_storable m d q c.val true
  go q d c i := tilePay_storable m d q c.val i.val false
  td q d c i := tilePay_storable m d q c.val i.val true

theorem st_tiles : ∀ (q : Fin 4) (d : Dev nD) (c : Fin ((K (F := F)).nCore q)),
    (P m).st q d c = bigSep Finset.univ fun i : Fin ((K (F := F)).nSub q) => (P m).go q d c i
  | 0, d, c => corePay_tiles m d 0 c.val false
  | 1, d, c => corePay_tiles m d 1 c.val false
  | 2, d, c => corePay_tiles m d 2 c.val false
  | 3, d, c => corePay_tiles m d 3 c.val false

theorem dn_tiles : ∀ (q : Fin 4) (d : Dev nD) (c : Fin ((K (F := F)).nCore q)),
    (P m).dn q d c = bigSep Finset.univ fun i : Fin ((K (F := F)).nSub q) => (P m).td q d c i
  | 0, d, c => corePay_tiles m d 0 c.val true
  | 1, d, c => corePay_tiles m d 1 c.val true
  | 2, d, c => corePay_tiles m d 2 c.val true
  | 3, d, c => corePay_tiles m d 3 c.val true

theorem vecSplit (q : Fin 4) : (K (F := F)).VecSplit' (P m) q := by
  intro d c
  rw [st_tiles m q d c, dn_tiles m q d c]
  iintro H
  imodintro
  isplitl [H]; · iexact H
  iintro H; iexact H

theorem st_intro0 (d : Dev nD) :
    iprop(ins d main_arg3 main_v3 main_arg4 main_v7 (VA0 (V0 m d)) fullShare ∗ tLoc d main_v8 ↦{fullShare} VA0 (V0 m d) (r main_v8))
      ⊢ (bigSep Finset.univ fun c : Fin ((K (F := F)).nCore 0) => (P m).st 0 d c : sProp 𝕄) :=
  Entails.of_eq (whole0 m d (VA0 (V0 m d) (r main_v8)))
theorem st_intro1 (d : Dev nD) :
    iprop(ins d main_v9 main_v21 main_v60 main_v47 (VA1 (V0 m d)) fullShare ∗ tLoc d main_v61 ↦{fullShare} VA1 (V0 m d) (r main_v61))
      ⊢ (bigSep Finset.univ fun c : Fin ((K (F := F)).nCore 1) => (P m).st 1 d c : sProp 𝕄) :=
  Entails.of_eq (whole1 m d (VA1 (V0 m d) (r main_v61)))
theorem st_intro2 (d : Dev nD) :
    iprop(ins d main_v120 main_v21 main_v133 main_v47 (VA2 (V0 m d)) fullShare ∗ tLoc d main_v134 ↦{fullShare} VA2 (V0 m d) (r main_v134))
      ⊢ (bigSep Finset.univ fun c : Fin ((K (F := F)).nCore 2) => (P m).st 2 d c : sProp 𝕄) :=
  Entails.of_eq (whole2 m d (VA2 (V0 m d) (r main_v134)))
theorem st_intro3 (d : Dev nD) :
    iprop(ins d main_v193 main_v21 main_v206 main_v47 (VA3 (V0 m d)) fullShare ∗ tLoc d main_v207 ↦{fullShare} VA3 (V0 m d) (r main_v207))
      ⊢ (bigSep Finset.univ fun c : Fin ((K (F := F)).nCore 3) => (P m).st 3 d c : sProp 𝕄) :=
  Entails.of_eq (whole3 m d (VA3 (V0 m d) (r main_v207)))

theorem dn_elim0 (d : Dev nD) :
    (bigSep Finset.univ fun c : Fin ((K (F := F)).nCore 0) => (P m).dn 0 d c : sProp 𝕄)
      ⊢ iprop(ins d main_arg3 main_v3 main_arg4 main_v7 (VA0 (V0 m d)) fullShare ∗ tLoc d main_v8 ↦{fullShare} out0 (V0 m d)) :=
  Entails.of_eq (whole0 m d (out0 (V0 m d))).symm
theorem dn_elim1 (d : Dev nD) :
    (bigSep Finset.univ fun c : Fin ((K (F := F)).nCore 1) => (P m).dn 1 d c : sProp 𝕄)
      ⊢ iprop(ins d main_v9 main_v21 main_v60 main_v47 (VA1 (V0 m d)) fullShare ∗ tLoc d main_v61 ↦{fullShare} out1 (V0 m d)) :=
  Entails.of_eq (whole1 m d (out1 (V0 m d))).symm
theorem dn_elim2 (d : Dev nD) :
    (bigSep Finset.univ fun c : Fin ((K (F := F)).nCore 2) => (P m).dn 2 d c : sProp 𝕄)
      ⊢ iprop(ins d main_v120 main_v21 main_v133 main_v47 (VA2 (V0 m d)) fullShare ∗ tLoc d main_v134 ↦{fullShare} out2 (V0 m d)) :=
  Entails.of_eq (whole2 m d (out2 (V0 m d))).symm
theorem dn_elim3 (d : Dev nD) :
    (bigSep Finset.univ fun c : Fin ((K (F := F)).nCore 3) => (P m).dn 3 d c : sProp 𝕄)
      ⊢ iprop(ins d main_v193 main_v21 main_v206 main_v47 (VA3 (V0 m d)) fullShare ∗ tLoc d main_v207 ↦{fullShare} out3 (V0 m d)) :=
  Entails.of_eq (whole3 m d (out3 (V0 m d))).symm

end Cert.KernelIdeal.Hand

end
-- ==== Proof.KI.TileLib.lean ====
import proofs.«208129_g65403761983635_cont_9to1_m_1354_7_alg».proof.Proof.KI.Base
import Idealize.ShloMosaic.Lib.SparseCore.Ops
import Idealize.ShloMosaic.Lib.SparseCore.Stream

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

omit [FloatOps F] in
theorem cell_ne (thr : Thread nD τ) {s s' : DmaSem sig} (h : s ≠ s') : ((thr, SemLoc.dma s) : GSem nD τ sig) ≠ (thr, SemLoc.dma s') :=
  fun e => h (SemLoc.dma.inj (Prod.mk.inj e).2)

theorem read_writes_eq_of_pieces {sig' : RefSig} {κ : Kind} {sp : Space} {s : Shape} {e : EltTy} {Val : EltTy → Type}
    (v : View sig' κ sp s e) (f : v.ty.Contents Val) (G : s.Idx → Val e) (Ls : List (View.Piece Val s e))
    (hp : ∀ p ∈ Ls, ∀ x : p.1.shape.Idx, p.2 x = G (p.1.emb x))
    (hr : ∀ y, (∀ p ∈ Ls, y ∉ p.1.set) → v.read Val f y = G y) : v.read Val (v.writes Val f Ls) = G := by
  funext y
  by_cases h : ∃ p ∈ Ls, y ∈ p.1.set
  · exact View.read_writes_apply_of_pieces v f G Ls hp y h
  · have h' : ∀ p ∈ Ls, y ∉ p.1.set := fun p hp hy => h ⟨p, hp, hy⟩
    rw [View.read_writes_apply_of_forall_not_mem v f y Ls h']; exact hr y h'

def rowsAdd (k : ℕ) (f g : Vec F S400x128 .f32) : Vec F S400x128 .f32 :=
  fun x => if 4 * k ≤ (x 0).val ∧ (x 0).val < 4 * k + 4 then FloatOps.addf (φ := .f32) (f x) (g x) else f x

theorem laneAdd_apply (u w : Vec F S1x16 .f32) (x : S1x16.Idx) :
    shapeCast S1x16 (addf (shapeCast S16 u shapeCasts_S1x16_S16) (shapeCast S16 w shapeCasts_S1x16_S16)) shapeCasts_S16_S1x16 x
      = FloatOps.addf (φ := .f32) (u x) (w x) := by
  have e : Shape.reshapeEquiv shapeCasts_S1x16_S16 (Shape.reshapeEquiv shapeCasts_S16_S1x16 x) = x := by
    rw [Shape.reshapeEquiv_reshapeEquiv, Shape.reshapeEquiv_self]
  show FloatOps.addf (u (Shape.reshapeEquiv _ (Shape.reshapeEquiv _ x))) (w (Shape.reshapeEquiv _ (Shape.reshapeEquiv _ x))) = _
  rw [e]

def accAt (n : ℕ) (f g : Vec F S400x128 .f32) : Vec F S400x128 .f32 :=
  fun x => if (x 0).val < n then FloatOps.addf (φ := .f32) (f x) (g x) else f x

theorem rowsAdd_accAt (k : ℕ) (f g : Vec F S400x128 .f32) : rowsAdd k (accAt (4 * k) f g) g = accAt (4 * (k + 1)) f g := by
  funext x; unfold rowsAdd accAt
  by_cases h1 : (x 0).val < 4 * k
  · rw [if_neg (by omega), if_pos h1, if_pos (by omega)]
  · by_cases h2 : (x 0).val < 4 * k + 4
    · rw [if_pos ⟨by omega, h2⟩, if_neg h1, if_pos (by omega)]
    · rw [if_neg (by omega), if_neg h1, if_neg (by omega)]

theorem accAt_zero (f g : Vec F S400x128 .f32) : accAt 0 f g = f := by
  funext x; unfold accAt; rw [if_neg (by omega)]

theorem accAt_all (f g : Vec F S400x128 .f32) (x : S400x128.Idx) : accAt 400 f g x = FloatOps.addf (φ := .f32) (f x) (g x) := by
  unfold accAt; rw [if_pos]; exact (x 0).isLt

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

end Cert.KernelIdeal.Hand

end
-- ==== Proof.KI.Tile0.lean ====
import proofs.«208129_g65403761983635_cont_9to1_m_1354_7_alg».proof.Proof.KI.Base
import proofs.«208129_g65403761983635_cont_9to1_m_1354_7_alg».proof.Proof.Gen.KernelIdeal.Skeleton
import Idealize.ShloMosaic.Lib.SparseCore.Ops
import Idealize.ShloMosaic.Lib.SparseCore.Stream
import proofs.«208129_g65403761983635_cont_9to1_m_1354_7_alg».proof.Proof.KI.TileLib

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

namespace C0

section Tile

variable (d : Dev nD) (L : grid0.Coords)

abbrev cV (L : grid0.Coords) : Fin τ.nSC := (L 0).castLE hcore0
abbrev jV (L : grid0.Coords) : Fin τ.nSub := (L 1).castLE hsub0

abbrev t1W : Memref sig .scVector .hbm S119x128 .f32 := Memref.whole main_arg3_scv
abbrev i1W : Memref sig .scVector .hbm S10240 .i32 := Memref.whole main_v3_scv
abbrev t2W : Memref sig .scVector .hbm S4x128 .f32 := Memref.whole main_arg4_scv
abbrev i2W : Memref sig .scVector .hbm S10240 .i32 := Memref.whole main_v7_scv
abbrev oW : Memref sig .scVector .hbm S10240x128 .f32 := Memref.whole main_v8_scv

abbrev sI1 : Memref sig .scVector .vmem S320 .i32 := Memref.whole cc0_scratch0
abbrev sI2 : Memref sig .scVector .vmem S320 .i32 := Memref.whole cc0_scratch1
abbrev sA : Memref sig .scVector .vmem S320x128 .f32 := Memref.whole cc0_scratch2
abbrev sB : Memref sig .scVector .vmem S320x128 .f32 := Memref.whole cc0_scratch3

abbrev oRect (L : grid0.Coords) : Rect S10240x128 := Rect.unit (s := S10240x128) (k0_off10 L) S320x128.size (k0_off10_inb L)
abbrev oRows (L : grid0.Coords) : Memref sig .scVector .hbm S320x128 .f32 := (oW).slice (oRect L) (fun _ => rfl)

omit [FloatOps F] in
theorem bound0 : grid0.bound 0 = 2 := rfl
omit [FloatOps F] in
theorem bound1 : grid0.bound 1 = 16 := rfl

abbrev pN (L : grid0.Coords) : ℕ := 2 * (L 1).val + (L 0).val
omit [FloatOps F] in
theorem pN_lt : pN L < 32 := by
  have h0 : (L 0).val < 2 := (L 0).isLt
  have h1 : (L 1).val < 16 := (L 1).isLt
  show 2 * (L 1).val + (L 0).val < 32
  omega

omit [FloatOps F] in
theorem oRect_eq : oRect L = Rect.part (s := S10240x128) (a₀ := 0) hdiv0 ⟨pN L, pN_lt L⟩ := by
  unfold oRect Rect.part Rect.block
  congr 1 <;> funext a
  · rw [k0_off10_eq]
    match a with
    | 0 => simp [Shape.partIx, Shape.partSize, pN]; omega
    | 1 => simp [Shape.partIx, Shape.partSize]
  · match a with
    | 0 => simp [Shape.partSize]
    | 1 => simp [Shape.partSize]

omit [FloatOps F] in
theorem set_oRows : (oRows L).view.set = part0N (pN L) := by
  show ((View.whole (main_v8_scv : Ref sig .scVector)).slice (oRect L)).set = _
  rw [View.set_slice_whole, oRect_eq]
  unfold part0N
  rw [dif_pos (pN_lt L)]

abbrev cell (s : DmaSems sig S_) : GSem nD τ sig := (V d (cV L) (jV L), .dma s.sem)

omit [FloatOps F] in
theorem cell_ne {a b : DmaSems sig S_} (h : a.sem ≠ b.sem) : cell d L a ≠ cell d L b :=
  fun e => h (SemLoc.dma.inj (congrArg Prod.snd e))

omit [FloatOps F] in
theorem cell_mem (s : DmaSems sig S_) (h : (SemLoc.dma s.sem : SemLoc sig).isScoped .scVector = true) :
    cell d L s ∈ ownCells (V d (cV L) (jV L)) := mem_ownCells.mpr ⟨rfl, h⟩

abbrev cells0 : Finset (GSem nD τ sig) :=
  {cell d L cc0_scratch4, cell d L cc0_scratch5, cell d L cc0_scoped0, cell d L cc0_scoped1, cell d L cc0_scoped2}

omit [FloatOps F] in
theorem ownSems0_V0 :
    (ownSems0 (V d (cV L) (jV L)) : sProp 𝕄)
      = iprop((semVal (cell d L cc0_scratch4) 0 ∗ semVal (cell d L cc0_scratch5) 0 ∗ semVal (cell d L cc0_scoped0) 0
          ∗ semVal (cell d L cc0_scoped1) 0 ∗ semVal (cell d L cc0_scoped2) 0)
          ∗ bigSep (ownCells (V d (cV L) (jV L)) \ cells0 d L) fun g => semVal g 0) := by
  unfold SparseCore.Cfg.ownSems0
  have hsub : cells0 d L ⊆ ownCells (V d (cV L) (jV L)) := by
    intro g hg
    simp only [Finset.mem_insert, Finset.mem_singleton] at hg
    rcases hg with rfl | rfl | rfl | rfl | rfl
    · exact cell_mem d L _ (by decide)
    · exact cell_mem d L _ (by decide)
    · exact cell_mem d L _ (by decide)
    · exact cell_mem d L _ (by decide)
    · exact cell_mem d L _ (by decide)
  rw [SparseCore.bigSep_sdiff_split' hsub]
  congr 1
  rw [SparseCore.bigSep_insert' (by
      simp only [Finset.mem_insert, Finset.mem_singleton, not_or]
      exact ⟨cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide)⟩),
    SparseCore.bigSep_insert' (by
      simp only [Finset.mem_insert, Finset.mem_singleton, not_or]
      exact ⟨cell_ne d L (by decide), cell_ne d L (by decide)⟩),
    SparseCore.bigSep_insert' (by
      simp only [Finset.mem_singleton]
      exact cell_ne d L (by decide)),
    bigSep_singleton]

abbrev sref (b : Ref sig .scVector) : DevRef τ sig := (Proc.scVector (cV L) (jV L)).devRef b

omit [FloatOps F] in
theorem sref_ne {a b : Ref sig .scVector} (h : a ≠ b) : sref L a ≠ sref L b :=
  fun e => h (Proc.devRef_injective _ e)

abbrev srefs0 : Finset (DevRef τ sig) := {sref L cc0_scratch0, sref L cc0_scratch1, sref L cc0_scratch2, sref L cc0_scratch3}

omit [FloatOps F] in
theorem ownBufs_V0 :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f))
          ∗ bigSep (ownRefs (τ := τ) (.scVector (cV L) (jV L)) \ srefs0 L) fun b => iprop(∃ f, ((d, b) : Loc nD τ sig) ↦{fullShare} f)) := by
  unfold SparseCore.Cfg.ownBufs
  have hsub : srefs0 L ⊆ ownRefs (τ := τ) (.scVector (cV L) (jV L)) := by
    intro b hb
    simp only [Finset.mem_insert, Finset.mem_singleton] at hb
    rcases hb with rfl | rfl | rfl | rfl <;> exact SparseCore.Cfg.mem_ownRefs_of_owner rfl
  refine (SparseCore.bigSep_sdiff_split' hsub).trans ?_
  congr 1
  rw [SparseCore.bigSep_insert' (by
      simp only [Finset.mem_insert, Finset.mem_singleton, not_or]
      exact ⟨sref_ne L (by decide), sref_ne L (by decide), sref_ne L (by decide)⟩),
    SparseCore.bigSep_insert' (by
      simp only [Finset.mem_insert, Finset.mem_singleton, not_or]
      exact ⟨sref_ne L (by decide), sref_ne L (by decide)⟩),
    SparseCore.bigSep_insert' (by
      simp only [Finset.mem_singleton]
      exact sref_ne L (by decide)),
    bigSep_singleton]

theorem tilePay0 (c i : ℕ) (aft : Bool) :
    tilePay m d 0 c i aft = iprop(ins d main_arg3 main_v3 main_arg4 main_v7 (VA0 (V0 m d)) (tileShare c i)
      ∗ outs0 d c i (if aft then out0 (V0 m d) else VA0 (V0 m d) (r main_v8))) := rfl

omit [FloatOps F] in
theorem pts_t1 (q : PosShare TreeShare) (f : Buf (Elt F) (tLoc d main_arg3)) :
    ((t1W).view.loc (V d (cV L) (jV L)) ↦{q} f : sProp 𝕄) = tLoc d main_arg3 ↦{q} f := rfl
omit [FloatOps F] in
theorem pts_i1 (q : PosShare TreeShare) (f : Buf (Elt F) (tLoc d main_v3)) :
    ((i1W).view.loc (V d (cV L) (jV L)) ↦{q} f : sProp 𝕄) = tLoc d main_v3 ↦{q} f := rfl
omit [FloatOps F] in
theorem pts_t2 (q : PosShare TreeShare) (f : Buf (Elt F) (tLoc d main_arg4)) :
    ((t2W).view.loc (V d (cV L) (jV L)) ↦{q} f : sProp 𝕄) = tLoc d main_arg4 ↦{q} f := rfl
omit [FloatOps F] in
theorem pts_i2 (q : PosShare TreeShare) (f : Buf (Elt F) (tLoc d main_v7)) :
    ((i2W).view.loc (V d (cV L) (jV L)) ↦{q} f : sProp 𝕄) = tLoc d main_v7 ↦{q} f := rfl
omit [FloatOps F] in
theorem pts_o (f : Buf (Elt F) (tLoc d main_v8)) :
    ((oRows L).view.loc (V d (cV L) (jV L)) ↦[(oRows L).view.set]{fullShare} f : sProp 𝕄) = tLoc d main_v8 ↦[part0N (pN L)]{fullShare} f := by
  rw [set_oRows]
omit [FloatOps F] in
theorem pts_sI1 (f : Buf (Elt F) ((V d (cV L) (jV L)).loc cc0_scratch0)) :
    ((sI1).view.loc (V d (cV L) (jV L)) ↦{fullShare} f : sProp 𝕄) = (V d (cV L) (jV L)).loc cc0_scratch0 ↦{fullShare} f := rfl
omit [FloatOps F] in
theorem pts_sI2 (f : Buf (Elt F) ((V d (cV L) (jV L)).loc cc0_scratch1)) :
    ((sI2).view.loc (V d (cV L) (jV L)) ↦{fullShare} f : sProp 𝕄) = (V d (cV L) (jV L)).loc cc0_scratch1 ↦{fullShare} f := rfl
omit [FloatOps F] in
theorem pts_sA (f : Buf (Elt F) ((V d (cV L) (jV L)).loc cc0_scratch2)) :
    ((sA).view.loc (V d (cV L) (jV L)) ↦{fullShare} f : sProp 𝕄) = (V d (cV L) (jV L)).loc cc0_scratch2 ↦{fullShare} f := rfl
omit [FloatOps F] in
theorem pts_sB (f : Buf (Elt F) ((V d (cV L) (jV L)).loc cc0_scratch3)) :
    ((sB).view.loc (V d (cV L) (jV L)) ↦{fullShare} f : sProp 𝕄) = (V d (cV L) (jV L)).loc cc0_scratch3 ↦{fullShare} f := rfl

abbrev iRect (L : grid0.Coords) : Rect S10240 := Rect.unit (s := S10240) (k0_off1 L) S320.size (k0_off1_inb L)
abbrev i1Rows (L : grid0.Coords) : Memref sig .scVector .hbm S320 .i32 := (i1W).slice (iRect L) (fun _ => rfl)
abbrev i2Rows (L : grid0.Coords) : Memref sig .scVector .hbm S320 .i32 := (i2W).slice (iRect L) (fun _ => rfl)

theorem hin1_of_pre (hpre : PreOK (V0 m d)) (g : Buf (Elt F) ((V d (cV L) (jV L)).loc cc0_scratch0)) (x : S320.Idx) :
    ((sI1).view.read (Elt F) (View.write (Elt F) (sI1).view g
      (ReadAs.same.apply ((i1Rows L).view.read (Elt F) (VA0 (V0 m d) (r main_v3)))) Finset.univ) x).toNat < 119 := by
  rw [View.write_whole_univ]
  show ((i1Rows L).view.read (Elt F) (VA0 (V0 m d) (r main_v3)) x).toNat < 119
  rw [show ∀ j, (i1Rows L).view.read (Elt F) (VA0 (V0 m d) (r main_v3)) j = VA0 (V0 m d) (r main_v3) ((i1Rows L).view.emb j) from
    fun j => (View.read_apply _ _).trans (cast_eq _ _)]
  exact hpre.h0a _

theorem hin2_of_pre (hpre : PreOK (V0 m d)) (g : Buf (Elt F) ((V d (cV L) (jV L)).loc cc0_scratch1)) (x : S320.Idx) :
    ((sI2).view.read (Elt F) (View.write (Elt F) (sI2).view g
      (ReadAs.same.apply ((i2Rows L).view.read (Elt F) (VA0 (V0 m d) (r main_v7)))) Finset.univ) x).toNat < 4 := by
  rw [View.write_whole_univ]
  show ((i2Rows L).view.read (Elt F) (VA0 (V0 m d) (r main_v7)) x).toNat < 4
  rw [show ∀ j, (i2Rows L).view.read (Elt F) (VA0 (V0 m d) (r main_v7)) j = VA0 (V0 m d) (r main_v7) ((i2Rows L).view.emb j) from
    fun j => (View.read_apply _ _).trans (cast_eq _ _)]
  exact hpre.h0b _

def rowsAdd (k : ℕ) (f g : Vec F S320x128 .f32) : Vec F S320x128 .f32 :=
  fun y => if 4 * k ≤ (y 0).val ∧ (y 0).val < 4 * k + 4 then FloatOps.addf (φ := .f32) (f y) (g y) else f y

def accum (GA GB : Vec F S320x128 .f32) (k : ℕ) : Vec F S320x128 .f32 :=
  fun y => if (y 0).val < 4 * k then FloatOps.addf (φ := .f32) (GA y) (GB y) else GA y

theorem rowsAdd_accum (GA GB : Vec F S320x128 .f32) (k : ℕ) : rowsAdd k (accum GA GB k) GB = accum GA GB (k + 1) := by
  funext y
  unfold rowsAdd accum
  by_cases h1 : (y 0).val < 4 * k
  · rw [if_neg (by omega), if_pos h1, if_pos (by omega)]
  · by_cases h2 : (y 0).val < 4 * (k + 1)
    · rw [if_pos (by omega), if_neg h1, if_pos h2]
    · rw [if_neg (by omega), if_neg h1, if_neg h2]

theorem accum_zero (GA GB : Vec F S320x128 .f32) : accum GA GB 0 = GA := by
  funext y; unfold accum; rw [if_neg (by omega)]

theorem accum_all (GA GB : Vec F S320x128 .f32) (y : S320x128.Idx) :
    accum GA GB 80 y = FloatOps.addf (φ := .f32) (GA y) (GB y) := by
  have := (y 0).isLt
  unfold accum; rw [if_pos (by show (y 0).val < 4 * 80; have : (y 0).val < 320 := (y 0).isLt; omega)]

theorem whole_writes_eq {κ : Kind} (b : Ref sig κ) (f G : b.ty.Contents (Elt F)) (Ls : List (View.Piece (Elt F) b.ty.shape b.ty.elt))
    (hp : ∀ p ∈ Ls, ∀ x : p.1.shape.Idx, p.2 x = G (p.1.emb x))
    (hr : ∀ y, (∀ p ∈ Ls, y ∉ p.1.set) → f y = G y) :
    (View.whole b).writes (Elt F) f Ls = G := by
  funext y
  show (View.whole b).read (Elt F) ((View.whole b).writes (Elt F) f Ls) y = G y
  by_cases h : ∃ p ∈ Ls, y ∈ p.1.set
  · exact View.read_writes_apply_of_pieces (View.whole b) f G Ls hp y h
  · have h' : ∀ p ∈ Ls, y ∉ p.1.set := fun p hp hy => h ⟨p, hp, hy⟩
    rw [View.read_writes_apply_of_forall_not_mem (View.whole b) f y Ls h']
    exact hr y h'

theorem piece_val (k : ℕ) {off : Fin 2 → ℕ} (h : ∃ r < 4, ∃ c, off = ![4 * k + r, c])
    (inb : ∀ a, off a + S1x16.size a ≤ S320x128.size a) (ga gb : Vec F S320x128 .f32) (x : S1x16.Idx) :
    FloatOps.addf (φ := .f32) (View.readAt (Elt F) (sA).view (Rect.unit (s := S320x128) off S1x16.size inb).toLoadRect ga x)
        (View.readAt (Elt F) (sB).view (Rect.unit (s := S320x128) off S1x16.size inb).toLoadRect gb x)
      = rowsAdd k ga gb ((Rect.unit (s := S320x128) off S1x16.size inb).emb x) := by
  obtain ⟨r, hr, c, rfl⟩ := h
  unfold rowsAdd
  rw [if_pos (by
    have hx : (x 0).val < 1 := (x 0).isLt
    simp only [Rect.emb_apply]
    constructor <;> simp <;> omega)]
  rfl

theorem whole_writes_whole_eq {κ : Kind} (b : Ref sig κ) (f G : b.ty.Contents (Elt F))
    (w : (Rect.whole b.ty.shape).shape.Idx → Elt F b.ty.elt) (hw : ∀ x, w x = G ((Rect.whole b.ty.shape).emb x)) :
    (View.whole b).writes (Elt F) f [⟨Rect.whole b.ty.shape, w⟩] = G := by
  refine whole_writes_eq b f G _ ?_ ?_
  · intro p hp
    obtain rfl := List.mem_singleton.mp hp
    exact hw
  · intro y hy
    refine absurd ?_ (hy _ (List.mem_singleton_self _))
    show y ∈ (Rect.whole b.ty.shape).set
    rw [Rect.set_whole]; exact Finset.mem_univ _

theorem rows4 (k n : ℕ) (h : 4 * k ≤ n ∧ n < 4 * k + 4) : n = 4 * k + 0 ∨ n = 4 * k + 1 ∨ n = 4 * k + 2 ∨ n = 4 * k + 3 := by omega
theorem lanes8 (n : ℕ) (h : n < 128) : (0 ≤ n ∧ n < 0 + 16) ∨ (16 ≤ n ∧ n < 16 + 16) ∨ (32 ≤ n ∧ n < 32 + 16) ∨ (48 ≤ n ∧ n < 48 + 16)
    ∨ (64 ≤ n ∧ n < 64 + 16) ∨ (80 ≤ n ∧ n < 80 + 16) ∨ (96 ≤ n ∧ n < 96 + 16) ∨ (112 ≤ n ∧ n < 112 + 16) := by omega

theorem piece_mem (k r c : ℕ) {off : Fin 2 → ℕ} (hoff : off = ![4 * k + r, c]) (inb : ∀ a, off a + S1x16.size a ≤ S320x128.size a)
    (y : S320x128.Idx) (h0 : (y 0).val = 4 * k + r) (h1 : c ≤ (y 1).val ∧ (y 1).val < c + 16) :
    y ∈ (Rect.unit (s := S320x128) off S1x16.size inb).set := by
  subst hoff
  rw [Rect.mem_set_unit]
  intro a
  match a with
  | 0 => simp; omega
  | 1 => simp; omega

abbrev oIdx (L : grid0.Coords) (x : S320x128.Idx) : S10240x128.Idx := (oRows L).view.emb x

def Aspec : Vec F S320x128 .f32 := fun x =>
  (VA0 (V0 m d) (r main_arg3) : Vec F S119x128 .f32)
    (ValueIdx.ix2 (rowOf 119 (by decide) ((VA0 (V0 m d) (r main_v3) : Vec F S10240 .i32) (ValueIdx.ix1 (n := 10240) (oIdx L x 0)))) (oIdx L x 1))

def Bspec : Vec F S320x128 .f32 := fun x =>
  (VA0 (V0 m d) (r main_arg4) : Vec F S4x128 .f32)
    (ValueIdx.ix2 (rowOf 4 (by decide) ((VA0 (V0 m d) (r main_v7) : Vec F S10240 .i32) (ValueIdx.ix1 (n := 10240) (oIdx L x 0)))) (oIdx L x 1))

theorem out0_at (x : S320x128.Idx) : out0 (V0 m d) (oIdx L x) = FloatOps.addf (φ := .f32) (Aspec m d L x) (Bspec m d L x) := rfl

omit [FloatOps F] in
theorem rowOf_val (z : ℕ) (hz : 0 < z) (w : BitVec 32) (h : w.toNat < z) : (rowOf z hz w).val = w.toNat := by
  unfold rowOf; rw [dif_pos h]

theorem emb_i1 (z : S320.Idx) (x : S320x128.Idx) (hzx : (z 0).val = (x 0).val) :
    ((i1Rows L).view.emb z : S10240.Idx) = ValueIdx.ix1 (n := 10240) (oIdx L x 0) := by
  funext b
  apply Fin.ext
  match b with
  | ⟨0, _⟩ =>
    show k0_off1 L 0 + 1 * (z 0).val = k0_off10 L 0 + 1 * (x 0).val
    rw [k0_off1_eq, k0_off10_eq, hzx]
    simp

theorem gather1_val (hpre : PreOK (V0 m d)) (pf : ∀ a, (Rect.unit (s := S119x128) ![0, 0] ![119, 128] inb_S119x128_S119x128_0_0).stride a = 1)
    (rd : S320.Idx → Elt F .i32) (hrd : ∀ z, rd z = (VA0 (V0 m d) (r main_v3) : Vec F S10240 .i32) ((i1Rows L).view.emb z))
    (hn : S320.numel = S320x128.size gathers_S119x128_S320x128.axis') (hin : ∀ x, (rd x).toNat < S119x128.size gathers_S119x128_S320x128.axis)
    (x : S320x128.Idx) :
    SparseCore.gatherPayload gathers_S119x128_S320x128
      (View.read (Elt F) ((t1W).slice (Rect.unit (s := S119x128) ![0, 0] ![119, 128] inb_S119x128_S119x128_0_0) pf).view (VA0 (V0 m d) (r main_arg3)))
      (SparseCore.rows rd hn hin) x = Aspec m d L x := by
  unfold SparseCore.gatherPayload Aspec
  rw [View.read_apply]
  refine (cast_eq _ _).trans (congrArg (VA0 (V0 m d) (r main_arg3)) (funext fun a => Fin.ext ?_))
  have hz : ∀ k : Fin (S320x128.size gathers_S119x128_S320x128.axis'), ((S320.rowMajor.symm (k.cast hn.symm)) 0).val = k.val := by
    intro k
    have := Shape.rowMajor_val_one (S320.rowMajor.symm (k.cast hn.symm))
    rw [Equiv.apply_symm_apply] at this
    exact this.symm
  match a with
  | ⟨0, _⟩ =>
    have e1 := Shape.Gathers.idx_axis gathers_S119x128_S320x128 (SparseCore.rows rd hn hin) x
    have hw := hpre.h0a (ValueIdx.ix1 (n := 10240) (oIdx L x 0))
    show 0 + 1 * (gathers_S119x128_S320x128.idx (SparseCore.rows rd hn hin) x gathers_S119x128_S320x128.axis).val = (rowOf 119 _ _).val
    rw [e1, rowOf_val _ _ _ hw]
    show 0 + 1 * (rd (S320.rowMajor.symm ((x gathers_S119x128_S320x128.axis').cast hn.symm))).toNat = _
    rw [hrd, Nat.zero_add, Nat.one_mul]
    exact congrArg (fun i : S10240.Idx => ((VA0 (V0 m d) (r main_v3) : Vec F S10240 .i32) i).toNat) (emb_i1 L _ x (hz _))
  | ⟨1, h1⟩ =>
    show 0 + 1 * (gathers_S119x128_S320x128.idx (SparseCore.rows rd hn hin) x ⟨1, h1⟩).val = k0_off10 L 1 + 1 * (x 1).val
    rw [k0_off10_eq]
    unfold Shape.Gathers.idx
    rw [dif_neg (show ¬ (1 = 0) from Nat.one_ne_zero)]
    simp
    rfl

theorem emb_i2 (z : S320.Idx) (x : S320x128.Idx) (hzx : (z 0).val = (x 0).val) :
    ((i2Rows L).view.emb z : S10240.Idx) = ValueIdx.ix1 (n := 10240) (oIdx L x 0) := by
  funext b
  apply Fin.ext
  match b with
  | ⟨0, _⟩ =>
    show k0_off1 L 0 + 1 * (z 0).val = k0_off10 L 0 + 1 * (x 0).val
    rw [k0_off1_eq, k0_off10_eq, hzx]
    simp

theorem gather2_val (hpre : PreOK (V0 m d)) (pf : ∀ a, (Rect.unit (s := S4x128) ![0, 0] ![4, 128] inb_S4x128_S4x128_0_0).stride a = 1)
    (rd : S320.Idx → Elt F .i32) (hrd : ∀ z, rd z = (VA0 (V0 m d) (r main_v7) : Vec F S10240 .i32) ((i2Rows L).view.emb z))
    (hn : S320.numel = S320x128.size gathers_S4x128_S320x128.axis') (hin : ∀ x, (rd x).toNat < S4x128.size gathers_S4x128_S320x128.axis)
    (x : S320x128.Idx) :
    SparseCore.gatherPayload gathers_S4x128_S320x128
      (View.read (Elt F) ((t2W).slice (Rect.unit (s := S4x128) ![0, 0] ![4, 128] inb_S4x128_S4x128_0_0) pf).view (VA0 (V0 m d) (r main_arg4)))
      (SparseCore.rows rd hn hin) x = Bspec m d L x := by
  unfold SparseCore.gatherPayload Bspec
  rw [View.read_apply]
  refine (cast_eq _ _).trans (congrArg (VA0 (V0 m d) (r main_arg4)) (funext fun a => Fin.ext ?_))
  have hz : ∀ k : Fin (S320x128.size gathers_S4x128_S320x128.axis'), ((S320.rowMajor.symm (k.cast hn.symm)) 0).val = k.val := by
    intro k
    have := Shape.rowMajor_val_one (S320.rowMajor.symm (k.cast hn.symm))
    rw [Equiv.apply_symm_apply] at this
    exact this.symm
  match a with
  | ⟨0, _⟩ =>
    have e1 := Shape.Gathers.idx_axis gathers_S4x128_S320x128 (SparseCore.rows rd hn hin) x
    have hw := hpre.h0b (ValueIdx.ix1 (n := 10240) (oIdx L x 0))
    show 0 + 1 * (gathers_S4x128_S320x128.idx (SparseCore.rows rd hn hin) x gathers_S4x128_S320x128.axis).val = (rowOf 4 _ _).val
    rw [e1, rowOf_val _ _ _ hw]
    show 0 + 1 * (rd (S320.rowMajor.symm ((x gathers_S4x128_S320x128.axis').cast hn.symm))).toNat = _
    rw [hrd, Nat.zero_add, Nat.one_mul]
    exact congrArg (fun i : S10240.Idx => ((VA0 (V0 m d) (r main_v7) : Vec F S10240 .i32) i).toNat) (emb_i2 L _ x (hz _))
  | ⟨1, h1⟩ =>
    show 0 + 1 * (gathers_S4x128_S320x128.idx (SparseCore.rows rd hn hin) x ⟨1, h1⟩).val = k0_off10 L 1 + 1 * (x 1).val
    rw [k0_off10_eq]
    unfold Shape.Gathers.idx
    rw [dif_neg (show ¬ (1 = 0) from Nat.one_ne_zero)]
    simp
    rfl

theorem rd1_apply (f1 : Buf (Elt F) ((V d (cV L) (jV L)).loc cc0_scratch0)) (z : S320.Idx) :
    View.read (Elt F) (sI1).view (View.write (Elt F) (sI1).view f1
      (ReadAs.same.apply (View.read (Elt F) (i1Rows L).view (VA0 (V0 m d) (r main_v3)))) Finset.univ) z
      = (VA0 (V0 m d) (r main_v3) : Vec F S10240 .i32) ((i1Rows L).view.emb z) := by
  rw [View.write_whole_univ]
  show (i1Rows L).view.read (Elt F) (VA0 (V0 m d) (r main_v3)) z = _
  exact (View.read_apply _ _).trans (cast_eq _ _)

theorem rd2_apply (f2 : Buf (Elt F) ((V d (cV L) (jV L)).loc cc0_scratch1)) (z : S320.Idx) :
    View.read (Elt F) (sI2).view (View.write (Elt F) (sI2).view f2
      (ReadAs.same.apply (View.read (Elt F) (i2Rows L).view (VA0 (V0 m d) (r main_v7)))) Finset.univ) z
      = (VA0 (V0 m d) (r main_v7) : Vec F S10240 .i32) ((i2Rows L).view.emb z) := by
  rw [View.write_whole_univ]
  show (i2Rows L).view.read (Elt F) (VA0 (V0 m d) (r main_v7)) z = _
  exact (View.read_apply _ _).trans (cast_eq _ _)

theorem init_A (hpre : PreOK (V0 m d)) (pf : ∀ a, (Rect.unit (s := S119x128) ![0, 0] ![119, 128] inb_S119x128_S119x128_0_0).stride a = 1)
    (rd : S320.Idx → Elt F .i32) (hrd : ∀ z, rd z = (VA0 (V0 m d) (r main_v3) : Vec F S10240 .i32) ((i1Rows L).view.emb z))
    (hn : S320.numel = S320x128.size gathers_S119x128_S320x128.axis') (hin : ∀ x, (rd x).toNat < S119x128.size gathers_S119x128_S320x128.axis) :
    (sA).view.writes (Elt F) (sA).view.junk
      [⟨Rect.whole S320x128, SparseCore.gatherPayload gathers_S119x128_S320x128
        (View.read (Elt F) ((t1W).slice (Rect.unit (s := S119x128) ![0, 0] ![119, 128] inb_S119x128_S119x128_0_0) pf).view (VA0 (V0 m d) (r main_arg3)))
        (SparseCore.rows rd hn hin)⟩] = Aspec m d L :=
  whole_writes_whole_eq cc0_scratch2 _ _ _ fun x =>
    (gather1_val m d L hpre pf rd hrd hn hin x).trans (congrArg (Aspec m d L) (Rect.emb_whole_apply _ x).symm)

theorem init_B (hpre : PreOK (V0 m d)) (pf : ∀ a, (Rect.unit (s := S4x128) ![0, 0] ![4, 128] inb_S4x128_S4x128_0_0).stride a = 1)
    (rd : S320.Idx → Elt F .i32) (hrd : ∀ z, rd z = (VA0 (V0 m d) (r main_v7) : Vec F S10240 .i32) ((i2Rows L).view.emb z))
    (hn : S320.numel = S320x128.size gathers_S4x128_S320x128.axis') (hin : ∀ x, (rd x).toNat < S4x128.size gathers_S4x128_S320x128.axis) :
    (sB).view.writes (Elt F) (sB).view.junk
      [⟨Rect.whole S320x128, SparseCore.gatherPayload gathers_S4x128_S320x128
        (View.read (Elt F) ((t2W).slice (Rect.unit (s := S4x128) ![0, 0] ![4, 128] inb_S4x128_S4x128_0_0) pf).view (VA0 (V0 m d) (r main_arg4)))
        (SparseCore.rows rd hn hin)⟩] = Bspec m d L :=
  whole_writes_whole_eq cc0_scratch3 _ _ _ fun x =>
    (gather2_val m d L hpre pf rd hrd hn hin x).trans (congrArg (Bspec m d L) (Rect.emb_whole_apply _ x).symm)

omit [FloatOps F] in
theorem trips0 : Scf.trips k0_t1_loop.lb k0_t1_loop.ub k0_t1_loop.st = 80 := by decide

theorem out_congr (w : S320x128.Idx → Elt F .f32) (O0 : Buf (Elt F) (tLoc d main_v8)) (hw : ∀ x, w x = out0 (V0 m d) (oIdx L x)) :
    ∀ i ∈ (oRows L).view.set, (oRows L).view.writes (Elt F) O0 [⟨Rect.whole S320x128, w⟩] i = out0 (V0 m d) i := by
  intro i hi
  obtain ⟨x, -, rfl⟩ := Finset.mem_map.mp hi
  have h := View.read_writes_cons_emb (oRows L).view O0 (Rect.whole S320x128) w [] x
  rw [Rect.emb_whole_apply, View.read_apply] at h
  exact ((cast_eq _ _).symm.trans h).trans (hw x)

def inv0 (GA GB : Vec F S320x128 .f32) (k : Nat) (_ : PUnit) : sProp 𝕄 :=
  iprop(((sA).view.loc (V d (cV L) (jV L)) ↦{fullShare} accum GA GB k) ∗ ((sB).view.loc (V d (cV L) (jV L)) ↦{fullShare} GB))

set_option maxHeartbeats 4000000 in
theorem tile_body0 (hpre : PreOK (V0 m d)) (O : CellTallies nD τ sig (HIx 4)) (W : Waits sig (HIx 4)) (hO : ∀ g, O g none = 0) :
    iprop(levAts (K (F := F)).L (K (F := F)).lev ∗ emp ∗ tilePay m d 0 (L 0).val (L 1).val false
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L t1W (Memref.isWhole_whole _) i1W (Memref.isWhole_whole _) t2W (Memref.isWhole_whole _) i2W (Memref.isWhole_whole _)
            oW (Memref.isWhole_whole _) sI1 (Memref.isWhole_whole _) sI2 (Memref.isWhole_whole _) sA (Memref.isWhole_whole _)
            sB (Memref.isWhole_whole _) cc0_scratch4 cc0_scratch5 cc0_scoped0 cc0_scoped1 cc0_scoped2)
          fun _ => iprop(tilePay m d 0 (L 0).val (L 1).val true ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V facts d (cV L) (jV L), SparseCore.Cfg.scopedSems0_V (Val := Elt F) d (cV L) (jV L), ownSems0_V0, ownBufs_V0,
    tilePay0, tilePay0]
  unfold ins outs0
  simp only [Bool.false_eq_true, ↓reduceIte]
  iintro ⟨#Hlv, -, ⟨⟨Ht1, Hi1, Ht2, Hi2⟩, Ho⟩, ⟨⟨⟨%f1, Hs1⟩, ⟨%f2, Hs2⟩, ⟨%fa, Hsa⟩, ⟨%fb, Hsb⟩⟩, Hbufs⟩, ⟨⟨Hc4, Hc5, Hc0, Hc1, Hc2⟩, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht1' := (Entails.of_eq (pts_t1 (F := F) d L _ _).symm) $$ Ht1
  ihave Hi1' := (Entails.of_eq (pts_i1 (F := F) d L _ _).symm) $$ Hi1
  ihave Ht2' := (Entails.of_eq (pts_t2 (F := F) d L _ _).symm) $$ Ht2
  ihave Hi2' := (Entails.of_eq (pts_i2 (F := F) d L _ _).symm) $$ Hi2
  ihave Ho' := (Entails.of_eq (pts_o (F := F) d L _).symm) $$ Ho
  ihave Hs1' := (Entails.of_eq (pts_sI1 (F := F) d L _).symm) $$ Hs1
  ihave Hs2' := (Entails.of_eq (pts_sI2 (F := F) d L _).symm) $$ Hs2
  ihave Hsa' := (Entails.of_eq (pts_sA (F := F) d L _).symm) $$ Hsa
  ihave Hsb' := (Entails.of_eq (pts_sB (F := F) d L _).symm) $$ Hsb
  have hin1 := hin1_of_pre m d L hpre
  have hin2 := hin2_of_pre m d L hpre
  sl_exec
  sl_for (inv0 d L (Aspec m d L) (Bspec m d L)) $$ [Hsa' Hsb']
  case region =>
    intro k _
    unfold inv0
    iintro ⟨Ha, Hb⟩
    sl_exec_parts
    sl_step
    isplitl [Ha]
    · iapply (Entails.of_eq (congrArg (fun c => ((sA).view.loc (V d (cV L) (jV L)) ↦{fullShare} c : sProp 𝕄)) ?_)) $$ Ha
      sl_unfold_run_names
      rw [← rowsAdd_accum]
      have h0 : 0 < 4 := by decide
      have h1 : 1 < 4 := by decide
      have h2 : 2 < 4 := by decide
      have h3 : 3 < 4 := by decide
      have o2 : ∀ n (h : n < 4), k0_off2 k (BitVec.ofNat 32 n) = ![4 * k.val + n, 0] := fun n h => k0_off2_eq k ⟨n, h⟩
      have o3 : ∀ n (h : n < 4), k0_off3 k (BitVec.ofNat 32 n) = ![4 * k.val + n, 16] := fun n h => k0_off3_eq k ⟨n, h⟩
      have o4 : ∀ n (h : n < 4), k0_off4 k (BitVec.ofNat 32 n) = ![4 * k.val + n, 32] := fun n h => k0_off4_eq k ⟨n, h⟩
      have o5 : ∀ n (h : n < 4), k0_off5 k (BitVec.ofNat 32 n) = ![4 * k.val + n, 48] := fun n h => k0_off5_eq k ⟨n, h⟩
      have o6 : ∀ n (h : n < 4), k0_off6 k (BitVec.ofNat 32 n) = ![4 * k.val + n, 64] := fun n h => k0_off6_eq k ⟨n, h⟩
      have o7 : ∀ n (h : n < 4), k0_off7 k (BitVec.ofNat 32 n) = ![4 * k.val + n, 80] := fun n h => k0_off7_eq k ⟨n, h⟩
      have o8 : ∀ n (h : n < 4), k0_off8 k (BitVec.ofNat 32 n) = ![4 * k.val + n, 96] := fun n h => k0_off8_eq k ⟨n, h⟩
      have o9 : ∀ n (h : n < 4), k0_off9 k (BitVec.ofNat 32 n) = ![4 * k.val + n, 112] := fun n h => k0_off9_eq k ⟨n, h⟩
      refine whole_writes_eq cc0_scratch2 _ _ _ ?_ ?_
      · intro p hp
        simp only [List.mem_cons, List.not_mem_nil, or_false] at hp
        rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
        all_goals (intro x; simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]; rw [laneAdd_apply]; exact piece_val k.val (by simp only [o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3]; exact ⟨_, by decide, _, rfl⟩) _ _ _ x)
      · intro y hy
        unfold rowsAdd
        by_cases hrow : 4 * k.val ≤ (y 0).val ∧ (y 0).val < 4 * k.val + 4
        swap
        · rw [if_neg hrow]
        exfalso
        simp only [List.forall_mem_cons, List.not_mem_nil, false_imp_iff, implies_true, and_true] at hy
        obtain ⟨g0, g1, g2, g3, g4, g5, g6, g7, g8, g9, g10, g11, g12, g13, g14, g15, g16, g17, g18, g19, g20, g21, g22, g23, g24, g25, g26, g27, g28, g29, g30, g31⟩ := hy
        rcases rows4 k.val (y 0).val hrow with e | e | e | e
        · rcases lanes8 (y 1).val (y 1).isLt with h | h | h | h | h | h | h | h
          · exact g31 (piece_mem k.val 0 0 (o2 0 h0) _ y e h)
          · exact g30 (piece_mem k.val 0 16 (o3 0 h0) _ y e h)
          · exact g29 (piece_mem k.val 0 32 (o4 0 h0) _ y e h)
          · exact g28 (piece_mem k.val 0 48 (o5 0 h0) _ y e h)
          · exact g27 (piece_mem k.val 0 64 (o6 0 h0) _ y e h)
          · exact g26 (piece_mem k.val 0 80 (o7 0 h0) _ y e h)
          · exact g25 (piece_mem k.val 0 96 (o8 0 h0) _ y e h)
          · exact g24 (piece_mem k.val 0 112 (o9 0 h0) _ y e h)
        · rcases lanes8 (y 1).val (y 1).isLt with h | h | h | h | h | h | h | h
          · exact g23 (piece_mem k.val 1 0 (o2 1 h1) _ y e h)
          · exact g22 (piece_mem k.val 1 16 (o3 1 h1) _ y e h)
          · exact g21 (piece_mem k.val 1 32 (o4 1 h1) _ y e h)
          · exact g20 (piece_mem k.val 1 48 (o5 1 h1) _ y e h)
          · exact g19 (piece_mem k.val 1 64 (o6 1 h1) _ y e h)
          · exact g18 (piece_mem k.val 1 80 (o7 1 h1) _ y e h)
          · exact g17 (piece_mem k.val 1 96 (o8 1 h1) _ y e h)
          · exact g16 (piece_mem k.val 1 112 (o9 1 h1) _ y e h)
        · rcases lanes8 (y 1).val (y 1).isLt with h | h | h | h | h | h | h | h
          · exact g15 (piece_mem k.val 2 0 (o2 2 h2) _ y e h)
          · exact g14 (piece_mem k.val 2 16 (o3 2 h2) _ y e h)
          · exact g13 (piece_mem k.val 2 32 (o4 2 h2) _ y e h)
          · exact g12 (piece_mem k.val 2 48 (o5 2 h2) _ y e h)
          · exact g11 (piece_mem k.val 2 64 (o6 2 h2) _ y e h)
          · exact g10 (piece_mem k.val 2 80 (o7 2 h2) _ y e h)
          · exact g9 (piece_mem k.val 2 96 (o8 2 h2) _ y e h)
          · exact g8 (piece_mem k.val 2 112 (o9 2 h2) _ y e h)
        · rcases lanes8 (y 1).val (y 1).isLt with h | h | h | h | h | h | h | h
          · exact g7 (piece_mem k.val 3 0 (o2 3 h3) _ y e h)
          · exact g6 (piece_mem k.val 3 16 (o3 3 h3) _ y e h)
          · exact g5 (piece_mem k.val 3 32 (o4 3 h3) _ y e h)
          · exact g4 (piece_mem k.val 3 48 (o5 3 h3) _ y e h)
          · exact g3 (piece_mem k.val 3 64 (o6 3 h3) _ y e h)
          · exact g2 (piece_mem k.val 3 80 (o7 3 h3) _ y e h)
          · exact g1 (piece_mem k.val 3 96 (o8 3 h3) _ y e h)
          · exact g0 (piece_mem k.val 3 112 (o9 3 h3) _ y e h)
    · iexact Hb
  · unfold inv0
    isplitl [Hsa']
    · iapply (Entails.of_eq (congrArg (fun c => ((sA).view.loc (V d (cV L) (jV L)) ↦{fullShare} c : sProp 𝕄)) ?_)) $$ Hsa'
      rw [accum_zero]
      sl_unfold_run_names
      exact init_A m d L hpre _ _ (rd1_apply m d L f1) _ _
    · iapply (Entails.of_eq (congrArg (fun c => ((sB).view.loc (V d (cV L) (jV L)) ↦{fullShare} c : sProp 𝕄)) ?_)) $$ Hsb'
      sl_unfold_run_names
      exact init_B m d L hpre _ _ (rd2_apply m d L f2) _ _
  iintro %_ HI
  unfold inv0
  icases HI with ⟨Ha, Hb⟩
  sl_exec
  sl_step
  isplitl [Ht1' Hi1' Ht2' Hi2' Ho']
  · isplitl [Ht1' Hi1' Ht2' Hi2']
    · iframe Ht1' Hi1' Ht2' Hi2'
    · iapply (Entails.of_eq (pts_o (F := F) d L (out0 (V0 m d))))
      iapply (Entails.of_eq (pointsTo_congr ?_)) $$ Ho'
      sl_unfold_run_names
      refine out_congr m d L _ _ fun x => ?_
      rw [trips0]
      exact (accum_all _ _ x).trans (out0_at m d L x).symm
  isplitl [Hs1' Hs2' Ha Hb Hbufs]
  · isplitl [Hs1' Hs2' Ha Hb]
    · isplitl [Hs1']; · iexists _; iexact Hs1'
      isplitl [Hs2']; · iexists _; iexact Hs2'
      isplitl [Ha]; · iexists _; iexact Ha
      iexists _; iexact Hb
    · iexact Hbufs
  isplitl [Hc4 Hc5 Hc0 Hc1 Hc2 Hsems]
  · isplitl [Hc4 Hc5 Hc0 Hc1 Hc2]
    · isplitl [Hc4]; · iexact Hc4
      isplitl [Hc5]; · iexact Hc5
      isplitl [Hc0]; · iexact Hc0
      isplitl [Hc1]; · iexact Hc1
      iexact Hc2
    · iexact Hsems
  iexists _; isplitr
  swap; · iexact HO
  ipureintro; intro p hp
  iterate 5 (rcases Finset.mem_insert.mp hp with hp | hp; · exact .inr (hp ▸ rfl))
  exact .inl hp

end Tile

def coordsV0 (c : Fin (grid0.bound 0)) (s : Fin (grid0.bound 1)) : grid0.Coords :=
  fun | 0 => c | 1 => s | ⟨_ + 2, h⟩ => absurd h (Nat.not_lt.2 (Nat.le_add_left _ _))

theorem defs₀_tile0 (c : Fin τ.nSC) (s : Fin τ.nSub) :
    defs₀ (F := F) (.scVector c s) 0 ()
      = SparseCore.onTile hcore0 hsub0 (fun c s => cc0_k (coordsV0 c s)
          t1W (Memref.isWhole_whole _) i1W (Memref.isWhole_whole _) t2W (Memref.isWhole_whole _) i2W (Memref.isWhole_whole _)
          oW (Memref.isWhole_whole _) sI1 (Memref.isWhole_whole _) sI2 (Memref.isWhole_whole _) sA (Memref.isWhole_whole _)
          sB (Memref.isWhole_whole _) cc0_scratch4 cc0_scratch5 cc0_scoped0 cc0_scoped1 cc0_scoped2) ⟨⟩ c s := rfl

end C0

theorem tileObl0 (hpre : ∀ d, PreOK (V0 m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [C0.defs₀_tile0]; simp only [SparseCore.onTile, hc, and_self, ↓reduceDIte]
  exact (C0.tile_body0 m d (C0.coordsV0 ⟨_, hc.1⟩ ⟨_, hc.2⟩) (hpre d) O W hO).trans (wp_mono frame _ _ fun _ => obl_post)

end Cert.KernelIdeal.Hand

end
-- ==== Proof.KI.TileGeom.lean ====
import proofs.«208129_g65403761983635_cont_9to1_m_1354_7_alg».proof.Proof.KI.Base
import proofs.«208129_g65403761983635_cont_9to1_m_1354_7_alg».proof.Proof.Gen.KernelIdeal

noncomputable section

namespace Cert.KernelIdeal.Hand

open Cert.KernelIdeal Cert.KernelIdeal.Gen
open Idealize.ShloMosaic

theorem row_lt {l1 l0 t : ℕ} (h1 : l1 < 16) (h0 : l0 < 2) (ht : t < 25) (a : Fin 400) :
    20000 * l1 + 10000 * l0 + 400 * t + a.val < 320000 := by
  have := a.isLt; omega

/-- Rows 400 p to 400 p + 399 of the array, p = 50 l1 + 25 l0 + t, are part p of the 800 equal parts of its rows. -/
theorem set_unit {l1 l0 t : ℕ} (h1 : l1 < 16) (h0 : l0 < 2) (ht : t < 25) {off : Fin 2 → ℕ}
    (inb : ∀ a, off a + S400x128.size a ≤ S320000x128.size a) (ho : off = ![20000 * l1 + 10000 * l0 + 400 * t, 0]) :
    (Rect.unit (s := S320000x128) off S400x128.size inb).set = part1N (50 * l1 + 25 * l0 + t) := by
  subst ho
  have hp : 50 * l1 + 25 * l0 + t < 800 := by omega
  have e : Rect.unit (s := S320000x128) ![20000 * l1 + 10000 * l0 + 400 * t, 0] S400x128.size inb
      = Rect.part (s := S320000x128) (a₀ := 0) hdiv1 ⟨50 * l1 + 25 * l0 + t, hp⟩ := by
    unfold Rect.part Rect.block
    congr 1 <;> funext a
    · match a with
      | 0 => simp [Shape.partIx, Shape.partSize]; omega
      | 1 => simp [Shape.partIx, Shape.partSize]
    · match a with
      | 0 => simp [Shape.partSize]
      | 1 => simp [Shape.partSize]
  unfold part1N
  rw [dif_pos hp, e]

/-- Where row a, column c of such a run of rows sits in the array. -/
theorem emb_unit2 {off : Fin 2 → ℕ} (inb : ∀ a, off a + S400x128.size a ≤ S320000x128.size a) {b : ℕ} (ho : off = ![b, 0])
    (hb : ∀ a : Fin 400, b + a.val < 320000) (a : Fin 400) (c : Fin 128) :
    (Rect.unit (s := S320000x128) off S400x128.size inb).emb (ValueIdx.ix2 a c) = ValueIdx.ix2 (n0 := 320000) ⟨b + a.val, hb a⟩ c := by
  subst ho
  funext x
  apply Fin.ext
  show (![b, 0] : Fin 2 → ℕ) x + 1 * ((ValueIdx.ix2 a c : S400x128.Idx) x).val = _
  match x with
  | 0 => simp
  | 1 => simp

theorem emb_unit1 {off : Fin 1 → ℕ} (inb : ∀ a, off a + S400.size a ≤ S320000.size a) {b : ℕ} (ho : off = ![b])
    (hb : ∀ a : Fin 400, b + a.val < 320000) (a : Fin 400) :
    (Rect.unit (s := S320000) off S400.size inb).emb (ValueIdx.ix1 a) = ValueIdx.ix1 (n := 320000) ⟨b + a.val, hb a⟩ := by
  subst ho
  funext x
  apply Fin.ext
  show (![b] : Fin 1 → ℕ) x + 1 * ((ValueIdx.ix1 a : S400.Idx) x).val = _
  match x with
  | 0 => simp

/-- A property of every element of part p holds if it holds at every row and column of the run. -/
theorem forall_unit {l1 l0 t : ℕ} (h1 : l1 < 16) (h0 : l0 < 2) (ht : t < 25) {off : Fin 2 → ℕ}
    (inb : ∀ a, off a + S400x128.size a ≤ S320000x128.size a) (ho : off = ![20000 * l1 + 10000 * l0 + 400 * t, 0])
    {P : S320000x128.Idx → Prop}
    (h : ∀ (a : Fin 400) (c : Fin 128), P (ValueIdx.ix2 (n0 := 320000) ⟨20000 * l1 + 10000 * l0 + 400 * t + a.val, row_lt h1 h0 ht a⟩ c)) :
    ∀ j ∈ part1N (50 * l1 + 25 * l0 + t), P j := by
  intro j hj
  rw [← set_unit h1 h0 ht inb ho, ← Rect.map_emb_univ] at hj
  obtain ⟨x, -, rfl⟩ := Finset.mem_map.mp hj
  rw [(congrArg _ (ValueIdx.eq_ix2 (n0 := 400) (n1 := 128) x)).trans (emb_unit2 inb ho (row_lt h1 h0 ht) (x 0) (x 1))]
  exact h (x 0) (x 1)

theorem k1_trips : k1_t1_loop.trips = 25 := by decide
theorem k1_t_lt (t : Fin k1_t1_loop.trips) : t.val < 25 := Nat.lt_of_lt_of_le t.isLt k1_t1_abs.2.1

abbrev base1 (L : grid1.Coords) (t : Fin k1_t1_loop.trips) : ℕ := 20000 * (L 1).val + 10000 * (L 0).val + 400 * t.val

theorem base1_lt (L : grid1.Coords) (t : Fin k1_t1_loop.trips) (a : Fin 400) : base1 L t + a.val < 320000 :=
  row_lt (L 1).isLt (L 0).isLt (k1_t_lt t) a

abbrev outChunk1 (L : grid1.Coords) (t : Fin k1_t1_loop.trips) : Memref sig .scVector .hbm S400x128 .f32 :=
  (Memref.whole main_v61_scv : Memref sig .scVector .hbm S320000x128 .f32).slice
    (Rect.unit (s := S320000x128) (k1_off10 L t) S400x128.size (k1_off10_inb L t)) (fun _ => rfl)

abbrev idxChunk1_1 (L : grid1.Coords) (t : Fin k1_t1_loop.trips) : Memref sig .scVector .hbm S400 .i32 :=
  (Memref.whole main_v21_scv : Memref sig .scVector .hbm S320000 .i32).slice
    (Rect.unit (s := S320000) (k1_off1 L t) S400.size (k1_off1_inb L t)) (fun _ => rfl)
abbrev idxChunk1_2 (L : grid1.Coords) (t : Fin k1_t1_loop.trips) : Memref sig .scVector .hbm S400 .i32 :=
  (Memref.whole main_v47_scv : Memref sig .scVector .hbm S320000 .i32).slice
    (Rect.unit (s := S320000) (k1_off1 L t) S400.size (k1_off1_inb L t)) (fun _ => rfl)

theorem set_outChunk1 (L : grid1.Coords) (t : Fin k1_t1_loop.trips) :
    (outChunk1 L t).view.set = part1N (50 * (L 1).val + 25 * (L 0).val + t.val) :=
  (View.set_slice_whole main_v61_scv _).trans (set_unit (L 1).isLt (L 0).isLt (k1_t_lt t) _ (k1_off10_eq L t))

theorem emb_outChunk1 (L : grid1.Coords) (t : Fin k1_t1_loop.trips) (a : Fin 400) (b : Fin 128) :
    (outChunk1 L t).view.emb (ValueIdx.ix2 a b) = ValueIdx.ix2 (n0 := 320000) ⟨base1 L t + a.val, base1_lt L t a⟩ b :=
  emb_unit2 (k1_off10_inb L t) (k1_off10_eq L t) (base1_lt L t) a b
theorem emb_idxChunk1_1 (L : grid1.Coords) (t : Fin k1_t1_loop.trips) (a : Fin 400) :
    (idxChunk1_1 L t).view.emb (ValueIdx.ix1 a) = ValueIdx.ix1 (n := 320000) ⟨base1 L t + a.val, base1_lt L t a⟩ :=
  emb_unit1 (k1_off1_inb L t) (k1_off1_eq L t) (base1_lt L t) a
theorem emb_idxChunk1_2 (L : grid1.Coords) (t : Fin k1_t1_loop.trips) (a : Fin 400) :
    (idxChunk1_2 L t).view.emb (ValueIdx.ix1 a) = ValueIdx.ix1 (n := 320000) ⟨base1 L t + a.val, base1_lt L t a⟩ :=
  emb_unit1 (k1_off1_inb L t) (k1_off1_eq L t) (base1_lt L t) a

theorem forall_outChunk1 (L : grid1.Coords) (t : Fin k1_t1_loop.trips) {P : S320000x128.Idx → Prop}
    (h : ∀ (a : Fin 400) (b : Fin 128), P (ValueIdx.ix2 (n0 := 320000) ⟨base1 L t + a.val, base1_lt L t a⟩ b)) :
    ∀ j ∈ part1N (50 * (L 1).val + 25 * (L 0).val + t.val), P j :=
  forall_unit (L 1).isLt (L 0).isLt (k1_t_lt t) (k1_off10_inb L t) (k1_off10_eq L t) h

theorem k2_trips : k2_t1_loop.trips = 25 := by decide
theorem k2_t_lt (t : Fin k2_t1_loop.trips) : t.val < 25 := Nat.lt_of_lt_of_le t.isLt k2_t1_abs.2.1

abbrev base2 (L : grid2.Coords) (t : Fin k2_t1_loop.trips) : ℕ := 20000 * (L 1).val + 10000 * (L 0).val + 400 * t.val

theorem base2_lt (L : grid2.Coords) (t : Fin k2_t1_loop.trips) (a : Fin 400) : base2 L t + a.val < 320000 :=
  row_lt (L 1).isLt (L 0).isLt (k2_t_lt t) a

abbrev outChunk2 (L : grid2.Coords) (t : Fin k2_t1_loop.trips) : Memref sig .scVector .hbm S400x128 .f32 :=
  (Memref.whole main_v134_scv : Memref sig .scVector .hbm S320000x128 .f32).slice
    (Rect.unit (s := S320000x128) (k2_off10 L t) S400x128.size (k2_off10_inb L t)) (fun _ => rfl)

abbrev idxChunk2_1 (L : grid2.Coords) (t : Fin k2_t1_loop.trips) : Memref sig .scVector .hbm S400 .i32 :=
  (Memref.whole main_v21_scv : Memref sig .scVector .hbm S320000 .i32).slice
    (Rect.unit (s := S320000) (k2_off1 L t) S400.size (k2_off1_inb L t)) (fun _ => rfl)
abbrev idxChunk2_2 (L : grid2.Coords) (t : Fin k2_t1_loop.trips) : Memref sig .scVector .hbm S400 .i32 :=
  (Memref.whole main_v47_scv : Memref sig .scVector .hbm S320000 .i32).slice
    (Rect.unit (s := S320000) (k2_off1 L t) S400.size (k2_off1_inb L t)) (fun _ => rfl)

theorem set_outChunk2 (L : grid2.Coords) (t : Fin k2_t1_loop.trips) :
    (outChunk2 L t).view.set = part1N (50 * (L 1).val + 25 * (L 0).val + t.val) :=
  (View.set_slice_whole main_v134_scv _).trans (set_unit (L 1).isLt (L 0).isLt (k2_t_lt t) _ (k2_off10_eq L t))

theorem emb_outChunk2 (L : grid2.Coords) (t : Fin k2_t1_loop.trips) (a : Fin 400) (b : Fin 128) :
    (outChunk2 L t).view.emb (ValueIdx.ix2 a b) = ValueIdx.ix2 (n0 := 320000) ⟨base2 L t + a.val, base2_lt L t a⟩ b :=
  emb_unit2 (k2_off10_inb L t) (k2_off10_eq L t) (base2_lt L t) a b
theorem emb_idxChunk2_1 (L : grid2.Coords) (t : Fin k2_t1_loop.trips) (a : Fin 400) :
    (idxChunk2_1 L t).view.emb (ValueIdx.ix1 a) = ValueIdx.ix1 (n := 320000) ⟨base2 L t + a.val, base2_lt L t a⟩ :=
  emb_unit1 (k2_off1_inb L t) (k2_off1_eq L t) (base2_lt L t) a
theorem emb_idxChunk2_2 (L : grid2.Coords) (t : Fin k2_t1_loop.trips) (a : Fin 400) :
    (idxChunk2_2 L t).view.emb (ValueIdx.ix1 a) = ValueIdx.ix1 (n := 320000) ⟨base2 L t + a.val, base2_lt L t a⟩ :=
  emb_unit1 (k2_off1_inb L t) (k2_off1_eq L t) (base2_lt L t) a

theorem forall_outChunk2 (L : grid2.Coords) (t : Fin k2_t1_loop.trips) {P : S320000x128.Idx → Prop}
    (h : ∀ (a : Fin 400) (b : Fin 128), P (ValueIdx.ix2 (n0 := 320000) ⟨base2 L t + a.val, base2_lt L t a⟩ b)) :
    ∀ j ∈ part1N (50 * (L 1).val + 25 * (L 0).val + t.val), P j :=
  forall_unit (L 1).isLt (L 0).isLt (k2_t_lt t) (k2_off10_inb L t) (k2_off10_eq L t) h

theorem k3_trips : k3_t1_loop.trips = 25 := by decide
theorem k3_t_lt (t : Fin k3_t1_loop.trips) : t.val < 25 := Nat.lt_of_lt_of_le t.isLt k3_t1_abs.2.1

abbrev base3 (L : grid3.Coords) (t : Fin k3_t1_loop.trips) : ℕ := 20000 * (L 1).val + 10000 * (L 0).val + 400 * t.val

theorem base3_lt (L : grid3.Coords) (t : Fin k3_t1_loop.trips) (a : Fin 400) : base3 L t + a.val < 320000 :=
  row_lt (L 1).isLt (L 0).isLt (k3_t_lt t) a

abbrev outChunk3 (L : grid3.Coords) (t : Fin k3_t1_loop.trips) : Memref sig .scVector .hbm S400x128 .f32 :=
  (Memref.whole main_v207_scv : Memref sig .scVector .hbm S320000x128 .f32).slice
    (Rect.unit (s := S320000x128) (k3_off10 L t) S400x128.size (k3_off10_inb L t)) (fun _ => rfl)

abbrev idxChunk3_1 (L : grid3.Coords) (t : Fin k3_t1_loop.trips) : Memref sig .scVector .hbm S400 .i32 :=
  (Memref.whole main_v21_scv : Memref sig .scVector .hbm S320000 .i32).slice
    (Rect.unit (s := S320000) (k3_off1 L t) S400.size (k3_off1_inb L t)) (fun _ => rfl)
abbrev idxChunk3_2 (L : grid3.Coords) (t : Fin k3_t1_loop.trips) : Memref sig .scVector .hbm S400 .i32 :=
  (Memref.whole main_v47_scv : Memref sig .scVector .hbm S320000 .i32).slice
    (Rect.unit (s := S320000) (k3_off1 L t) S400.size (k3_off1_inb L t)) (fun _ => rfl)

theorem set_outChunk3 (L : grid3.Coords) (t : Fin k3_t1_loop.trips) :
    (outChunk3 L t).view.set = part1N (50 * (L 1).val + 25 * (L 0).val + t.val) :=
  (View.set_slice_whole main_v207_scv _).trans (set_unit (L 1).isLt (L 0).isLt (k3_t_lt t) _ (k3_off10_eq L t))

theorem emb_outChunk3 (L : grid3.Coords) (t : Fin k3_t1_loop.trips) (a : Fin 400) (b : Fin 128) :
    (outChunk3 L t).view.emb (ValueIdx.ix2 a b) = ValueIdx.ix2 (n0 := 320000) ⟨base3 L t + a.val, base3_lt L t a⟩ b :=
  emb_unit2 (k3_off10_inb L t) (k3_off10_eq L t) (base3_lt L t) a b
theorem emb_idxChunk3_1 (L : grid3.Coords) (t : Fin k3_t1_loop.trips) (a : Fin 400) :
    (idxChunk3_1 L t).view.emb (ValueIdx.ix1 a) = ValueIdx.ix1 (n := 320000) ⟨base3 L t + a.val, base3_lt L t a⟩ :=
  emb_unit1 (k3_off1_inb L t) (k3_off1_eq L t) (base3_lt L t) a
theorem emb_idxChunk3_2 (L : grid3.Coords) (t : Fin k3_t1_loop.trips) (a : Fin 400) :
    (idxChunk3_2 L t).view.emb (ValueIdx.ix1 a) = ValueIdx.ix1 (n := 320000) ⟨base3 L t + a.val, base3_lt L t a⟩ :=
  emb_unit1 (k3_off1_inb L t) (k3_off1_eq L t) (base3_lt L t) a

theorem forall_outChunk3 (L : grid3.Coords) (t : Fin k3_t1_loop.trips) {P : S320000x128.Idx → Prop}
    (h : ∀ (a : Fin 400) (b : Fin 128), P (ValueIdx.ix2 (n0 := 320000) ⟨base3 L t + a.val, base3_lt L t a⟩ b)) :
    ∀ j ∈ part1N (50 * (L 1).val + 25 * (L 0).val + t.val), P j :=
  forall_unit (L 1).isLt (L 0).isLt (k3_t_lt t) (k3_off10_inb L t) (k3_off10_eq L t) h

end Cert.KernelIdeal.Hand

end
-- ==== Proof.KI.TileVal.lean ====
import proofs.«208129_g65403761983635_cont_9to1_m_1354_7_alg».proof.Proof.KI.TileGeom
import Idealize.ShloMosaic.Lib.SparseCore.Stream

noncomputable section

namespace Cert.KernelIdeal.Hand

open Cert.KernelIdeal Cert.KernelIdeal.Gen
open Idealize.ShloMosaic

variable {F : FTy → Type} [FloatOps F]

theorem rowMajor_symm_one {n : ℕ} (k : Fin (⟨1, ![n]⟩ : Shape).numel) (hk : k.val < n) :
    (⟨1, ![n]⟩ : Shape).rowMajor.symm k = ValueIdx.ix1 ⟨k.val, hk⟩ := by
  rw [Equiv.symm_apply_eq]
  apply Fin.ext
  rw [Shape.rowMajor_val_one]
  rfl

theorem gatherPayload_rows {z n : ℕ} (hz : 0 < z) (hg : (⟨2, ![z, 128]⟩ : Shape).Gathers 0 ⟨2, ![n, 128]⟩)
    (g : (⟨2, ![z, 128]⟩ : Shape).Idx → Elt F .f32) (idx : (⟨1, ![n]⟩ : Shape).Idx → Elt F .i32)
    (hn : (⟨1, ![n]⟩ : Shape).numel = (⟨2, ![n, 128]⟩ : Shape).size hg.axis')
    (hin : ∀ x, (idx x).toNat < (⟨2, ![z, 128]⟩ : Shape).size hg.axis) (x : (⟨2, ![n, 128]⟩ : Shape).Idx) :
    SparseCore.gatherPayload hg g (SparseCore.rows idx hn hin) x
      = g (ValueIdx.ix2 (rowOf z hz (idx (ValueIdx.ix1 (n := n) (x 0)))) (x 1)) := by
  unfold SparseCore.gatherPayload
  congr 1
  funext b
  apply Fin.ext
  match b with
  | 0 =>
    have h1 : hg.idx (SparseCore.rows idx hn hin) x hg.axis = SparseCore.rows idx hn hin (x hg.axis') :=
      Shape.Gathers.idx_axis hg _ x
    have hlt : BitVec.toNat (idx (ValueIdx.ix1 (n := n) (x 0))) < z := hin _
    have hw : rowOf z hz (idx (ValueIdx.ix1 (n := n) (x 0))) = ⟨BitVec.toNat (idx (ValueIdx.ix1 (n := n) (x 0))), hlt⟩ := dif_pos hlt
    have e1 : (⟨1, ![n]⟩ : Shape).rowMajor.symm (Fin.cast hn.symm (x hg.axis')) = ValueIdx.ix1 (n := n) (x 0) :=
      rowMajor_symm_one _ (show (Fin.cast hn.symm (x hg.axis')).val < n from (x 0).isLt)
    show (hg.idx (SparseCore.rows idx hn hin) x hg.axis).val = (rowOf z hz (idx (ValueIdx.ix1 (n := n) (x 0)))).val
    rw [h1, hw]
    show BitVec.toNat (idx ((⟨1, ![n]⟩ : Shape).rowMajor.symm (Fin.cast hn.symm (x hg.axis')))) = _
    rw [e1]
  | 1 => rw [Shape.Gathers.idx_of_ne hg _ x 1 (show ((1 : Fin 2).val) ≠ 0 from Nat.one_ne_zero)]; rfl

theorem emb_unit00 {z : ℕ} (inb : ∀ a, (![0, 0] : Fin 2 → ℕ) a + (⟨2, ![z, 128]⟩ : Shape).size a ≤ (⟨2, ![z, 128]⟩ : Shape).size a)
    (x : (⟨2, ![z, 128]⟩ : Shape).Idx) :
    (Rect.unit (s := ⟨2, ![z, 128]⟩) ![0, 0] (⟨2, ![z, 128]⟩ : Shape).size inb).emb x = x := by
  funext a
  apply Fin.ext
  show (![0, 0] : Fin 2 → ℕ) a + 1 * (x a).val = (x a).val
  match a with
  | 0 => simp
  | 1 => simp

theorem read_slice00 {κ : Kind} {sp : Space} {e : EltTy} {z : ℕ} (v : View sig κ sp ⟨2, ![z, 128]⟩ e)
    (inb : ∀ a, (![0, 0] : Fin 2 → ℕ) a + (⟨2, ![z, 128]⟩ : Shape).size a ≤ (⟨2, ![z, 128]⟩ : Shape).size a)
    (f : v.ty.Contents (Elt F)) :
    View.read (Elt F) (v.slice (Rect.unit (s := ⟨2, ![z, 128]⟩) ![0, 0] (⟨2, ![z, 128]⟩ : Shape).size inb)) f = View.read (Elt F) v f := by
  funext x
  rw [View.read_apply, View.read_apply]
  show _root_.cast _ (f (v.emb ((Rect.unit (s := ⟨2, ![z, 128]⟩) ![0, 0] (⟨2, ![z, 128]⟩ : Shape).size inb).emb x))) = _
  rw [emb_unit00]

/-- A buffer read back after the words of a list's slice were written over all of it. -/
abbrev readBack (M : Memref sig .scVector .vmem S400 .i32) (f : M.view.ty.Contents (Elt F))
    (I : Memref sig .scVector .hbm S400 .i32) (w : I.view.ty.Contents (Elt F)) : S400.Idx → Elt F .i32 :=
  View.read (Elt F) M.view (View.write (Elt F) M.view f (ReadAs.same.apply (View.read (Elt F) I.view w)) Finset.univ)

/-- A table of z rows read through its slice at offset 0 of its whole extent. -/
abbrev tableRead {z : ℕ} (T : Memref sig .scVector .hbm ⟨2, ![z, 128]⟩ .f32)
    (inb : ∀ a, (![0, 0] : Fin 2 → ℕ) a + (⟨2, ![z, 128]⟩ : Shape).size a ≤ (⟨2, ![z, 128]⟩ : Shape).size a)
    (pf : ∀ a, (Rect.unit (s := ⟨2, ![z, 128]⟩) ![0, 0] (⟨2, ![z, 128]⟩ : Shape).size inb).stride a = 1)
    (g : T.view.ty.Contents (Elt F)) : (⟨2, ![z, 128]⟩ : Shape).Idx → Elt F .f32 :=
  View.read (Elt F) (T.slice (Rect.unit (s := ⟨2, ![z, 128]⟩) ![0, 0] (⟨2, ![z, 128]⟩ : Shape).size inb) pf).view g

/-- A gather of a table's rows by those words: row x 0 holds the table's row that the slice names at x 0. -/
theorem gather_val {z : ℕ} (hz : 0 < z) (hg : (⟨2, ![z, 128]⟩ : Shape).Gathers 0 ⟨2, ![400, 128]⟩)
    (T : Memref sig .scVector .hbm ⟨2, ![z, 128]⟩ .f32) (inb) (pf) (g : T.view.ty.Contents (Elt F))
    (M : Memref sig .scVector .vmem S400 .i32) (f : M.view.ty.Contents (Elt F))
    (I : Memref sig .scVector .hbm S400 .i32) (w : I.view.ty.Contents (Elt F))
    (hn : S400.numel = (⟨2, ![400, 128]⟩ : Shape).size hg.axis')
    (hin : ∀ x, (readBack M f I w x).toNat < (⟨2, ![z, 128]⟩ : Shape).size hg.axis) (x : (⟨2, ![400, 128]⟩ : Shape).Idx) :
    SparseCore.gatherPayload hg (tableRead T inb pf g) (SparseCore.rows (readBack M f I w) hn hin) x
      = View.read (Elt F) T.view g (ValueIdx.ix2 (rowOf z hz (View.read (Elt F) I.view w (ValueIdx.ix1 (n := 400) (x 0)))) (x 1)) := by
  refine (gatherPayload_rows hz hg _ _ hn hin x).trans ?_
  unfold readBack tableRead
  rw [View.read_write_univ]
  show View.read (Elt F) (T.view.slice (Rect.unit (s := ⟨2, ![z, 128]⟩) ![0, 0] (⟨2, ![z, 128]⟩ : Shape).size inb)) g _ = _
  rw [read_slice00 T.view inb g]

theorem chunkVal1 (L : grid1.Coords) (t : Fin k1_t1_loop.trips) (V : Valuation τ sig (Elt F))
    (f1 : (Memref.whole cc1_scratch0).view.ty.Contents (Elt F))
    (pf1 : ∀ a, (Rect.unit (s := S10000x128) ![0, 0] S10000x128.size inb_S10000x128_S10000x128_0_0).stride a = 1)
    (hn1 : S400.numel = S400x128.size gathers_S10000x128_S400x128.axis')
    (hin1 : ∀ x, (readBack (Memref.whole cc1_scratch0) f1 (idxChunk1_1 L t) (VA1 V (r main_v21)) x).toNat
        < S10000x128.size gathers_S10000x128_S400x128.axis)
    (f2 : (Memref.whole cc1_scratch1).view.ty.Contents (Elt F))
    (pf2 : ∀ a, (Rect.unit (s := S576x128) ![0, 0] S576x128.size inb_S576x128_S576x128_0_0).stride a = 1)
    (hn2 : S400.numel = S400x128.size gathers_S576x128_S400x128.axis')
    (hin2 : ∀ x, (readBack (Memref.whole cc1_scratch1) f2 (idxChunk1_2 L t) (VA1 V (r main_v47)) x).toNat
        < S576x128.size gathers_S576x128_S400x128.axis)
    (x : S400x128.Idx) :
    FloatOps.addf (φ := .f32)
      (SparseCore.gatherPayload gathers_S10000x128_S400x128
        (tableRead (Memref.whole main_v9_scv) inb_S10000x128_S10000x128_0_0 pf1 (VA1 V (r main_v9)))
        (SparseCore.rows (readBack (Memref.whole cc1_scratch0) f1 (idxChunk1_1 L t) (VA1 V (r main_v21))) hn1 hin1) x)
      (SparseCore.gatherPayload gathers_S576x128_S400x128
        (tableRead (Memref.whole main_v60_scv) inb_S576x128_S576x128_0_0 pf2 (VA1 V (r main_v60)))
        (SparseCore.rows (readBack (Memref.whole cc1_scratch1) f2 (idxChunk1_2 L t) (VA1 V (r main_v47))) hn2 hin2) x)
      = out1 V ((outChunk1 L t).view.emb x) := by
  rw [gather_val (z := 10000) (by decide), gather_val (z := 576) (by decide), View.read_apply (v := (idxChunk1_1 L t).view),
    View.read_apply (v := (idxChunk1_2 L t).view), emb_idxChunk1_1 L t (x 0), emb_idxChunk1_2 L t (x 0),
    (congrArg (outChunk1 L t).view.emb (ValueIdx.eq_ix2 (n0 := 400) (n1 := 128) x)).trans (emb_outChunk1 L t (x 0) (x 1))]
  rfl

theorem chunkVal2 (L : grid2.Coords) (t : Fin k2_t1_loop.trips) (V : Valuation τ sig (Elt F))
    (f1 : (Memref.whole cc2_scratch0).view.ty.Contents (Elt F))
    (pf1 : ∀ a, (Rect.unit (s := S10000x128) ![0, 0] S10000x128.size inb_S10000x128_S10000x128_0_0).stride a = 1)
    (hn1 : S400.numel = S400x128.size gathers_S10000x128_S400x128.axis')
    (hin1 : ∀ x, (readBack (Memref.whole cc2_scratch0) f1 (idxChunk2_1 L t) (VA2 V (r main_v21)) x).toNat
        < S10000x128.size gathers_S10000x128_S400x128.axis)
    (f2 : (Memref.whole cc2_scratch1).view.ty.Contents (Elt F))
    (pf2 : ∀ a, (Rect.unit (s := S576x128) ![0, 0] S576x128.size inb_S576x128_S576x128_0_0).stride a = 1)
    (hn2 : S400.numel = S400x128.size gathers_S576x128_S400x128.axis')
    (hin2 : ∀ x, (readBack (Memref.whole cc2_scratch1) f2 (idxChunk2_2 L t) (VA2 V (r main_v47)) x).toNat
        < S576x128.size gathers_S576x128_S400x128.axis)
    (x : S400x128.Idx) :
    FloatOps.addf (φ := .f32)
      (SparseCore.gatherPayload gathers_S10000x128_S400x128
        (tableRead (Memref.whole main_v120_scv) inb_S10000x128_S10000x128_0_0 pf1 (VA2 V (r main_v120)))
        (SparseCore.rows (readBack (Memref.whole cc2_scratch0) f1 (idxChunk2_1 L t) (VA2 V (r main_v21))) hn1 hin1) x)
      (SparseCore.gatherPayload gathers_S576x128_S400x128
        (tableRead (Memref.whole main_v133_scv) inb_S576x128_S576x128_0_0 pf2 (VA2 V (r main_v133)))
        (SparseCore.rows (readBack (Memref.whole cc2_scratch1) f2 (idxChunk2_2 L t) (VA2 V (r main_v47))) hn2 hin2) x)
      = out2 V ((outChunk2 L t).view.emb x) := by
  rw [gather_val (z := 10000) (by decide), gather_val (z := 576) (by decide), View.read_apply (v := (idxChunk2_1 L t).view),
    View.read_apply (v := (idxChunk2_2 L t).view), emb_idxChunk2_1 L t (x 0), emb_idxChunk2_2 L t (x 0),
    (congrArg (outChunk2 L t).view.emb (ValueIdx.eq_ix2 (n0 := 400) (n1 := 128) x)).trans (emb_outChunk2 L t (x 0) (x 1))]
  rfl

theorem chunkVal3 (L : grid3.Coords) (t : Fin k3_t1_loop.trips) (V : Valuation τ sig (Elt F))
    (f1 : (Memref.whole cc3_scratch0).view.ty.Contents (Elt F))
    (pf1 : ∀ a, (Rect.unit (s := S10000x128) ![0, 0] S10000x128.size inb_S10000x128_S10000x128_0_0).stride a = 1)
    (hn1 : S400.numel = S400x128.size gathers_S10000x128_S400x128.axis')
    (hin1 : ∀ x, (readBack (Memref.whole cc3_scratch0) f1 (idxChunk3_1 L t) (VA3 V (r main_v21)) x).toNat
        < S10000x128.size gathers_S10000x128_S400x128.axis)
    (f2 : (Memref.whole cc3_scratch1).view.ty.Contents (Elt F))
    (pf2 : ∀ a, (Rect.unit (s := S576x128) ![0, 0] S576x128.size inb_S576x128_S576x128_0_0).stride a = 1)
    (hn2 : S400.numel = S400x128.size gathers_S576x128_S400x128.axis')
    (hin2 : ∀ x, (readBack (Memref.whole cc3_scratch1) f2 (idxChunk3_2 L t) (VA3 V (r main_v47)) x).toNat
        < S576x128.size gathers_S576x128_S400x128.axis)
    (x : S400x128.Idx) :
    FloatOps.addf (φ := .f32)
      (SparseCore.gatherPayload gathers_S10000x128_S400x128
        (tableRead (Memref.whole main_v193_scv) inb_S10000x128_S10000x128_0_0 pf1 (VA3 V (r main_v193)))
        (SparseCore.rows (readBack (Memref.whole cc3_scratch0) f1 (idxChunk3_1 L t) (VA3 V (r main_v21))) hn1 hin1) x)
      (SparseCore.gatherPayload gathers_S576x128_S400x128
        (tableRead (Memref.whole main_v206_scv) inb_S576x128_S576x128_0_0 pf2 (VA3 V (r main_v206)))
        (SparseCore.rows (readBack (Memref.whole cc3_scratch1) f2 (idxChunk3_2 L t) (VA3 V (r main_v47))) hn2 hin2) x)
      = out3 V ((outChunk3 L t).view.emb x) := by
  rw [gather_val (z := 10000) (by decide), gather_val (z := 576) (by decide), View.read_apply (v := (idxChunk3_1 L t).view),
    View.read_apply (v := (idxChunk3_2 L t).view), emb_idxChunk3_1 L t (x 0), emb_idxChunk3_2 L t (x 0),
    (congrArg (outChunk3 L t).view.emb (ValueIdx.eq_ix2 (n0 := 400) (n1 := 128) x)).trans (emb_outChunk3 L t (x 0) (x 1))]
  rfl

end Cert.KernelIdeal.Hand

end
-- ==== Proof.LibRows.lean ====
import Mathlib.Tactic.IntervalCases

namespace Cert.Rows

/-- An index (y0, y1) lies under the piece of one row and sixteen lanes at row 4k + r, lane c. -/
abbrev box (k y0 y1 r c : ℕ) : Prop := (4 * k + r ≤ y0 ∧ y0 < 4 * k + r + 1) ∧ c ≤ y1 ∧ y1 < c + 16

/-- The 32 pieces at rows 4k … 4k+3, lanes 0, 16, … 112, cover those four rows of 128 lanes. -/
theorem cover32 {k y0 y1 : ℕ} (hlt : y1 < 128) (hb : 4 * k ≤ y0 ∧ y0 < 4 * k + 4)
    (hy : ¬box k y0 y1 3 112 ∧ ¬box k y0 y1 3 96 ∧ ¬box k y0 y1 3 80 ∧ ¬box k y0 y1 3 64 ∧ ¬box k y0 y1 3 48 ∧ ¬box k y0 y1 3 32 ∧ ¬box k y0 y1 3 16 ∧ ¬box k y0 y1 3 0 ∧
      ¬box k y0 y1 2 112 ∧ ¬box k y0 y1 2 96 ∧ ¬box k y0 y1 2 80 ∧ ¬box k y0 y1 2 64 ∧ ¬box k y0 y1 2 48 ∧ ¬box k y0 y1 2 32 ∧ ¬box k y0 y1 2 16 ∧ ¬box k y0 y1 2 0 ∧
      ¬box k y0 y1 1 112 ∧ ¬box k y0 y1 1 96 ∧ ¬box k y0 y1 1 80 ∧ ¬box k y0 y1 1 64 ∧ ¬box k y0 y1 1 48 ∧ ¬box k y0 y1 1 32 ∧ ¬box k y0 y1 1 16 ∧ ¬box k y0 y1 1 0 ∧
      ¬box k y0 y1 0 112 ∧ ¬box k y0 y1 0 96 ∧ ¬box k y0 y1 0 80 ∧ ¬box k y0 y1 0 64 ∧ ¬box k y0 y1 0 48 ∧ ¬box k y0 y1 0 32 ∧ ¬box k y0 y1 0 16 ∧ ¬box k y0 y1 0 0) : False := by
  obtain ⟨h31, h30, h29, h28, h27, h26, h25, h24, h23, h22, h21, h20, h19, h18, h17, h16, h15, h14, h13, h12, h11, h10, h9, h8, h7, h6, h5, h4, h3, h2, h1, h0⟩ := hy
  obtain ⟨r, hr, hy0⟩ : ∃ r, r < 4 ∧ y0 = 4 * k + r := ⟨y0 - 4 * k, by omega, by omega⟩
  obtain ⟨l, hl, hy1a, hy1b⟩ : ∃ l, l < 8 ∧ 16 * l ≤ y1 ∧ y1 < 16 * l + 16 := ⟨y1 / 16, by omega, by omega, by omega⟩
  interval_cases r <;> interval_cases l
  · exact h0 ⟨⟨by omega, by omega⟩, by omega, by omega⟩
  · exact h1 ⟨⟨by omega, by omega⟩, by omega, by omega⟩
  · exact h2 ⟨⟨by omega, by omega⟩, by omega, by omega⟩
  · exact h3 ⟨⟨by omega, by omega⟩, by omega, by omega⟩
  · exact h4 ⟨⟨by omega, by omega⟩, by omega, by omega⟩
  · exact h5 ⟨⟨by omega, by omega⟩, by omega, by omega⟩
  · exact h6 ⟨⟨by omega, by omega⟩, by omega, by omega⟩
  · exact h7 ⟨⟨by omega, by omega⟩, by omega, by omega⟩
  · exact h8 ⟨⟨by omega, by omega⟩, by omega, by omega⟩
  · exact h9 ⟨⟨by omega, by omega⟩, by omega, by omega⟩
  · exact h10 ⟨⟨by omega, by omega⟩, by omega, by omega⟩
  · exact h11 ⟨⟨by omega, by omega⟩, by omega, by omega⟩
  · exact h12 ⟨⟨by omega, by omega⟩, by omega, by omega⟩
  · exact h13 ⟨⟨by omega, by omega⟩, by omega, by omega⟩
  · exact h14 ⟨⟨by omega, by omega⟩, by omega, by omega⟩
  · exact h15 ⟨⟨by omega, by omega⟩, by omega, by omega⟩
  · exact h16 ⟨⟨by omega, by omega⟩, by omega, by omega⟩
  · exact h17 ⟨⟨by omega, by omega⟩, by omega, by omega⟩
  · exact h18 ⟨⟨by omega, by omega⟩, by omega, by omega⟩
  · exact h19 ⟨⟨by omega, by omega⟩, by omega, by omega⟩
  · exact h20 ⟨⟨by omega, by omega⟩, by omega, by omega⟩
  · exact h21 ⟨⟨by omega, by omega⟩, by omega, by omega⟩
  · exact h22 ⟨⟨by omega, by omega⟩, by omega, by omega⟩
  · exact h23 ⟨⟨by omega, by omega⟩, by omega, by omega⟩
  · exact h24 ⟨⟨by omega, by omega⟩, by omega, by omega⟩
  · exact h25 ⟨⟨by omega, by omega⟩, by omega, by omega⟩
  · exact h26 ⟨⟨by omega, by omega⟩, by omega, by omega⟩
  · exact h27 ⟨⟨by omega, by omega⟩, by omega, by omega⟩
  · exact h28 ⟨⟨by omega, by omega⟩, by omega, by omega⟩
  · exact h29 ⟨⟨by omega, by omega⟩, by omega, by omega⟩
  · exact h30 ⟨⟨by omega, by omega⟩, by omega, by omega⟩
  · exact h31 ⟨⟨by omega, by omega⟩, by omega, by omega⟩

end Cert.Rows
-- ==== Proof.KI.Tile1.lean ====
import proofs.«208129_g65403761983635_cont_9to1_m_1354_7_alg».proof.Proof.KI.Base
import proofs.«208129_g65403761983635_cont_9to1_m_1354_7_alg».proof.Proof.Gen.KernelIdeal.Skeleton
import Idealize.ShloMosaic.Lib.SparseCore.Ops
import Idealize.ShloMosaic.Lib.SparseCore.Stream
import proofs.«208129_g65403761983635_cont_9to1_m_1354_7_alg».proof.Proof.KI.TileGeom
import proofs.«208129_g65403761983635_cont_9to1_m_1354_7_alg».proof.Proof.KI.TileVal
import proofs.«208129_g65403761983635_cont_9to1_m_1354_7_alg».proof.Proof.KI.TileLib
import proofs.«208129_g65403761983635_cont_9to1_m_1354_7_alg».proof.Proof.LibRows

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

namespace cc1_tile

local notation "t1V" => (Memref.whole Cert.KernelIdeal.main_v9_scv : Memref Cert.KernelIdeal.sig Kind.scVector Space.hbm Cert.KernelIdeal.S10000x128 EltTy.f32)
local notation "i1V" => (Memref.whole Cert.KernelIdeal.main_v21_scv : Memref Cert.KernelIdeal.sig Kind.scVector Space.hbm Cert.KernelIdeal.S320000 EltTy.i32)
local notation "t2V" => (Memref.whole Cert.KernelIdeal.main_v60_scv : Memref Cert.KernelIdeal.sig Kind.scVector Space.hbm Cert.KernelIdeal.S576x128 EltTy.f32)
local notation "i2V" => (Memref.whole Cert.KernelIdeal.main_v47_scv : Memref Cert.KernelIdeal.sig Kind.scVector Space.hbm Cert.KernelIdeal.S320000 EltTy.i32)
local notation "oV" => (Memref.whole Cert.KernelIdeal.main_v61_scv : Memref Cert.KernelIdeal.sig Kind.scVector Space.hbm Cert.KernelIdeal.S320000x128 EltTy.f32)
local notation "l1V" => (Memref.whole Cert.KernelIdeal.cc1_scratch0 : Memref Cert.KernelIdeal.sig Kind.scVector Space.vmem Cert.KernelIdeal.S400 EltTy.i32)
local notation "l2V" => (Memref.whole Cert.KernelIdeal.cc1_scratch1 : Memref Cert.KernelIdeal.sig Kind.scVector Space.vmem Cert.KernelIdeal.S400 EltTy.i32)
local notation "aV" => (Memref.whole Cert.KernelIdeal.cc1_scratch2 : Memref Cert.KernelIdeal.sig Kind.scVector Space.vmem Cert.KernelIdeal.S400x128 EltTy.f32)
local notation "bV" => (Memref.whole Cert.KernelIdeal.cc1_scratch3 : Memref Cert.KernelIdeal.sig Kind.scVector Space.vmem Cert.KernelIdeal.S400x128 EltTy.f32)

section Tile

variable (d : Dev nD) (L : grid1.Coords)

abbrev cV (L : grid1.Coords) : Fin τ.nSC := (L 0).castLE hcore1
abbrev jV (L : grid1.Coords) : Fin τ.nSub := (L 1).castLE hsub1

abbrev partNo (L : grid1.Coords) (t : ℕ) : ℕ := 50 * (L 1).val + 25 * (L 0).val + t

omit [FloatOps F] in
theorem pts_outChunk (t : Fin k1_t1_loop.trips) (f : Buf (Elt F) (tLoc d main_v61)) :
    ((outChunk1 L t).view.loc (V d (cV L) (jV L)) ↦[(outChunk1 L t).view.set]{fullShare} f : sProp 𝕄) = tLoc d main_v61 ↦[part1N (partNo L t.val)]{fullShare} f := by
  rw [set_outChunk1]

abbrev c4cell (d : Dev nD) (L : grid1.Coords) : GSem nD τ sig := (V d (cV L) (jV L), .dma cc1_scratch4.sem)
abbrev c5cell (d : Dev nD) (L : grid1.Coords) : GSem nD τ sig := (V d (cV L) (jV L), .dma cc1_scratch5.sem)
abbrev s0cell (d : Dev nD) (L : grid1.Coords) : GSem nD τ sig := (V d (cV L) (jV L), .dma cc1_scoped0.sem)
abbrev s1cell (d : Dev nD) (L : grid1.Coords) : GSem nD τ sig := (V d (cV L) (jV L), .dma cc1_scoped1.sem)
abbrev s2cell (d : Dev nD) (L : grid1.Coords) : GSem nD τ sig := (V d (cV L) (jV L), .dma cc1_scoped2.sem)

omit [FloatOps F] in
theorem ownSems0_V :
    (ownSems0 (V d (cV L) (jV L)) : sProp 𝕄)
      = iprop(semVal (c4cell d L) 0 ∗ semVal (c5cell d L) 0 ∗ semVal (s0cell d L) 0 ∗ semVal (s1cell d L) 0 ∗ semVal (s2cell d L) 0
          ∗ bigSep ((((((ownCells (V d (cV L) (jV L))).erase (c4cell d L)).erase (c5cell d L)).erase (s0cell d L)).erase (s1cell d L)).erase (s2cell d L))
              fun g => semVal g 0) := by
  unfold SparseCore.Cfg.ownSems0
  have m4 : c4cell d L ∈ ownCells (V d (cV L) (jV L)) := (mem_ownCells (g := c4cell d L)).mpr ⟨rfl, by
    show (SemLoc.dma cc1_scratch4.sem : SemLoc sig).isScoped .scVector = true; decide⟩
  have m5 : c5cell d L ∈ ownCells (V d (cV L) (jV L)) := (mem_ownCells (g := c5cell d L)).mpr ⟨rfl, by
    show (SemLoc.dma cc1_scratch5.sem : SemLoc sig).isScoped .scVector = true; decide⟩
  have m0 : s0cell d L ∈ ownCells (V d (cV L) (jV L)) := (mem_ownCells (g := s0cell d L)).mpr ⟨rfl, by
    show (SemLoc.dma cc1_scoped0.sem : SemLoc sig).isScoped .scVector = true; decide⟩
  have m1 : s1cell d L ∈ ownCells (V d (cV L) (jV L)) := (mem_ownCells (g := s1cell d L)).mpr ⟨rfl, by
    show (SemLoc.dma cc1_scoped1.sem : SemLoc sig).isScoped .scVector = true; decide⟩
  have m2 : s2cell d L ∈ ownCells (V d (cV L) (jV L)) := (mem_ownCells (g := s2cell d L)).mpr ⟨rfl, by
    show (SemLoc.dma cc1_scoped2.sem : SemLoc sig).isScoped .scVector = true; decide⟩
  rw [SparseCore.bigSep_erase' m4,
    SparseCore.bigSep_erase' (Finset.mem_erase.mpr ⟨cell_ne _ (by decide), m5⟩),
    SparseCore.bigSep_erase' (Finset.mem_erase.mpr ⟨cell_ne _ (by decide), Finset.mem_erase.mpr ⟨cell_ne _ (by decide), m0⟩⟩),
    SparseCore.bigSep_erase' (Finset.mem_erase.mpr ⟨cell_ne _ (by decide), Finset.mem_erase.mpr ⟨cell_ne _ (by decide), Finset.mem_erase.mpr ⟨cell_ne _ (by decide), m1⟩⟩⟩),
    SparseCore.bigSep_erase' (Finset.mem_erase.mpr ⟨cell_ne _ (by decide), Finset.mem_erase.mpr ⟨cell_ne _ (by decide), Finset.mem_erase.mpr ⟨cell_ne _ (by decide),
      Finset.mem_erase.mpr ⟨cell_ne _ (by decide), m2⟩⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have own0 := SparseCore.Cfg.mem_ownRefs_of_owner (p := Proc.scVector (cV L) (jV L)) (b := (Proc.scVector (cV L) (jV L)).devRef cc1_scratch0) rfl
  have own1 := SparseCore.Cfg.mem_ownRefs_of_owner (p := Proc.scVector (cV L) (jV L)) (b := (Proc.scVector (cV L) (jV L)).devRef cc1_scratch1) rfl
  have own2 := SparseCore.Cfg.mem_ownRefs_of_owner (p := Proc.scVector (cV L) (jV L)) (b := (Proc.scVector (cV L) (jV L)).devRef cc1_scratch2) rfl
  have own3 := SparseCore.Cfg.mem_ownRefs_of_owner (p := Proc.scVector (cV L) (jV L)) (b := (Proc.scVector (cV L) (jV L)).devRef cc1_scratch3) rfl
  have ne : ∀ {b b' : Ref sig .scVector}, b ≠ b' → (Proc.scVector (cV L) (jV L)).devRef b ≠ (Proc.scVector (cV L) (jV L)).devRef b' :=
    fun h e => h (Proc.devRef_injective _ e)
  refine (SparseCore.bigSep_erase' own0).trans ?_
  rw [SparseCore.bigSep_erase' (Finset.mem_erase.mpr ⟨ne (show (cc1_scratch1 : Ref sig .scVector) ≠ cc1_scratch0 by decide), own1⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide), own2⟩⟩),
    SparseCore.bigSep_erase' (Finset.mem_erase.mpr ⟨ne (show (cc1_scratch3 : Ref sig .scVector) ≠ cc1_scratch2 by decide),
      Finset.mem_erase.mpr ⟨ne (show (cc1_scratch3 : Ref sig .scVector) ≠ cc1_scratch1 by decide),
      Finset.mem_erase.mpr ⟨ne (show (cc1_scratch3 : Ref sig .scVector) ≠ cc1_scratch0 by decide), own3⟩⟩⟩)]

theorem piece_ok (k : Fin k1_t2_loop.trips)
    (f : Buf (Elt F) ((aV).view.loc (V d (cV L) (jV L)))) (g : Buf (Elt F) ((bV).view.loc (V d (cV L) (jV L))))
    (off : Fin 2 → ℕ) (inb : ∀ a, off a + S1x16.size a ≤ S400x128.size a) (h : ∃ r < 4, ∃ c, off = ![4 * k.val + r, c]) (x : S1x16.Idx) :
    FloatOps.addf (φ := .f32) ((aV).view.readAt (Elt F) (Rect.unit (s := S400x128) off S1x16.size inb).toLoadRect f x)
        ((bV).view.readAt (Elt F) (Rect.unit (s := S400x128) off S1x16.size inb).toLoadRect g x)
      = rowsAdd k.val f g ((Rect.unit (s := S400x128) off S1x16.size inb).emb x) := by
  obtain ⟨r, hr, c, rfl⟩ := h
  have hx : (x 0).val = 0 := by have := (x 0).isLt; change (x 0).val < 1 at this; omega
  unfold rowsAdd
  rw [if_pos]
  · rfl
  · rw [Rect.emb_apply]
    simp only [Rect.off_unit, Rect.stride_unit, Matrix.cons_val_zero, hx]
    omega

set_option maxHeartbeats 4000000 in
theorem row_trip (k : Fin k1_t2_loop.trips)
    (f : Buf (Elt F) ((aV).view.loc (V d (cV L) (jV L)))) (g : Buf (Elt F) ((bV).view.loc (V d (cV L) (jV L)))) :
    (iprop(((aV).view.loc (V d (cV L) (jV L)) ↦{fullShare} f) ∗ ((bV).view.loc (V d (cV L) (jV L)) ↦{fullShare} g)) : sProp 𝕄)
      ⊢ wp frame (wpE (defs₀ (F := F)) 𝒱₀ (V d (cV L) (jV L)) none) Set.univ
          (k1_t2_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc1_scratch4 cc1_scratch5 cc1_scoped0 cc1_scoped1 cc1_scoped2 k ⟨⟩)
          fun _ => iprop(((aV).view.loc (V d (cV L) (jV L)) ↦{fullShare} rowsAdd k.val f g) ∗ ((bV).view.loc (V d (cV L) (jV L)) ↦{fullShare} g)) := by
  unfold k1_t2_body
  iintro ⟨Ha, Hb⟩
  sl_exec_parts
  sl_step
  isplitl [Ha]
  swap; · iexact Hb
  iapply (Entails.of_eq (congrArg (fun c => ((aV).view.loc (V d (cV L) (jV L)) ↦{fullShare} c : sProp 𝕄)) ?_)) $$ Ha
  sl_unfold_run_names
  have h0 : 0 < 4 := by decide
  have h1 : 1 < 4 := by decide
  have h2 : 2 < 4 := by decide
  have h3 : 3 < 4 := by decide
  have o2 : ∀ n (h : n < 4), k1_off2 k (BitVec.ofNat 32 n) = ![4 * k.val + n, 0] := fun n h => k1_off2_eq k ⟨n, h⟩
  have o3 : ∀ n (h : n < 4), k1_off3 k (BitVec.ofNat 32 n) = ![4 * k.val + n, 16] := fun n h => k1_off3_eq k ⟨n, h⟩
  have o4 : ∀ n (h : n < 4), k1_off4 k (BitVec.ofNat 32 n) = ![4 * k.val + n, 32] := fun n h => k1_off4_eq k ⟨n, h⟩
  have o5 : ∀ n (h : n < 4), k1_off5 k (BitVec.ofNat 32 n) = ![4 * k.val + n, 48] := fun n h => k1_off5_eq k ⟨n, h⟩
  have o6 : ∀ n (h : n < 4), k1_off6 k (BitVec.ofNat 32 n) = ![4 * k.val + n, 64] := fun n h => k1_off6_eq k ⟨n, h⟩
  have o7 : ∀ n (h : n < 4), k1_off7 k (BitVec.ofNat 32 n) = ![4 * k.val + n, 80] := fun n h => k1_off7_eq k ⟨n, h⟩
  have o8 : ∀ n (h : n < 4), k1_off8 k (BitVec.ofNat 32 n) = ![4 * k.val + n, 96] := fun n h => k1_off8_eq k ⟨n, h⟩
  have o9 : ∀ n (h : n < 4), k1_off9 k (BitVec.ofNat 32 n) = ![4 * k.val + n, 112] := fun n h => k1_off9_eq k ⟨n, h⟩
  have key : ∀ Ls : List (View.Piece (Elt F) S400x128 .f32), (∀ p ∈ Ls, ∀ x : p.1.shape.Idx, p.2 x = rowsAdd k.val f g (p.1.emb x)) →
      (∀ y, (∀ p ∈ Ls, y ∉ p.1.set) → f y = rowsAdd k.val f g y) → (aV).view.writes (Elt F) f Ls = rowsAdd k.val f g :=
    fun Ls hp hr => read_writes_eq_of_pieces (aV).view f (rowsAdd k.val f g) Ls hp hr
  refine key _ ?hp ?hr
  case hr =>
    intro y hy
    simp only [List.forall_mem_cons, List.not_mem_nil, false_imp_iff, implies_true, and_true, Rect.mem_set_unit, Fin.forall_fin_two,
      o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3, Matrix.cons_val_zero, Matrix.cons_val_one] at hy
    show f y = rowsAdd k.val f g y
    unfold rowsAdd
    rw [if_neg]
    exact fun hb => Rows.cover32 (y 1).isLt hb hy
  case hp =>
    simp only [List.forall_mem_cons, List.not_mem_nil, false_imp_iff, implies_true, and_true]
    and_intros
    all_goals exact fun x => (laneAdd_apply _ _ x).trans (piece_ok d L k f g _ _
      (by simp only [o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3]; exact ⟨_, by decide, _, rfl⟩) x)

def invRow (fA : Buf (Elt F) ((aV).view.loc (V d (cV L) (jV L)))) (fB : Buf (Elt F) ((bV).view.loc (V d (cV L) (jV L)))) (k : ℕ) (_ : PUnit) : sProp 𝕄 :=
  iprop(((aV).view.loc (V d (cV L) (jV L)) ↦{fullShare} accAt (4 * k) fA fB) ∗ ((bV).view.loc (V d (cV L) (jV L)) ↦{fullShare} fB))

theorem aV_writes_whole (g : Buf (Elt F) ((aV).view.loc (V d (cV L) (jV L)))) (w : S400x128.Idx → Elt F .f32) (x : S400x128.Idx) :
    (aV).view.writes (Elt F) g [⟨Rect.whole S400x128, w⟩] x = w x := by
  have hx : (Rect.whole S400x128).emb x = x := Rect.emb_whole_apply S400x128 x
  have e := View.read_writes_cons_emb (aV).view g (Rect.whole S400x128) w [] x
  first
    | (rw [hx] at e; exact e)
    | exact (congrArg (fun y => (aV).view.writes (Elt F) g [⟨Rect.whole S400x128, w⟩] y) hx).symm.trans e
theorem bV_writes_whole (g : Buf (Elt F) ((bV).view.loc (V d (cV L) (jV L)))) (w : S400x128.Idx → Elt F .f32) (x : S400x128.Idx) :
    (bV).view.writes (Elt F) g [⟨Rect.whole S400x128, w⟩] x = w x := by
  have hx : (Rect.whole S400x128).emb x = x := Rect.emb_whole_apply S400x128 x
  have e := View.read_writes_cons_emb (bV).view g (Rect.whole S400x128) w [] x
  first
    | (rw [hx] at e; exact e)
    | exact (congrArg (fun y => (bV).view.writes (Elt F) g [⟨Rect.whole S400x128, w⟩] y) hx).symm.trans e

theorem out_writes_emb (t : Fin k1_t1_loop.trips) (Wc : (outChunk1 L t).view.ty.Contents (Elt F)) (w : S400x128.Idx → Elt F .f32) (x : S400x128.Idx) :
    (outChunk1 L t).view.writes (Elt F) Wc [⟨Rect.whole S400x128, w⟩] ((outChunk1 L t).view.emb x) = w x := by
  have e1 := View.read_writes_cons_emb (outChunk1 L t).view Wc (Rect.whole S400x128) w [] x
  rw [Rect.emb_whole_apply] at e1
  exact ((View.read_apply _ _).trans (cast_eq _ _)).symm.trans e1

set_option maxHeartbeats 4000000 in
theorem chunk_trip (hpre : PreOK (V0 m d)) (O : CellTallies nD τ sig (HIx 4)) (W' : Waits sig (HIx 4)) (t : Fin k1_t1_loop.trips)
    (q : PosShare TreeShare)
    (f1 : Buf (Elt F) ((l1V).view.loc (V d (cV L) (jV L)))) (f2 : Buf (Elt F) ((l2V).view.loc (V d (cV L) (jV L))))
    (fa : Buf (Elt F) ((aV).view.loc (V d (cV L) (jV L)))) (fb : Buf (Elt F) ((bV).view.loc (V d (cV L) (jV L)))) :
    (iprop(Transfers.MayWaits (V d (cV L) (jV L)) (none : HIx 4) O
        ∗ ((t1V).view.loc (V d (cV L) (jV L)) ↦{q} VA1 (V0 m d) (r main_v9))
        ∗ ((i1V).view.loc (V d (cV L) (jV L)) ↦{q} VA1 (V0 m d) (r main_v21))
        ∗ ((t2V).view.loc (V d (cV L) (jV L)) ↦{q} VA1 (V0 m d) (r main_v60))
        ∗ ((i2V).view.loc (V d (cV L) (jV L)) ↦{q} VA1 (V0 m d) (r main_v47))
        ∗ ((outChunk1 L t).view.loc (V d (cV L) (jV L)) ↦[(outChunk1 L t).view.set]{fullShare} VA1 (V0 m d) (r main_v61))
        ∗ ((l1V).view.loc (V d (cV L) (jV L)) ↦{fullShare} f1) ∗ ((l2V).view.loc (V d (cV L) (jV L)) ↦{fullShare} f2)
        ∗ ((aV).view.loc (V d (cV L) (jV L)) ↦{fullShare} fa) ∗ ((bV).view.loc (V d (cV L) (jV L)) ↦{fullShare} fb)
        ∗ semVal (c4cell d L) 0 ∗ semVal (c5cell d L) 0 ∗ semVal (s0cell d L) 0 ∗ semVal (s1cell d L) 0 ∗ semVal (s2cell d L) 0
        ∗ owes (V d (cV L) (jV L)) O W') : sProp 𝕄)
      ⊢ wp frame (wpE (defs₀ (F := F)) 𝒱₀ (V d (cV L) (jV L)) none) Set.univ
          (k1_t1_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc1_scratch4 cc1_scratch5 cc1_scoped0 cc1_scoped1 cc1_scoped2 t ⟨⟩)
          fun _ => iprop(Transfers.MayWaits (V d (cV L) (jV L)) (none : HIx 4) O
            ∗ ((t1V).view.loc (V d (cV L) (jV L)) ↦{q} VA1 (V0 m d) (r main_v9))
            ∗ ((i1V).view.loc (V d (cV L) (jV L)) ↦{q} VA1 (V0 m d) (r main_v21))
            ∗ ((t2V).view.loc (V d (cV L) (jV L)) ↦{q} VA1 (V0 m d) (r main_v60))
            ∗ ((i2V).view.loc (V d (cV L) (jV L)) ↦{q} VA1 (V0 m d) (r main_v47))
            ∗ ((outChunk1 L t).view.loc (V d (cV L) (jV L)) ↦[(outChunk1 L t).view.set]{fullShare} out1 (V0 m d))
            ∗ (∃ f, (l1V).view.loc (V d (cV L) (jV L)) ↦{fullShare} f) ∗ (∃ f, (l2V).view.loc (V d (cV L) (jV L)) ↦{fullShare} f)
            ∗ (∃ f, (aV).view.loc (V d (cV L) (jV L)) ↦{fullShare} f) ∗ (∃ f, (bV).view.loc (V d (cV L) (jV L)) ↦{fullShare} f)
            ∗ semVal (c4cell d L) 0 ∗ semVal (c5cell d L) 0 ∗ semVal (s0cell d L) 0 ∗ semVal (s1cell d L) 0 ∗ semVal (s2cell d L) 0
            ∗ ∃ W'', ⌜∀ p ∈ W'', p ∈ W' ∨ p.2 = none⌝ ∗ owes (V d (cV L) (jV L)) O W'') := by
  have hin1 : ∀ (g1 : Buf (Elt F) ((l1V).view.loc (V d (cV L) (jV L)))) x,
      ((l1V).view.read (Elt F) (View.write (Elt F) (l1V).view g1 ((idxChunk1_1 L t).view.read (Elt F) (VA1 (V0 m d) (r main_v21))) Finset.univ) x).toNat
        < S10000x128.size gathers_S10000x128_S400x128.axis := by
    intro g1 x
    rw [View.write_whole_univ]
    simp only [Memref.view_whole, View.read_whole]
    rw [show ∀ j, (idxChunk1_1 L t).view.read (Elt F) (VA1 (V0 m d) (r main_v21)) j = VA1 (V0 m d) (r main_v21) ((idxChunk1_1 L t).view.emb j) from fun j => (View.read_apply _ _).trans (cast_eq _ _)]
    exact hpre.h1a _
  have hin2 : ∀ (g2 : Buf (Elt F) ((l2V).view.loc (V d (cV L) (jV L)))) x,
      ((l2V).view.read (Elt F) (View.write (Elt F) (l2V).view g2 ((idxChunk1_2 L t).view.read (Elt F) (VA1 (V0 m d) (r main_v47))) Finset.univ) x).toNat
        < S576x128.size gathers_S576x128_S400x128.axis := by
    intro g2 x
    rw [View.write_whole_univ]
    simp only [Memref.view_whole, View.read_whole]
    rw [show ∀ j, (idxChunk1_2 L t).view.read (Elt F) (VA1 (V0 m d) (r main_v47)) j = VA1 (V0 m d) (r main_v47) ((idxChunk1_2 L t).view.emb j) from fun j => (View.read_apply _ _).trans (cast_eq _ _)]
    exact hpre.h1b _
  unfold k1_t1_body
  iintro ⟨Hmw, Ht1, Hi1, Ht2, Hi2, Ho, Hl1, Hl2, Ha, Hb, Hc4, Hc5, Hs0, Hs1, Hs2, HO⟩
  sl_exec
  sl_unfold_run_names
  generalize hfA : (aV).view.writes (Elt F) (aV).view.junk _ = fA
  generalize hfB : (bV).view.writes (Elt F) (bV).view.junk _ = fB
  sl_for (invRow d L fA fB) $$ [Ha Hb]
  case region =>
    intro k _
    unfold invRow
    rw [← rowsAdd_accAt k.val fA fB]
    exact row_trip d L k _ fB
  · unfold invRow
    rw [accAt_zero]
    isplitl [Ha]
    · iexact Ha
    · iexact Hb
  iintro %_ HI
  unfold invRow
  icases HI with ⟨Ha, Hb⟩
  sl_exec
  sl_step
  iframe Hmw Ht1 Hi1 Ht2 Hi2
  isplitl [Ho]
  · iapply (Entails.of_eq (pointsTo_congr ?hv)) $$ Ho
    case hv =>
      sl_unfold_run_names
      rw [set_outChunk1]
      refine forall_outChunk1 L t (fun a b => ?_)
      beta_reduce
      rw [← emb_outChunk1 L t a b, out_writes_emb, ReadAs.apply_same]
      show accAt (4 * k1_t2_loop.trips) fA fB (ValueIdx.ix2 a b) = _
      rw [show 4 * k1_t2_loop.trips = 400 from by decide, accAt_all]
      have hA := (congrFun hfA (ValueIdx.ix2 a b)).symm.trans (aV_writes_whole d L _ _ (ValueIdx.ix2 a b))
      have hB := (congrFun hfB (ValueIdx.ix2 a b)).symm.trans (bV_writes_whole d L _ _ (ValueIdx.ix2 a b))
      rw [hA, hB]
      exact chunkVal1 L t (V0 m d) _ _ _ _ _ _ _ _ (ValueIdx.ix2 a b)
  isplitl [Hl1]; · iexists _; iexact Hl1
  isplitl [Hl2]; · iexists _; iexact Hl2
  isplitl [Ha]; · iexists _; iexact Ha
  isplitl [Hb]; · iexists _; iexact Hb
  isplitl [Hc4]; · iexact Hc4
  isplitl [Hc5]; · iexact Hc5
  isplitl [Hs0]; · iexact Hs0
  isplitl [Hs1]; · iexact Hs1
  isplitl [Hs2]; · iexact Hs2
  iexists _; isplitr
  swap; · iexact HO
  ipureintro; intro p hp
  iterate 5 (rcases Finset.mem_insert.mp hp with hp | hp; · exact .inr (hp ▸ rfl))
  exact .inl hp

def invChunk (O : CellTallies nD τ sig (HIx 4)) (W : Waits sig (HIx 4)) (q : PosShare TreeShare) (k : ℕ) (_ : PUnit) : sProp 𝕄 :=
  iprop(Transfers.MayWaits (V d (cV L) (jV L)) (none : HIx 4) O
    ∗ ((t1V).view.loc (V d (cV L) (jV L)) ↦{q} VA1 (V0 m d) (r main_v9))
    ∗ ((i1V).view.loc (V d (cV L) (jV L)) ↦{q} VA1 (V0 m d) (r main_v21))
    ∗ ((t2V).view.loc (V d (cV L) (jV L)) ↦{q} VA1 (V0 m d) (r main_v60))
    ∗ ((i2V).view.loc (V d (cV L) (jV L)) ↦{q} VA1 (V0 m d) (r main_v47))
    ∗ (bigSep (Finset.univ : Finset (Fin 25)) fun t' => tLoc d main_v61 ↦[part1N (partNo L t'.val)]{fullShare}
        (if t'.val < k then out1 (V0 m d) else VA1 (V0 m d) (r main_v61)))
    ∗ (∃ f, (l1V).view.loc (V d (cV L) (jV L)) ↦{fullShare} f) ∗ (∃ f, (l2V).view.loc (V d (cV L) (jV L)) ↦{fullShare} f)
    ∗ (∃ f, (aV).view.loc (V d (cV L) (jV L)) ↦{fullShare} f) ∗ (∃ f, (bV).view.loc (V d (cV L) (jV L)) ↦{fullShare} f)
    ∗ semVal (c4cell d L) 0 ∗ semVal (c5cell d L) 0 ∗ semVal (s0cell d L) 0 ∗ semVal (s1cell d L) 0 ∗ semVal (s2cell d L) 0
    ∗ ∃ W', ⌜∀ p ∈ W', p ∈ W ∨ p.2 = none⌝ ∗ owes (V d (cV L) (jV L)) O W')

set_option maxHeartbeats 4000000 in
theorem tile_body1 (hpre : PreOK (V0 m d)) (O : CellTallies nD τ sig (HIx 4)) (W : Waits sig (HIx 4)) (hO : ∀ g, O g none = 0) :
    iprop(levAts (K (F := F)).L (K (F := F)).lev ∗ emp
        ∗ (ins d main_v9 main_v21 main_v60 main_v47 (VA1 (V0 m d)) (tileShare (L 0).val (L 1).val) ∗ outs1 d (L 0).val (L 1).val (VA1 (V0 m d) (r main_v61)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc1_scratch4 cc1_scratch5 cc1_scoped0 cc1_scoped1 cc1_scoped2)
          fun _ => iprop((ins d main_v9 main_v21 main_v60 main_v47 (VA1 (V0 m d)) (tileShare (L 0).val (L 1).val) ∗ outs1 d (L 0).val (L 1).val (out1 (V0 m d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V facts d (cV L) (jV L), SparseCore.Cfg.scopedSems0_V (Val := Elt F) d (cV L) (jV L), ownSems0_V, ownBufs_V]
  unfold ins outs1
  iintro ⟨#Hlv, -, ⟨⟨Ht1, Hi1, Ht2, Hi2⟩, Hout⟩, ⟨⟨%f1, Hl1⟩, ⟨%f2, Hl2⟩, ⟨%fa, Ha⟩, ⟨%fb, Hb⟩, Hbufs⟩, ⟨Hc4, Hc5, Hs0, Hs1, Hs2, Hsems⟩, HO⟩
  ihave Hmw := (show levAts (K (F := F)).L (K (F := F)).lev ⊢ Transfers.MayWaits (V d (cV L) (jV L)) (none : HIx 4) O from
    (K (F := F)).mayWaits_none (thr := V d (cV L) (jV L)) hO) $$ Hlv
  sl_for (invChunk m d L O W (tileShare (L 0).val (L 1).val)) $$ [Hmw Ht1 Hi1 Ht2 Hi2 Hout Hl1 Hl2 Ha Hb Hc4 Hc5 Hs0 Hs1 Hs2 HO]
  case region =>
    intro k _
    unfold invChunk
    iintro ⟨Hmw, Ht1, Hi1, Ht2, Hi2, Hout, ⟨%f1, Hl1⟩, ⟨%f2, Hl2⟩, ⟨%fa, Ha⟩, ⟨%fb, Hb⟩, Hc4, Hc5, Hs0, Hs1, Hs2, %W', %hW', HO⟩
    have hk25 : k.val < 25 := k1_t_lt k
    ihave Hout' := (Transfers.bigSep_univ_out (⟨k.val, hk25⟩ : Fin 25) _) $$ Hout
    icases Hout' with ⟨Hk, Hrest⟩
    have ek : (tLoc d main_v61 ↦[part1N (partNo L k.val)]{fullShare} (if k.val < k.val then out1 (V0 m d) else VA1 (V0 m d) (r main_v61)) : sProp 𝕄)
        = ((outChunk1 L k).view.loc (V d (cV L) (jV L)) ↦[(outChunk1 L k).view.set]{fullShare} VA1 (V0 m d) (r main_v61)) := by
      rw [if_neg (lt_irrefl _), pts_outChunk]
    have ek' : ((outChunk1 L k).view.loc (V d (cV L) (jV L)) ↦[(outChunk1 L k).view.set]{fullShare} out1 (V0 m d) : sProp 𝕄)
        = (tLoc d main_v61 ↦[part1N (partNo L k.val)]{fullShare} (if k.val < k.val + 1 then out1 (V0 m d) else VA1 (V0 m d) (r main_v61))) := by
      rw [if_pos (Nat.lt_succ_self _), pts_outChunk]
    have erest : (bigSep ((Finset.univ : Finset (Fin 25)).erase ⟨k.val, hk25⟩) fun t' => (tLoc d main_v61 ↦[part1N (partNo L t'.val)]{fullShare}
          (if t'.val < k.val then out1 (V0 m d) else VA1 (V0 m d) (r main_v61)) : sProp 𝕄))
        = bigSep ((Finset.univ : Finset (Fin 25)).erase ⟨k.val, hk25⟩) fun t' => (tLoc d main_v61 ↦[part1N (partNo L t'.val)]{fullShare}
          (if t'.val < k.val + 1 then out1 (V0 m d) else VA1 (V0 m d) (r main_v61)) : sProp 𝕄) := by
      refine bigSep_congr fun t' ht' => ?_
      have hne : t'.val ≠ k.val := fun e => (Finset.mem_erase.mp ht').1 (Fin.ext e)
      by_cases h : t'.val < k.val
      · rw [if_pos h, if_pos (by omega)]
      · rw [if_neg h, if_neg (by omega)]
    ihave Hk := (Entails.of_eq ek) $$ Hk
    ihave Hrest := (Entails.of_eq erest) $$ Hrest
    iapply (wp_wand_r frame _ _)
    isplitl [Hmw Ht1 Hi1 Ht2 Hi2 Hk Hl1 Hl2 Ha Hb Hc4 Hc5 Hs0 Hs1 Hs2 HO]
    · iapply (chunk_trip m d L hpre O W' k (tileShare (L 0).val (L 1).val) f1 f2 fa fb)
      iframe Hmw Ht1 Hi1 Ht2 Hi2 Hk Hl1 Hl2 Ha Hb Hc4 Hc5 Hs0 Hs1 Hs2 HO
    · iintro %_ ⟨Hmw, Ht1, Hi1, Ht2, Hi2, Hk, Hl1, Hl2, Ha, Hb, Hc4, Hc5, Hs0, Hs1, Hs2, %W'', %hW'', HO⟩
      iframe Hmw Ht1 Hi1 Ht2 Hi2
      isplitl [Hk Hrest]
      · iapply (Transfers.bigSep_univ_in (⟨k.val, hk25⟩ : Fin 25) _)
        isplitl [Hk]
        · iapply (Entails.of_eq ek'); iexact Hk
        · iexact Hrest
      iframe Hl1 Hl2 Ha Hb Hc4 Hc5 Hs0 Hs1 Hs2
      iexists W''; isplitr
      · ipureintro; intro p hp
        rcases hW'' p hp with h | h
        · exact hW' p h
        · exact .inr h
      · iexact HO
  · unfold invChunk
    iframe Hmw Ht1 Hi1 Ht2 Hi2
    isplitl [Hout]
    · simp only [Nat.not_lt_zero, ↓reduceIte]; iexact Hout
    isplitl [Hl1]; · iexists _; iexact Hl1
    isplitl [Hl2]; · iexists _; iexact Hl2
    isplitl [Ha]; · iexists _; iexact Ha
    isplitl [Hb]; · iexists _; iexact Hb
    iframe Hc4 Hc5 Hs0 Hs1 Hs2
    iexists W; isplitr
    · ipureintro; exact fun p hp => .inl hp
    · iexact HO
  iintro %_ HI
  unfold invChunk
  icases HI with ⟨-, Ht1, Hi1, Ht2, Hi2, Hout, Hl1, Hl2, Ha, Hb, Hc4, Hc5, Hs0, Hs1, Hs2, %W', %hW', HO⟩
  sl_step
  have eout : (bigSep (Finset.univ : Finset (Fin 25)) fun t' => (tLoc d main_v61 ↦[part1N (partNo L t'.val)]{fullShare}
        (if t'.val < Scf.trips k1_t1_loop.lb k1_t1_loop.ub k1_t1_loop.st then out1 (V0 m d) else VA1 (V0 m d) (r main_v61)) : sProp 𝕄))
      = bigSep (Finset.univ : Finset (Fin 25)) fun t' => (tLoc d main_v61 ↦[part1N (50 * (L 1).val + 25 * (L 0).val + t'.val)]{fullShare} out1 (V0 m d) : sProp 𝕄) := by
    refine bigSep_congr fun t' _ => ?_
    rw [if_pos (show t'.val < Scf.trips k1_t1_loop.lb k1_t1_loop.ub k1_t1_loop.st from (lt_of_lt_of_eq t'.isLt k1_trips.symm : t'.val < k1_t1_loop.trips))]
  isplitl [Ht1 Hi1 Ht2 Hi2 Hout]
  · isplitl [Ht1 Hi1 Ht2 Hi2]
    · iframe Ht1 Hi1 Ht2 Hi2
    · iapply (Entails.of_eq eout); iexact Hout
  isplitl [Hl1 Hl2 Ha Hb Hbufs]
  · iframe Hl1 Hl2 Ha Hb Hbufs
  isplitl [Hc4 Hc5 Hs0 Hs1 Hs2 Hsems]
  · iframe Hc4 Hc5 Hs0 Hs1 Hs2 Hsems
  iexists W'; isplitr
  · ipureintro; exact hW'
  · iexact HO

end Tile

def coordsV (c : Fin (grid1.bound 0)) (s : Fin (grid1.bound 1)) : grid1.Coords :=
  fun | 0 => c | 1 => s | ⟨_ + 2, h⟩ => absurd h (Nat.not_lt.2 (Nat.le_add_left _ _))

abbrev callQ : Fin 4 := 1

theorem defs₀_vector (c : Fin τ.nSC) (s : Fin τ.nSub) :
    defs₀ (F := F) (.scVector c s) callQ ()
      = SparseCore.onTile hcore1 hsub1 (fun c s => cc1_k (coordsV c s) t1V (Memref.isWhole_whole _) i1V (Memref.isWhole_whole _) t2V (Memref.isWhole_whole _)
          i2V (Memref.isWhole_whole _) oV (Memref.isWhole_whole _) l1V (Memref.isWhole_whole _) l2V (Memref.isWhole_whole _) aV (Memref.isWhole_whole _)
          bV (Memref.isWhole_whole _) cc1_scratch4 cc1_scratch5 cc1_scoped0 cc1_scoped1 cc1_scoped2) ⟨⟩ c s := rfl

theorem tileObl (hpre : ∀ d, PreOK (V0 m d)) : (K (F := F)).TileObl (D (F := F)) 𝒱 (P m) v₀ callQ := by
  intro d c i O W hO _ _
  simp only [show (P m).ox = fun _ _ => 0 from rfl, add_zero]
  change _ ⊢ wp _ _ _ (Pipeline.liftProg (defs₀ (F := F) (.scVector ((K (F := F)).core callQ c) ((K (F := F)).sub callQ i)) callQ ())) _
  refine BI.Entails.trans ?_ (Pipeline.wp_liftProg (D (F := F)) (Pipeline.defs_kernel pcfgs defs₀) 𝒱₀ _ Set.univ none _ _)
  have hc : ((K (F := F)).core callQ c).val < grid1.bound 0 ∧ ((K (F := F)).sub callQ i).val < grid1.bound 1 := ⟨c.isLt, i.isLt⟩
  rw [defs₀_vector]; simp only [SparseCore.onTile, hc, and_self, ↓reduceDIte]
  exact (tile_body1 m d (coordsV ⟨_, hc.1⟩ ⟨_, hc.2⟩) (hpre d) O W hO).trans (wp_mono frame _ _ fun _ => obl_post)

end cc1_tile

theorem tileObl1 (hpre : ∀ d, PreOK (V0 m d)) : (K (F := F)).TileObl (D (F := F)) 𝒱 (P m) v₀ 1 := cc1_tile.tileObl m hpre

end Cert.KernelIdeal.Hand

end
-- ==== Proof.KI.Tile2.lean ====
import proofs.«208129_g65403761983635_cont_9to1_m_1354_7_alg».proof.Proof.KI.Base
import proofs.«208129_g65403761983635_cont_9to1_m_1354_7_alg».proof.Proof.Gen.KernelIdeal.Skeleton
import Idealize.ShloMosaic.Lib.SparseCore.Ops
import Idealize.ShloMosaic.Lib.SparseCore.Stream
import proofs.«208129_g65403761983635_cont_9to1_m_1354_7_alg».proof.Proof.KI.TileGeom
import proofs.«208129_g65403761983635_cont_9to1_m_1354_7_alg».proof.Proof.KI.TileVal
import proofs.«208129_g65403761983635_cont_9to1_m_1354_7_alg».proof.Proof.KI.TileLib
import proofs.«208129_g65403761983635_cont_9to1_m_1354_7_alg».proof.Proof.LibRows

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

namespace cc2_tile

local notation "t1V" => (Memref.whole Cert.KernelIdeal.main_v120_scv : Memref Cert.KernelIdeal.sig Kind.scVector Space.hbm Cert.KernelIdeal.S10000x128 EltTy.f32)
local notation "i1V" => (Memref.whole Cert.KernelIdeal.main_v21_scv : Memref Cert.KernelIdeal.sig Kind.scVector Space.hbm Cert.KernelIdeal.S320000 EltTy.i32)
local notation "t2V" => (Memref.whole Cert.KernelIdeal.main_v133_scv : Memref Cert.KernelIdeal.sig Kind.scVector Space.hbm Cert.KernelIdeal.S576x128 EltTy.f32)
local notation "i2V" => (Memref.whole Cert.KernelIdeal.main_v47_scv : Memref Cert.KernelIdeal.sig Kind.scVector Space.hbm Cert.KernelIdeal.S320000 EltTy.i32)
local notation "oV" => (Memref.whole Cert.KernelIdeal.main_v134_scv : Memref Cert.KernelIdeal.sig Kind.scVector Space.hbm Cert.KernelIdeal.S320000x128 EltTy.f32)
local notation "l1V" => (Memref.whole Cert.KernelIdeal.cc2_scratch0 : Memref Cert.KernelIdeal.sig Kind.scVector Space.vmem Cert.KernelIdeal.S400 EltTy.i32)
local notation "l2V" => (Memref.whole Cert.KernelIdeal.cc2_scratch1 : Memref Cert.KernelIdeal.sig Kind.scVector Space.vmem Cert.KernelIdeal.S400 EltTy.i32)
local notation "aV" => (Memref.whole Cert.KernelIdeal.cc2_scratch2 : Memref Cert.KernelIdeal.sig Kind.scVector Space.vmem Cert.KernelIdeal.S400x128 EltTy.f32)
local notation "bV" => (Memref.whole Cert.KernelIdeal.cc2_scratch3 : Memref Cert.KernelIdeal.sig Kind.scVector Space.vmem Cert.KernelIdeal.S400x128 EltTy.f32)

section Tile

variable (d : Dev nD) (L : grid2.Coords)

abbrev cV (L : grid2.Coords) : Fin τ.nSC := (L 0).castLE hcore2
abbrev jV (L : grid2.Coords) : Fin τ.nSub := (L 1).castLE hsub2

abbrev partNo (L : grid2.Coords) (t : ℕ) : ℕ := 50 * (L 1).val + 25 * (L 0).val + t

omit [FloatOps F] in
theorem pts_outChunk (t : Fin k2_t1_loop.trips) (f : Buf (Elt F) (tLoc d main_v134)) :
    ((outChunk2 L t).view.loc (V d (cV L) (jV L)) ↦[(outChunk2 L t).view.set]{fullShare} f : sProp 𝕄) = tLoc d main_v134 ↦[part1N (partNo L t.val)]{fullShare} f := by
  rw [set_outChunk2]

abbrev c4cell (d : Dev nD) (L : grid2.Coords) : GSem nD τ sig := (V d (cV L) (jV L), .dma cc2_scratch4.sem)
abbrev c5cell (d : Dev nD) (L : grid2.Coords) : GSem nD τ sig := (V d (cV L) (jV L), .dma cc2_scratch5.sem)
abbrev s0cell (d : Dev nD) (L : grid2.Coords) : GSem nD τ sig := (V d (cV L) (jV L), .dma cc2_scoped0.sem)
abbrev s1cell (d : Dev nD) (L : grid2.Coords) : GSem nD τ sig := (V d (cV L) (jV L), .dma cc2_scoped1.sem)
abbrev s2cell (d : Dev nD) (L : grid2.Coords) : GSem nD τ sig := (V d (cV L) (jV L), .dma cc2_scoped2.sem)

omit [FloatOps F] in
theorem ownSems0_V :
    (ownSems0 (V d (cV L) (jV L)) : sProp 𝕄)
      = iprop(semVal (c4cell d L) 0 ∗ semVal (c5cell d L) 0 ∗ semVal (s0cell d L) 0 ∗ semVal (s1cell d L) 0 ∗ semVal (s2cell d L) 0
          ∗ bigSep ((((((ownCells (V d (cV L) (jV L))).erase (c4cell d L)).erase (c5cell d L)).erase (s0cell d L)).erase (s1cell d L)).erase (s2cell d L))
              fun g => semVal g 0) := by
  unfold SparseCore.Cfg.ownSems0
  have m4 : c4cell d L ∈ ownCells (V d (cV L) (jV L)) := (mem_ownCells (g := c4cell d L)).mpr ⟨rfl, by
    show (SemLoc.dma cc2_scratch4.sem : SemLoc sig).isScoped .scVector = true; decide⟩
  have m5 : c5cell d L ∈ ownCells (V d (cV L) (jV L)) := (mem_ownCells (g := c5cell d L)).mpr ⟨rfl, by
    show (SemLoc.dma cc2_scratch5.sem : SemLoc sig).isScoped .scVector = true; decide⟩
  have m0 : s0cell d L ∈ ownCells (V d (cV L) (jV L)) := (mem_ownCells (g := s0cell d L)).mpr ⟨rfl, by
    show (SemLoc.dma cc2_scoped0.sem : SemLoc sig).isScoped .scVector = true; decide⟩
  have m1 : s1cell d L ∈ ownCells (V d (cV L) (jV L)) := (mem_ownCells (g := s1cell d L)).mpr ⟨rfl, by
    show (SemLoc.dma cc2_scoped1.sem : SemLoc sig).isScoped .scVector = true; decide⟩
  have m2 : s2cell d L ∈ ownCells (V d (cV L) (jV L)) := (mem_ownCells (g := s2cell d L)).mpr ⟨rfl, by
    show (SemLoc.dma cc2_scoped2.sem : SemLoc sig).isScoped .scVector = true; decide⟩
  rw [SparseCore.bigSep_erase' m4,
    SparseCore.bigSep_erase' (Finset.mem_erase.mpr ⟨cell_ne _ (by decide), m5⟩),
    SparseCore.bigSep_erase' (Finset.mem_erase.mpr ⟨cell_ne _ (by decide), Finset.mem_erase.mpr ⟨cell_ne _ (by decide), m0⟩⟩),
    SparseCore.bigSep_erase' (Finset.mem_erase.mpr ⟨cell_ne _ (by decide), Finset.mem_erase.mpr ⟨cell_ne _ (by decide), Finset.mem_erase.mpr ⟨cell_ne _ (by decide), m1⟩⟩⟩),
    SparseCore.bigSep_erase' (Finset.mem_erase.mpr ⟨cell_ne _ (by decide), Finset.mem_erase.mpr ⟨cell_ne _ (by decide), Finset.mem_erase.mpr ⟨cell_ne _ (by decide),
      Finset.mem_erase.mpr ⟨cell_ne _ (by decide), m2⟩⟩⟩⟩)]

omit [FloatOps F] in
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f) ∗ (∃ f, (V d (cV L) (jV L)).loc cc2_scratch3 ↦{fullShare} f)
          ∗ bigSep (((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2)).erase
              ((Proc.scVector (cV L) (jV L)).devRef cc2_scratch3))
              fun b => iprop(∃ f, ((d, b) : Loc nD τ sig) ↦{fullShare} f)) := by
  unfold SparseCore.Cfg.ownBufs
  have own0 := SparseCore.Cfg.mem_ownRefs_of_owner (p := Proc.scVector (cV L) (jV L)) (b := (Proc.scVector (cV L) (jV L)).devRef cc2_scratch0) rfl
  have own1 := SparseCore.Cfg.mem_ownRefs_of_owner (p := Proc.scVector (cV L) (jV L)) (b := (Proc.scVector (cV L) (jV L)).devRef cc2_scratch1) rfl
  have own2 := SparseCore.Cfg.mem_ownRefs_of_owner (p := Proc.scVector (cV L) (jV L)) (b := (Proc.scVector (cV L) (jV L)).devRef cc2_scratch2) rfl
  have own3 := SparseCore.Cfg.mem_ownRefs_of_owner (p := Proc.scVector (cV L) (jV L)) (b := (Proc.scVector (cV L) (jV L)).devRef cc2_scratch3) rfl
  have ne : ∀ {b b' : Ref sig .scVector}, b ≠ b' → (Proc.scVector (cV L) (jV L)).devRef b ≠ (Proc.scVector (cV L) (jV L)).devRef b' :=
    fun h e => h (Proc.devRef_injective _ e)
  refine (SparseCore.bigSep_erase' own0).trans ?_
  rw [SparseCore.bigSep_erase' (Finset.mem_erase.mpr ⟨ne (show (cc2_scratch1 : Ref sig .scVector) ≠ cc2_scratch0 by decide), own1⟩),
    SparseCore.bigSep_erase' (Finset.mem_erase.mpr ⟨ne (show (cc2_scratch2 : Ref sig .scVector) ≠ cc2_scratch1 by decide),
      Finset.mem_erase.mpr ⟨ne (show (cc2_scratch2 : Ref sig .scVector) ≠ cc2_scratch0 by decide), own2⟩⟩),
    SparseCore.bigSep_erase' (Finset.mem_erase.mpr ⟨ne (show (cc2_scratch3 : Ref sig .scVector) ≠ cc2_scratch2 by decide),
      Finset.mem_erase.mpr ⟨ne (show (cc2_scratch3 : Ref sig .scVector) ≠ cc2_scratch1 by decide),
      Finset.mem_erase.mpr ⟨ne (show (cc2_scratch3 : Ref sig .scVector) ≠ cc2_scratch0 by decide), own3⟩⟩⟩)]

theorem piece_ok (k : Fin k2_t2_loop.trips)
    (f : Buf (Elt F) ((aV).view.loc (V d (cV L) (jV L)))) (g : Buf (Elt F) ((bV).view.loc (V d (cV L) (jV L))))
    (off : Fin 2 → ℕ) (inb : ∀ a, off a + S1x16.size a ≤ S400x128.size a) (h : ∃ r < 4, ∃ c, off = ![4 * k.val + r, c]) (x : S1x16.Idx) :
    FloatOps.addf (φ := .f32) ((aV).view.readAt (Elt F) (Rect.unit (s := S400x128) off S1x16.size inb).toLoadRect f x)
        ((bV).view.readAt (Elt F) (Rect.unit (s := S400x128) off S1x16.size inb).toLoadRect g x)
      = rowsAdd k.val f g ((Rect.unit (s := S400x128) off S1x16.size inb).emb x) := by
  obtain ⟨r, hr, c, rfl⟩ := h
  have hx : (x 0).val = 0 := by have := (x 0).isLt; change (x 0).val < 1 at this; omega
  unfold rowsAdd
  rw [if_pos]
  · rfl
  · rw [Rect.emb_apply]
    simp only [Rect.off_unit, Rect.stride_unit, Matrix.cons_val_zero, hx]
    omega

set_option maxHeartbeats 4000000 in
theorem row_trip (k : Fin k2_t2_loop.trips)
    (f : Buf (Elt F) ((aV).view.loc (V d (cV L) (jV L)))) (g : Buf (Elt F) ((bV).view.loc (V d (cV L) (jV L)))) :
    (iprop(((aV).view.loc (V d (cV L) (jV L)) ↦{fullShare} f) ∗ ((bV).view.loc (V d (cV L) (jV L)) ↦{fullShare} g)) : sProp 𝕄)
      ⊢ wp frame (wpE (defs₀ (F := F)) 𝒱₀ (V d (cV L) (jV L)) none) Set.univ
          (k2_t2_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc2_scratch4 cc2_scratch5 cc2_scoped0 cc2_scoped1 cc2_scoped2 k ⟨⟩)
          fun _ => iprop(((aV).view.loc (V d (cV L) (jV L)) ↦{fullShare} rowsAdd k.val f g) ∗ ((bV).view.loc (V d (cV L) (jV L)) ↦{fullShare} g)) := by
  unfold k2_t2_body
  iintro ⟨Ha, Hb⟩
  sl_exec_parts
  sl_step
  isplitl [Ha]
  swap; · iexact Hb
  iapply (Entails.of_eq (congrArg (fun c => ((aV).view.loc (V d (cV L) (jV L)) ↦{fullShare} c : sProp 𝕄)) ?_)) $$ Ha
  sl_unfold_run_names
  have h0 : 0 < 4 := by decide
  have h1 : 1 < 4 := by decide
  have h2 : 2 < 4 := by decide
  have h3 : 3 < 4 := by decide
  have o2 : ∀ n (h : n < 4), k2_off2 k (BitVec.ofNat 32 n) = ![4 * k.val + n, 0] := fun n h => k2_off2_eq k ⟨n, h⟩
  have o3 : ∀ n (h : n < 4), k2_off3 k (BitVec.ofNat 32 n) = ![4 * k.val + n, 16] := fun n h => k2_off3_eq k ⟨n, h⟩
  have o4 : ∀ n (h : n < 4), k2_off4 k (BitVec.ofNat 32 n) = ![4 * k.val + n, 32] := fun n h => k2_off4_eq k ⟨n, h⟩
  have o5 : ∀ n (h : n < 4), k2_off5 k (BitVec.ofNat 32 n) = ![4 * k.val + n, 48] := fun n h => k2_off5_eq k ⟨n, h⟩
  have o6 : ∀ n (h : n < 4), k2_off6 k (BitVec.ofNat 32 n) = ![4 * k.val + n, 64] := fun n h => k2_off6_eq k ⟨n, h⟩
  have o7 : ∀ n (h : n < 4), k2_off7 k (BitVec.ofNat 32 n) = ![4 * k.val + n, 80] := fun n h => k2_off7_eq k ⟨n, h⟩
  have o8 : ∀ n (h : n < 4), k2_off8 k (BitVec.ofNat 32 n) = ![4 * k.val + n, 96] := fun n h => k2_off8_eq k ⟨n, h⟩
  have o9 : ∀ n (h : n < 4), k2_off9 k (BitVec.ofNat 32 n) = ![4 * k.val + n, 112] := fun n h => k2_off9_eq k ⟨n, h⟩
  have key : ∀ Ls : List (View.Piece (Elt F) S400x128 .f32), (∀ p ∈ Ls, ∀ x : p.1.shape.Idx, p.2 x = rowsAdd k.val f g (p.1.emb x)) →
      (∀ y, (∀ p ∈ Ls, y ∉ p.1.set) → f y = rowsAdd k.val f g y) → (aV).view.writes (Elt F) f Ls = rowsAdd k.val f g :=
    fun Ls hp hr => read_writes_eq_of_pieces (aV).view f (rowsAdd k.val f g) Ls hp hr
  refine key _ ?hp ?hr
  case hr =>
    intro y hy
    simp only [List.forall_mem_cons, List.not_mem_nil, false_imp_iff, implies_true, and_true, Rect.mem_set_unit, Fin.forall_fin_two,
      o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3, Matrix.cons_val_zero, Matrix.cons_val_one] at hy
    show f y = rowsAdd k.val f g y
    unfold rowsAdd
    rw [if_neg]
    exact fun hb => Rows.cover32 (y 1).isLt hb hy
  case hp =>
    simp only [List.forall_mem_cons, List.not_mem_nil, false_imp_iff, implies_true, and_true]
    and_intros
    all_goals exact fun x => (laneAdd_apply _ _ x).trans (piece_ok d L k f g _ _
      (by simp only [o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3]; exact ⟨_, by decide, _, rfl⟩) x)

def invRow (fA : Buf (Elt F) ((aV).view.loc (V d (cV L) (jV L)))) (fB : Buf (Elt F) ((bV).view.loc (V d (cV L) (jV L)))) (k : ℕ) (_ : PUnit) : sProp 𝕄 :=
  iprop(((aV).view.loc (V d (cV L) (jV L)) ↦{fullShare} accAt (4 * k) fA fB) ∗ ((bV).view.loc (V d (cV L) (jV L)) ↦{fullShare} fB))

theorem aV_writes_whole (g : Buf (Elt F) ((aV).view.loc (V d (cV L) (jV L)))) (w : S400x128.Idx → Elt F .f32) (x : S400x128.Idx) :
    (aV).view.writes (Elt F) g [⟨Rect.whole S400x128, w⟩] x = w x := by
  have hx : (Rect.whole S400x128).emb x = x := Rect.emb_whole_apply S400x128 x
  have e := View.read_writes_cons_emb (aV).view g (Rect.whole S400x128) w [] x
  first
    | (rw [hx] at e; exact e)
    | exact (congrArg (fun y => (aV).view.writes (Elt F) g [⟨Rect.whole S400x128, w⟩] y) hx).symm.trans e
theorem bV_writes_whole (g : Buf (Elt F) ((bV).view.loc (V d (cV L) (jV L)))) (w : S400x128.Idx → Elt F .f32) (x : S400x128.Idx) :
    (bV).view.writes (Elt F) g [⟨Rect.whole S400x128, w⟩] x = w x := by
  have hx : (Rect.whole S400x128).emb x = x := Rect.emb_whole_apply S400x128 x
  have e := View.read_writes_cons_emb (bV).view g (Rect.whole S400x128) w [] x
  first
    | (rw [hx] at e; exact e)
    | exact (congrArg (fun y => (bV).view.writes (Elt F) g [⟨Rect.whole S400x128, w⟩] y) hx).symm.trans e

theorem out_writes_emb (t : Fin k2_t1_loop.trips) (Wc : (outChunk2 L t).view.ty.Contents (Elt F)) (w : S400x128.Idx → Elt F .f32) (x : S400x128.Idx) :
    (outChunk2 L t).view.writes (Elt F) Wc [⟨Rect.whole S400x128, w⟩] ((outChunk2 L t).view.emb x) = w x := by
  have e1 := View.read_writes_cons_emb (outChunk2 L t).view Wc (Rect.whole S400x128) w [] x
  rw [Rect.emb_whole_apply] at e1
  exact ((View.read_apply _ _).trans (cast_eq _ _)).symm.trans e1

set_option maxHeartbeats 4000000 in
theorem chunk_trip (hpre : PreOK (V0 m d)) (O : CellTallies nD τ sig (HIx 4)) (W' : Waits sig (HIx 4)) (t : Fin k2_t1_loop.trips)
    (q : PosShare TreeShare)
    (f1 : Buf (Elt F) ((l1V).view.loc (V d (cV L) (jV L)))) (f2 : Buf (Elt F) ((l2V).view.loc (V d (cV L) (jV L))))
    (fa : Buf (Elt F) ((aV).view.loc (V d (cV L) (jV L)))) (fb : Buf (Elt F) ((bV).view.loc (V d (cV L) (jV L)))) :
    (iprop(Transfers.MayWaits (V d (cV L) (jV L)) (none : HIx 4) O
        ∗ ((t1V).view.loc (V d (cV L) (jV L)) ↦{q} VA2 (V0 m d) (r main_v120))
        ∗ ((i1V).view.loc (V d (cV L) (jV L)) ↦{q} VA2 (V0 m d) (r main_v21))
        ∗ ((t2V).view.loc (V d (cV L) (jV L)) ↦{q} VA2 (V0 m d) (r main_v133))
        ∗ ((i2V).view.loc (V d (cV L) (jV L)) ↦{q} VA2 (V0 m d) (r main_v47))
        ∗ ((outChunk2 L t).view.loc (V d (cV L) (jV L)) ↦[(outChunk2 L t).view.set]{fullShare} VA2 (V0 m d) (r main_v134))
        ∗ ((l1V).view.loc (V d (cV L) (jV L)) ↦{fullShare} f1) ∗ ((l2V).view.loc (V d (cV L) (jV L)) ↦{fullShare} f2)
        ∗ ((aV).view.loc (V d (cV L) (jV L)) ↦{fullShare} fa) ∗ ((bV).view.loc (V d (cV L) (jV L)) ↦{fullShare} fb)
        ∗ semVal (c4cell d L) 0 ∗ semVal (c5cell d L) 0 ∗ semVal (s0cell d L) 0 ∗ semVal (s1cell d L) 0 ∗ semVal (s2cell d L) 0
        ∗ owes (V d (cV L) (jV L)) O W') : sProp 𝕄)
      ⊢ wp frame (wpE (defs₀ (F := F)) 𝒱₀ (V d (cV L) (jV L)) none) Set.univ
          (k2_t1_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc2_scratch4 cc2_scratch5 cc2_scoped0 cc2_scoped1 cc2_scoped2 t ⟨⟩)
          fun _ => iprop(Transfers.MayWaits (V d (cV L) (jV L)) (none : HIx 4) O
            ∗ ((t1V).view.loc (V d (cV L) (jV L)) ↦{q} VA2 (V0 m d) (r main_v120))
            ∗ ((i1V).view.loc (V d (cV L) (jV L)) ↦{q} VA2 (V0 m d) (r main_v21))
            ∗ ((t2V).view.loc (V d (cV L) (jV L)) ↦{q} VA2 (V0 m d) (r main_v133))
            ∗ ((i2V).view.loc (V d (cV L) (jV L)) ↦{q} VA2 (V0 m d) (r main_v47))
            ∗ ((outChunk2 L t).view.loc (V d (cV L) (jV L)) ↦[(outChunk2 L t).view.set]{fullShare} out2 (V0 m d))
            ∗ (∃ f, (l1V).view.loc (V d (cV L) (jV L)) ↦{fullShare} f) ∗ (∃ f, (l2V).view.loc (V d (cV L) (jV L)) ↦{fullShare} f)
            ∗ (∃ f, (aV).view.loc (V d (cV L) (jV L)) ↦{fullShare} f) ∗ (∃ f, (bV).view.loc (V d (cV L) (jV L)) ↦{fullShare} f)
            ∗ semVal (c4cell d L) 0 ∗ semVal (c5cell d L) 0 ∗ semVal (s0cell d L) 0 ∗ semVal (s1cell d L) 0 ∗ semVal (s2cell d L) 0
            ∗ ∃ W'', ⌜∀ p ∈ W'', p ∈ W' ∨ p.2 = none⌝ ∗ owes (V d (cV L) (jV L)) O W'') := by
  have hin1 : ∀ (g1 : Buf (Elt F) ((l1V).view.loc (V d (cV L) (jV L)))) x,
      ((l1V).view.read (Elt F) (View.write (Elt F) (l1V).view g1 ((idxChunk2_1 L t).view.read (Elt F) (VA2 (V0 m d) (r main_v21))) Finset.univ) x).toNat
        < S10000x128.size gathers_S10000x128_S400x128.axis := by
    intro g1 x
    rw [View.write_whole_univ]
    simp only [Memref.view_whole, View.read_whole]
    rw [show ∀ j, (idxChunk2_1 L t).view.read (Elt F) (VA2 (V0 m d) (r main_v21)) j = VA2 (V0 m d) (r main_v21) ((idxChunk2_1 L t).view.emb j) from fun j => (View.read_apply _ _).trans (cast_eq _ _)]
    exact hpre.h2a _
  have hin2 : ∀ (g2 : Buf (Elt F) ((l2V).view.loc (V d (cV L) (jV L)))) x,
      ((l2V).view.read (Elt F) (View.write (Elt F) (l2V).view g2 ((idxChunk2_2 L t).view.read (Elt F) (VA2 (V0 m d) (r main_v47))) Finset.univ) x).toNat
        < S576x128.size gathers_S576x128_S400x128.axis := by
    intro g2 x
    rw [View.write_whole_univ]
    simp only [Memref.view_whole, View.read_whole]
    rw [show ∀ j, (idxChunk2_2 L t).view.read (Elt F) (VA2 (V0 m d) (r main_v47)) j = VA2 (V0 m d) (r main_v47) ((idxChunk2_2 L t).view.emb j) from fun j => (View.read_apply _ _).trans (cast_eq _ _)]
    exact hpre.h2b _
  unfold k2_t1_body
  iintro ⟨Hmw, Ht1, Hi1, Ht2, Hi2, Ho, Hl1, Hl2, Ha, Hb, Hc4, Hc5, Hs0, Hs1, Hs2, HO⟩
  sl_exec
  sl_unfold_run_names
  generalize hfA : (aV).view.writes (Elt F) (aV).view.junk _ = fA
  generalize hfB : (bV).view.writes (Elt F) (bV).view.junk _ = fB
  sl_for (invRow d L fA fB) $$ [Ha Hb]
  case region =>
    intro k _
    unfold invRow
    rw [← rowsAdd_accAt k.val fA fB]
    exact row_trip d L k _ fB
  · unfold invRow
    rw [accAt_zero]
    isplitl [Ha]
    · iexact Ha
    · iexact Hb
  iintro %_ HI
  unfold invRow
  icases HI with ⟨Ha, Hb⟩
  sl_exec
  sl_step
  iframe Hmw Ht1 Hi1 Ht2 Hi2
  isplitl [Ho]
  · iapply (Entails.of_eq (pointsTo_congr ?hv)) $$ Ho
    case hv =>
      sl_unfold_run_names
      rw [set_outChunk2]
      refine forall_outChunk2 L t (fun a b => ?_)
      beta_reduce
      rw [← emb_outChunk2 L t a b, out_writes_emb, ReadAs.apply_same]
      show accAt (4 * k2_t2_loop.trips) fA fB (ValueIdx.ix2 a b) = _
      rw [show 4 * k2_t2_loop.trips = 400 from by decide, accAt_all]
      have hA := (congrFun hfA (ValueIdx.ix2 a b)).symm.trans (aV_writes_whole d L _ _ (ValueIdx.ix2 a b))
      have hB := (congrFun hfB (ValueIdx.ix2 a b)).symm.trans (bV_writes_whole d L _ _ (ValueIdx.ix2 a b))
      rw [hA, hB]
      exact chunkVal2 L t (V0 m d) _ _ _ _ _ _ _ _ (ValueIdx.ix2 a b)
  isplitl [Hl1]; · iexists _; iexact Hl1
  isplitl [Hl2]; · iexists _; iexact Hl2
  isplitl [Ha]; · iexists _; iexact Ha
  isplitl [Hb]; · iexists _; iexact Hb
  isplitl [Hc4]; · iexact Hc4
  isplitl [Hc5]; · iexact Hc5
  isplitl [Hs0]; · iexact Hs0
  isplitl [Hs1]; · iexact Hs1
  isplitl [Hs2]; · iexact Hs2
  iexists _; isplitr
  swap; · iexact HO
  ipureintro; intro p hp
  iterate 5 (rcases Finset.mem_insert.mp hp with hp | hp; · exact .inr (hp ▸ rfl))
  exact .inl hp

def invChunk (O : CellTallies nD τ sig (HIx 4)) (W : Waits sig (HIx 4)) (q : PosShare TreeShare) (k : ℕ) (_ : PUnit) : sProp 𝕄 :=
  iprop(Transfers.MayWaits (V d (cV L) (jV L)) (none : HIx 4) O
    ∗ ((t1V).view.loc (V d (cV L) (jV L)) ↦{q} VA2 (V0 m d) (r main_v120))
    ∗ ((i1V).view.loc (V d (cV L) (jV L)) ↦{q} VA2 (V0 m d) (r main_v21))
    ∗ ((t2V).view.loc (V d (cV L) (jV L)) ↦{q} VA2 (V0 m d) (r main_v133))
    ∗ ((i2V).view.loc (V d (cV L) (jV L)) ↦{q} VA2 (V0 m d) (r main_v47))
    ∗ (bigSep (Finset.univ : Finset (Fin 25)) fun t' => tLoc d main_v134 ↦[part1N (partNo L t'.val)]{fullShare}
        (if t'.val < k then out2 (V0 m d) else VA2 (V0 m d) (r main_v134)))
    ∗ (∃ f, (l1V).view.loc (V d (cV L) (jV L)) ↦{fullShare} f) ∗ (∃ f, (l2V).view.loc (V d (cV L) (jV L)) ↦{fullShare} f)
    ∗ (∃ f, (aV).view.loc (V d (cV L) (jV L)) ↦{fullShare} f) ∗ (∃ f, (bV).view.loc (V d (cV L) (jV L)) ↦{fullShare} f)
    ∗ semVal (c4cell d L) 0 ∗ semVal (c5cell d L) 0 ∗ semVal (s0cell d L) 0 ∗ semVal (s1cell d L) 0 ∗ semVal (s2cell d L) 0
    ∗ ∃ W', ⌜∀ p ∈ W', p ∈ W ∨ p.2 = none⌝ ∗ owes (V d (cV L) (jV L)) O W')

set_option maxHeartbeats 4000000 in
theorem tile_body2 (hpre : PreOK (V0 m d)) (O : CellTallies nD τ sig (HIx 4)) (W : Waits sig (HIx 4)) (hO : ∀ g, O g none = 0) :
    iprop(levAts (K (F := F)).L (K (F := F)).lev ∗ emp
        ∗ (ins d main_v120 main_v21 main_v133 main_v47 (VA2 (V0 m d)) (tileShare (L 0).val (L 1).val) ∗ outs2 d (L 0).val (L 1).val (VA2 (V0 m d) (r main_v134)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_k L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc2_scratch4 cc2_scratch5 cc2_scoped0 cc2_scoped1 cc2_scoped2)
          fun _ => iprop((ins d main_v120 main_v21 main_v133 main_v47 (VA2 (V0 m d)) (tileShare (L 0).val (L 1).val) ∗ outs2 d (L 0).val (L 1).val (out2 (V0 m d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_k_eq_skeleton]; unfold cc2_k_skel
  rw [(K (F := F)).scopedBufs_V facts d (cV L) (jV L), SparseCore.Cfg.scopedSems0_V (Val := Elt F) d (cV L) (jV L), ownSems0_V, ownBufs_V]
  unfold ins outs2
  iintro ⟨#Hlv, -, ⟨⟨Ht1, Hi1, Ht2, Hi2⟩, Hout⟩, ⟨⟨%f1, Hl1⟩, ⟨%f2, Hl2⟩, ⟨%fa, Ha⟩, ⟨%fb, Hb⟩, Hbufs⟩, ⟨Hc4, Hc5, Hs0, Hs1, Hs2, Hsems⟩, HO⟩
  ihave Hmw := (show levAts (K (F := F)).L (K (F := F)).lev ⊢ Transfers.MayWaits (V d (cV L) (jV L)) (none : HIx 4) O from
    (K (F := F)).mayWaits_none (thr := V d (cV L) (jV L)) hO) $$ Hlv
  sl_for (invChunk m d L O W (tileShare (L 0).val (L 1).val)) $$ [Hmw Ht1 Hi1 Ht2 Hi2 Hout Hl1 Hl2 Ha Hb Hc4 Hc5 Hs0 Hs1 Hs2 HO]
  case region =>
    intro k _
    unfold invChunk
    iintro ⟨Hmw, Ht1, Hi1, Ht2, Hi2, Hout, ⟨%f1, Hl1⟩, ⟨%f2, Hl2⟩, ⟨%fa, Ha⟩, ⟨%fb, Hb⟩, Hc4, Hc5, Hs0, Hs1, Hs2, %W', %hW', HO⟩
    have hk25 : k.val < 25 := k2_t_lt k
    ihave Hout' := (Transfers.bigSep_univ_out (⟨k.val, hk25⟩ : Fin 25) _) $$ Hout
    icases Hout' with ⟨Hk, Hrest⟩
    have ek : (tLoc d main_v134 ↦[part1N (partNo L k.val)]{fullShare} (if k.val < k.val then out2 (V0 m d) else VA2 (V0 m d) (r main_v134)) : sProp 𝕄)
        = ((outChunk2 L k).view.loc (V d (cV L) (jV L)) ↦[(outChunk2 L k).view.set]{fullShare} VA2 (V0 m d) (r main_v134)) := by
      rw [if_neg (lt_irrefl _), pts_outChunk]
    have ek' : ((outChunk2 L k).view.loc (V d (cV L) (jV L)) ↦[(outChunk2 L k).view.set]{fullShare} out2 (V0 m d) : sProp 𝕄)
        = (tLoc d main_v134 ↦[part1N (partNo L k.val)]{fullShare} (if k.val < k.val + 1 then out2 (V0 m d) else VA2 (V0 m d) (r main_v134))) := by
      rw [if_pos (Nat.lt_succ_self _), pts_outChunk]
    have erest : (bigSep ((Finset.univ : Finset (Fin 25)).erase ⟨k.val, hk25⟩) fun t' => (tLoc d main_v134 ↦[part1N (partNo L t'.val)]{fullShare}
          (if t'.val < k.val then out2 (V0 m d) else VA2 (V0 m d) (r main_v134)) : sProp 𝕄))
        = bigSep ((Finset.univ : Finset (Fin 25)).erase ⟨k.val, hk25⟩) fun t' => (tLoc d main_v134 ↦[part1N (partNo L t'.val)]{fullShare}
          (if t'.val < k.val + 1 then out2 (V0 m d) else VA2 (V0 m d) (r main_v134)) : sProp 𝕄) := by
      refine bigSep_congr fun t' ht' => ?_
      have hne : t'.val ≠ k.val := fun e => (Finset.mem_erase.mp ht').1 (Fin.ext e)
      by_cases h : t'.val < k.val
      · rw [if_pos h, if_pos (by omega)]
      · rw [if_neg h, if_neg (by omega)]
    ihave Hk := (Entails.of_eq ek) $$ Hk
    ihave Hrest := (Entails.of_eq erest) $$ Hrest
    iapply (wp_wand_r frame _ _)
    isplitl [Hmw Ht1 Hi1 Ht2 Hi2 Hk Hl1 Hl2 Ha Hb Hc4 Hc5 Hs0 Hs1 Hs2 HO]
    · iapply (chunk_trip m d L hpre O W' k (tileShare (L 0).val (L 1).val) f1 f2 fa fb)
      iframe Hmw Ht1 Hi1 Ht2 Hi2 Hk Hl1 Hl2 Ha Hb Hc4 Hc5 Hs0 Hs1 Hs2 HO
    · iintro %_ ⟨Hmw, Ht1, Hi1, Ht2, Hi2, Hk, Hl1, Hl2, Ha, Hb, Hc4, Hc5, Hs0, Hs1, Hs2, %W'', %hW'', HO⟩
      iframe Hmw Ht1 Hi1 Ht2 Hi2
      isplitl [Hk Hrest]
      · iapply (Transfers.bigSep_univ_in (⟨k.val, hk25⟩ : Fin 25) _)
        isplitl [Hk]
        · iapply (Entails.of_eq ek'); iexact Hk
        · iexact Hrest
      iframe Hl1 Hl2 Ha Hb Hc4 Hc5 Hs0 Hs1 Hs2
      iexists W''; isplitr
      · ipureintro; intro p hp
        rcases hW'' p hp with h | h
        · exact hW' p h
        · exact .inr h
      · iexact HO
  · unfold invChunk
    iframe Hmw Ht1 Hi1 Ht2 Hi2
    isplitl [Hout]
    · simp only [Nat.not_lt_zero, ↓reduceIte]; iexact Hout
    isplitl [Hl1]; · iexists _; iexact Hl1
    isplitl [Hl2]; · iexists _; iexact Hl2
    isplitl [Ha]; · iexists _; iexact Ha
    isplitl [Hb]; · iexists _; iexact Hb
    iframe Hc4 Hc5 Hs0 Hs1 Hs2
    iexists W; isplitr
    · ipureintro; exact fun p hp => .inl hp
    · iexact HO
  iintro %_ HI
  unfold invChunk
  icases HI with ⟨-, Ht1, Hi1, Ht2, Hi2, Hout, Hl1, Hl2, Ha, Hb, Hc4, Hc5, Hs0, Hs1, Hs2, %W', %hW', HO⟩
  sl_step
  have eout : (bigSep (Finset.univ : Finset (Fin 25)) fun t' => (tLoc d main_v134 ↦[part1N (partNo L t'.val)]{fullShare}
        (if t'.val < Scf.trips k2_t1_loop.lb k2_t1_loop.ub k2_t1_loop.st then out2 (V0 m d) else VA2 (V0 m d) (r main_v134)) : sProp 𝕄))
      = bigSep (Finset.univ : Finset (Fin 25)) fun t' => (tLoc d main_v134 ↦[part1N (50 * (L 1).val + 25 * (L 0).val + t'.val)]{fullShare} out2 (V0 m d) : sProp 𝕄) := by
    refine bigSep_congr fun t' _ => ?_
    rw [if_pos (show t'.val < Scf.trips k2_t1_loop.lb k2_t1_loop.ub k2_t1_loop.st from (lt_of_lt_of_eq t'.isLt k2_trips.symm : t'.val < k2_t1_loop.trips))]
  isplitl [Ht1 Hi1 Ht2 Hi2 Hout]
  · isplitl [Ht1 Hi1 Ht2 Hi2]
    · iframe Ht1 Hi1 Ht2 Hi2
    · iapply (Entails.of_eq eout); iexact Hout
  isplitl [Hl1 Hl2 Ha Hb Hbufs]
  · iframe Hl1 Hl2 Ha Hb Hbufs
  isplitl [Hc4 Hc5 Hs0 Hs1 Hs2 Hsems]
  · iframe Hc4 Hc5 Hs0 Hs1 Hs2 Hsems
  iexists W'; isplitr
  · ipureintro; exact hW'
  · iexact HO

end Tile

def coordsV (c : Fin (grid2.bound 0)) (s : Fin (grid2.bound 1)) : grid2.Coords :=
  fun | 0 => c | 1 => s | ⟨_ + 2, h⟩ => absurd h (Nat.not_lt.2 (Nat.le_add_left _ _))

abbrev callQ : Fin 4 := 2

theorem defs₀_vector (c : Fin τ.nSC) (s : Fin τ.nSub) :
    defs₀ (F := F) (.scVector c s) callQ ()
      = SparseCore.onTile hcore2 hsub2 (fun c s => cc2_k (coordsV c s) t1V (Memref.isWhole_whole _) i1V (Memref.isWhole_whole _) t2V (Memref.isWhole_whole _)
          i2V (Memref.isWhole_whole _) oV (Memref.isWhole_whole _) l1V (Memref.isWhole_whole _) l2V (Memref.isWhole_whole _) aV (Memref.isWhole_whole _)
          bV (Memref.isWhole_whole _) cc2_scratch4 cc2_scratch5 cc2_scoped0 cc2_scoped1 cc2_scoped2) ⟨⟩ c s := rfl

theorem tileObl (hpre : ∀ d, PreOK (V0 m d)) : (K (F := F)).TileObl (D (F := F)) 𝒱 (P m) v₀ callQ := by
  intro d c i O W hO _ _
  simp only [show (P m).ox = fun _ _ => 0 from rfl, add_zero]
  change _ ⊢ wp _ _ _ (Pipeline.liftProg (defs₀ (F := F) (.scVector ((K (F := F)).core callQ c) ((K (F := F)).sub callQ i)) callQ ())) _
  refine BI.Entails.trans ?_ (Pipeline.wp_liftProg (D (F := F)) (Pipeline.defs_kernel pcfgs defs₀) 𝒱₀ _ Set.univ none _ _)
  have hc : ((K (F := F)).core callQ c).val < grid2.bound 0 ∧ ((K (F := F)).sub callQ i).val < grid2.bound 1 := ⟨c.isLt, i.isLt⟩
  rw [defs₀_vector]; simp only [SparseCore.onTile, hc, and_self, ↓reduceDIte]
  exact (tile_body2 m d (coordsV ⟨_, hc.1⟩ ⟨_, hc.2⟩) (hpre d) O W hO).trans (wp_mono frame _ _ fun _ => obl_post)

end cc2_tile

theorem tileObl2 (hpre : ∀ d, PreOK (V0 m d)) : (K (F := F)).TileObl (D (F := F)) 𝒱 (P m) v₀ 2 := cc2_tile.tileObl m hpre

end Cert.KernelIdeal.Hand

end
-- ==== Proof.KI.Tile3.lean ====
import proofs.«208129_g65403761983635_cont_9to1_m_1354_7_alg».proof.Proof.KI.Base
import proofs.«208129_g65403761983635_cont_9to1_m_1354_7_alg».proof.Proof.Gen.KernelIdeal.Skeleton
import Idealize.ShloMosaic.Lib.SparseCore.Ops
import Idealize.ShloMosaic.Lib.SparseCore.Stream
import proofs.«208129_g65403761983635_cont_9to1_m_1354_7_alg».proof.Proof.KI.TileGeom
import proofs.«208129_g65403761983635_cont_9to1_m_1354_7_alg».proof.Proof.KI.TileVal
import proofs.«208129_g65403761983635_cont_9to1_m_1354_7_alg».proof.Proof.KI.TileLib
import proofs.«208129_g65403761983635_cont_9to1_m_1354_7_alg».proof.Proof.LibRows

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

namespace cc3_tile

local notation "t1V" => (Memref.whole Cert.KernelIdeal.main_v193_scv : Memref Cert.KernelIdeal.sig Kind.scVector Space.hbm Cert.KernelIdeal.S10000x128 EltTy.f32)
local notation "i1V" => (Memref.whole Cert.KernelIdeal.main_v21_scv : Memref Cert.KernelIdeal.sig Kind.scVector Space.hbm Cert.KernelIdeal.S320000 EltTy.i32)
local notation "t2V" => (Memref.whole Cert.KernelIdeal.main_v206_scv : Memref Cert.KernelIdeal.sig Kind.scVector Space.hbm Cert.KernelIdeal.S576x128 EltTy.f32)
local notation "i2V" => (Memref.whole Cert.KernelIdeal.main_v47_scv : Memref Cert.KernelIdeal.sig Kind.scVector Space.hbm Cert.KernelIdeal.S320000 EltTy.i32)
local notation "oV" => (Memref.whole Cert.KernelIdeal.main_v207_scv : Memref Cert.KernelIdeal.sig Kind.scVector Space.hbm Cert.KernelIdeal.S320000x128 EltTy.f32)
local notation "l1V" => (Memref.whole Cert.KernelIdeal.cc3_scratch0 : Memref Cert.KernelIdeal.sig Kind.scVector Space.vmem Cert.KernelIdeal.S400 EltTy.i32)
local notation "l2V" => (Memref.whole Cert.KernelIdeal.cc3_scratch1 : Memref Cert.KernelIdeal.sig Kind.scVector Space.vmem Cert.KernelIdeal.S400 EltTy.i32)
local notation "aV" => (Memref.whole Cert.KernelIdeal.cc3_scratch2 : Memref Cert.KernelIdeal.sig Kind.scVector Space.vmem Cert.KernelIdeal.S400x128 EltTy.f32)
local notation "bV" => (Memref.whole Cert.KernelIdeal.cc3_scratch3 : Memref Cert.KernelIdeal.sig Kind.scVector Space.vmem Cert.KernelIdeal.S400x128 EltTy.f32)

section Tile

variable (d : Dev nD) (L : grid3.Coords)

abbrev cV (L : grid3.Coords) : Fin τ.nSC := (L 0).castLE hcore3
abbrev jV (L : grid3.Coords) : Fin τ.nSub := (L 1).castLE hsub3

abbrev partNo (L : grid3.Coords) (t : ℕ) : ℕ := 50 * (L 1).val + 25 * (L 0).val + t

omit [FloatOps F] in
theorem pts_outChunk (t : Fin k3_t1_loop.trips) (f : Buf (Elt F) (tLoc d main_v207)) :
    ((outChunk3 L t).view.loc (V d (cV L) (jV L)) ↦[(outChunk3 L t).view.set]{fullShare} f : sProp 𝕄) = tLoc d main_v207 ↦[part1N (partNo L t.val)]{fullShare} f := by
  rw [set_outChunk3]

abbrev c4cell (d : Dev nD) (L : grid3.Coords) : GSem nD τ sig := (V d (cV L) (jV L), .dma cc3_scratch4.sem)
abbrev c5cell (d : Dev nD) (L : grid3.Coords) : GSem nD τ sig := (V d (cV L) (jV L), .dma cc3_scratch5.sem)
abbrev s0cell (d : Dev nD) (L : grid3.Coords) : GSem nD τ sig := (V d (cV L) (jV L), .dma cc3_scoped0.sem)
abbrev s1cell (d : Dev nD) (L : grid3.Coords) : GSem nD τ sig := (V d (cV L) (jV L), .dma cc3_scoped1.sem)
abbrev s2cell (d : Dev nD) (L : grid3.Coords) : GSem nD τ sig := (V d (cV L) (jV L), .dma cc3_scoped2.sem)

omit [FloatOps F] in
theorem ownSems0_V :
    (ownSems0 (V d (cV L) (jV L)) : sProp 𝕄)
      = iprop(semVal (c4cell d L) 0 ∗ semVal (c5cell d L) 0 ∗ semVal (s0cell d L) 0 ∗ semVal (s1cell d L) 0 ∗ semVal (s2cell d L) 0
          ∗ bigSep ((((((ownCells (V d (cV L) (jV L))).erase (c4cell d L)).erase (c5cell d L)).erase (s0cell d L)).erase (s1cell d L)).erase (s2cell d L))
              fun g => semVal g 0) := by
  unfold SparseCore.Cfg.ownSems0
  have m4 : c4cell d L ∈ ownCells (V d (cV L) (jV L)) := (mem_ownCells (g := c4cell d L)).mpr ⟨rfl, by
    show (SemLoc.dma cc3_scratch4.sem : SemLoc sig).isScoped .scVector = true; decide⟩
  have m5 : c5cell d L ∈ ownCells (V d (cV L) (jV L)) := (mem_ownCells (g := c5cell d L)).mpr ⟨rfl, by
    show (SemLoc.dma cc3_scratch5.sem : SemLoc sig).isScoped .scVector = true; decide⟩
  have m0 : s0cell d L ∈ ownCells (V d (cV L) (jV L)) := (mem_ownCells (g := s0cell d L)).mpr ⟨rfl, by
    show (SemLoc.dma cc3_scoped0.sem : SemLoc sig).isScoped .scVector = true; decide⟩
  have m1 : s1cell d L ∈ ownCells (V d (cV L) (jV L)) := (mem_ownCells (g := s1cell d L)).mpr ⟨rfl, by
    show (SemLoc.dma cc3_scoped1.sem : SemLoc sig).isScoped .scVector = true; decide⟩
  have m2 : s2cell d L ∈ ownCells (V d (cV L) (jV L)) := (mem_ownCells (g := s2cell d L)).mpr ⟨rfl, by
    show (SemLoc.dma cc3_scoped2.sem : SemLoc sig).isScoped .scVector = true; decide⟩
  rw [SparseCore.bigSep_erase' m4,
    SparseCore.bigSep_erase' (Finset.mem_erase.mpr ⟨cell_ne _ (by decide), m5⟩),
    SparseCore.bigSep_erase' (Finset.mem_erase.mpr ⟨cell_ne _ (by decide), Finset.mem_erase.mpr ⟨cell_ne _ (by decide), m0⟩⟩),
    SparseCore.bigSep_erase' (Finset.mem_erase.mpr ⟨cell_ne _ (by decide), Finset.mem_erase.mpr ⟨cell_ne _ (by decide), Finset.mem_erase.mpr ⟨cell_ne _ (by decide), m1⟩⟩⟩),
    SparseCore.bigSep_erase' (Finset.mem_erase.mpr ⟨cell_ne _ (by decide), Finset.mem_erase.mpr ⟨cell_ne _ (by decide), Finset.mem_erase.mpr ⟨cell_ne _ (by decide),
      Finset.mem_erase.mpr ⟨cell_ne _ (by decide), m2⟩⟩⟩⟩)]

omit [FloatOps F] in
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f) ∗ (∃ f, (V d (cV L) (jV L)).loc cc3_scratch3 ↦{fullShare} f)
          ∗ bigSep (((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2)).erase
              ((Proc.scVector (cV L) (jV L)).devRef cc3_scratch3))
              fun b => iprop(∃ f, ((d, b) : Loc nD τ sig) ↦{fullShare} f)) := by
  unfold SparseCore.Cfg.ownBufs
  have own0 := SparseCore.Cfg.mem_ownRefs_of_owner (p := Proc.scVector (cV L) (jV L)) (b := (Proc.scVector (cV L) (jV L)).devRef cc3_scratch0) rfl
  have own1 := SparseCore.Cfg.mem_ownRefs_of_owner (p := Proc.scVector (cV L) (jV L)) (b := (Proc.scVector (cV L) (jV L)).devRef cc3_scratch1) rfl
  have own2 := SparseCore.Cfg.mem_ownRefs_of_owner (p := Proc.scVector (cV L) (jV L)) (b := (Proc.scVector (cV L) (jV L)).devRef cc3_scratch2) rfl
  have own3 := SparseCore.Cfg.mem_ownRefs_of_owner (p := Proc.scVector (cV L) (jV L)) (b := (Proc.scVector (cV L) (jV L)).devRef cc3_scratch3) rfl
  have ne : ∀ {b b' : Ref sig .scVector}, b ≠ b' → (Proc.scVector (cV L) (jV L)).devRef b ≠ (Proc.scVector (cV L) (jV L)).devRef b' :=
    fun h e => h (Proc.devRef_injective _ e)
  refine (SparseCore.bigSep_erase' own0).trans ?_
  rw [SparseCore.bigSep_erase' (Finset.mem_erase.mpr ⟨ne (show (cc3_scratch1 : Ref sig .scVector) ≠ cc3_scratch0 by decide), own1⟩),
    SparseCore.bigSep_erase' (Finset.mem_erase.mpr ⟨ne (show (cc3_scratch2 : Ref sig .scVector) ≠ cc3_scratch1 by decide),
      Finset.mem_erase.mpr ⟨ne (show (cc3_scratch2 : Ref sig .scVector) ≠ cc3_scratch0 by decide), own2⟩⟩),
    SparseCore.bigSep_erase' (Finset.mem_erase.mpr ⟨ne (show (cc3_scratch3 : Ref sig .scVector) ≠ cc3_scratch2 by decide),
      Finset.mem_erase.mpr ⟨ne (show (cc3_scratch3 : Ref sig .scVector) ≠ cc3_scratch1 by decide),
      Finset.mem_erase.mpr ⟨ne (show (cc3_scratch3 : Ref sig .scVector) ≠ cc3_scratch0 by decide), own3⟩⟩⟩)]

theorem piece_ok (k : Fin k3_t2_loop.trips)
    (f : Buf (Elt F) ((aV).view.loc (V d (cV L) (jV L)))) (g : Buf (Elt F) ((bV).view.loc (V d (cV L) (jV L))))
    (off : Fin 2 → ℕ) (inb : ∀ a, off a + S1x16.size a ≤ S400x128.size a) (h : ∃ r < 4, ∃ c, off = ![4 * k.val + r, c]) (x : S1x16.Idx) :
    FloatOps.addf (φ := .f32) ((aV).view.readAt (Elt F) (Rect.unit (s := S400x128) off S1x16.size inb).toLoadRect f x)
        ((bV).view.readAt (Elt F) (Rect.unit (s := S400x128) off S1x16.size inb).toLoadRect g x)
      = rowsAdd k.val f g ((Rect.unit (s := S400x128) off S1x16.size inb).emb x) := by
  obtain ⟨r, hr, c, rfl⟩ := h
  have hx : (x 0).val = 0 := by have := (x 0).isLt; change (x 0).val < 1 at this; omega
  unfold rowsAdd
  rw [if_pos]
  · rfl
  · rw [Rect.emb_apply]
    simp only [Rect.off_unit, Rect.stride_unit, Matrix.cons_val_zero, hx]
    omega

set_option maxHeartbeats 4000000 in
theorem row_trip (k : Fin k3_t2_loop.trips)
    (f : Buf (Elt F) ((aV).view.loc (V d (cV L) (jV L)))) (g : Buf (Elt F) ((bV).view.loc (V d (cV L) (jV L)))) :
    (iprop(((aV).view.loc (V d (cV L) (jV L)) ↦{fullShare} f) ∗ ((bV).view.loc (V d (cV L) (jV L)) ↦{fullShare} g)) : sProp 𝕄)
      ⊢ wp frame (wpE (defs₀ (F := F)) 𝒱₀ (V d (cV L) (jV L)) none) Set.univ
          (k3_t2_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc3_scratch4 cc3_scratch5 cc3_scoped0 cc3_scoped1 cc3_scoped2 k ⟨⟩)
          fun _ => iprop(((aV).view.loc (V d (cV L) (jV L)) ↦{fullShare} rowsAdd k.val f g) ∗ ((bV).view.loc (V d (cV L) (jV L)) ↦{fullShare} g)) := by
  unfold k3_t2_body
  iintro ⟨Ha, Hb⟩
  sl_exec_parts
  sl_step
  isplitl [Ha]
  swap; · iexact Hb
  iapply (Entails.of_eq (congrArg (fun c => ((aV).view.loc (V d (cV L) (jV L)) ↦{fullShare} c : sProp 𝕄)) ?_)) $$ Ha
  sl_unfold_run_names
  have h0 : 0 < 4 := by decide
  have h1 : 1 < 4 := by decide
  have h2 : 2 < 4 := by decide
  have h3 : 3 < 4 := by decide
  have o2 : ∀ n (h : n < 4), k3_off2 k (BitVec.ofNat 32 n) = ![4 * k.val + n, 0] := fun n h => k3_off2_eq k ⟨n, h⟩
  have o3 : ∀ n (h : n < 4), k3_off3 k (BitVec.ofNat 32 n) = ![4 * k.val + n, 16] := fun n h => k3_off3_eq k ⟨n, h⟩
  have o4 : ∀ n (h : n < 4), k3_off4 k (BitVec.ofNat 32 n) = ![4 * k.val + n, 32] := fun n h => k3_off4_eq k ⟨n, h⟩
  have o5 : ∀ n (h : n < 4), k3_off5 k (BitVec.ofNat 32 n) = ![4 * k.val + n, 48] := fun n h => k3_off5_eq k ⟨n, h⟩
  have o6 : ∀ n (h : n < 4), k3_off6 k (BitVec.ofNat 32 n) = ![4 * k.val + n, 64] := fun n h => k3_off6_eq k ⟨n, h⟩
  have o7 : ∀ n (h : n < 4), k3_off7 k (BitVec.ofNat 32 n) = ![4 * k.val + n, 80] := fun n h => k3_off7_eq k ⟨n, h⟩
  have o8 : ∀ n (h : n < 4), k3_off8 k (BitVec.ofNat 32 n) = ![4 * k.val + n, 96] := fun n h => k3_off8_eq k ⟨n, h⟩
  have o9 : ∀ n (h : n < 4), k3_off9 k (BitVec.ofNat 32 n) = ![4 * k.val + n, 112] := fun n h => k3_off9_eq k ⟨n, h⟩
  have key : ∀ Ls : List (View.Piece (Elt F) S400x128 .f32), (∀ p ∈ Ls, ∀ x : p.1.shape.Idx, p.2 x = rowsAdd k.val f g (p.1.emb x)) →
      (∀ y, (∀ p ∈ Ls, y ∉ p.1.set) → f y = rowsAdd k.val f g y) → (aV).view.writes (Elt F) f Ls = rowsAdd k.val f g :=
    fun Ls hp hr => read_writes_eq_of_pieces (aV).view f (rowsAdd k.val f g) Ls hp hr
  refine key _ ?hp ?hr
  case hr =>
    intro y hy
    simp only [List.forall_mem_cons, List.not_mem_nil, false_imp_iff, implies_true, and_true, Rect.mem_set_unit, Fin.forall_fin_two,
      o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3, Matrix.cons_val_zero, Matrix.cons_val_one] at hy
    show f y = rowsAdd k.val f g y
    unfold rowsAdd
    rw [if_neg]
    exact fun hb => Rows.cover32 (y 1).isLt hb hy
  case hp =>
    simp only [List.forall_mem_cons, List.not_mem_nil, false_imp_iff, implies_true, and_true]
    and_intros
    all_goals exact fun x => (laneAdd_apply _ _ x).trans (piece_ok d L k f g _ _
      (by simp only [o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3]; exact ⟨_, by decide, _, rfl⟩) x)

def invRow (fA : Buf (Elt F) ((aV).view.loc (V d (cV L) (jV L)))) (fB : Buf (Elt F) ((bV).view.loc (V d (cV L) (jV L)))) (k : ℕ) (_ : PUnit) : sProp 𝕄 :=
  iprop(((aV).view.loc (V d (cV L) (jV L)) ↦{fullShare} accAt (4 * k) fA fB) ∗ ((bV).view.loc (V d (cV L) (jV L)) ↦{fullShare} fB))

theorem aV_writes_whole (g : Buf (Elt F) ((aV).view.loc (V d (cV L) (jV L)))) (w : S400x128.Idx → Elt F .f32) (x : S400x128.Idx) :
    (aV).view.writes (Elt F) g [⟨Rect.whole S400x128, w⟩] x = w x := by
  have hx : (Rect.whole S400x128).emb x = x := Rect.emb_whole_apply S400x128 x
  have e := View.read_writes_cons_emb (aV).view g (Rect.whole S400x128) w [] x
  first
    | (rw [hx] at e; exact e)
    | exact (congrArg (fun y => (aV).view.writes (Elt F) g [⟨Rect.whole S400x128, w⟩] y) hx).symm.trans e
theorem bV_writes_whole (g : Buf (Elt F) ((bV).view.loc (V d (cV L) (jV L)))) (w : S400x128.Idx → Elt F .f32) (x : S400x128.Idx) :
    (bV).view.writes (Elt F) g [⟨Rect.whole S400x128, w⟩] x = w x := by
  have hx : (Rect.whole S400x128).emb x = x := Rect.emb_whole_apply S400x128 x
  have e := View.read_writes_cons_emb (bV).view g (Rect.whole S400x128) w [] x
  first
    | (rw [hx] at e; exact e)
    | exact (congrArg (fun y => (bV).view.writes (Elt F) g [⟨Rect.whole S400x128, w⟩] y) hx).symm.trans e

theorem out_writes_emb (t : Fin k3_t1_loop.trips) (Wc : (outChunk3 L t).view.ty.Contents (Elt F)) (w : S400x128.Idx → Elt F .f32) (x : S400x128.Idx) :
    (outChunk3 L t).view.writes (Elt F) Wc [⟨Rect.whole S400x128, w⟩] ((outChunk3 L t).view.emb x) = w x := by
  have e1 := View.read_writes_cons_emb (outChunk3 L t).view Wc (Rect.whole S400x128) w [] x
  rw [Rect.emb_whole_apply] at e1
  exact ((View.read_apply _ _).trans (cast_eq _ _)).symm.trans e1

set_option maxHeartbeats 4000000 in
theorem chunk_trip (hpre : PreOK (V0 m d)) (O : CellTallies nD τ sig (HIx 4)) (W' : Waits sig (HIx 4)) (t : Fin k3_t1_loop.trips)
    (q : PosShare TreeShare)
    (f1 : Buf (Elt F) ((l1V).view.loc (V d (cV L) (jV L)))) (f2 : Buf (Elt F) ((l2V).view.loc (V d (cV L) (jV L))))
    (fa : Buf (Elt F) ((aV).view.loc (V d (cV L) (jV L)))) (fb : Buf (Elt F) ((bV).view.loc (V d (cV L) (jV L)))) :
    (iprop(Transfers.MayWaits (V d (cV L) (jV L)) (none : HIx 4) O
        ∗ ((t1V).view.loc (V d (cV L) (jV L)) ↦{q} VA3 (V0 m d) (r main_v193))
        ∗ ((i1V).view.loc (V d (cV L) (jV L)) ↦{q} VA3 (V0 m d) (r main_v21))
        ∗ ((t2V).view.loc (V d (cV L) (jV L)) ↦{q} VA3 (V0 m d) (r main_v206))
        ∗ ((i2V).view.loc (V d (cV L) (jV L)) ↦{q} VA3 (V0 m d) (r main_v47))
        ∗ ((outChunk3 L t).view.loc (V d (cV L) (jV L)) ↦[(outChunk3 L t).view.set]{fullShare} VA3 (V0 m d) (r main_v207))
        ∗ ((l1V).view.loc (V d (cV L) (jV L)) ↦{fullShare} f1) ∗ ((l2V).view.loc (V d (cV L) (jV L)) ↦{fullShare} f2)
        ∗ ((aV).view.loc (V d (cV L) (jV L)) ↦{fullShare} fa) ∗ ((bV).view.loc (V d (cV L) (jV L)) ↦{fullShare} fb)
        ∗ semVal (c4cell d L) 0 ∗ semVal (c5cell d L) 0 ∗ semVal (s0cell d L) 0 ∗ semVal (s1cell d L) 0 ∗ semVal (s2cell d L) 0
        ∗ owes (V d (cV L) (jV L)) O W') : sProp 𝕄)
      ⊢ wp frame (wpE (defs₀ (F := F)) 𝒱₀ (V d (cV L) (jV L)) none) Set.univ
          (k3_t1_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc3_scratch4 cc3_scratch5 cc3_scoped0 cc3_scoped1 cc3_scoped2 t ⟨⟩)
          fun _ => iprop(Transfers.MayWaits (V d (cV L) (jV L)) (none : HIx 4) O
            ∗ ((t1V).view.loc (V d (cV L) (jV L)) ↦{q} VA3 (V0 m d) (r main_v193))
            ∗ ((i1V).view.loc (V d (cV L) (jV L)) ↦{q} VA3 (V0 m d) (r main_v21))
            ∗ ((t2V).view.loc (V d (cV L) (jV L)) ↦{q} VA3 (V0 m d) (r main_v206))
            ∗ ((i2V).view.loc (V d (cV L) (jV L)) ↦{q} VA3 (V0 m d) (r main_v47))
            ∗ ((outChunk3 L t).view.loc (V d (cV L) (jV L)) ↦[(outChunk3 L t).view.set]{fullShare} out3 (V0 m d))
            ∗ (∃ f, (l1V).view.loc (V d (cV L) (jV L)) ↦{fullShare} f) ∗ (∃ f, (l2V).view.loc (V d (cV L) (jV L)) ↦{fullShare} f)
            ∗ (∃ f, (aV).view.loc (V d (cV L) (jV L)) ↦{fullShare} f) ∗ (∃ f, (bV).view.loc (V d (cV L) (jV L)) ↦{fullShare} f)
            ∗ semVal (c4cell d L) 0 ∗ semVal (c5cell d L) 0 ∗ semVal (s0cell d L) 0 ∗ semVal (s1cell d L) 0 ∗ semVal (s2cell d L) 0
            ∗ ∃ W'', ⌜∀ p ∈ W'', p ∈ W' ∨ p.2 = none⌝ ∗ owes (V d (cV L) (jV L)) O W'') := by
  have hin1 : ∀ (g1 : Buf (Elt F) ((l1V).view.loc (V d (cV L) (jV L)))) x,
      ((l1V).view.read (Elt F) (View.write (Elt F) (l1V).view g1 ((idxChunk3_1 L t).view.read (Elt F) (VA3 (V0 m d) (r main_v21))) Finset.univ) x).toNat
        < S10000x128.size gathers_S10000x128_S400x128.axis := by
    intro g1 x
    rw [View.write_whole_univ]
    simp only [Memref.view_whole, View.read_whole]
    rw [show ∀ j, (idxChunk3_1 L t).view.read (Elt F) (VA3 (V0 m d) (r main_v21)) j = VA3 (V0 m d) (r main_v21) ((idxChunk3_1 L t).view.emb j) from fun j => (View.read_apply _ _).trans (cast_eq _ _)]
    exact hpre.h3a _
  have hin2 : ∀ (g2 : Buf (Elt F) ((l2V).view.loc (V d (cV L) (jV L)))) x,
      ((l2V).view.read (Elt F) (View.write (Elt F) (l2V).view g2 ((idxChunk3_2 L t).view.read (Elt F) (VA3 (V0 m d) (r main_v47))) Finset.univ) x).toNat
        < S576x128.size gathers_S576x128_S400x128.axis := by
    intro g2 x
    rw [View.write_whole_univ]
    simp only [Memref.view_whole, View.read_whole]
    rw [show ∀ j, (idxChunk3_2 L t).view.read (Elt F) (VA3 (V0 m d) (r main_v47)) j = VA3 (V0 m d) (r main_v47) ((idxChunk3_2 L t).view.emb j) from fun j => (View.read_apply _ _).trans (cast_eq _ _)]
    exact hpre.h3b _
  unfold k3_t1_body
  iintro ⟨Hmw, Ht1, Hi1, Ht2, Hi2, Ho, Hl1, Hl2, Ha, Hb, Hc4, Hc5, Hs0, Hs1, Hs2, HO⟩
  sl_exec
  sl_unfold_run_names
  generalize hfA : (aV).view.writes (Elt F) (aV).view.junk _ = fA
  generalize hfB : (bV).view.writes (Elt F) (bV).view.junk _ = fB
  sl_for (invRow d L fA fB) $$ [Ha Hb]
  case region =>
    intro k _
    unfold invRow
    rw [← rowsAdd_accAt k.val fA fB]
    exact row_trip d L k _ fB
  · unfold invRow
    rw [accAt_zero]
    isplitl [Ha]
    · iexact Ha
    · iexact Hb
  iintro %_ HI
  unfold invRow
  icases HI with ⟨Ha, Hb⟩
  sl_exec
  sl_step
  iframe Hmw Ht1 Hi1 Ht2 Hi2
  isplitl [Ho]
  · iapply (Entails.of_eq (pointsTo_congr ?hv)) $$ Ho
    case hv =>
      sl_unfold_run_names
      rw [set_outChunk3]
      refine forall_outChunk3 L t (fun a b => ?_)
      beta_reduce
      rw [← emb_outChunk3 L t a b, out_writes_emb, ReadAs.apply_same]
      show accAt (4 * k3_t2_loop.trips) fA fB (ValueIdx.ix2 a b) = _
      rw [show 4 * k3_t2_loop.trips = 400 from by decide, accAt_all]
      have hA := (congrFun hfA (ValueIdx.ix2 a b)).symm.trans (aV_writes_whole d L _ _ (ValueIdx.ix2 a b))
      have hB := (congrFun hfB (ValueIdx.ix2 a b)).symm.trans (bV_writes_whole d L _ _ (ValueIdx.ix2 a b))
      rw [hA, hB]
      exact chunkVal3 L t (V0 m d) _ _ _ _ _ _ _ _ (ValueIdx.ix2 a b)
  isplitl [Hl1]; · iexists _; iexact Hl1
  isplitl [Hl2]; · iexists _; iexact Hl2
  isplitl [Ha]; · iexists _; iexact Ha
  isplitl [Hb]; · iexists _; iexact Hb
  isplitl [Hc4]; · iexact Hc4
  isplitl [Hc5]; · iexact Hc5
  isplitl [Hs0]; · iexact Hs0
  isplitl [Hs1]; · iexact Hs1
  isplitl [Hs2]; · iexact Hs2
  iexists _; isplitr
  swap; · iexact HO
  ipureintro; intro p hp
  iterate 5 (rcases Finset.mem_insert.mp hp with hp | hp; · exact .inr (hp ▸ rfl))
  exact .inl hp

def invChunk (O : CellTallies nD τ sig (HIx 4)) (W : Waits sig (HIx 4)) (q : PosShare TreeShare) (k : ℕ) (_ : PUnit) : sProp 𝕄 :=
  iprop(Transfers.MayWaits (V d (cV L) (jV L)) (none : HIx 4) O
    ∗ ((t1V).view.loc (V d (cV L) (jV L)) ↦{q} VA3 (V0 m d) (r main_v193))
    ∗ ((i1V).view.loc (V d (cV L) (jV L)) ↦{q} VA3 (V0 m d) (r main_v21))
    ∗ ((t2V).view.loc (V d (cV L) (jV L)) ↦{q} VA3 (V0 m d) (r main_v206))
    ∗ ((i2V).view.loc (V d (cV L) (jV L)) ↦{q} VA3 (V0 m d) (r main_v47))
    ∗ (bigSep (Finset.univ : Finset (Fin 25)) fun t' => tLoc d main_v207 ↦[part1N (partNo L t'.val)]{fullShare}
        (if t'.val < k then out3 (V0 m d) else VA3 (V0 m d) (r main_v207)))
    ∗ (∃ f, (l1V).view.loc (V d (cV L) (jV L)) ↦{fullShare} f) ∗ (∃ f, (l2V).view.loc (V d (cV L) (jV L)) ↦{fullShare} f)
    ∗ (∃ f, (aV).view.loc (V d (cV L) (jV L)) ↦{fullShare} f) ∗ (∃ f, (bV).view.loc (V d (cV L) (jV L)) ↦{fullShare} f)
    ∗ semVal (c4cell d L) 0 ∗ semVal (c5cell d L) 0 ∗ semVal (s0cell d L) 0 ∗ semVal (s1cell d L) 0 ∗ semVal (s2cell d L) 0
    ∗ ∃ W', ⌜∀ p ∈ W', p ∈ W ∨ p.2 = none⌝ ∗ owes (V d (cV L) (jV L)) O W')

set_option maxHeartbeats 4000000 in
theorem tile_body3 (hpre : PreOK (V0 m d)) (O : CellTallies nD τ sig (HIx 4)) (W : Waits sig (HIx 4)) (hO : ∀ g, O g none = 0) :
    iprop(levAts (K (F := F)).L (K (F := F)).lev ∗ emp
        ∗ (ins d main_v193 main_v21 main_v206 main_v47 (VA3 (V0 m d)) (tileShare (L 0).val (L 1).val) ∗ outs3 d (L 0).val (L 1).val (VA3 (V0 m d) (r main_v207)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_k L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc3_scratch4 cc3_scratch5 cc3_scoped0 cc3_scoped1 cc3_scoped2)
          fun _ => iprop((ins d main_v193 main_v21 main_v206 main_v47 (VA3 (V0 m d)) (tileShare (L 0).val (L 1).val) ∗ outs3 d (L 0).val (L 1).val (out3 (V0 m d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3_k_eq_skeleton]; unfold cc3_k_skel
  rw [(K (F := F)).scopedBufs_V facts d (cV L) (jV L), SparseCore.Cfg.scopedSems0_V (Val := Elt F) d (cV L) (jV L), ownSems0_V, ownBufs_V]
  unfold ins outs3
  iintro ⟨#Hlv, -, ⟨⟨Ht1, Hi1, Ht2, Hi2⟩, Hout⟩, ⟨⟨%f1, Hl1⟩, ⟨%f2, Hl2⟩, ⟨%fa, Ha⟩, ⟨%fb, Hb⟩, Hbufs⟩, ⟨Hc4, Hc5, Hs0, Hs1, Hs2, Hsems⟩, HO⟩
  ihave Hmw := (show levAts (K (F := F)).L (K (F := F)).lev ⊢ Transfers.MayWaits (V d (cV L) (jV L)) (none : HIx 4) O from
    (K (F := F)).mayWaits_none (thr := V d (cV L) (jV L)) hO) $$ Hlv
  sl_for (invChunk m d L O W (tileShare (L 0).val (L 1).val)) $$ [Hmw Ht1 Hi1 Ht2 Hi2 Hout Hl1 Hl2 Ha Hb Hc4 Hc5 Hs0 Hs1 Hs2 HO]
  case region =>
    intro k _
    unfold invChunk
    iintro ⟨Hmw, Ht1, Hi1, Ht2, Hi2, Hout, ⟨%f1, Hl1⟩, ⟨%f2, Hl2⟩, ⟨%fa, Ha⟩, ⟨%fb, Hb⟩, Hc4, Hc5, Hs0, Hs1, Hs2, %W', %hW', HO⟩
    have hk25 : k.val < 25 := k3_t_lt k
    ihave Hout' := (Transfers.bigSep_univ_out (⟨k.val, hk25⟩ : Fin 25) _) $$ Hout
    icases Hout' with ⟨Hk, Hrest⟩
    have ek : (tLoc d main_v207 ↦[part1N (partNo L k.val)]{fullShare} (if k.val < k.val then out3 (V0 m d) else VA3 (V0 m d) (r main_v207)) : sProp 𝕄)
        = ((outChunk3 L k).view.loc (V d (cV L) (jV L)) ↦[(outChunk3 L k).view.set]{fullShare} VA3 (V0 m d) (r main_v207)) := by
      rw [if_neg (lt_irrefl _), pts_outChunk]
    have ek' : ((outChunk3 L k).view.loc (V d (cV L) (jV L)) ↦[(outChunk3 L k).view.set]{fullShare} out3 (V0 m d) : sProp 𝕄)
        = (tLoc d main_v207 ↦[part1N (partNo L k.val)]{fullShare} (if k.val < k.val + 1 then out3 (V0 m d) else VA3 (V0 m d) (r main_v207))) := by
      rw [if_pos (Nat.lt_succ_self _), pts_outChunk]
    have erest : (bigSep ((Finset.univ : Finset (Fin 25)).erase ⟨k.val, hk25⟩) fun t' => (tLoc d main_v207 ↦[part1N (partNo L t'.val)]{fullShare}
          (if t'.val < k.val then out3 (V0 m d) else VA3 (V0 m d) (r main_v207)) : sProp 𝕄))
        = bigSep ((Finset.univ : Finset (Fin 25)).erase ⟨k.val, hk25⟩) fun t' => (tLoc d main_v207 ↦[part1N (partNo L t'.val)]{fullShare}
          (if t'.val < k.val + 1 then out3 (V0 m d) else VA3 (V0 m d) (r main_v207)) : sProp 𝕄) := by
      refine bigSep_congr fun t' ht' => ?_
      have hne : t'.val ≠ k.val := fun e => (Finset.mem_erase.mp ht').1 (Fin.ext e)
      by_cases h : t'.val < k.val
      · rw [if_pos h, if_pos (by omega)]
      · rw [if_neg h, if_neg (by omega)]
    ihave Hk := (Entails.of_eq ek) $$ Hk
    ihave Hrest := (Entails.of_eq erest) $$ Hrest
    iapply (wp_wand_r frame _ _)
    isplitl [Hmw Ht1 Hi1 Ht2 Hi2 Hk Hl1 Hl2 Ha Hb Hc4 Hc5 Hs0 Hs1 Hs2 HO]
    · iapply (chunk_trip m d L hpre O W' k (tileShare (L 0).val (L 1).val) f1 f2 fa fb)
      iframe Hmw Ht1 Hi1 Ht2 Hi2 Hk Hl1 Hl2 Ha Hb Hc4 Hc5 Hs0 Hs1 Hs2 HO
    · iintro %_ ⟨Hmw, Ht1, Hi1, Ht2, Hi2, Hk, Hl1, Hl2, Ha, Hb, Hc4, Hc5, Hs0, Hs1, Hs2, %W'', %hW'', HO⟩
      iframe Hmw Ht1 Hi1 Ht2 Hi2
      isplitl [Hk Hrest]
      · iapply (Transfers.bigSep_univ_in (⟨k.val, hk25⟩ : Fin 25) _)
        isplitl [Hk]
        · iapply (Entails.of_eq ek'); iexact Hk
        · iexact Hrest
      iframe Hl1 Hl2 Ha Hb Hc4 Hc5 Hs0 Hs1 Hs2
      iexists W''; isplitr
      · ipureintro; intro p hp
        rcases hW'' p hp with h | h
        · exact hW' p h
        · exact .inr h
      · iexact HO
  · unfold invChunk
    iframe Hmw Ht1 Hi1 Ht2 Hi2
    isplitl [Hout]
    · simp only [Nat.not_lt_zero, ↓reduceIte]; iexact Hout
    isplitl [Hl1]; · iexists _; iexact Hl1
    isplitl [Hl2]; · iexists _; iexact Hl2
    isplitl [Ha]; · iexists _; iexact Ha
    isplitl [Hb]; · iexists _; iexact Hb
    iframe Hc4 Hc5 Hs0 Hs1 Hs2
    iexists W; isplitr
    · ipureintro; exact fun p hp => .inl hp
    · iexact HO
  iintro %_ HI
  unfold invChunk
  icases HI with ⟨-, Ht1, Hi1, Ht2, Hi2, Hout, Hl1, Hl2, Ha, Hb, Hc4, Hc5, Hs0, Hs1, Hs2, %W', %hW', HO⟩
  sl_step
  have eout : (bigSep (Finset.univ : Finset (Fin 25)) fun t' => (tLoc d main_v207 ↦[part1N (partNo L t'.val)]{fullShare}
        (if t'.val < Scf.trips k3_t1_loop.lb k3_t1_loop.ub k3_t1_loop.st then out3 (V0 m d) else VA3 (V0 m d) (r main_v207)) : sProp 𝕄))
      = bigSep (Finset.univ : Finset (Fin 25)) fun t' => (tLoc d main_v207 ↦[part1N (50 * (L 1).val + 25 * (L 0).val + t'.val)]{fullShare} out3 (V0 m d) : sProp 𝕄) := by
    refine bigSep_congr fun t' _ => ?_
    rw [if_pos (show t'.val < Scf.trips k3_t1_loop.lb k3_t1_loop.ub k3_t1_loop.st from (lt_of_lt_of_eq t'.isLt k3_trips.symm : t'.val < k3_t1_loop.trips))]
  isplitl [Ht1 Hi1 Ht2 Hi2 Hout]
  · isplitl [Ht1 Hi1 Ht2 Hi2]
    · iframe Ht1 Hi1 Ht2 Hi2
    · iapply (Entails.of_eq eout); iexact Hout
  isplitl [Hl1 Hl2 Ha Hb Hbufs]
  · iframe Hl1 Hl2 Ha Hb Hbufs
  isplitl [Hc4 Hc5 Hs0 Hs1 Hs2 Hsems]
  · iframe Hc4 Hc5 Hs0 Hs1 Hs2 Hsems
  iexists W'; isplitr
  · ipureintro; exact hW'
  · iexact HO

end Tile

def coordsV (c : Fin (grid3.bound 0)) (s : Fin (grid3.bound 1)) : grid3.Coords :=
  fun | 0 => c | 1 => s | ⟨_ + 2, h⟩ => absurd h (Nat.not_lt.2 (Nat.le_add_left _ _))

abbrev callQ : Fin 4 := 3

theorem defs₀_vector (c : Fin τ.nSC) (s : Fin τ.nSub) :
    defs₀ (F := F) (.scVector c s) callQ ()
      = SparseCore.onTile hcore3 hsub3 (fun c s => cc3_k (coordsV c s) t1V (Memref.isWhole_whole _) i1V (Memref.isWhole_whole _) t2V (Memref.isWhole_whole _)
          i2V (Memref.isWhole_whole _) oV (Memref.isWhole_whole _) l1V (Memref.isWhole_whole _) l2V (Memref.isWhole_whole _) aV (Memref.isWhole_whole _)
          bV (Memref.isWhole_whole _) cc3_scratch4 cc3_scratch5 cc3_scoped0 cc3_scoped1 cc3_scoped2) ⟨⟩ c s := rfl

theorem tileObl (hpre : ∀ d, PreOK (V0 m d)) : (K (F := F)).TileObl (D (F := F)) 𝒱 (P m) v₀ callQ := by
  intro d c i O W hO _ _
  simp only [show (P m).ox = fun _ _ => 0 from rfl, add_zero]
  change _ ⊢ wp _ _ _ (Pipeline.liftProg (defs₀ (F := F) (.scVector ((K (F := F)).core callQ c) ((K (F := F)).sub callQ i)) callQ ())) _
  refine BI.Entails.trans ?_ (Pipeline.wp_liftProg (D (F := F)) (Pipeline.defs_kernel pcfgs defs₀) 𝒱₀ _ Set.univ none _ _)
  have hc : ((K (F := F)).core callQ c).val < grid3.bound 0 ∧ ((K (F := F)).sub callQ i).val < grid3.bound 1 := ⟨c.isLt, i.isLt⟩
  rw [defs₀_vector]; simp only [SparseCore.onTile, hc, and_self, ↓reduceDIte]
  exact (tile_body3 m d (coordsV ⟨_, hc.1⟩ ⟨_, hc.2⟩) (hpre d) O W hO).trans (wp_mono frame _ _ fun _ => obl_post)

end cc3_tile

theorem tileObl3 (hpre : ∀ d, PreOK (V0 m d)) : (K (F := F)).TileObl (D (F := F)) 𝒱 (P m) v₀ 3 := cc3_tile.tileObl m hpre

end Cert.KernelIdeal.Hand

end
-- ==== Proof.KI.Main.lean ====
import proofs.«208129_g65403761983635_cont_9to1_m_1354_7_alg».proof.Proof.KI.Base
import proofs.«208129_g65403761983635_cont_9to1_m_1354_7_alg».proof.Proof.KI.Split

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

open Idealize.ShloMosaic.StableHlo (tcRefs nullary_bufs_sub unary_bufs_sub binary_bufs_sub ternary_bufs_sub reshape_bufs_sub)

theorem sub0 : (opsA0 (F := F)).Forall fun op => op.bufs ⊆ tcRefs τ sig := by
  simp only [List.Forall, nullary_bufs_sub, unary_bufs_sub, binary_bufs_sub, ternary_bufs_sub, reshape_bufs_sub, and_self]
theorem sub1 : (opsA1 (F := F)).Forall fun op => op.bufs ⊆ tcRefs τ sig := by
  simp only [List.Forall, nullary_bufs_sub, unary_bufs_sub, binary_bufs_sub, ternary_bufs_sub, reshape_bufs_sub, and_self]
theorem sub2 : (opsA2 (F := F)).Forall fun op => op.bufs ⊆ tcRefs τ sig := by
  simp only [List.Forall, nullary_bufs_sub, unary_bufs_sub, binary_bufs_sub, ternary_bufs_sub, reshape_bufs_sub, and_self]
theorem sub3 : (opsA3 (F := F)).Forall fun op => op.bufs ⊆ tcRefs τ sig := by
  simp only [List.Forall, nullary_bufs_sub, unary_bufs_sub, binary_bufs_sub, ternary_bufs_sub, reshape_bufs_sub, and_self]
theorem sub4 : (opsA4 (F := F)).Forall fun op => op.bufs ⊆ tcRefs τ sig := by
  simp only [List.Forall, nullary_bufs_sub, unary_bufs_sub, binary_bufs_sub, ternary_bufs_sub, reshape_bufs_sub, and_self]

theorem fresh0 : (opsA0 (F := F)).Forall fun op => op.fresh = ∅ := by simp only [List.Forall]; repeat' constructor
theorem fresh1 : (opsA1 (F := F)).Forall fun op => op.fresh = ∅ := by simp only [List.Forall]; repeat' constructor
theorem fresh2 : (opsA2 (F := F)).Forall fun op => op.fresh = ∅ := by simp only [List.Forall]; repeat' constructor
theorem fresh3 : (opsA3 (F := F)).Forall fun op => op.fresh = ∅ := by simp only [List.Forall]; repeat' constructor
theorem fresh4 : (opsA4 (F := F)).Forall fun op => op.fresh = ∅ := by simp only [List.Forall]; repeat' constructor

theorem tc_unscoped : ∀ b : Ref sig .tc, b.isScoped = false := by
  rintro ⟨sp, i, h⟩; cases sp <;> first | rfl | exact i.elim0

theorem tcRes_held (d : Dev nD) :
    (unscopedBufs d (fun b => m ((SparseCore.T d).loc b)) : sProp 𝕄) = held (SparseCore.T d) (tcRefs τ sig) (V0 m d) := by
  unfold unscopedBufs held tcRefs
  rw [Finset.filter_true_of_mem (fun b _ => by rw [tc_unscoped b]; exact Bool.false_ne_true), bigSep_map]
  rfl

abbrev S5 (t1 i1 t2 i2 o : Ref sig .tc) : Finset (DevRef τ sig) := {r t1, r i1, r t2, r i2, r o}

theorem S5_sub (t1 i1 t2 i2 o : Ref sig .tc) : S5 t1 i1 t2 i2 o ⊆ tcRefs τ sig := fun b hb => by
  simp only [S5, Finset.mem_insert, Finset.mem_singleton] at hb
  rcases hb with rfl | rfl | rfl | rfl | rfl <;> exact StableHlo.devRef_mem_tcRefs _

omit [FloatOps F] in

theorem held_five (d : Dev nD) (W : Valuation τ sig (Elt F)) (t1 i1 t2 i2 o : Ref sig .tc)
    (h1 : r t1 ∉ ({r i1, r t2, r i2, r o} : Finset (DevRef τ sig))) (h2 : r i1 ∉ ({r t2, r i2, r o} : Finset (DevRef τ sig)))
    (h3 : r t2 ∉ ({r i2, r o} : Finset (DevRef τ sig))) (h4 : r i2 ∉ ({r o} : Finset (DevRef τ sig))) :
    (held (SparseCore.T d) (tcRefs τ sig) W : sProp 𝕄)
      = iprop(((tLoc d t1 ↦{fullShare} W (r t1)) ∗ (tLoc d i1 ↦{fullShare} W (r i1)) ∗ (tLoc d t2 ↦{fullShare} W (r t2))
          ∗ (tLoc d i2 ↦{fullShare} W (r i2)) ∗ tLoc d o ↦{fullShare} W (r o)) ∗ held (SparseCore.T d) (tcRefs τ sig \ S5 t1 i1 t2 i2 o) W) := by
  rw [StableHlo.held_sub_split (SparseCore.T d) (S5_sub t1 i1 t2 i2 o) W]
  congr 1
  unfold held S5
  rw [SparseCore.bigSep_insert' h1, SparseCore.bigSep_insert' h2, SparseCore.bigSep_insert' h3, SparseCore.bigSep_insert' h4, bigSep_singleton]

omit [FloatOps F] in

theorem held_five_upd (d : Dev nD) (W : Valuation τ sig (Elt F)) (t1 i1 t2 i2 o : Ref sig .tc) (f : Buf (Elt F) (tLoc d o))
    (h1 : r t1 ∉ ({r i1, r t2, r i2, r o} : Finset (DevRef τ sig))) (h2 : r i1 ∉ ({r t2, r i2, r o} : Finset (DevRef τ sig)))
    (h3 : r t2 ∉ ({r i2, r o} : Finset (DevRef τ sig))) (h4 : r i2 ∉ ({r o} : Finset (DevRef τ sig))) :
    (held (SparseCore.T d) (tcRefs τ sig) (Function.update W (r o) f) : sProp 𝕄)
      = iprop(((tLoc d t1 ↦{fullShare} W (r t1)) ∗ (tLoc d i1 ↦{fullShare} W (r i1)) ∗ (tLoc d t2 ↦{fullShare} W (r t2))
          ∗ (tLoc d i2 ↦{fullShare} W (r i2)) ∗ tLoc d o ↦{fullShare} f) ∗ held (SparseCore.T d) (tcRefs τ sig \ S5 t1 i1 t2 i2 o) W) := by
  have e1 : r t1 ≠ r o := fun e => h1 (by rw [e]; simp)
  have e2 : r i1 ≠ r o := fun e => h2 (by rw [e]; simp)
  have e3 : r t2 ≠ r o := fun e => h3 (by rw [e]; simp)
  have e4 : r i2 ≠ r o := fun e => h4 (by rw [e]; simp)
  rw [held_five d (Function.update W (r o) f) t1 i1 t2 i2 o h1 h2 h3 h4,
    Function.update_of_ne e1, Function.update_of_ne e2, Function.update_of_ne e3, Function.update_of_ne e4, Function.update_self]
  congr 1
  exact StableHlo.held_congr (SparseCore.T d) fun b hb => Function.update_of_ne (fun e => (Finset.mem_sdiff.mp hb).2 (by rw [e]; simp [S5])) _ _

theorem wp_call (κ : GSem nD τ sig → ℕ) (d : Dev nD) (q : Fin 4) (t1 i1 t2 i2 o : Ref sig .tc) (W : Valuation τ sig (Elt F)) (f : Buf (Elt F) (tLoc d o))
    (h1 : r t1 ∉ ({r i1, r t2, r i2, r o} : Finset (DevRef τ sig))) (h2 : r i1 ∉ ({r t2, r i2, r o} : Finset (DevRef τ sig)))
    (h3 : r t2 ∉ ({r i2, r o} : Finset (DevRef τ sig))) (h4 : r i2 ∉ ({r o} : Finset (DevRef τ sig)))
    (hst : iprop(ins d t1 i1 t2 i2 W fullShare ∗ tLoc d o ↦{fullShare} W (r o))
      ⊢ (bigSep Finset.univ fun c : Fin ((K (F := F)).nCore q) => (P m).st q d c : sProp 𝕄))
    (hdn : (bigSep Finset.univ fun c : Fin ((K (F := F)).nCore q) => (P m).dn q d c : sProp 𝕄)
      ⊢ iprop(ins d t1 i1 t2 i2 W fullShare ∗ tLoc d o ↦{fullShare} f))
    {β : Type} (k : PUnit → Prog (TpuEff nD τ sig (Elt F) (SparseCore.Sig (ΛP (F := F)) 4) .tc) β) (Φ : β → sProp 𝕄) :
    iprop((K (F := F)).ctx EH (P m) κ ∗ (K (F := F)).tcSt EH d q.val ∗ held (SparseCore.T d) (tcRefs τ sig) W
        ∗ (((K (F := F)).tcSt EH d (q.val + 1) ∗ held (SparseCore.T d) (tcRefs τ sig) (Function.update W (r o) f))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d q >>= k) Φ := by
  rw [wp_bind, held_five d W t1 i1 t2 i2 o h1 h2 h3 h4, held_five_upd d W t1 i1 t2 i2 o f h1 h2 h3 h4]
  iintro ⟨#Hctx, Hst, ⟨⟨H1, H2, H3, H4, H5⟩, Hrest⟩, Hk⟩
  iapply ((K (F := F)).wp_run (D (F := F)) 𝒱 (EH := EH) (P := P m) κ d q) $$ [Hst H1 H2 H3 H4 H5 Hrest Hk]
  isplitr; · iexact Hctx
  isplitl [Hst]; · iexact Hst
  isplitl [H1 H2 H3 H4 H5]
  · iapply hst
    unfold ins
    isplitr [H5]
    · isplitl [H1]; · iexact H1
      isplitl [H2]; · iexact H2
      isplitl [H3]; · iexact H3
      iexact H4
    · iexact H5
  iintro ⟨Hst, Hdn⟩
  ihave Hpay := hdn $$ Hdn
  unfold ins
  icases Hpay with ⟨⟨H1, H2, H3, H4⟩, H5⟩
  iapply Hk
  isplitl [Hst]; · iexact Hst
  isplitr [Hrest]
  · isplitl [H1]; · iexact H1
    isplitl [H2]; · iexact H2
    isplitl [H3]; · iexact H3
    isplitl [H4]; · iexact H4
    iexact H5
  · iexact Hrest

set_option maxRecDepth 8192 in

theorem part0_eq (d : Dev nD) : main_part0 (F := F) d
    = (StableHlo.seq (opsA0 (F := F)) >>= fun _ => (sc (F := F)).run d 0 >>= fun _ => StableHlo.seq ((opsA1 (F := F)).take 67)) := by
  simp only [main_part0, fn_argsort.body, fn_floor_divide.body, fn_where.body, bind_assoc, pure_bind]
  rfl

set_option maxRecDepth 8192 in

theorem part1_eq (d : Dev nD) : main_part1 (F := F) d
    = (StableHlo.seq ((opsA1 (F := F)).drop 67) >>= fun _ => (sc (F := F)).run d 1 >>= fun _ => StableHlo.seq ((opsA2 (F := F)).take 68)) := by
  simp only [main_part1, fn_var.body, fn_where_0.body, bind_assoc, pure_bind]
  rfl

set_option maxRecDepth 8192 in

theorem part2_eq (d : Dev nD) : main_part2 (F := F) d
    = (StableHlo.seq ((opsA2 (F := F)).drop 68) >>= fun _ => (sc (F := F)).run d 2 >>= fun _ => StableHlo.seq ((opsA3 (F := F)).take 27)) := rfl

set_option maxRecDepth 8192 in

theorem part3_eq (d : Dev nD) : main_part3 (F := F) d
    = (StableHlo.seq ((opsA3 (F := F)).drop 27) >>= fun _ => (sc (F := F)).run d 3 >>= fun _ => StableHlo.seq ((opsA4 (F := F)).take 7)) := by
  simp only [main_part3, fn_var.body, fn_where_0.body, bind_assoc, pure_bind]
  rfl

set_option maxRecDepth 8192 in

theorem part4_eq (d : Dev nD) : main_part4 (F := F) d = StableHlo.seq (((opsA4 (F := F)).drop 7).take 81) := by
  simp only [main_part4, fn_var.body, fn_where_0.body, bind_assoc, pure_bind]
  rfl

set_option maxRecDepth 8192 in

theorem part5_eq (d : Dev nD) : main_part5 (F := F) d = StableHlo.seq ((opsA4 (F := F)).drop 88) := rfl

theorem main_eq (d : Dev nD) : main (F := F) d
    = (StableHlo.seq (opsA0 (F := F)) >>= fun _ => (sc (F := F)).run d 0 >>= fun _ =>
       StableHlo.seq (opsA1 (F := F)) >>= fun _ => (sc (F := F)).run d 1 >>= fun _ =>
       StableHlo.seq (opsA2 (F := F)) >>= fun _ => (sc (F := F)).run d 2 >>= fun _ =>
       StableHlo.seq (opsA3 (F := F)) >>= fun _ => (sc (F := F)).run d 3 >>= fun _ =>
       StableHlo.seq (opsA4 (F := F)) >>= fun _ => pure ⟨⟩) := by
  have h1 : (StableHlo.seq (opsA1 (F := F)) : Prog (TpuEff nD τ sig (Elt F) (SparseCore.Sig (ΛP (F := F)) 4) .tc) PUnit)
      = (StableHlo.seq ((opsA1 (F := F)).take 67) >>= fun _ => StableHlo.seq ((opsA1 (F := F)).drop 67)) := by
    rw [← StableHlo.seq_append, List.take_append_drop]
  have h2 : (StableHlo.seq (opsA2 (F := F)) : Prog (TpuEff nD τ sig (Elt F) (SparseCore.Sig (ΛP (F := F)) 4) .tc) PUnit)
      = (StableHlo.seq ((opsA2 (F := F)).take 68) >>= fun _ => StableHlo.seq ((opsA2 (F := F)).drop 68)) := by
    rw [← StableHlo.seq_append, List.take_append_drop]
  have h3 : (StableHlo.seq (opsA3 (F := F)) : Prog (TpuEff nD τ sig (Elt F) (SparseCore.Sig (ΛP (F := F)) 4) .tc) PUnit)
      = (StableHlo.seq ((opsA3 (F := F)).take 27) >>= fun _ => StableHlo.seq ((opsA3 (F := F)).drop 27)) := by
    rw [← StableHlo.seq_append, List.take_append_drop]
  have h4 : (StableHlo.seq (opsA4 (F := F)) : Prog (TpuEff nD τ sig (Elt F) (SparseCore.Sig (ΛP (F := F)) 4) .tc) PUnit)
      = (StableHlo.seq ((opsA4 (F := F)).take 7) >>= fun _ => StableHlo.seq (((opsA4 (F := F)).drop 7).take 81)
          >>= fun _ => StableHlo.seq ((opsA4 (F := F)).drop 88)) := by
    rw [← StableHlo.seq_append, ← StableHlo.seq_append,
      show (opsA4 (F := F)).drop 88 = ((opsA4 (F := F)).drop 7).drop 81 from by rw [List.drop_drop], List.take_append_drop, List.take_append_drop]
  rw [show main (F := F) d = (main_part0 d >>= fun _ => main_part1 d >>= fun _ => main_part2 d >>= fun _ => main_part3 d >>= fun _ =>
      main_part4 d >>= fun _ => main_part5 d) from rfl,
    part0_eq, part1_eq, part2_eq, part3_eq, part4_eq, part5_eq, h1, h2, h3, h4]
  simp only [bind_assoc, bind_pure_unit]

def FIN (d : Dev nD) : sProp 𝕄 := held (SparseCore.T d) (StableHlo.tcRefs τ sig) (VA4 (V0 m d))

set_option backward.isDefEq.respectTransparency.types false in

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 4 ∗ FIN m d) := by
  unfold SparseCore.Cfg.tcRes FIN VA4
  rw [tcRes_held, main_eq]
  iintro ⟨#Hctx, Hst, ⟨Hb, Hheld, -, -⟩, -⟩

  iapply (StableHlo.wp_seq 𝒱 none Set.univ d (tcRefs τ sig) _ opsA0 (List.forall_iff_forall_mem.1 sub0) (List.forall_iff_forall_mem.1 fresh0) (V0 m d)) $$ [Hb Hheld]
  · isplitl [Hb]; · iexact Hb
    iexact Hheld
  iintro ⟨Hb, Hheld⟩
  iapply (wp_call m κ d 0 main_arg3 main_v3 main_arg4 main_v7 main_v8 (VA0 (V0 m d)) (out0 (V0 m d)) (by decide) (by decide) (by decide) (by decide)
    (st_intro0 m d) (dn_elim0 m d)) $$ [Hst Hheld Hb]
  isplitr; · iexact Hctx
  isplitl [Hst]; · iexact Hst
  isplitl [Hheld]; · iexact Hheld
  iintro ⟨Hst, Hheld⟩

  iapply (StableHlo.wp_seq 𝒱 none Set.univ d (tcRefs τ sig) _ opsA1 (List.forall_iff_forall_mem.1 sub1) (List.forall_iff_forall_mem.1 fresh1) (VB0 (V0 m d))) $$ [Hb Hheld]
  · isplitl [Hb]; · iexact Hb
    iexact Hheld
  iintro ⟨Hb, Hheld⟩
  iapply (wp_call m κ d 1 main_v9 main_v21 main_v60 main_v47 main_v61 (VA1 (V0 m d)) (out1 (V0 m d)) (by decide) (by decide) (by decide) (by decide)
    (st_intro1 m d) (dn_elim1 m d)) $$ [Hst Hheld Hb]
  isplitr; · iexact Hctx
  isplitl [Hst]; · iexact Hst
  isplitl [Hheld]; · iexact Hheld
  iintro ⟨Hst, Hheld⟩

  iapply (StableHlo.wp_seq 𝒱 none Set.univ d (tcRefs τ sig) _ opsA2 (List.forall_iff_forall_mem.1 sub2) (List.forall_iff_forall_mem.1 fresh2) (VB1 (V0 m d))) $$ [Hb Hheld]
  · isplitl [Hb]; · iexact Hb
    iexact Hheld
  iintro ⟨Hb, Hheld⟩
  iapply (wp_call m κ d 2 main_v120 main_v21 main_v133 main_v47 main_v134 (VA2 (V0 m d)) (out2 (V0 m d)) (by decide) (by decide) (by decide) (by decide)
    (st_intro2 m d) (dn_elim2 m d)) $$ [Hst Hheld Hb]
  isplitr; · iexact Hctx
  isplitl [Hst]; · iexact Hst
  isplitl [Hheld]; · iexact Hheld
  iintro ⟨Hst, Hheld⟩

  iapply (StableHlo.wp_seq 𝒱 none Set.univ d (tcRefs τ sig) _ opsA3 (List.forall_iff_forall_mem.1 sub3) (List.forall_iff_forall_mem.1 fresh3) (VB2 (V0 m d))) $$ [Hb Hheld]
  · isplitl [Hb]; · iexact Hb
    iexact Hheld
  iintro ⟨Hb, Hheld⟩
  iapply (wp_call m κ d 3 main_v193 main_v21 main_v206 main_v47 main_v207 (VA3 (V0 m d)) (out3 (V0 m d)) (by decide) (by decide) (by decide) (by decide)
    (st_intro3 m d) (dn_elim3 m d)) $$ [Hst Hheld Hb]
  isplitr; · iexact Hctx
  isplitl [Hst]; · iexact Hst
  isplitl [Hheld]; · iexact Hheld
  iintro ⟨Hst, Hheld⟩

  iapply (StableHlo.wp_seq 𝒱 none Set.univ d (tcRefs τ sig) _ opsA4 (List.forall_iff_forall_mem.1 sub4) (List.forall_iff_forall_mem.1 fresh4) (VB3 (V0 m d))) $$ [Hb Hheld]
  · isplitl [Hb]; · iexact Hb
    iexact Hheld
  iintro ⟨-, Hheld⟩
  rw [wp_pure]; imodintro
  isplitl [Hst]; · iexact Hst
  iexact Hheld

def fq (d : Dev nD) (s' : Phys nD τ sig (Elt F)) : Prop := ∀ b : Ref sig .tc, s'.mem.mem (tLoc d b) = VA4 (V0 m d) (r b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

end Cert.KernelIdeal.Hand

end
-- ==== Proof.KI.Run.lean ====
import proofs.«208129_g65403761983635_cont_9to1_m_1354_7_alg».proof.Proof.KI.Base
import proofs.«208129_g65403761983635_cont_9to1_m_1354_7_alg».proof.Proof.KI.Split
import proofs.«208129_g65403761983635_cont_9to1_m_1354_7_alg».proof.Proof.KI.Tile0
import proofs.«208129_g65403761983635_cont_9to1_m_1354_7_alg».proof.Proof.KI.Tile1
import proofs.«208129_g65403761983635_cont_9to1_m_1354_7_alg».proof.Proof.KI.Tile2
import proofs.«208129_g65403761983635_cont_9to1_m_1354_7_alg».proof.Proof.KI.Tile3
import proofs.«208129_g65403761983635_cont_9to1_m_1354_7_alg».proof.Proof.KI.Main

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 4 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

def QC : PUnit × MemSt nD τ sig (Elt F) → Prop := fun rr => ∀ (c : Dev nD) (b : Ref sig .tc), rr.2.mem (tLoc c b) = VA4 (V0 m c) (r b)

theorem run_main [∀ e, Nonempty (Elt F e)] (hpre : ∀ d, PreOK (V0 m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq | 2 => nomatch hq | 3 => nomatch hq)
    (fun q _ => match q with | 0 => tileObl0 m hpre | 1 => tileObl1 m hpre | 2 => tileObl2 m hpre | 3 => tileObl3 m hpre)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h => h)

end Cert.KernelIdeal.Hand

end
-- ==== Proof.KI.PreOK.lean ====
import proofs.«208129_g65403761983635_cont_9to1_m_1354_7_alg».proof.Proof.KI.Base
import proofs.«208129_g65403761983635_cont_9to1_m_1354_7_alg».proof.Pre_input_domain
import proofs.«208129_g65403761983635_cont_9to1_m_1354_7_alg».proof.Proof.Gen.Pre_input_domain
import Idealize.ShloMosaic.Lib.StableHlo.Predicate
import Idealize.ShloMosaic.Lib.ReduceAll

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

def PreAll : Prop := ∀ c : Dev nD, Cert.Pre_input_domain.fn (F := F) (m (tLoc c main_arg0)) (m (tLoc c main_arg1)) (m (tLoc c main_arg2)) (m (tLoc c main_arg3)) (m (tLoc c main_arg4)) (m (tLoc c main_arg5)) (m (tLoc c main_arg6)) (m (tLoc c main_arg7)) (m (tLoc c main_arg8)) (m (tLoc c main_arg9)) (m (tLoc c main_arg10)) (m (tLoc c main_arg11)) (m (tLoc c main_arg12)) = (fun _ => 1#1)

theorem concat_forall {α : Type} {t : Shape} (a : Fin t.rank) (xs : List ((s : Shape) × (s.Idx → α)))
    (hc : Shape.Concatenates (xs.map (·.1)) t a) (P : α → Prop) (hP : ∀ p ∈ xs, ∀ i, P (p.2 i)) (j : t.Idx) :
    P (concatenate t a xs hc j) := by
  unfold concatenate
  exact hP _ (List.getElem_mem _) _

theorem gather_forall {α : Type} {s si t : Shape} {w : ℕ} (P : α → Prop) (g : GatherDims s si t) (x : s.Idx → α) (idx : IVec si w)
    (hx : ∀ i, P (x i)) (j : t.Idx) : P (Host.gather g x idx j) := hx _

theorem update_keep (W : Valuation τ sig (Elt F)) (o b : Ref sig .tc) (v : (r o).ty.Contents (Elt F)) (hne : b ≠ o) :
    Function.update W (r o) v (r b) = W (r b) :=
  Function.update_of_ne (StableHlo.devRef_ne_of_ne hne) _ _

theorem range_of_cmp (v : BitVec 32) (K : ℕ) (hK : K < 2 ^ 31)
    (e : IntOp.andi (IntOp.cmpi .sge v 0#32) (IntOp.cmpi .sle v (BitVec.ofNat 32 K)) = 1#1) : v.toNat ≤ K := by
  obtain ⟨h0, h1⟩ := IntOp.andi_eq_one.1 e
  unfold IntOp.cmpi at h0 h1
  simp only [StableHlo.Predicate.ofBool_eq_one_iff, BitVec.sle, decide_eq_true_eq] at h0 h1
  rw [StableHlo.Predicate.toInt_ofNat_small K hK] at h1
  rw [show (0#32 : BitVec 32).toInt = 0 from by decide] at h0
  rw [BitVec.toInt_eq_toNat_cond] at h0 h1
  split at h0 <;> omega

theorem word_affine (x c y : BitVec 32) (C A B : ℕ) (hc : c = BitVec.ofNat 32 C) (hx : x.toNat ≤ A) (hy : y.toNat ≤ B)
    (hC : C < 2 ^ 32) (hlt : A * C + B < 2 ^ 32) : (IntOp.addi (IntOp.muli x c) y).toNat ≤ A * C + B := by
  subst hc
  have h1 : x.toNat * C ≤ A * C := Nat.mul_le_mul_right C hx
  show (x * BitVec.ofNat 32 C + y).toNat ≤ _
  rw [BitVec.toNat_add, BitVec.toNat_mul, BitVec.toNat_ofNat, Nat.mod_eq_of_lt hC]
  generalize x.toNat * C = p at h1
  generalize A * C = M at h1 hlt
  rw [Nat.mod_eq_of_lt (show p < 2 ^ 32 by omega), Nat.mod_eq_of_lt (by omega)]
  omega

theorem vec_affine {s : Shape} (a c g : IVec s 32) (j : s.Idx) (C A B : ℕ) (ha : (a j).toNat ≤ A) (hc : c j = BitVec.ofNat 32 C)
    (hg : (g j).toNat ≤ B) (hC : C < 2 ^ 32) (hlt : A * C + B < 2 ^ 32) : ((addi (muli a c) g) j).toNat ≤ A * C + B :=
  word_affine (a j) (c j) (g j) C A B hc ha hg hC hlt

theorem divsi_tenk (w : BitVec 32) (hw : w.toNat < 2 ^ 31) : (IntOp.divsi .host w 10000#32).toNat = w.toNat / 10000 := by
  have hcorner : ¬ IntOp.SDivCorner w 10000#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (10000#32 : BitVec 32).msb = false from by decide,
    BitVec.udiv_eq, BitVec.toNat_udiv, BitVec.toNat_ofNat]

theorem floordiv_at (j : S320000.Idx) :
    ((select
        (andi
          (cmpi .ne (signi (iotaInDim S320000 32 0)) (broadcastInDim S320000 ![] bcast_S_S320000 (signi (constantI S_ 32 10000#32))))
          (cmpi .ne (Host.remsi (iotaInDim S320000 32 0) (broadcastInDim S320000 ![] bcast_S_S320000 (constantI S_ 32 10000#32)))
            (broadcastInDim S320000 ![] bcast_S_S320000 (constantI S_ 32 0#32))))
        (subi (Host.divsi (iotaInDim S320000 32 0) (broadcastInDim S320000 ![] bcast_S_S320000 (constantI S_ 32 10000#32)))
          (broadcastInDim S320000 ![] bcast_S_S320000 (constantI S_ 32 1#32)))
        (Host.divsi (iotaInDim S320000 32 0) (broadcastInDim S320000 ![] bcast_S_S320000 (constantI S_ 32 10000#32))) : IVec S320000 32) j).toNat
      ≤ 31 := by
  have hj : (j 0).val < 320000 := (j 0).isLt
  generalize hw : BitVec.ofNat 32 (j 0).val = w
  have hwn : w.toNat = (j 0).val := by rw [← hw, BitVec.toNat_ofNat]; exact Nat.mod_eq_of_lt (by omega)
  have hwl : w.toNat < 2 ^ 31 := by omega
  have hq := divsi_tenk w hwl
  have hm : w.msb = false := BitVec.msb_eq_false_iff_two_mul_lt.mpr (by omega)
  show (Scalar.select
      (IntOp.andi
        (IntOp.cmpi .ne (if BitVec.ofNat 32 (j 0).val = 0 then 0 else if (BitVec.ofNat 32 (j 0).val).msb then -1 else 1)
          (if (10000#32 : BitVec 32) = 0 then 0 else if (10000#32 : BitVec 32).msb then -1 else 1))
        (IntOp.cmpi .ne (IntOp.remsi .host (BitVec.ofNat 32 (j 0).val) 10000#32) 0#32))
      (IntOp.subi (IntOp.divsi .host (BitVec.ofNat 32 (j 0).val) 10000#32) 1#32)
      (IntOp.divsi .host (BitVec.ofNat 32 (j 0).val) 10000#32)).toNat ≤ 31
  rw [hw]
  have hc : IntOp.andi
        (IntOp.cmpi .ne (if w = 0 then (0 : BitVec 32) else if w.msb then -1 else 1)
          (if (10000#32 : BitVec 32) = 0 then (0 : BitVec 32) else if (10000#32 : BitVec 32).msb then -1 else 1))
        (IntOp.cmpi .ne (IntOp.remsi .host w 10000#32) 0#32) = 0#1 := by
    by_cases h0 : w = 0
    · subst h0; decide
    · rw [if_neg h0, hm]
      have : IntOp.cmpi .ne (if false = true then (-1 : BitVec 32) else 1)
          (if (10000#32 : BitVec 32) = 0 then (0 : BitVec 32) else if (10000#32 : BitVec 32).msb then -1 else 1) = 0#1 := by decide
      rw [this]
      generalize IntOp.cmpi .ne (IntOp.remsi .host w 10000#32) 0#32 = b
      revert b; decide
  rw [hc]
  show (IntOp.divsi .host w 10000#32).toNat ≤ 31
  rw [hq]; omega

instance subsingleton_scalar_idx : Subsingleton Cert.Pre_input_domain.S_.Idx := ⟨fun _ _ => funext fun a => a.elim0⟩

theorem ranges_of_pre (h : PreAll m) (d : Dev nD) :
    (∀ j : S10000x2.Idx, ((V0 m d (r main_arg0) : Vec F S10000x2 .i32) j).toNat ≤ 3)
    ∧ (∀ j : S2x320000.Idx, ((V0 m d (r main_arg1) : Vec F S2x320000 .i32) j).toNat ≤ 9999)
    ∧ (∀ j : S320000x2.Idx, ((V0 m d (r main_arg2) : Vec F S320000x2 .i32) j).toNat ≤ 2) := by
  have e := congrFun (h d) ValueIdx.ix0
  dsimp only [Cert.Pre_input_domain.fn, Cert.Pre_input_domain.fn_part1, Cert.Pre_input_domain.fn_part2,
    Cert.Pre_input_domain.fn_part3, Cert.Pre_input_domain.fn_part4, andi] at e
  obtain ⟨e, e2⟩ := IntOp.andi_eq_one.1 e
  obtain ⟨e, e1⟩ := IntOp.andi_eq_one.1 e
  obtain ⟨-, e0⟩ := IntOp.andi_eq_one.1 e
  refine ⟨fun j => ?_, fun j => ?_, fun j => ?_⟩
  · exact range_of_cmp _ 3 (by norm_num) (Host.reduce_andi_all _ _ _ _ _ e0 j)
  · exact range_of_cmp _ 9999 (by norm_num) (Host.reduce_andi_all _ _ _ _ _ e1 j)
  · exact range_of_cmp _ 2 (by norm_num) (Host.reduce_andi_all _ _ _ _ _ e2 j)

theorem a0_v3 (W : Valuation τ sig (Elt F)) (n : ℕ) (hn : 0 < n) (hx : ∀ i, ((W (r main_arg0) : IVec S10000x2 32) i).toNat < n)
    (j : S10240.Idx) : ((after opsA0 W (r main_v3) : Vec F S10240 .i32) j).toNat < n := by
  revert j
  dsimp only [opsA0]
  after_results
  intro j
  refine concat_forall (P := fun w : BitVec 32 => w.toNat < n) _ _ _ ?_ j
  intro p hp
  simp only [List.mem_cons, List.not_mem_nil, or_false] at hp
  rcases hp with rfl | rfl
  · intro i; exact hx _
  · intro i; exact hn

theorem a0_v7 (W : Valuation τ sig (Elt F)) (n : ℕ) (hn : 0 < n) (hx : ∀ i, ((W (r main_arg0) : IVec S10000x2 32) i).toNat < n)
    (j : S10240.Idx) : ((after opsA0 W (r main_v7) : Vec F S10240 .i32) j).toNat < n := by
  revert j
  dsimp only [opsA0]
  after_results
  intro j
  refine concat_forall (P := fun w : BitVec 32 => w.toNat < n) _ _ _ ?_ j
  intro p hp
  simp only [List.mem_cons, List.not_mem_nil, or_false] at hp
  rcases hp with rfl | rfl
  · intro i; exact hx _
  · intro i; exact hn

theorem a0_keep (W : Valuation τ sig (Elt F)) :
    after opsA0 W (r main_arg1) = W (r main_arg1) ∧ after opsA0 W (r main_arg2) = W (r main_arg2) := by
  dsimp only [opsA0]
  constructor <;> after_results

set_option maxHeartbeats 2000000 in

theorem a1_v21 (W : Valuation τ sig (Elt F)) (n : ℕ) (hx : ∀ i, ((W (r main_arg1) : IVec S2x320000 32) i).toNat < n)
    (j : S320000.Idx) : ((after opsA1 W (r main_v21) : Vec F S320000 .i32) j).toNat < n := by
  revert j
  dsimp only [opsA1]
  after_results_simp
  intro j
  refine gather_forall (fun w : BitVec 32 => w.toNat < n) _ _ _ ?_ j
  intro i
  exact hx _

set_option maxHeartbeats 2000000 in

theorem a1_v47 (W : Valuation τ sig (Elt F)) (hx : ∀ i, ((W (r main_arg2) : IVec S320000x2 32) i).toNat ≤ 2)
    (j : S320000.Idx) : ((after opsA1 W (r main_v47) : Vec F S320000 .i32) j).toNat < 576 := by
  revert j
  dsimp only [opsA1]
  after_results_simp
  intro j
  refine lt_of_le_of_lt (vec_affine _ _ _ j 18 31 8 ?_ rfl ?_ (by norm_num) (by norm_num)) (by norm_num)
  · exact floordiv_at j
  · refine gather_forall (fun w : BitVec 32 => w.toNat ≤ 8) _ _ _ ?_ j
    intro i
    exact le_trans (vec_affine _ _ _ i 3 2 2 (hx _) rfl (hx _) (by norm_num) (by norm_num)) (by norm_num)

set_option maxHeartbeats 2000000 in

theorem a2_keep (W : Valuation τ sig (Elt F)) :
    after opsA2 W (r main_v21) = W (r main_v21) ∧ after opsA2 W (r main_v47) = W (r main_v47) := by
  dsimp only [opsA2]
  constructor <;> after_results_simp

set_option maxHeartbeats 2000000 in

theorem a3_keep (W : Valuation τ sig (Elt F)) :
    after opsA3 W (r main_v21) = W (r main_v21) ∧ after opsA3 W (r main_v47) = W (r main_v47) := by
  dsimp only [opsA3]
  constructor <;> after_results_simp

theorem ok_of_pre (h : PreAll m) (d : Dev nD) : PreOK (V0 m d) := by
  obtain ⟨h0, h1, h2⟩ := ranges_of_pre m h d
  have k0 := a0_keep (V0 m d)
  have b1 : ∀ i, ((VB0 (V0 m d) (r main_arg1) : IVec S2x320000 32) i).toNat < 10000 := by
    intro i
    have e : VB0 (V0 m d) (r main_arg1) = V0 m d (r main_arg1) := by
      unfold VB0; rw [update_keep _ _ _ _ (by decide)]; exact k0.1
    rw [e]; have := h1 i; omega
  have b2 : ∀ i, ((VB0 (V0 m d) (r main_arg2) : IVec S320000x2 32) i).toNat ≤ 2 := by
    intro i
    have e : VB0 (V0 m d) (r main_arg2) = V0 m d (r main_arg2) := by
      unfold VB0; rw [update_keep _ _ _ _ (by decide)]; exact k0.2
    rw [e]; exact h2 i
  have q1a : ∀ j : S320000.Idx, ((VA1 (V0 m d) (r main_v21) : Vec F S320000 .i32) j).toNat < 10000 :=
    fun j => a1_v21 (VB0 (V0 m d)) 10000 b1 j
  have q1b : ∀ j : S320000.Idx, ((VA1 (V0 m d) (r main_v47) : Vec F S320000 .i32) j).toNat < 576 :=
    fun j => a1_v47 (VB0 (V0 m d)) b2 j
  have e2a : VA2 (V0 m d) (r main_v21) = VA1 (V0 m d) (r main_v21) := by
    unfold VA2; rw [(a2_keep _).1]; unfold VB1; exact update_keep _ _ _ _ (by decide)
  have e2b : VA2 (V0 m d) (r main_v47) = VA1 (V0 m d) (r main_v47) := by
    unfold VA2; rw [(a2_keep _).2]; unfold VB1; exact update_keep _ _ _ _ (by decide)
  have e3a : VA3 (V0 m d) (r main_v21) = VA1 (V0 m d) (r main_v21) := by
    unfold VA3; rw [(a3_keep _).1]; unfold VB2; rw [update_keep _ _ _ _ (by decide)]; exact e2a
  have e3b : VA3 (V0 m d) (r main_v47) = VA1 (V0 m d) (r main_v47) := by
    unfold VA3; rw [(a3_keep _).2]; unfold VB2; rw [update_keep _ _ _ _ (by decide)]; exact e2b
  exact
    { h0a := fun j => a0_v3 (V0 m d) 119 (by norm_num) (fun i => by have := h0 i; omega) j
      h0b := fun j => a0_v7 (V0 m d) 4 (by norm_num) (fun i => by have := h0 i; omega) j
      h1a := q1a
      h1b := q1b
      h2a := fun j => by rw [e2a]; exact q1a j
      h2b := fun j => by rw [e2b]; exact q1b j
      h3a := fun j => by rw [e3a]; exact q1a j
      h3b := fun j => by rw [e3b]; exact q1b j }

end Cert.KernelIdeal.Hand

end
-- ==== Proof.KI.Kept.lean ====
import proofs.«208129_g65403761983635_cont_9to1_m_1354_7_alg».proof.Proof.KI.Base

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

open Idealize.ShloMosaic.StableHlo in

abbrev mainArgs : List (Ref sig .tc) :=
  [main_arg0, main_arg1, main_arg2, main_arg3, main_arg4, main_arg5, main_arg6, main_arg7, main_arg8, main_arg9,
    main_arg10, main_arg11, main_arg12]

omit [FloatOps F] in

theorem args_ne {y : Ref sig .tc} (h : y ∉ mainArgs) :
    ∀ b ∈ mainArgs, ¬ (Proc.devRef .tc b : DevRef τ sig) = Proc.devRef .tc y :=
  fun _ hb e => h (Proc.devRef_injective _ e ▸ hb)

open Idealize.ShloMosaic.StableHlo in

local macro "stretch_keeps" : tactic =>
  `(tactic| (simp only [List.Forall, nullary_writes, unary_writes, binary_writes, ternary_writes, reshape_writes,
               Finset.mem_singleton]
             repeat' apply And.intro
             all_goals exact args_ne (by decide)))

set_option maxRecDepth 8192 in
theorem a0_keeps : (opsA0 : List (HloOp τ sig (Elt F))).Forall fun op => ∀ b ∈ mainArgs, (r b : DevRef τ sig) ∉ op.writes := by stretch_keeps
set_option maxRecDepth 8192 in
theorem a1_keeps : (opsA1 : List (HloOp τ sig (Elt F))).Forall fun op => ∀ b ∈ mainArgs, (r b : DevRef τ sig) ∉ op.writes := by stretch_keeps
set_option maxRecDepth 8192 in
theorem a2_keeps : (opsA2 : List (HloOp τ sig (Elt F))).Forall fun op => ∀ b ∈ mainArgs, (r b : DevRef τ sig) ∉ op.writes := by stretch_keeps
set_option maxRecDepth 8192 in
theorem a3_keeps : (opsA3 : List (HloOp τ sig (Elt F))).Forall fun op => ∀ b ∈ mainArgs, (r b : DevRef τ sig) ∉ op.writes := by stretch_keeps
set_option maxRecDepth 8192 in
theorem a4_keeps : (opsA4 : List (HloOp τ sig (Elt F))).Forall fun op => ∀ b ∈ mainArgs, (r b : DevRef τ sig) ∉ op.writes := by stretch_keeps

theorem stretch_kept {ops : List (HloOp τ sig (Elt F))}
    (h : ops.Forall fun op => ∀ b ∈ mainArgs, (r b : DevRef τ sig) ∉ op.writes)
    (W : Valuation τ sig (Elt F)) (b : Ref sig .tc) (hb : b ∈ mainArgs) : after ops W (r b) = W (r b) :=
  StableHlo.after_of_forall_not_mem ops W fun op hop => List.forall_iff_forall_mem.mp h op hop b hb

omit [FloatOps F] in

theorem update_kept (W : Valuation τ sig (Elt F)) (o : Ref sig .tc) (ho : o ∉ mainArgs) (f : (r o).ty.Contents (Elt F))
    (b : Ref sig .tc) (hb : b ∈ mainArgs) : Function.update W (r o) f (r b) = W (r b) :=
  Function.update_of_ne (args_ne ho b hb) _ _

theorem arg_kept (W : Valuation τ sig (Elt F)) (b : Ref sig .tc) (hb : b ∈ mainArgs) : VA4 W (r b) = W (r b) := by
  unfold VA4 VB3 VA3 VB2 VA2 VB1 VA1 VB0 VA0
  rw [stretch_kept a4_keeps _ b hb, update_kept _ main_v207 (by decide) _ b hb,
    stretch_kept a3_keeps _ b hb, update_kept _ main_v134 (by decide) _ b hb,
    stretch_kept a2_keeps _ b hb, update_kept _ main_v61 (by decide) _ b hb,
    stretch_kept a1_keeps _ b hb, update_kept _ main_v8 (by decide) _ b hb,
    stretch_kept a0_keeps _ b hb]

end Cert.KernelIdeal.Hand

end
-- ==== Proof.KB.Ops.lean ====
import proofs.«208129_g65403761983635_cont_9to1_m_1354_7_alg».proof.Kernel
import proofs.«208129_g65403761983635_cont_9to1_m_1354_7_alg».proof.Proof.Gen.Kernel
import Idealize.ShloMosaic.Lib.StableHlo.Run

noncomputable section

namespace Cert.Kernel.Hand

open Cert.Kernel Cert.Kernel.Gen Idealize.ShloMosaic Idealize.ShloMosaic.TcCoe Idealize.SL.Sem Idealize.ShloMosaic.StableHlo

variable {F : FTy → Type} [FloatOps F]

abbrev opsA0 : List (HloOp τ sig (Elt F)) :=
  [ StableHlo.unary main_arg0 main_v0 (extractStridedSlice S10000x1 ![0, 0] · slices_S10000x2_S10000x1_0_0),
    StableHlo.reshape main_v0 main_v1 rfl shapeCasts_S10000x1_S10000,
    StableHlo.nullary main_c (constantI S_ 32 0#32),
    StableHlo.unary main_c main_v2 (broadcastInDim S240 ![] bcast_S_S240),
    StableHlo.binary main_v1 main_v2 main_v3 (fun a b => concatenate S10240 0 [⟨S10000, a⟩, ⟨S240, b⟩] concatenates_S10000_S240_S10240_d0),
    StableHlo.unary main_arg0 main_v4 (extractStridedSlice S10000x1 ![0, 1] · slices_S10000x2_S10000x1_0_1),
    StableHlo.reshape main_v4 main_v5 rfl shapeCasts_S10000x1_S10000,
    StableHlo.nullary main_c_0 (constantI S_ 32 0#32),
    StableHlo.unary main_c_0 main_v6 (broadcastInDim S240 ![] bcast_S_S240),
    StableHlo.binary main_v5 main_v6 main_v7 (fun a b => concatenate S10240 0 [⟨S10000, a⟩, ⟨S240, b⟩] concatenates_S10000_S240_S10240_d0) ]

abbrev opsA1 : List (HloOp τ sig (Elt F)) :=
  [ StableHlo.unary main_v8 main_v9 (extractStridedSlice S10000x128 ![0, 0] · slices_S10240x128_S10000x128_0_0),
    StableHlo.unary main_arg1 main_v10 (extractStridedSlice S1x320000 ![0, 0] · slices_S2x320000_S1x320000_0_0),
    StableHlo.reshape main_v10 main_v11 rfl shapeCasts_S1x320000_S320000,
    StableHlo.unary main_arg1 main_v12 (extractStridedSlice S1x320000 ![1, 0] · slices_S2x320000_S1x320000_1_0),
    StableHlo.reshape main_v12 main_v13 rfl shapeCasts_S1x320000_S320000,
    StableHlo.TRef.nullary main_call0.v0 (iotaInDim S320000 32 0),
    StableHlo.TRef.binary (.of main_v13) main_call0.v0 main_call0.v1_0 (fun x y => (Host.sort2 S320000 0 comparator_i32_i32_d0 x y).1),
    StableHlo.TRef.binary (.of main_v13) main_call0.v0 main_call0.v1_1 (fun x y => (Host.sort2 S320000 0 comparator_i32_i32_d0 x y).2),
    StableHlo.nullary main_c_1 (constantI S_ 32 0#32),
    StableHlo.unary main_c_1 main_v15 (broadcastInDim S320000 ![] bcast_S_S320000),
    StableHlo.binary main_v14 main_v15 main_v16 (cmpi .slt),
    StableHlo.nullary main_c_2 (constantI S_ 32 320000#32),
    StableHlo.unary main_c_2 main_v17 (broadcastInDim S320000 ![] bcast_S_S320000),
    StableHlo.binary main_v14 main_v17 main_v18 addi,
    StableHlo.ternary main_v16 main_v18 main_v14 main_v19 select,
    StableHlo.unary main_v19 main_v20 (broadcastInDim S320000x1 ![0] bcast_S320000_S320000x1_0),
    StableHlo.binary main_v11 main_v20 main_v21 (fun x i => Host.gather gather_S320000_S320000x1_S320000_n_0_n_n_0_1_1 x i),
    StableHlo.nullary main_c_3 (constantI S_ 32 0#32),
    StableHlo.unary main_c_3 main_v22 (broadcastInDim S320000 ![] bcast_S_S320000),
    StableHlo.binary main_v14 main_v22 main_v23 (cmpi .slt),
    StableHlo.nullary main_c_4 (constantI S_ 32 320000#32),
    StableHlo.unary main_c_4 main_v24 (broadcastInDim S320000 ![] bcast_S_S320000),
    StableHlo.binary main_v14 main_v24 main_v25 addi,
    StableHlo.ternary main_v23 main_v25 main_v14 main_v26 select,
    StableHlo.unary main_v26 main_v27 (broadcastInDim S320000x1 ![0] bcast_S320000_S320000x1_0),
    StableHlo.binary main_v13 main_v27 main_v28 (fun x i => Host.gather gather_S320000_S320000x1_S320000_n_0_n_n_0_1_1 x i),
    StableHlo.unary main_arg2 main_v29 (extractStridedSlice S320000x1 ![0, 0] · slices_S320000x2_S320000x1_0_0),
    StableHlo.reshape main_v29 main_v30 rfl shapeCasts_S320000x1_S320000,
    StableHlo.nullary main_c_5 (constantI S_ 32 3#32),
    StableHlo.unary main_c_5 main_v31 (broadcastInDim S320000 ![] bcast_S_S320000),
    StableHlo.binary main_v30 main_v31 main_v32 muli,
    StableHlo.unary main_arg2 main_v33 (extractStridedSlice S320000x1 ![0, 1] · slices_S320000x2_S320000x1_0_1),
    StableHlo.reshape main_v33 main_v34 rfl shapeCasts_S320000x1_S320000,
    StableHlo.binary main_v32 main_v34 main_v35 addi,
    StableHlo.nullary main_c_6 (constantI S_ 32 0#32),
    StableHlo.unary main_c_6 main_v36 (broadcastInDim S320000 ![] bcast_S_S320000),
    StableHlo.binary main_v14 main_v36 main_v37 (cmpi .slt),
    StableHlo.nullary main_c_7 (constantI S_ 32 320000#32),
    StableHlo.unary main_c_7 main_v38 (broadcastInDim S320000 ![] bcast_S_S320000),
    StableHlo.binary main_v14 main_v38 main_v39 addi,
    StableHlo.ternary main_v37 main_v39 main_v14 main_v40 select,
    StableHlo.unary main_v40 main_v41 (broadcastInDim S320000x1 ![0] bcast_S320000_S320000x1_0),
    StableHlo.binary main_v35 main_v41 main_v42 (fun x i => Host.gather gather_S320000_S320000x1_S320000_n_0_n_n_0_1_1 x i),
    StableHlo.nullary main_v43 (iotaInDim S320000 32 0),
    StableHlo.nullary main_c_8 (constantI S_ 32 10000#32),
    StableHlo.TRef.unary (.of main_c_8) main_call1.v0 id,
    StableHlo.TRef.unary main_call1.v0 main_call1.v1 (broadcastInDim S320000 ![] bcast_S_S320000),
    StableHlo.TRef.binary (.of main_v43) main_call1.v1 main_call1.v2 Host.divsi,
    StableHlo.TRef.unary (.of main_v43) main_call1.v3 signi,
    StableHlo.TRef.unary main_call1.v0 main_call1.v4 signi,
    StableHlo.TRef.unary main_call1.v4 main_call1.v5 (broadcastInDim S320000 ![] bcast_S_S320000),
    StableHlo.TRef.binary main_call1.v3 main_call1.v5 main_call1.v6 (cmpi .ne),
    StableHlo.TRef.unary main_call1.v0 main_call1.v7 (broadcastInDim S320000 ![] bcast_S_S320000),
    StableHlo.TRef.binary (.of main_v43) main_call1.v7 main_call1.v8 Host.remsi,
    StableHlo.TRef.nullary main_call1.c (constantI S_ 32 0#32),
    StableHlo.TRef.unary main_call1.c main_call1.v9 (broadcastInDim S320000 ![] bcast_S_S320000),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S320000 ![] bcast_S_S320000),
    StableHlo.TRef.binary main_call1.v2 main_call1.v12 main_call1.v13 subi,
    StableHlo.TRef.ternary main_call1.v11 main_call1.v13 main_call1.v2 main_call1.call0.v0 select,
    StableHlo.nullary main_c_9 (constantI S_ 32 18#32),
    StableHlo.unary main_c_9 main_v45 (broadcastInDim S320000 ![] bcast_S_S320000),
    StableHlo.binary main_v44 main_v45 main_v46 muli,
    StableHlo.binary main_v46 main_v42 main_v47 addi,
    StableHlo.unary main_arg5 main_v48 (extractStridedSlice S1x6x128 ![0, 0, 0] · slices_S3x6x128_S1x6x128_0_0_0),
    StableHlo.reshape main_v48 main_v49 rfl shapeCasts_S1x6x128_S6x128,
    StableHlo.unary main_v49 main_v50 (broadcastInDim S6x1x128 ![0, 2] bcast_S6x128_S6x1x128_0_2),
    StableHlo.unary main_arg6 main_v51 (extractStridedSlice S1x3x128 ![0, 0, 0] · slices_S3x3x128_S1x3x128_0_0_0),
    StableHlo.reshape main_v51 main_v52 rfl shapeCasts_S1x3x128_S3x128,
    StableHlo.unary main_v52 main_v53 (broadcastInDim S1x3x128 ![1, 2] bcast_S3x128_S1x3x128_1_2),
    StableHlo.unary main_v50 main_v54 (broadcastInDim S6x3x128 ![0, 1, 2] bcast_S6x1x128_S6x3x128_0_1_2),
    StableHlo.unary main_v53 main_v55 (broadcastInDim S6x3x128 ![0, 1, 2] bcast_S1x3x128_S6x3x128_0_1_2),
    StableHlo.binary main_v54 main_v55 main_v56 addf,
    StableHlo.reshape main_v56 main_v57 rfl shapeCasts_S6x3x128_S18x128,
    StableHlo.reshape main_v57 main_v58 rfl shapeCasts_S18x128_S1x18x1x128,
    StableHlo.unary main_v58 main_v59 (broadcastInDim S32x18x1x128 ![0, 1, 2, 3] bcast_S1x18x1x128_S32x18x1x128_0_1_2_3),
    StableHlo.reshape main_v59 main_v60 rfl shapeCasts_S32x18x1x128_S576x128 ]

abbrev opsA2 : List (HloOp τ sig (Elt F)) :=
  [ StableHlo.nullary main_cst (constant S_ .f32 0x00000000#32),
    StableHlo.unary main_cst main_v62 (broadcastInDim S10000x128 ![] bcast_S_S10000x128),
    StableHlo.unary main_v28 main_v63 (broadcastInDim S320000x1 ![0] bcast_S320000_S320000x1_0),
    StableHlo.ternary main_v62 main_v63 main_v61 main_v64 (fun x i u => Host.scatterAdd scatter_S10000x128_S320000x1_S320000x128_1_0_0_1 x i u),
    StableHlo.unary main_arg5 main_v65 (extractStridedSlice S1x6x128 ![0, 0, 0] · slices_S3x6x128_S1x6x128_0_0_0),
    StableHlo.reshape main_v65 main_v66 rfl shapeCasts_S1x6x128_S6x128,
    StableHlo.unary main_v66 main_v67 (extractStridedSlice S1x128 ![4, 0] · slices_S6x128_S1x128_4_0),
    StableHlo.reshape main_v67 main_v68 rfl shapeCasts_S1x128_S128,
    StableHlo.unary main_arg6 main_v69 (extractStridedSlice S1x3x128 ![0, 0, 0] · slices_S3x3x128_S1x3x128_0_0_0),
    StableHlo.reshape main_v69 main_v70 rfl shapeCasts_S1x3x128_S3x128,
    StableHlo.unary main_v70 main_v71 (extractStridedSlice S1x128 ![0, 0] · slices_S3x128_S1x128_0_0),
    StableHlo.reshape main_v71 main_v72 rfl shapeCasts_S1x128_S128,
    StableHlo.binary main_v68 main_v72 main_v73 addf,
    StableHlo.binary main_v64 main_v9 main_v74 addf,
    StableHlo.unary main_v73 main_v75 (broadcastInDim S1x128 ![1] bcast_S128_S1x128_1),
    StableHlo.unary main_v75 main_v76 (broadcastInDim S10000x128 ![0, 1] bcast_S1x128_S10000x128_0_1),
    StableHlo.binary main_v74 main_v76 main_v77 addf,
    StableHlo.unary main_arg7 main_v78 (extractStridedSlice S1x128x256 ![0, 0, 0] · slices_S3x128x256_S1x128x256_0_0_0),
    StableHlo.reshape main_v78 main_v79 rfl shapeCasts_S1x128x256_S128x256,
    StableHlo.binary main_v77 main_v79 main_v80 (fun l r => Host.dotGeneral dot_S10000x128_S128x256_S10000x256_1_0_0_1_n_n none l r),
    StableHlo.unary main_arg8 main_v81 (extractStridedSlice S1x256 ![0, 0] · slices_S3x256_S1x256_0_0),
    StableHlo.reshape main_v81 main_v82 rfl shapeCasts_S1x256_S256,
    StableHlo.unary main_v82 main_v83 (broadcastInDim S1x256 ![1] bcast_S256_S1x256_1),
    StableHlo.unary main_v83 main_v84 (broadcastInDim S10000x256 ![0, 1] bcast_S1x256_S10000x256_0_1),
    StableHlo.binary main_v80 main_v84 main_v85 addf,
    StableHlo.nullary main_cst_10 (constant S_ .f32 0x00000000#32),
    StableHlo.unary main_cst_10 main_v86 (broadcastInDim S10000x256 ![] bcast_S_S10000x256),
    StableHlo.binary main_v85 main_v86 main_v87 maximumf,
    StableHlo.unary main_arg9 main_v88 (extractStridedSlice S1x256x128 ![0, 0, 0] · slices_S3x256x128_S1x256x128_0_0_0),
    StableHlo.reshape main_v88 main_v89 rfl shapeCasts_S1x256x128_S256x128,
    StableHlo.binary main_v87 main_v89 main_v90 (fun l r => Host.dotGeneral dot_S10000x256_S256x128_S10000x128_1_0_0_1_n_n none l r),
    StableHlo.unary main_arg10 main_v91 (extractStridedSlice S1x128 ![0, 0] · slices_S3x128_S1x128_0_0),
    StableHlo.reshape main_v91 main_v92 rfl shapeCasts_S1x128_S128,
    StableHlo.unary main_v92 main_v93 (broadcastInDim S1x128 ![1] bcast_S128_S1x128_1),
    StableHlo.unary main_v93 main_v94 (broadcastInDim S10000x128 ![0, 1] bcast_S1x128_S10000x128_0_1),
    StableHlo.binary main_v90 main_v94 main_v95 addf,
    StableHlo.nullary main_cst_11 (constant S_ .f32 0x00000000#32),
    StableHlo.binary main_v95 main_cst_11 main_v96 (fun x v => Host.reduceAdd x v reducesTo_S10000x128_S128_d0 h_S_),
    StableHlo.nullary main_cst_12 (constant S_ .f32 0x461C4000#32),
    StableHlo.unary main_cst_12 main_v97 (broadcastInDim S128 ![] bcast_S_S128),
    StableHlo.binary main_v96 main_v97 main_v98 Host.divf,
    StableHlo.nullary main_c_13 (constantI S_ 32 0#32),
    StableHlo.TRef.nullary main_call2.cst (constant S_ .f32 0x00000000#32),
    StableHlo.TRef.binary (.of main_v95) main_call2.cst main_call2.v0 (fun x v => Host.reduceAdd x v reducesTo_S10000x128_S128_d0 h_S_),
    StableHlo.TRef.unary main_call2.v0 main_call2.v1 (broadcastInDim S1x128 ![1] bcast_S128_S1x128_1),
    StableHlo.TRef.nullary main_call2.cst_0 (constant S_ .f32 0x461C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S10000x128 ![0, 1] bcast_S1x128_S10000x128_0_1),
    StableHlo.TRef.binary (.of main_v95) main_call2.v4 main_call2.v5 subf,
    StableHlo.TRef.binary main_call2.v5 main_call2.v5 main_call2.v6 mulf,
    StableHlo.TRef.unary (.of main_c_13) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v98 main_v100 (broadcastInDim S1x128 ![1] bcast_S128_S1x128_1),
    StableHlo.unary main_v100 main_v101 (broadcastInDim S10000x128 ![0, 1] bcast_S1x128_S10000x128_0_1),
    StableHlo.binary main_v95 main_v101 main_v102 subf,
    StableHlo.nullary main_cst_14 (constant S_ .f32 0x3727C5AC#32),
    StableHlo.unary main_cst_14 main_v103 (broadcastInDim S128 ![] bcast_S_S128),
    StableHlo.binary main_v99 main_v103 main_v104 addf,
    StableHlo.unary main_v104 main_v105 Host.sqrt,
    StableHlo.unary main_v105 main_v106 (broadcastInDim S1x128 ![1] bcast_S128_S1x128_1),
    StableHlo.unary main_v106 main_v107 (broadcastInDim S10000x128 ![0, 1] bcast_S1x128_S10000x128_0_1),
    StableHlo.binary main_v102 main_v107 main_v108 Host.divf,
    StableHlo.unary main_arg11 main_v109 (extractStridedSlice S1x128 ![0, 0] · slices_S3x128_S1x128_0_0),
    StableHlo.reshape main_v109 main_v110 rfl shapeCasts_S1x128_S128,
    StableHlo.unary main_v110 main_v111 (broadcastInDim S1x128 ![1] bcast_S128_S1x128_1),
    StableHlo.unary main_v111 main_v112 (broadcastInDim S10000x128 ![0, 1] bcast_S1x128_S10000x128_0_1),
    StableHlo.binary main_v108 main_v112 main_v113 mulf,
    StableHlo.unary main_arg12 main_v114 (extractStridedSlice S1x128 ![0, 0] · slices_S3x128_S1x128_0_0),
    StableHlo.reshape main_v114 main_v115 rfl shapeCasts_S1x128_S128,
    StableHlo.unary main_v115 main_v116 (broadcastInDim S1x128 ![1] bcast_S128_S1x128_1),
    StableHlo.unary main_v116 main_v117 (broadcastInDim S10000x128 ![0, 1] bcast_S1x128_S10000x128_0_1),
    StableHlo.binary main_v113 main_v117 main_v118 addf,
    StableHlo.nullary main_cst_15 (constant S_ .f32 0x00000000#32),
    StableHlo.unary main_cst_15 main_v119 (broadcastInDim S10000x128 ![] bcast_S_S10000x128),
    StableHlo.binary main_v118 main_v119 main_v120 maximumf,
    StableHlo.unary main_arg5 main_v121 (extractStridedSlice S1x6x128 ![1, 0, 0] · slices_S3x6x128_S1x6x128_1_0_0),
    StableHlo.reshape main_v121 main_v122 rfl shapeCasts_S1x6x128_S6x128,
    StableHlo.unary main_v122 main_v123 (broadcastInDim S6x1x128 ![0, 2] bcast_S6x128_S6x1x128_0_2),
    StableHlo.unary main_arg6 main_v124 (extractStridedSlice S1x3x128 ![1, 0, 0] · slices_S3x3x128_S1x3x128_1_0_0),
    StableHlo.reshape main_v124 main_v125 rfl shapeCasts_S1x3x128_S3x128,
    StableHlo.unary main_v125 main_v126 (broadcastInDim S1x3x128 ![1, 2] bcast_S3x128_S1x3x128_1_2),
    StableHlo.unary main_v123 main_v127 (broadcastInDim S6x3x128 ![0, 1, 2] bcast_S6x1x128_S6x3x128_0_1_2),
    StableHlo.unary main_v126 main_v128 (broadcastInDim S6x3x128 ![0, 1, 2] bcast_S1x3x128_S6x3x128_0_1_2),
    StableHlo.binary main_v127 main_v128 main_v129 addf,
    StableHlo.reshape main_v129 main_v130 rfl shapeCasts_S6x3x128_S18x128,
    StableHlo.reshape main_v130 main_v131 rfl shapeCasts_S18x128_S1x18x1x128,
    StableHlo.unary main_v131 main_v132 (broadcastInDim S32x18x1x128 ![0, 1, 2, 3] bcast_S1x18x1x128_S32x18x1x128_0_1_2_3),
    StableHlo.reshape main_v132 main_v133 rfl shapeCasts_S32x18x1x128_S576x128 ]

abbrev opsA3 : List (HloOp τ sig (Elt F)) :=
  [ StableHlo.nullary main_cst_16 (constant S_ .f32 0x00000000#32),
    StableHlo.unary main_cst_16 main_v135 (broadcastInDim S10000x128 ![] bcast_S_S10000x128),
    StableHlo.unary main_v28 main_v136 (broadcastInDim S320000x1 ![0] bcast_S320000_S320000x1_0),
    StableHlo.ternary main_v135 main_v136 main_v134 main_v137 (fun x i u => Host.scatterAdd scatter_S10000x128_S320000x1_S320000x128_1_0_0_1 x i u),
    StableHlo.unary main_arg5 main_v138 (extractStridedSlice S1x6x128 ![1, 0, 0] · slices_S3x6x128_S1x6x128_1_0_0),
    StableHlo.reshape main_v138 main_v139 rfl shapeCasts_S1x6x128_S6x128,
    StableHlo.unary main_v139 main_v140 (extractStridedSlice S1x128 ![4, 0] · slices_S6x128_S1x128_4_0),
    StableHlo.reshape main_v140 main_v141 rfl shapeCasts_S1x128_S128,
    StableHlo.unary main_arg6 main_v142 (extractStridedSlice S1x3x128 ![1, 0, 0] · slices_S3x3x128_S1x3x128_1_0_0),
    StableHlo.reshape main_v142 main_v143 rfl shapeCasts_S1x3x128_S3x128,
    StableHlo.unary main_v143 main_v144 (extractStridedSlice S1x128 ![0, 0] · slices_S3x128_S1x128_0_0),
    StableHlo.reshape main_v144 main_v145 rfl shapeCasts_S1x128_S128,
    StableHlo.binary main_v141 main_v145 main_v146 addf,
    StableHlo.binary main_v137 main_v120 main_v147 addf,
    StableHlo.unary main_v146 main_v148 (broadcastInDim S1x128 ![1] bcast_S128_S1x128_1),
    StableHlo.unary main_v148 main_v149 (broadcastInDim S10000x128 ![0, 1] bcast_S1x128_S10000x128_0_1),
    StableHlo.binary main_v147 main_v149 main_v150 addf,
    StableHlo.unary main_arg7 main_v151 (extractStridedSlice S1x128x256 ![1, 0, 0] · slices_S3x128x256_S1x128x256_1_0_0),
    StableHlo.reshape main_v151 main_v152 rfl shapeCasts_S1x128x256_S128x256,
    StableHlo.binary main_v150 main_v152 main_v153 (fun l r => Host.dotGeneral dot_S10000x128_S128x256_S10000x256_1_0_0_1_n_n none l r),
    StableHlo.unary main_arg8 main_v154 (extractStridedSlice S1x256 ![1, 0] · slices_S3x256_S1x256_1_0),
    StableHlo.reshape main_v154 main_v155 rfl shapeCasts_S1x256_S256,
    StableHlo.unary main_v155 main_v156 (broadcastInDim S1x256 ![1] bcast_S256_S1x256_1),
    StableHlo.unary main_v156 main_v157 (broadcastInDim S10000x256 ![0, 1] bcast_S1x256_S10000x256_0_1),
    StableHlo.binary main_v153 main_v157 main_v158 addf,
    StableHlo.nullary main_cst_17 (constant S_ .f32 0x00000000#32),
    StableHlo.unary main_cst_17 main_v159 (broadcastInDim S10000x256 ![] bcast_S_S10000x256),
    StableHlo.binary main_v158 main_v159 main_v160 maximumf,
    StableHlo.unary main_arg9 main_v161 (extractStridedSlice S1x256x128 ![1, 0, 0] · slices_S3x256x128_S1x256x128_1_0_0),
    StableHlo.reshape main_v161 main_v162 rfl shapeCasts_S1x256x128_S256x128,
    StableHlo.binary main_v160 main_v162 main_v163 (fun l r => Host.dotGeneral dot_S10000x256_S256x128_S10000x128_1_0_0_1_n_n none l r),
    StableHlo.unary main_arg10 main_v164 (extractStridedSlice S1x128 ![1, 0] · slices_S3x128_S1x128_1_0),
    StableHlo.reshape main_v164 main_v165 rfl shapeCasts_S1x128_S128,
    StableHlo.unary main_v165 main_v166 (broadcastInDim S1x128 ![1] bcast_S128_S1x128_1),
    StableHlo.unary main_v166 main_v167 (broadcastInDim S10000x128 ![0, 1] bcast_S1x128_S10000x128_0_1),
    StableHlo.binary main_v163 main_v167 main_v168 addf,
    StableHlo.nullary main_cst_18 (constant S_ .f32 0x00000000#32),
    StableHlo.binary main_v168 main_cst_18 main_v169 (fun x v => Host.reduceAdd x v reducesTo_S10000x128_S128_d0 h_S_),
    StableHlo.nullary main_cst_19 (constant S_ .f32 0x461C4000#32),
    StableHlo.unary main_cst_19 main_v170 (broadcastInDim S128 ![] bcast_S_S128),
    StableHlo.binary main_v169 main_v170 main_v171 Host.divf,
    StableHlo.nullary main_c_20 (constantI S_ 32 0#32),
    StableHlo.TRef.nullary main_call3.cst (constant S_ .f32 0x00000000#32),
    StableHlo.TRef.binary (.of main_v168) main_call3.cst main_call3.v0 (fun x v => Host.reduceAdd x v reducesTo_S10000x128_S128_d0 h_S_),
    StableHlo.TRef.unary main_call3.v0 main_call3.v1 (broadcastInDim S1x128 ![1] bcast_S128_S1x128_1),
    StableHlo.TRef.nullary main_call3.cst_0 (constant S_ .f32 0x461C4000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S10000x128 ![0, 1] bcast_S1x128_S10000x128_0_1),
    StableHlo.TRef.binary (.of main_v168) main_call3.v4 main_call3.v5 subf,
    StableHlo.TRef.binary main_call3.v5 main_call3.v5 main_call3.v6 mulf,
    StableHlo.TRef.unary (.of main_c_20) main_call3.v7 (sitofp .f32),
    StableHlo.TRef.nullary main_call3.cst_1 (constant S_ .f32 0x461C4000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S10000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v171 main_v173 (broadcastInDim S1x128 ![1] bcast_S128_S1x128_1),
    StableHlo.unary main_v173 main_v174 (broadcastInDim S10000x128 ![0, 1] bcast_S1x128_S10000x128_0_1),
    StableHlo.binary main_v168 main_v174 main_v175 subf,
    StableHlo.nullary main_cst_21 (constant S_ .f32 0x3727C5AC#32),
    StableHlo.unary main_cst_21 main_v176 (broadcastInDim S128 ![] bcast_S_S128),
    StableHlo.binary main_v172 main_v176 main_v177 addf,
    StableHlo.unary main_v177 main_v178 Host.sqrt,
    StableHlo.unary main_v178 main_v179 (broadcastInDim S1x128 ![1] bcast_S128_S1x128_1),
    StableHlo.unary main_v179 main_v180 (broadcastInDim S10000x128 ![0, 1] bcast_S1x128_S10000x128_0_1),
    StableHlo.binary main_v175 main_v180 main_v181 Host.divf,
    StableHlo.unary main_arg11 main_v182 (extractStridedSlice S1x128 ![1, 0] · slices_S3x128_S1x128_1_0),
    StableHlo.reshape main_v182 main_v183 rfl shapeCasts_S1x128_S128,
    StableHlo.unary main_v183 main_v184 (broadcastInDim S1x128 ![1] bcast_S128_S1x128_1),
    StableHlo.unary main_v184 main_v185 (broadcastInDim S10000x128 ![0, 1] bcast_S1x128_S10000x128_0_1),
    StableHlo.binary main_v181 main_v185 main_v186 mulf,
    StableHlo.unary main_arg12 main_v187 (extractStridedSlice S1x128 ![1, 0] · slices_S3x128_S1x128_1_0),
    StableHlo.reshape main_v187 main_v188 rfl shapeCasts_S1x128_S128,
    StableHlo.unary main_v188 main_v189 (broadcastInDim S1x128 ![1] bcast_S128_S1x128_1),
    StableHlo.unary main_v189 main_v190 (broadcastInDim S10000x128 ![0, 1] bcast_S1x128_S10000x128_0_1),
    StableHlo.binary main_v186 main_v190 main_v191 addf,
    StableHlo.nullary main_cst_22 (constant S_ .f32 0x00000000#32),
    StableHlo.unary main_cst_22 main_v192 (broadcastInDim S10000x128 ![] bcast_S_S10000x128),
    StableHlo.binary main_v191 main_v192 main_v193 maximumf,
    StableHlo.unary main_arg5 main_v194 (extractStridedSlice S1x6x128 ![2, 0, 0] · slices_S3x6x128_S1x6x128_2_0_0),
    StableHlo.reshape main_v194 main_v195 rfl shapeCasts_S1x6x128_S6x128,
    StableHlo.unary main_v195 main_v196 (broadcastInDim S6x1x128 ![0, 2] bcast_S6x128_S6x1x128_0_2),
    StableHlo.unary main_arg6 main_v197 (extractStridedSlice S1x3x128 ![2, 0, 0] · slices_S3x3x128_S1x3x128_2_0_0),
    StableHlo.reshape main_v197 main_v198 rfl shapeCasts_S1x3x128_S3x128,
    StableHlo.unary main_v198 main_v199 (broadcastInDim S1x3x128 ![1, 2] bcast_S3x128_S1x3x128_1_2),
    StableHlo.unary main_v196 main_v200 (broadcastInDim S6x3x128 ![0, 1, 2] bcast_S6x1x128_S6x3x128_0_1_2),
    StableHlo.unary main_v199 main_v201 (broadcastInDim S6x3x128 ![0, 1, 2] bcast_S1x3x128_S6x3x128_0_1_2),
    StableHlo.binary main_v200 main_v201 main_v202 addf,
    StableHlo.reshape main_v202 main_v203 rfl shapeCasts_S6x3x128_S18x128,
    StableHlo.reshape main_v203 main_v204 rfl shapeCasts_S18x128_S1x18x1x128,
    StableHlo.unary main_v204 main_v205 (broadcastInDim S32x18x1x128 ![0, 1, 2, 3] bcast_S1x18x1x128_S32x18x1x128_0_1_2_3),
    StableHlo.reshape main_v205 main_v206 rfl shapeCasts_S32x18x1x128_S576x128 ]

abbrev opsA4 : List (HloOp τ sig (Elt F)) :=
  [ StableHlo.nullary main_cst_23 (constant S_ .f32 0x00000000#32),
    StableHlo.unary main_cst_23 main_v208 (broadcastInDim S10000x128 ![] bcast_S_S10000x128),
    StableHlo.unary main_v28 main_v209 (broadcastInDim S320000x1 ![0] bcast_S320000_S320000x1_0),
    StableHlo.ternary main_v208 main_v209 main_v207 main_v210 (fun x i u => Host.scatterAdd scatter_S10000x128_S320000x1_S320000x128_1_0_0_1 x i u),
    StableHlo.unary main_arg5 main_v211 (extractStridedSlice S1x6x128 ![2, 0, 0] · slices_S3x6x128_S1x6x128_2_0_0),
    StableHlo.reshape main_v211 main_v212 rfl shapeCasts_S1x6x128_S6x128,
    StableHlo.unary main_v212 main_v213 (extractStridedSlice S1x128 ![4, 0] · slices_S6x128_S1x128_4_0),
    StableHlo.reshape main_v213 main_v214 rfl shapeCasts_S1x128_S128,
    StableHlo.unary main_arg6 main_v215 (extractStridedSlice S1x3x128 ![2, 0, 0] · slices_S3x3x128_S1x3x128_2_0_0),
    StableHlo.reshape main_v215 main_v216 rfl shapeCasts_S1x3x128_S3x128,
    StableHlo.unary main_v216 main_v217 (extractStridedSlice S1x128 ![0, 0] · slices_S3x128_S1x128_0_0),
    StableHlo.reshape main_v217 main_v218 rfl shapeCasts_S1x128_S128,
    StableHlo.binary main_v214 main_v218 main_v219 addf,
    StableHlo.binary main_v210 main_v193 main_v220 addf,
    StableHlo.unary main_v219 main_v221 (broadcastInDim S1x128 ![1] bcast_S128_S1x128_1),
    StableHlo.unary main_v221 main_v222 (broadcastInDim S10000x128 ![0, 1] bcast_S1x128_S10000x128_0_1),
    StableHlo.binary main_v220 main_v222 main_v223 addf,
    StableHlo.unary main_arg7 main_v224 (extractStridedSlice S1x128x256 ![2, 0, 0] · slices_S3x128x256_S1x128x256_2_0_0),
    StableHlo.reshape main_v224 main_v225 rfl shapeCasts_S1x128x256_S128x256,
    StableHlo.binary main_v223 main_v225 main_v226 (fun l r => Host.dotGeneral dot_S10000x128_S128x256_S10000x256_1_0_0_1_n_n none l r),
    StableHlo.unary main_arg8 main_v227 (extractStridedSlice S1x256 ![2, 0] · slices_S3x256_S1x256_2_0),
    StableHlo.reshape main_v227 main_v228 rfl shapeCasts_S1x256_S256,
    StableHlo.unary main_v228 main_v229 (broadcastInDim S1x256 ![1] bcast_S256_S1x256_1),
    StableHlo.unary main_v229 main_v230 (broadcastInDim S10000x256 ![0, 1] bcast_S1x256_S10000x256_0_1),
    StableHlo.binary main_v226 main_v230 main_v231 addf,
    StableHlo.nullary main_cst_24 (constant S_ .f32 0x00000000#32),
    StableHlo.unary main_cst_24 main_v232 (broadcastInDim S10000x256 ![] bcast_S_S10000x256),
    StableHlo.binary main_v231 main_v232 main_v233 maximumf,
    StableHlo.unary main_arg9 main_v234 (extractStridedSlice S1x256x128 ![2, 0, 0] · slices_S3x256x128_S1x256x128_2_0_0),
    StableHlo.reshape main_v234 main_v235 rfl shapeCasts_S1x256x128_S256x128,
    StableHlo.binary main_v233 main_v235 main_v236 (fun l r => Host.dotGeneral dot_S10000x256_S256x128_S10000x128_1_0_0_1_n_n none l r),
    StableHlo.unary main_arg10 main_v237 (extractStridedSlice S1x128 ![2, 0] · slices_S3x128_S1x128_2_0),
    StableHlo.reshape main_v237 main_v238 rfl shapeCasts_S1x128_S128,
    StableHlo.unary main_v238 main_v239 (broadcastInDim S1x128 ![1] bcast_S128_S1x128_1),
    StableHlo.unary main_v239 main_v240 (broadcastInDim S10000x128 ![0, 1] bcast_S1x128_S10000x128_0_1),
    StableHlo.binary main_v236 main_v240 main_v241 addf,
    StableHlo.nullary main_cst_25 (constant S_ .f32 0x00000000#32),
    StableHlo.binary main_v241 main_cst_25 main_v242 (fun x v => Host.reduceAdd x v reducesTo_S10000x128_S128_d0 h_S_),
    StableHlo.nullary main_cst_26 (constant S_ .f32 0x461C4000#32),
    StableHlo.unary main_cst_26 main_v243 (broadcastInDim S128 ![] bcast_S_S128),
    StableHlo.binary main_v242 main_v243 main_v244 Host.divf,
    StableHlo.nullary main_c_27 (constantI S_ 32 0#32),
    StableHlo.TRef.nullary main_call4.cst (constant S_ .f32 0x00000000#32),
    StableHlo.TRef.binary (.of main_v241) main_call4.cst main_call4.v0 (fun x v => Host.reduceAdd x v reducesTo_S10000x128_S128_d0 h_S_),
    StableHlo.TRef.unary main_call4.v0 main_call4.v1 (broadcastInDim S1x128 ![1] bcast_S128_S1x128_1),
    StableHlo.TRef.nullary main_call4.cst_0 (constant S_ .f32 0x461C4000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S10000x128 ![0, 1] bcast_S1x128_S10000x128_0_1),
    StableHlo.TRef.binary (.of main_v241) main_call4.v4 main_call4.v5 subf,
    StableHlo.TRef.binary main_call4.v5 main_call4.v5 main_call4.v6 mulf,
    StableHlo.TRef.unary (.of main_c_27) main_call4.v7 (sitofp .f32),
    StableHlo.TRef.nullary main_call4.cst_1 (constant S_ .f32 0x461C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v244 main_v246 (broadcastInDim S1x128 ![1] bcast_S128_S1x128_1),
    StableHlo.unary main_v246 main_v247 (broadcastInDim S10000x128 ![0, 1] bcast_S1x128_S10000x128_0_1),
    StableHlo.binary main_v241 main_v247 main_v248 subf,
    StableHlo.nullary main_cst_28 (constant S_ .f32 0x3727C5AC#32),
    StableHlo.unary main_cst_28 main_v249 (broadcastInDim S128 ![] bcast_S_S128),
    StableHlo.binary main_v245 main_v249 main_v250 addf,
    StableHlo.unary main_v250 main_v251 Host.sqrt,
    StableHlo.unary main_v251 main_v252 (broadcastInDim S1x128 ![1] bcast_S128_S1x128_1),
    StableHlo.unary main_v252 main_v253 (broadcastInDim S10000x128 ![0, 1] bcast_S1x128_S10000x128_0_1),
    StableHlo.binary main_v248 main_v253 main_v254 Host.divf,
    StableHlo.unary main_arg11 main_v255 (extractStridedSlice S1x128 ![2, 0] · slices_S3x128_S1x128_2_0),
    StableHlo.reshape main_v255 main_v256 rfl shapeCasts_S1x128_S128,
    StableHlo.unary main_v256 main_v257 (broadcastInDim S1x128 ![1] bcast_S128_S1x128_1),
    StableHlo.unary main_v257 main_v258 (broadcastInDim S10000x128 ![0, 1] bcast_S1x128_S10000x128_0_1),
    StableHlo.binary main_v254 main_v258 main_v259 mulf,
    StableHlo.unary main_arg12 main_v260 (extractStridedSlice S1x128 ![2, 0] · slices_S3x128_S1x128_2_0),
    StableHlo.reshape main_v260 main_v261 rfl shapeCasts_S1x128_S128,
    StableHlo.unary main_v261 main_v262 (broadcastInDim S1x128 ![1] bcast_S128_S1x128_1),
    StableHlo.unary main_v262 main_v263 (broadcastInDim S10000x128 ![0, 1] bcast_S1x128_S10000x128_0_1),
    StableHlo.binary main_v259 main_v263 main_v264 addf,
    StableHlo.nullary main_cst_29 (constant S_ .f32 0x00000000#32),
    StableHlo.binary main_v264 main_cst_29 main_v265 (fun x v => Host.reduceAdd x v reducesTo_S10000x128_S128_d0 h_S_),
    StableHlo.unary main_v265 main_v266 (broadcastInDim S1x128 ![1] bcast_S128_S1x128_1),
    StableHlo.nullary main_cst_30 (constant S_ .f32 0x461C4000#32),
    StableHlo.unary main_cst_30 main_v267 (broadcastInDim S1x128 ![] bcast_S_S1x128),
    StableHlo.binary main_v266 main_v267 main_v268 Host.divf ]

theorem opsA_lengths : [(opsA0 (F := F)).length, (opsA1 (F := F)).length, (opsA2 (F := F)).length, (opsA3 (F := F)).length, (opsA4 (F := F)).length] = [10, 79, 100, 100, 90] := rfl

end Cert.Kernel.Hand

end
-- ==== Proof.KB.Base.lean ====
import proofs.«208129_g65403761983635_cont_9to1_m_1354_7_alg».proof.Kernel
import proofs.«208129_g65403761983635_cont_9to1_m_1354_7_alg».proof.Proof.Gen.Kernel
import proofs.«208129_g65403761983635_cont_9to1_m_1354_7_alg».proof.Proof.KB.Ops
import Idealize.ShloMosaic.Lib.SparseCore.Launch
import Idealize.ShloMosaic.Lib.StableHlo.Run
import Idealize.ShloMosaic.Lib.Pipeline.Kit
import Idealize.ShloMosaic.Lib.ValueIdx
import Idealize.ShloMosaic.Lib.Tactic

noncomputable section

namespace Cert.Kernel.Hand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after)

variable {F : FTy → Type}

abbrev ΛP : Labels := Pipeline.Sig Λ₀ (Fin 0) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 4) (Elt F) ℕ UU ℕ

abbrev EH : Emb UH (MT nD τ sig (HIx 4) (Elt F) ℕ UU ℕ) := embL

def rowOf (z : ℕ) (hz : 0 < z) (w : BitVec 32) : Fin z := if h : w.toNat < z then ⟨w.toNat, h⟩ else ⟨0, hz⟩

def gadd [FloatOps F] {R1 R2 N : ℕ} (h1 : 0 < R1) (h2 : 0 < R2) (t1 : Vec F ⟨2, ![R1, 128]⟩ .f32) (i1 : Vec F ⟨1, ![N]⟩ .i32)
    (t2 : Vec F ⟨2, ![R2, 128]⟩ .f32) (i2 : Vec F ⟨1, ![N]⟩ .i32) : Vec F ⟨2, ![N, 128]⟩ .f32 :=
  fun j => FloatOps.addf (φ := .f32)
    (t1 (ValueIdx.ix2 (rowOf R1 h1 (i1 (ValueIdx.ix1 (n := N) (j 0)))) (j 1)))
    (t2 (ValueIdx.ix2 (rowOf R2 h2 (i2 (ValueIdx.ix1 (n := N) (j 0)))) (j 1)))

variable [FloatOps F]

abbrev r (b : Ref sig .tc) : DevRef τ sig := Proc.devRef .tc b
abbrev tLoc (d : Dev nD) (b : Ref sig .tc) : Loc nD τ sig := (SparseCore.T d).loc b

abbrev Val' : Type := Valuation τ sig (Elt F)

def VA0 (V : Valuation τ sig (Elt F)) : Valuation τ sig (Elt F) := after opsA0 V
def out0 (V : Valuation τ sig (Elt F)) : Vec F S10240x128 .f32 :=
  gadd (R1 := 119) (R2 := 4) (N := 10240) (by decide) (by decide) (VA0 V (r main_arg3)) (VA0 V (r main_v3)) (VA0 V (r main_arg4)) (VA0 V (r main_v7))
def VB0 (V : Valuation τ sig (Elt F)) : Valuation τ sig (Elt F) := Function.update (VA0 V) (r main_v8) (out0 V)
def VA1 (V : Valuation τ sig (Elt F)) : Valuation τ sig (Elt F) := after opsA1 (VB0 V)
def out1 (V : Valuation τ sig (Elt F)) : Vec F S320000x128 .f32 :=
  gadd (R1 := 10000) (R2 := 576) (N := 320000) (by decide) (by decide) (VA1 V (r main_v9)) (VA1 V (r main_v21)) (VA1 V (r main_v60)) (VA1 V (r main_v47))
def VB1 (V : Valuation τ sig (Elt F)) : Valuation τ sig (Elt F) := Function.update (VA1 V) (r main_v61) (out1 V)
def VA2 (V : Valuation τ sig (Elt F)) : Valuation τ sig (Elt F) := after opsA2 (VB1 V)
def out2 (V : Valuation τ sig (Elt F)) : Vec F S320000x128 .f32 :=
  gadd (R1 := 10000) (R2 := 576) (N := 320000) (by decide) (by decide) (VA2 V (r main_v120)) (VA2 V (r main_v21)) (VA2 V (r main_v133)) (VA2 V (r main_v47))
def VB2 (V : Valuation τ sig (Elt F)) : Valuation τ sig (Elt F) := Function.update (VA2 V) (r main_v134) (out2 V)
def VA3 (V : Valuation τ sig (Elt F)) : Valuation τ sig (Elt F) := after opsA3 (VB2 V)
def out3 (V : Valuation τ sig (Elt F)) : Vec F S320000x128 .f32 :=
  gadd (R1 := 10000) (R2 := 576) (N := 320000) (by decide) (by decide) (VA3 V (r main_v193)) (VA3 V (r main_v21)) (VA3 V (r main_v206)) (VA3 V (r main_v47))
def VB3 (V : Valuation τ sig (Elt F)) : Valuation τ sig (Elt F) := Function.update (VA3 V) (r main_v207) (out3 V)
def VA4 (V : Valuation τ sig (Elt F)) : Valuation τ sig (Elt F) := after opsA4 (VB3 V)

structure PreOK (V : Valuation τ sig (Elt F)) : Prop where
  h0a : ∀ j : S10240.Idx, ((VA0 V (r main_v3) : Vec F S10240 .i32) j).toNat < 119
  h0b : ∀ j : S10240.Idx, ((VA0 V (r main_v7) : Vec F S10240 .i32) j).toNat < 4
  h1a : ∀ j : S320000.Idx, ((VA1 V (r main_v21) : Vec F S320000 .i32) j).toNat < 10000
  h1b : ∀ j : S320000.Idx, ((VA1 V (r main_v47) : Vec F S320000 .i32) j).toNat < 576
  h2a : ∀ j : S320000.Idx, ((VA2 V (r main_v21) : Vec F S320000 .i32) j).toNat < 10000
  h2b : ∀ j : S320000.Idx, ((VA2 V (r main_v47) : Vec F S320000 .i32) j).toNat < 576
  h3a : ∀ j : S320000.Idx, ((VA3 V (r main_v21) : Vec F S320000 .i32) j).toNat < 10000
  h3b : ∀ j : S320000.Idx, ((VA3 V (r main_v47) : Vec F S320000 .i32) j).toNat < 576

def splitShare (q : PosShare TreeShare) : (n : ℕ) → ℕ → PosShare TreeShare
  | 0, _ => q
  | n + 1, k => splitShare (if k % 2 = 0 then q.left else q.right) n (k / 2)

abbrev coreShare (c : ℕ) : PosShare TreeShare := splitShare fullShare 1 c
abbrev tileShare (c i : ℕ) : PosShare TreeShare := splitShare (coreShare c) 4 i

theorem hdiv0 : 32 ∣ S10240x128.size 0 := ⟨320, rfl⟩
theorem hdiv1 : 800 ∣ S320000x128.size 0 := ⟨400, rfl⟩

def part0N (p : ℕ) : Finset S10240x128.Idx := if h : p < 32 then (Rect.part (s := S10240x128) (a₀ := 0) hdiv0 ⟨p, h⟩).set else ∅

def part1N (p : ℕ) : Finset S320000x128.Idx := if h : p < 800 then (Rect.part (s := S320000x128) (a₀ := 0) hdiv1 ⟨p, h⟩).set else ∅

variable (m : (ℓ : Loc nD τ sig) → Buf (Elt F) ℓ)

abbrev V0 (d : Dev nD) : Valuation τ sig (Elt F) := StableHlo.launchContents m d

def ins (d : Dev nD) (t1 i1 t2 i2 : Ref sig .tc) (W : Valuation τ sig (Elt F)) (q : PosShare TreeShare) : sProp 𝕄 :=
  iprop((tLoc d t1 ↦{q} W (r t1)) ∗ (tLoc d i1 ↦{q} W (r i1)) ∗ (tLoc d t2 ↦{q} W (r t2)) ∗ (tLoc d i2 ↦{q} W (r i2)))

def outs0 (d : Dev nD) (c i : ℕ) (f : Vec F S10240x128 .f32) : sProp 𝕄 := tLoc d main_v8 ↦[part0N (2 * i + c)]{fullShare} f
def outs1 (d : Dev nD) (c i : ℕ) (f : Vec F S320000x128 .f32) : sProp 𝕄 :=
  bigSep (Finset.univ : Finset (Fin 25)) fun t => tLoc d main_v61 ↦[part1N (50 * i + 25 * c + t.val)]{fullShare} f
def outs2 (d : Dev nD) (c i : ℕ) (f : Vec F S320000x128 .f32) : sProp 𝕄 :=
  bigSep (Finset.univ : Finset (Fin 25)) fun t => tLoc d main_v134 ↦[part1N (50 * i + 25 * c + t.val)]{fullShare} f
def outs3 (d : Dev nD) (c i : ℕ) (f : Vec F S320000x128 .f32) : sProp 𝕄 :=
  bigSep (Finset.univ : Finset (Fin 25)) fun t => tLoc d main_v207 ↦[part1N (50 * i + 25 * c + t.val)]{fullShare} f

def tilePay (d : Dev nD) (q : Fin 4) (c i : ℕ) (after : Bool) : sProp 𝕄 :=
  match q with
  | 0 => iprop(ins d main_arg3 main_v3 main_arg4 main_v7 (VA0 (V0 m d)) (tileShare c i)
      ∗ outs0 d c i (if after then out0 (V0 m d) else VA0 (V0 m d) (r main_v8)))
  | 1 => iprop(ins d main_v9 main_v21 main_v60 main_v47 (VA1 (V0 m d)) (tileShare c i)
      ∗ outs1 d c i (if after then out1 (V0 m d) else VA1 (V0 m d) (r main_v61)))
  | 2 => iprop(ins d main_v120 main_v21 main_v133 main_v47 (VA2 (V0 m d)) (tileShare c i)
      ∗ outs2 d c i (if after then out2 (V0 m d) else VA2 (V0 m d) (r main_v134)))
  | 3 => iprop(ins d main_v193 main_v21 main_v206 main_v47 (VA3 (V0 m d)) (tileShare c i)
      ∗ outs3 d c i (if after then out3 (V0 m d) else VA3 (V0 m d) (r main_v207)))

def corePay (d : Dev nD) (q : Fin 4) (c : ℕ) (after : Bool) : sProp 𝕄 :=
  match q with
  | 0 => iprop(ins d main_arg3 main_v3 main_arg4 main_v7 (VA0 (V0 m d)) (coreShare c)
      ∗ bigSep (Finset.univ : Finset (Fin 16)) fun i => outs0 d c i.val (if after then out0 (V0 m d) else VA0 (V0 m d) (r main_v8)))
  | 1 => iprop(ins d main_v9 main_v21 main_v60 main_v47 (VA1 (V0 m d)) (coreShare c)
      ∗ bigSep (Finset.univ : Finset (Fin 16)) fun i => outs1 d c i.val (if after then out1 (V0 m d) else VA1 (V0 m d) (r main_v61)))
  | 2 => iprop(ins d main_v120 main_v21 main_v133 main_v47 (VA2 (V0 m d)) (coreShare c)
      ∗ bigSep (Finset.univ : Finset (Fin 16)) fun i => outs2 d c i.val (if after then out2 (V0 m d) else VA2 (V0 m d) (r main_v134)))
  | 3 => iprop(ins d main_v193 main_v21 main_v206 main_v47 (VA3 (V0 m d)) (coreShare c)
      ∗ bigSep (Finset.univ : Finset (Fin 16)) fun i => outs3 d c i.val (if after then out3 (V0 m d) else VA3 (V0 m d) (r main_v207)))

def P : (K (F := F)).Pay (nD := nD) (Val := Elt F) (Name := ℕ) (U := UU) where
  st := fun q d c => corePay m d q c.val false
  dn := fun q d c => corePay m d q c.val true
  go := fun q d c i => tilePay m d q c.val i.val false
  td := fun q d c i => tilePay m d q c.val i.val true
  x := fun _ _ => iprop(emp)

end Cert.Kernel.Hand

end
-- ==== Proof.KB.Split.lean ====
import proofs.«208129_g65403761983635_cont_9to1_m_1354_7_alg».proof.Proof.KB.Base

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

theorem bigSep_fin_mul (a b : ℕ) (Φ : ℕ → sProp 𝕄) :
    (bigSep (Finset.univ : Finset (Fin (a * b))) fun p => Φ p.val)
      = bigSep (Finset.univ : Finset (Fin a)) fun x => bigSep (Finset.univ : Finset (Fin b)) fun y => Φ (y.val + b * x.val) := by
  rw [bigSep_univ_equiv (finProdFinEquiv (m := a) (n := b)) (fun p : Fin (a * b) => Φ p.val), bigSep_univ_prod]
  rfl

theorem bigSep_fin_mul' {N : ℕ} (a b : ℕ) (h : N = a * b) (Φ : ℕ → sProp 𝕄) :
    (bigSep (Finset.univ : Finset (Fin N)) fun p => Φ p.val)
      = bigSep (Finset.univ : Finset (Fin a)) fun x => bigSep (Finset.univ : Finset (Fin b)) fun y => Φ (y.val + b * x.val) := by
  subst h; exact bigSep_fin_mul a b Φ

theorem pointsTo_splitShare {ℓ : Loc nD τ sig} (I : Finset (Idx ℓ)) (f : Buf (Elt F) ℓ) (n : ℕ) :
    ∀ q : PosShare TreeShare,
      (ℓ ↦[I]{q} f : sProp 𝕄) = bigSep (Finset.univ : Finset (Fin (2 ^ n))) fun k => ℓ ↦[I]{splitShare q n k.val} f := by
  induction n with
  | zero =>
    intro q
    haveI : Subsingleton (Fin (2 ^ 0)) := (inferInstance : Subsingleton (Fin 1))
    rw [bigSep_univ_of_subsingleton (⟨0, Nat.one_pos⟩ : Fin (2 ^ 0))]; rfl
  | succ n ih =>
    intro q
    rw [bigSep_fin_mul' (2 ^ n) 2 (pow_succ 2 n) (fun k => (ℓ ↦[I]{splitShare q (n + 1) k} f : sProp 𝕄)),
      bigSep_univ_comm, bigSep_univ_two]
    have h0 : ∀ x : Fin (2 ^ n), splitShare q (n + 1) ((0 : Fin 2).val + 2 * x.val) = splitShare q.left n x.val := by
      intro x
      show splitShare (if (0 + 2 * x.val) % 2 = 0 then q.left else q.right) n ((0 + 2 * x.val) / 2) = _
      rw [if_pos (by omega), show (0 + 2 * x.val) / 2 = x.val by omega]
    have h1 : ∀ x : Fin (2 ^ n), splitShare q (n + 1) ((1 : Fin 2).val + 2 * x.val) = splitShare q.right n x.val := by
      intro x
      show splitShare (if (1 + 2 * x.val) % 2 = 0 then q.left else q.right) n ((1 + 2 * x.val) / 2) = _
      rw [if_neg (by omega), show (1 + 2 * x.val) / 2 = x.val by omega]
    simp only [h0, h1]
    rw [← ih q.left, ← ih q.right]
    have hs : (ℓ ↦[I]{q} f : sProp 𝕄) ⊣⊢ iprop((ℓ ↦[I]{q.left} f) ∗ ℓ ↦[I]{q.right} f) := pointsTo_share (PosShare.mem_left_op_right q)
    exact BI.equiv_iff.mp ⟨hs.1, hs.2⟩

theorem ins_split (d : Dev nD) (t1 i1 t2 i2 : Ref sig .tc) (W : Valuation τ sig (Elt F)) (n : ℕ) (q : PosShare TreeShare) :
    (ins d t1 i1 t2 i2 W q : sProp 𝕄)
      = bigSep (Finset.univ : Finset (Fin (2 ^ n))) fun k => ins d t1 i1 t2 i2 W (splitShare q n k.val) := by
  unfold ins
  rw [bigSep_sep', bigSep_sep', bigSep_sep', ← pointsTo_splitShare, ← pointsTo_splitShare, ← pointsTo_splitShare, ← pointsTo_splitShare]

theorem out0_cores (d : Dev nD) (f : Vec F S10240x128 .f32) :
    (tLoc d main_v8 ↦{fullShare} f : sProp 𝕄)
      = bigSep (Finset.univ : Finset (Fin 2)) fun c => bigSep (Finset.univ : Finset (Fin 16)) fun i => outs0 d c.val i.val f := by
  have hp : ∀ p : Fin 32, part0N p.val = (Rect.part (s := S10240x128) (a₀ := 0) hdiv0 p).set := fun p => dif_pos p.isLt
  have h1 : (tLoc d main_v8 ↦{fullShare} f : sProp 𝕄)
      = bigSep (Finset.univ : Finset (Fin 32)) fun p => tLoc d main_v8 ↦[part0N p.val]{fullShare} f := by
    simp only [hp]
    rw [← pointsTo_biUnion Finset.univ (ℓ := tLoc d main_v8) (fun p : Fin 32 => (Rect.part (s := S10240x128) (a₀ := 0) hdiv0 p).set)
      (fun p _ p' _ h => Rect.part_disjoint hdiv0 h), Rect.biUnion_part]
  rw [h1, bigSep_fin_mul' 16 2 rfl (fun p => (tLoc d main_v8 ↦[part0N p]{fullShare} f : sProp 𝕄)), bigSep_univ_comm]
  refine bigSep_congr fun c _ => bigSep_congr fun i _ => ?_
  unfold outs0
  rw [show c.val + 2 * i.val = 2 * i.val + c.val from Nat.add_comm _ _]

/-- What splits over the 800 parts of 400 rows, regrouped by core c, tile i and chunk t (part 50 i + 25 c + t). -/
theorem cores_of_parts (Φ : Finset S320000x128.Idx → sProp 𝕄)
    (hΦ : Φ Finset.univ = bigSep Finset.univ fun p : Fin 800 => Φ (Rect.part (s := S320000x128) (a₀ := 0) hdiv1 p).set) :
    Φ Finset.univ = bigSep (Finset.univ : Finset (Fin 2)) fun c => bigSep (Finset.univ : Finset (Fin 16)) fun i =>
      bigSep (Finset.univ : Finset (Fin 25)) fun t => Φ (part1N (50 * i.val + 25 * c.val + t.val)) := by
  have hp : ∀ p : Fin 800, part1N p.val = (Rect.part (s := S320000x128) (a₀ := 0) hdiv1 p).set := fun p => dif_pos p.isLt
  have h1 : Φ Finset.univ = bigSep (Finset.univ : Finset (Fin 800)) fun p => Φ (part1N p.val) := by
    simp only [hp]
    exact hΦ
  rw [h1, bigSep_fin_mul' 16 50 rfl (fun p => Φ (part1N p))]
  have h2 : ∀ x : Fin 16, (bigSep (Finset.univ : Finset (Fin 50)) fun y => Φ (part1N (y.val + 50 * x.val)))
      = bigSep (Finset.univ : Finset (Fin 2)) fun c => bigSep (Finset.univ : Finset (Fin 25)) fun t => Φ (part1N (50 * x.val + 25 * c.val + t.val)) := by
    intro x
    rw [bigSep_fin_mul' 2 25 rfl (fun u => Φ (part1N (u + 50 * x.val)))]
    refine bigSep_congr fun c _ => bigSep_congr fun t _ => ?_
    rw [show t.val + 25 * c.val + 50 * x.val = 50 * x.val + 25 * c.val + t.val by omega]
  simp only [h2]
  exact bigSep_univ_comm _

theorem out1_cores (d : Dev nD) (f : Vec F S320000x128 .f32) :
    (tLoc d main_v61 ↦{fullShare} f : sProp 𝕄)
      = bigSep (Finset.univ : Finset (Fin 2)) fun c => bigSep (Finset.univ : Finset (Fin 16)) fun i => outs1 d c.val i.val f := by
  unfold outs1
  refine cores_of_parts (fun I => tLoc d main_v61 ↦[I]{fullShare} f) ?_
  beta_reduce
  rw [← pointsTo_biUnion Finset.univ (ℓ := tLoc d main_v61) (fun p : Fin 800 => (Rect.part (s := S320000x128) (a₀ := 0) hdiv1 p).set)
    (fun p _ p' _ h => Rect.part_disjoint hdiv1 h), Rect.biUnion_part]

theorem out2_cores (d : Dev nD) (f : Vec F S320000x128 .f32) :
    (tLoc d main_v134 ↦{fullShare} f : sProp 𝕄)
      = bigSep (Finset.univ : Finset (Fin 2)) fun c => bigSep (Finset.univ : Finset (Fin 16)) fun i => outs2 d c.val i.val f := by
  unfold outs2
  refine cores_of_parts (fun I => tLoc d main_v134 ↦[I]{fullShare} f) ?_
  beta_reduce
  rw [← pointsTo_biUnion Finset.univ (ℓ := tLoc d main_v134) (fun p : Fin 800 => (Rect.part (s := S320000x128) (a₀ := 0) hdiv1 p).set)
    (fun p _ p' _ h => Rect.part_disjoint hdiv1 h), Rect.biUnion_part]

theorem out3_cores (d : Dev nD) (f : Vec F S320000x128 .f32) :
    (tLoc d main_v207 ↦{fullShare} f : sProp 𝕄)
      = bigSep (Finset.univ : Finset (Fin 2)) fun c => bigSep (Finset.univ : Finset (Fin 16)) fun i => outs3 d c.val i.val f := by
  unfold outs3
  refine cores_of_parts (fun I => tLoc d main_v207 ↦[I]{fullShare} f) ?_
  beta_reduce
  rw [← pointsTo_biUnion Finset.univ (ℓ := tLoc d main_v207) (fun p : Fin 800 => (Rect.part (s := S320000x128) (a₀ := 0) hdiv1 p).set)
    (fun p _ p' _ h => Rect.part_disjoint hdiv1 h), Rect.biUnion_part]

theorem ins_tiles (d : Dev nD) (t1 i1 t2 i2 : Ref sig .tc) (W : Valuation τ sig (Elt F)) (c : ℕ) :
    (ins d t1 i1 t2 i2 W (coreShare c) : sProp 𝕄)
      = bigSep (Finset.univ : Finset (Fin 16)) fun i => ins d t1 i1 t2 i2 W (tileShare c i.val) :=
  ins_split d t1 i1 t2 i2 W 4 (coreShare c)

theorem ins_cores (d : Dev nD) (t1 i1 t2 i2 : Ref sig .tc) (W : Valuation τ sig (Elt F)) :
    (ins d t1 i1 t2 i2 W fullShare : sProp 𝕄)
      = bigSep (Finset.univ : Finset (Fin 2)) fun c => ins d t1 i1 t2 i2 W (coreShare c.val) :=
  ins_split d t1 i1 t2 i2 W 1 fullShare

theorem corePay_tiles (d : Dev nD) (q : Fin 4) (c : ℕ) (b : Bool) :
    corePay m d q c b = bigSep (Finset.univ : Finset (Fin 16)) fun i => tilePay m d q c i.val b := by
  match q with
  | 0 | 1 | 2 | 3 => simp only [corePay, tilePay]; rw [bigSep_sep', ← ins_tiles]

theorem whole0 (d : Dev nD) (f : Vec F S10240x128 .f32) :
    (iprop(ins d main_arg3 main_v3 main_arg4 main_v7 (VA0 (V0 m d)) fullShare ∗ tLoc d main_v8 ↦{fullShare} f) : sProp 𝕄)
      = bigSep (Finset.univ : Finset (Fin 2)) fun c => iprop(ins d main_arg3 main_v3 main_arg4 main_v7 (VA0 (V0 m d)) (coreShare c.val)
          ∗ bigSep (Finset.univ : Finset (Fin 16)) fun i => outs0 d c.val i.val f) := by
  rw [bigSep_sep', ← ins_cores, ← out0_cores]

theorem whole1 (d : Dev nD) (f : Vec F S320000x128 .f32) :
    (iprop(ins d main_v9 main_v21 main_v60 main_v47 (VA1 (V0 m d)) fullShare ∗ tLoc d main_v61 ↦{fullShare} f) : sProp 𝕄)
      = bigSep (Finset.univ : Finset (Fin 2)) fun c => iprop(ins d main_v9 main_v21 main_v60 main_v47 (VA1 (V0 m d)) (coreShare c.val)
          ∗ bigSep (Finset.univ : Finset (Fin 16)) fun i => outs1 d c.val i.val f) := by
  rw [bigSep_sep', ← ins_cores, ← out1_cores]

theorem whole2 (d : Dev nD) (f : Vec F S320000x128 .f32) :
    (iprop(ins d main_v120 main_v21 main_v133 main_v47 (VA2 (V0 m d)) fullShare ∗ tLoc d main_v134 ↦{fullShare} f) : sProp 𝕄)
      = bigSep (Finset.univ : Finset (Fin 2)) fun c => iprop(ins d main_v120 main_v21 main_v133 main_v47 (VA2 (V0 m d)) (coreShare c.val)
          ∗ bigSep (Finset.univ : Finset (Fin 16)) fun i => outs2 d c.val i.val f) := by
  rw [bigSep_sep', ← ins_cores, ← out2_cores]

theorem whole3 (d : Dev nD) (f : Vec F S320000x128 .f32) :
    (iprop(ins d main_v193 main_v21 main_v206 main_v47 (VA3 (V0 m d)) fullShare ∗ tLoc d main_v207 ↦{fullShare} f) : sProp 𝕄)
      = bigSep (Finset.univ : Finset (Fin 2)) fun c => iprop(ins d main_v193 main_v21 main_v206 main_v47 (VA3 (V0 m d)) (coreShare c.val)
          ∗ bigSep (Finset.univ : Finset (Fin 16)) fun i => outs3 d c.val i.val f) := by
  rw [bigSep_sep', ← ins_cores, ← out3_cores]

instance corePay_storable (d : Dev nD) (q : Fin 4) (c : ℕ) (b : Bool) : BI.Storable (upEmb : UEmb _ 𝕄) (corePay m d q c b) := by
  match q with
  | 0 | 1 | 2 | 3 => simp only [corePay, ins, outs0, outs1, outs2, outs3]; infer_instance

instance tilePay_storable (d : Dev nD) (q : Fin 4) (c i : ℕ) (b : Bool) : BI.Storable (upEmb : UEmb _ 𝕄) (tilePay m d q c i b) := by
  match q with
  | 0 | 1 | 2 | 3 => simp only [tilePay, ins, outs0, outs1, outs2, outs3]; infer_instance

instance P_storable : (P (F := F) m).IsStorable where
  st q d c := corePay_storable m d q c.val false
  dn q d c := corePay_storable m d q c.val true
  go q d c i := tilePay_storable m d q c.val i.val false
  td q d c i := tilePay_storable m d q c.val i.val true

theorem st_tiles : ∀ (q : Fin 4) (d : Dev nD) (c : Fin ((K (F := F)).nCore q)),
    (P m).st q d c = bigSep Finset.univ fun i : Fin ((K (F := F)).nSub q) => (P m).go q d c i
  | 0, d, c => corePay_tiles m d 0 c.val false
  | 1, d, c => corePay_tiles m d 1 c.val false
  | 2, d, c => corePay_tiles m d 2 c.val false
  | 3, d, c => corePay_tiles m d 3 c.val false

theorem dn_tiles : ∀ (q : Fin 4) (d : Dev nD) (c : Fin ((K (F := F)).nCore q)),
    (P m).dn q d c = bigSep Finset.univ fun i : Fin ((K (F := F)).nSub q) => (P m).td q d c i
  | 0, d, c => corePay_tiles m d 0 c.val true
  | 1, d, c => corePay_tiles m d 1 c.val true
  | 2, d, c => corePay_tiles m d 2 c.val true
  | 3, d, c => corePay_tiles m d 3 c.val true

theorem vecSplit (q : Fin 4) : (K (F := F)).VecSplit' (P m) q := by
  intro d c
  rw [st_tiles m q d c, dn_tiles m q d c]
  iintro H
  imodintro
  isplitl [H]; · iexact H
  iintro H; iexact H

theorem st_intro0 (d : Dev nD) :
    iprop(ins d main_arg3 main_v3 main_arg4 main_v7 (VA0 (V0 m d)) fullShare ∗ tLoc d main_v8 ↦{fullShare} VA0 (V0 m d) (r main_v8))
      ⊢ (bigSep Finset.univ fun c : Fin ((K (F := F)).nCore 0) => (P m).st 0 d c : sProp 𝕄) :=
  Entails.of_eq (whole0 m d (VA0 (V0 m d) (r main_v8)))
theorem st_intro1 (d : Dev nD) :
    iprop(ins d main_v9 main_v21 main_v60 main_v47 (VA1 (V0 m d)) fullShare ∗ tLoc d main_v61 ↦{fullShare} VA1 (V0 m d) (r main_v61))
      ⊢ (bigSep Finset.univ fun c : Fin ((K (F := F)).nCore 1) => (P m).st 1 d c : sProp 𝕄) :=
  Entails.of_eq (whole1 m d (VA1 (V0 m d) (r main_v61)))
theorem st_intro2 (d : Dev nD) :
    iprop(ins d main_v120 main_v21 main_v133 main_v47 (VA2 (V0 m d)) fullShare ∗ tLoc d main_v134 ↦{fullShare} VA2 (V0 m d) (r main_v134))
      ⊢ (bigSep Finset.univ fun c : Fin ((K (F := F)).nCore 2) => (P m).st 2 d c : sProp 𝕄) :=
  Entails.of_eq (whole2 m d (VA2 (V0 m d) (r main_v134)))
theorem st_intro3 (d : Dev nD) :
    iprop(ins d main_v193 main_v21 main_v206 main_v47 (VA3 (V0 m d)) fullShare ∗ tLoc d main_v207 ↦{fullShare} VA3 (V0 m d) (r main_v207))
      ⊢ (bigSep Finset.univ fun c : Fin ((K (F := F)).nCore 3) => (P m).st 3 d c : sProp 𝕄) :=
  Entails.of_eq (whole3 m d (VA3 (V0 m d) (r main_v207)))

theorem dn_elim0 (d : Dev nD) :
    (bigSep Finset.univ fun c : Fin ((K (F := F)).nCore 0) => (P m).dn 0 d c : sProp 𝕄)
      ⊢ iprop(ins d main_arg3 main_v3 main_arg4 main_v7 (VA0 (V0 m d)) fullShare ∗ tLoc d main_v8 ↦{fullShare} out0 (V0 m d)) :=
  Entails.of_eq (whole0 m d (out0 (V0 m d))).symm
theorem dn_elim1 (d : Dev nD) :
    (bigSep Finset.univ fun c : Fin ((K (F := F)).nCore 1) => (P m).dn 1 d c : sProp 𝕄)
      ⊢ iprop(ins d main_v9 main_v21 main_v60 main_v47 (VA1 (V0 m d)) fullShare ∗ tLoc d main_v61 ↦{fullShare} out1 (V0 m d)) :=
  Entails.of_eq (whole1 m d (out1 (V0 m d))).symm
theorem dn_elim2 (d : Dev nD) :
    (bigSep Finset.univ fun c : Fin ((K (F := F)).nCore 2) => (P m).dn 2 d c : sProp 𝕄)
      ⊢ iprop(ins d main_v120 main_v21 main_v133 main_v47 (VA2 (V0 m d)) fullShare ∗ tLoc d main_v134 ↦{fullShare} out2 (V0 m d)) :=
  Entails.of_eq (whole2 m d (out2 (V0 m d))).symm
theorem dn_elim3 (d : Dev nD) :
    (bigSep Finset.univ fun c : Fin ((K (F := F)).nCore 3) => (P m).dn 3 d c : sProp 𝕄)
      ⊢ iprop(ins d main_v193 main_v21 main_v206 main_v47 (VA3 (V0 m d)) fullShare ∗ tLoc d main_v207 ↦{fullShare} out3 (V0 m d)) :=
  Entails.of_eq (whole3 m d (out3 (V0 m d))).symm

end Cert.Kernel.Hand

end
-- ==== Proof.KB.TileLib.lean ====
import proofs.«208129_g65403761983635_cont_9to1_m_1354_7_alg».proof.Proof.KB.Base
import Idealize.ShloMosaic.Lib.SparseCore.Ops
import Idealize.ShloMosaic.Lib.SparseCore.Stream

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

omit [FloatOps F] in
theorem cell_ne (thr : Thread nD τ) {s s' : DmaSem sig} (h : s ≠ s') : ((thr, SemLoc.dma s) : GSem nD τ sig) ≠ (thr, SemLoc.dma s') :=
  fun e => h (SemLoc.dma.inj (Prod.mk.inj e).2)

theorem read_writes_eq_of_pieces {sig' : RefSig} {κ : Kind} {sp : Space} {s : Shape} {e : EltTy} {Val : EltTy → Type}
    (v : View sig' κ sp s e) (f : v.ty.Contents Val) (G : s.Idx → Val e) (Ls : List (View.Piece Val s e))
    (hp : ∀ p ∈ Ls, ∀ x : p.1.shape.Idx, p.2 x = G (p.1.emb x))
    (hr : ∀ y, (∀ p ∈ Ls, y ∉ p.1.set) → v.read Val f y = G y) : v.read Val (v.writes Val f Ls) = G := by
  funext y
  by_cases h : ∃ p ∈ Ls, y ∈ p.1.set
  · exact View.read_writes_apply_of_pieces v f G Ls hp y h
  · have h' : ∀ p ∈ Ls, y ∉ p.1.set := fun p hp hy => h ⟨p, hp, hy⟩
    rw [View.read_writes_apply_of_forall_not_mem v f y Ls h']; exact hr y h'

def rowsAdd (k : ℕ) (f g : Vec F S400x128 .f32) : Vec F S400x128 .f32 :=
  fun x => if 4 * k ≤ (x 0).val ∧ (x 0).val < 4 * k + 4 then FloatOps.addf (φ := .f32) (f x) (g x) else f x

theorem laneAdd_apply (u w : Vec F S1x16 .f32) (x : S1x16.Idx) :
    shapeCast S1x16 (addf (shapeCast S16 u shapeCasts_S1x16_S16) (shapeCast S16 w shapeCasts_S1x16_S16)) shapeCasts_S16_S1x16 x
      = FloatOps.addf (φ := .f32) (u x) (w x) := by
  have e : Shape.reshapeEquiv shapeCasts_S1x16_S16 (Shape.reshapeEquiv shapeCasts_S16_S1x16 x) = x := by
    rw [Shape.reshapeEquiv_reshapeEquiv, Shape.reshapeEquiv_self]
  show FloatOps.addf (u (Shape.reshapeEquiv _ (Shape.reshapeEquiv _ x))) (w (Shape.reshapeEquiv _ (Shape.reshapeEquiv _ x))) = _
  rw [e]

def accAt (n : ℕ) (f g : Vec F S400x128 .f32) : Vec F S400x128 .f32 :=
  fun x => if (x 0).val < n then FloatOps.addf (φ := .f32) (f x) (g x) else f x

theorem rowsAdd_accAt (k : ℕ) (f g : Vec F S400x128 .f32) : rowsAdd k (accAt (4 * k) f g) g = accAt (4 * (k + 1)) f g := by
  funext x; unfold rowsAdd accAt
  by_cases h1 : (x 0).val < 4 * k
  · rw [if_neg (by omega), if_pos h1, if_pos (by omega)]
  · by_cases h2 : (x 0).val < 4 * k + 4
    · rw [if_pos ⟨by omega, h2⟩, if_neg h1, if_pos (by omega)]
    · rw [if_neg (by omega), if_neg h1, if_neg (by omega)]

theorem accAt_zero (f g : Vec F S400x128 .f32) : accAt 0 f g = f := by
  funext x; unfold accAt; rw [if_neg (by omega)]

theorem accAt_all (f g : Vec F S400x128 .f32) (x : S400x128.Idx) : accAt 400 f g x = FloatOps.addf (φ := .f32) (f x) (g x) := by
  unfold accAt; rw [if_pos]; exact (x 0).isLt

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

end Cert.Kernel.Hand

end
-- ==== Proof.KB.Tile0.lean ====
import proofs.«208129_g65403761983635_cont_9to1_m_1354_7_alg».proof.Proof.KB.Base
import proofs.«208129_g65403761983635_cont_9to1_m_1354_7_alg».proof.Proof.Gen.Kernel.Skeleton
import Idealize.ShloMosaic.Lib.SparseCore.Ops
import Idealize.ShloMosaic.Lib.SparseCore.Stream
import proofs.«208129_g65403761983635_cont_9to1_m_1354_7_alg».proof.Proof.KB.TileLib

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

namespace C0

section Tile

variable (d : Dev nD) (L : grid0.Coords)

abbrev cV (L : grid0.Coords) : Fin τ.nSC := (L 0).castLE hcore0
abbrev jV (L : grid0.Coords) : Fin τ.nSub := (L 1).castLE hsub0

abbrev t1W : Memref sig .scVector .hbm S119x128 .f32 := Memref.whole main_arg3_scv
abbrev i1W : Memref sig .scVector .hbm S10240 .i32 := Memref.whole main_v3_scv
abbrev t2W : Memref sig .scVector .hbm S4x128 .f32 := Memref.whole main_arg4_scv
abbrev i2W : Memref sig .scVector .hbm S10240 .i32 := Memref.whole main_v7_scv
abbrev oW : Memref sig .scVector .hbm S10240x128 .f32 := Memref.whole main_v8_scv

abbrev sI1 : Memref sig .scVector .vmem S320 .i32 := Memref.whole cc0_scratch0
abbrev sI2 : Memref sig .scVector .vmem S320 .i32 := Memref.whole cc0_scratch1
abbrev sA : Memref sig .scVector .vmem S320x128 .f32 := Memref.whole cc0_scratch2
abbrev sB : Memref sig .scVector .vmem S320x128 .f32 := Memref.whole cc0_scratch3

abbrev oRect (L : grid0.Coords) : Rect S10240x128 := Rect.unit (s := S10240x128) (k0_off10 L) S320x128.size (k0_off10_inb L)
abbrev oRows (L : grid0.Coords) : Memref sig .scVector .hbm S320x128 .f32 := (oW).slice (oRect L) (fun _ => rfl)

omit [FloatOps F] in
theorem bound0 : grid0.bound 0 = 2 := rfl
omit [FloatOps F] in
theorem bound1 : grid0.bound 1 = 16 := rfl

abbrev pN (L : grid0.Coords) : ℕ := 2 * (L 1).val + (L 0).val
omit [FloatOps F] in
theorem pN_lt : pN L < 32 := by
  have h0 : (L 0).val < 2 := (L 0).isLt
  have h1 : (L 1).val < 16 := (L 1).isLt
  show 2 * (L 1).val + (L 0).val < 32
  omega

omit [FloatOps F] in
theorem oRect_eq : oRect L = Rect.part (s := S10240x128) (a₀ := 0) hdiv0 ⟨pN L, pN_lt L⟩ := by
  unfold oRect Rect.part Rect.block
  congr 1 <;> funext a
  · rw [k0_off10_eq]
    match a with
    | 0 => simp [Shape.partIx, Shape.partSize, pN]; omega
    | 1 => simp [Shape.partIx, Shape.partSize]
  · match a with
    | 0 => simp [Shape.partSize]
    | 1 => simp [Shape.partSize]

omit [FloatOps F] in
theorem set_oRows : (oRows L).view.set = part0N (pN L) := by
  show ((View.whole (main_v8_scv : Ref sig .scVector)).slice (oRect L)).set = _
  rw [View.set_slice_whole, oRect_eq]
  unfold part0N
  rw [dif_pos (pN_lt L)]

abbrev cell (s : DmaSems sig S_) : GSem nD τ sig := (V d (cV L) (jV L), .dma s.sem)

omit [FloatOps F] in
theorem cell_ne {a b : DmaSems sig S_} (h : a.sem ≠ b.sem) : cell d L a ≠ cell d L b :=
  fun e => h (SemLoc.dma.inj (congrArg Prod.snd e))

omit [FloatOps F] in
theorem cell_mem (s : DmaSems sig S_) (h : (SemLoc.dma s.sem : SemLoc sig).isScoped .scVector = true) :
    cell d L s ∈ ownCells (V d (cV L) (jV L)) := mem_ownCells.mpr ⟨rfl, h⟩

abbrev cells0 : Finset (GSem nD τ sig) :=
  {cell d L cc0_scratch4, cell d L cc0_scratch5, cell d L cc0_scoped0, cell d L cc0_scoped1, cell d L cc0_scoped2}

omit [FloatOps F] in
theorem ownSems0_V0 :
    (ownSems0 (V d (cV L) (jV L)) : sProp 𝕄)
      = iprop((semVal (cell d L cc0_scratch4) 0 ∗ semVal (cell d L cc0_scratch5) 0 ∗ semVal (cell d L cc0_scoped0) 0
          ∗ semVal (cell d L cc0_scoped1) 0 ∗ semVal (cell d L cc0_scoped2) 0)
          ∗ bigSep (ownCells (V d (cV L) (jV L)) \ cells0 d L) fun g => semVal g 0) := by
  unfold SparseCore.Cfg.ownSems0
  have hsub : cells0 d L ⊆ ownCells (V d (cV L) (jV L)) := by
    intro g hg
    simp only [Finset.mem_insert, Finset.mem_singleton] at hg
    rcases hg with rfl | rfl | rfl | rfl | rfl
    · exact cell_mem d L _ (by decide)
    · exact cell_mem d L _ (by decide)
    · exact cell_mem d L _ (by decide)
    · exact cell_mem d L _ (by decide)
    · exact cell_mem d L _ (by decide)
  rw [SparseCore.bigSep_sdiff_split' hsub]
  congr 1
  rw [SparseCore.bigSep_insert' (by
      simp only [Finset.mem_insert, Finset.mem_singleton, not_or]
      exact ⟨cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide)⟩),
    SparseCore.bigSep_insert' (by
      simp only [Finset.mem_insert, Finset.mem_singleton, not_or]
      exact ⟨cell_ne d L (by decide), cell_ne d L (by decide)⟩),
    SparseCore.bigSep_insert' (by
      simp only [Finset.mem_singleton]
      exact cell_ne d L (by decide)),
    bigSep_singleton]

abbrev sref (b : Ref sig .scVector) : DevRef τ sig := (Proc.scVector (cV L) (jV L)).devRef b

omit [FloatOps F] in
theorem sref_ne {a b : Ref sig .scVector} (h : a ≠ b) : sref L a ≠ sref L b :=
  fun e => h (Proc.devRef_injective _ e)

abbrev srefs0 : Finset (DevRef τ sig) := {sref L cc0_scratch0, sref L cc0_scratch1, sref L cc0_scratch2, sref L cc0_scratch3}

omit [FloatOps F] in
theorem ownBufs_V0 :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f))
          ∗ bigSep (ownRefs (τ := τ) (.scVector (cV L) (jV L)) \ srefs0 L) fun b => iprop(∃ f, ((d, b) : Loc nD τ sig) ↦{fullShare} f)) := by
  unfold SparseCore.Cfg.ownBufs
  have hsub : srefs0 L ⊆ ownRefs (τ := τ) (.scVector (cV L) (jV L)) := by
    intro b hb
    simp only [Finset.mem_insert, Finset.mem_singleton] at hb
    rcases hb with rfl | rfl | rfl | rfl <;> exact SparseCore.Cfg.mem_ownRefs_of_owner rfl
  refine (SparseCore.bigSep_sdiff_split' hsub).trans ?_
  congr 1
  rw [SparseCore.bigSep_insert' (by
      simp only [Finset.mem_insert, Finset.mem_singleton, not_or]
      exact ⟨sref_ne L (by decide), sref_ne L (by decide), sref_ne L (by decide)⟩),
    SparseCore.bigSep_insert' (by
      simp only [Finset.mem_insert, Finset.mem_singleton, not_or]
      exact ⟨sref_ne L (by decide), sref_ne L (by decide)⟩),
    SparseCore.bigSep_insert' (by
      simp only [Finset.mem_singleton]
      exact sref_ne L (by decide)),
    bigSep_singleton]

theorem tilePay0 (c i : ℕ) (aft : Bool) :
    tilePay m d 0 c i aft = iprop(ins d main_arg3 main_v3 main_arg4 main_v7 (VA0 (V0 m d)) (tileShare c i)
      ∗ outs0 d c i (if aft then out0 (V0 m d) else VA0 (V0 m d) (r main_v8))) := rfl

omit [FloatOps F] in
theorem pts_t1 (q : PosShare TreeShare) (f : Buf (Elt F) (tLoc d main_arg3)) :
    ((t1W).view.loc (V d (cV L) (jV L)) ↦{q} f : sProp 𝕄) = tLoc d main_arg3 ↦{q} f := rfl
omit [FloatOps F] in
theorem pts_i1 (q : PosShare TreeShare) (f : Buf (Elt F) (tLoc d main_v3)) :
    ((i1W).view.loc (V d (cV L) (jV L)) ↦{q} f : sProp 𝕄) = tLoc d main_v3 ↦{q} f := rfl
omit [FloatOps F] in
theorem pts_t2 (q : PosShare TreeShare) (f : Buf (Elt F) (tLoc d main_arg4)) :
    ((t2W).view.loc (V d (cV L) (jV L)) ↦{q} f : sProp 𝕄) = tLoc d main_arg4 ↦{q} f := rfl
omit [FloatOps F] in
theorem pts_i2 (q : PosShare TreeShare) (f : Buf (Elt F) (tLoc d main_v7)) :
    ((i2W).view.loc (V d (cV L) (jV L)) ↦{q} f : sProp 𝕄) = tLoc d main_v7 ↦{q} f := rfl
omit [FloatOps F] in
theorem pts_o (f : Buf (Elt F) (tLoc d main_v8)) :
    ((oRows L).view.loc (V d (cV L) (jV L)) ↦[(oRows L).view.set]{fullShare} f : sProp 𝕄) = tLoc d main_v8 ↦[part0N (pN L)]{fullShare} f := by
  rw [set_oRows]
omit [FloatOps F] in
theorem pts_sI1 (f : Buf (Elt F) ((V d (cV L) (jV L)).loc cc0_scratch0)) :
    ((sI1).view.loc (V d (cV L) (jV L)) ↦{fullShare} f : sProp 𝕄) = (V d (cV L) (jV L)).loc cc0_scratch0 ↦{fullShare} f := rfl
omit [FloatOps F] in
theorem pts_sI2 (f : Buf (Elt F) ((V d (cV L) (jV L)).loc cc0_scratch1)) :
    ((sI2).view.loc (V d (cV L) (jV L)) ↦{fullShare} f : sProp 𝕄) = (V d (cV L) (jV L)).loc cc0_scratch1 ↦{fullShare} f := rfl
omit [FloatOps F] in
theorem pts_sA (f : Buf (Elt F) ((V d (cV L) (jV L)).loc cc0_scratch2)) :
    ((sA).view.loc (V d (cV L) (jV L)) ↦{fullShare} f : sProp 𝕄) = (V d (cV L) (jV L)).loc cc0_scratch2 ↦{fullShare} f := rfl
omit [FloatOps F] in
theorem pts_sB (f : Buf (Elt F) ((V d (cV L) (jV L)).loc cc0_scratch3)) :
    ((sB).view.loc (V d (cV L) (jV L)) ↦{fullShare} f : sProp 𝕄) = (V d (cV L) (jV L)).loc cc0_scratch3 ↦{fullShare} f := rfl

abbrev iRect (L : grid0.Coords) : Rect S10240 := Rect.unit (s := S10240) (k0_off1 L) S320.size (k0_off1_inb L)
abbrev i1Rows (L : grid0.Coords) : Memref sig .scVector .hbm S320 .i32 := (i1W).slice (iRect L) (fun _ => rfl)
abbrev i2Rows (L : grid0.Coords) : Memref sig .scVector .hbm S320 .i32 := (i2W).slice (iRect L) (fun _ => rfl)

theorem hin1_of_pre (hpre : PreOK (V0 m d)) (g : Buf (Elt F) ((V d (cV L) (jV L)).loc cc0_scratch0)) (x : S320.Idx) :
    ((sI1).view.read (Elt F) (View.write (Elt F) (sI1).view g
      (ReadAs.same.apply ((i1Rows L).view.read (Elt F) (VA0 (V0 m d) (r main_v3)))) Finset.univ) x).toNat < 119 := by
  rw [View.write_whole_univ]
  show ((i1Rows L).view.read (Elt F) (VA0 (V0 m d) (r main_v3)) x).toNat < 119
  rw [show ∀ j, (i1Rows L).view.read (Elt F) (VA0 (V0 m d) (r main_v3)) j = VA0 (V0 m d) (r main_v3) ((i1Rows L).view.emb j) from
    fun j => (View.read_apply _ _).trans (cast_eq _ _)]
  exact hpre.h0a _

theorem hin2_of_pre (hpre : PreOK (V0 m d)) (g : Buf (Elt F) ((V d (cV L) (jV L)).loc cc0_scratch1)) (x : S320.Idx) :
    ((sI2).view.read (Elt F) (View.write (Elt F) (sI2).view g
      (ReadAs.same.apply ((i2Rows L).view.read (Elt F) (VA0 (V0 m d) (r main_v7)))) Finset.univ) x).toNat < 4 := by
  rw [View.write_whole_univ]
  show ((i2Rows L).view.read (Elt F) (VA0 (V0 m d) (r main_v7)) x).toNat < 4
  rw [show ∀ j, (i2Rows L).view.read (Elt F) (VA0 (V0 m d) (r main_v7)) j = VA0 (V0 m d) (r main_v7) ((i2Rows L).view.emb j) from
    fun j => (View.read_apply _ _).trans (cast_eq _ _)]
  exact hpre.h0b _

def rowsAdd (k : ℕ) (f g : Vec F S320x128 .f32) : Vec F S320x128 .f32 :=
  fun y => if 4 * k ≤ (y 0).val ∧ (y 0).val < 4 * k + 4 then FloatOps.addf (φ := .f32) (f y) (g y) else f y

def accum (GA GB : Vec F S320x128 .f32) (k : ℕ) : Vec F S320x128 .f32 :=
  fun y => if (y 0).val < 4 * k then FloatOps.addf (φ := .f32) (GA y) (GB y) else GA y

theorem rowsAdd_accum (GA GB : Vec F S320x128 .f32) (k : ℕ) : rowsAdd k (accum GA GB k) GB = accum GA GB (k + 1) := by
  funext y
  unfold rowsAdd accum
  by_cases h1 : (y 0).val < 4 * k
  · rw [if_neg (by omega), if_pos h1, if_pos (by omega)]
  · by_cases h2 : (y 0).val < 4 * (k + 1)
    · rw [if_pos (by omega), if_neg h1, if_pos h2]
    · rw [if_neg (by omega), if_neg h1, if_neg h2]

theorem accum_zero (GA GB : Vec F S320x128 .f32) : accum GA GB 0 = GA := by
  funext y; unfold accum; rw [if_neg (by omega)]

theorem accum_all (GA GB : Vec F S320x128 .f32) (y : S320x128.Idx) :
    accum GA GB 80 y = FloatOps.addf (φ := .f32) (GA y) (GB y) := by
  have := (y 0).isLt
  unfold accum; rw [if_pos (by show (y 0).val < 4 * 80; have : (y 0).val < 320 := (y 0).isLt; omega)]

theorem whole_writes_eq {κ : Kind} (b : Ref sig κ) (f G : b.ty.Contents (Elt F)) (Ls : List (View.Piece (Elt F) b.ty.shape b.ty.elt))
    (hp : ∀ p ∈ Ls, ∀ x : p.1.shape.Idx, p.2 x = G (p.1.emb x))
    (hr : ∀ y, (∀ p ∈ Ls, y ∉ p.1.set) → f y = G y) :
    (View.whole b).writes (Elt F) f Ls = G := by
  funext y
  show (View.whole b).read (Elt F) ((View.whole b).writes (Elt F) f Ls) y = G y
  by_cases h : ∃ p ∈ Ls, y ∈ p.1.set
  · exact View.read_writes_apply_of_pieces (View.whole b) f G Ls hp y h
  · have h' : ∀ p ∈ Ls, y ∉ p.1.set := fun p hp hy => h ⟨p, hp, hy⟩
    rw [View.read_writes_apply_of_forall_not_mem (View.whole b) f y Ls h']
    exact hr y h'

theorem piece_val (k : ℕ) {off : Fin 2 → ℕ} (h : ∃ r < 4, ∃ c, off = ![4 * k + r, c])
    (inb : ∀ a, off a + S1x16.size a ≤ S320x128.size a) (ga gb : Vec F S320x128 .f32) (x : S1x16.Idx) :
    FloatOps.addf (φ := .f32) (View.readAt (Elt F) (sA).view (Rect.unit (s := S320x128) off S1x16.size inb).toLoadRect ga x)
        (View.readAt (Elt F) (sB).view (Rect.unit (s := S320x128) off S1x16.size inb).toLoadRect gb x)
      = rowsAdd k ga gb ((Rect.unit (s := S320x128) off S1x16.size inb).emb x) := by
  obtain ⟨r, hr, c, rfl⟩ := h
  unfold rowsAdd
  rw [if_pos (by
    have hx : (x 0).val < 1 := (x 0).isLt
    simp only [Rect.emb_apply]
    constructor <;> simp <;> omega)]
  rfl

theorem whole_writes_whole_eq {κ : Kind} (b : Ref sig κ) (f G : b.ty.Contents (Elt F))
    (w : (Rect.whole b.ty.shape).shape.Idx → Elt F b.ty.elt) (hw : ∀ x, w x = G ((Rect.whole b.ty.shape).emb x)) :
    (View.whole b).writes (Elt F) f [⟨Rect.whole b.ty.shape, w⟩] = G := by
  refine whole_writes_eq b f G _ ?_ ?_
  · intro p hp
    obtain rfl := List.mem_singleton.mp hp
    exact hw
  · intro y hy
    refine absurd ?_ (hy _ (List.mem_singleton_self _))
    show y ∈ (Rect.whole b.ty.shape).set
    rw [Rect.set_whole]; exact Finset.mem_univ _

theorem rows4 (k n : ℕ) (h : 4 * k ≤ n ∧ n < 4 * k + 4) : n = 4 * k + 0 ∨ n = 4 * k + 1 ∨ n = 4 * k + 2 ∨ n = 4 * k + 3 := by omega
theorem lanes8 (n : ℕ) (h : n < 128) : (0 ≤ n ∧ n < 0 + 16) ∨ (16 ≤ n ∧ n < 16 + 16) ∨ (32 ≤ n ∧ n < 32 + 16) ∨ (48 ≤ n ∧ n < 48 + 16)
    ∨ (64 ≤ n ∧ n < 64 + 16) ∨ (80 ≤ n ∧ n < 80 + 16) ∨ (96 ≤ n ∧ n < 96 + 16) ∨ (112 ≤ n ∧ n < 112 + 16) := by omega

theorem piece_mem (k r c : ℕ) {off : Fin 2 → ℕ} (hoff : off = ![4 * k + r, c]) (inb : ∀ a, off a + S1x16.size a ≤ S320x128.size a)
    (y : S320x128.Idx) (h0 : (y 0).val = 4 * k + r) (h1 : c ≤ (y 1).val ∧ (y 1).val < c + 16) :
    y ∈ (Rect.unit (s := S320x128) off S1x16.size inb).set := by
  subst hoff
  rw [Rect.mem_set_unit]
  intro a
  match a with
  | 0 => simp; omega
  | 1 => simp; omega

abbrev oIdx (L : grid0.Coords) (x : S320x128.Idx) : S10240x128.Idx := (oRows L).view.emb x

def Aspec : Vec F S320x128 .f32 := fun x =>
  (VA0 (V0 m d) (r main_arg3) : Vec F S119x128 .f32)
    (ValueIdx.ix2 (rowOf 119 (by decide) ((VA0 (V0 m d) (r main_v3) : Vec F S10240 .i32) (ValueIdx.ix1 (n := 10240) (oIdx L x 0)))) (oIdx L x 1))

def Bspec : Vec F S320x128 .f32 := fun x =>
  (VA0 (V0 m d) (r main_arg4) : Vec F S4x128 .f32)
    (ValueIdx.ix2 (rowOf 4 (by decide) ((VA0 (V0 m d) (r main_v7) : Vec F S10240 .i32) (ValueIdx.ix1 (n := 10240) (oIdx L x 0)))) (oIdx L x 1))

theorem out0_at (x : S320x128.Idx) : out0 (V0 m d) (oIdx L x) = FloatOps.addf (φ := .f32) (Aspec m d L x) (Bspec m d L x) := rfl

omit [FloatOps F] in
theorem rowOf_val (z : ℕ) (hz : 0 < z) (w : BitVec 32) (h : w.toNat < z) : (rowOf z hz w).val = w.toNat := by
  unfold rowOf; rw [dif_pos h]

theorem emb_i1 (z : S320.Idx) (x : S320x128.Idx) (hzx : (z 0).val = (x 0).val) :
    ((i1Rows L).view.emb z : S10240.Idx) = ValueIdx.ix1 (n := 10240) (oIdx L x 0) := by
  funext b
  apply Fin.ext
  match b with
  | ⟨0, _⟩ =>
    show k0_off1 L 0 + 1 * (z 0).val = k0_off10 L 0 + 1 * (x 0).val
    rw [k0_off1_eq, k0_off10_eq, hzx]
    simp

theorem gather1_val (hpre : PreOK (V0 m d)) (pf : ∀ a, (Rect.unit (s := S119x128) ![0, 0] ![119, 128] inb_S119x128_S119x128_0_0).stride a = 1)
    (rd : S320.Idx → Elt F .i32) (hrd : ∀ z, rd z = (VA0 (V0 m d) (r main_v3) : Vec F S10240 .i32) ((i1Rows L).view.emb z))
    (hn : S320.numel = S320x128.size gathers_S119x128_S320x128.axis') (hin : ∀ x, (rd x).toNat < S119x128.size gathers_S119x128_S320x128.axis)
    (x : S320x128.Idx) :
    SparseCore.gatherPayload gathers_S119x128_S320x128
      (View.read (Elt F) ((t1W).slice (Rect.unit (s := S119x128) ![0, 0] ![119, 128] inb_S119x128_S119x128_0_0) pf).view (VA0 (V0 m d) (r main_arg3)))
      (SparseCore.rows rd hn hin) x = Aspec m d L x := by
  unfold SparseCore.gatherPayload Aspec
  rw [View.read_apply]
  refine (cast_eq _ _).trans (congrArg (VA0 (V0 m d) (r main_arg3)) (funext fun a => Fin.ext ?_))
  have hz : ∀ k : Fin (S320x128.size gathers_S119x128_S320x128.axis'), ((S320.rowMajor.symm (k.cast hn.symm)) 0).val = k.val := by
    intro k
    have := Shape.rowMajor_val_one (S320.rowMajor.symm (k.cast hn.symm))
    rw [Equiv.apply_symm_apply] at this
    exact this.symm
  match a with
  | ⟨0, _⟩ =>
    have e1 := Shape.Gathers.idx_axis gathers_S119x128_S320x128 (SparseCore.rows rd hn hin) x
    have hw := hpre.h0a (ValueIdx.ix1 (n := 10240) (oIdx L x 0))
    show 0 + 1 * (gathers_S119x128_S320x128.idx (SparseCore.rows rd hn hin) x gathers_S119x128_S320x128.axis).val = (rowOf 119 _ _).val
    rw [e1, rowOf_val _ _ _ hw]
    show 0 + 1 * (rd (S320.rowMajor.symm ((x gathers_S119x128_S320x128.axis').cast hn.symm))).toNat = _
    rw [hrd, Nat.zero_add, Nat.one_mul]
    exact congrArg (fun i : S10240.Idx => ((VA0 (V0 m d) (r main_v3) : Vec F S10240 .i32) i).toNat) (emb_i1 L _ x (hz _))
  | ⟨1, h1⟩ =>
    show 0 + 1 * (gathers_S119x128_S320x128.idx (SparseCore.rows rd hn hin) x ⟨1, h1⟩).val = k0_off10 L 1 + 1 * (x 1).val
    rw [k0_off10_eq]
    unfold Shape.Gathers.idx
    rw [dif_neg (show ¬ (1 = 0) from Nat.one_ne_zero)]
    simp
    rfl

theorem emb_i2 (z : S320.Idx) (x : S320x128.Idx) (hzx : (z 0).val = (x 0).val) :
    ((i2Rows L).view.emb z : S10240.Idx) = ValueIdx.ix1 (n := 10240) (oIdx L x 0) := by
  funext b
  apply Fin.ext
  match b with
  | ⟨0, _⟩ =>
    show k0_off1 L 0 + 1 * (z 0).val = k0_off10 L 0 + 1 * (x 0).val
    rw [k0_off1_eq, k0_off10_eq, hzx]
    simp

theorem gather2_val (hpre : PreOK (V0 m d)) (pf : ∀ a, (Rect.unit (s := S4x128) ![0, 0] ![4, 128] inb_S4x128_S4x128_0_0).stride a = 1)
    (rd : S320.Idx → Elt F .i32) (hrd : ∀ z, rd z = (VA0 (V0 m d) (r main_v7) : Vec F S10240 .i32) ((i2Rows L).view.emb z))
    (hn : S320.numel = S320x128.size gathers_S4x128_S320x128.axis') (hin : ∀ x, (rd x).toNat < S4x128.size gathers_S4x128_S320x128.axis)
    (x : S320x128.Idx) :
    SparseCore.gatherPayload gathers_S4x128_S320x128
      (View.read (Elt F) ((t2W).slice (Rect.unit (s := S4x128) ![0, 0] ![4, 128] inb_S4x128_S4x128_0_0) pf).view (VA0 (V0 m d) (r main_arg4)))
      (SparseCore.rows rd hn hin) x = Bspec m d L x := by
  unfold SparseCore.gatherPayload Bspec
  rw [View.read_apply]
  refine (cast_eq _ _).trans (congrArg (VA0 (V0 m d) (r main_arg4)) (funext fun a => Fin.ext ?_))
  have hz : ∀ k : Fin (S320x128.size gathers_S4x128_S320x128.axis'), ((S320.rowMajor.symm (k.cast hn.symm)) 0).val = k.val := by
    intro k
    have := Shape.rowMajor_val_one (S320.rowMajor.symm (k.cast hn.symm))
    rw [Equiv.apply_symm_apply] at this
    exact this.symm
  match a with
  | ⟨0, _⟩ =>
    have e1 := Shape.Gathers.idx_axis gathers_S4x128_S320x128 (SparseCore.rows rd hn hin) x
    have hw := hpre.h0b (ValueIdx.ix1 (n := 10240) (oIdx L x 0))
    show 0 + 1 * (gathers_S4x128_S320x128.idx (SparseCore.rows rd hn hin) x gathers_S4x128_S320x128.axis).val = (rowOf 4 _ _).val
    rw [e1, rowOf_val _ _ _ hw]
    show 0 + 1 * (rd (S320.rowMajor.symm ((x gathers_S4x128_S320x128.axis').cast hn.symm))).toNat = _
    rw [hrd, Nat.zero_add, Nat.one_mul]
    exact congrArg (fun i : S10240.Idx => ((VA0 (V0 m d) (r main_v7) : Vec F S10240 .i32) i).toNat) (emb_i2 L _ x (hz _))
  | ⟨1, h1⟩ =>
    show 0 + 1 * (gathers_S4x128_S320x128.idx (SparseCore.rows rd hn hin) x ⟨1, h1⟩).val = k0_off10 L 1 + 1 * (x 1).val
    rw [k0_off10_eq]
    unfold Shape.Gathers.idx
    rw [dif_neg (show ¬ (1 = 0) from Nat.one_ne_zero)]
    simp
    rfl

theorem rd1_apply (f1 : Buf (Elt F) ((V d (cV L) (jV L)).loc cc0_scratch0)) (z : S320.Idx) :
    View.read (Elt F) (sI1).view (View.write (Elt F) (sI1).view f1
      (ReadAs.same.apply (View.read (Elt F) (i1Rows L).view (VA0 (V0 m d) (r main_v3)))) Finset.univ) z
      = (VA0 (V0 m d) (r main_v3) : Vec F S10240 .i32) ((i1Rows L).view.emb z) := by
  rw [View.write_whole_univ]
  show (i1Rows L).view.read (Elt F) (VA0 (V0 m d) (r main_v3)) z = _
  exact (View.read_apply _ _).trans (cast_eq _ _)

theorem rd2_apply (f2 : Buf (Elt F) ((V d (cV L) (jV L)).loc cc0_scratch1)) (z : S320.Idx) :
    View.read (Elt F) (sI2).view (View.write (Elt F) (sI2).view f2
      (ReadAs.same.apply (View.read (Elt F) (i2Rows L).view (VA0 (V0 m d) (r main_v7)))) Finset.univ) z
      = (VA0 (V0 m d) (r main_v7) : Vec F S10240 .i32) ((i2Rows L).view.emb z) := by
  rw [View.write_whole_univ]
  show (i2Rows L).view.read (Elt F) (VA0 (V0 m d) (r main_v7)) z = _
  exact (View.read_apply _ _).trans (cast_eq _ _)

theorem init_A (hpre : PreOK (V0 m d)) (pf : ∀ a, (Rect.unit (s := S119x128) ![0, 0] ![119, 128] inb_S119x128_S119x128_0_0).stride a = 1)
    (rd : S320.Idx → Elt F .i32) (hrd : ∀ z, rd z = (VA0 (V0 m d) (r main_v3) : Vec F S10240 .i32) ((i1Rows L).view.emb z))
    (hn : S320.numel = S320x128.size gathers_S119x128_S320x128.axis') (hin : ∀ x, (rd x).toNat < S119x128.size gathers_S119x128_S320x128.axis) :
    (sA).view.writes (Elt F) (sA).view.junk
      [⟨Rect.whole S320x128, SparseCore.gatherPayload gathers_S119x128_S320x128
        (View.read (Elt F) ((t1W).slice (Rect.unit (s := S119x128) ![0, 0] ![119, 128] inb_S119x128_S119x128_0_0) pf).view (VA0 (V0 m d) (r main_arg3)))
        (SparseCore.rows rd hn hin)⟩] = Aspec m d L :=
  whole_writes_whole_eq cc0_scratch2 _ _ _ fun x =>
    (gather1_val m d L hpre pf rd hrd hn hin x).trans (congrArg (Aspec m d L) (Rect.emb_whole_apply _ x).symm)

theorem init_B (hpre : PreOK (V0 m d)) (pf : ∀ a, (Rect.unit (s := S4x128) ![0, 0] ![4, 128] inb_S4x128_S4x128_0_0).stride a = 1)
    (rd : S320.Idx → Elt F .i32) (hrd : ∀ z, rd z = (VA0 (V0 m d) (r main_v7) : Vec F S10240 .i32) ((i2Rows L).view.emb z))
    (hn : S320.numel = S320x128.size gathers_S4x128_S320x128.axis') (hin : ∀ x, (rd x).toNat < S4x128.size gathers_S4x128_S320x128.axis) :
    (sB).view.writes (Elt F) (sB).view.junk
      [⟨Rect.whole S320x128, SparseCore.gatherPayload gathers_S4x128_S320x128
        (View.read (Elt F) ((t2W).slice (Rect.unit (s := S4x128) ![0, 0] ![4, 128] inb_S4x128_S4x128_0_0) pf).view (VA0 (V0 m d) (r main_arg4)))
        (SparseCore.rows rd hn hin)⟩] = Bspec m d L :=
  whole_writes_whole_eq cc0_scratch3 _ _ _ fun x =>
    (gather2_val m d L hpre pf rd hrd hn hin x).trans (congrArg (Bspec m d L) (Rect.emb_whole_apply _ x).symm)

omit [FloatOps F] in
theorem trips0 : Scf.trips k0_t1_loop.lb k0_t1_loop.ub k0_t1_loop.st = 80 := by decide

theorem out_congr (w : S320x128.Idx → Elt F .f32) (O0 : Buf (Elt F) (tLoc d main_v8)) (hw : ∀ x, w x = out0 (V0 m d) (oIdx L x)) :
    ∀ i ∈ (oRows L).view.set, (oRows L).view.writes (Elt F) O0 [⟨Rect.whole S320x128, w⟩] i = out0 (V0 m d) i := by
  intro i hi
  obtain ⟨x, -, rfl⟩ := Finset.mem_map.mp hi
  have h := View.read_writes_cons_emb (oRows L).view O0 (Rect.whole S320x128) w [] x
  rw [Rect.emb_whole_apply, View.read_apply] at h
  exact ((cast_eq _ _).symm.trans h).trans (hw x)

def inv0 (GA GB : Vec F S320x128 .f32) (k : Nat) (_ : PUnit) : sProp 𝕄 :=
  iprop(((sA).view.loc (V d (cV L) (jV L)) ↦{fullShare} accum GA GB k) ∗ ((sB).view.loc (V d (cV L) (jV L)) ↦{fullShare} GB))

set_option maxHeartbeats 4000000 in
theorem tile_body0 (hpre : PreOK (V0 m d)) (O : CellTallies nD τ sig (HIx 4)) (W : Waits sig (HIx 4)) (hO : ∀ g, O g none = 0) :
    iprop(levAts (K (F := F)).L (K (F := F)).lev ∗ emp ∗ tilePay m d 0 (L 0).val (L 1).val false
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L t1W (Memref.isWhole_whole _) i1W (Memref.isWhole_whole _) t2W (Memref.isWhole_whole _) i2W (Memref.isWhole_whole _)
            oW (Memref.isWhole_whole _) sI1 (Memref.isWhole_whole _) sI2 (Memref.isWhole_whole _) sA (Memref.isWhole_whole _)
            sB (Memref.isWhole_whole _) cc0_scratch4 cc0_scratch5 cc0_scoped0 cc0_scoped1 cc0_scoped2)
          fun _ => iprop(tilePay m d 0 (L 0).val (L 1).val true ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V facts d (cV L) (jV L), SparseCore.Cfg.scopedSems0_V (Val := Elt F) d (cV L) (jV L), ownSems0_V0, ownBufs_V0,
    tilePay0, tilePay0]
  unfold ins outs0
  simp only [Bool.false_eq_true, ↓reduceIte]
  iintro ⟨#Hlv, -, ⟨⟨Ht1, Hi1, Ht2, Hi2⟩, Ho⟩, ⟨⟨⟨%f1, Hs1⟩, ⟨%f2, Hs2⟩, ⟨%fa, Hsa⟩, ⟨%fb, Hsb⟩⟩, Hbufs⟩, ⟨⟨Hc4, Hc5, Hc0, Hc1, Hc2⟩, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht1' := (Entails.of_eq (pts_t1 (F := F) d L _ _).symm) $$ Ht1
  ihave Hi1' := (Entails.of_eq (pts_i1 (F := F) d L _ _).symm) $$ Hi1
  ihave Ht2' := (Entails.of_eq (pts_t2 (F := F) d L _ _).symm) $$ Ht2
  ihave Hi2' := (Entails.of_eq (pts_i2 (F := F) d L _ _).symm) $$ Hi2
  ihave Ho' := (Entails.of_eq (pts_o (F := F) d L _).symm) $$ Ho
  ihave Hs1' := (Entails.of_eq (pts_sI1 (F := F) d L _).symm) $$ Hs1
  ihave Hs2' := (Entails.of_eq (pts_sI2 (F := F) d L _).symm) $$ Hs2
  ihave Hsa' := (Entails.of_eq (pts_sA (F := F) d L _).symm) $$ Hsa
  ihave Hsb' := (Entails.of_eq (pts_sB (F := F) d L _).symm) $$ Hsb
  have hin1 := hin1_of_pre m d L hpre
  have hin2 := hin2_of_pre m d L hpre
  sl_exec
  sl_for (inv0 d L (Aspec m d L) (Bspec m d L)) $$ [Hsa' Hsb']
  case region =>
    intro k _
    unfold inv0
    iintro ⟨Ha, Hb⟩
    sl_exec_parts
    sl_step
    isplitl [Ha]
    · iapply (Entails.of_eq (congrArg (fun c => ((sA).view.loc (V d (cV L) (jV L)) ↦{fullShare} c : sProp 𝕄)) ?_)) $$ Ha
      sl_unfold_run_names
      rw [← rowsAdd_accum]
      have h0 : 0 < 4 := by decide
      have h1 : 1 < 4 := by decide
      have h2 : 2 < 4 := by decide
      have h3 : 3 < 4 := by decide
      have o2 : ∀ n (h : n < 4), k0_off2 k (BitVec.ofNat 32 n) = ![4 * k.val + n, 0] := fun n h => k0_off2_eq k ⟨n, h⟩
      have o3 : ∀ n (h : n < 4), k0_off3 k (BitVec.ofNat 32 n) = ![4 * k.val + n, 16] := fun n h => k0_off3_eq k ⟨n, h⟩
      have o4 : ∀ n (h : n < 4), k0_off4 k (BitVec.ofNat 32 n) = ![4 * k.val + n, 32] := fun n h => k0_off4_eq k ⟨n, h⟩
      have o5 : ∀ n (h : n < 4), k0_off5 k (BitVec.ofNat 32 n) = ![4 * k.val + n, 48] := fun n h => k0_off5_eq k ⟨n, h⟩
      have o6 : ∀ n (h : n < 4), k0_off6 k (BitVec.ofNat 32 n) = ![4 * k.val + n, 64] := fun n h => k0_off6_eq k ⟨n, h⟩
      have o7 : ∀ n (h : n < 4), k0_off7 k (BitVec.ofNat 32 n) = ![4 * k.val + n, 80] := fun n h => k0_off7_eq k ⟨n, h⟩
      have o8 : ∀ n (h : n < 4), k0_off8 k (BitVec.ofNat 32 n) = ![4 * k.val + n, 96] := fun n h => k0_off8_eq k ⟨n, h⟩
      have o9 : ∀ n (h : n < 4), k0_off9 k (BitVec.ofNat 32 n) = ![4 * k.val + n, 112] := fun n h => k0_off9_eq k ⟨n, h⟩
      refine whole_writes_eq cc0_scratch2 _ _ _ ?_ ?_
      · intro p hp
        simp only [List.mem_cons, List.not_mem_nil, or_false] at hp
        rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
        all_goals (intro x; simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]; rw [laneAdd_apply]; exact piece_val k.val (by simp only [o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3]; exact ⟨_, by decide, _, rfl⟩) _ _ _ x)
      · intro y hy
        unfold rowsAdd
        by_cases hrow : 4 * k.val ≤ (y 0).val ∧ (y 0).val < 4 * k.val + 4
        swap
        · rw [if_neg hrow]
        exfalso
        simp only [List.forall_mem_cons, List.not_mem_nil, false_imp_iff, implies_true, and_true] at hy
        obtain ⟨g0, g1, g2, g3, g4, g5, g6, g7, g8, g9, g10, g11, g12, g13, g14, g15, g16, g17, g18, g19, g20, g21, g22, g23, g24, g25, g26, g27, g28, g29, g30, g31⟩ := hy
        rcases rows4 k.val (y 0).val hrow with e | e | e | e
        · rcases lanes8 (y 1).val (y 1).isLt with h | h | h | h | h | h | h | h
          · exact g31 (piece_mem k.val 0 0 (o2 0 h0) _ y e h)
          · exact g30 (piece_mem k.val 0 16 (o3 0 h0) _ y e h)
          · exact g29 (piece_mem k.val 0 32 (o4 0 h0) _ y e h)
          · exact g28 (piece_mem k.val 0 48 (o5 0 h0) _ y e h)
          · exact g27 (piece_mem k.val 0 64 (o6 0 h0) _ y e h)
          · exact g26 (piece_mem k.val 0 80 (o7 0 h0) _ y e h)
          · exact g25 (piece_mem k.val 0 96 (o8 0 h0) _ y e h)
          · exact g24 (piece_mem k.val 0 112 (o9 0 h0) _ y e h)
        · rcases lanes8 (y 1).val (y 1).isLt with h | h | h | h | h | h | h | h
          · exact g23 (piece_mem k.val 1 0 (o2 1 h1) _ y e h)
          · exact g22 (piece_mem k.val 1 16 (o3 1 h1) _ y e h)
          · exact g21 (piece_mem k.val 1 32 (o4 1 h1) _ y e h)
          · exact g20 (piece_mem k.val 1 48 (o5 1 h1) _ y e h)
          · exact g19 (piece_mem k.val 1 64 (o6 1 h1) _ y e h)
          · exact g18 (piece_mem k.val 1 80 (o7 1 h1) _ y e h)
          · exact g17 (piece_mem k.val 1 96 (o8 1 h1) _ y e h)
          · exact g16 (piece_mem k.val 1 112 (o9 1 h1) _ y e h)
        · rcases lanes8 (y 1).val (y 1).isLt with h | h | h | h | h | h | h | h
          · exact g15 (piece_mem k.val 2 0 (o2 2 h2) _ y e h)
          · exact g14 (piece_mem k.val 2 16 (o3 2 h2) _ y e h)
          · exact g13 (piece_mem k.val 2 32 (o4 2 h2) _ y e h)
          · exact g12 (piece_mem k.val 2 48 (o5 2 h2) _ y e h)
          · exact g11 (piece_mem k.val 2 64 (o6 2 h2) _ y e h)
          · exact g10 (piece_mem k.val 2 80 (o7 2 h2) _ y e h)
          · exact g9 (piece_mem k.val 2 96 (o8 2 h2) _ y e h)
          · exact g8 (piece_mem k.val 2 112 (o9 2 h2) _ y e h)
        · rcases lanes8 (y 1).val (y 1).isLt with h | h | h | h | h | h | h | h
          · exact g7 (piece_mem k.val 3 0 (o2 3 h3) _ y e h)
          · exact g6 (piece_mem k.val 3 16 (o3 3 h3) _ y e h)
          · exact g5 (piece_mem k.val 3 32 (o4 3 h3) _ y e h)
          · exact g4 (piece_mem k.val 3 48 (o5 3 h3) _ y e h)
          · exact g3 (piece_mem k.val 3 64 (o6 3 h3) _ y e h)
          · exact g2 (piece_mem k.val 3 80 (o7 3 h3) _ y e h)
          · exact g1 (piece_mem k.val 3 96 (o8 3 h3) _ y e h)
          · exact g0 (piece_mem k.val 3 112 (o9 3 h3) _ y e h)
    · iexact Hb
  · unfold inv0
    isplitl [Hsa']
    · iapply (Entails.of_eq (congrArg (fun c => ((sA).view.loc (V d (cV L) (jV L)) ↦{fullShare} c : sProp 𝕄)) ?_)) $$ Hsa'
      rw [accum_zero]
      sl_unfold_run_names
      exact init_A m d L hpre _ _ (rd1_apply m d L f1) _ _
    · iapply (Entails.of_eq (congrArg (fun c => ((sB).view.loc (V d (cV L) (jV L)) ↦{fullShare} c : sProp 𝕄)) ?_)) $$ Hsb'
      sl_unfold_run_names
      exact init_B m d L hpre _ _ (rd2_apply m d L f2) _ _
  iintro %_ HI
  unfold inv0
  icases HI with ⟨Ha, Hb⟩
  sl_exec
  sl_step
  isplitl [Ht1' Hi1' Ht2' Hi2' Ho']
  · isplitl [Ht1' Hi1' Ht2' Hi2']
    · iframe Ht1' Hi1' Ht2' Hi2'
    · iapply (Entails.of_eq (pts_o (F := F) d L (out0 (V0 m d))))
      iapply (Entails.of_eq (pointsTo_congr ?_)) $$ Ho'
      sl_unfold_run_names
      refine out_congr m d L _ _ fun x => ?_
      rw [trips0]
      exact (accum_all _ _ x).trans (out0_at m d L x).symm
  isplitl [Hs1' Hs2' Ha Hb Hbufs]
  · isplitl [Hs1' Hs2' Ha Hb]
    · isplitl [Hs1']; · iexists _; iexact Hs1'
      isplitl [Hs2']; · iexists _; iexact Hs2'
      isplitl [Ha]; · iexists _; iexact Ha
      iexists _; iexact Hb
    · iexact Hbufs
  isplitl [Hc4 Hc5 Hc0 Hc1 Hc2 Hsems]
  · isplitl [Hc4 Hc5 Hc0 Hc1 Hc2]
    · isplitl [Hc4]; · iexact Hc4
      isplitl [Hc5]; · iexact Hc5
      isplitl [Hc0]; · iexact Hc0
      isplitl [Hc1]; · iexact Hc1
      iexact Hc2
    · iexact Hsems
  iexists _; isplitr
  swap; · iexact HO
  ipureintro; intro p hp
  iterate 5 (rcases Finset.mem_insert.mp hp with hp | hp; · exact .inr (hp ▸ rfl))
  exact .inl hp

end Tile

def coordsV0 (c : Fin (grid0.bound 0)) (s : Fin (grid0.bound 1)) : grid0.Coords :=
  fun | 0 => c | 1 => s | ⟨_ + 2, h⟩ => absurd h (Nat.not_lt.2 (Nat.le_add_left _ _))

theorem defs₀_tile0 (c : Fin τ.nSC) (s : Fin τ.nSub) :
    defs₀ (F := F) (.scVector c s) 0 ()
      = SparseCore.onTile hcore0 hsub0 (fun c s => cc0_k (coordsV0 c s)
          t1W (Memref.isWhole_whole _) i1W (Memref.isWhole_whole _) t2W (Memref.isWhole_whole _) i2W (Memref.isWhole_whole _)
          oW (Memref.isWhole_whole _) sI1 (Memref.isWhole_whole _) sI2 (Memref.isWhole_whole _) sA (Memref.isWhole_whole _)
          sB (Memref.isWhole_whole _) cc0_scratch4 cc0_scratch5 cc0_scoped0 cc0_scoped1 cc0_scoped2) ⟨⟩ c s := rfl

end C0

theorem tileObl0 (hpre : ∀ d, PreOK (V0 m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [C0.defs₀_tile0]; simp only [SparseCore.onTile, hc, and_self, ↓reduceDIte]
  exact (C0.tile_body0 m d (C0.coordsV0 ⟨_, hc.1⟩ ⟨_, hc.2⟩) (hpre d) O W hO).trans (wp_mono frame _ _ fun _ => obl_post)

end Cert.Kernel.Hand

end
-- ==== Proof.KB.TileGeom.lean ====
import proofs.«208129_g65403761983635_cont_9to1_m_1354_7_alg».proof.Proof.KB.Base
import proofs.«208129_g65403761983635_cont_9to1_m_1354_7_alg».proof.Proof.Gen.Kernel

noncomputable section

namespace Cert.Kernel.Hand

open Cert.Kernel Cert.Kernel.Gen
open Idealize.ShloMosaic

theorem row_lt {l1 l0 t : ℕ} (h1 : l1 < 16) (h0 : l0 < 2) (ht : t < 25) (a : Fin 400) :
    20000 * l1 + 10000 * l0 + 400 * t + a.val < 320000 := by
  have := a.isLt; omega

/-- Rows 400 p to 400 p + 399 of the array, p = 50 l1 + 25 l0 + t, are part p of the 800 equal parts of its rows. -/
theorem set_unit {l1 l0 t : ℕ} (h1 : l1 < 16) (h0 : l0 < 2) (ht : t < 25) {off : Fin 2 → ℕ}
    (inb : ∀ a, off a + S400x128.size a ≤ S320000x128.size a) (ho : off = ![20000 * l1 + 10000 * l0 + 400 * t, 0]) :
    (Rect.unit (s := S320000x128) off S400x128.size inb).set = part1N (50 * l1 + 25 * l0 + t) := by
  subst ho
  have hp : 50 * l1 + 25 * l0 + t < 800 := by omega
  have e : Rect.unit (s := S320000x128) ![20000 * l1 + 10000 * l0 + 400 * t, 0] S400x128.size inb
      = Rect.part (s := S320000x128) (a₀ := 0) hdiv1 ⟨50 * l1 + 25 * l0 + t, hp⟩ := by
    unfold Rect.part Rect.block
    congr 1 <;> funext a
    · match a with
      | 0 => simp [Shape.partIx, Shape.partSize]; omega
      | 1 => simp [Shape.partIx, Shape.partSize]
    · match a with
      | 0 => simp [Shape.partSize]
      | 1 => simp [Shape.partSize]
  unfold part1N
  rw [dif_pos hp, e]

/-- Where row a, column c of such a run of rows sits in the array. -/
theorem emb_unit2 {off : Fin 2 → ℕ} (inb : ∀ a, off a + S400x128.size a ≤ S320000x128.size a) {b : ℕ} (ho : off = ![b, 0])
    (hb : ∀ a : Fin 400, b + a.val < 320000) (a : Fin 400) (c : Fin 128) :
    (Rect.unit (s := S320000x128) off S400x128.size inb).emb (ValueIdx.ix2 a c) = ValueIdx.ix2 (n0 := 320000) ⟨b + a.val, hb a⟩ c := by
  subst ho
  funext x
  apply Fin.ext
  show (![b, 0] : Fin 2 → ℕ) x + 1 * ((ValueIdx.ix2 a c : S400x128.Idx) x).val = _
  match x with
  | 0 => simp
  | 1 => simp

theorem emb_unit1 {off : Fin 1 → ℕ} (inb : ∀ a, off a + S400.size a ≤ S320000.size a) {b : ℕ} (ho : off = ![b])
    (hb : ∀ a : Fin 400, b + a.val < 320000) (a : Fin 400) :
    (Rect.unit (s := S320000) off S400.size inb).emb (ValueIdx.ix1 a) = ValueIdx.ix1 (n := 320000) ⟨b + a.val, hb a⟩ := by
  subst ho
  funext x
  apply Fin.ext
  show (![b] : Fin 1 → ℕ) x + 1 * ((ValueIdx.ix1 a : S400.Idx) x).val = _
  match x with
  | 0 => simp

/-- A property of every element of part p holds if it holds at every row and column of the run. -/
theorem forall_unit {l1 l0 t : ℕ} (h1 : l1 < 16) (h0 : l0 < 2) (ht : t < 25) {off : Fin 2 → ℕ}
    (inb : ∀ a, off a + S400x128.size a ≤ S320000x128.size a) (ho : off = ![20000 * l1 + 10000 * l0 + 400 * t, 0])
    {P : S320000x128.Idx → Prop}
    (h : ∀ (a : Fin 400) (c : Fin 128), P (ValueIdx.ix2 (n0 := 320000) ⟨20000 * l1 + 10000 * l0 + 400 * t + a.val, row_lt h1 h0 ht a⟩ c)) :
    ∀ j ∈ part1N (50 * l1 + 25 * l0 + t), P j := by
  intro j hj
  rw [← set_unit h1 h0 ht inb ho, ← Rect.map_emb_univ] at hj
  obtain ⟨x, -, rfl⟩ := Finset.mem_map.mp hj
  rw [(congrArg _ (ValueIdx.eq_ix2 (n0 := 400) (n1 := 128) x)).trans (emb_unit2 inb ho (row_lt h1 h0 ht) (x 0) (x 1))]
  exact h (x 0) (x 1)

theorem k1_trips : k1_t1_loop.trips = 25 := by decide
theorem k1_t_lt (t : Fin k1_t1_loop.trips) : t.val < 25 := Nat.lt_of_lt_of_le t.isLt k1_t1_abs.2.1

abbrev base1 (L : grid1.Coords) (t : Fin k1_t1_loop.trips) : ℕ := 20000 * (L 1).val + 10000 * (L 0).val + 400 * t.val

theorem base1_lt (L : grid1.Coords) (t : Fin k1_t1_loop.trips) (a : Fin 400) : base1 L t + a.val < 320000 :=
  row_lt (L 1).isLt (L 0).isLt (k1_t_lt t) a

abbrev outChunk1 (L : grid1.Coords) (t : Fin k1_t1_loop.trips) : Memref sig .scVector .hbm S400x128 .f32 :=
  (Memref.whole main_v61_scv : Memref sig .scVector .hbm S320000x128 .f32).slice
    (Rect.unit (s := S320000x128) (k1_off10 L t) S400x128.size (k1_off10_inb L t)) (fun _ => rfl)

abbrev idxChunk1_1 (L : grid1.Coords) (t : Fin k1_t1_loop.trips) : Memref sig .scVector .hbm S400 .i32 :=
  (Memref.whole main_v21_scv : Memref sig .scVector .hbm S320000 .i32).slice
    (Rect.unit (s := S320000) (k1_off1 L t) S400.size (k1_off1_inb L t)) (fun _ => rfl)
abbrev idxChunk1_2 (L : grid1.Coords) (t : Fin k1_t1_loop.trips) : Memref sig .scVector .hbm S400 .i32 :=
  (Memref.whole main_v47_scv : Memref sig .scVector .hbm S320000 .i32).slice
    (Rect.unit (s := S320000) (k1_off1 L t) S400.size (k1_off1_inb L t)) (fun _ => rfl)

theorem set_outChunk1 (L : grid1.Coords) (t : Fin k1_t1_loop.trips) :
    (outChunk1 L t).view.set = part1N (50 * (L 1).val + 25 * (L 0).val + t.val) :=
  (View.set_slice_whole main_v61_scv _).trans (set_unit (L 1).isLt (L 0).isLt (k1_t_lt t) _ (k1_off10_eq L t))

theorem emb_outChunk1 (L : grid1.Coords) (t : Fin k1_t1_loop.trips) (a : Fin 400) (b : Fin 128) :
    (outChunk1 L t).view.emb (ValueIdx.ix2 a b) = ValueIdx.ix2 (n0 := 320000) ⟨base1 L t + a.val, base1_lt L t a⟩ b :=
  emb_unit2 (k1_off10_inb L t) (k1_off10_eq L t) (base1_lt L t) a b
theorem emb_idxChunk1_1 (L : grid1.Coords) (t : Fin k1_t1_loop.trips) (a : Fin 400) :
    (idxChunk1_1 L t).view.emb (ValueIdx.ix1 a) = ValueIdx.ix1 (n := 320000) ⟨base1 L t + a.val, base1_lt L t a⟩ :=
  emb_unit1 (k1_off1_inb L t) (k1_off1_eq L t) (base1_lt L t) a
theorem emb_idxChunk1_2 (L : grid1.Coords) (t : Fin k1_t1_loop.trips) (a : Fin 400) :
    (idxChunk1_2 L t).view.emb (ValueIdx.ix1 a) = ValueIdx.ix1 (n := 320000) ⟨base1 L t + a.val, base1_lt L t a⟩ :=
  emb_unit1 (k1_off1_inb L t) (k1_off1_eq L t) (base1_lt L t) a

theorem forall_outChunk1 (L : grid1.Coords) (t : Fin k1_t1_loop.trips) {P : S320000x128.Idx → Prop}
    (h : ∀ (a : Fin 400) (b : Fin 128), P (ValueIdx.ix2 (n0 := 320000) ⟨base1 L t + a.val, base1_lt L t a⟩ b)) :
    ∀ j ∈ part1N (50 * (L 1).val + 25 * (L 0).val + t.val), P j :=
  forall_unit (L 1).isLt (L 0).isLt (k1_t_lt t) (k1_off10_inb L t) (k1_off10_eq L t) h

theorem k2_trips : k2_t1_loop.trips = 25 := by decide
theorem k2_t_lt (t : Fin k2_t1_loop.trips) : t.val < 25 := Nat.lt_of_lt_of_le t.isLt k2_t1_abs.2.1

abbrev base2 (L : grid2.Coords) (t : Fin k2_t1_loop.trips) : ℕ := 20000 * (L 1).val + 10000 * (L 0).val + 400 * t.val

theorem base2_lt (L : grid2.Coords) (t : Fin k2_t1_loop.trips) (a : Fin 400) : base2 L t + a.val < 320000 :=
  row_lt (L 1).isLt (L 0).isLt (k2_t_lt t) a

abbrev outChunk2 (L : grid2.Coords) (t : Fin k2_t1_loop.trips) : Memref sig .scVector .hbm S400x128 .f32 :=
  (Memref.whole main_v134_scv : Memref sig .scVector .hbm S320000x128 .f32).slice
    (Rect.unit (s := S320000x128) (k2_off10 L t) S400x128.size (k2_off10_inb L t)) (fun _ => rfl)

abbrev idxChunk2_1 (L : grid2.Coords) (t : Fin k2_t1_loop.trips) : Memref sig .scVector .hbm S400 .i32 :=
  (Memref.whole main_v21_scv : Memref sig .scVector .hbm S320000 .i32).slice
    (Rect.unit (s := S320000) (k2_off1 L t) S400.size (k2_off1_inb L t)) (fun _ => rfl)
abbrev idxChunk2_2 (L : grid2.Coords) (t : Fin k2_t1_loop.trips) : Memref sig .scVector .hbm S400 .i32 :=
  (Memref.whole main_v47_scv : Memref sig .scVector .hbm S320000 .i32).slice
    (Rect.unit (s := S320000) (k2_off1 L t) S400.size (k2_off1_inb L t)) (fun _ => rfl)

theorem set_outChunk2 (L : grid2.Coords) (t : Fin k2_t1_loop.trips) :
    (outChunk2 L t).view.set = part1N (50 * (L 1).val + 25 * (L 0).val + t.val) :=
  (View.set_slice_whole main_v134_scv _).trans (set_unit (L 1).isLt (L 0).isLt (k2_t_lt t) _ (k2_off10_eq L t))

theorem emb_outChunk2 (L : grid2.Coords) (t : Fin k2_t1_loop.trips) (a : Fin 400) (b : Fin 128) :
    (outChunk2 L t).view.emb (ValueIdx.ix2 a b) = ValueIdx.ix2 (n0 := 320000) ⟨base2 L t + a.val, base2_lt L t a⟩ b :=
  emb_unit2 (k2_off10_inb L t) (k2_off10_eq L t) (base2_lt L t) a b
theorem emb_idxChunk2_1 (L : grid2.Coords) (t : Fin k2_t1_loop.trips) (a : Fin 400) :
    (idxChunk2_1 L t).view.emb (ValueIdx.ix1 a) = ValueIdx.ix1 (n := 320000) ⟨base2 L t + a.val, base2_lt L t a⟩ :=
  emb_unit1 (k2_off1_inb L t) (k2_off1_eq L t) (base2_lt L t) a
theorem emb_idxChunk2_2 (L : grid2.Coords) (t : Fin k2_t1_loop.trips) (a : Fin 400) :
    (idxChunk2_2 L t).view.emb (ValueIdx.ix1 a) = ValueIdx.ix1 (n := 320000) ⟨base2 L t + a.val, base2_lt L t a⟩ :=
  emb_unit1 (k2_off1_inb L t) (k2_off1_eq L t) (base2_lt L t) a

theorem forall_outChunk2 (L : grid2.Coords) (t : Fin k2_t1_loop.trips) {P : S320000x128.Idx → Prop}
    (h : ∀ (a : Fin 400) (b : Fin 128), P (ValueIdx.ix2 (n0 := 320000) ⟨base2 L t + a.val, base2_lt L t a⟩ b)) :
    ∀ j ∈ part1N (50 * (L 1).val + 25 * (L 0).val + t.val), P j :=
  forall_unit (L 1).isLt (L 0).isLt (k2_t_lt t) (k2_off10_inb L t) (k2_off10_eq L t) h

theorem k3_trips : k3_t1_loop.trips = 25 := by decide
theorem k3_t_lt (t : Fin k3_t1_loop.trips) : t.val < 25 := Nat.lt_of_lt_of_le t.isLt k3_t1_abs.2.1

abbrev base3 (L : grid3.Coords) (t : Fin k3_t1_loop.trips) : ℕ := 20000 * (L 1).val + 10000 * (L 0).val + 400 * t.val

theorem base3_lt (L : grid3.Coords) (t : Fin k3_t1_loop.trips) (a : Fin 400) : base3 L t + a.val < 320000 :=
  row_lt (L 1).isLt (L 0).isLt (k3_t_lt t) a

abbrev outChunk3 (L : grid3.Coords) (t : Fin k3_t1_loop.trips) : Memref sig .scVector .hbm S400x128 .f32 :=
  (Memref.whole main_v207_scv : Memref sig .scVector .hbm S320000x128 .f32).slice
    (Rect.unit (s := S320000x128) (k3_off10 L t) S400x128.size (k3_off10_inb L t)) (fun _ => rfl)

abbrev idxChunk3_1 (L : grid3.Coords) (t : Fin k3_t1_loop.trips) : Memref sig .scVector .hbm S400 .i32 :=
  (Memref.whole main_v21_scv : Memref sig .scVector .hbm S320000 .i32).slice
    (Rect.unit (s := S320000) (k3_off1 L t) S400.size (k3_off1_inb L t)) (fun _ => rfl)
abbrev idxChunk3_2 (L : grid3.Coords) (t : Fin k3_t1_loop.trips) : Memref sig .scVector .hbm S400 .i32 :=
  (Memref.whole main_v47_scv : Memref sig .scVector .hbm S320000 .i32).slice
    (Rect.unit (s := S320000) (k3_off1 L t) S400.size (k3_off1_inb L t)) (fun _ => rfl)

theorem set_outChunk3 (L : grid3.Coords) (t : Fin k3_t1_loop.trips) :
    (outChunk3 L t).view.set = part1N (50 * (L 1).val + 25 * (L 0).val + t.val) :=
  (View.set_slice_whole main_v207_scv _).trans (set_unit (L 1).isLt (L 0).isLt (k3_t_lt t) _ (k3_off10_eq L t))

theorem emb_outChunk3 (L : grid3.Coords) (t : Fin k3_t1_loop.trips) (a : Fin 400) (b : Fin 128) :
    (outChunk3 L t).view.emb (ValueIdx.ix2 a b) = ValueIdx.ix2 (n0 := 320000) ⟨base3 L t + a.val, base3_lt L t a⟩ b :=
  emb_unit2 (k3_off10_inb L t) (k3_off10_eq L t) (base3_lt L t) a b
theorem emb_idxChunk3_1 (L : grid3.Coords) (t : Fin k3_t1_loop.trips) (a : Fin 400) :
    (idxChunk3_1 L t).view.emb (ValueIdx.ix1 a) = ValueIdx.ix1 (n := 320000) ⟨base3 L t + a.val, base3_lt L t a⟩ :=
  emb_unit1 (k3_off1_inb L t) (k3_off1_eq L t) (base3_lt L t) a
theorem emb_idxChunk3_2 (L : grid3.Coords) (t : Fin k3_t1_loop.trips) (a : Fin 400) :
    (idxChunk3_2 L t).view.emb (ValueIdx.ix1 a) = ValueIdx.ix1 (n := 320000) ⟨base3 L t + a.val, base3_lt L t a⟩ :=
  emb_unit1 (k3_off1_inb L t) (k3_off1_eq L t) (base3_lt L t) a

theorem forall_outChunk3 (L : grid3.Coords) (t : Fin k3_t1_loop.trips) {P : S320000x128.Idx → Prop}
    (h : ∀ (a : Fin 400) (b : Fin 128), P (ValueIdx.ix2 (n0 := 320000) ⟨base3 L t + a.val, base3_lt L t a⟩ b)) :
    ∀ j ∈ part1N (50 * (L 1).val + 25 * (L 0).val + t.val), P j :=
  forall_unit (L 1).isLt (L 0).isLt (k3_t_lt t) (k3_off10_inb L t) (k3_off10_eq L t) h

end Cert.Kernel.Hand

end
-- ==== Proof.KB.TileVal.lean ====
import proofs.«208129_g65403761983635_cont_9to1_m_1354_7_alg».proof.Proof.KB.TileGeom
import Idealize.ShloMosaic.Lib.SparseCore.Stream

noncomputable section

namespace Cert.Kernel.Hand

open Cert.Kernel Cert.Kernel.Gen
open Idealize.ShloMosaic

variable {F : FTy → Type} [FloatOps F]

theorem rowMajor_symm_one {n : ℕ} (k : Fin (⟨1, ![n]⟩ : Shape).numel) (hk : k.val < n) :
    (⟨1, ![n]⟩ : Shape).rowMajor.symm k = ValueIdx.ix1 ⟨k.val, hk⟩ := by
  rw [Equiv.symm_apply_eq]
  apply Fin.ext
  rw [Shape.rowMajor_val_one]
  rfl

theorem gatherPayload_rows {z n : ℕ} (hz : 0 < z) (hg : (⟨2, ![z, 128]⟩ : Shape).Gathers 0 ⟨2, ![n, 128]⟩)
    (g : (⟨2, ![z, 128]⟩ : Shape).Idx → Elt F .f32) (idx : (⟨1, ![n]⟩ : Shape).Idx → Elt F .i32)
    (hn : (⟨1, ![n]⟩ : Shape).numel = (⟨2, ![n, 128]⟩ : Shape).size hg.axis')
    (hin : ∀ x, (idx x).toNat < (⟨2, ![z, 128]⟩ : Shape).size hg.axis) (x : (⟨2, ![n, 128]⟩ : Shape).Idx) :
    SparseCore.gatherPayload hg g (SparseCore.rows idx hn hin) x
      = g (ValueIdx.ix2 (rowOf z hz (idx (ValueIdx.ix1 (n := n) (x 0)))) (x 1)) := by
  unfold SparseCore.gatherPayload
  congr 1
  funext b
  apply Fin.ext
  match b with
  | 0 =>
    have h1 : hg.idx (SparseCore.rows idx hn hin) x hg.axis = SparseCore.rows idx hn hin (x hg.axis') :=
      Shape.Gathers.idx_axis hg _ x
    have hlt : BitVec.toNat (idx (ValueIdx.ix1 (n := n) (x 0))) < z := hin _
    have hw : rowOf z hz (idx (ValueIdx.ix1 (n := n) (x 0))) = ⟨BitVec.toNat (idx (ValueIdx.ix1 (n := n) (x 0))), hlt⟩ := dif_pos hlt
    have e1 : (⟨1, ![n]⟩ : Shape).rowMajor.symm (Fin.cast hn.symm (x hg.axis')) = ValueIdx.ix1 (n := n) (x 0) :=
      rowMajor_symm_one _ (show (Fin.cast hn.symm (x hg.axis')).val < n from (x 0).isLt)
    show (hg.idx (SparseCore.rows idx hn hin) x hg.axis).val = (rowOf z hz (idx (ValueIdx.ix1 (n := n) (x 0)))).val
    rw [h1, hw]
    show BitVec.toNat (idx ((⟨1, ![n]⟩ : Shape).rowMajor.symm (Fin.cast hn.symm (x hg.axis')))) = _
    rw [e1]
  | 1 => rw [Shape.Gathers.idx_of_ne hg _ x 1 (show ((1 : Fin 2).val) ≠ 0 from Nat.one_ne_zero)]; rfl

theorem emb_unit00 {z : ℕ} (inb : ∀ a, (![0, 0] : Fin 2 → ℕ) a + (⟨2, ![z, 128]⟩ : Shape).size a ≤ (⟨2, ![z, 128]⟩ : Shape).size a)
    (x : (⟨2, ![z, 128]⟩ : Shape).Idx) :
    (Rect.unit (s := ⟨2, ![z, 128]⟩) ![0, 0] (⟨2, ![z, 128]⟩ : Shape).size inb).emb x = x := by
  funext a
  apply Fin.ext
  show (![0, 0] : Fin 2 → ℕ) a + 1 * (x a).val = (x a).val
  match a with
  | 0 => simp
  | 1 => simp

theorem read_slice00 {κ : Kind} {sp : Space} {e : EltTy} {z : ℕ} (v : View sig κ sp ⟨2, ![z, 128]⟩ e)
    (inb : ∀ a, (![0, 0] : Fin 2 → ℕ) a + (⟨2, ![z, 128]⟩ : Shape).size a ≤ (⟨2, ![z, 128]⟩ : Shape).size a)
    (f : v.ty.Contents (Elt F)) :
    View.read (Elt F) (v.slice (Rect.unit (s := ⟨2, ![z, 128]⟩) ![0, 0] (⟨2, ![z, 128]⟩ : Shape).size inb)) f = View.read (Elt F) v f := by
  funext x
  rw [View.read_apply, View.read_apply]
  show _root_.cast _ (f (v.emb ((Rect.unit (s := ⟨2, ![z, 128]⟩) ![0, 0] (⟨2, ![z, 128]⟩ : Shape).size inb).emb x))) = _
  rw [emb_unit00]

/-- A buffer read back after the words of a list's slice were written over all of it. -/
abbrev readBack (M : Memref sig .scVector .vmem S400 .i32) (f : M.view.ty.Contents (Elt F))
    (I : Memref sig .scVector .hbm S400 .i32) (w : I.view.ty.Contents (Elt F)) : S400.Idx → Elt F .i32 :=
  View.read (Elt F) M.view (View.write (Elt F) M.view f (ReadAs.same.apply (View.read (Elt F) I.view w)) Finset.univ)

/-- A table of z rows read through its slice at offset 0 of its whole extent. -/
abbrev tableRead {z : ℕ} (T : Memref sig .scVector .hbm ⟨2, ![z, 128]⟩ .f32)
    (inb : ∀ a, (![0, 0] : Fin 2 → ℕ) a + (⟨2, ![z, 128]⟩ : Shape).size a ≤ (⟨2, ![z, 128]⟩ : Shape).size a)
    (pf : ∀ a, (Rect.unit (s := ⟨2, ![z, 128]⟩) ![0, 0] (⟨2, ![z, 128]⟩ : Shape).size inb).stride a = 1)
    (g : T.view.ty.Contents (Elt F)) : (⟨2, ![z, 128]⟩ : Shape).Idx → Elt F .f32 :=
  View.read (Elt F) (T.slice (Rect.unit (s := ⟨2, ![z, 128]⟩) ![0, 0] (⟨2, ![z, 128]⟩ : Shape).size inb) pf).view g

/-- A gather of a table's rows by those words: row x 0 holds the table's row that the slice names at x 0. -/
theorem gather_val {z : ℕ} (hz : 0 < z) (hg : (⟨2, ![z, 128]⟩ : Shape).Gathers 0 ⟨2, ![400, 128]⟩)
    (T : Memref sig .scVector .hbm ⟨2, ![z, 128]⟩ .f32) (inb) (pf) (g : T.view.ty.Contents (Elt F))
    (M : Memref sig .scVector .vmem S400 .i32) (f : M.view.ty.Contents (Elt F))
    (I : Memref sig .scVector .hbm S400 .i32) (w : I.view.ty.Contents (Elt F))
    (hn : S400.numel = (⟨2, ![400, 128]⟩ : Shape).size hg.axis')
    (hin : ∀ x, (readBack M f I w x).toNat < (⟨2, ![z, 128]⟩ : Shape).size hg.axis) (x : (⟨2, ![400, 128]⟩ : Shape).Idx) :
    SparseCore.gatherPayload hg (tableRead T inb pf g) (SparseCore.rows (readBack M f I w) hn hin) x
      = View.read (Elt F) T.view g (ValueIdx.ix2 (rowOf z hz (View.read (Elt F) I.view w (ValueIdx.ix1 (n := 400) (x 0)))) (x 1)) := by
  refine (gatherPayload_rows hz hg _ _ hn hin x).trans ?_
  unfold readBack tableRead
  rw [View.read_write_univ]
  show View.read (Elt F) (T.view.slice (Rect.unit (s := ⟨2, ![z, 128]⟩) ![0, 0] (⟨2, ![z, 128]⟩ : Shape).size inb)) g _ = _
  rw [read_slice00 T.view inb g]

theorem chunkVal1 (L : grid1.Coords) (t : Fin k1_t1_loop.trips) (V : Valuation τ sig (Elt F))
    (f1 : (Memref.whole cc1_scratch0).view.ty.Contents (Elt F))
    (pf1 : ∀ a, (Rect.unit (s := S10000x128) ![0, 0] S10000x128.size inb_S10000x128_S10000x128_0_0).stride a = 1)
    (hn1 : S400.numel = S400x128.size gathers_S10000x128_S400x128.axis')
    (hin1 : ∀ x, (readBack (Memref.whole cc1_scratch0) f1 (idxChunk1_1 L t) (VA1 V (r main_v21)) x).toNat
        < S10000x128.size gathers_S10000x128_S400x128.axis)
    (f2 : (Memref.whole cc1_scratch1).view.ty.Contents (Elt F))
    (pf2 : ∀ a, (Rect.unit (s := S576x128) ![0, 0] S576x128.size inb_S576x128_S576x128_0_0).stride a = 1)
    (hn2 : S400.numel = S400x128.size gathers_S576x128_S400x128.axis')
    (hin2 : ∀ x, (readBack (Memref.whole cc1_scratch1) f2 (idxChunk1_2 L t) (VA1 V (r main_v47)) x).toNat
        < S576x128.size gathers_S576x128_S400x128.axis)
    (x : S400x128.Idx) :
    FloatOps.addf (φ := .f32)
      (SparseCore.gatherPayload gathers_S10000x128_S400x128
        (tableRead (Memref.whole main_v9_scv) inb_S10000x128_S10000x128_0_0 pf1 (VA1 V (r main_v9)))
        (SparseCore.rows (readBack (Memref.whole cc1_scratch0) f1 (idxChunk1_1 L t) (VA1 V (r main_v21))) hn1 hin1) x)
      (SparseCore.gatherPayload gathers_S576x128_S400x128
        (tableRead (Memref.whole main_v60_scv) inb_S576x128_S576x128_0_0 pf2 (VA1 V (r main_v60)))
        (SparseCore.rows (readBack (Memref.whole cc1_scratch1) f2 (idxChunk1_2 L t) (VA1 V (r main_v47))) hn2 hin2) x)
      = out1 V ((outChunk1 L t).view.emb x) := by
  rw [gather_val (z := 10000) (by decide), gather_val (z := 576) (by decide), View.read_apply (v := (idxChunk1_1 L t).view),
    View.read_apply (v := (idxChunk1_2 L t).view), emb_idxChunk1_1 L t (x 0), emb_idxChunk1_2 L t (x 0),
    (congrArg (outChunk1 L t).view.emb (ValueIdx.eq_ix2 (n0 := 400) (n1 := 128) x)).trans (emb_outChunk1 L t (x 0) (x 1))]
  rfl

theorem chunkVal2 (L : grid2.Coords) (t : Fin k2_t1_loop.trips) (V : Valuation τ sig (Elt F))
    (f1 : (Memref.whole cc2_scratch0).view.ty.Contents (Elt F))
    (pf1 : ∀ a, (Rect.unit (s := S10000x128) ![0, 0] S10000x128.size inb_S10000x128_S10000x128_0_0).stride a = 1)
    (hn1 : S400.numel = S400x128.size gathers_S10000x128_S400x128.axis')
    (hin1 : ∀ x, (readBack (Memref.whole cc2_scratch0) f1 (idxChunk2_1 L t) (VA2 V (r main_v21)) x).toNat
        < S10000x128.size gathers_S10000x128_S400x128.axis)
    (f2 : (Memref.whole cc2_scratch1).view.ty.Contents (Elt F))
    (pf2 : ∀ a, (Rect.unit (s := S576x128) ![0, 0] S576x128.size inb_S576x128_S576x128_0_0).stride a = 1)
    (hn2 : S400.numel = S400x128.size gathers_S576x128_S400x128.axis')
    (hin2 : ∀ x, (readBack (Memref.whole cc2_scratch1) f2 (idxChunk2_2 L t) (VA2 V (r main_v47)) x).toNat
        < S576x128.size gathers_S576x128_S400x128.axis)
    (x : S400x128.Idx) :
    FloatOps.addf (φ := .f32)
      (SparseCore.gatherPayload gathers_S10000x128_S400x128
        (tableRead (Memref.whole main_v120_scv) inb_S10000x128_S10000x128_0_0 pf1 (VA2 V (r main_v120)))
        (SparseCore.rows (readBack (Memref.whole cc2_scratch0) f1 (idxChunk2_1 L t) (VA2 V (r main_v21))) hn1 hin1) x)
      (SparseCore.gatherPayload gathers_S576x128_S400x128
        (tableRead (Memref.whole main_v133_scv) inb_S576x128_S576x128_0_0 pf2 (VA2 V (r main_v133)))
        (SparseCore.rows (readBack (Memref.whole cc2_scratch1) f2 (idxChunk2_2 L t) (VA2 V (r main_v47))) hn2 hin2) x)
      = out2 V ((outChunk2 L t).view.emb x) := by
  rw [gather_val (z := 10000) (by decide), gather_val (z := 576) (by decide), View.read_apply (v := (idxChunk2_1 L t).view),
    View.read_apply (v := (idxChunk2_2 L t).view), emb_idxChunk2_1 L t (x 0), emb_idxChunk2_2 L t (x 0),
    (congrArg (outChunk2 L t).view.emb (ValueIdx.eq_ix2 (n0 := 400) (n1 := 128) x)).trans (emb_outChunk2 L t (x 0) (x 1))]
  rfl

theorem chunkVal3 (L : grid3.Coords) (t : Fin k3_t1_loop.trips) (V : Valuation τ sig (Elt F))
    (f1 : (Memref.whole cc3_scratch0).view.ty.Contents (Elt F))
    (pf1 : ∀ a, (Rect.unit (s := S10000x128) ![0, 0] S10000x128.size inb_S10000x128_S10000x128_0_0).stride a = 1)
    (hn1 : S400.numel = S400x128.size gathers_S10000x128_S400x128.axis')
    (hin1 : ∀ x, (readBack (Memref.whole cc3_scratch0) f1 (idxChunk3_1 L t) (VA3 V (r main_v21)) x).toNat
        < S10000x128.size gathers_S10000x128_S400x128.axis)
    (f2 : (Memref.whole cc3_scratch1).view.ty.Contents (Elt F))
    (pf2 : ∀ a, (Rect.unit (s := S576x128) ![0, 0] S576x128.size inb_S576x128_S576x128_0_0).stride a = 1)
    (hn2 : S400.numel = S400x128.size gathers_S576x128_S400x128.axis')
    (hin2 : ∀ x, (readBack (Memref.whole cc3_scratch1) f2 (idxChunk3_2 L t) (VA3 V (r main_v47)) x).toNat
        < S576x128.size gathers_S576x128_S400x128.axis)
    (x : S400x128.Idx) :
    FloatOps.addf (φ := .f32)
      (SparseCore.gatherPayload gathers_S10000x128_S400x128
        (tableRead (Memref.whole main_v193_scv) inb_S10000x128_S10000x128_0_0 pf1 (VA3 V (r main_v193)))
        (SparseCore.rows (readBack (Memref.whole cc3_scratch0) f1 (idxChunk3_1 L t) (VA3 V (r main_v21))) hn1 hin1) x)
      (SparseCore.gatherPayload gathers_S576x128_S400x128
        (tableRead (Memref.whole main_v206_scv) inb_S576x128_S576x128_0_0 pf2 (VA3 V (r main_v206)))
        (SparseCore.rows (readBack (Memref.whole cc3_scratch1) f2 (idxChunk3_2 L t) (VA3 V (r main_v47))) hn2 hin2) x)
      = out3 V ((outChunk3 L t).view.emb x) := by
  rw [gather_val (z := 10000) (by decide), gather_val (z := 576) (by decide), View.read_apply (v := (idxChunk3_1 L t).view),
    View.read_apply (v := (idxChunk3_2 L t).view), emb_idxChunk3_1 L t (x 0), emb_idxChunk3_2 L t (x 0),
    (congrArg (outChunk3 L t).view.emb (ValueIdx.eq_ix2 (n0 := 400) (n1 := 128) x)).trans (emb_outChunk3 L t (x 0) (x 1))]
  rfl

end Cert.Kernel.Hand

end
-- ==== Proof.KB.Tile1.lean ====
import proofs.«208129_g65403761983635_cont_9to1_m_1354_7_alg».proof.Proof.KB.Base
import proofs.«208129_g65403761983635_cont_9to1_m_1354_7_alg».proof.Proof.Gen.Kernel.Skeleton
import Idealize.ShloMosaic.Lib.SparseCore.Ops
import Idealize.ShloMosaic.Lib.SparseCore.Stream
import proofs.«208129_g65403761983635_cont_9to1_m_1354_7_alg».proof.Proof.KB.TileGeom
import proofs.«208129_g65403761983635_cont_9to1_m_1354_7_alg».proof.Proof.KB.TileVal
import proofs.«208129_g65403761983635_cont_9to1_m_1354_7_alg».proof.Proof.KB.TileLib
import proofs.«208129_g65403761983635_cont_9to1_m_1354_7_alg».proof.Proof.LibRows

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

namespace cc1_tile

local notation "t1V" => (Memref.whole Cert.Kernel.main_v9_scv : Memref Cert.Kernel.sig Kind.scVector Space.hbm Cert.Kernel.S10000x128 EltTy.f32)
local notation "i1V" => (Memref.whole Cert.Kernel.main_v21_scv : Memref Cert.Kernel.sig Kind.scVector Space.hbm Cert.Kernel.S320000 EltTy.i32)
local notation "t2V" => (Memref.whole Cert.Kernel.main_v60_scv : Memref Cert.Kernel.sig Kind.scVector Space.hbm Cert.Kernel.S576x128 EltTy.f32)
local notation "i2V" => (Memref.whole Cert.Kernel.main_v47_scv : Memref Cert.Kernel.sig Kind.scVector Space.hbm Cert.Kernel.S320000 EltTy.i32)
local notation "oV" => (Memref.whole Cert.Kernel.main_v61_scv : Memref Cert.Kernel.sig Kind.scVector Space.hbm Cert.Kernel.S320000x128 EltTy.f32)
local notation "l1V" => (Memref.whole Cert.Kernel.cc1_scratch0 : Memref Cert.Kernel.sig Kind.scVector Space.vmem Cert.Kernel.S400 EltTy.i32)
local notation "l2V" => (Memref.whole Cert.Kernel.cc1_scratch1 : Memref Cert.Kernel.sig Kind.scVector Space.vmem Cert.Kernel.S400 EltTy.i32)
local notation "aV" => (Memref.whole Cert.Kernel.cc1_scratch2 : Memref Cert.Kernel.sig Kind.scVector Space.vmem Cert.Kernel.S400x128 EltTy.f32)
local notation "bV" => (Memref.whole Cert.Kernel.cc1_scratch3 : Memref Cert.Kernel.sig Kind.scVector Space.vmem Cert.Kernel.S400x128 EltTy.f32)

section Tile

variable (d : Dev nD) (L : grid1.Coords)

abbrev cV (L : grid1.Coords) : Fin τ.nSC := (L 0).castLE hcore1
abbrev jV (L : grid1.Coords) : Fin τ.nSub := (L 1).castLE hsub1

abbrev partNo (L : grid1.Coords) (t : ℕ) : ℕ := 50 * (L 1).val + 25 * (L 0).val + t

omit [FloatOps F] in
theorem pts_outChunk (t : Fin k1_t1_loop.trips) (f : Buf (Elt F) (tLoc d main_v61)) :
    ((outChunk1 L t).view.loc (V d (cV L) (jV L)) ↦[(outChunk1 L t).view.set]{fullShare} f : sProp 𝕄) = tLoc d main_v61 ↦[part1N (partNo L t.val)]{fullShare} f := by
  rw [set_outChunk1]

abbrev c4cell (d : Dev nD) (L : grid1.Coords) : GSem nD τ sig := (V d (cV L) (jV L), .dma cc1_scratch4.sem)
abbrev c5cell (d : Dev nD) (L : grid1.Coords) : GSem nD τ sig := (V d (cV L) (jV L), .dma cc1_scratch5.sem)
abbrev s0cell (d : Dev nD) (L : grid1.Coords) : GSem nD τ sig := (V d (cV L) (jV L), .dma cc1_scoped0.sem)
abbrev s1cell (d : Dev nD) (L : grid1.Coords) : GSem nD τ sig := (V d (cV L) (jV L), .dma cc1_scoped1.sem)
abbrev s2cell (d : Dev nD) (L : grid1.Coords) : GSem nD τ sig := (V d (cV L) (jV L), .dma cc1_scoped2.sem)

omit [FloatOps F] in
theorem ownSems0_V :
    (ownSems0 (V d (cV L) (jV L)) : sProp 𝕄)
      = iprop(semVal (c4cell d L) 0 ∗ semVal (c5cell d L) 0 ∗ semVal (s0cell d L) 0 ∗ semVal (s1cell d L) 0 ∗ semVal (s2cell d L) 0
          ∗ bigSep ((((((ownCells (V d (cV L) (jV L))).erase (c4cell d L)).erase (c5cell d L)).erase (s0cell d L)).erase (s1cell d L)).erase (s2cell d L))
              fun g => semVal g 0) := by
  unfold SparseCore.Cfg.ownSems0
  have m4 : c4cell d L ∈ ownCells (V d (cV L) (jV L)) := (mem_ownCells (g := c4cell d L)).mpr ⟨rfl, by
    show (SemLoc.dma cc1_scratch4.sem : SemLoc sig).isScoped .scVector = true; decide⟩
  have m5 : c5cell d L ∈ ownCells (V d (cV L) (jV L)) := (mem_ownCells (g := c5cell d L)).mpr ⟨rfl, by
    show (SemLoc.dma cc1_scratch5.sem : SemLoc sig).isScoped .scVector = true; decide⟩
  have m0 : s0cell d L ∈ ownCells (V d (cV L) (jV L)) := (mem_ownCells (g := s0cell d L)).mpr ⟨rfl, by
    show (SemLoc.dma cc1_scoped0.sem : SemLoc sig).isScoped .scVector = true; decide⟩
  have m1 : s1cell d L ∈ ownCells (V d (cV L) (jV L)) := (mem_ownCells (g := s1cell d L)).mpr ⟨rfl, by
    show (SemLoc.dma cc1_scoped1.sem : SemLoc sig).isScoped .scVector = true; decide⟩
  have m2 : s2cell d L ∈ ownCells (V d (cV L) (jV L)) := (mem_ownCells (g := s2cell d L)).mpr ⟨rfl, by
    show (SemLoc.dma cc1_scoped2.sem : SemLoc sig).isScoped .scVector = true; decide⟩
  rw [SparseCore.bigSep_erase' m4,
    SparseCore.bigSep_erase' (Finset.mem_erase.mpr ⟨cell_ne _ (by decide), m5⟩),
    SparseCore.bigSep_erase' (Finset.mem_erase.mpr ⟨cell_ne _ (by decide), Finset.mem_erase.mpr ⟨cell_ne _ (by decide), m0⟩⟩),
    SparseCore.bigSep_erase' (Finset.mem_erase.mpr ⟨cell_ne _ (by decide), Finset.mem_erase.mpr ⟨cell_ne _ (by decide), Finset.mem_erase.mpr ⟨cell_ne _ (by decide), m1⟩⟩⟩),
    SparseCore.bigSep_erase' (Finset.mem_erase.mpr ⟨cell_ne _ (by decide), Finset.mem_erase.mpr ⟨cell_ne _ (by decide), Finset.mem_erase.mpr ⟨cell_ne _ (by decide),
      Finset.mem_erase.mpr ⟨cell_ne _ (by decide), m2⟩⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have own0 := SparseCore.Cfg.mem_ownRefs_of_owner (p := Proc.scVector (cV L) (jV L)) (b := (Proc.scVector (cV L) (jV L)).devRef cc1_scratch0) rfl
  have own1 := SparseCore.Cfg.mem_ownRefs_of_owner (p := Proc.scVector (cV L) (jV L)) (b := (Proc.scVector (cV L) (jV L)).devRef cc1_scratch1) rfl
  have own2 := SparseCore.Cfg.mem_ownRefs_of_owner (p := Proc.scVector (cV L) (jV L)) (b := (Proc.scVector (cV L) (jV L)).devRef cc1_scratch2) rfl
  have own3 := SparseCore.Cfg.mem_ownRefs_of_owner (p := Proc.scVector (cV L) (jV L)) (b := (Proc.scVector (cV L) (jV L)).devRef cc1_scratch3) rfl
  have ne : ∀ {b b' : Ref sig .scVector}, b ≠ b' → (Proc.scVector (cV L) (jV L)).devRef b ≠ (Proc.scVector (cV L) (jV L)).devRef b' :=
    fun h e => h (Proc.devRef_injective _ e)
  refine (SparseCore.bigSep_erase' own0).trans ?_
  rw [SparseCore.bigSep_erase' (Finset.mem_erase.mpr ⟨ne (show (cc1_scratch1 : Ref sig .scVector) ≠ cc1_scratch0 by decide), own1⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide), own2⟩⟩),
    SparseCore.bigSep_erase' (Finset.mem_erase.mpr ⟨ne (show (cc1_scratch3 : Ref sig .scVector) ≠ cc1_scratch2 by decide),
      Finset.mem_erase.mpr ⟨ne (show (cc1_scratch3 : Ref sig .scVector) ≠ cc1_scratch1 by decide),
      Finset.mem_erase.mpr ⟨ne (show (cc1_scratch3 : Ref sig .scVector) ≠ cc1_scratch0 by decide), own3⟩⟩⟩)]

theorem piece_ok (k : Fin k1_t2_loop.trips)
    (f : Buf (Elt F) ((aV).view.loc (V d (cV L) (jV L)))) (g : Buf (Elt F) ((bV).view.loc (V d (cV L) (jV L))))
    (off : Fin 2 → ℕ) (inb : ∀ a, off a + S1x16.size a ≤ S400x128.size a) (h : ∃ r < 4, ∃ c, off = ![4 * k.val + r, c]) (x : S1x16.Idx) :
    FloatOps.addf (φ := .f32) ((aV).view.readAt (Elt F) (Rect.unit (s := S400x128) off S1x16.size inb).toLoadRect f x)
        ((bV).view.readAt (Elt F) (Rect.unit (s := S400x128) off S1x16.size inb).toLoadRect g x)
      = rowsAdd k.val f g ((Rect.unit (s := S400x128) off S1x16.size inb).emb x) := by
  obtain ⟨r, hr, c, rfl⟩ := h
  have hx : (x 0).val = 0 := by have := (x 0).isLt; change (x 0).val < 1 at this; omega
  unfold rowsAdd
  rw [if_pos]
  · rfl
  · rw [Rect.emb_apply]
    simp only [Rect.off_unit, Rect.stride_unit, Matrix.cons_val_zero, hx]
    omega

set_option maxHeartbeats 4000000 in
theorem row_trip (k : Fin k1_t2_loop.trips)
    (f : Buf (Elt F) ((aV).view.loc (V d (cV L) (jV L)))) (g : Buf (Elt F) ((bV).view.loc (V d (cV L) (jV L)))) :
    (iprop(((aV).view.loc (V d (cV L) (jV L)) ↦{fullShare} f) ∗ ((bV).view.loc (V d (cV L) (jV L)) ↦{fullShare} g)) : sProp 𝕄)
      ⊢ wp frame (wpE (defs₀ (F := F)) 𝒱₀ (V d (cV L) (jV L)) none) Set.univ
          (k1_t2_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc1_scratch4 cc1_scratch5 cc1_scoped0 cc1_scoped1 cc1_scoped2 k ⟨⟩)
          fun _ => iprop(((aV).view.loc (V d (cV L) (jV L)) ↦{fullShare} rowsAdd k.val f g) ∗ ((bV).view.loc (V d (cV L) (jV L)) ↦{fullShare} g)) := by
  unfold k1_t2_body
  iintro ⟨Ha, Hb⟩
  sl_exec_parts
  sl_step
  isplitl [Ha]
  swap; · iexact Hb
  iapply (Entails.of_eq (congrArg (fun c => ((aV).view.loc (V d (cV L) (jV L)) ↦{fullShare} c : sProp 𝕄)) ?_)) $$ Ha
  sl_unfold_run_names
  have h0 : 0 < 4 := by decide
  have h1 : 1 < 4 := by decide
  have h2 : 2 < 4 := by decide
  have h3 : 3 < 4 := by decide
  have o2 : ∀ n (h : n < 4), k1_off2 k (BitVec.ofNat 32 n) = ![4 * k.val + n, 0] := fun n h => k1_off2_eq k ⟨n, h⟩
  have o3 : ∀ n (h : n < 4), k1_off3 k (BitVec.ofNat 32 n) = ![4 * k.val + n, 16] := fun n h => k1_off3_eq k ⟨n, h⟩
  have o4 : ∀ n (h : n < 4), k1_off4 k (BitVec.ofNat 32 n) = ![4 * k.val + n, 32] := fun n h => k1_off4_eq k ⟨n, h⟩
  have o5 : ∀ n (h : n < 4), k1_off5 k (BitVec.ofNat 32 n) = ![4 * k.val + n, 48] := fun n h => k1_off5_eq k ⟨n, h⟩
  have o6 : ∀ n (h : n < 4), k1_off6 k (BitVec.ofNat 32 n) = ![4 * k.val + n, 64] := fun n h => k1_off6_eq k ⟨n, h⟩
  have o7 : ∀ n (h : n < 4), k1_off7 k (BitVec.ofNat 32 n) = ![4 * k.val + n, 80] := fun n h => k1_off7_eq k ⟨n, h⟩
  have o8 : ∀ n (h : n < 4), k1_off8 k (BitVec.ofNat 32 n) = ![4 * k.val + n, 96] := fun n h => k1_off8_eq k ⟨n, h⟩
  have o9 : ∀ n (h : n < 4), k1_off9 k (BitVec.ofNat 32 n) = ![4 * k.val + n, 112] := fun n h => k1_off9_eq k ⟨n, h⟩
  have key : ∀ Ls : List (View.Piece (Elt F) S400x128 .f32), (∀ p ∈ Ls, ∀ x : p.1.shape.Idx, p.2 x = rowsAdd k.val f g (p.1.emb x)) →
      (∀ y, (∀ p ∈ Ls, y ∉ p.1.set) → f y = rowsAdd k.val f g y) → (aV).view.writes (Elt F) f Ls = rowsAdd k.val f g :=
    fun Ls hp hr => read_writes_eq_of_pieces (aV).view f (rowsAdd k.val f g) Ls hp hr
  refine key _ ?hp ?hr
  case hr =>
    intro y hy
    simp only [List.forall_mem_cons, List.not_mem_nil, false_imp_iff, implies_true, and_true, Rect.mem_set_unit, Fin.forall_fin_two,
      o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3, Matrix.cons_val_zero, Matrix.cons_val_one] at hy
    show f y = rowsAdd k.val f g y
    unfold rowsAdd
    rw [if_neg]
    exact fun hb => Rows.cover32 (y 1).isLt hb hy
  case hp =>
    simp only [List.forall_mem_cons, List.not_mem_nil, false_imp_iff, implies_true, and_true]
    and_intros
    all_goals exact fun x => (laneAdd_apply _ _ x).trans (piece_ok d L k f g _ _
      (by simp only [o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3]; exact ⟨_, by decide, _, rfl⟩) x)

def invRow (fA : Buf (Elt F) ((aV).view.loc (V d (cV L) (jV L)))) (fB : Buf (Elt F) ((bV).view.loc (V d (cV L) (jV L)))) (k : ℕ) (_ : PUnit) : sProp 𝕄 :=
  iprop(((aV).view.loc (V d (cV L) (jV L)) ↦{fullShare} accAt (4 * k) fA fB) ∗ ((bV).view.loc (V d (cV L) (jV L)) ↦{fullShare} fB))

theorem aV_writes_whole (g : Buf (Elt F) ((aV).view.loc (V d (cV L) (jV L)))) (w : S400x128.Idx → Elt F .f32) (x : S400x128.Idx) :
    (aV).view.writes (Elt F) g [⟨Rect.whole S400x128, w⟩] x = w x := by
  have hx : (Rect.whole S400x128).emb x = x := Rect.emb_whole_apply S400x128 x
  have e := View.read_writes_cons_emb (aV).view g (Rect.whole S400x128) w [] x
  first
    | (rw [hx] at e; exact e)
    | exact (congrArg (fun y => (aV).view.writes (Elt F) g [⟨Rect.whole S400x128, w⟩] y) hx).symm.trans e
theorem bV_writes_whole (g : Buf (Elt F) ((bV).view.loc (V d (cV L) (jV L)))) (w : S400x128.Idx → Elt F .f32) (x : S400x128.Idx) :
    (bV).view.writes (Elt F) g [⟨Rect.whole S400x128, w⟩] x = w x := by
  have hx : (Rect.whole S400x128).emb x = x := Rect.emb_whole_apply S400x128 x
  have e := View.read_writes_cons_emb (bV).view g (Rect.whole S400x128) w [] x
  first
    | (rw [hx] at e; exact e)
    | exact (congrArg (fun y => (bV).view.writes (Elt F) g [⟨Rect.whole S400x128, w⟩] y) hx).symm.trans e

theorem out_writes_emb (t : Fin k1_t1_loop.trips) (Wc : (outChunk1 L t).view.ty.Contents (Elt F)) (w : S400x128.Idx → Elt F .f32) (x : S400x128.Idx) :
    (outChunk1 L t).view.writes (Elt F) Wc [⟨Rect.whole S400x128, w⟩] ((outChunk1 L t).view.emb x) = w x := by
  have e1 := View.read_writes_cons_emb (outChunk1 L t).view Wc (Rect.whole S400x128) w [] x
  rw [Rect.emb_whole_apply] at e1
  exact ((View.read_apply _ _).trans (cast_eq _ _)).symm.trans e1

set_option maxHeartbeats 4000000 in
theorem chunk_trip (hpre : PreOK (V0 m d)) (O : CellTallies nD τ sig (HIx 4)) (W' : Waits sig (HIx 4)) (t : Fin k1_t1_loop.trips)
    (q : PosShare TreeShare)
    (f1 : Buf (Elt F) ((l1V).view.loc (V d (cV L) (jV L)))) (f2 : Buf (Elt F) ((l2V).view.loc (V d (cV L) (jV L))))
    (fa : Buf (Elt F) ((aV).view.loc (V d (cV L) (jV L)))) (fb : Buf (Elt F) ((bV).view.loc (V d (cV L) (jV L)))) :
    (iprop(Transfers.MayWaits (V d (cV L) (jV L)) (none : HIx 4) O
        ∗ ((t1V).view.loc (V d (cV L) (jV L)) ↦{q} VA1 (V0 m d) (r main_v9))
        ∗ ((i1V).view.loc (V d (cV L) (jV L)) ↦{q} VA1 (V0 m d) (r main_v21))
        ∗ ((t2V).view.loc (V d (cV L) (jV L)) ↦{q} VA1 (V0 m d) (r main_v60))
        ∗ ((i2V).view.loc (V d (cV L) (jV L)) ↦{q} VA1 (V0 m d) (r main_v47))
        ∗ ((outChunk1 L t).view.loc (V d (cV L) (jV L)) ↦[(outChunk1 L t).view.set]{fullShare} VA1 (V0 m d) (r main_v61))
        ∗ ((l1V).view.loc (V d (cV L) (jV L)) ↦{fullShare} f1) ∗ ((l2V).view.loc (V d (cV L) (jV L)) ↦{fullShare} f2)
        ∗ ((aV).view.loc (V d (cV L) (jV L)) ↦{fullShare} fa) ∗ ((bV).view.loc (V d (cV L) (jV L)) ↦{fullShare} fb)
        ∗ semVal (c4cell d L) 0 ∗ semVal (c5cell d L) 0 ∗ semVal (s0cell d L) 0 ∗ semVal (s1cell d L) 0 ∗ semVal (s2cell d L) 0
        ∗ owes (V d (cV L) (jV L)) O W') : sProp 𝕄)
      ⊢ wp frame (wpE (defs₀ (F := F)) 𝒱₀ (V d (cV L) (jV L)) none) Set.univ
          (k1_t1_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc1_scratch4 cc1_scratch5 cc1_scoped0 cc1_scoped1 cc1_scoped2 t ⟨⟩)
          fun _ => iprop(Transfers.MayWaits (V d (cV L) (jV L)) (none : HIx 4) O
            ∗ ((t1V).view.loc (V d (cV L) (jV L)) ↦{q} VA1 (V0 m d) (r main_v9))
            ∗ ((i1V).view.loc (V d (cV L) (jV L)) ↦{q} VA1 (V0 m d) (r main_v21))
            ∗ ((t2V).view.loc (V d (cV L) (jV L)) ↦{q} VA1 (V0 m d) (r main_v60))
            ∗ ((i2V).view.loc (V d (cV L) (jV L)) ↦{q} VA1 (V0 m d) (r main_v47))
            ∗ ((outChunk1 L t).view.loc (V d (cV L) (jV L)) ↦[(outChunk1 L t).view.set]{fullShare} out1 (V0 m d))
            ∗ (∃ f, (l1V).view.loc (V d (cV L) (jV L)) ↦{fullShare} f) ∗ (∃ f, (l2V).view.loc (V d (cV L) (jV L)) ↦{fullShare} f)
            ∗ (∃ f, (aV).view.loc (V d (cV L) (jV L)) ↦{fullShare} f) ∗ (∃ f, (bV).view.loc (V d (cV L) (jV L)) ↦{fullShare} f)
            ∗ semVal (c4cell d L) 0 ∗ semVal (c5cell d L) 0 ∗ semVal (s0cell d L) 0 ∗ semVal (s1cell d L) 0 ∗ semVal (s2cell d L) 0
            ∗ ∃ W'', ⌜∀ p ∈ W'', p ∈ W' ∨ p.2 = none⌝ ∗ owes (V d (cV L) (jV L)) O W'') := by
  have hin1 : ∀ (g1 : Buf (Elt F) ((l1V).view.loc (V d (cV L) (jV L)))) x,
      ((l1V).view.read (Elt F) (View.write (Elt F) (l1V).view g1 ((idxChunk1_1 L t).view.read (Elt F) (VA1 (V0 m d) (r main_v21))) Finset.univ) x).toNat
        < S10000x128.size gathers_S10000x128_S400x128.axis := by
    intro g1 x
    rw [View.write_whole_univ]
    simp only [Memref.view_whole, View.read_whole]
    rw [show ∀ j, (idxChunk1_1 L t).view.read (Elt F) (VA1 (V0 m d) (r main_v21)) j = VA1 (V0 m d) (r main_v21) ((idxChunk1_1 L t).view.emb j) from fun j => (View.read_apply _ _).trans (cast_eq _ _)]
    exact hpre.h1a _
  have hin2 : ∀ (g2 : Buf (Elt F) ((l2V).view.loc (V d (cV L) (jV L)))) x,
      ((l2V).view.read (Elt F) (View.write (Elt F) (l2V).view g2 ((idxChunk1_2 L t).view.read (Elt F) (VA1 (V0 m d) (r main_v47))) Finset.univ) x).toNat
        < S576x128.size gathers_S576x128_S400x128.axis := by
    intro g2 x
    rw [View.write_whole_univ]
    simp only [Memref.view_whole, View.read_whole]
    rw [show ∀ j, (idxChunk1_2 L t).view.read (Elt F) (VA1 (V0 m d) (r main_v47)) j = VA1 (V0 m d) (r main_v47) ((idxChunk1_2 L t).view.emb j) from fun j => (View.read_apply _ _).trans (cast_eq _ _)]
    exact hpre.h1b _
  unfold k1_t1_body
  iintro ⟨Hmw, Ht1, Hi1, Ht2, Hi2, Ho, Hl1, Hl2, Ha, Hb, Hc4, Hc5, Hs0, Hs1, Hs2, HO⟩
  sl_exec
  sl_unfold_run_names
  generalize hfA : (aV).view.writes (Elt F) (aV).view.junk _ = fA
  generalize hfB : (bV).view.writes (Elt F) (bV).view.junk _ = fB
  sl_for (invRow d L fA fB) $$ [Ha Hb]
  case region =>
    intro k _
    unfold invRow
    rw [← rowsAdd_accAt k.val fA fB]
    exact row_trip d L k _ fB
  · unfold invRow
    rw [accAt_zero]
    isplitl [Ha]
    · iexact Ha
    · iexact Hb
  iintro %_ HI
  unfold invRow
  icases HI with ⟨Ha, Hb⟩
  sl_exec
  sl_step
  iframe Hmw Ht1 Hi1 Ht2 Hi2
  isplitl [Ho]
  · iapply (Entails.of_eq (pointsTo_congr ?hv)) $$ Ho
    case hv =>
      sl_unfold_run_names
      rw [set_outChunk1]
      refine forall_outChunk1 L t (fun a b => ?_)
      beta_reduce
      rw [← emb_outChunk1 L t a b, out_writes_emb, ReadAs.apply_same]
      show accAt (4 * k1_t2_loop.trips) fA fB (ValueIdx.ix2 a b) = _
      rw [show 4 * k1_t2_loop.trips = 400 from by decide, accAt_all]
      have hA := (congrFun hfA (ValueIdx.ix2 a b)).symm.trans (aV_writes_whole d L _ _ (ValueIdx.ix2 a b))
      have hB := (congrFun hfB (ValueIdx.ix2 a b)).symm.trans (bV_writes_whole d L _ _ (ValueIdx.ix2 a b))
      rw [hA, hB]
      exact chunkVal1 L t (V0 m d) _ _ _ _ _ _ _ _ (ValueIdx.ix2 a b)
  isplitl [Hl1]; · iexists _; iexact Hl1
  isplitl [Hl2]; · iexists _; iexact Hl2
  isplitl [Ha]; · iexists _; iexact Ha
  isplitl [Hb]; · iexists _; iexact Hb
  isplitl [Hc4]; · iexact Hc4
  isplitl [Hc5]; · iexact Hc5
  isplitl [Hs0]; · iexact Hs0
  isplitl [Hs1]; · iexact Hs1
  isplitl [Hs2]; · iexact Hs2
  iexists _; isplitr
  swap; · iexact HO
  ipureintro; intro p hp
  iterate 5 (rcases Finset.mem_insert.mp hp with hp | hp; · exact .inr (hp ▸ rfl))
  exact .inl hp

def invChunk (O : CellTallies nD τ sig (HIx 4)) (W : Waits sig (HIx 4)) (q : PosShare TreeShare) (k : ℕ) (_ : PUnit) : sProp 𝕄 :=
  iprop(Transfers.MayWaits (V d (cV L) (jV L)) (none : HIx 4) O
    ∗ ((t1V).view.loc (V d (cV L) (jV L)) ↦{q} VA1 (V0 m d) (r main_v9))
    ∗ ((i1V).view.loc (V d (cV L) (jV L)) ↦{q} VA1 (V0 m d) (r main_v21))
    ∗ ((t2V).view.loc (V d (cV L) (jV L)) ↦{q} VA1 (V0 m d) (r main_v60))
    ∗ ((i2V).view.loc (V d (cV L) (jV L)) ↦{q} VA1 (V0 m d) (r main_v47))
    ∗ (bigSep (Finset.univ : Finset (Fin 25)) fun t' => tLoc d main_v61 ↦[part1N (partNo L t'.val)]{fullShare}
        (if t'.val < k then out1 (V0 m d) else VA1 (V0 m d) (r main_v61)))
    ∗ (∃ f, (l1V).view.loc (V d (cV L) (jV L)) ↦{fullShare} f) ∗ (∃ f, (l2V).view.loc (V d (cV L) (jV L)) ↦{fullShare} f)
    ∗ (∃ f, (aV).view.loc (V d (cV L) (jV L)) ↦{fullShare} f) ∗ (∃ f, (bV).view.loc (V d (cV L) (jV L)) ↦{fullShare} f)
    ∗ semVal (c4cell d L) 0 ∗ semVal (c5cell d L) 0 ∗ semVal (s0cell d L) 0 ∗ semVal (s1cell d L) 0 ∗ semVal (s2cell d L) 0
    ∗ ∃ W', ⌜∀ p ∈ W', p ∈ W ∨ p.2 = none⌝ ∗ owes (V d (cV L) (jV L)) O W')

set_option maxHeartbeats 4000000 in
theorem tile_body1 (hpre : PreOK (V0 m d)) (O : CellTallies nD τ sig (HIx 4)) (W : Waits sig (HIx 4)) (hO : ∀ g, O g none = 0) :
    iprop(levAts (K (F := F)).L (K (F := F)).lev ∗ emp
        ∗ (ins d main_v9 main_v21 main_v60 main_v47 (VA1 (V0 m d)) (tileShare (L 0).val (L 1).val) ∗ outs1 d (L 0).val (L 1).val (VA1 (V0 m d) (r main_v61)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc1_scratch4 cc1_scratch5 cc1_scoped0 cc1_scoped1 cc1_scoped2)
          fun _ => iprop((ins d main_v9 main_v21 main_v60 main_v47 (VA1 (V0 m d)) (tileShare (L 0).val (L 1).val) ∗ outs1 d (L 0).val (L 1).val (out1 (V0 m d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V facts d (cV L) (jV L), SparseCore.Cfg.scopedSems0_V (Val := Elt F) d (cV L) (jV L), ownSems0_V, ownBufs_V]
  unfold ins outs1
  iintro ⟨#Hlv, -, ⟨⟨Ht1, Hi1, Ht2, Hi2⟩, Hout⟩, ⟨⟨%f1, Hl1⟩, ⟨%f2, Hl2⟩, ⟨%fa, Ha⟩, ⟨%fb, Hb⟩, Hbufs⟩, ⟨Hc4, Hc5, Hs0, Hs1, Hs2, Hsems⟩, HO⟩
  ihave Hmw := (show levAts (K (F := F)).L (K (F := F)).lev ⊢ Transfers.MayWaits (V d (cV L) (jV L)) (none : HIx 4) O from
    (K (F := F)).mayWaits_none (thr := V d (cV L) (jV L)) hO) $$ Hlv
  sl_for (invChunk m d L O W (tileShare (L 0).val (L 1).val)) $$ [Hmw Ht1 Hi1 Ht2 Hi2 Hout Hl1 Hl2 Ha Hb Hc4 Hc5 Hs0 Hs1 Hs2 HO]
  case region =>
    intro k _
    unfold invChunk
    iintro ⟨Hmw, Ht1, Hi1, Ht2, Hi2, Hout, ⟨%f1, Hl1⟩, ⟨%f2, Hl2⟩, ⟨%fa, Ha⟩, ⟨%fb, Hb⟩, Hc4, Hc5, Hs0, Hs1, Hs2, %W', %hW', HO⟩
    have hk25 : k.val < 25 := k1_t_lt k
    ihave Hout' := (Transfers.bigSep_univ_out (⟨k.val, hk25⟩ : Fin 25) _) $$ Hout
    icases Hout' with ⟨Hk, Hrest⟩
    have ek : (tLoc d main_v61 ↦[part1N (partNo L k.val)]{fullShare} (if k.val < k.val then out1 (V0 m d) else VA1 (V0 m d) (r main_v61)) : sProp 𝕄)
        = ((outChunk1 L k).view.loc (V d (cV L) (jV L)) ↦[(outChunk1 L k).view.set]{fullShare} VA1 (V0 m d) (r main_v61)) := by
      rw [if_neg (lt_irrefl _), pts_outChunk]
    have ek' : ((outChunk1 L k).view.loc (V d (cV L) (jV L)) ↦[(outChunk1 L k).view.set]{fullShare} out1 (V0 m d) : sProp 𝕄)
        = (tLoc d main_v61 ↦[part1N (partNo L k.val)]{fullShare} (if k.val < k.val + 1 then out1 (V0 m d) else VA1 (V0 m d) (r main_v61))) := by
      rw [if_pos (Nat.lt_succ_self _), pts_outChunk]
    have erest : (bigSep ((Finset.univ : Finset (Fin 25)).erase ⟨k.val, hk25⟩) fun t' => (tLoc d main_v61 ↦[part1N (partNo L t'.val)]{fullShare}
          (if t'.val < k.val then out1 (V0 m d) else VA1 (V0 m d) (r main_v61)) : sProp 𝕄))
        = bigSep ((Finset.univ : Finset (Fin 25)).erase ⟨k.val, hk25⟩) fun t' => (tLoc d main_v61 ↦[part1N (partNo L t'.val)]{fullShare}
          (if t'.val < k.val + 1 then out1 (V0 m d) else VA1 (V0 m d) (r main_v61)) : sProp 𝕄) := by
      refine bigSep_congr fun t' ht' => ?_
      have hne : t'.val ≠ k.val := fun e => (Finset.mem_erase.mp ht').1 (Fin.ext e)
      by_cases h : t'.val < k.val
      · rw [if_pos h, if_pos (by omega)]
      · rw [if_neg h, if_neg (by omega)]
    ihave Hk := (Entails.of_eq ek) $$ Hk
    ihave Hrest := (Entails.of_eq erest) $$ Hrest
    iapply (wp_wand_r frame _ _)
    isplitl [Hmw Ht1 Hi1 Ht2 Hi2 Hk Hl1 Hl2 Ha Hb Hc4 Hc5 Hs0 Hs1 Hs2 HO]
    · iapply (chunk_trip m d L hpre O W' k (tileShare (L 0).val (L 1).val) f1 f2 fa fb)
      iframe Hmw Ht1 Hi1 Ht2 Hi2 Hk Hl1 Hl2 Ha Hb Hc4 Hc5 Hs0 Hs1 Hs2 HO
    · iintro %_ ⟨Hmw, Ht1, Hi1, Ht2, Hi2, Hk, Hl1, Hl2, Ha, Hb, Hc4, Hc5, Hs0, Hs1, Hs2, %W'', %hW'', HO⟩
      iframe Hmw Ht1 Hi1 Ht2 Hi2
      isplitl [Hk Hrest]
      · iapply (Transfers.bigSep_univ_in (⟨k.val, hk25⟩ : Fin 25) _)
        isplitl [Hk]
        · iapply (Entails.of_eq ek'); iexact Hk
        · iexact Hrest
      iframe Hl1 Hl2 Ha Hb Hc4 Hc5 Hs0 Hs1 Hs2
      iexists W''; isplitr
      · ipureintro; intro p hp
        rcases hW'' p hp with h | h
        · exact hW' p h
        · exact .inr h
      · iexact HO
  · unfold invChunk
    iframe Hmw Ht1 Hi1 Ht2 Hi2
    isplitl [Hout]
    · simp only [Nat.not_lt_zero, ↓reduceIte]; iexact Hout
    isplitl [Hl1]; · iexists _; iexact Hl1
    isplitl [Hl2]; · iexists _; iexact Hl2
    isplitl [Ha]; · iexists _; iexact Ha
    isplitl [Hb]; · iexists _; iexact Hb
    iframe Hc4 Hc5 Hs0 Hs1 Hs2
    iexists W; isplitr
    · ipureintro; exact fun p hp => .inl hp
    · iexact HO
  iintro %_ HI
  unfold invChunk
  icases HI with ⟨-, Ht1, Hi1, Ht2, Hi2, Hout, Hl1, Hl2, Ha, Hb, Hc4, Hc5, Hs0, Hs1, Hs2, %W', %hW', HO⟩
  sl_step
  have eout : (bigSep (Finset.univ : Finset (Fin 25)) fun t' => (tLoc d main_v61 ↦[part1N (partNo L t'.val)]{fullShare}
        (if t'.val < Scf.trips k1_t1_loop.lb k1_t1_loop.ub k1_t1_loop.st then out1 (V0 m d) else VA1 (V0 m d) (r main_v61)) : sProp 𝕄))
      = bigSep (Finset.univ : Finset (Fin 25)) fun t' => (tLoc d main_v61 ↦[part1N (50 * (L 1).val + 25 * (L 0).val + t'.val)]{fullShare} out1 (V0 m d) : sProp 𝕄) := by
    refine bigSep_congr fun t' _ => ?_
    rw [if_pos (show t'.val < Scf.trips k1_t1_loop.lb k1_t1_loop.ub k1_t1_loop.st from (lt_of_lt_of_eq t'.isLt k1_trips.symm : t'.val < k1_t1_loop.trips))]
  isplitl [Ht1 Hi1 Ht2 Hi2 Hout]
  · isplitl [Ht1 Hi1 Ht2 Hi2]
    · iframe Ht1 Hi1 Ht2 Hi2
    · iapply (Entails.of_eq eout); iexact Hout
  isplitl [Hl1 Hl2 Ha Hb Hbufs]
  · iframe Hl1 Hl2 Ha Hb Hbufs
  isplitl [Hc4 Hc5 Hs0 Hs1 Hs2 Hsems]
  · iframe Hc4 Hc5 Hs0 Hs1 Hs2 Hsems
  iexists W'; isplitr
  · ipureintro; exact hW'
  · iexact HO

end Tile

def coordsV (c : Fin (grid1.bound 0)) (s : Fin (grid1.bound 1)) : grid1.Coords :=
  fun | 0 => c | 1 => s | ⟨_ + 2, h⟩ => absurd h (Nat.not_lt.2 (Nat.le_add_left _ _))

abbrev callQ : Fin 4 := 1

theorem defs₀_vector (c : Fin τ.nSC) (s : Fin τ.nSub) :
    defs₀ (F := F) (.scVector c s) callQ ()
      = SparseCore.onTile hcore1 hsub1 (fun c s => cc1_k (coordsV c s) t1V (Memref.isWhole_whole _) i1V (Memref.isWhole_whole _) t2V (Memref.isWhole_whole _)
          i2V (Memref.isWhole_whole _) oV (Memref.isWhole_whole _) l1V (Memref.isWhole_whole _) l2V (Memref.isWhole_whole _) aV (Memref.isWhole_whole _)
          bV (Memref.isWhole_whole _) cc1_scratch4 cc1_scratch5 cc1_scoped0 cc1_scoped1 cc1_scoped2) ⟨⟩ c s := rfl

theorem tileObl (hpre : ∀ d, PreOK (V0 m d)) : (K (F := F)).TileObl (D (F := F)) 𝒱 (P m) v₀ callQ := by
  intro d c i O W hO _ _
  simp only [show (P m).ox = fun _ _ => 0 from rfl, add_zero]
  change _ ⊢ wp _ _ _ (Pipeline.liftProg (defs₀ (F := F) (.scVector ((K (F := F)).core callQ c) ((K (F := F)).sub callQ i)) callQ ())) _
  refine BI.Entails.trans ?_ (Pipeline.wp_liftProg (D (F := F)) (Pipeline.defs_kernel pcfgs defs₀) 𝒱₀ _ Set.univ none _ _)
  have hc : ((K (F := F)).core callQ c).val < grid1.bound 0 ∧ ((K (F := F)).sub callQ i).val < grid1.bound 1 := ⟨c.isLt, i.isLt⟩
  rw [defs₀_vector]; simp only [SparseCore.onTile, hc, and_self, ↓reduceDIte]
  exact (tile_body1 m d (coordsV ⟨_, hc.1⟩ ⟨_, hc.2⟩) (hpre d) O W hO).trans (wp_mono frame _ _ fun _ => obl_post)

end cc1_tile

theorem tileObl1 (hpre : ∀ d, PreOK (V0 m d)) : (K (F := F)).TileObl (D (F := F)) 𝒱 (P m) v₀ 1 := cc1_tile.tileObl m hpre

end Cert.Kernel.Hand

end
-- ==== Proof.KB.Tile2.lean ====
import proofs.«208129_g65403761983635_cont_9to1_m_1354_7_alg».proof.Proof.KB.Base
import proofs.«208129_g65403761983635_cont_9to1_m_1354_7_alg».proof.Proof.Gen.Kernel.Skeleton
import Idealize.ShloMosaic.Lib.SparseCore.Ops
import Idealize.ShloMosaic.Lib.SparseCore.Stream
import proofs.«208129_g65403761983635_cont_9to1_m_1354_7_alg».proof.Proof.KB.TileGeom
import proofs.«208129_g65403761983635_cont_9to1_m_1354_7_alg».proof.Proof.KB.TileVal
import proofs.«208129_g65403761983635_cont_9to1_m_1354_7_alg».proof.Proof.KB.TileLib
import proofs.«208129_g65403761983635_cont_9to1_m_1354_7_alg».proof.Proof.LibRows

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

namespace cc2_tile

local notation "t1V" => (Memref.whole Cert.Kernel.main_v120_scv : Memref Cert.Kernel.sig Kind.scVector Space.hbm Cert.Kernel.S10000x128 EltTy.f32)
local notation "i1V" => (Memref.whole Cert.Kernel.main_v21_scv : Memref Cert.Kernel.sig Kind.scVector Space.hbm Cert.Kernel.S320000 EltTy.i32)
local notation "t2V" => (Memref.whole Cert.Kernel.main_v133_scv : Memref Cert.Kernel.sig Kind.scVector Space.hbm Cert.Kernel.S576x128 EltTy.f32)
local notation "i2V" => (Memref.whole Cert.Kernel.main_v47_scv : Memref Cert.Kernel.sig Kind.scVector Space.hbm Cert.Kernel.S320000 EltTy.i32)
local notation "oV" => (Memref.whole Cert.Kernel.main_v134_scv : Memref Cert.Kernel.sig Kind.scVector Space.hbm Cert.Kernel.S320000x128 EltTy.f32)
local notation "l1V" => (Memref.whole Cert.Kernel.cc2_scratch0 : Memref Cert.Kernel.sig Kind.scVector Space.vmem Cert.Kernel.S400 EltTy.i32)
local notation "l2V" => (Memref.whole Cert.Kernel.cc2_scratch1 : Memref Cert.Kernel.sig Kind.scVector Space.vmem Cert.Kernel.S400 EltTy.i32)
local notation "aV" => (Memref.whole Cert.Kernel.cc2_scratch2 : Memref Cert.Kernel.sig Kind.scVector Space.vmem Cert.Kernel.S400x128 EltTy.f32)
local notation "bV" => (Memref.whole Cert.Kernel.cc2_scratch3 : Memref Cert.Kernel.sig Kind.scVector Space.vmem Cert.Kernel.S400x128 EltTy.f32)

section Tile

variable (d : Dev nD) (L : grid2.Coords)

abbrev cV (L : grid2.Coords) : Fin τ.nSC := (L 0).castLE hcore2
abbrev jV (L : grid2.Coords) : Fin τ.nSub := (L 1).castLE hsub2

abbrev partNo (L : grid2.Coords) (t : ℕ) : ℕ := 50 * (L 1).val + 25 * (L 0).val + t

omit [FloatOps F] in
theorem pts_outChunk (t : Fin k2_t1_loop.trips) (f : Buf (Elt F) (tLoc d main_v134)) :
    ((outChunk2 L t).view.loc (V d (cV L) (jV L)) ↦[(outChunk2 L t).view.set]{fullShare} f : sProp 𝕄) = tLoc d main_v134 ↦[part1N (partNo L t.val)]{fullShare} f := by
  rw [set_outChunk2]

abbrev c4cell (d : Dev nD) (L : grid2.Coords) : GSem nD τ sig := (V d (cV L) (jV L), .dma cc2_scratch4.sem)
abbrev c5cell (d : Dev nD) (L : grid2.Coords) : GSem nD τ sig := (V d (cV L) (jV L), .dma cc2_scratch5.sem)
abbrev s0cell (d : Dev nD) (L : grid2.Coords) : GSem nD τ sig := (V d (cV L) (jV L), .dma cc2_scoped0.sem)
abbrev s1cell (d : Dev nD) (L : grid2.Coords) : GSem nD τ sig := (V d (cV L) (jV L), .dma cc2_scoped1.sem)
abbrev s2cell (d : Dev nD) (L : grid2.Coords) : GSem nD τ sig := (V d (cV L) (jV L), .dma cc2_scoped2.sem)

omit [FloatOps F] in
theorem ownSems0_V :
    (ownSems0 (V d (cV L) (jV L)) : sProp 𝕄)
      = iprop(semVal (c4cell d L) 0 ∗ semVal (c5cell d L) 0 ∗ semVal (s0cell d L) 0 ∗ semVal (s1cell d L) 0 ∗ semVal (s2cell d L) 0
          ∗ bigSep ((((((ownCells (V d (cV L) (jV L))).erase (c4cell d L)).erase (c5cell d L)).erase (s0cell d L)).erase (s1cell d L)).erase (s2cell d L))
              fun g => semVal g 0) := by
  unfold SparseCore.Cfg.ownSems0
  have m4 : c4cell d L ∈ ownCells (V d (cV L) (jV L)) := (mem_ownCells (g := c4cell d L)).mpr ⟨rfl, by
    show (SemLoc.dma cc2_scratch4.sem : SemLoc sig).isScoped .scVector = true; decide⟩
  have m5 : c5cell d L ∈ ownCells (V d (cV L) (jV L)) := (mem_ownCells (g := c5cell d L)).mpr ⟨rfl, by
    show (SemLoc.dma cc2_scratch5.sem : SemLoc sig).isScoped .scVector = true; decide⟩
  have m0 : s0cell d L ∈ ownCells (V d (cV L) (jV L)) := (mem_ownCells (g := s0cell d L)).mpr ⟨rfl, by
    show (SemLoc.dma cc2_scoped0.sem : SemLoc sig).isScoped .scVector = true; decide⟩
  have m1 : s1cell d L ∈ ownCells (V d (cV L) (jV L)) := (mem_ownCells (g := s1cell d L)).mpr ⟨rfl, by
    show (SemLoc.dma cc2_scoped1.sem : SemLoc sig).isScoped .scVector = true; decide⟩
  have m2 : s2cell d L ∈ ownCells (V d (cV L) (jV L)) := (mem_ownCells (g := s2cell d L)).mpr ⟨rfl, by
    show (SemLoc.dma cc2_scoped2.sem : SemLoc sig).isScoped .scVector = true; decide⟩
  rw [SparseCore.bigSep_erase' m4,
    SparseCore.bigSep_erase' (Finset.mem_erase.mpr ⟨cell_ne _ (by decide), m5⟩),
    SparseCore.bigSep_erase' (Finset.mem_erase.mpr ⟨cell_ne _ (by decide), Finset.mem_erase.mpr ⟨cell_ne _ (by decide), m0⟩⟩),
    SparseCore.bigSep_erase' (Finset.mem_erase.mpr ⟨cell_ne _ (by decide), Finset.mem_erase.mpr ⟨cell_ne _ (by decide), Finset.mem_erase.mpr ⟨cell_ne _ (by decide), m1⟩⟩⟩),
    SparseCore.bigSep_erase' (Finset.mem_erase.mpr ⟨cell_ne _ (by decide), Finset.mem_erase.mpr ⟨cell_ne _ (by decide), Finset.mem_erase.mpr ⟨cell_ne _ (by decide),
      Finset.mem_erase.mpr ⟨cell_ne _ (by decide), m2⟩⟩⟩⟩)]

omit [FloatOps F] in
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f) ∗ (∃ f, (V d (cV L) (jV L)).loc cc2_scratch3 ↦{fullShare} f)
          ∗ bigSep (((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2)).erase
              ((Proc.scVector (cV L) (jV L)).devRef cc2_scratch3))
              fun b => iprop(∃ f, ((d, b) : Loc nD τ sig) ↦{fullShare} f)) := by
  unfold SparseCore.Cfg.ownBufs
  have own0 := SparseCore.Cfg.mem_ownRefs_of_owner (p := Proc.scVector (cV L) (jV L)) (b := (Proc.scVector (cV L) (jV L)).devRef cc2_scratch0) rfl
  have own1 := SparseCore.Cfg.mem_ownRefs_of_owner (p := Proc.scVector (cV L) (jV L)) (b := (Proc.scVector (cV L) (jV L)).devRef cc2_scratch1) rfl
  have own2 := SparseCore.Cfg.mem_ownRefs_of_owner (p := Proc.scVector (cV L) (jV L)) (b := (Proc.scVector (cV L) (jV L)).devRef cc2_scratch2) rfl
  have own3 := SparseCore.Cfg.mem_ownRefs_of_owner (p := Proc.scVector (cV L) (jV L)) (b := (Proc.scVector (cV L) (jV L)).devRef cc2_scratch3) rfl
  have ne : ∀ {b b' : Ref sig .scVector}, b ≠ b' → (Proc.scVector (cV L) (jV L)).devRef b ≠ (Proc.scVector (cV L) (jV L)).devRef b' :=
    fun h e => h (Proc.devRef_injective _ e)
  refine (SparseCore.bigSep_erase' own0).trans ?_
  rw [SparseCore.bigSep_erase' (Finset.mem_erase.mpr ⟨ne (show (cc2_scratch1 : Ref sig .scVector) ≠ cc2_scratch0 by decide), own1⟩),
    SparseCore.bigSep_erase' (Finset.mem_erase.mpr ⟨ne (show (cc2_scratch2 : Ref sig .scVector) ≠ cc2_scratch1 by decide),
      Finset.mem_erase.mpr ⟨ne (show (cc2_scratch2 : Ref sig .scVector) ≠ cc2_scratch0 by decide), own2⟩⟩),
    SparseCore.bigSep_erase' (Finset.mem_erase.mpr ⟨ne (show (cc2_scratch3 : Ref sig .scVector) ≠ cc2_scratch2 by decide),
      Finset.mem_erase.mpr ⟨ne (show (cc2_scratch3 : Ref sig .scVector) ≠ cc2_scratch1 by decide),
      Finset.mem_erase.mpr ⟨ne (show (cc2_scratch3 : Ref sig .scVector) ≠ cc2_scratch0 by decide), own3⟩⟩⟩)]

theorem piece_ok (k : Fin k2_t2_loop.trips)
    (f : Buf (Elt F) ((aV).view.loc (V d (cV L) (jV L)))) (g : Buf (Elt F) ((bV).view.loc (V d (cV L) (jV L))))
    (off : Fin 2 → ℕ) (inb : ∀ a, off a + S1x16.size a ≤ S400x128.size a) (h : ∃ r < 4, ∃ c, off = ![4 * k.val + r, c]) (x : S1x16.Idx) :
    FloatOps.addf (φ := .f32) ((aV).view.readAt (Elt F) (Rect.unit (s := S400x128) off S1x16.size inb).toLoadRect f x)
        ((bV).view.readAt (Elt F) (Rect.unit (s := S400x128) off S1x16.size inb).toLoadRect g x)
      = rowsAdd k.val f g ((Rect.unit (s := S400x128) off S1x16.size inb).emb x) := by
  obtain ⟨r, hr, c, rfl⟩ := h
  have hx : (x 0).val = 0 := by have := (x 0).isLt; change (x 0).val < 1 at this; omega
  unfold rowsAdd
  rw [if_pos]
  · rfl
  · rw [Rect.emb_apply]
    simp only [Rect.off_unit, Rect.stride_unit, Matrix.cons_val_zero, hx]
    omega

set_option maxHeartbeats 4000000 in
theorem row_trip (k : Fin k2_t2_loop.trips)
    (f : Buf (Elt F) ((aV).view.loc (V d (cV L) (jV L)))) (g : Buf (Elt F) ((bV).view.loc (V d (cV L) (jV L)))) :
    (iprop(((aV).view.loc (V d (cV L) (jV L)) ↦{fullShare} f) ∗ ((bV).view.loc (V d (cV L) (jV L)) ↦{fullShare} g)) : sProp 𝕄)
      ⊢ wp frame (wpE (defs₀ (F := F)) 𝒱₀ (V d (cV L) (jV L)) none) Set.univ
          (k2_t2_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc2_scratch4 cc2_scratch5 cc2_scoped0 cc2_scoped1 cc2_scoped2 k ⟨⟩)
          fun _ => iprop(((aV).view.loc (V d (cV L) (jV L)) ↦{fullShare} rowsAdd k.val f g) ∗ ((bV).view.loc (V d (cV L) (jV L)) ↦{fullShare} g)) := by
  unfold k2_t2_body
  iintro ⟨Ha, Hb⟩
  sl_exec_parts
  sl_step
  isplitl [Ha]
  swap; · iexact Hb
  iapply (Entails.of_eq (congrArg (fun c => ((aV).view.loc (V d (cV L) (jV L)) ↦{fullShare} c : sProp 𝕄)) ?_)) $$ Ha
  sl_unfold_run_names
  have h0 : 0 < 4 := by decide
  have h1 : 1 < 4 := by decide
  have h2 : 2 < 4 := by decide
  have h3 : 3 < 4 := by decide
  have o2 : ∀ n (h : n < 4), k2_off2 k (BitVec.ofNat 32 n) = ![4 * k.val + n, 0] := fun n h => k2_off2_eq k ⟨n, h⟩
  have o3 : ∀ n (h : n < 4), k2_off3 k (BitVec.ofNat 32 n) = ![4 * k.val + n, 16] := fun n h => k2_off3_eq k ⟨n, h⟩
  have o4 : ∀ n (h : n < 4), k2_off4 k (BitVec.ofNat 32 n) = ![4 * k.val + n, 32] := fun n h => k2_off4_eq k ⟨n, h⟩
  have o5 : ∀ n (h : n < 4), k2_off5 k (BitVec.ofNat 32 n) = ![4 * k.val + n, 48] := fun n h => k2_off5_eq k ⟨n, h⟩
  have o6 : ∀ n (h : n < 4), k2_off6 k (BitVec.ofNat 32 n) = ![4 * k.val + n, 64] := fun n h => k2_off6_eq k ⟨n, h⟩
  have o7 : ∀ n (h : n < 4), k2_off7 k (BitVec.ofNat 32 n) = ![4 * k.val + n, 80] := fun n h => k2_off7_eq k ⟨n, h⟩
  have o8 : ∀ n (h : n < 4), k2_off8 k (BitVec.ofNat 32 n) = ![4 * k.val + n, 96] := fun n h => k2_off8_eq k ⟨n, h⟩
  have o9 : ∀ n (h : n < 4), k2_off9 k (BitVec.ofNat 32 n) = ![4 * k.val + n, 112] := fun n h => k2_off9_eq k ⟨n, h⟩
  have key : ∀ Ls : List (View.Piece (Elt F) S400x128 .f32), (∀ p ∈ Ls, ∀ x : p.1.shape.Idx, p.2 x = rowsAdd k.val f g (p.1.emb x)) →
      (∀ y, (∀ p ∈ Ls, y ∉ p.1.set) → f y = rowsAdd k.val f g y) → (aV).view.writes (Elt F) f Ls = rowsAdd k.val f g :=
    fun Ls hp hr => read_writes_eq_of_pieces (aV).view f (rowsAdd k.val f g) Ls hp hr
  refine key _ ?hp ?hr
  case hr =>
    intro y hy
    simp only [List.forall_mem_cons, List.not_mem_nil, false_imp_iff, implies_true, and_true, Rect.mem_set_unit, Fin.forall_fin_two,
      o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3, Matrix.cons_val_zero, Matrix.cons_val_one] at hy
    show f y = rowsAdd k.val f g y
    unfold rowsAdd
    rw [if_neg]
    exact fun hb => Rows.cover32 (y 1).isLt hb hy
  case hp =>
    simp only [List.forall_mem_cons, List.not_mem_nil, false_imp_iff, implies_true, and_true]
    and_intros
    all_goals exact fun x => (laneAdd_apply _ _ x).trans (piece_ok d L k f g _ _
      (by simp only [o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3]; exact ⟨_, by decide, _, rfl⟩) x)

def invRow (fA : Buf (Elt F) ((aV).view.loc (V d (cV L) (jV L)))) (fB : Buf (Elt F) ((bV).view.loc (V d (cV L) (jV L)))) (k : ℕ) (_ : PUnit) : sProp 𝕄 :=
  iprop(((aV).view.loc (V d (cV L) (jV L)) ↦{fullShare} accAt (4 * k) fA fB) ∗ ((bV).view.loc (V d (cV L) (jV L)) ↦{fullShare} fB))

theorem aV_writes_whole (g : Buf (Elt F) ((aV).view.loc (V d (cV L) (jV L)))) (w : S400x128.Idx → Elt F .f32) (x : S400x128.Idx) :
    (aV).view.writes (Elt F) g [⟨Rect.whole S400x128, w⟩] x = w x := by
  have hx : (Rect.whole S400x128).emb x = x := Rect.emb_whole_apply S400x128 x
  have e := View.read_writes_cons_emb (aV).view g (Rect.whole S400x128) w [] x
  first
    | (rw [hx] at e; exact e)
    | exact (congrArg (fun y => (aV).view.writes (Elt F) g [⟨Rect.whole S400x128, w⟩] y) hx).symm.trans e
theorem bV_writes_whole (g : Buf (Elt F) ((bV).view.loc (V d (cV L) (jV L)))) (w : S400x128.Idx → Elt F .f32) (x : S400x128.Idx) :
    (bV).view.writes (Elt F) g [⟨Rect.whole S400x128, w⟩] x = w x := by
  have hx : (Rect.whole S400x128).emb x = x := Rect.emb_whole_apply S400x128 x
  have e := View.read_writes_cons_emb (bV).view g (Rect.whole S400x128) w [] x
  first
    | (rw [hx] at e; exact e)
    | exact (congrArg (fun y => (bV).view.writes (Elt F) g [⟨Rect.whole S400x128, w⟩] y) hx).symm.trans e

theorem out_writes_emb (t : Fin k2_t1_loop.trips) (Wc : (outChunk2 L t).view.ty.Contents (Elt F)) (w : S400x128.Idx → Elt F .f32) (x : S400x128.Idx) :
    (outChunk2 L t).view.writes (Elt F) Wc [⟨Rect.whole S400x128, w⟩] ((outChunk2 L t).view.emb x) = w x := by
  have e1 := View.read_writes_cons_emb (outChunk2 L t).view Wc (Rect.whole S400x128) w [] x
  rw [Rect.emb_whole_apply] at e1
  exact ((View.read_apply _ _).trans (cast_eq _ _)).symm.trans e1

set_option maxHeartbeats 4000000 in
theorem chunk_trip (hpre : PreOK (V0 m d)) (O : CellTallies nD τ sig (HIx 4)) (W' : Waits sig (HIx 4)) (t : Fin k2_t1_loop.trips)
    (q : PosShare TreeShare)
    (f1 : Buf (Elt F) ((l1V).view.loc (V d (cV L) (jV L)))) (f2 : Buf (Elt F) ((l2V).view.loc (V d (cV L) (jV L))))
    (fa : Buf (Elt F) ((aV).view.loc (V d (cV L) (jV L)))) (fb : Buf (Elt F) ((bV).view.loc (V d (cV L) (jV L)))) :
    (iprop(Transfers.MayWaits (V d (cV L) (jV L)) (none : HIx 4) O
        ∗ ((t1V).view.loc (V d (cV L) (jV L)) ↦{q} VA2 (V0 m d) (r main_v120))
        ∗ ((i1V).view.loc (V d (cV L) (jV L)) ↦{q} VA2 (V0 m d) (r main_v21))
        ∗ ((t2V).view.loc (V d (cV L) (jV L)) ↦{q} VA2 (V0 m d) (r main_v133))
        ∗ ((i2V).view.loc (V d (cV L) (jV L)) ↦{q} VA2 (V0 m d) (r main_v47))
        ∗ ((outChunk2 L t).view.loc (V d (cV L) (jV L)) ↦[(outChunk2 L t).view.set]{fullShare} VA2 (V0 m d) (r main_v134))
        ∗ ((l1V).view.loc (V d (cV L) (jV L)) ↦{fullShare} f1) ∗ ((l2V).view.loc (V d (cV L) (jV L)) ↦{fullShare} f2)
        ∗ ((aV).view.loc (V d (cV L) (jV L)) ↦{fullShare} fa) ∗ ((bV).view.loc (V d (cV L) (jV L)) ↦{fullShare} fb)
        ∗ semVal (c4cell d L) 0 ∗ semVal (c5cell d L) 0 ∗ semVal (s0cell d L) 0 ∗ semVal (s1cell d L) 0 ∗ semVal (s2cell d L) 0
        ∗ owes (V d (cV L) (jV L)) O W') : sProp 𝕄)
      ⊢ wp frame (wpE (defs₀ (F := F)) 𝒱₀ (V d (cV L) (jV L)) none) Set.univ
          (k2_t1_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc2_scratch4 cc2_scratch5 cc2_scoped0 cc2_scoped1 cc2_scoped2 t ⟨⟩)
          fun _ => iprop(Transfers.MayWaits (V d (cV L) (jV L)) (none : HIx 4) O
            ∗ ((t1V).view.loc (V d (cV L) (jV L)) ↦{q} VA2 (V0 m d) (r main_v120))
            ∗ ((i1V).view.loc (V d (cV L) (jV L)) ↦{q} VA2 (V0 m d) (r main_v21))
            ∗ ((t2V).view.loc (V d (cV L) (jV L)) ↦{q} VA2 (V0 m d) (r main_v133))
            ∗ ((i2V).view.loc (V d (cV L) (jV L)) ↦{q} VA2 (V0 m d) (r main_v47))
            ∗ ((outChunk2 L t).view.loc (V d (cV L) (jV L)) ↦[(outChunk2 L t).view.set]{fullShare} out2 (V0 m d))
            ∗ (∃ f, (l1V).view.loc (V d (cV L) (jV L)) ↦{fullShare} f) ∗ (∃ f, (l2V).view.loc (V d (cV L) (jV L)) ↦{fullShare} f)
            ∗ (∃ f, (aV).view.loc (V d (cV L) (jV L)) ↦{fullShare} f) ∗ (∃ f, (bV).view.loc (V d (cV L) (jV L)) ↦{fullShare} f)
            ∗ semVal (c4cell d L) 0 ∗ semVal (c5cell d L) 0 ∗ semVal (s0cell d L) 0 ∗ semVal (s1cell d L) 0 ∗ semVal (s2cell d L) 0
            ∗ ∃ W'', ⌜∀ p ∈ W'', p ∈ W' ∨ p.2 = none⌝ ∗ owes (V d (cV L) (jV L)) O W'') := by
  have hin1 : ∀ (g1 : Buf (Elt F) ((l1V).view.loc (V d (cV L) (jV L)))) x,
      ((l1V).view.read (Elt F) (View.write (Elt F) (l1V).view g1 ((idxChunk2_1 L t).view.read (Elt F) (VA2 (V0 m d) (r main_v21))) Finset.univ) x).toNat
        < S10000x128.size gathers_S10000x128_S400x128.axis := by
    intro g1 x
    rw [View.write_whole_univ]
    simp only [Memref.view_whole, View.read_whole]
    rw [show ∀ j, (idxChunk2_1 L t).view.read (Elt F) (VA2 (V0 m d) (r main_v21)) j = VA2 (V0 m d) (r main_v21) ((idxChunk2_1 L t).view.emb j) from fun j => (View.read_apply _ _).trans (cast_eq _ _)]
    exact hpre.h2a _
  have hin2 : ∀ (g2 : Buf (Elt F) ((l2V).view.loc (V d (cV L) (jV L)))) x,
      ((l2V).view.read (Elt F) (View.write (Elt F) (l2V).view g2 ((idxChunk2_2 L t).view.read (Elt F) (VA2 (V0 m d) (r main_v47))) Finset.univ) x).toNat
        < S576x128.size gathers_S576x128_S400x128.axis := by
    intro g2 x
    rw [View.write_whole_univ]
    simp only [Memref.view_whole, View.read_whole]
    rw [show ∀ j, (idxChunk2_2 L t).view.read (Elt F) (VA2 (V0 m d) (r main_v47)) j = VA2 (V0 m d) (r main_v47) ((idxChunk2_2 L t).view.emb j) from fun j => (View.read_apply _ _).trans (cast_eq _ _)]
    exact hpre.h2b _
  unfold k2_t1_body
  iintro ⟨Hmw, Ht1, Hi1, Ht2, Hi2, Ho, Hl1, Hl2, Ha, Hb, Hc4, Hc5, Hs0, Hs1, Hs2, HO⟩
  sl_exec
  sl_unfold_run_names
  generalize hfA : (aV).view.writes (Elt F) (aV).view.junk _ = fA
  generalize hfB : (bV).view.writes (Elt F) (bV).view.junk _ = fB
  sl_for (invRow d L fA fB) $$ [Ha Hb]
  case region =>
    intro k _
    unfold invRow
    rw [← rowsAdd_accAt k.val fA fB]
    exact row_trip d L k _ fB
  · unfold invRow
    rw [accAt_zero]
    isplitl [Ha]
    · iexact Ha
    · iexact Hb
  iintro %_ HI
  unfold invRow
  icases HI with ⟨Ha, Hb⟩
  sl_exec
  sl_step
  iframe Hmw Ht1 Hi1 Ht2 Hi2
  isplitl [Ho]
  · iapply (Entails.of_eq (pointsTo_congr ?hv)) $$ Ho
    case hv =>
      sl_unfold_run_names
      rw [set_outChunk2]
      refine forall_outChunk2 L t (fun a b => ?_)
      beta_reduce
      rw [← emb_outChunk2 L t a b, out_writes_emb, ReadAs.apply_same]
      show accAt (4 * k2_t2_loop.trips) fA fB (ValueIdx.ix2 a b) = _
      rw [show 4 * k2_t2_loop.trips = 400 from by decide, accAt_all]
      have hA := (congrFun hfA (ValueIdx.ix2 a b)).symm.trans (aV_writes_whole d L _ _ (ValueIdx.ix2 a b))
      have hB := (congrFun hfB (ValueIdx.ix2 a b)).symm.trans (bV_writes_whole d L _ _ (ValueIdx.ix2 a b))
      rw [hA, hB]
      exact chunkVal2 L t (V0 m d) _ _ _ _ _ _ _ _ (ValueIdx.ix2 a b)
  isplitl [Hl1]; · iexists _; iexact Hl1
  isplitl [Hl2]; · iexists _; iexact Hl2
  isplitl [Ha]; · iexists _; iexact Ha
  isplitl [Hb]; · iexists _; iexact Hb
  isplitl [Hc4]; · iexact Hc4
  isplitl [Hc5]; · iexact Hc5
  isplitl [Hs0]; · iexact Hs0
  isplitl [Hs1]; · iexact Hs1
  isplitl [Hs2]; · iexact Hs2
  iexists _; isplitr
  swap; · iexact HO
  ipureintro; intro p hp
  iterate 5 (rcases Finset.mem_insert.mp hp with hp | hp; · exact .inr (hp ▸ rfl))
  exact .inl hp

def invChunk (O : CellTallies nD τ sig (HIx 4)) (W : Waits sig (HIx 4)) (q : PosShare TreeShare) (k : ℕ) (_ : PUnit) : sProp 𝕄 :=
  iprop(Transfers.MayWaits (V d (cV L) (jV L)) (none : HIx 4) O
    ∗ ((t1V).view.loc (V d (cV L) (jV L)) ↦{q} VA2 (V0 m d) (r main_v120))
    ∗ ((i1V).view.loc (V d (cV L) (jV L)) ↦{q} VA2 (V0 m d) (r main_v21))
    ∗ ((t2V).view.loc (V d (cV L) (jV L)) ↦{q} VA2 (V0 m d) (r main_v133))
    ∗ ((i2V).view.loc (V d (cV L) (jV L)) ↦{q} VA2 (V0 m d) (r main_v47))
    ∗ (bigSep (Finset.univ : Finset (Fin 25)) fun t' => tLoc d main_v134 ↦[part1N (partNo L t'.val)]{fullShare}
        (if t'.val < k then out2 (V0 m d) else VA2 (V0 m d) (r main_v134)))
    ∗ (∃ f, (l1V).view.loc (V d (cV L) (jV L)) ↦{fullShare} f) ∗ (∃ f, (l2V).view.loc (V d (cV L) (jV L)) ↦{fullShare} f)
    ∗ (∃ f, (aV).view.loc (V d (cV L) (jV L)) ↦{fullShare} f) ∗ (∃ f, (bV).view.loc (V d (cV L) (jV L)) ↦{fullShare} f)
    ∗ semVal (c4cell d L) 0 ∗ semVal (c5cell d L) 0 ∗ semVal (s0cell d L) 0 ∗ semVal (s1cell d L) 0 ∗ semVal (s2cell d L) 0
    ∗ ∃ W', ⌜∀ p ∈ W', p ∈ W ∨ p.2 = none⌝ ∗ owes (V d (cV L) (jV L)) O W')

set_option maxHeartbeats 4000000 in
theorem tile_body2 (hpre : PreOK (V0 m d)) (O : CellTallies nD τ sig (HIx 4)) (W : Waits sig (HIx 4)) (hO : ∀ g, O g none = 0) :
    iprop(levAts (K (F := F)).L (K (F := F)).lev ∗ emp
        ∗ (ins d main_v120 main_v21 main_v133 main_v47 (VA2 (V0 m d)) (tileShare (L 0).val (L 1).val) ∗ outs2 d (L 0).val (L 1).val (VA2 (V0 m d) (r main_v134)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_k L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc2_scratch4 cc2_scratch5 cc2_scoped0 cc2_scoped1 cc2_scoped2)
          fun _ => iprop((ins d main_v120 main_v21 main_v133 main_v47 (VA2 (V0 m d)) (tileShare (L 0).val (L 1).val) ∗ outs2 d (L 0).val (L 1).val (out2 (V0 m d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_k_eq_skeleton]; unfold cc2_k_skel
  rw [(K (F := F)).scopedBufs_V facts d (cV L) (jV L), SparseCore.Cfg.scopedSems0_V (Val := Elt F) d (cV L) (jV L), ownSems0_V, ownBufs_V]
  unfold ins outs2
  iintro ⟨#Hlv, -, ⟨⟨Ht1, Hi1, Ht2, Hi2⟩, Hout⟩, ⟨⟨%f1, Hl1⟩, ⟨%f2, Hl2⟩, ⟨%fa, Ha⟩, ⟨%fb, Hb⟩, Hbufs⟩, ⟨Hc4, Hc5, Hs0, Hs1, Hs2, Hsems⟩, HO⟩
  ihave Hmw := (show levAts (K (F := F)).L (K (F := F)).lev ⊢ Transfers.MayWaits (V d (cV L) (jV L)) (none : HIx 4) O from
    (K (F := F)).mayWaits_none (thr := V d (cV L) (jV L)) hO) $$ Hlv
  sl_for (invChunk m d L O W (tileShare (L 0).val (L 1).val)) $$ [Hmw Ht1 Hi1 Ht2 Hi2 Hout Hl1 Hl2 Ha Hb Hc4 Hc5 Hs0 Hs1 Hs2 HO]
  case region =>
    intro k _
    unfold invChunk
    iintro ⟨Hmw, Ht1, Hi1, Ht2, Hi2, Hout, ⟨%f1, Hl1⟩, ⟨%f2, Hl2⟩, ⟨%fa, Ha⟩, ⟨%fb, Hb⟩, Hc4, Hc5, Hs0, Hs1, Hs2, %W', %hW', HO⟩
    have hk25 : k.val < 25 := k2_t_lt k
    ihave Hout' := (Transfers.bigSep_univ_out (⟨k.val, hk25⟩ : Fin 25) _) $$ Hout
    icases Hout' with ⟨Hk, Hrest⟩
    have ek : (tLoc d main_v134 ↦[part1N (partNo L k.val)]{fullShare} (if k.val < k.val then out2 (V0 m d) else VA2 (V0 m d) (r main_v134)) : sProp 𝕄)
        = ((outChunk2 L k).view.loc (V d (cV L) (jV L)) ↦[(outChunk2 L k).view.set]{fullShare} VA2 (V0 m d) (r main_v134)) := by
      rw [if_neg (lt_irrefl _), pts_outChunk]
    have ek' : ((outChunk2 L k).view.loc (V d (cV L) (jV L)) ↦[(outChunk2 L k).view.set]{fullShare} out2 (V0 m d) : sProp 𝕄)
        = (tLoc d main_v134 ↦[part1N (partNo L k.val)]{fullShare} (if k.val < k.val + 1 then out2 (V0 m d) else VA2 (V0 m d) (r main_v134))) := by
      rw [if_pos (Nat.lt_succ_self _), pts_outChunk]
    have erest : (bigSep ((Finset.univ : Finset (Fin 25)).erase ⟨k.val, hk25⟩) fun t' => (tLoc d main_v134 ↦[part1N (partNo L t'.val)]{fullShare}
          (if t'.val < k.val then out2 (V0 m d) else VA2 (V0 m d) (r main_v134)) : sProp 𝕄))
        = bigSep ((Finset.univ : Finset (Fin 25)).erase ⟨k.val, hk25⟩) fun t' => (tLoc d main_v134 ↦[part1N (partNo L t'.val)]{fullShare}
          (if t'.val < k.val + 1 then out2 (V0 m d) else VA2 (V0 m d) (r main_v134)) : sProp 𝕄) := by
      refine bigSep_congr fun t' ht' => ?_
      have hne : t'.val ≠ k.val := fun e => (Finset.mem_erase.mp ht').1 (Fin.ext e)
      by_cases h : t'.val < k.val
      · rw [if_pos h, if_pos (by omega)]
      · rw [if_neg h, if_neg (by omega)]
    ihave Hk := (Entails.of_eq ek) $$ Hk
    ihave Hrest := (Entails.of_eq erest) $$ Hrest
    iapply (wp_wand_r frame _ _)
    isplitl [Hmw Ht1 Hi1 Ht2 Hi2 Hk Hl1 Hl2 Ha Hb Hc4 Hc5 Hs0 Hs1 Hs2 HO]
    · iapply (chunk_trip m d L hpre O W' k (tileShare (L 0).val (L 1).val) f1 f2 fa fb)
      iframe Hmw Ht1 Hi1 Ht2 Hi2 Hk Hl1 Hl2 Ha Hb Hc4 Hc5 Hs0 Hs1 Hs2 HO
    · iintro %_ ⟨Hmw, Ht1, Hi1, Ht2, Hi2, Hk, Hl1, Hl2, Ha, Hb, Hc4, Hc5, Hs0, Hs1, Hs2, %W'', %hW'', HO⟩
      iframe Hmw Ht1 Hi1 Ht2 Hi2
      isplitl [Hk Hrest]
      · iapply (Transfers.bigSep_univ_in (⟨k.val, hk25⟩ : Fin 25) _)
        isplitl [Hk]
        · iapply (Entails.of_eq ek'); iexact Hk
        · iexact Hrest
      iframe Hl1 Hl2 Ha Hb Hc4 Hc5 Hs0 Hs1 Hs2
      iexists W''; isplitr
      · ipureintro; intro p hp
        rcases hW'' p hp with h | h
        · exact hW' p h
        · exact .inr h
      · iexact HO
  · unfold invChunk
    iframe Hmw Ht1 Hi1 Ht2 Hi2
    isplitl [Hout]
    · simp only [Nat.not_lt_zero, ↓reduceIte]; iexact Hout
    isplitl [Hl1]; · iexists _; iexact Hl1
    isplitl [Hl2]; · iexists _; iexact Hl2
    isplitl [Ha]; · iexists _; iexact Ha
    isplitl [Hb]; · iexists _; iexact Hb
    iframe Hc4 Hc5 Hs0 Hs1 Hs2
    iexists W; isplitr
    · ipureintro; exact fun p hp => .inl hp
    · iexact HO
  iintro %_ HI
  unfold invChunk
  icases HI with ⟨-, Ht1, Hi1, Ht2, Hi2, Hout, Hl1, Hl2, Ha, Hb, Hc4, Hc5, Hs0, Hs1, Hs2, %W', %hW', HO⟩
  sl_step
  have eout : (bigSep (Finset.univ : Finset (Fin 25)) fun t' => (tLoc d main_v134 ↦[part1N (partNo L t'.val)]{fullShare}
        (if t'.val < Scf.trips k2_t1_loop.lb k2_t1_loop.ub k2_t1_loop.st then out2 (V0 m d) else VA2 (V0 m d) (r main_v134)) : sProp 𝕄))
      = bigSep (Finset.univ : Finset (Fin 25)) fun t' => (tLoc d main_v134 ↦[part1N (50 * (L 1).val + 25 * (L 0).val + t'.val)]{fullShare} out2 (V0 m d) : sProp 𝕄) := by
    refine bigSep_congr fun t' _ => ?_
    rw [if_pos (show t'.val < Scf.trips k2_t1_loop.lb k2_t1_loop.ub k2_t1_loop.st from (lt_of_lt_of_eq t'.isLt k2_trips.symm : t'.val < k2_t1_loop.trips))]
  isplitl [Ht1 Hi1 Ht2 Hi2 Hout]
  · isplitl [Ht1 Hi1 Ht2 Hi2]
    · iframe Ht1 Hi1 Ht2 Hi2
    · iapply (Entails.of_eq eout); iexact Hout
  isplitl [Hl1 Hl2 Ha Hb Hbufs]
  · iframe Hl1 Hl2 Ha Hb Hbufs
  isplitl [Hc4 Hc5 Hs0 Hs1 Hs2 Hsems]
  · iframe Hc4 Hc5 Hs0 Hs1 Hs2 Hsems
  iexists W'; isplitr
  · ipureintro; exact hW'
  · iexact HO

end Tile

def coordsV (c : Fin (grid2.bound 0)) (s : Fin (grid2.bound 1)) : grid2.Coords :=
  fun | 0 => c | 1 => s | ⟨_ + 2, h⟩ => absurd h (Nat.not_lt.2 (Nat.le_add_left _ _))

abbrev callQ : Fin 4 := 2

theorem defs₀_vector (c : Fin τ.nSC) (s : Fin τ.nSub) :
    defs₀ (F := F) (.scVector c s) callQ ()
      = SparseCore.onTile hcore2 hsub2 (fun c s => cc2_k (coordsV c s) t1V (Memref.isWhole_whole _) i1V (Memref.isWhole_whole _) t2V (Memref.isWhole_whole _)
          i2V (Memref.isWhole_whole _) oV (Memref.isWhole_whole _) l1V (Memref.isWhole_whole _) l2V (Memref.isWhole_whole _) aV (Memref.isWhole_whole _)
          bV (Memref.isWhole_whole _) cc2_scratch4 cc2_scratch5 cc2_scoped0 cc2_scoped1 cc2_scoped2) ⟨⟩ c s := rfl

theorem tileObl (hpre : ∀ d, PreOK (V0 m d)) : (K (F := F)).TileObl (D (F := F)) 𝒱 (P m) v₀ callQ := by
  intro d c i O W hO _ _
  simp only [show (P m).ox = fun _ _ => 0 from rfl, add_zero]
  change _ ⊢ wp _ _ _ (Pipeline.liftProg (defs₀ (F := F) (.scVector ((K (F := F)).core callQ c) ((K (F := F)).sub callQ i)) callQ ())) _
  refine BI.Entails.trans ?_ (Pipeline.wp_liftProg (D (F := F)) (Pipeline.defs_kernel pcfgs defs₀) 𝒱₀ _ Set.univ none _ _)
  have hc : ((K (F := F)).core callQ c).val < grid2.bound 0 ∧ ((K (F := F)).sub callQ i).val < grid2.bound 1 := ⟨c.isLt, i.isLt⟩
  rw [defs₀_vector]; simp only [SparseCore.onTile, hc, and_self, ↓reduceDIte]
  exact (tile_body2 m d (coordsV ⟨_, hc.1⟩ ⟨_, hc.2⟩) (hpre d) O W hO).trans (wp_mono frame _ _ fun _ => obl_post)

end cc2_tile

theorem tileObl2 (hpre : ∀ d, PreOK (V0 m d)) : (K (F := F)).TileObl (D (F := F)) 𝒱 (P m) v₀ 2 := cc2_tile.tileObl m hpre

end Cert.Kernel.Hand

end
-- ==== Proof.KB.Tile3.lean ====
import proofs.«208129_g65403761983635_cont_9to1_m_1354_7_alg».proof.Proof.KB.Base
import proofs.«208129_g65403761983635_cont_9to1_m_1354_7_alg».proof.Proof.Gen.Kernel.Skeleton
import Idealize.ShloMosaic.Lib.SparseCore.Ops
import Idealize.ShloMosaic.Lib.SparseCore.Stream
import proofs.«208129_g65403761983635_cont_9to1_m_1354_7_alg».proof.Proof.KB.TileGeom
import proofs.«208129_g65403761983635_cont_9to1_m_1354_7_alg».proof.Proof.KB.TileVal
import proofs.«208129_g65403761983635_cont_9to1_m_1354_7_alg».proof.Proof.KB.TileLib
import proofs.«208129_g65403761983635_cont_9to1_m_1354_7_alg».proof.Proof.LibRows

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

namespace cc3_tile

local notation "t1V" => (Memref.whole Cert.Kernel.main_v193_scv : Memref Cert.Kernel.sig Kind.scVector Space.hbm Cert.Kernel.S10000x128 EltTy.f32)
local notation "i1V" => (Memref.whole Cert.Kernel.main_v21_scv : Memref Cert.Kernel.sig Kind.scVector Space.hbm Cert.Kernel.S320000 EltTy.i32)
local notation "t2V" => (Memref.whole Cert.Kernel.main_v206_scv : Memref Cert.Kernel.sig Kind.scVector Space.hbm Cert.Kernel.S576x128 EltTy.f32)
local notation "i2V" => (Memref.whole Cert.Kernel.main_v47_scv : Memref Cert.Kernel.sig Kind.scVector Space.hbm Cert.Kernel.S320000 EltTy.i32)
local notation "oV" => (Memref.whole Cert.Kernel.main_v207_scv : Memref Cert.Kernel.sig Kind.scVector Space.hbm Cert.Kernel.S320000x128 EltTy.f32)
local notation "l1V" => (Memref.whole Cert.Kernel.cc3_scratch0 : Memref Cert.Kernel.sig Kind.scVector Space.vmem Cert.Kernel.S400 EltTy.i32)
local notation "l2V" => (Memref.whole Cert.Kernel.cc3_scratch1 : Memref Cert.Kernel.sig Kind.scVector Space.vmem Cert.Kernel.S400 EltTy.i32)
local notation "aV" => (Memref.whole Cert.Kernel.cc3_scratch2 : Memref Cert.Kernel.sig Kind.scVector Space.vmem Cert.Kernel.S400x128 EltTy.f32)
local notation "bV" => (Memref.whole Cert.Kernel.cc3_scratch3 : Memref Cert.Kernel.sig Kind.scVector Space.vmem Cert.Kernel.S400x128 EltTy.f32)

section Tile

variable (d : Dev nD) (L : grid3.Coords)

abbrev cV (L : grid3.Coords) : Fin τ.nSC := (L 0).castLE hcore3
abbrev jV (L : grid3.Coords) : Fin τ.nSub := (L 1).castLE hsub3

abbrev partNo (L : grid3.Coords) (t : ℕ) : ℕ := 50 * (L 1).val + 25 * (L 0).val + t

omit [FloatOps F] in
theorem pts_outChunk (t : Fin k3_t1_loop.trips) (f : Buf (Elt F) (tLoc d main_v207)) :
    ((outChunk3 L t).view.loc (V d (cV L) (jV L)) ↦[(outChunk3 L t).view.set]{fullShare} f : sProp 𝕄) = tLoc d main_v207 ↦[part1N (partNo L t.val)]{fullShare} f := by
  rw [set_outChunk3]

abbrev c4cell (d : Dev nD) (L : grid3.Coords) : GSem nD τ sig := (V d (cV L) (jV L), .dma cc3_scratch4.sem)
abbrev c5cell (d : Dev nD) (L : grid3.Coords) : GSem nD τ sig := (V d (cV L) (jV L), .dma cc3_scratch5.sem)
abbrev s0cell (d : Dev nD) (L : grid3.Coords) : GSem nD τ sig := (V d (cV L) (jV L), .dma cc3_scoped0.sem)
abbrev s1cell (d : Dev nD) (L : grid3.Coords) : GSem nD τ sig := (V d (cV L) (jV L), .dma cc3_scoped1.sem)
abbrev s2cell (d : Dev nD) (L : grid3.Coords) : GSem nD τ sig := (V d (cV L) (jV L), .dma cc3_scoped2.sem)

omit [FloatOps F] in
theorem ownSems0_V :
    (ownSems0 (V d (cV L) (jV L)) : sProp 𝕄)
      = iprop(semVal (c4cell d L) 0 ∗ semVal (c5cell d L) 0 ∗ semVal (s0cell d L) 0 ∗ semVal (s1cell d L) 0 ∗ semVal (s2cell d L) 0
          ∗ bigSep ((((((ownCells (V d (cV L) (jV L))).erase (c4cell d L)).erase (c5cell d L)).erase (s0cell d L)).erase (s1cell d L)).erase (s2cell d L))
              fun g => semVal g 0) := by
  unfold SparseCore.Cfg.ownSems0
  have m4 : c4cell d L ∈ ownCells (V d (cV L) (jV L)) := (mem_ownCells (g := c4cell d L)).mpr ⟨rfl, by
    show (SemLoc.dma cc3_scratch4.sem : SemLoc sig).isScoped .scVector = true; decide⟩
  have m5 : c5cell d L ∈ ownCells (V d (cV L) (jV L)) := (mem_ownCells (g := c5cell d L)).mpr ⟨rfl, by
    show (SemLoc.dma cc3_scratch5.sem : SemLoc sig).isScoped .scVector = true; decide⟩
  have m0 : s0cell d L ∈ ownCells (V d (cV L) (jV L)) := (mem_ownCells (g := s0cell d L)).mpr ⟨rfl, by
    show (SemLoc.dma cc3_scoped0.sem : SemLoc sig).isScoped .scVector = true; decide⟩
  have m1 : s1cell d L ∈ ownCells (V d (cV L) (jV L)) := (mem_ownCells (g := s1cell d L)).mpr ⟨rfl, by
    show (SemLoc.dma cc3_scoped1.sem : SemLoc sig).isScoped .scVector = true; decide⟩
  have m2 : s2cell d L ∈ ownCells (V d (cV L) (jV L)) := (mem_ownCells (g := s2cell d L)).mpr ⟨rfl, by
    show (SemLoc.dma cc3_scoped2.sem : SemLoc sig).isScoped .scVector = true; decide⟩
  rw [SparseCore.bigSep_erase' m4,
    SparseCore.bigSep_erase' (Finset.mem_erase.mpr ⟨cell_ne _ (by decide), m5⟩),
    SparseCore.bigSep_erase' (Finset.mem_erase.mpr ⟨cell_ne _ (by decide), Finset.mem_erase.mpr ⟨cell_ne _ (by decide), m0⟩⟩),
    SparseCore.bigSep_erase' (Finset.mem_erase.mpr ⟨cell_ne _ (by decide), Finset.mem_erase.mpr ⟨cell_ne _ (by decide), Finset.mem_erase.mpr ⟨cell_ne _ (by decide), m1⟩⟩⟩),
    SparseCore.bigSep_erase' (Finset.mem_erase.mpr ⟨cell_ne _ (by decide), Finset.mem_erase.mpr ⟨cell_ne _ (by decide), Finset.mem_erase.mpr ⟨cell_ne _ (by decide),
      Finset.mem_erase.mpr ⟨cell_ne _ (by decide), m2⟩⟩⟩⟩)]

omit [FloatOps F] in
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f) ∗ (∃ f, (V d (cV L) (jV L)).loc cc3_scratch3 ↦{fullShare} f)
          ∗ bigSep (((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2)).erase
              ((Proc.scVector (cV L) (jV L)).devRef cc3_scratch3))
              fun b => iprop(∃ f, ((d, b) : Loc nD τ sig) ↦{fullShare} f)) := by
  unfold SparseCore.Cfg.ownBufs
  have own0 := SparseCore.Cfg.mem_ownRefs_of_owner (p := Proc.scVector (cV L) (jV L)) (b := (Proc.scVector (cV L) (jV L)).devRef cc3_scratch0) rfl
  have own1 := SparseCore.Cfg.mem_ownRefs_of_owner (p := Proc.scVector (cV L) (jV L)) (b := (Proc.scVector (cV L) (jV L)).devRef cc3_scratch1) rfl
  have own2 := SparseCore.Cfg.mem_ownRefs_of_owner (p := Proc.scVector (cV L) (jV L)) (b := (Proc.scVector (cV L) (jV L)).devRef cc3_scratch2) rfl
  have own3 := SparseCore.Cfg.mem_ownRefs_of_owner (p := Proc.scVector (cV L) (jV L)) (b := (Proc.scVector (cV L) (jV L)).devRef cc3_scratch3) rfl
  have ne : ∀ {b b' : Ref sig .scVector}, b ≠ b' → (Proc.scVector (cV L) (jV L)).devRef b ≠ (Proc.scVector (cV L) (jV L)).devRef b' :=
    fun h e => h (Proc.devRef_injective _ e)
  refine (SparseCore.bigSep_erase' own0).trans ?_
  rw [SparseCore.bigSep_erase' (Finset.mem_erase.mpr ⟨ne (show (cc3_scratch1 : Ref sig .scVector) ≠ cc3_scratch0 by decide), own1⟩),
    SparseCore.bigSep_erase' (Finset.mem_erase.mpr ⟨ne (show (cc3_scratch2 : Ref sig .scVector) ≠ cc3_scratch1 by decide),
      Finset.mem_erase.mpr ⟨ne (show (cc3_scratch2 : Ref sig .scVector) ≠ cc3_scratch0 by decide), own2⟩⟩),
    SparseCore.bigSep_erase' (Finset.mem_erase.mpr ⟨ne (show (cc3_scratch3 : Ref sig .scVector) ≠ cc3_scratch2 by decide),
      Finset.mem_erase.mpr ⟨ne (show (cc3_scratch3 : Ref sig .scVector) ≠ cc3_scratch1 by decide),
      Finset.mem_erase.mpr ⟨ne (show (cc3_scratch3 : Ref sig .scVector) ≠ cc3_scratch0 by decide), own3⟩⟩⟩)]

theorem piece_ok (k : Fin k3_t2_loop.trips)
    (f : Buf (Elt F) ((aV).view.loc (V d (cV L) (jV L)))) (g : Buf (Elt F) ((bV).view.loc (V d (cV L) (jV L))))
    (off : Fin 2 → ℕ) (inb : ∀ a, off a + S1x16.size a ≤ S400x128.size a) (h : ∃ r < 4, ∃ c, off = ![4 * k.val + r, c]) (x : S1x16.Idx) :
    FloatOps.addf (φ := .f32) ((aV).view.readAt (Elt F) (Rect.unit (s := S400x128) off S1x16.size inb).toLoadRect f x)
        ((bV).view.readAt (Elt F) (Rect.unit (s := S400x128) off S1x16.size inb).toLoadRect g x)
      = rowsAdd k.val f g ((Rect.unit (s := S400x128) off S1x16.size inb).emb x) := by
  obtain ⟨r, hr, c, rfl⟩ := h
  have hx : (x 0).val = 0 := by have := (x 0).isLt; change (x 0).val < 1 at this; omega
  unfold rowsAdd
  rw [if_pos]
  · rfl
  · rw [Rect.emb_apply]
    simp only [Rect.off_unit, Rect.stride_unit, Matrix.cons_val_zero, hx]
    omega

set_option maxHeartbeats 4000000 in
theorem row_trip (k : Fin k3_t2_loop.trips)
    (f : Buf (Elt F) ((aV).view.loc (V d (cV L) (jV L)))) (g : Buf (Elt F) ((bV).view.loc (V d (cV L) (jV L)))) :
    (iprop(((aV).view.loc (V d (cV L) (jV L)) ↦{fullShare} f) ∗ ((bV).view.loc (V d (cV L) (jV L)) ↦{fullShare} g)) : sProp 𝕄)
      ⊢ wp frame (wpE (defs₀ (F := F)) 𝒱₀ (V d (cV L) (jV L)) none) Set.univ
          (k3_t2_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc3_scratch4 cc3_scratch5 cc3_scoped0 cc3_scoped1 cc3_scoped2 k ⟨⟩)
          fun _ => iprop(((aV).view.loc (V d (cV L) (jV L)) ↦{fullShare} rowsAdd k.val f g) ∗ ((bV).view.loc (V d (cV L) (jV L)) ↦{fullShare} g)) := by
  unfold k3_t2_body
  iintro ⟨Ha, Hb⟩
  sl_exec_parts
  sl_step
  isplitl [Ha]
  swap; · iexact Hb
  iapply (Entails.of_eq (congrArg (fun c => ((aV).view.loc (V d (cV L) (jV L)) ↦{fullShare} c : sProp 𝕄)) ?_)) $$ Ha
  sl_unfold_run_names
  have h0 : 0 < 4 := by decide
  have h1 : 1 < 4 := by decide
  have h2 : 2 < 4 := by decide
  have h3 : 3 < 4 := by decide
  have o2 : ∀ n (h : n < 4), k3_off2 k (BitVec.ofNat 32 n) = ![4 * k.val + n, 0] := fun n h => k3_off2_eq k ⟨n, h⟩
  have o3 : ∀ n (h : n < 4), k3_off3 k (BitVec.ofNat 32 n) = ![4 * k.val + n, 16] := fun n h => k3_off3_eq k ⟨n, h⟩
  have o4 : ∀ n (h : n < 4), k3_off4 k (BitVec.ofNat 32 n) = ![4 * k.val + n, 32] := fun n h => k3_off4_eq k ⟨n, h⟩
  have o5 : ∀ n (h : n < 4), k3_off5 k (BitVec.ofNat 32 n) = ![4 * k.val + n, 48] := fun n h => k3_off5_eq k ⟨n, h⟩
  have o6 : ∀ n (h : n < 4), k3_off6 k (BitVec.ofNat 32 n) = ![4 * k.val + n, 64] := fun n h => k3_off6_eq k ⟨n, h⟩
  have o7 : ∀ n (h : n < 4), k3_off7 k (BitVec.ofNat 32 n) = ![4 * k.val + n, 80] := fun n h => k3_off7_eq k ⟨n, h⟩
  have o8 : ∀ n (h : n < 4), k3_off8 k (BitVec.ofNat 32 n) = ![4 * k.val + n, 96] := fun n h => k3_off8_eq k ⟨n, h⟩
  have o9 : ∀ n (h : n < 4), k3_off9 k (BitVec.ofNat 32 n) = ![4 * k.val + n, 112] := fun n h => k3_off9_eq k ⟨n, h⟩
  have key : ∀ Ls : List (View.Piece (Elt F) S400x128 .f32), (∀ p ∈ Ls, ∀ x : p.1.shape.Idx, p.2 x = rowsAdd k.val f g (p.1.emb x)) →
      (∀ y, (∀ p ∈ Ls, y ∉ p.1.set) → f y = rowsAdd k.val f g y) → (aV).view.writes (Elt F) f Ls = rowsAdd k.val f g :=
    fun Ls hp hr => read_writes_eq_of_pieces (aV).view f (rowsAdd k.val f g) Ls hp hr
  refine key _ ?hp ?hr
  case hr =>
    intro y hy
    simp only [List.forall_mem_cons, List.not_mem_nil, false_imp_iff, implies_true, and_true, Rect.mem_set_unit, Fin.forall_fin_two,
      o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3, Matrix.cons_val_zero, Matrix.cons_val_one] at hy
    show f y = rowsAdd k.val f g y
    unfold rowsAdd
    rw [if_neg]
    exact fun hb => Rows.cover32 (y 1).isLt hb hy
  case hp =>
    simp only [List.forall_mem_cons, List.not_mem_nil, false_imp_iff, implies_true, and_true]
    and_intros
    all_goals exact fun x => (laneAdd_apply _ _ x).trans (piece_ok d L k f g _ _
      (by simp only [o2 0 h0, o2 1 h1, o2 2 h2, o2 3 h3, o3 0 h0, o3 1 h1, o3 2 h2, o3 3 h3, o4 0 h0, o4 1 h1, o4 2 h2, o4 3 h3, o5 0 h0, o5 1 h1, o5 2 h2, o5 3 h3, o6 0 h0, o6 1 h1, o6 2 h2, o6 3 h3, o7 0 h0, o7 1 h1, o7 2 h2, o7 3 h3, o8 0 h0, o8 1 h1, o8 2 h2, o8 3 h3, o9 0 h0, o9 1 h1, o9 2 h2, o9 3 h3]; exact ⟨_, by decide, _, rfl⟩) x)

def invRow (fA : Buf (Elt F) ((aV).view.loc (V d (cV L) (jV L)))) (fB : Buf (Elt F) ((bV).view.loc (V d (cV L) (jV L)))) (k : ℕ) (_ : PUnit) : sProp 𝕄 :=
  iprop(((aV).view.loc (V d (cV L) (jV L)) ↦{fullShare} accAt (4 * k) fA fB) ∗ ((bV).view.loc (V d (cV L) (jV L)) ↦{fullShare} fB))

theorem aV_writes_whole (g : Buf (Elt F) ((aV).view.loc (V d (cV L) (jV L)))) (w : S400x128.Idx → Elt F .f32) (x : S400x128.Idx) :
    (aV).view.writes (Elt F) g [⟨Rect.whole S400x128, w⟩] x = w x := by
  have hx : (Rect.whole S400x128).emb x = x := Rect.emb_whole_apply S400x128 x
  have e := View.read_writes_cons_emb (aV).view g (Rect.whole S400x128) w [] x
  first
    | (rw [hx] at e; exact e)
    | exact (congrArg (fun y => (aV).view.writes (Elt F) g [⟨Rect.whole S400x128, w⟩] y) hx).symm.trans e
theorem bV_writes_whole (g : Buf (Elt F) ((bV).view.loc (V d (cV L) (jV L)))) (w : S400x128.Idx → Elt F .f32) (x : S400x128.Idx) :
    (bV).view.writes (Elt F) g [⟨Rect.whole S400x128, w⟩] x = w x := by
  have hx : (Rect.whole S400x128).emb x = x := Rect.emb_whole_apply S400x128 x
  have e := View.read_writes_cons_emb (bV).view g (Rect.whole S400x128) w [] x
  first
    | (rw [hx] at e; exact e)
    | exact (congrArg (fun y => (bV).view.writes (Elt F) g [⟨Rect.whole S400x128, w⟩] y) hx).symm.trans e

theorem out_writes_emb (t : Fin k3_t1_loop.trips) (Wc : (outChunk3 L t).view.ty.Contents (Elt F)) (w : S400x128.Idx → Elt F .f32) (x : S400x128.Idx) :
    (outChunk3 L t).view.writes (Elt F) Wc [⟨Rect.whole S400x128, w⟩] ((outChunk3 L t).view.emb x) = w x := by
  have e1 := View.read_writes_cons_emb (outChunk3 L t).view Wc (Rect.whole S400x128) w [] x
  rw [Rect.emb_whole_apply] at e1
  exact ((View.read_apply _ _).trans (cast_eq _ _)).symm.trans e1

set_option maxHeartbeats 4000000 in
theorem chunk_trip (hpre : PreOK (V0 m d)) (O : CellTallies nD τ sig (HIx 4)) (W' : Waits sig (HIx 4)) (t : Fin k3_t1_loop.trips)
    (q : PosShare TreeShare)
    (f1 : Buf (Elt F) ((l1V).view.loc (V d (cV L) (jV L)))) (f2 : Buf (Elt F) ((l2V).view.loc (V d (cV L) (jV L))))
    (fa : Buf (Elt F) ((aV).view.loc (V d (cV L) (jV L)))) (fb : Buf (Elt F) ((bV).view.loc (V d (cV L) (jV L)))) :
    (iprop(Transfers.MayWaits (V d (cV L) (jV L)) (none : HIx 4) O
        ∗ ((t1V).view.loc (V d (cV L) (jV L)) ↦{q} VA3 (V0 m d) (r main_v193))
        ∗ ((i1V).view.loc (V d (cV L) (jV L)) ↦{q} VA3 (V0 m d) (r main_v21))
        ∗ ((t2V).view.loc (V d (cV L) (jV L)) ↦{q} VA3 (V0 m d) (r main_v206))
        ∗ ((i2V).view.loc (V d (cV L) (jV L)) ↦{q} VA3 (V0 m d) (r main_v47))
        ∗ ((outChunk3 L t).view.loc (V d (cV L) (jV L)) ↦[(outChunk3 L t).view.set]{fullShare} VA3 (V0 m d) (r main_v207))
        ∗ ((l1V).view.loc (V d (cV L) (jV L)) ↦{fullShare} f1) ∗ ((l2V).view.loc (V d (cV L) (jV L)) ↦{fullShare} f2)
        ∗ ((aV).view.loc (V d (cV L) (jV L)) ↦{fullShare} fa) ∗ ((bV).view.loc (V d (cV L) (jV L)) ↦{fullShare} fb)
        ∗ semVal (c4cell d L) 0 ∗ semVal (c5cell d L) 0 ∗ semVal (s0cell d L) 0 ∗ semVal (s1cell d L) 0 ∗ semVal (s2cell d L) 0
        ∗ owes (V d (cV L) (jV L)) O W') : sProp 𝕄)
      ⊢ wp frame (wpE (defs₀ (F := F)) 𝒱₀ (V d (cV L) (jV L)) none) Set.univ
          (k3_t1_body L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc3_scratch4 cc3_scratch5 cc3_scoped0 cc3_scoped1 cc3_scoped2 t ⟨⟩)
          fun _ => iprop(Transfers.MayWaits (V d (cV L) (jV L)) (none : HIx 4) O
            ∗ ((t1V).view.loc (V d (cV L) (jV L)) ↦{q} VA3 (V0 m d) (r main_v193))
            ∗ ((i1V).view.loc (V d (cV L) (jV L)) ↦{q} VA3 (V0 m d) (r main_v21))
            ∗ ((t2V).view.loc (V d (cV L) (jV L)) ↦{q} VA3 (V0 m d) (r main_v206))
            ∗ ((i2V).view.loc (V d (cV L) (jV L)) ↦{q} VA3 (V0 m d) (r main_v47))
            ∗ ((outChunk3 L t).view.loc (V d (cV L) (jV L)) ↦[(outChunk3 L t).view.set]{fullShare} out3 (V0 m d))
            ∗ (∃ f, (l1V).view.loc (V d (cV L) (jV L)) ↦{fullShare} f) ∗ (∃ f, (l2V).view.loc (V d (cV L) (jV L)) ↦{fullShare} f)
            ∗ (∃ f, (aV).view.loc (V d (cV L) (jV L)) ↦{fullShare} f) ∗ (∃ f, (bV).view.loc (V d (cV L) (jV L)) ↦{fullShare} f)
            ∗ semVal (c4cell d L) 0 ∗ semVal (c5cell d L) 0 ∗ semVal (s0cell d L) 0 ∗ semVal (s1cell d L) 0 ∗ semVal (s2cell d L) 0
            ∗ ∃ W'', ⌜∀ p ∈ W'', p ∈ W' ∨ p.2 = none⌝ ∗ owes (V d (cV L) (jV L)) O W'') := by
  have hin1 : ∀ (g1 : Buf (Elt F) ((l1V).view.loc (V d (cV L) (jV L)))) x,
      ((l1V).view.read (Elt F) (View.write (Elt F) (l1V).view g1 ((idxChunk3_1 L t).view.read (Elt F) (VA3 (V0 m d) (r main_v21))) Finset.univ) x).toNat
        < S10000x128.size gathers_S10000x128_S400x128.axis := by
    intro g1 x
    rw [View.write_whole_univ]
    simp only [Memref.view_whole, View.read_whole]
    rw [show ∀ j, (idxChunk3_1 L t).view.read (Elt F) (VA3 (V0 m d) (r main_v21)) j = VA3 (V0 m d) (r main_v21) ((idxChunk3_1 L t).view.emb j) from fun j => (View.read_apply _ _).trans (cast_eq _ _)]
    exact hpre.h3a _
  have hin2 : ∀ (g2 : Buf (Elt F) ((l2V).view.loc (V d (cV L) (jV L)))) x,
      ((l2V).view.read (Elt F) (View.write (Elt F) (l2V).view g2 ((idxChunk3_2 L t).view.read (Elt F) (VA3 (V0 m d) (r main_v47))) Finset.univ) x).toNat
        < S576x128.size gathers_S576x128_S400x128.axis := by
    intro g2 x
    rw [View.write_whole_univ]
    simp only [Memref.view_whole, View.read_whole]
    rw [show ∀ j, (idxChunk3_2 L t).view.read (Elt F) (VA3 (V0 m d) (r main_v47)) j = VA3 (V0 m d) (r main_v47) ((idxChunk3_2 L t).view.emb j) from fun j => (View.read_apply _ _).trans (cast_eq _ _)]
    exact hpre.h3b _
  unfold k3_t1_body
  iintro ⟨Hmw, Ht1, Hi1, Ht2, Hi2, Ho, Hl1, Hl2, Ha, Hb, Hc4, Hc5, Hs0, Hs1, Hs2, HO⟩
  sl_exec
  sl_unfold_run_names
  generalize hfA : (aV).view.writes (Elt F) (aV).view.junk _ = fA
  generalize hfB : (bV).view.writes (Elt F) (bV).view.junk _ = fB
  sl_for (invRow d L fA fB) $$ [Ha Hb]
  case region =>
    intro k _
    unfold invRow
    rw [← rowsAdd_accAt k.val fA fB]
    exact row_trip d L k _ fB
  · unfold invRow
    rw [accAt_zero]
    isplitl [Ha]
    · iexact Ha
    · iexact Hb
  iintro %_ HI
  unfold invRow
  icases HI with ⟨Ha, Hb⟩
  sl_exec
  sl_step
  iframe Hmw Ht1 Hi1 Ht2 Hi2
  isplitl [Ho]
  · iapply (Entails.of_eq (pointsTo_congr ?hv)) $$ Ho
    case hv =>
      sl_unfold_run_names
      rw [set_outChunk3]
      refine forall_outChunk3 L t (fun a b => ?_)
      beta_reduce
      rw [← emb_outChunk3 L t a b, out_writes_emb, ReadAs.apply_same]
      show accAt (4 * k3_t2_loop.trips) fA fB (ValueIdx.ix2 a b) = _
      rw [show 4 * k3_t2_loop.trips = 400 from by decide, accAt_all]
      have hA := (congrFun hfA (ValueIdx.ix2 a b)).symm.trans (aV_writes_whole d L _ _ (ValueIdx.ix2 a b))
      have hB := (congrFun hfB (ValueIdx.ix2 a b)).symm.trans (bV_writes_whole d L _ _ (ValueIdx.ix2 a b))
      rw [hA, hB]
      exact chunkVal3 L t (V0 m d) _ _ _ _ _ _ _ _ (ValueIdx.ix2 a b)
  isplitl [Hl1]; · iexists _; iexact Hl1
  isplitl [Hl2]; · iexists _; iexact Hl2
  isplitl [Ha]; · iexists _; iexact Ha
  isplitl [Hb]; · iexists _; iexact Hb
  isplitl [Hc4]; · iexact Hc4
  isplitl [Hc5]; · iexact Hc5
  isplitl [Hs0]; · iexact Hs0
  isplitl [Hs1]; · iexact Hs1
  isplitl [Hs2]; · iexact Hs2
  iexists _; isplitr
  swap; · iexact HO
  ipureintro; intro p hp
  iterate 5 (rcases Finset.mem_insert.mp hp with hp | hp; · exact .inr (hp ▸ rfl))
  exact .inl hp

def invChunk (O : CellTallies nD τ sig (HIx 4)) (W : Waits sig (HIx 4)) (q : PosShare TreeShare) (k : ℕ) (_ : PUnit) : sProp 𝕄 :=
  iprop(Transfers.MayWaits (V d (cV L) (jV L)) (none : HIx 4) O
    ∗ ((t1V).view.loc (V d (cV L) (jV L)) ↦{q} VA3 (V0 m d) (r main_v193))
    ∗ ((i1V).view.loc (V d (cV L) (jV L)) ↦{q} VA3 (V0 m d) (r main_v21))
    ∗ ((t2V).view.loc (V d (cV L) (jV L)) ↦{q} VA3 (V0 m d) (r main_v206))
    ∗ ((i2V).view.loc (V d (cV L) (jV L)) ↦{q} VA3 (V0 m d) (r main_v47))
    ∗ (bigSep (Finset.univ : Finset (Fin 25)) fun t' => tLoc d main_v207 ↦[part1N (partNo L t'.val)]{fullShare}
        (if t'.val < k then out3 (V0 m d) else VA3 (V0 m d) (r main_v207)))
    ∗ (∃ f, (l1V).view.loc (V d (cV L) (jV L)) ↦{fullShare} f) ∗ (∃ f, (l2V).view.loc (V d (cV L) (jV L)) ↦{fullShare} f)
    ∗ (∃ f, (aV).view.loc (V d (cV L) (jV L)) ↦{fullShare} f) ∗ (∃ f, (bV).view.loc (V d (cV L) (jV L)) ↦{fullShare} f)
    ∗ semVal (c4cell d L) 0 ∗ semVal (c5cell d L) 0 ∗ semVal (s0cell d L) 0 ∗ semVal (s1cell d L) 0 ∗ semVal (s2cell d L) 0
    ∗ ∃ W', ⌜∀ p ∈ W', p ∈ W ∨ p.2 = none⌝ ∗ owes (V d (cV L) (jV L)) O W')

set_option maxHeartbeats 4000000 in
theorem tile_body3 (hpre : PreOK (V0 m d)) (O : CellTallies nD τ sig (HIx 4)) (W : Waits sig (HIx 4)) (hO : ∀ g, O g none = 0) :
    iprop(levAts (K (F := F)).L (K (F := F)).lev ∗ emp
        ∗ (ins d main_v193 main_v21 main_v206 main_v47 (VA3 (V0 m d)) (tileShare (L 0).val (L 1).val) ∗ outs3 d (L 0).val (L 1).val (VA3 (V0 m d) (r main_v207)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_k L t1V (Memref.isWhole_whole _) i1V (Memref.isWhole_whole _) t2V (Memref.isWhole_whole _) i2V (Memref.isWhole_whole _)
            oV (Memref.isWhole_whole _) l1V (Memref.isWhole_whole _) l2V (Memref.isWhole_whole _) aV (Memref.isWhole_whole _) bV (Memref.isWhole_whole _)
            cc3_scratch4 cc3_scratch5 cc3_scoped0 cc3_scoped1 cc3_scoped2)
          fun _ => iprop((ins d main_v193 main_v21 main_v206 main_v47 (VA3 (V0 m d)) (tileShare (L 0).val (L 1).val) ∗ outs3 d (L 0).val (L 1).val (out3 (V0 m d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3_k_eq_skeleton]; unfold cc3_k_skel
  rw [(K (F := F)).scopedBufs_V facts d (cV L) (jV L), SparseCore.Cfg.scopedSems0_V (Val := Elt F) d (cV L) (jV L), ownSems0_V, ownBufs_V]
  unfold ins outs3
  iintro ⟨#Hlv, -, ⟨⟨Ht1, Hi1, Ht2, Hi2⟩, Hout⟩, ⟨⟨%f1, Hl1⟩, ⟨%f2, Hl2⟩, ⟨%fa, Ha⟩, ⟨%fb, Hb⟩, Hbufs⟩, ⟨Hc4, Hc5, Hs0, Hs1, Hs2, Hsems⟩, HO⟩
  ihave Hmw := (show levAts (K (F := F)).L (K (F := F)).lev ⊢ Transfers.MayWaits (V d (cV L) (jV L)) (none : HIx 4) O from
    (K (F := F)).mayWaits_none (thr := V d (cV L) (jV L)) hO) $$ Hlv
  sl_for (invChunk m d L O W (tileShare (L 0).val (L 1).val)) $$ [Hmw Ht1 Hi1 Ht2 Hi2 Hout Hl1 Hl2 Ha Hb Hc4 Hc5 Hs0 Hs1 Hs2 HO]
  case region =>
    intro k _
    unfold invChunk
    iintro ⟨Hmw, Ht1, Hi1, Ht2, Hi2, Hout, ⟨%f1, Hl1⟩, ⟨%f2, Hl2⟩, ⟨%fa, Ha⟩, ⟨%fb, Hb⟩, Hc4, Hc5, Hs0, Hs1, Hs2, %W', %hW', HO⟩
    have hk25 : k.val < 25 := k3_t_lt k
    ihave Hout' := (Transfers.bigSep_univ_out (⟨k.val, hk25⟩ : Fin 25) _) $$ Hout
    icases Hout' with ⟨Hk, Hrest⟩
    have ek : (tLoc d main_v207 ↦[part1N (partNo L k.val)]{fullShare} (if k.val < k.val then out3 (V0 m d) else VA3 (V0 m d) (r main_v207)) : sProp 𝕄)
        = ((outChunk3 L k).view.loc (V d (cV L) (jV L)) ↦[(outChunk3 L k).view.set]{fullShare} VA3 (V0 m d) (r main_v207)) := by
      rw [if_neg (lt_irrefl _), pts_outChunk]
    have ek' : ((outChunk3 L k).view.loc (V d (cV L) (jV L)) ↦[(outChunk3 L k).view.set]{fullShare} out3 (V0 m d) : sProp 𝕄)
        = (tLoc d main_v207 ↦[part1N (partNo L k.val)]{fullShare} (if k.val < k.val + 1 then out3 (V0 m d) else VA3 (V0 m d) (r main_v207))) := by
      rw [if_pos (Nat.lt_succ_self _), pts_outChunk]
    have erest : (bigSep ((Finset.univ : Finset (Fin 25)).erase ⟨k.val, hk25⟩) fun t' => (tLoc d main_v207 ↦[part1N (partNo L t'.val)]{fullShare}
          (if t'.val < k.val then out3 (V0 m d) else VA3 (V0 m d) (r main_v207)) : sProp 𝕄))
        = bigSep ((Finset.univ : Finset (Fin 25)).erase ⟨k.val, hk25⟩) fun t' => (tLoc d main_v207 ↦[part1N (partNo L t'.val)]{fullShare}
          (if t'.val < k.val + 1 then out3 (V0 m d) else VA3 (V0 m d) (r main_v207)) : sProp 𝕄) := by
      refine bigSep_congr fun t' ht' => ?_
      have hne : t'.val ≠ k.val := fun e => (Finset.mem_erase.mp ht').1 (Fin.ext e)
      by_cases h : t'.val < k.val
      · rw [if_pos h, if_pos (by omega)]
      · rw [if_neg h, if_neg (by omega)]
    ihave Hk := (Entails.of_eq ek) $$ Hk
    ihave Hrest := (Entails.of_eq erest) $$ Hrest
    iapply (wp_wand_r frame _ _)
    isplitl [Hmw Ht1 Hi1 Ht2 Hi2 Hk Hl1 Hl2 Ha Hb Hc4 Hc5 Hs0 Hs1 Hs2 HO]
    · iapply (chunk_trip m d L hpre O W' k (tileShare (L 0).val (L 1).val) f1 f2 fa fb)
      iframe Hmw Ht1 Hi1 Ht2 Hi2 Hk Hl1 Hl2 Ha Hb Hc4 Hc5 Hs0 Hs1 Hs2 HO
    · iintro %_ ⟨Hmw, Ht1, Hi1, Ht2, Hi2, Hk, Hl1, Hl2, Ha, Hb, Hc4, Hc5, Hs0, Hs1, Hs2, %W'', %hW'', HO⟩
      iframe Hmw Ht1 Hi1 Ht2 Hi2
      isplitl [Hk Hrest]
      · iapply (Transfers.bigSep_univ_in (⟨k.val, hk25⟩ : Fin 25) _)
        isplitl [Hk]
        · iapply (Entails.of_eq ek'); iexact Hk
        · iexact Hrest
      iframe Hl1 Hl2 Ha Hb Hc4 Hc5 Hs0 Hs1 Hs2
      iexists W''; isplitr
      · ipureintro; intro p hp
        rcases hW'' p hp with h | h
        · exact hW' p h
        · exact .inr h
      · iexact HO
  · unfold invChunk
    iframe Hmw Ht1 Hi1 Ht2 Hi2
    isplitl [Hout]
    · simp only [Nat.not_lt_zero, ↓reduceIte]; iexact Hout
    isplitl [Hl1]; · iexists _; iexact Hl1
    isplitl [Hl2]; · iexists _; iexact Hl2
    isplitl [Ha]; · iexists _; iexact Ha
    isplitl [Hb]; · iexists _; iexact Hb
    iframe Hc4 Hc5 Hs0 Hs1 Hs2
    iexists W; isplitr
    · ipureintro; exact fun p hp => .inl hp
    · iexact HO
  iintro %_ HI
  unfold invChunk
  icases HI with ⟨-, Ht1, Hi1, Ht2, Hi2, Hout, Hl1, Hl2, Ha, Hb, Hc4, Hc5, Hs0, Hs1, Hs2, %W', %hW', HO⟩
  sl_step
  have eout : (bigSep (Finset.univ : Finset (Fin 25)) fun t' => (tLoc d main_v207 ↦[part1N (partNo L t'.val)]{fullShare}
        (if t'.val < Scf.trips k3_t1_loop.lb k3_t1_loop.ub k3_t1_loop.st then out3 (V0 m d) else VA3 (V0 m d) (r main_v207)) : sProp 𝕄))
      = bigSep (Finset.univ : Finset (Fin 25)) fun t' => (tLoc d main_v207 ↦[part1N (50 * (L 1).val + 25 * (L 0).val + t'.val)]{fullShare} out3 (V0 m d) : sProp 𝕄) := by
    refine bigSep_congr fun t' _ => ?_
    rw [if_pos (show t'.val < Scf.trips k3_t1_loop.lb k3_t1_loop.ub k3_t1_loop.st from (lt_of_lt_of_eq t'.isLt k3_trips.symm : t'.val < k3_t1_loop.trips))]
  isplitl [Ht1 Hi1 Ht2 Hi2 Hout]
  · isplitl [Ht1 Hi1 Ht2 Hi2]
    · iframe Ht1 Hi1 Ht2 Hi2
    · iapply (Entails.of_eq eout); iexact Hout
  isplitl [Hl1 Hl2 Ha Hb Hbufs]
  · iframe Hl1 Hl2 Ha Hb Hbufs
  isplitl [Hc4 Hc5 Hs0 Hs1 Hs2 Hsems]
  · iframe Hc4 Hc5 Hs0 Hs1 Hs2 Hsems
  iexists W'; isplitr
  · ipureintro; exact hW'
  · iexact HO

end Tile

def coordsV (c : Fin (grid3.bound 0)) (s : Fin (grid3.bound 1)) : grid3.Coords :=
  fun | 0 => c | 1 => s | ⟨_ + 2, h⟩ => absurd h (Nat.not_lt.2 (Nat.le_add_left _ _))

abbrev callQ : Fin 4 := 3

theorem defs₀_vector (c : Fin τ.nSC) (s : Fin τ.nSub) :
    defs₀ (F := F) (.scVector c s) callQ ()
      = SparseCore.onTile hcore3 hsub3 (fun c s => cc3_k (coordsV c s) t1V (Memref.isWhole_whole _) i1V (Memref.isWhole_whole _) t2V (Memref.isWhole_whole _)
          i2V (Memref.isWhole_whole _) oV (Memref.isWhole_whole _) l1V (Memref.isWhole_whole _) l2V (Memref.isWhole_whole _) aV (Memref.isWhole_whole _)
          bV (Memref.isWhole_whole _) cc3_scratch4 cc3_scratch5 cc3_scoped0 cc3_scoped1 cc3_scoped2) ⟨⟩ c s := rfl

theorem tileObl (hpre : ∀ d, PreOK (V0 m d)) : (K (F := F)).TileObl (D (F := F)) 𝒱 (P m) v₀ callQ := by
  intro d c i O W hO _ _
  simp only [show (P m).ox = fun _ _ => 0 from rfl, add_zero]
  change _ ⊢ wp _ _ _ (Pipeline.liftProg (defs₀ (F := F) (.scVector ((K (F := F)).core callQ c) ((K (F := F)).sub callQ i)) callQ ())) _
  refine BI.Entails.trans ?_ (Pipeline.wp_liftProg (D (F := F)) (Pipeline.defs_kernel pcfgs defs₀) 𝒱₀ _ Set.univ none _ _)
  have hc : ((K (F := F)).core callQ c).val < grid3.bound 0 ∧ ((K (F := F)).sub callQ i).val < grid3.bound 1 := ⟨c.isLt, i.isLt⟩
  rw [defs₀_vector]; simp only [SparseCore.onTile, hc, and_self, ↓reduceDIte]
  exact (tile_body3 m d (coordsV ⟨_, hc.1⟩ ⟨_, hc.2⟩) (hpre d) O W hO).trans (wp_mono frame _ _ fun _ => obl_post)

end cc3_tile

theorem tileObl3 (hpre : ∀ d, PreOK (V0 m d)) : (K (F := F)).TileObl (D (F := F)) 𝒱 (P m) v₀ 3 := cc3_tile.tileObl m hpre

end Cert.Kernel.Hand

end
-- ==== Proof.KB.Main.lean ====
import proofs.«208129_g65403761983635_cont_9to1_m_1354_7_alg».proof.Proof.KB.Base
import proofs.«208129_g65403761983635_cont_9to1_m_1354_7_alg».proof.Proof.KB.Split

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

open Idealize.ShloMosaic.StableHlo (tcRefs nullary_bufs_sub unary_bufs_sub binary_bufs_sub ternary_bufs_sub reshape_bufs_sub)

theorem sub0 : (opsA0 (F := F)).Forall fun op => op.bufs ⊆ tcRefs τ sig := by
  simp only [List.Forall, nullary_bufs_sub, unary_bufs_sub, binary_bufs_sub, ternary_bufs_sub, reshape_bufs_sub, and_self]
theorem sub1 : (opsA1 (F := F)).Forall fun op => op.bufs ⊆ tcRefs τ sig := by
  simp only [List.Forall, nullary_bufs_sub, unary_bufs_sub, binary_bufs_sub, ternary_bufs_sub, reshape_bufs_sub, and_self]
theorem sub2 : (opsA2 (F := F)).Forall fun op => op.bufs ⊆ tcRefs τ sig := by
  simp only [List.Forall, nullary_bufs_sub, unary_bufs_sub, binary_bufs_sub, ternary_bufs_sub, reshape_bufs_sub, and_self]
theorem sub3 : (opsA3 (F := F)).Forall fun op => op.bufs ⊆ tcRefs τ sig := by
  simp only [List.Forall, nullary_bufs_sub, unary_bufs_sub, binary_bufs_sub, ternary_bufs_sub, reshape_bufs_sub, and_self]
theorem sub4 : (opsA4 (F := F)).Forall fun op => op.bufs ⊆ tcRefs τ sig := by
  simp only [List.Forall, nullary_bufs_sub, unary_bufs_sub, binary_bufs_sub, ternary_bufs_sub, reshape_bufs_sub, and_self]

theorem fresh0 : (opsA0 (F := F)).Forall fun op => op.fresh = ∅ := by simp only [List.Forall]; repeat' constructor
theorem fresh1 : (opsA1 (F := F)).Forall fun op => op.fresh = ∅ := by simp only [List.Forall]; repeat' constructor
theorem fresh2 : (opsA2 (F := F)).Forall fun op => op.fresh = ∅ := by simp only [List.Forall]; repeat' constructor
theorem fresh3 : (opsA3 (F := F)).Forall fun op => op.fresh = ∅ := by simp only [List.Forall]; repeat' constructor
theorem fresh4 : (opsA4 (F := F)).Forall fun op => op.fresh = ∅ := by simp only [List.Forall]; repeat' constructor

theorem tc_unscoped : ∀ b : Ref sig .tc, b.isScoped = false := by
  rintro ⟨sp, i, h⟩; cases sp <;> first | rfl | exact i.elim0

theorem tcRes_held (d : Dev nD) :
    (unscopedBufs d (fun b => m ((SparseCore.T d).loc b)) : sProp 𝕄) = held (SparseCore.T d) (tcRefs τ sig) (V0 m d) := by
  unfold unscopedBufs held tcRefs
  rw [Finset.filter_true_of_mem (fun b _ => by rw [tc_unscoped b]; exact Bool.false_ne_true), bigSep_map]
  rfl

abbrev S5 (t1 i1 t2 i2 o : Ref sig .tc) : Finset (DevRef τ sig) := {r t1, r i1, r t2, r i2, r o}

theorem S5_sub (t1 i1 t2 i2 o : Ref sig .tc) : S5 t1 i1 t2 i2 o ⊆ tcRefs τ sig := fun b hb => by
  simp only [S5, Finset.mem_insert, Finset.mem_singleton] at hb
  rcases hb with rfl | rfl | rfl | rfl | rfl <;> exact StableHlo.devRef_mem_tcRefs _

omit [FloatOps F] in

theorem held_five (d : Dev nD) (W : Valuation τ sig (Elt F)) (t1 i1 t2 i2 o : Ref sig .tc)
    (h1 : r t1 ∉ ({r i1, r t2, r i2, r o} : Finset (DevRef τ sig))) (h2 : r i1 ∉ ({r t2, r i2, r o} : Finset (DevRef τ sig)))
    (h3 : r t2 ∉ ({r i2, r o} : Finset (DevRef τ sig))) (h4 : r i2 ∉ ({r o} : Finset (DevRef τ sig))) :
    (held (SparseCore.T d) (tcRefs τ sig) W : sProp 𝕄)
      = iprop(((tLoc d t1 ↦{fullShare} W (r t1)) ∗ (tLoc d i1 ↦{fullShare} W (r i1)) ∗ (tLoc d t2 ↦{fullShare} W (r t2))
          ∗ (tLoc d i2 ↦{fullShare} W (r i2)) ∗ tLoc d o ↦{fullShare} W (r o)) ∗ held (SparseCore.T d) (tcRefs τ sig \ S5 t1 i1 t2 i2 o) W) := by
  rw [StableHlo.held_sub_split (SparseCore.T d) (S5_sub t1 i1 t2 i2 o) W]
  congr 1
  unfold held S5
  rw [SparseCore.bigSep_insert' h1, SparseCore.bigSep_insert' h2, SparseCore.bigSep_insert' h3, SparseCore.bigSep_insert' h4, bigSep_singleton]

omit [FloatOps F] in

theorem held_five_upd (d : Dev nD) (W : Valuation τ sig (Elt F)) (t1 i1 t2 i2 o : Ref sig .tc) (f : Buf (Elt F) (tLoc d o))
    (h1 : r t1 ∉ ({r i1, r t2, r i2, r o} : Finset (DevRef τ sig))) (h2 : r i1 ∉ ({r t2, r i2, r o} : Finset (DevRef τ sig)))
    (h3 : r t2 ∉ ({r i2, r o} : Finset (DevRef τ sig))) (h4 : r i2 ∉ ({r o} : Finset (DevRef τ sig))) :
    (held (SparseCore.T d) (tcRefs τ sig) (Function.update W (r o) f) : sProp 𝕄)
      = iprop(((tLoc d t1 ↦{fullShare} W (r t1)) ∗ (tLoc d i1 ↦{fullShare} W (r i1)) ∗ (tLoc d t2 ↦{fullShare} W (r t2))
          ∗ (tLoc d i2 ↦{fullShare} W (r i2)) ∗ tLoc d o ↦{fullShare} f) ∗ held (SparseCore.T d) (tcRefs τ sig \ S5 t1 i1 t2 i2 o) W) := by
  have e1 : r t1 ≠ r o := fun e => h1 (by rw [e]; simp)
  have e2 : r i1 ≠ r o := fun e => h2 (by rw [e]; simp)
  have e3 : r t2 ≠ r o := fun e => h3 (by rw [e]; simp)
  have e4 : r i2 ≠ r o := fun e => h4 (by rw [e]; simp)
  rw [held_five d (Function.update W (r o) f) t1 i1 t2 i2 o h1 h2 h3 h4,
    Function.update_of_ne e1, Function.update_of_ne e2, Function.update_of_ne e3, Function.update_of_ne e4, Function.update_self]
  congr 1
  exact StableHlo.held_congr (SparseCore.T d) fun b hb => Function.update_of_ne (fun e => (Finset.mem_sdiff.mp hb).2 (by rw [e]; simp [S5])) _ _

theorem wp_call (κ : GSem nD τ sig → ℕ) (d : Dev nD) (q : Fin 4) (t1 i1 t2 i2 o : Ref sig .tc) (W : Valuation τ sig (Elt F)) (f : Buf (Elt F) (tLoc d o))
    (h1 : r t1 ∉ ({r i1, r t2, r i2, r o} : Finset (DevRef τ sig))) (h2 : r i1 ∉ ({r t2, r i2, r o} : Finset (DevRef τ sig)))
    (h3 : r t2 ∉ ({r i2, r o} : Finset (DevRef τ sig))) (h4 : r i2 ∉ ({r o} : Finset (DevRef τ sig)))
    (hst : iprop(ins d t1 i1 t2 i2 W fullShare ∗ tLoc d o ↦{fullShare} W (r o))
      ⊢ (bigSep Finset.univ fun c : Fin ((K (F := F)).nCore q) => (P m).st q d c : sProp 𝕄))
    (hdn : (bigSep Finset.univ fun c : Fin ((K (F := F)).nCore q) => (P m).dn q d c : sProp 𝕄)
      ⊢ iprop(ins d t1 i1 t2 i2 W fullShare ∗ tLoc d o ↦{fullShare} f))
    {β : Type} (k : PUnit → Prog (TpuEff nD τ sig (Elt F) (SparseCore.Sig (ΛP (F := F)) 4) .tc) β) (Φ : β → sProp 𝕄) :
    iprop((K (F := F)).ctx EH (P m) κ ∗ (K (F := F)).tcSt EH d q.val ∗ held (SparseCore.T d) (tcRefs τ sig) W
        ∗ (((K (F := F)).tcSt EH d (q.val + 1) ∗ held (SparseCore.T d) (tcRefs τ sig) (Function.update W (r o) f))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d q >>= k) Φ := by
  rw [wp_bind, held_five d W t1 i1 t2 i2 o h1 h2 h3 h4, held_five_upd d W t1 i1 t2 i2 o f h1 h2 h3 h4]
  iintro ⟨#Hctx, Hst, ⟨⟨H1, H2, H3, H4, H5⟩, Hrest⟩, Hk⟩
  iapply ((K (F := F)).wp_run (D (F := F)) 𝒱 (EH := EH) (P := P m) κ d q) $$ [Hst H1 H2 H3 H4 H5 Hrest Hk]
  isplitr; · iexact Hctx
  isplitl [Hst]; · iexact Hst
  isplitl [H1 H2 H3 H4 H5]
  · iapply hst
    unfold ins
    isplitr [H5]
    · isplitl [H1]; · iexact H1
      isplitl [H2]; · iexact H2
      isplitl [H3]; · iexact H3
      iexact H4
    · iexact H5
  iintro ⟨Hst, Hdn⟩
  ihave Hpay := hdn $$ Hdn
  unfold ins
  icases Hpay with ⟨⟨H1, H2, H3, H4⟩, H5⟩
  iapply Hk
  isplitl [Hst]; · iexact Hst
  isplitr [Hrest]
  · isplitl [H1]; · iexact H1
    isplitl [H2]; · iexact H2
    isplitl [H3]; · iexact H3
    isplitl [H4]; · iexact H4
    iexact H5
  · iexact Hrest

set_option maxRecDepth 8192 in

theorem part0_eq (d : Dev nD) : main_part0 (F := F) d
    = (StableHlo.seq (opsA0 (F := F)) >>= fun _ => (sc (F := F)).run d 0 >>= fun _ => StableHlo.seq ((opsA1 (F := F)).take 67)) := by
  simp only [main_part0, fn_argsort.body, fn_floor_divide.body, fn_where.body, bind_assoc, pure_bind]
  rfl

set_option maxRecDepth 8192 in

theorem part1_eq (d : Dev nD) : main_part1 (F := F) d
    = (StableHlo.seq ((opsA1 (F := F)).drop 67) >>= fun _ => (sc (F := F)).run d 1 >>= fun _ => StableHlo.seq ((opsA2 (F := F)).take 68)) := by
  simp only [main_part1, fn_var.body, fn_where_0.body, bind_assoc, pure_bind]
  rfl

set_option maxRecDepth 8192 in

theorem part2_eq (d : Dev nD) : main_part2 (F := F) d
    = (StableHlo.seq ((opsA2 (F := F)).drop 68) >>= fun _ => (sc (F := F)).run d 2 >>= fun _ => StableHlo.seq ((opsA3 (F := F)).take 27)) := rfl

set_option maxRecDepth 8192 in

theorem part3_eq (d : Dev nD) : main_part3 (F := F) d
    = (StableHlo.seq ((opsA3 (F := F)).drop 27) >>= fun _ => (sc (F := F)).run d 3 >>= fun _ => StableHlo.seq ((opsA4 (F := F)).take 7)) := by
  simp only [main_part3, fn_var.body, fn_where_0.body, bind_assoc, pure_bind]
  rfl

set_option maxRecDepth 8192 in

theorem part4_eq (d : Dev nD) : main_part4 (F := F) d = StableHlo.seq (((opsA4 (F := F)).drop 7).take 81) := by
  simp only [main_part4, fn_var.body, fn_where_0.body, bind_assoc, pure_bind]
  rfl

set_option maxRecDepth 8192 in

theorem part5_eq (d : Dev nD) : main_part5 (F := F) d = StableHlo.seq ((opsA4 (F := F)).drop 88) := rfl

theorem main_eq (d : Dev nD) : main (F := F) d
    = (StableHlo.seq (opsA0 (F := F)) >>= fun _ => (sc (F := F)).run d 0 >>= fun _ =>
       StableHlo.seq (opsA1 (F := F)) >>= fun _ => (sc (F := F)).run d 1 >>= fun _ =>
       StableHlo.seq (opsA2 (F := F)) >>= fun _ => (sc (F := F)).run d 2 >>= fun _ =>
       StableHlo.seq (opsA3 (F := F)) >>= fun _ => (sc (F := F)).run d 3 >>= fun _ =>
       StableHlo.seq (opsA4 (F := F)) >>= fun _ => pure ⟨⟩) := by
  have h1 : (StableHlo.seq (opsA1 (F := F)) : Prog (TpuEff nD τ sig (Elt F) (SparseCore.Sig (ΛP (F := F)) 4) .tc) PUnit)
      = (StableHlo.seq ((opsA1 (F := F)).take 67) >>= fun _ => StableHlo.seq ((opsA1 (F := F)).drop 67)) := by
    rw [← StableHlo.seq_append, List.take_append_drop]
  have h2 : (StableHlo.seq (opsA2 (F := F)) : Prog (TpuEff nD τ sig (Elt F) (SparseCore.Sig (ΛP (F := F)) 4) .tc) PUnit)
      = (StableHlo.seq ((opsA2 (F := F)).take 68) >>= fun _ => StableHlo.seq ((opsA2 (F := F)).drop 68)) := by
    rw [← StableHlo.seq_append, List.take_append_drop]
  have h3 : (StableHlo.seq (opsA3 (F := F)) : Prog (TpuEff nD τ sig (Elt F) (SparseCore.Sig (ΛP (F := F)) 4) .tc) PUnit)
      = (StableHlo.seq ((opsA3 (F := F)).take 27) >>= fun _ => StableHlo.seq ((opsA3 (F := F)).drop 27)) := by
    rw [← StableHlo.seq_append, List.take_append_drop]
  have h4 : (StableHlo.seq (opsA4 (F := F)) : Prog (TpuEff nD τ sig (Elt F) (SparseCore.Sig (ΛP (F := F)) 4) .tc) PUnit)
      = (StableHlo.seq ((opsA4 (F := F)).take 7) >>= fun _ => StableHlo.seq (((opsA4 (F := F)).drop 7).take 81)
          >>= fun _ => StableHlo.seq ((opsA4 (F := F)).drop 88)) := by
    rw [← StableHlo.seq_append, ← StableHlo.seq_append,
      show (opsA4 (F := F)).drop 88 = ((opsA4 (F := F)).drop 7).drop 81 from by rw [List.drop_drop], List.take_append_drop, List.take_append_drop]
  rw [show main (F := F) d = (main_part0 d >>= fun _ => main_part1 d >>= fun _ => main_part2 d >>= fun _ => main_part3 d >>= fun _ =>
      main_part4 d >>= fun _ => main_part5 d) from rfl,
    part0_eq, part1_eq, part2_eq, part3_eq, part4_eq, part5_eq, h1, h2, h3, h4]
  simp only [bind_assoc, bind_pure_unit]

def FIN (d : Dev nD) : sProp 𝕄 := held (SparseCore.T d) (StableHlo.tcRefs τ sig) (VA4 (V0 m d))

set_option backward.isDefEq.respectTransparency.types false in

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 4 ∗ FIN m d) := by
  unfold SparseCore.Cfg.tcRes FIN VA4
  rw [tcRes_held, main_eq]
  iintro ⟨#Hctx, Hst, ⟨Hb, Hheld, -, -⟩, -⟩

  iapply (StableHlo.wp_seq 𝒱 none Set.univ d (tcRefs τ sig) _ opsA0 (List.forall_iff_forall_mem.1 sub0) (List.forall_iff_forall_mem.1 fresh0) (V0 m d)) $$ [Hb Hheld]
  · isplitl [Hb]; · iexact Hb
    iexact Hheld
  iintro ⟨Hb, Hheld⟩
  iapply (wp_call m κ d 0 main_arg3 main_v3 main_arg4 main_v7 main_v8 (VA0 (V0 m d)) (out0 (V0 m d)) (by decide) (by decide) (by decide) (by decide)
    (st_intro0 m d) (dn_elim0 m d)) $$ [Hst Hheld Hb]
  isplitr; · iexact Hctx
  isplitl [Hst]; · iexact Hst
  isplitl [Hheld]; · iexact Hheld
  iintro ⟨Hst, Hheld⟩

  iapply (StableHlo.wp_seq 𝒱 none Set.univ d (tcRefs τ sig) _ opsA1 (List.forall_iff_forall_mem.1 sub1) (List.forall_iff_forall_mem.1 fresh1) (VB0 (V0 m d))) $$ [Hb Hheld]
  · isplitl [Hb]; · iexact Hb
    iexact Hheld
  iintro ⟨Hb, Hheld⟩
  iapply (wp_call m κ d 1 main_v9 main_v21 main_v60 main_v47 main_v61 (VA1 (V0 m d)) (out1 (V0 m d)) (by decide) (by decide) (by decide) (by decide)
    (st_intro1 m d) (dn_elim1 m d)) $$ [Hst Hheld Hb]
  isplitr; · iexact Hctx
  isplitl [Hst]; · iexact Hst
  isplitl [Hheld]; · iexact Hheld
  iintro ⟨Hst, Hheld⟩

  iapply (StableHlo.wp_seq 𝒱 none Set.univ d (tcRefs τ sig) _ opsA2 (List.forall_iff_forall_mem.1 sub2) (List.forall_iff_forall_mem.1 fresh2) (VB1 (V0 m d))) $$ [Hb Hheld]
  · isplitl [Hb]; · iexact Hb
    iexact Hheld
  iintro ⟨Hb, Hheld⟩
  iapply (wp_call m κ d 2 main_v120 main_v21 main_v133 main_v47 main_v134 (VA2 (V0 m d)) (out2 (V0 m d)) (by decide) (by decide) (by decide) (by decide)
    (st_intro2 m d) (dn_elim2 m d)) $$ [Hst Hheld Hb]
  isplitr; · iexact Hctx
  isplitl [Hst]; · iexact Hst
  isplitl [Hheld]; · iexact Hheld
  iintro ⟨Hst, Hheld⟩

  iapply (StableHlo.wp_seq 𝒱 none Set.univ d (tcRefs τ sig) _ opsA3 (List.forall_iff_forall_mem.1 sub3) (List.forall_iff_forall_mem.1 fresh3) (VB2 (V0 m d))) $$ [Hb Hheld]
  · isplitl [Hb]; · iexact Hb
    iexact Hheld
  iintro ⟨Hb, Hheld⟩
  iapply (wp_call m κ d 3 main_v193 main_v21 main_v206 main_v47 main_v207 (VA3 (V0 m d)) (out3 (V0 m d)) (by decide) (by decide) (by decide) (by decide)
    (st_intro3 m d) (dn_elim3 m d)) $$ [Hst Hheld Hb]
  isplitr; · iexact Hctx
  isplitl [Hst]; · iexact Hst
  isplitl [Hheld]; · iexact Hheld
  iintro ⟨Hst, Hheld⟩

  iapply (StableHlo.wp_seq 𝒱 none Set.univ d (tcRefs τ sig) _ opsA4 (List.forall_iff_forall_mem.1 sub4) (List.forall_iff_forall_mem.1 fresh4) (VB3 (V0 m d))) $$ [Hb Hheld]
  · isplitl [Hb]; · iexact Hb
    iexact Hheld
  iintro ⟨-, Hheld⟩
  rw [wp_pure]; imodintro
  isplitl [Hst]; · iexact Hst
  iexact Hheld

def fq (d : Dev nD) (s' : Phys nD τ sig (Elt F)) : Prop := ∀ b : Ref sig .tc, s'.mem.mem (tLoc d b) = VA4 (V0 m d) (r b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

end Cert.Kernel.Hand

end
-- ==== Proof.KB.Run.lean ====
import proofs.«208129_g65403761983635_cont_9to1_m_1354_7_alg».proof.Proof.KB.Base
import proofs.«208129_g65403761983635_cont_9to1_m_1354_7_alg».proof.Proof.KB.Split
import proofs.«208129_g65403761983635_cont_9to1_m_1354_7_alg».proof.Proof.KB.Tile0
import proofs.«208129_g65403761983635_cont_9to1_m_1354_7_alg».proof.Proof.KB.Tile1
import proofs.«208129_g65403761983635_cont_9to1_m_1354_7_alg».proof.Proof.KB.Tile2
import proofs.«208129_g65403761983635_cont_9to1_m_1354_7_alg».proof.Proof.KB.Tile3
import proofs.«208129_g65403761983635_cont_9to1_m_1354_7_alg».proof.Proof.KB.Main

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 4 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

def QC : PUnit × MemSt nD τ sig (Elt F) → Prop := fun rr => ∀ (c : Dev nD) (b : Ref sig .tc), rr.2.mem (tLoc c b) = VA4 (V0 m c) (r b)

theorem run_main [∀ e, Nonempty (Elt F e)] (hpre : ∀ d, PreOK (V0 m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq | 2 => nomatch hq | 3 => nomatch hq)
    (fun q _ => match q with | 0 => tileObl0 m hpre | 1 => tileObl1 m hpre | 2 => tileObl2 m hpre | 3 => tileObl3 m hpre)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h => h)

end Cert.Kernel.Hand

end
-- ==== Proof.KB.PreOK.lean ====
import proofs.«208129_g65403761983635_cont_9to1_m_1354_7_alg».proof.Proof.KB.Base
import proofs.«208129_g65403761983635_cont_9to1_m_1354_7_alg».proof.Pre_input_domain
import proofs.«208129_g65403761983635_cont_9to1_m_1354_7_alg».proof.Proof.Gen.Pre_input_domain
import Idealize.ShloMosaic.Lib.StableHlo.Predicate
import Idealize.ShloMosaic.Lib.ReduceAll

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

def PreAll : Prop := ∀ c : Dev nD, Cert.Pre_input_domain.fn (F := F) (m (tLoc c main_arg0)) (m (tLoc c main_arg1)) (m (tLoc c main_arg2)) (m (tLoc c main_arg3)) (m (tLoc c main_arg4)) (m (tLoc c main_arg5)) (m (tLoc c main_arg6)) (m (tLoc c main_arg7)) (m (tLoc c main_arg8)) (m (tLoc c main_arg9)) (m (tLoc c main_arg10)) (m (tLoc c main_arg11)) (m (tLoc c main_arg12)) = (fun _ => 1#1)

theorem concat_forall {α : Type} {t : Shape} (a : Fin t.rank) (xs : List ((s : Shape) × (s.Idx → α)))
    (hc : Shape.Concatenates (xs.map (·.1)) t a) (P : α → Prop) (hP : ∀ p ∈ xs, ∀ i, P (p.2 i)) (j : t.Idx) :
    P (concatenate t a xs hc j) := by
  unfold concatenate
  exact hP _ (List.getElem_mem _) _

theorem gather_forall {α : Type} {s si t : Shape} {w : ℕ} (P : α → Prop) (g : GatherDims s si t) (x : s.Idx → α) (idx : IVec si w)
    (hx : ∀ i, P (x i)) (j : t.Idx) : P (Host.gather g x idx j) := hx _

theorem update_keep (W : Valuation τ sig (Elt F)) (o b : Ref sig .tc) (v : (r o).ty.Contents (Elt F)) (hne : b ≠ o) :
    Function.update W (r o) v (r b) = W (r b) :=
  Function.update_of_ne (StableHlo.devRef_ne_of_ne hne) _ _

theorem range_of_cmp (v : BitVec 32) (K : ℕ) (hK : K < 2 ^ 31)
    (e : IntOp.andi (IntOp.cmpi .sge v 0#32) (IntOp.cmpi .sle v (BitVec.ofNat 32 K)) = 1#1) : v.toNat ≤ K := by
  obtain ⟨h0, h1⟩ := IntOp.andi_eq_one.1 e
  unfold IntOp.cmpi at h0 h1
  simp only [StableHlo.Predicate.ofBool_eq_one_iff, BitVec.sle, decide_eq_true_eq] at h0 h1
  rw [StableHlo.Predicate.toInt_ofNat_small K hK] at h1
  rw [show (0#32 : BitVec 32).toInt = 0 from by decide] at h0
  rw [BitVec.toInt_eq_toNat_cond] at h0 h1
  split at h0 <;> omega

theorem word_affine (x c y : BitVec 32) (C A B : ℕ) (hc : c = BitVec.ofNat 32 C) (hx : x.toNat ≤ A) (hy : y.toNat ≤ B)
    (hC : C < 2 ^ 32) (hlt : A * C + B < 2 ^ 32) : (IntOp.addi (IntOp.muli x c) y).toNat ≤ A * C + B := by
  subst hc
  have h1 : x.toNat * C ≤ A * C := Nat.mul_le_mul_right C hx
  show (x * BitVec.ofNat 32 C + y).toNat ≤ _
  rw [BitVec.toNat_add, BitVec.toNat_mul, BitVec.toNat_ofNat, Nat.mod_eq_of_lt hC]
  generalize x.toNat * C = p at h1
  generalize A * C = M at h1 hlt
  rw [Nat.mod_eq_of_lt (show p < 2 ^ 32 by omega), Nat.mod_eq_of_lt (by omega)]
  omega

theorem vec_affine {s : Shape} (a c g : IVec s 32) (j : s.Idx) (C A B : ℕ) (ha : (a j).toNat ≤ A) (hc : c j = BitVec.ofNat 32 C)
    (hg : (g j).toNat ≤ B) (hC : C < 2 ^ 32) (hlt : A * C + B < 2 ^ 32) : ((addi (muli a c) g) j).toNat ≤ A * C + B :=
  word_affine (a j) (c j) (g j) C A B hc ha hg hC hlt

theorem divsi_tenk (w : BitVec 32) (hw : w.toNat < 2 ^ 31) : (IntOp.divsi .host w 10000#32).toNat = w.toNat / 10000 := by
  have hcorner : ¬ IntOp.SDivCorner w 10000#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (10000#32 : BitVec 32).msb = false from by decide,
    BitVec.udiv_eq, BitVec.toNat_udiv, BitVec.toNat_ofNat]

theorem floordiv_at (j : S320000.Idx) :
    ((select
        (andi
          (cmpi .ne (signi (iotaInDim S320000 32 0)) (broadcastInDim S320000 ![] bcast_S_S320000 (signi (constantI S_ 32 10000#32))))
          (cmpi .ne (Host.remsi (iotaInDim S320000 32 0) (broadcastInDim S320000 ![] bcast_S_S320000 (constantI S_ 32 10000#32)))
            (broadcastInDim S320000 ![] bcast_S_S320000 (constantI S_ 32 0#32))))
        (subi (Host.divsi (iotaInDim S320000 32 0) (broadcastInDim S320000 ![] bcast_S_S320000 (constantI S_ 32 10000#32)))
          (broadcastInDim S320000 ![] bcast_S_S320000 (constantI S_ 32 1#32)))
        (Host.divsi (iotaInDim S320000 32 0) (broadcastInDim S320000 ![] bcast_S_S320000 (constantI S_ 32 10000#32))) : IVec S320000 32) j).toNat
      ≤ 31 := by
  have hj : (j 0).val < 320000 := (j 0).isLt
  generalize hw : BitVec.ofNat 32 (j 0).val = w
  have hwn : w.toNat = (j 0).val := by rw [← hw, BitVec.toNat_ofNat]; exact Nat.mod_eq_of_lt (by omega)
  have hwl : w.toNat < 2 ^ 31 := by omega
  have hq := divsi_tenk w hwl
  have hm : w.msb = false := BitVec.msb_eq_false_iff_two_mul_lt.mpr (by omega)
  show (Scalar.select
      (IntOp.andi
        (IntOp.cmpi .ne (if BitVec.ofNat 32 (j 0).val = 0 then 0 else if (BitVec.ofNat 32 (j 0).val).msb then -1 else 1)
          (if (10000#32 : BitVec 32) = 0 then 0 else if (10000#32 : BitVec 32).msb then -1 else 1))
        (IntOp.cmpi .ne (IntOp.remsi .host (BitVec.ofNat 32 (j 0).val) 10000#32) 0#32))
      (IntOp.subi (IntOp.divsi .host (BitVec.ofNat 32 (j 0).val) 10000#32) 1#32)
      (IntOp.divsi .host (BitVec.ofNat 32 (j 0).val) 10000#32)).toNat ≤ 31
  rw [hw]
  have hc : IntOp.andi
        (IntOp.cmpi .ne (if w = 0 then (0 : BitVec 32) else if w.msb then -1 else 1)
          (if (10000#32 : BitVec 32) = 0 then (0 : BitVec 32) else if (10000#32 : BitVec 32).msb then -1 else 1))
        (IntOp.cmpi .ne (IntOp.remsi .host w 10000#32) 0#32) = 0#1 := by
    by_cases h0 : w = 0
    · subst h0; decide
    · rw [if_neg h0, hm]
      have : IntOp.cmpi .ne (if false = true then (-1 : BitVec 32) else 1)
          (if (10000#32 : BitVec 32) = 0 then (0 : BitVec 32) else if (10000#32 : BitVec 32).msb then -1 else 1) = 0#1 := by decide
      rw [this]
      generalize IntOp.cmpi .ne (IntOp.remsi .host w 10000#32) 0#32 = b
      revert b; decide
  rw [hc]
  show (IntOp.divsi .host w 10000#32).toNat ≤ 31
  rw [hq]; omega

instance subsingleton_scalar_idx : Subsingleton Cert.Pre_input_domain.S_.Idx := ⟨fun _ _ => funext fun a => a.elim0⟩

theorem ranges_of_pre (h : PreAll m) (d : Dev nD) :
    (∀ j : S10000x2.Idx, ((V0 m d (r main_arg0) : Vec F S10000x2 .i32) j).toNat ≤ 3)
    ∧ (∀ j : S2x320000.Idx, ((V0 m d (r main_arg1) : Vec F S2x320000 .i32) j).toNat ≤ 9999)
    ∧ (∀ j : S320000x2.Idx, ((V0 m d (r main_arg2) : Vec F S320000x2 .i32) j).toNat ≤ 2) := by
  have e := congrFun (h d) ValueIdx.ix0
  dsimp only [Cert.Pre_input_domain.fn, Cert.Pre_input_domain.fn_part1, Cert.Pre_input_domain.fn_part2,
    Cert.Pre_input_domain.fn_part3, Cert.Pre_input_domain.fn_part4, andi] at e
  obtain ⟨e, e2⟩ := IntOp.andi_eq_one.1 e
  obtain ⟨e, e1⟩ := IntOp.andi_eq_one.1 e
  obtain ⟨-, e0⟩ := IntOp.andi_eq_one.1 e
  refine ⟨fun j => ?_, fun j => ?_, fun j => ?_⟩
  · exact range_of_cmp _ 3 (by norm_num) (Host.reduce_andi_all _ _ _ _ _ e0 j)
  · exact range_of_cmp _ 9999 (by norm_num) (Host.reduce_andi_all _ _ _ _ _ e1 j)
  · exact range_of_cmp _ 2 (by norm_num) (Host.reduce_andi_all _ _ _ _ _ e2 j)

theorem a0_v3 (W : Valuation τ sig (Elt F)) (n : ℕ) (hn : 0 < n) (hx : ∀ i, ((W (r main_arg0) : IVec S10000x2 32) i).toNat < n)
    (j : S10240.Idx) : ((after opsA0 W (r main_v3) : Vec F S10240 .i32) j).toNat < n := by
  revert j
  dsimp only [opsA0]
  after_results
  intro j
  refine concat_forall (P := fun w : BitVec 32 => w.toNat < n) _ _ _ ?_ j
  intro p hp
  simp only [List.mem_cons, List.not_mem_nil, or_false] at hp
  rcases hp with rfl | rfl
  · intro i; exact hx _
  · intro i; exact hn

theorem a0_v7 (W : Valuation τ sig (Elt F)) (n : ℕ) (hn : 0 < n) (hx : ∀ i, ((W (r main_arg0) : IVec S10000x2 32) i).toNat < n)
    (j : S10240.Idx) : ((after opsA0 W (r main_v7) : Vec F S10240 .i32) j).toNat < n := by
  revert j
  dsimp only [opsA0]
  after_results
  intro j
  refine concat_forall (P := fun w : BitVec 32 => w.toNat < n) _ _ _ ?_ j
  intro p hp
  simp only [List.mem_cons, List.not_mem_nil, or_false] at hp
  rcases hp with rfl | rfl
  · intro i; exact hx _
  · intro i; exact hn

theorem a0_keep (W : Valuation τ sig (Elt F)) :
    after opsA0 W (r main_arg1) = W (r main_arg1) ∧ after opsA0 W (r main_arg2) = W (r main_arg2) := by
  dsimp only [opsA0]
  constructor <;> after_results

set_option maxHeartbeats 2000000 in

theorem a1_v21 (W : Valuation τ sig (Elt F)) (n : ℕ) (hx : ∀ i, ((W (r main_arg1) : IVec S2x320000 32) i).toNat < n)
    (j : S320000.Idx) : ((after opsA1 W (r main_v21) : Vec F S320000 .i32) j).toNat < n := by
  revert j
  dsimp only [opsA1]
  after_results_simp
  intro j
  refine gather_forall (fun w : BitVec 32 => w.toNat < n) _ _ _ ?_ j
  intro i
  exact hx _

set_option maxHeartbeats 2000000 in

theorem a1_v47 (W : Valuation τ sig (Elt F)) (hx : ∀ i, ((W (r main_arg2) : IVec S320000x2 32) i).toNat ≤ 2)
    (j : S320000.Idx) : ((after opsA1 W (r main_v47) : Vec F S320000 .i32) j).toNat < 576 := by
  revert j
  dsimp only [opsA1]
  after_results_simp
  intro j
  refine lt_of_le_of_lt (vec_affine _ _ _ j 18 31 8 ?_ rfl ?_ (by norm_num) (by norm_num)) (by norm_num)
  · exact floordiv_at j
  · refine gather_forall (fun w : BitVec 32 => w.toNat ≤ 8) _ _ _ ?_ j
    intro i
    exact le_trans (vec_affine _ _ _ i 3 2 2 (hx _) rfl (hx _) (by norm_num) (by norm_num)) (by norm_num)

set_option maxHeartbeats 2000000 in

theorem a2_keep (W : Valuation τ sig (Elt F)) :
    after opsA2 W (r main_v21) = W (r main_v21) ∧ after opsA2 W (r main_v47) = W (r main_v47) := by
  dsimp only [opsA2]
  constructor <;> after_results_simp

set_option maxHeartbeats 2000000 in

theorem a3_keep (W : Valuation τ sig (Elt F)) :
    after opsA3 W (r main_v21) = W (r main_v21) ∧ after opsA3 W (r main_v47) = W (r main_v47) := by
  dsimp only [opsA3]
  constructor <;> after_results_simp

theorem ok_of_pre (h : PreAll m) (d : Dev nD) : PreOK (V0 m d) := by
  obtain ⟨h0, h1, h2⟩ := ranges_of_pre m h d
  have k0 := a0_keep (V0 m d)
  have b1 : ∀ i, ((VB0 (V0 m d) (r main_arg1) : IVec S2x320000 32) i).toNat < 10000 := by
    intro i
    have e : VB0 (V0 m d) (r main_arg1) = V0 m d (r main_arg1) := by
      unfold VB0; rw [update_keep _ _ _ _ (by decide)]; exact k0.1
    rw [e]; have := h1 i; omega
  have b2 : ∀ i, ((VB0 (V0 m d) (r main_arg2) : IVec S320000x2 32) i).toNat ≤ 2 := by
    intro i
    have e : VB0 (V0 m d) (r main_arg2) = V0 m d (r main_arg2) := by
      unfold VB0; rw [update_keep _ _ _ _ (by decide)]; exact k0.2
    rw [e]; exact h2 i
  have q1a : ∀ j : S320000.Idx, ((VA1 (V0 m d) (r main_v21) : Vec F S320000 .i32) j).toNat < 10000 :=
    fun j => a1_v21 (VB0 (V0 m d)) 10000 b1 j
  have q1b : ∀ j : S320000.Idx, ((VA1 (V0 m d) (r main_v47) : Vec F S320000 .i32) j).toNat < 576 :=
    fun j => a1_v47 (VB0 (V0 m d)) b2 j
  have e2a : VA2 (V0 m d) (r main_v21) = VA1 (V0 m d) (r main_v21) := by
    unfold VA2; rw [(a2_keep _).1]; unfold VB1; exact update_keep _ _ _ _ (by decide)
  have e2b : VA2 (V0 m d) (r main_v47) = VA1 (V0 m d) (r main_v47) := by
    unfold VA2; rw [(a2_keep _).2]; unfold VB1; exact update_keep _ _ _ _ (by decide)
  have e3a : VA3 (V0 m d) (r main_v21) = VA1 (V0 m d) (r main_v21) := by
    unfold VA3; rw [(a3_keep _).1]; unfold VB2; rw [update_keep _ _ _ _ (by decide)]; exact e2a
  have e3b : VA3 (V0 m d) (r main_v47) = VA1 (V0 m d) (r main_v47) := by
    unfold VA3; rw [(a3_keep _).2]; unfold VB2; rw [update_keep _ _ _ _ (by decide)]; exact e2b
  exact
    { h0a := fun j => a0_v3 (V0 m d) 119 (by norm_num) (fun i => by have := h0 i; omega) j
      h0b := fun j => a0_v7 (V0 m d) 4 (by norm_num) (fun i => by have := h0 i; omega) j
      h1a := q1a
      h1b := q1b
      h2a := fun j => by rw [e2a]; exact q1a j
      h2b := fun j => by rw [e2b]; exact q1b j
      h3a := fun j => by rw [e3a]; exact q1a j
      h3b := fun j => by rw [e3b]; exact q1b j }

end Cert.Kernel.Hand

end
-- ==== Proof.KB.Kept.lean ====
import proofs.«208129_g65403761983635_cont_9to1_m_1354_7_alg».proof.Proof.KB.Base

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 4) (Elt F) ℕ UU ℕ

variable (m : (ℓ : Loc nD τ sig) → Buf (Elt F) ℓ) (ρ : Dev nD → PrngReg)

open Idealize.ShloMosaic.StableHlo in

abbrev mainArgs : List (Ref sig .tc) :=
  [main_arg0, main_arg1, main_arg2, main_arg3, main_arg4, main_arg5, main_arg6, main_arg7, main_arg8, main_arg9,
    main_arg10, main_arg11, main_arg12]

omit [FloatOps F] in

theorem args_ne {y : Ref sig .tc} (h : y ∉ mainArgs) :
    ∀ b ∈ mainArgs, ¬ (Proc.devRef .tc b : DevRef τ sig) = Proc.devRef .tc y :=
  fun _ hb e => h (Proc.devRef_injective _ e ▸ hb)

open Idealize.ShloMosaic.StableHlo in

local macro "stretch_keeps" : tactic =>
  `(tactic| (simp only [List.Forall, nullary_writes, unary_writes, binary_writes, ternary_writes, reshape_writes,
               Finset.mem_singleton]
             repeat' apply And.intro
             all_goals exact args_ne (by decide)))

set_option maxRecDepth 8192 in
theorem a0_keeps : (opsA0 : List (HloOp τ sig (Elt F))).Forall fun op => ∀ b ∈ mainArgs, (r b : DevRef τ sig) ∉ op.writes := by stretch_keeps
set_option maxRecDepth 8192 in
theorem a1_keeps : (opsA1 : List (HloOp τ sig (Elt F))).Forall fun op => ∀ b ∈ mainArgs, (r b : DevRef τ sig) ∉ op.writes := by stretch_keeps
set_option maxRecDepth 8192 in
theorem a2_keeps : (opsA2 : List (HloOp τ sig (Elt F))).Forall fun op => ∀ b ∈ mainArgs, (r b : DevRef τ sig) ∉ op.writes := by stretch_keeps
set_option maxRecDepth 8192 in
theorem a3_keeps : (opsA3 : List (HloOp τ sig (Elt F))).Forall fun op => ∀ b ∈ mainArgs, (r b : DevRef τ sig) ∉ op.writes := by stretch_keeps
set_option maxRecDepth 8192 in
theorem a4_keeps : (opsA4 : List (HloOp τ sig (Elt F))).Forall fun op => ∀ b ∈ mainArgs, (r b : DevRef τ sig) ∉ op.writes := by stretch_keeps

theorem stretch_kept {ops : List (HloOp τ sig (Elt F))}
    (h : ops.Forall fun op => ∀ b ∈ mainArgs, (r b : DevRef τ sig) ∉ op.writes)
    (W : Valuation τ sig (Elt F)) (b : Ref sig .tc) (hb : b ∈ mainArgs) : after ops W (r b) = W (r b) :=
  StableHlo.after_of_forall_not_mem ops W fun op hop => List.forall_iff_forall_mem.mp h op hop b hb

omit [FloatOps F] in

theorem update_kept (W : Valuation τ sig (Elt F)) (o : Ref sig .tc) (ho : o ∉ mainArgs) (f : (r o).ty.Contents (Elt F))
    (b : Ref sig .tc) (hb : b ∈ mainArgs) : Function.update W (r o) f (r b) = W (r b) :=
  Function.update_of_ne (args_ne ho b hb) _ _

theorem arg_kept (W : Valuation τ sig (Elt F)) (b : Ref sig .tc) (hb : b ∈ mainArgs) : VA4 W (r b) = W (r b) := by
  unfold VA4 VB3 VA3 VB2 VA2 VB1 VA1 VB0 VA0
  rw [stretch_kept a4_keeps _ b hb, update_kept _ main_v207 (by decide) _ b hb,
    stretch_kept a3_keeps _ b hb, update_kept _ main_v134 (by decide) _ b hb,
    stretch_kept a2_keeps _ b hb, update_kept _ main_v61 (by decide) _ b hb,
    stretch_kept a1_keeps _ b hb, update_kept _ main_v8 (by decide) _ b hb,
    stretch_kept a0_keeps _ b hb]

end Cert.Kernel.Hand

end
-- ==== Proof.Ref.Ops.lean ====
import proofs.«208129_g65403761983635_cont_9to1_m_1354_7_alg».proof.ReferenceIdeal
import proofs.«208129_g65403761983635_cont_9to1_m_1354_7_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsA0_w0 : List (HloOp τ sig (Elt F)) :=
  [ StableHlo.unary main_arg0 main_v0 (extractStridedSlice S10000x1 ![0, 0] · slices_S10000x2_S10000x1_0_0),
    StableHlo.reshape main_v0 main_v1 rfl shapeCasts_S10000x1_S10000,
    StableHlo.nullary main_c (constantI S_ 32 0#32),
    StableHlo.unary main_c main_v2 (broadcastInDim S10000 ![] bcast_S_S10000),
    StableHlo.binary main_v1 main_v2 main_v3 (cmpi .slt),
    StableHlo.nullary main_c_0 (constantI S_ 32 119#32),
    StableHlo.unary main_c_0 main_v4 (broadcastInDim S10000 ![] bcast_S_S10000),
    StableHlo.binary main_v1 main_v4 main_v5 addi,
    StableHlo.ternary main_v3 main_v5 main_v1 main_v6 select,
    StableHlo.unary main_v6 main_v7 (broadcastInDim S10000x1 ![0] bcast_S10000_S10000x1_0),
    StableHlo.binary main_arg3 main_v7 main_v8 (fun x i => Host.gather gather_S119x128_S10000x1_S10000x128_1_0_n_n_0_1_1128 x i),
    StableHlo.unary main_arg0 main_v9 (extractStridedSlice S10000x1 ![0, 1] · slices_S10000x2_S10000x1_0_1),
    StableHlo.reshape main_v9 main_v10 rfl shapeCasts_S10000x1_S10000,
    StableHlo.nullary main_c_1 (constantI S_ 32 0#32),
    StableHlo.unary main_c_1 main_v11 (broadcastInDim S10000 ![] bcast_S_S10000),
    StableHlo.binary main_v10 main_v11 main_v12 (cmpi .slt),
    StableHlo.nullary main_c_2 (constantI S_ 32 4#32),
    StableHlo.unary main_c_2 main_v13 (broadcastInDim S10000 ![] bcast_S_S10000),
    StableHlo.binary main_v10 main_v13 main_v14 addi,
    StableHlo.ternary main_v12 main_v14 main_v10 main_v15 select,
    StableHlo.unary main_v15 main_v16 (broadcastInDim S10000x1 ![0] bcast_S10000_S10000x1_0),
    StableHlo.binary main_arg4 main_v16 main_v17 (fun x i => Host.gather gather_S4x128_S10000x1_S10000x128_1_0_n_n_0_1_1128 x i),
    StableHlo.binary main_v8 main_v17 main_v18 addf,
    StableHlo.unary main_arg1 main_v19 (extractStridedSlice S1x320000 ![0, 0] · slices_S2x320000_S1x320000_0_0),
    StableHlo.reshape main_v19 main_v20 rfl shapeCasts_S1x320000_S320000,
    StableHlo.unary main_arg1 main_v21 (extractStridedSlice S1x320000 ![1, 0] · slices_S2x320000_S1x320000_1_0),
    StableHlo.reshape main_v21 main_v22 rfl shapeCasts_S1x320000_S320000,
    StableHlo.unary main_arg5 main_v23 (extractStridedSlice S1x6x128 ![0, 0, 0] · slices_S3x6x128_S1x6x128_0_0_0),
    StableHlo.reshape main_v23 main_v24 rfl shapeCasts_S1x6x128_S6x128,
    StableHlo.unary main_arg2 main_v25 (extractStridedSlice S320000x1 ![0, 0] · slices_S320000x2_S320000x1_0_0),
    StableHlo.reshape main_v25 main_v26 rfl shapeCasts_S320000x1_S320000,
    StableHlo.nullary main_c_3 (constantI S_ 32 0#32),
    StableHlo.unary main_c_3 main_v27 (broadcastInDim S320000 ![] bcast_S_S320000),
    StableHlo.binary main_v26 main_v27 main_v28 (cmpi .slt),
    StableHlo.nullary main_c_4 (constantI S_ 32 6#32),
    StableHlo.unary main_c_4 main_v29 (broadcastInDim S320000 ![] bcast_S_S320000),
    StableHlo.binary main_v26 main_v29 main_v30 addi,
    StableHlo.ternary main_v28 main_v30 main_v26 main_v31 select,
    StableHlo.unary main_v31 main_v32 (broadcastInDim S320000x1 ![0] bcast_S320000_S320000x1_0),
    StableHlo.binary main_v24 main_v32 main_v33 (fun x i => Host.gather gather_S6x128_S320000x1_S320000x128_1_0_n_n_0_1_1128 x i),
    StableHlo.unary main_arg6 main_v34 (extractStridedSlice S1x3x128 ![0, 0, 0] · slices_S3x3x128_S1x3x128_0_0_0),
    StableHlo.reshape main_v34 main_v35 rfl shapeCasts_S1x3x128_S3x128,
    StableHlo.unary main_arg2 main_v36 (extractStridedSlice S320000x1 ![0, 1] · slices_S320000x2_S320000x1_0_1),
    StableHlo.reshape main_v36 main_v37 rfl shapeCasts_S320000x1_S320000,
    StableHlo.nullary main_c_5 (constantI S_ 32 0#32),
    StableHlo.unary main_c_5 main_v38 (broadcastInDim S320000 ![] bcast_S_S320000),
    StableHlo.binary main_v37 main_v38 main_v39 (cmpi .slt),
    StableHlo.nullary main_c_6 (constantI S_ 32 3#32),
    StableHlo.unary main_c_6 main_v40 (broadcastInDim S320000 ![] bcast_S_S320000),
    StableHlo.binary main_v37 main_v40 main_v41 addi,
    StableHlo.ternary main_v39 main_v41 main_v37 main_v42 select,
    StableHlo.unary main_v42 main_v43 (broadcastInDim S320000x1 ![0] bcast_S320000_S320000x1_0),
    StableHlo.binary main_v35 main_v43 main_v44 (fun x i => Host.gather gather_S3x128_S320000x1_S320000x128_1_0_n_n_0_1_1128 x i),
    StableHlo.binary main_v33 main_v44 main_v45 addf,
    StableHlo.nullary main_c_7 (constantI S_ 32 0#32),
    StableHlo.unary main_c_7 main_v46 (broadcastInDim S320000 ![] bcast_S_S320000),
    StableHlo.binary main_v20 main_v46 main_v47 (cmpi .slt),
    StableHlo.nullary main_c_8 (constantI S_ 32 10000#32),
    StableHlo.unary main_c_8 main_v48 (broadcastInDim S320000 ![] bcast_S_S320000),
    StableHlo.binary main_v20 main_v48 main_v49 addi ]

abbrev opsA0_w1 : List (HloOp τ sig (Elt F)) :=
  [ StableHlo.ternary main_v47 main_v49 main_v20 main_v50 select,
    StableHlo.unary main_v50 main_v51 (broadcastInDim S320000x1 ![0] bcast_S320000_S320000x1_0),
    StableHlo.binary main_v18 main_v51 main_v52 (fun x i => Host.gather gather_S10000x128_S320000x1_S320000x128_1_0_n_n_0_1_1128 x i),
    StableHlo.binary main_v52 main_v45 main_v53 addf,
    StableHlo.nullary main_cst (constant S_ .f32 0x00000000#32),
    StableHlo.unary main_cst main_v54 (broadcastInDim S10000x128 ![] bcast_S_S10000x128),
    StableHlo.unary main_v22 main_v55 (broadcastInDim S320000x1 ![0] bcast_S320000_S320000x1_0),
    StableHlo.ternary main_v54 main_v55 main_v53 main_v56 (fun x i u => Host.scatterAdd scatter_S10000x128_S320000x1_S320000x128_1_0_0_1 x i u),
    StableHlo.unary main_arg5 main_v57 (extractStridedSlice S1x6x128 ![0, 0, 0] · slices_S3x6x128_S1x6x128_0_0_0),
    StableHlo.reshape main_v57 main_v58 rfl shapeCasts_S1x6x128_S6x128,
    StableHlo.unary main_v58 main_v59 (extractStridedSlice S1x128 ![4, 0] · slices_S6x128_S1x128_4_0),
    StableHlo.reshape main_v59 main_v60 rfl shapeCasts_S1x128_S128,
    StableHlo.unary main_arg6 main_v61 (extractStridedSlice S1x3x128 ![0, 0, 0] · slices_S3x3x128_S1x3x128_0_0_0),
    StableHlo.reshape main_v61 main_v62 rfl shapeCasts_S1x3x128_S3x128,
    StableHlo.unary main_v62 main_v63 (extractStridedSlice S1x128 ![0, 0] · slices_S3x128_S1x128_0_0),
    StableHlo.reshape main_v63 main_v64 rfl shapeCasts_S1x128_S128,
    StableHlo.binary main_v60 main_v64 main_v65 addf,
    StableHlo.binary main_v56 main_v18 main_v66 addf,
    StableHlo.unary main_v65 main_v67 (broadcastInDim S1x128 ![1] bcast_S128_S1x128_1),
    StableHlo.unary main_v67 main_v68 (broadcastInDim S10000x128 ![0, 1] bcast_S1x128_S10000x128_0_1),
    StableHlo.binary main_v66 main_v68 main_v69 addf,
    StableHlo.unary main_arg7 main_v70 (extractStridedSlice S1x128x256 ![0, 0, 0] · slices_S3x128x256_S1x128x256_0_0_0),
    StableHlo.reshape main_v70 main_v71 rfl shapeCasts_S1x128x256_S128x256,
    StableHlo.binary main_v69 main_v71 main_v72 (fun l r => Host.dotGeneral dot_S10000x128_S128x256_S10000x256_1_0_0_1_n_n none l r),
    StableHlo.unary main_arg8 main_v73 (extractStridedSlice S1x256 ![0, 0] · slices_S3x256_S1x256_0_0),
    StableHlo.reshape main_v73 main_v74 rfl shapeCasts_S1x256_S256,
    StableHlo.unary main_v74 main_v75 (broadcastInDim S1x256 ![1] bcast_S256_S1x256_1),
    StableHlo.unary main_v75 main_v76 (broadcastInDim S10000x256 ![0, 1] bcast_S1x256_S10000x256_0_1),
    StableHlo.binary main_v72 main_v76 main_v77 addf,
    StableHlo.nullary main_cst_9 (constant S_ .f32 0x00000000#32),
    StableHlo.unary main_cst_9 main_v78 (broadcastInDim S10000x256 ![] bcast_S_S10000x256),
    StableHlo.binary main_v77 main_v78 main_v79 maximumf,
    StableHlo.unary main_arg9 main_v80 (extractStridedSlice S1x256x128 ![0, 0, 0] · slices_S3x256x128_S1x256x128_0_0_0),
    StableHlo.reshape main_v80 main_v81 rfl shapeCasts_S1x256x128_S256x128,
    StableHlo.binary main_v79 main_v81 main_v82 (fun l r => Host.dotGeneral dot_S10000x256_S256x128_S10000x128_1_0_0_1_n_n none l r),
    StableHlo.unary main_arg10 main_v83 (extractStridedSlice S1x128 ![0, 0] · slices_S3x128_S1x128_0_0),
    StableHlo.reshape main_v83 main_v84 rfl shapeCasts_S1x128_S128,
    StableHlo.unary main_v84 main_v85 (broadcastInDim S1x128 ![1] bcast_S128_S1x128_1),
    StableHlo.unary main_v85 main_v86 (broadcastInDim S10000x128 ![0, 1] bcast_S1x128_S10000x128_0_1),
    StableHlo.binary main_v82 main_v86 main_v87 addf,
    StableHlo.nullary main_cst_10 (constant S_ .f32 0x00000000#32),
    StableHlo.binary main_v87 main_cst_10 main_v88 (fun x v => Host.reduceAdd x v reducesTo_S10000x128_S128_d0 h_S_),
    StableHlo.nullary main_cst_11 (constant S_ .f32 0x461C4000#32),
    StableHlo.unary main_cst_11 main_v89 (broadcastInDim S128 ![] bcast_S_S128),
    StableHlo.binary main_v88 main_v89 main_v90 Host.divf,
    StableHlo.nullary main_c_12 (constantI S_ 32 0#32),
    StableHlo.TRef.nullary main_call0.cst (constant S_ .f32 0x00000000#32),
    StableHlo.TRef.binary (.of main_v87) main_call0.cst main_call0.v0 (fun x v => Host.reduceAdd x v reducesTo_S10000x128_S128_d0 h_S_),
    StableHlo.TRef.unary main_call0.v0 main_call0.v1 (broadcastInDim S1x128 ![1] bcast_S128_S1x128_1),
    StableHlo.TRef.nullary main_call0.cst_0 (constant S_ .f32 0x461C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S10000x128 ![0, 1] bcast_S1x128_S10000x128_0_1),
    StableHlo.TRef.binary (.of main_v87) main_call0.v4 main_call0.v5 subf,
    StableHlo.TRef.binary main_call0.v5 main_call0.v5 main_call0.v6 mulf,
    StableHlo.TRef.unary (.of main_c_12) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v90 main_v92 (broadcastInDim S1x128 ![1] bcast_S128_S1x128_1),
    StableHlo.unary main_v92 main_v93 (broadcastInDim S10000x128 ![0, 1] bcast_S1x128_S10000x128_0_1),
    StableHlo.binary main_v87 main_v93 main_v94 subf,
    StableHlo.nullary main_cst_13 (constant S_ .f32 0x3727C5AC#32),
    StableHlo.unary main_cst_13 main_v95 (broadcastInDim S128 ![] bcast_S_S128),
    StableHlo.binary main_v91 main_v95 main_v96 addf,
    StableHlo.unary main_v96 main_v97 Host.sqrt,
    StableHlo.unary main_v97 main_v98 (broadcastInDim S1x128 ![1] bcast_S128_S1x128_1),
    StableHlo.unary main_v98 main_v99 (broadcastInDim S10000x128 ![0, 1] bcast_S1x128_S10000x128_0_1),
    StableHlo.binary main_v94 main_v99 main_v100 Host.divf,
    StableHlo.unary main_arg11 main_v101 (extractStridedSlice S1x128 ![0, 0] · slices_S3x128_S1x128_0_0),
    StableHlo.reshape main_v101 main_v102 rfl shapeCasts_S1x128_S128,
    StableHlo.unary main_v102 main_v103 (broadcastInDim S1x128 ![1] bcast_S128_S1x128_1) ]

abbrev opsA0_w2 : List (HloOp τ sig (Elt F)) :=
  [ StableHlo.unary main_v103 main_v104 (broadcastInDim S10000x128 ![0, 1] bcast_S1x128_S10000x128_0_1),
    StableHlo.binary main_v100 main_v104 main_v105 mulf,
    StableHlo.unary main_arg12 main_v106 (extractStridedSlice S1x128 ![0, 0] · slices_S3x128_S1x128_0_0),
    StableHlo.reshape main_v106 main_v107 rfl shapeCasts_S1x128_S128,
    StableHlo.unary main_v107 main_v108 (broadcastInDim S1x128 ![1] bcast_S128_S1x128_1),
    StableHlo.unary main_v108 main_v109 (broadcastInDim S10000x128 ![0, 1] bcast_S1x128_S10000x128_0_1),
    StableHlo.binary main_v105 main_v109 main_v110 addf,
    StableHlo.nullary main_cst_14 (constant S_ .f32 0x00000000#32),
    StableHlo.unary main_cst_14 main_v111 (broadcastInDim S10000x128 ![] bcast_S_S10000x128),
    StableHlo.binary main_v110 main_v111 main_v112 maximumf,
    StableHlo.unary main_arg5 main_v113 (extractStridedSlice S1x6x128 ![1, 0, 0] · slices_S3x6x128_S1x6x128_1_0_0),
    StableHlo.reshape main_v113 main_v114 rfl shapeCasts_S1x6x128_S6x128,
    StableHlo.unary main_arg2 main_v115 (extractStridedSlice S320000x1 ![0, 0] · slices_S320000x2_S320000x1_0_0),
    StableHlo.reshape main_v115 main_v116 rfl shapeCasts_S320000x1_S320000,
    StableHlo.nullary main_c_15 (constantI S_ 32 0#32),
    StableHlo.unary main_c_15 main_v117 (broadcastInDim S320000 ![] bcast_S_S320000),
    StableHlo.binary main_v116 main_v117 main_v118 (cmpi .slt),
    StableHlo.nullary main_c_16 (constantI S_ 32 6#32),
    StableHlo.unary main_c_16 main_v119 (broadcastInDim S320000 ![] bcast_S_S320000),
    StableHlo.binary main_v116 main_v119 main_v120 addi,
    StableHlo.ternary main_v118 main_v120 main_v116 main_v121 select,
    StableHlo.unary main_v121 main_v122 (broadcastInDim S320000x1 ![0] bcast_S320000_S320000x1_0),
    StableHlo.binary main_v114 main_v122 main_v123 (fun x i => Host.gather gather_S6x128_S320000x1_S320000x128_1_0_n_n_0_1_1128 x i),
    StableHlo.unary main_arg6 main_v124 (extractStridedSlice S1x3x128 ![1, 0, 0] · slices_S3x3x128_S1x3x128_1_0_0),
    StableHlo.reshape main_v124 main_v125 rfl shapeCasts_S1x3x128_S3x128,
    StableHlo.unary main_arg2 main_v126 (extractStridedSlice S320000x1 ![0, 1] · slices_S320000x2_S320000x1_0_1),
    StableHlo.reshape main_v126 main_v127 rfl shapeCasts_S320000x1_S320000,
    StableHlo.nullary main_c_17 (constantI S_ 32 0#32),
    StableHlo.unary main_c_17 main_v128 (broadcastInDim S320000 ![] bcast_S_S320000),
    StableHlo.binary main_v127 main_v128 main_v129 (cmpi .slt),
    StableHlo.nullary main_c_18 (constantI S_ 32 3#32),
    StableHlo.unary main_c_18 main_v130 (broadcastInDim S320000 ![] bcast_S_S320000),
    StableHlo.binary main_v127 main_v130 main_v131 addi,
    StableHlo.ternary main_v129 main_v131 main_v127 main_v132 select,
    StableHlo.unary main_v132 main_v133 (broadcastInDim S320000x1 ![0] bcast_S320000_S320000x1_0),
    StableHlo.binary main_v125 main_v133 main_v134 (fun x i => Host.gather gather_S3x128_S320000x1_S320000x128_1_0_n_n_0_1_1128 x i),
    StableHlo.binary main_v123 main_v134 main_v135 addf,
    StableHlo.nullary main_c_19 (constantI S_ 32 0#32),
    StableHlo.unary main_c_19 main_v136 (broadcastInDim S320000 ![] bcast_S_S320000),
    StableHlo.binary main_v20 main_v136 main_v137 (cmpi .slt),
    StableHlo.nullary main_c_20 (constantI S_ 32 10000#32),
    StableHlo.unary main_c_20 main_v138 (broadcastInDim S320000 ![] bcast_S_S320000),
    StableHlo.binary main_v20 main_v138 main_v139 addi,
    StableHlo.ternary main_v137 main_v139 main_v20 main_v140 select,
    StableHlo.unary main_v140 main_v141 (broadcastInDim S320000x1 ![0] bcast_S320000_S320000x1_0),
    StableHlo.binary main_v112 main_v141 main_v142 (fun x i => Host.gather gather_S10000x128_S320000x1_S320000x128_1_0_n_n_0_1_1128 x i),
    StableHlo.binary main_v142 main_v135 main_v143 addf,
    StableHlo.nullary main_cst_21 (constant S_ .f32 0x00000000#32),
    StableHlo.unary main_cst_21 main_v144 (broadcastInDim S10000x128 ![] bcast_S_S10000x128),
    StableHlo.unary main_v22 main_v145 (broadcastInDim S320000x1 ![0] bcast_S320000_S320000x1_0),
    StableHlo.ternary main_v144 main_v145 main_v143 main_v146 (fun x i u => Host.scatterAdd scatter_S10000x128_S320000x1_S320000x128_1_0_0_1 x i u),
    StableHlo.unary main_arg5 main_v147 (extractStridedSlice S1x6x128 ![1, 0, 0] · slices_S3x6x128_S1x6x128_1_0_0),
    StableHlo.reshape main_v147 main_v148 rfl shapeCasts_S1x6x128_S6x128,
    StableHlo.unary main_v148 main_v149 (extractStridedSlice S1x128 ![4, 0] · slices_S6x128_S1x128_4_0),
    StableHlo.reshape main_v149 main_v150 rfl shapeCasts_S1x128_S128,
    StableHlo.unary main_arg6 main_v151 (extractStridedSlice S1x3x128 ![1, 0, 0] · slices_S3x3x128_S1x3x128_1_0_0),
    StableHlo.reshape main_v151 main_v152 rfl shapeCasts_S1x3x128_S3x128,
    StableHlo.unary main_v152 main_v153 (extractStridedSlice S1x128 ![0, 0] · slices_S3x128_S1x128_0_0),
    StableHlo.reshape main_v153 main_v154 rfl shapeCasts_S1x128_S128,
    StableHlo.binary main_v150 main_v154 main_v155 addf ]

abbrev opsA0_w3 : List (HloOp τ sig (Elt F)) :=
  [ StableHlo.binary main_v146 main_v112 main_v156 addf,
    StableHlo.unary main_v155 main_v157 (broadcastInDim S1x128 ![1] bcast_S128_S1x128_1),
    StableHlo.unary main_v157 main_v158 (broadcastInDim S10000x128 ![0, 1] bcast_S1x128_S10000x128_0_1),
    StableHlo.binary main_v156 main_v158 main_v159 addf,
    StableHlo.unary main_arg7 main_v160 (extractStridedSlice S1x128x256 ![1, 0, 0] · slices_S3x128x256_S1x128x256_1_0_0),
    StableHlo.reshape main_v160 main_v161 rfl shapeCasts_S1x128x256_S128x256,
    StableHlo.binary main_v159 main_v161 main_v162 (fun l r => Host.dotGeneral dot_S10000x128_S128x256_S10000x256_1_0_0_1_n_n none l r),
    StableHlo.unary main_arg8 main_v163 (extractStridedSlice S1x256 ![1, 0] · slices_S3x256_S1x256_1_0),
    StableHlo.reshape main_v163 main_v164 rfl shapeCasts_S1x256_S256,
    StableHlo.unary main_v164 main_v165 (broadcastInDim S1x256 ![1] bcast_S256_S1x256_1),
    StableHlo.unary main_v165 main_v166 (broadcastInDim S10000x256 ![0, 1] bcast_S1x256_S10000x256_0_1),
    StableHlo.binary main_v162 main_v166 main_v167 addf,
    StableHlo.nullary main_cst_22 (constant S_ .f32 0x00000000#32),
    StableHlo.unary main_cst_22 main_v168 (broadcastInDim S10000x256 ![] bcast_S_S10000x256),
    StableHlo.binary main_v167 main_v168 main_v169 maximumf,
    StableHlo.unary main_arg9 main_v170 (extractStridedSlice S1x256x128 ![1, 0, 0] · slices_S3x256x128_S1x256x128_1_0_0),
    StableHlo.reshape main_v170 main_v171 rfl shapeCasts_S1x256x128_S256x128,
    StableHlo.binary main_v169 main_v171 main_v172 (fun l r => Host.dotGeneral dot_S10000x256_S256x128_S10000x128_1_0_0_1_n_n none l r),
    StableHlo.unary main_arg10 main_v173 (extractStridedSlice S1x128 ![1, 0] · slices_S3x128_S1x128_1_0),
    StableHlo.reshape main_v173 main_v174 rfl shapeCasts_S1x128_S128,
    StableHlo.unary main_v174 main_v175 (broadcastInDim S1x128 ![1] bcast_S128_S1x128_1),
    StableHlo.unary main_v175 main_v176 (broadcastInDim S10000x128 ![0, 1] bcast_S1x128_S10000x128_0_1),
    StableHlo.binary main_v172 main_v176 main_v177 addf,
    StableHlo.nullary main_cst_23 (constant S_ .f32 0x00000000#32),
    StableHlo.binary main_v177 main_cst_23 main_v178 (fun x v => Host.reduceAdd x v reducesTo_S10000x128_S128_d0 h_S_),
    StableHlo.nullary main_cst_24 (constant S_ .f32 0x461C4000#32),
    StableHlo.unary main_cst_24 main_v179 (broadcastInDim S128 ![] bcast_S_S128),
    StableHlo.binary main_v178 main_v179 main_v180 Host.divf,
    StableHlo.nullary main_c_25 (constantI S_ 32 0#32),
    StableHlo.TRef.nullary main_call1.cst (constant S_ .f32 0x00000000#32),
    StableHlo.TRef.binary (.of main_v177) main_call1.cst main_call1.v0 (fun x v => Host.reduceAdd x v reducesTo_S10000x128_S128_d0 h_S_),
    StableHlo.TRef.unary main_call1.v0 main_call1.v1 (broadcastInDim S1x128 ![1] bcast_S128_S1x128_1),
    StableHlo.TRef.nullary main_call1.cst_0 (constant S_ .f32 0x461C4000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S10000x128 ![0, 1] bcast_S1x128_S10000x128_0_1),
    StableHlo.TRef.binary (.of main_v177) main_call1.v4 main_call1.v5 subf,
    StableHlo.TRef.binary main_call1.v5 main_call1.v5 main_call1.v6 mulf,
    StableHlo.TRef.unary (.of main_c_25) main_call1.v7 (sitofp .f32),
    StableHlo.TRef.nullary main_call1.cst_1 (constant S_ .f32 0x461C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S10000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v180 main_v182 (broadcastInDim S1x128 ![1] bcast_S128_S1x128_1),
    StableHlo.unary main_v182 main_v183 (broadcastInDim S10000x128 ![0, 1] bcast_S1x128_S10000x128_0_1),
    StableHlo.binary main_v177 main_v183 main_v184 subf,
    StableHlo.nullary main_cst_26 (constant S_ .f32 0x3727C5AC#32),
    StableHlo.unary main_cst_26 main_v185 (broadcastInDim S128 ![] bcast_S_S128),
    StableHlo.binary main_v181 main_v185 main_v186 addf,
    StableHlo.unary main_v186 main_v187 Host.sqrt,
    StableHlo.unary main_v187 main_v188 (broadcastInDim S1x128 ![1] bcast_S128_S1x128_1),
    StableHlo.unary main_v188 main_v189 (broadcastInDim S10000x128 ![0, 1] bcast_S1x128_S10000x128_0_1),
    StableHlo.binary main_v184 main_v189 main_v190 Host.divf,
    StableHlo.unary main_arg11 main_v191 (extractStridedSlice S1x128 ![1, 0] · slices_S3x128_S1x128_1_0),
    StableHlo.reshape main_v191 main_v192 rfl shapeCasts_S1x128_S128,
    StableHlo.unary main_v192 main_v193 (broadcastInDim S1x128 ![1] bcast_S128_S1x128_1),
    StableHlo.unary main_v193 main_v194 (broadcastInDim S10000x128 ![0, 1] bcast_S1x128_S10000x128_0_1),
    StableHlo.binary main_v190 main_v194 main_v195 mulf,
    StableHlo.unary main_arg12 main_v196 (extractStridedSlice S1x128 ![1, 0] · slices_S3x128_S1x128_1_0),
    StableHlo.reshape main_v196 main_v197 rfl shapeCasts_S1x128_S128,
    StableHlo.unary main_v197 main_v198 (broadcastInDim S1x128 ![1] bcast_S128_S1x128_1),
    StableHlo.unary main_v198 main_v199 (broadcastInDim S10000x128 ![0, 1] bcast_S1x128_S10000x128_0_1),
    StableHlo.binary main_v195 main_v199 main_v200 addf,
    StableHlo.nullary main_cst_27 (constant S_ .f32 0x00000000#32),
    StableHlo.unary main_cst_27 main_v201 (broadcastInDim S10000x128 ![] bcast_S_S10000x128),
    StableHlo.binary main_v200 main_v201 main_v202 maximumf,
    StableHlo.unary main_arg5 main_v203 (extractStridedSlice S1x6x128 ![2, 0, 0] · slices_S3x6x128_S1x6x128_2_0_0),
    StableHlo.reshape main_v203 main_v204 rfl shapeCasts_S1x6x128_S6x128,
    StableHlo.unary main_arg2 main_v205 (extractStridedSlice S320000x1 ![0, 0] · slices_S320000x2_S320000x1_0_0),
    StableHlo.reshape main_v205 main_v206 rfl shapeCasts_S320000x1_S320000,
    StableHlo.nullary main_c_28 (constantI S_ 32 0#32),
    StableHlo.unary main_c_28 main_v207 (broadcastInDim S320000 ![] bcast_S_S320000),
    StableHlo.binary main_v206 main_v207 main_v208 (cmpi .slt) ]

abbrev opsA0_w4 : List (HloOp τ sig (Elt F)) :=
  [ StableHlo.nullary main_c_29 (constantI S_ 32 6#32),
    StableHlo.unary main_c_29 main_v209 (broadcastInDim S320000 ![] bcast_S_S320000),
    StableHlo.binary main_v206 main_v209 main_v210 addi,
    StableHlo.ternary main_v208 main_v210 main_v206 main_v211 select,
    StableHlo.unary main_v211 main_v212 (broadcastInDim S320000x1 ![0] bcast_S320000_S320000x1_0),
    StableHlo.binary main_v204 main_v212 main_v213 (fun x i => Host.gather gather_S6x128_S320000x1_S320000x128_1_0_n_n_0_1_1128 x i),
    StableHlo.unary main_arg6 main_v214 (extractStridedSlice S1x3x128 ![2, 0, 0] · slices_S3x3x128_S1x3x128_2_0_0),
    StableHlo.reshape main_v214 main_v215 rfl shapeCasts_S1x3x128_S3x128,
    StableHlo.unary main_arg2 main_v216 (extractStridedSlice S320000x1 ![0, 1] · slices_S320000x2_S320000x1_0_1),
    StableHlo.reshape main_v216 main_v217 rfl shapeCasts_S320000x1_S320000,
    StableHlo.nullary main_c_30 (constantI S_ 32 0#32),
    StableHlo.unary main_c_30 main_v218 (broadcastInDim S320000 ![] bcast_S_S320000),
    StableHlo.binary main_v217 main_v218 main_v219 (cmpi .slt),
    StableHlo.nullary main_c_31 (constantI S_ 32 3#32),
    StableHlo.unary main_c_31 main_v220 (broadcastInDim S320000 ![] bcast_S_S320000),
    StableHlo.binary main_v217 main_v220 main_v221 addi,
    StableHlo.ternary main_v219 main_v221 main_v217 main_v222 select,
    StableHlo.unary main_v222 main_v223 (broadcastInDim S320000x1 ![0] bcast_S320000_S320000x1_0),
    StableHlo.binary main_v215 main_v223 main_v224 (fun x i => Host.gather gather_S3x128_S320000x1_S320000x128_1_0_n_n_0_1_1128 x i),
    StableHlo.binary main_v213 main_v224 main_v225 addf,
    StableHlo.nullary main_c_32 (constantI S_ 32 0#32),
    StableHlo.unary main_c_32 main_v226 (broadcastInDim S320000 ![] bcast_S_S320000),
    StableHlo.binary main_v20 main_v226 main_v227 (cmpi .slt),
    StableHlo.nullary main_c_33 (constantI S_ 32 10000#32),
    StableHlo.unary main_c_33 main_v228 (broadcastInDim S320000 ![] bcast_S_S320000),
    StableHlo.binary main_v20 main_v228 main_v229 addi,
    StableHlo.ternary main_v227 main_v229 main_v20 main_v230 select,
    StableHlo.unary main_v230 main_v231 (broadcastInDim S320000x1 ![0] bcast_S320000_S320000x1_0),
    StableHlo.binary main_v202 main_v231 main_v232 (fun x i => Host.gather gather_S10000x128_S320000x1_S320000x128_1_0_n_n_0_1_1128 x i),
    StableHlo.binary main_v232 main_v225 main_v233 addf,
    StableHlo.nullary main_cst_34 (constant S_ .f32 0x00000000#32),
    StableHlo.unary main_cst_34 main_v234 (broadcastInDim S10000x128 ![] bcast_S_S10000x128),
    StableHlo.unary main_v22 main_v235 (broadcastInDim S320000x1 ![0] bcast_S320000_S320000x1_0),
    StableHlo.ternary main_v234 main_v235 main_v233 main_v236 (fun x i u => Host.scatterAdd scatter_S10000x128_S320000x1_S320000x128_1_0_0_1 x i u),
    StableHlo.unary main_arg5 main_v237 (extractStridedSlice S1x6x128 ![2, 0, 0] · slices_S3x6x128_S1x6x128_2_0_0),
    StableHlo.reshape main_v237 main_v238 rfl shapeCasts_S1x6x128_S6x128,
    StableHlo.unary main_v238 main_v239 (extractStridedSlice S1x128 ![4, 0] · slices_S6x128_S1x128_4_0),
    StableHlo.reshape main_v239 main_v240 rfl shapeCasts_S1x128_S128,
    StableHlo.unary main_arg6 main_v241 (extractStridedSlice S1x3x128 ![2, 0, 0] · slices_S3x3x128_S1x3x128_2_0_0),
    StableHlo.reshape main_v241 main_v242 rfl shapeCasts_S1x3x128_S3x128,
    StableHlo.unary main_v242 main_v243 (extractStridedSlice S1x128 ![0, 0] · slices_S3x128_S1x128_0_0),
    StableHlo.reshape main_v243 main_v244 rfl shapeCasts_S1x128_S128,
    StableHlo.binary main_v240 main_v244 main_v245 addf,
    StableHlo.binary main_v236 main_v202 main_v246 addf,
    StableHlo.unary main_v245 main_v247 (broadcastInDim S1x128 ![1] bcast_S128_S1x128_1),
    StableHlo.unary main_v247 main_v248 (broadcastInDim S10000x128 ![0, 1] bcast_S1x128_S10000x128_0_1),
    StableHlo.binary main_v246 main_v248 main_v249 addf,
    StableHlo.unary main_arg7 main_v250 (extractStridedSlice S1x128x256 ![2, 0, 0] · slices_S3x128x256_S1x128x256_2_0_0),
    StableHlo.reshape main_v250 main_v251 rfl shapeCasts_S1x128x256_S128x256,
    StableHlo.binary main_v249 main_v251 main_v252 (fun l r => Host.dotGeneral dot_S10000x128_S128x256_S10000x256_1_0_0_1_n_n none l r),
    StableHlo.unary main_arg8 main_v253 (extractStridedSlice S1x256 ![2, 0] · slices_S3x256_S1x256_2_0),
    StableHlo.reshape main_v253 main_v254 rfl shapeCasts_S1x256_S256,
    StableHlo.unary main_v254 main_v255 (broadcastInDim S1x256 ![1] bcast_S256_S1x256_1),
    StableHlo.unary main_v255 main_v256 (broadcastInDim S10000x256 ![0, 1] bcast_S1x256_S10000x256_0_1),
    StableHlo.binary main_v252 main_v256 main_v257 addf,
    StableHlo.nullary main_cst_35 (constant S_ .f32 0x00000000#32),
    StableHlo.unary main_cst_35 main_v258 (broadcastInDim S10000x256 ![] bcast_S_S10000x256),
    StableHlo.binary main_v257 main_v258 main_v259 maximumf,
    StableHlo.unary main_arg9 main_v260 (extractStridedSlice S1x256x128 ![2, 0, 0] · slices_S3x256x128_S1x256x128_2_0_0),
    StableHlo.reshape main_v260 main_v261 rfl shapeCasts_S1x256x128_S256x128 ]

abbrev opsA0_w5 : List (HloOp τ sig (Elt F)) :=
  [ StableHlo.binary main_v259 main_v261 main_v262 (fun l r => Host.dotGeneral dot_S10000x256_S256x128_S10000x128_1_0_0_1_n_n none l r),
    StableHlo.unary main_arg10 main_v263 (extractStridedSlice S1x128 ![2, 0] · slices_S3x128_S1x128_2_0),
    StableHlo.reshape main_v263 main_v264 rfl shapeCasts_S1x128_S128,
    StableHlo.unary main_v264 main_v265 (broadcastInDim S1x128 ![1] bcast_S128_S1x128_1),
    StableHlo.unary main_v265 main_v266 (broadcastInDim S10000x128 ![0, 1] bcast_S1x128_S10000x128_0_1),
    StableHlo.binary main_v262 main_v266 main_v267 addf,
    StableHlo.nullary main_cst_36 (constant S_ .f32 0x00000000#32),
    StableHlo.binary main_v267 main_cst_36 main_v268 (fun x v => Host.reduceAdd x v reducesTo_S10000x128_S128_d0 h_S_),
    StableHlo.nullary main_cst_37 (constant S_ .f32 0x461C4000#32),
    StableHlo.unary main_cst_37 main_v269 (broadcastInDim S128 ![] bcast_S_S128),
    StableHlo.binary main_v268 main_v269 main_v270 Host.divf,
    StableHlo.nullary main_c_38 (constantI S_ 32 0#32),
    StableHlo.TRef.nullary main_call2.cst (constant S_ .f32 0x00000000#32),
    StableHlo.TRef.binary (.of main_v267) main_call2.cst main_call2.v0 (fun x v => Host.reduceAdd x v reducesTo_S10000x128_S128_d0 h_S_),
    StableHlo.TRef.unary main_call2.v0 main_call2.v1 (broadcastInDim S1x128 ![1] bcast_S128_S1x128_1),
    StableHlo.TRef.nullary main_call2.cst_0 (constant S_ .f32 0x461C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S10000x128 ![0, 1] bcast_S1x128_S10000x128_0_1),
    StableHlo.TRef.binary (.of main_v267) main_call2.v4 main_call2.v5 subf,
    StableHlo.TRef.binary main_call2.v5 main_call2.v5 main_call2.v6 mulf,
    StableHlo.TRef.unary (.of main_c_38) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v270 main_v272 (broadcastInDim S1x128 ![1] bcast_S128_S1x128_1),
    StableHlo.unary main_v272 main_v273 (broadcastInDim S10000x128 ![0, 1] bcast_S1x128_S10000x128_0_1),
    StableHlo.binary main_v267 main_v273 main_v274 subf,
    StableHlo.nullary main_cst_39 (constant S_ .f32 0x3727C5AC#32),
    StableHlo.unary main_cst_39 main_v275 (broadcastInDim S128 ![] bcast_S_S128),
    StableHlo.binary main_v271 main_v275 main_v276 addf,
    StableHlo.unary main_v276 main_v277 Host.sqrt,
    StableHlo.unary main_v277 main_v278 (broadcastInDim S1x128 ![1] bcast_S128_S1x128_1),
    StableHlo.unary main_v278 main_v279 (broadcastInDim S10000x128 ![0, 1] bcast_S1x128_S10000x128_0_1),
    StableHlo.binary main_v274 main_v279 main_v280 Host.divf,
    StableHlo.unary main_arg11 main_v281 (extractStridedSlice S1x128 ![2, 0] · slices_S3x128_S1x128_2_0),
    StableHlo.reshape main_v281 main_v282 rfl shapeCasts_S1x128_S128,
    StableHlo.unary main_v282 main_v283 (broadcastInDim S1x128 ![1] bcast_S128_S1x128_1),
    StableHlo.unary main_v283 main_v284 (broadcastInDim S10000x128 ![0, 1] bcast_S1x128_S10000x128_0_1),
    StableHlo.binary main_v280 main_v284 main_v285 mulf,
    StableHlo.unary main_arg12 main_v286 (extractStridedSlice S1x128 ![2, 0] · slices_S3x128_S1x128_2_0),
    StableHlo.reshape main_v286 main_v287 rfl shapeCasts_S1x128_S128,
    StableHlo.unary main_v287 main_v288 (broadcastInDim S1x128 ![1] bcast_S128_S1x128_1),
    StableHlo.unary main_v288 main_v289 (broadcastInDim S10000x128 ![0, 1] bcast_S1x128_S10000x128_0_1),
    StableHlo.binary main_v285 main_v289 main_v290 addf,
    StableHlo.nullary main_cst_40 (constant S_ .f32 0x00000000#32),
    StableHlo.binary main_v290 main_cst_40 main_v291 (fun x v => Host.reduceAdd x v reducesTo_S10000x128_S128_d0 h_S_),
    StableHlo.unary main_v291 main_v292 (broadcastInDim S1x128 ![1] bcast_S128_S1x128_1),
    StableHlo.nullary main_cst_41 (constant S_ .f32 0x461C4000#32),
    StableHlo.unary main_cst_41 main_v293 (broadcastInDim S1x128 ![] bcast_S_S1x128),
    StableHlo.binary main_v292 main_v293 main_v294 Host.divf ]

abbrev opsA0 : List (HloOp τ sig (Elt F)) :=
  opsA0_w0 ++ (opsA0_w1 ++ (opsA0_w2 ++ (opsA0_w3 ++ (opsA0_w4 ++ (opsA0_w5)))))

end Cert.ReferenceIdeal.Hand

end
-- ==== Proof.Ref.Run.lean ====
import proofs.«208129_g65403761983635_cont_9to1_m_1354_7_alg».proof.ReferenceIdeal
import proofs.«208129_g65403761983635_cont_9to1_m_1354_7_alg».proof.Proof.Gen.ReferenceIdeal
import proofs.«208129_g65403761983635_cont_9to1_m_1354_7_alg».proof.Proof.Ref.Ops
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in

theorem part0_eq (c : Dev nD) : main_part0 (F := F) c = seq (opsA0_w0 (F := F)) := rfl

set_option maxRecDepth 8192 in
set_option maxHeartbeats 1600000 in

theorem part1_eq (c : Dev nD) : main_part1 (F := F) c = seq (opsA0_w1 (F := F)) := by
  simp only [main_part1, fn_var.body, fn_where.body, bind_assoc, pure_bind]
  rfl

set_option maxRecDepth 8192 in

theorem part2_eq (c : Dev nD) : main_part2 (F := F) c = seq (opsA0_w2 (F := F)) := rfl

set_option maxRecDepth 8192 in
set_option maxHeartbeats 1600000 in

theorem part3_eq (c : Dev nD) : main_part3 (F := F) c = seq (opsA0_w3 (F := F)) := by
  simp only [main_part3, fn_var.body, fn_where.body, bind_assoc, pure_bind]
  rfl

set_option maxRecDepth 8192 in

theorem part4_eq (c : Dev nD) : main_part4 (F := F) c = seq (opsA0_w4 (F := F)) := rfl

set_option maxRecDepth 8192 in
set_option maxHeartbeats 1600000 in

theorem part5_eq (c : Dev nD) : main_part5 (F := F) c = seq (opsA0_w5 (F := F)) := by
  simp only [main_part5, fn_var.body, fn_where.body, bind_assoc, pure_bind]
  rfl

theorem seq_append_of_eq {nD : Nat} {τ : Topo} {sig : RefSig} {Val : EltTy → Type} {Λ : Labels}
    {p q : Prog (TpuEff nD τ sig Val Λ .tc) PUnit} {l₁ l₂ : List (HloOp τ sig Val)}
    (hp : p = seq l₁) (hq : q = seq l₂) : (p >>= fun _ => q) = seq (l₁ ++ l₂) := by
  rw [hp, hq, seq_append]

theorem main_eq (c : Dev nD) : Cert.ReferenceIdeal.main (F := F) c = StableHlo.seq opsA0 :=
  seq_append_of_eq (part0_eq c) (seq_append_of_eq (part1_eq c) (seq_append_of_eq (part2_eq c)
    (seq_append_of_eq (part3_eq c) (seq_append_of_eq (part4_eq c) (part5_eq c)))))

theorem scopedRefs_eq : (Finset.univ.filter fun b : Ref sig .tc => b.isScoped) = ∅ := by decide
theorem scopedSems_eq : (Finset.univ.filter fun sm : SemLoc sig => sm.isScoped .tc) = ∅ := by decide

local macro "window_sub" : tactic =>
  `(tactic| (simp only [List.Forall, nullary_bufs_sub, unary_bufs_sub, binary_bufs_sub, ternary_bufs_sub, reshape_bufs_sub,
               and_self]))

local macro "window_fresh" : tactic =>
  `(tactic| (simp only [List.Forall]
             repeat' apply And.intro
             all_goals rfl))

set_option maxRecDepth 8192 in
theorem w0_sub : (opsA0_w0 : List (HloOp τ sig (Elt F))).Forall fun op => op.bufs ⊆ tcRefs τ sig := by window_sub
set_option maxRecDepth 8192 in
theorem w1_sub : (opsA0_w1 : List (HloOp τ sig (Elt F))).Forall fun op => op.bufs ⊆ tcRefs τ sig := by window_sub
set_option maxRecDepth 8192 in
theorem w2_sub : (opsA0_w2 : List (HloOp τ sig (Elt F))).Forall fun op => op.bufs ⊆ tcRefs τ sig := by window_sub
set_option maxRecDepth 8192 in
theorem w3_sub : (opsA0_w3 : List (HloOp τ sig (Elt F))).Forall fun op => op.bufs ⊆ tcRefs τ sig := by window_sub
set_option maxRecDepth 8192 in
theorem w4_sub : (opsA0_w4 : List (HloOp τ sig (Elt F))).Forall fun op => op.bufs ⊆ tcRefs τ sig := by window_sub
set_option maxRecDepth 8192 in
theorem w5_sub : (opsA0_w5 : List (HloOp τ sig (Elt F))).Forall fun op => op.bufs ⊆ tcRefs τ sig := by window_sub

theorem ops_sub : (opsA0 : List (HloOp τ sig (Elt F))).Forall fun op => op.bufs ⊆ tcRefs τ sig :=
  List.forall_append.mpr ⟨w0_sub, List.forall_append.mpr ⟨w1_sub, List.forall_append.mpr ⟨w2_sub,
    List.forall_append.mpr ⟨w3_sub, List.forall_append.mpr ⟨w4_sub, w5_sub⟩⟩⟩⟩⟩

set_option maxRecDepth 8192 in
theorem w0_fresh : (opsA0_w0 : List (HloOp τ sig (Elt F))).Forall fun op => op.fresh = ∅ := by window_fresh
set_option maxRecDepth 8192 in
theorem w1_fresh : (opsA0_w1 : List (HloOp τ sig (Elt F))).Forall fun op => op.fresh = ∅ := by window_fresh
set_option maxRecDepth 8192 in
theorem w2_fresh : (opsA0_w2 : List (HloOp τ sig (Elt F))).Forall fun op => op.fresh = ∅ := by window_fresh
set_option maxRecDepth 8192 in
theorem w3_fresh : (opsA0_w3 : List (HloOp τ sig (Elt F))).Forall fun op => op.fresh = ∅ := by window_fresh
set_option maxRecDepth 8192 in
theorem w4_fresh : (opsA0_w4 : List (HloOp τ sig (Elt F))).Forall fun op => op.fresh = ∅ := by window_fresh
set_option maxRecDepth 8192 in
theorem w5_fresh : (opsA0_w5 : List (HloOp τ sig (Elt F))).Forall fun op => op.fresh = ∅ := by window_fresh

theorem ops_fresh : (opsA0 : List (HloOp τ sig (Elt F))).Forall fun op => op.fresh = ∅ :=
  List.forall_append.mpr ⟨w0_fresh, List.forall_append.mpr ⟨w1_fresh, List.forall_append.mpr ⟨w2_fresh,
    List.forall_append.mpr ⟨w3_fresh, List.forall_append.mpr ⟨w4_fresh, w5_fresh⟩⟩⟩⟩⟩

theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r =>
      ∀ (c : Dev nD) (b : Ref sig .tc), r.2.mem ((c.tc : Thread nD τ).loc b) = StableHlo.after opsA0 (StableHlo.launchContents m c) (Proc.devRef .tc b) :=
  StableHlo.run_seq scopedRefs_eq scopedSems_eq defs main (fun _ => opsA0) main_eq (fun _ => ops_sub) m ρ
    (fun _ => List.forall_iff_forall_mem.mp ops_fresh)

abbrev mainArgs : List (Ref sig .tc) :=
  [main_arg0, main_arg1, main_arg2, main_arg3, main_arg4, main_arg5, main_arg6, main_arg7, main_arg8, main_arg9,
    main_arg10, main_arg11, main_arg12]

theorem args_ne {y : Ref sig .tc} (h : y ∉ mainArgs) :
    ∀ r ∈ mainArgs, ¬ (Proc.devRef .tc r : DevRef τ sig) = Proc.devRef .tc y :=
  fun _ hr e => h (Proc.devRef_injective _ e ▸ hr)

local macro "window_keeps" : tactic =>
  `(tactic| (simp only [List.Forall, nullary_writes, unary_writes, binary_writes, ternary_writes, reshape_writes,
               Finset.mem_singleton]
             repeat' apply And.intro
             all_goals exact args_ne (by decide)))

set_option maxRecDepth 8192 in
theorem w0_keeps : (opsA0_w0 : List (HloOp τ sig (Elt F))).Forall fun op =>
    ∀ r ∈ mainArgs, (Proc.devRef .tc r : DevRef τ sig) ∉ op.writes := by window_keeps
set_option maxRecDepth 8192 in
theorem w1_keeps : (opsA0_w1 : List (HloOp τ sig (Elt F))).Forall fun op =>
    ∀ r ∈ mainArgs, (Proc.devRef .tc r : DevRef τ sig) ∉ op.writes := by window_keeps
set_option maxRecDepth 8192 in
theorem w2_keeps : (opsA0_w2 : List (HloOp τ sig (Elt F))).Forall fun op =>
    ∀ r ∈ mainArgs, (Proc.devRef .tc r : DevRef τ sig) ∉ op.writes := by window_keeps
set_option maxRecDepth 8192 in
theorem w3_keeps : (opsA0_w3 : List (HloOp τ sig (Elt F))).Forall fun op =>
    ∀ r ∈ mainArgs, (Proc.devRef .tc r : DevRef τ sig) ∉ op.writes := by window_keeps
set_option maxRecDepth 8192 in
theorem w4_keeps : (opsA0_w4 : List (HloOp τ sig (Elt F))).Forall fun op =>
    ∀ r ∈ mainArgs, (Proc.devRef .tc r : DevRef τ sig) ∉ op.writes := by window_keeps
set_option maxRecDepth 8192 in
theorem w5_keeps : (opsA0_w5 : List (HloOp τ sig (Elt F))).Forall fun op =>
    ∀ r ∈ mainArgs, (Proc.devRef .tc r : DevRef τ sig) ∉ op.writes := by window_keeps

theorem ops_keep : (opsA0 : List (HloOp τ sig (Elt F))).Forall fun op =>
    ∀ r ∈ mainArgs, (Proc.devRef .tc r : DevRef τ sig) ∉ op.writes :=
  List.forall_append.mpr ⟨w0_keeps, List.forall_append.mpr ⟨w1_keeps, List.forall_append.mpr ⟨w2_keeps,
    List.forall_append.mpr ⟨w3_keeps, List.forall_append.mpr ⟨w4_keeps, w5_keeps⟩⟩⟩⟩⟩

theorem arg_kept (V : Valuation τ sig (Elt F)) (r : Ref sig .tc) (hr : r ∈ mainArgs) :
    StableHlo.after opsA0 V (Proc.devRef .tc r) = V (Proc.devRef .tc r) :=
  after_of_forall_not_mem opsA0 V fun op hop => List.forall_iff_forall_mem.mp ops_keep op hop r hr

end Cert.ReferenceIdeal.Hand

end
-- ==== Proof.Value.Spec.lean ====
import Idealize.ShloMosaic.PureOps.Ideal
import Idealize.ShloMosaic.Lib.ValueIdx
import Mathlib.Algebra.BigOperators.Group.Finset.Basic

noncomputable section

open scoped BigOperators

namespace Cert.Value

open Idealize.ShloMosaic Idealize.ShloMosaic.ValueIdx

def rowOf (z : ℕ) (hz : 0 < z) (w : BitVec 32) : Fin z := if h : w.toNat < z then ⟨w.toNat, h⟩ else ⟨0, hz⟩

def h0 (a1 : (⟨2, ![119, 128]⟩ : Shape).Idx → EReal) (a2 : (⟨2, ![4, 128]⟩ : Shape).Idx → EReal)
    (x : (⟨2, ![10000, 2]⟩ : Shape).Idx → BitVec 32) : (⟨2, ![10000, 128]⟩ : Shape).Idx → EReal :=
  fun j => a1 (ix2 (rowOf 119 (by decide) (x (ix2 (j 0) (1 - 1 : Fin 2)))) (j 1))
    + a2 (ix2 (rowOf 4 (by decide) (x (ix2 (j 0) (1 : Fin 2)))) (j 1))

def msg (h : (⟨2, ![10000, 128]⟩ : Shape).Idx → EReal) (e1 : (⟨2, ![6, 128]⟩ : Shape).Idx → EReal)
    (e2 : (⟨2, ![3, 128]⟩ : Shape).Idx → EReal) (ei : (⟨2, ![2, 320000]⟩ : Shape).Idx → BitVec 32)
    (ea : (⟨2, ![320000, 2]⟩ : Shape).Idx → BitVec 32) : (⟨2, ![320000, 128]⟩ : Shape).Idx → EReal :=
  fun j => h (ix2 (rowOf 10000 (by decide) (ei (ix2 (0 : Fin 2) (j 0)))) (j 1))
    + (e1 (ix2 (rowOf 6 (by decide) (ea (ix2 (j 0) (0 : Fin 2)))) (j 1))
      + e2 (ix2 (rowOf 3 (by decide) (ea (ix2 (j 0) (1 : Fin 2)))) (j 1)))

def agg (ms : (⟨2, ![320000, 128]⟩ : Shape).Idx → EReal) (ei : (⟨2, ![2, 320000]⟩ : Shape).Idx → BitVec 32) :
    (⟨2, ![10000, 128]⟩ : Shape).Idx → EReal :=
  fun j => ∑ e ∈ Finset.univ.filter (fun e : Fin 320000 => (ei (ix2 (1 : Fin 2) e)).toInt = ((j 0).val : ℤ)), ms (ix2 e (j 1))

def blk6 (t : (⟨3, ![3, 6, 128]⟩ : Shape).Idx → EReal) (l : Fin 3) : (⟨2, ![6, 128]⟩ : Shape).Idx → EReal :=
  fun j => t (fun a => match a with | ⟨0, _⟩ => l | ⟨1, _⟩ => j 0 | ⟨2, _⟩ => j 1)
def blk3 (t : (⟨3, ![3, 3, 128]⟩ : Shape).Idx → EReal) (l : Fin 3) : (⟨2, ![3, 128]⟩ : Shape).Idx → EReal :=
  fun j => t (fun a => match a with | ⟨0, _⟩ => l | ⟨1, _⟩ => j 0 | ⟨2, _⟩ => j 1)

end Cert.Value

end
-- ==== Proof.Value.KIdx.lean ====
import proofs.«208129_g65403761983635_cont_9to1_m_1354_7_alg».proof.Proof.KI.Base
import proofs.«208129_g65403761983635_cont_9to1_m_1354_7_alg».proof.Proof.KI.PreOK
import Idealize.ShloMosaic.Lib.SortFacts
import Idealize.ShloMosaic.Lib.StableHlo.Predicate
import Idealize.ShloMosaic.Lib.ValueIdx
import Idealize.ShloMosaic.Lib.ValueLayout

noncomputable section

namespace Cert.Value.K

open Idealize.ShloMosaic Idealize.ShloMosaic.ValueIdx Idealize.ShloMosaic.StableHlo
open Cert.KernelIdeal Cert.KernelIdeal.Gen Cert.KernelIdeal.Hand

variable {F : FTy → Type} [FloatOps F] (V : Valuation τ sig (Elt F))

attribute [local irreducible] sortedFrom

theorem ix1_eq_ofFin {n : ℕ} (p : Fin n) : (ix1 p : (⟨1, ![n]⟩ : Shape).Idx) = Shape.Idx.ofFin p := by
  funext a
  match a with
  | ⟨0, _⟩ => exact Fin.ext rfl

def rowV (c : ℕ) (h : S2x320000.Slices ![c, 0] S1x320000) (ei : S2x320000.Idx → BitVec 32) : S320000.Idx → BitVec 32 :=
  shapeCast S320000 (extractStridedSlice S1x320000 ![c, 0] ei h) shapeCasts_S1x320000_S320000

theorem rowV_apply (c : Fin 2) (h : S2x320000.Slices ![c.val, 0] S1x320000) (ei : S2x320000.Idx → BitVec 32) (p : Fin 320000) :
    rowV c.val h ei (ix1 p) = ei (ix2 c p) := by
  unfold rowV
  refine (shapeCast_apply (s := S1x320000) (t := S320000) _ _ (ix1 p) (ix2 (0 : Fin 1) p) ?_).trans ?_
  · rw [Shape.rowMajor_val_two, Shape.rowMajor_val_one]
    show 0 * 320000 + p.val = p.val
    omega
  · refine extractStridedSlice_apply (s := S2x320000) (t := S1x320000) _ ei h _ (ix2 c p) ?_
    intro a
    match a with
    | ⟨0, _⟩ => show c.val = c.val + 0; omega
    | ⟨1, _⟩ => show p.val = 0 + p.val; omega

def colV (c : ℕ) (h : S320000x2.Slices ![0, c] S320000x1) (ea : S320000x2.Idx → BitVec 32) : S320000.Idx → BitVec 32 :=
  shapeCast S320000 (extractStridedSlice S320000x1 ![0, c] ea h) shapeCasts_S320000x1_S320000

theorem colV_apply (c : Fin 2) (h : S320000x2.Slices ![0, c.val] S320000x1) (ea : S320000x2.Idx → BitVec 32) (p : Fin 320000) :
    colV c.val h ea (ix1 p) = ea (ix2 p c) := by
  unfold colV
  refine (shapeCast_apply (s := S320000x1) (t := S320000) _ _ (ix1 p) (ix2 p (0 : Fin 1)) ?_).trans ?_
  · rw [Shape.rowMajor_val_two, Shape.rowMajor_val_one]
    show p.val * 1 + 0 = p.val
    omega
  · refine extractStridedSlice_apply (s := S320000x2) (t := S320000x1) _ ea h _ (ix2 p c) ?_
    intro a
    match a with
    | ⟨0, _⟩ => show p.val = 0 + p.val; omega
    | ⟨1, _⟩ => show c.val = c.val + 0; omega

def sigma (d : S320000.Idx → BitVec 32) (k : Fin 320000) : Fin 320000 :=
  sortedFrom (fun a b => comparator_i32_i32_d0 (d (Shape.Idx.ofFin a), iotaInDim S320000 32 0 (Shape.Idx.ofFin a))
    (d (Shape.Idx.ofFin b), iotaInDim S320000 32 0 (Shape.Idx.ofFin b)) == 1#1) k

theorem sigma_bijective (d : S320000.Idx → BitVec 32) : Function.Bijective (sigma d) :=
  ⟨sortedFrom_injective _, sortedFrom_surjective _⟩

def argsortV (d : S320000.Idx → BitVec 32) : S320000.Idx → BitVec 32 :=
  (Host.sort2 S320000 0 comparator_i32_i32_d0 d (iotaInDim S320000 32 0)).2

theorem argsort_apply (d : S320000.Idx → BitVec 32) (k : Fin 320000) :
    argsortV d (ix1 k) = BitVec.ofNat 32 (sigma d k).val := by
  have hal : ∀ (hd : 0 < S320000.rank) (j : S320000.Idx) (k' : Fin (S320000.size ⟨0, hd⟩)),
      Shape.Idx.along j (⟨0, hd⟩ : Fin S320000.rank) k' = Shape.Idx.ofFin (n := 320000) k' :=
    fun _ j k' => Shape.Idx.along_rank1 j k'
  have key : ∀ s : Fin 320000, iotaInDim S320000 32 0 (Shape.Idx.ofFin s) = BitVec.ofNat 32 s.val := fun _ => rfl
  unfold argsortV Host.sort2
  rw [dif_pos (show 0 < S320000.rank by decide)]
  simp only [hal]
  exact key _

def starts (o : S320000.Idx → BitVec 32) : S320000x1.Idx → BitVec 32 :=
  broadcastInDim S320000x1 ![0] bcast_S320000_S320000x1_0
    (select (cmpi CmpIPredicate.slt o (broadcastInDim S320000 ![] bcast_S_S320000 (constantI S_ 32 0#32)))
      (addi o (broadcastInDim S320000 ![] bcast_S_S320000 (constantI S_ 32 320000#32))) o)

theorem take_starts (x o : S320000.Idx → BitVec 32) (s : Fin 320000 → Fin 320000)
    (ho : ∀ p, o (ix1 p) = BitVec.ofNat 32 (s p).val) (p : Fin 320000) :
    Host.gather gather_S320000_S320000x1_S320000_n_0_n_n_0_1_1 x (starts o) (ix1 p) = x (ix1 (s p)) := by
  rw [ix1_eq_ofFin, Predicate.gather_take gather_S320000_S320000x1_S320000_n_0_n_n_0_1_1 rfl rfl rfl rfl x (starts o) p (by decide),
    ix1_eq_ofFin]
  have hlt := (s p).isLt
  have hs : starts o (Predicate.ixP p) = BitVec.ofNat 32 (s p).val := by
    unfold starts
    rw [Predicate.bcast_col1, ← ix1_eq_ofFin]
    show Scalar.select (IntOp.cmpi CmpIPredicate.slt (o (ix1 p)) 0#32) (IntOp.addi (o (ix1 p)) 320000#32) (o (ix1 p)) = _
    rw [ho]
    have hnot : ¬ IntOp.cmpi CmpIPredicate.slt (BitVec.ofNat 32 (s p).val) 0#32 = 1#1 := by
      rw [Predicate.slt_iff_toNat (by rw [BitVec.toNat_ofNat]; omega) (by decide), show (0#32 : BitVec 32).toNat = 0 from rfl]
      omega
    unfold Scalar.select
    exact if_neg hnot
  congr 2
  apply Fin.ext
  show min (starts o (Predicate.ixP p)).toInt.toNat (320000 - 1) = (s p).val
  rw [hs, Predicate.toInt_ofNat_small _ (by omega)]
  omega

theorem word_affine_eq (x c y : BitVec 32) (C A B : ℕ) (hc : c = BitVec.ofNat 32 C) (hx : x.toNat ≤ A) (hy : y.toNat ≤ B)
    (hC : C < 2 ^ 32) (hlt : A * C + B < 2 ^ 32) : (IntOp.addi (IntOp.muli x c) y).toNat = x.toNat * C + y.toNat := by
  subst hc
  have h1 : x.toNat * C ≤ A * C := Nat.mul_le_mul_right C hx
  show (x * BitVec.ofNat 32 C + y).toNat = _
  rw [BitVec.toNat_add, BitVec.toNat_mul, BitVec.toNat_ofNat, Nat.mod_eq_of_lt hC]
  generalize x.toNat * C = p at h1 ⊢
  generalize A * C = M at h1 hlt
  rw [Nat.mod_eq_of_lt (show p < 2 ^ 32 by omega), Nat.mod_eq_of_lt (by omega)]

def floorDivV : IVec S320000 32 :=
  select
    (andi
      (cmpi .ne (signi (iotaInDim S320000 32 0)) (broadcastInDim S320000 ![] bcast_S_S320000 (signi (constantI S_ 32 10000#32))))
      (cmpi .ne (Host.remsi (iotaInDim S320000 32 0) (broadcastInDim S320000 ![] bcast_S_S320000 (constantI S_ 32 10000#32)))
        (broadcastInDim S320000 ![] bcast_S_S320000 (constantI S_ 32 0#32))))
    (subi (Host.divsi (iotaInDim S320000 32 0) (broadcastInDim S320000 ![] bcast_S_S320000 (constantI S_ 32 10000#32)))
      (broadcastInDim S320000 ![] bcast_S_S320000 (constantI S_ 32 1#32)))
    (Host.divsi (iotaInDim S320000 32 0) (broadcastInDim S320000 ![] bcast_S_S320000 (constantI S_ 32 10000#32)))

theorem floorDivV_apply (j : Fin 320000) : (floorDivV (ix1 j)).toNat = j.val / 10000 := by
  have hj : j.val < 320000 := j.isLt
  generalize hw : BitVec.ofNat 32 j.val = w
  have hwn : w.toNat = j.val := by rw [← hw, BitVec.toNat_ofNat]; exact Nat.mod_eq_of_lt (by omega)
  have hwl : w.toNat < 2 ^ 31 := by omega
  have hq := divsi_tenk w hwl
  have hm : w.msb = false := BitVec.msb_eq_false_iff_two_mul_lt.mpr (by omega)
  show (Scalar.select
      (IntOp.andi
        (IntOp.cmpi .ne (if BitVec.ofNat 32 j.val = 0 then (0 : BitVec 32) else if (BitVec.ofNat 32 j.val).msb then -1 else 1)
          (if (10000#32 : BitVec 32) = 0 then (0 : BitVec 32) else if (10000#32 : BitVec 32).msb then -1 else 1))
        (IntOp.cmpi .ne (IntOp.remsi .host (BitVec.ofNat 32 j.val) 10000#32) 0#32))
      (IntOp.subi (IntOp.divsi .host (BitVec.ofNat 32 j.val) 10000#32) 1#32)
      (IntOp.divsi .host (BitVec.ofNat 32 j.val) 10000#32)).toNat = j.val / 10000
  rw [hw]
  have hc : IntOp.andi
        (IntOp.cmpi .ne (if w = 0 then (0 : BitVec 32) else if w.msb then -1 else 1)
          (if (10000#32 : BitVec 32) = 0 then (0 : BitVec 32) else if (10000#32 : BitVec 32).msb then -1 else 1))
        (IntOp.cmpi .ne (IntOp.remsi .host w 10000#32) 0#32) = 0#1 := by
    by_cases h0 : w = 0
    · subst h0; decide
    · rw [if_neg h0, hm]
      have : IntOp.cmpi .ne (if false = true then (-1 : BitVec 32) else 1)
          (if (10000#32 : BitVec 32) = 0 then (0 : BitVec 32) else if (10000#32 : BitVec 32).msb then -1 else 1) = 0#1 := by decide
      rw [this]
      generalize IntOp.cmpi .ne (IntOp.remsi .host w 10000#32) 0#32 = b
      revert b; decide
  rw [hc]
  show (IntOp.divsi .host w 10000#32).toNat = j.val / 10000
  rw [hq, hwn]

set_option maxHeartbeats 2000000 in
theorem e21 (W : Valuation τ sig (Elt F)) : (after opsA1 W (r main_v21) : Vec F S320000 .i32)
    = Host.gather gather_S320000_S320000x1_S320000_n_0_n_n_0_1_1 (rowV 0 slices_S2x320000_S1x320000_0_0 (W (r main_arg1)))
        (starts (argsortV (rowV 1 slices_S2x320000_S1x320000_1_0 (W (r main_arg1))))) := by
  dsimp only [opsA1]
  after_results_simp
  rfl

set_option maxHeartbeats 2000000 in
theorem e28 (W : Valuation τ sig (Elt F)) : (after opsA1 W (r main_v28) : Vec F S320000 .i32)
    = Host.gather gather_S320000_S320000x1_S320000_n_0_n_n_0_1_1 (rowV 1 slices_S2x320000_S1x320000_1_0 (W (r main_arg1)))
        (starts (argsortV (rowV 1 slices_S2x320000_S1x320000_1_0 (W (r main_arg1))))) := by
  dsimp only [opsA1]
  after_results_simp
  rfl

set_option maxHeartbeats 2000000 in
theorem e47 (W : Valuation τ sig (Elt F)) : (after opsA1 W (r main_v47) : Vec F S320000 .i32)
    = addi (muli floorDivV (broadcastInDim S320000 ![] bcast_S_S320000 (constantI S_ 32 18#32)))
        (Host.gather gather_S320000_S320000x1_S320000_n_0_n_n_0_1_1
          (addi (muli (colV 0 slices_S320000x2_S320000x1_0_0 (W (r main_arg2))) (broadcastInDim S320000 ![] bcast_S_S320000 (constantI S_ 32 3#32)))
            (colV 1 slices_S320000x2_S320000x1_0_1 (W (r main_arg2))))
          (starts (argsortV (rowV 1 slices_S2x320000_S1x320000_1_0 (W (r main_arg1)))))) := by
  dsimp only [opsA1]
  after_results_simp
  rfl

theorem vec_affine_eq {s : Shape} (a c g : IVec s 32) (j : s.Idx) (C A B : ℕ) (ha : (a j).toNat ≤ A) (hc : c j = BitVec.ofNat 32 C)
    (hg : (g j).toNat ≤ B) (hC : C < 2 ^ 32) (hlt : A * C + B < 2 ^ 32) :
    ((addi (muli a c) g) j).toNat = (a j).toNat * C + (g j).toNat :=
  word_affine_eq (a j) (c j) (g j) C A B hc ha hg hC hlt

theorem v47_core (fd c0 c1 o : IVec S320000 32) (s : Fin 320000 → Fin 320000)
    (ho : ∀ p, o (ix1 p) = BitVec.ofNat 32 (s p).val) (j : Fin 320000) (q a b : ℕ)
    (hq : (fd (ix1 j)).toNat = q) (hq31 : q ≤ 31) (h0 : (c0 (ix1 (s j))).toNat = a) (ha : a ≤ 2)
    (h1 : (c1 (ix1 (s j))).toNat = b) (hb : b ≤ 2) :
    ((addi (muli fd (broadcastInDim S320000 ![] bcast_S_S320000 (constantI S_ 32 18#32)))
        (Host.gather gather_S320000_S320000x1_S320000_n_0_n_n_0_1_1
          (addi (muli c0 (broadcastInDim S320000 ![] bcast_S_S320000 (constantI S_ 32 3#32))) c1) (starts o))) (ix1 j)).toNat
      = q * 18 + (3 * a + b) := by
  have hg := take_starts (addi (muli c0 (broadcastInDim S320000 ![] bcast_S_S320000 (constantI S_ 32 3#32))) c1) o s ho j
  have h3 := vec_affine_eq c0 (broadcastInDim S320000 ![] bcast_S_S320000 (constantI S_ 32 3#32)) c1 (ix1 (s j)) 3 2 2
    (by omega) rfl (by omega) (by norm_num) (by norm_num)
  have h18 := vec_affine_eq fd (broadcastInDim S320000 ![] bcast_S_S320000 (constantI S_ 32 18#32))
    (Host.gather gather_S320000_S320000x1_S320000_n_0_n_n_0_1_1
      (addi (muli c0 (broadcastInDim S320000 ![] bcast_S_S320000 (constantI S_ 32 3#32))) c1) (starts o)) (ix1 j) 18 31 8
    (by omega) rfl (by rw [hg, h3]; omega) (by norm_num) (by norm_num)
  rw [h18, hg, h3]
  omega

theorem vb0_arg1 : VB0 V (r main_arg1) = V (r main_arg1) := by
  unfold VB0; rw [update_keep _ _ _ _ (by decide)]; exact (a0_keep V).1
theorem vb0_arg2 : VB0 V (r main_arg2) = V (r main_arg2) := by
  unfold VB0; rw [update_keep _ _ _ _ (by decide)]; exact (a0_keep V).2

def sigK : Fin 320000 → Fin 320000 :=
  sigma (rowV 1 slices_S2x320000_S1x320000_1_0 (V (r main_arg1) : Vec F S2x320000 .i32))

theorem sigK_bijective : Function.Bijective (sigK V) := sigma_bijective _

theorem v21_at (j : Fin 320000) : (VA1 V (r main_v21) : Vec F S320000 .i32) (ix1 j)
    = (V (r main_arg1) : Vec F S2x320000 .i32) (ix2 (0 : Fin 2) (sigK V j)) := by
  have e : (VA1 V (r main_v21) : Vec F S320000 .i32) = _ := e21 (VB0 V)
  rw [e, vb0_arg1 V, take_starts _ _ (sigma (rowV 1 slices_S2x320000_S1x320000_1_0 (V (r main_arg1)))) (argsort_apply _) j]
  exact rowV_apply (0 : Fin 2) _ _ _

theorem v28_at (j : Fin 320000) : (VA1 V (r main_v28) : Vec F S320000 .i32) (ix1 j)
    = (V (r main_arg1) : Vec F S2x320000 .i32) (ix2 (1 : Fin 2) (sigK V j)) := by
  have e : (VA1 V (r main_v28) : Vec F S320000 .i32) = _ := e28 (VB0 V)
  rw [e, vb0_arg1 V, take_starts _ _ (sigma (rowV 1 slices_S2x320000_S1x320000_1_0 (V (r main_arg1)))) (argsort_apply _) j]
  exact rowV_apply (1 : Fin 2) _ _ _

theorem v47_at (ha : ∀ j : S320000x2.Idx, ((V (r main_arg2) : Vec F S320000x2 .i32) j).toNat ≤ 2) (j : Fin 320000) :
    ((VA1 V (r main_v47) : Vec F S320000 .i32) (ix1 j)).toNat
      = (j.val / 10000) * 18 + (3 * ((V (r main_arg2) : Vec F S320000x2 .i32) (ix2 (sigK V j) (0 : Fin 2))).toNat
          + ((V (r main_arg2) : Vec F S320000x2 .i32) (ix2 (sigK V j) (1 : Fin 2))).toNat) := by
  have e : (VA1 V (r main_v47) : Vec F S320000 .i32) = _ := e47 (VB0 V)
  have hj := j.isLt
  rw [e, vb0_arg1 V, vb0_arg2 V]
  exact v47_core floorDivV _ _ _ (sigma (rowV 1 slices_S2x320000_S1x320000_1_0 (V (r main_arg1)))) (argsort_apply _) j _ _ _
    (floorDivV_apply j) (by omega)
    (congrArg BitVec.toNat (colV_apply (0 : Fin 2) _ _ _)) (ha _)
    (congrArg BitVec.toNat (colV_apply (1 : Fin 2) _ _ _)) (ha _)

set_option maxHeartbeats 2000000 in
theorem a2_keep28 (W : Valuation τ sig (Elt F)) : after opsA2 W (r main_v28) = W (r main_v28) := by
  dsimp only [opsA2]
  after_results_simp

set_option maxHeartbeats 2000000 in
theorem a3_keep28 (W : Valuation τ sig (Elt F)) : after opsA3 W (r main_v28) = W (r main_v28) := by
  dsimp only [opsA3]
  after_results_simp

theorem keepB1_v28 : VB1 V (r main_v28) = VA1 V (r main_v28) := by
  unfold VB1; exact update_keep _ _ _ _ (by decide)
theorem keep2_v21 : VA2 V (r main_v21) = VA1 V (r main_v21) := by
  unfold VA2; rw [(a2_keep _).1]; unfold VB1; exact update_keep _ _ _ _ (by decide)
theorem keep2_v28 : VA2 V (r main_v28) = VA1 V (r main_v28) := by
  unfold VA2; rw [a2_keep28]; exact keepB1_v28 V
theorem keep2_v47 : VA2 V (r main_v47) = VA1 V (r main_v47) := by
  unfold VA2; rw [(a2_keep _).2]; unfold VB1; exact update_keep _ _ _ _ (by decide)
theorem keepB2_v28 : VB2 V (r main_v28) = VA1 V (r main_v28) := by
  unfold VB2; rw [update_keep _ _ _ _ (by decide)]; exact keep2_v28 V
theorem keep3_v21 : VA3 V (r main_v21) = VA1 V (r main_v21) := by
  unfold VA3; rw [(a3_keep _).1]; unfold VB2; rw [update_keep _ _ _ _ (by decide)]; exact keep2_v21 V
theorem keep3_v28 : VA3 V (r main_v28) = VA1 V (r main_v28) := by
  unfold VA3; rw [a3_keep28]; exact keepB2_v28 V
theorem keep3_v47 : VA3 V (r main_v47) = VA1 V (r main_v47) := by
  unfold VA3; rw [(a3_keep _).2]; unfold VB2; rw [update_keep _ _ _ _ (by decide)]; exact keep2_v47 V
theorem keepB3_v28 : VB3 V (r main_v28) = VA1 V (r main_v28) := by
  unfold VB3; rw [update_keep _ _ _ _ (by decide)]; exact keep3_v28 V

end Cert.Value.K

end
-- ==== Proof.Value.KHead.lean ====
import proofs.«208129_g65403761983635_cont_9to1_m_1354_7_alg».proof.Proof.KI.Base
import proofs.«208129_g65403761983635_cont_9to1_m_1354_7_alg».proof.Proof.Value.Spec
import Idealize.ShloMosaic.Lib.ValueIdx
import Idealize.ShloMosaic.Lib.ValueLayout

noncomputable section

namespace Cert.Value.K

open Cert.KernelIdeal Cert.KernelIdeal.Gen Cert.KernelIdeal.Hand Cert.Value Idealize.ShloMosaic Idealize.ShloMosaic.ValueIdx Idealize.ShloMosaic.StableHlo

variable (V : Valuation Cert.KernelIdeal.τ Cert.KernelIdeal.sig (Elt Ideal))

theorem a0_arg3 : (VA0 V (r main_arg3) : Vec Ideal S119x128 .f32) = V (r main_arg3) := by
  unfold VA0
  dsimp only [opsA0]
  after_results

theorem a0_arg4 : (VA0 V (r main_arg4) : Vec Ideal S4x128 .f32) = V (r main_arg4) := by
  unfold VA0
  dsimp only [opsA0]
  after_results

theorem a0_v3_at (n : Fin 10240) (hn : n.val < 10000) :
    (VA0 V (r main_v3) : Vec Ideal S10240 .i32) (ix1 n) = (V (r main_arg0) : Vec Ideal S10000x2 .i32) (ix2 ⟨n.val, hn⟩ (1 - 1 : Fin 2)) := by
  unfold VA0
  dsimp only [opsA0]
  after_results
  rw [concatenate_pair_apply_left (t := S10240) (s₁ := S10000) (s₂ := S240) (0 : Fin 1) _ _ _ (ix1 n) rfl (ix1 (⟨n.val, hn⟩ : Fin 10000)) (fun b => by match b with | ⟨0, _⟩ => rfl)]
  show shapeCast S10000 (extractStridedSlice S10000x1 ![0, 0] (V (r main_arg0)) slices_S10000x2_S10000x1_0_0) shapeCasts_S10000x1_S10000 (ix1 (⟨n.val, hn⟩ : Fin 10000)) = _
  rw [shapeCast_apply _ _ (ix1 (⟨n.val, hn⟩ : Fin 10000)) (ix2 (⟨n.val, hn⟩ : Fin 10000) (0 : Fin 1)) (by
    rw [Shape.rowMajor_val_two, Shape.rowMajor_val_one]; show n.val * 1 + 0 = n.val; omega)]
  exact slice2_axis1_apply 0 _ _ ⟨n.val, hn⟩ (0 : Fin 1) (1 - 1 : Fin 2) rfl

theorem a0_v7_at (n : Fin 10240) (hn : n.val < 10000) :
    (VA0 V (r main_v7) : Vec Ideal S10240 .i32) (ix1 n) = (V (r main_arg0) : Vec Ideal S10000x2 .i32) (ix2 ⟨n.val, hn⟩ (1 : Fin 2)) := by
  unfold VA0
  dsimp only [opsA0]
  after_results
  rw [concatenate_pair_apply_left (t := S10240) (s₁ := S10000) (s₂ := S240) (0 : Fin 1) _ _ _ (ix1 n) rfl (ix1 (⟨n.val, hn⟩ : Fin 10000)) (fun b => by match b with | ⟨0, _⟩ => rfl)]
  show shapeCast S10000 (extractStridedSlice S10000x1 ![0, 1] (V (r main_arg0)) slices_S10000x2_S10000x1_0_1) shapeCasts_S10000x1_S10000 (ix1 (⟨n.val, hn⟩ : Fin 10000)) = _
  rw [shapeCast_apply _ _ (ix1 (⟨n.val, hn⟩ : Fin 10000)) (ix2 (⟨n.val, hn⟩ : Fin 10000) (0 : Fin 1)) (by
    rw [Shape.rowMajor_val_two, Shape.rowMajor_val_one]; show n.val * 1 + 0 = n.val; omega)]
  exact slice2_axis1_apply 1 _ _ ⟨n.val, hn⟩ (0 : Fin 1) (1 : Fin 2) rfl

set_option maxHeartbeats 2000000 in

theorem a1_v9 : (VA1 V (r main_v9) : Vec Ideal S10000x128 .f32)
    = extractStridedSlice S10000x128 ![0, 0] (out0 V) slices_S10240x128_S10000x128_0_0 := by
  unfold VA1
  dsimp only [opsA1]
  after_results_simp
  unfold VB0
  rw [Function.update_self]

theorem gadd_apply {F : FTy → Type} [FloatOps F] {R1 R2 N : ℕ} (h1 : 0 < R1) (h2 : 0 < R2) (t1 : Vec F ⟨2, ![R1, 128]⟩ .f32) (i1 : Vec F ⟨1, ![N]⟩ .i32)
    (t2 : Vec F ⟨2, ![R2, 128]⟩ .f32) (i2 : Vec F ⟨1, ![N]⟩ .i32) (n : Fin N) (l : Fin 128) :
    gadd h1 h2 t1 i1 t2 i2 (ix2 n l)
      = FloatOps.addf (φ := .f32)
          (t1 (ix2 (Cert.KernelIdeal.Hand.rowOf R1 h1 (i1 (ix1 (n := N) n))) l))
          (t2 (ix2 (Cert.KernelIdeal.Hand.rowOf R2 h2 (i2 (ix1 (n := N) n))) l)) := rfl

theorem hK0' (V : Valuation Cert.KernelIdeal.τ Cert.KernelIdeal.sig (Elt Ideal)) (hx : ∀ j : S10000x2.Idx, ((V (r main_arg0) : Vec Ideal S10000x2 .i32) j).toNat ≤ 3) : (VA1 V (r main_v9) : Vec Ideal S10000x128 .f32) = Cert.Value.h0 (V (r main_arg3)) (V (r main_arg4)) (V (r main_arg0)) := by
  rw [a1_v9]
  funext j
  obtain ⟨n, l, rfl⟩ : ∃ (n : Fin 10000) (l : Fin 128), j = ix2 n l := ⟨j 0, j 1, eq_ix2 j⟩
  have hn : n.val < 10240 := by omega
  rw [slice2_axis0_apply 0 (out0 V) slices_S10240x128_S10000x128_0_0 n l ⟨n.val, hn⟩ (Nat.zero_add _).symm]
  unfold out0
  rw [gadd_apply, a0_arg3, a0_arg4, a0_v3_at V ⟨n.val, hn⟩ n.isLt, a0_v7_at V ⟨n.val, hn⟩ n.isLt]
  rfl

end Cert.Value.K

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

noncomputable section

open scoped BigOperators

namespace Cert.Segment

open Idealize.ShloMosaic Idealize.ShloMosaic.ValueIdx
open Idealize.ShloMosaic.StableHlo.Predicate (ixP)

section Scatter

variable {N C E w : Nat} (d : ScatterDims ⟨2, ![N, C]⟩ ⟨2, ![E, 1]⟩ ⟨2, ![E, C]⟩)

private theorem ix2_val_of_eq_zero {n0 n1 : Nat} (a : Fin n0) (b : Fin n1) (X : Fin 2) (hX : X = 0) :
    ((ix2 a b) X).val = a.val := by
  subst hX; rfl

private theorem ix2_val_of_eq_one {n0 n1 : Nat} (a : Fin n0) (b : Fin n1) (X : Fin 2) (hX : X = 1) :
    ((ix2 a b) X).val = b.val := by
  subst hX; rfl

private theorem fin2_eq_zero {X : Fin 2} (h : X ≠ 1) : X = 0 :=
  match X, h with
  | ⟨0, _⟩, _ => rfl
  | ⟨1, _⟩, h => absurd rfl h

private theorem uScatter_eq_zero (huw : d.updateWindowDims = [1]) (X : Fin 2) (hX : X ∈ d.uScatter) : X = 0 := by
  have h2 := (List.mem_filter.1 hX).2
  rw [huw] at h2
  exact fin2_eq_zero (by simpa using h2)

theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>

    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1

  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

section Gather

variable {α : Type} {N C E w : Nat} (d : GatherDims ⟨2, ![N, C]⟩ ⟨2, ![E, 1]⟩ ⟨2, ![E, C]⟩)

private theorem batchDims_eq_zero (hoff : d.offsetDims = [1]) (X : Fin 2) (hX : X ∈ d.batchDims) : X = 0 := by
  have h2 := (List.mem_filter.1 hX).2
  rw [hoff] at h2
  exact fin2_eq_zero (by simpa using h2)

theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>

    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  ·
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  ·
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.Value.KSide.lean ====
import proofs.«208129_g65403761983635_cont_9to1_m_1354_7_alg».proof.Proof.KI.Base
import proofs.«208129_g65403761983635_cont_9to1_m_1354_7_alg».proof.Proof.Value.Spec
import proofs.«208129_g65403761983635_cont_9to1_m_1354_7_alg».proof.Proof.Value.KIdx
import proofs.«208129_g65403761983635_cont_9to1_m_1354_7_alg».proof.Proof.Value.KHead
import proofs.«208129_g65403761983635_cont_9to1_m_1354_7_alg».proof.Proof.LibSegment
import Idealize.ShloMosaic.PureOps.Ideal.Laws
import Idealize.ShloMosaic.Lib.SortFacts
import Idealize.ShloMosaic.Lib.StableHlo.Predicate
import Idealize.ShloMosaic.Lib.ValueLayout

noncomputable section

open scoped BigOperators

namespace Cert.Value.K

open Idealize.ShloMosaic Idealize.ShloMosaic.ValueIdx Idealize.ShloMosaic.StableHlo
open Cert.KernelIdeal Cert.KernelIdeal.Gen Cert.KernelIdeal.Hand Cert.Value

variable (V : Valuation τ sig (Elt Ideal))

def tabOf (l : ℕ) (h6 : S3x6x128.Slices ![l, 0, 0] S1x6x128) (h3 : S3x3x128.Slices ![l, 0, 0] S1x3x128)
    (t1 : Vec Ideal S3x6x128 .f32) (t2 : Vec Ideal S3x3x128 .f32) : Vec Ideal S576x128 .f32 :=
  shapeCast S576x128
    (broadcastInDim S32x18x1x128 ![0, 1, 2, 3] bcast_S1x18x1x128_S32x18x1x128_0_1_2_3
      (shapeCast S1x18x1x128
        (shapeCast S18x128
          (addf (F := Ideal) (φ := .f32)
            (broadcastInDim S6x3x128 ![0, 1, 2] bcast_S6x1x128_S6x3x128_0_1_2
              (broadcastInDim S6x1x128 ![0, 2] bcast_S6x128_S6x1x128_0_2
                (shapeCast S6x128 (extractStridedSlice S1x6x128 ![l, 0, 0] t1 h6) shapeCasts_S1x6x128_S6x128)))
            (broadcastInDim S6x3x128 ![0, 1, 2] bcast_S1x3x128_S6x3x128_0_1_2
              (broadcastInDim S1x3x128 ![1, 2] bcast_S3x128_S1x3x128_1_2
                (shapeCast S3x128 (extractStridedSlice S1x3x128 ![l, 0, 0] t2 h3) shapeCasts_S1x3x128_S3x128))))
          shapeCasts_S6x3x128_S18x128)
        shapeCasts_S18x128_S1x18x1x128))
    shapeCasts_S32x18x1x128_S576x128

theorem blk6_apply (t : Vec Ideal S3x6x128 .f32) (l : Fin 3) (a : Fin 6) (lane : Fin 128) :
    blk6 t l (ix2 a lane) = t (ix3 l a lane) := by
  unfold blk6
  refine congrArg t (funext fun d => ?_)
  match d with
  | ⟨0, _⟩ => rfl
  | ⟨1, _⟩ => rfl
  | ⟨2, _⟩ => rfl

theorem blk3_apply (t : Vec Ideal S3x3x128 .f32) (l : Fin 3) (c : Fin 3) (lane : Fin 128) :
    blk3 t l (ix2 c lane) = t (ix3 l c lane) := by
  unfold blk3
  refine congrArg t (funext fun d => ?_)
  match d with
  | ⟨0, _⟩ => rfl
  | ⟨1, _⟩ => rfl
  | ⟨2, _⟩ => rfl

theorem tabOf_apply (l : Fin 3) (h6 : S3x6x128.Slices ![l.val, 0, 0] S1x6x128) (h3 : S3x3x128.Slices ![l.val, 0, 0] S1x3x128)
    (t1 : Vec Ideal S3x6x128 .f32) (t2 : Vec Ideal S3x3x128 .f32) (B : Fin 32) (a : Fin 6) (c : Fin 3) (lane : Fin 128)
    (row : Fin 576) (hrow : row.val = 18 * B.val + (3 * a.val + c.val)) :
    tabOf l.val h6 h3 t1 t2 (ix2 row lane) = blk6 t1 l (ix2 a lane) + blk3 t2 l (ix2 c lane) := by
  have ha := a.isLt
  have hc := c.isLt
  have hB := B.isLt
  have hl := lane.isLt
  rw [blk6_apply, blk3_apply]
  unfold tabOf

  refine (shapeCast_apply (s := S32x18x1x128) (t := S576x128) _ _ (ix2 row lane)
    (ix4 B (⟨3 * a.val + c.val, by omega⟩ : Fin 18) (0 : Fin 1) lane) ?_).trans ?_
  · rw [Shape.rowMajor_val_four, Shape.rowMajor_val_two]
    show ((B.val * 18 + (3 * a.val + c.val)) * 1 + 0) * 128 + lane.val = row.val * 128 + lane.val
    omega
  refine (broadcastInDim_apply (s := S1x18x1x128) (t := S32x18x1x128) _ _ _ _
    (ix4 (0 : Fin 1) (⟨3 * a.val + c.val, by omega⟩ : Fin 18) (0 : Fin 1) lane) ?_).trans ?_
  · intro d
    match d with
    | ⟨0, _⟩ => rfl
    | ⟨1, _⟩ => rfl
    | ⟨2, _⟩ => rfl
    | ⟨3, _⟩ => rfl
  refine (shapeCast_apply (s := S18x128) (t := S1x18x1x128) _ _ _ (ix2 (⟨3 * a.val + c.val, by omega⟩ : Fin 18) lane) ?_).trans ?_
  · rw [Shape.rowMajor_val_four, Shape.rowMajor_val_two]
    show (3 * a.val + c.val) * 128 + lane.val = ((0 * 18 + (3 * a.val + c.val)) * 1 + 0) * 128 + lane.val
    omega
  refine (shapeCast_apply (s := S6x3x128) (t := S18x128) _ _ _ (ix3 a c lane) ?_).trans ?_
  · rw [Shape.rowMajor_val_three, Shape.rowMajor_val_two]
    show (a.val * 3 + c.val) * 128 + lane.val = (3 * a.val + c.val) * 128 + lane.val
    omega
  show _ + _ = _ + _
  congr 1
  · refine (broadcastInDim_apply (s := S6x1x128) (t := S6x3x128) _ _ _ _ (ix3 a (0 : Fin 1) lane) ?_).trans ?_
    · intro d
      match d with
      | ⟨0, _⟩ => rfl
      | ⟨1, _⟩ => rfl
      | ⟨2, _⟩ => rfl
    refine (broadcastInDim_apply (s := S6x128) (t := S6x1x128) _ _ _ _ (ix2 a lane) ?_).trans ?_
    · intro d
      match d with
      | ⟨0, _⟩ => rfl
      | ⟨1, _⟩ => rfl
    refine (shapeCast_1ab_ab_apply _ _ a lane).trans ?_
    refine extractStridedSlice_apply (s := S3x6x128) (t := S1x6x128) _ t1 h6 _ (ix3 l a lane) ?_
    intro d
    match d with
    | ⟨0, _⟩ => show l.val = l.val + 0; omega
    | ⟨1, _⟩ => show a.val = 0 + a.val; omega
    | ⟨2, _⟩ => show lane.val = 0 + lane.val; omega
  · refine (broadcastInDim_apply (s := S1x3x128) (t := S6x3x128) _ _ _ _ (ix3 (0 : Fin 1) c lane) ?_).trans ?_
    · intro d
      match d with
      | ⟨0, _⟩ => rfl
      | ⟨1, _⟩ => rfl
      | ⟨2, _⟩ => rfl
    refine (broadcastInDim_apply (s := S3x128) (t := S1x3x128) _ _ _ _ (ix2 c lane) ?_).trans ?_
    · intro d
      match d with
      | ⟨0, _⟩ => rfl
      | ⟨1, _⟩ => rfl
    refine (shapeCast_1ab_ab_apply _ _ c lane).trans ?_
    refine extractStridedSlice_apply (s := S3x3x128) (t := S1x3x128) _ t2 h3 _ (ix3 l c lane) ?_
    intro d
    match d with
    | ⟨0, _⟩ => show l.val = l.val + 0; omega
    | ⟨1, _⟩ => show c.val = 0 + c.val; omega
    | ⟨2, _⟩ => show lane.val = 0 + lane.val; omega

theorem ofFin_eq_ix1 {n : ℕ} (p : Fin n) : Shape.Idx.ofFin p = (ix1 p : (⟨1, ![n]⟩ : Shape).Idx) := by
  funext a
  match a with
  | ⟨0, _⟩ => exact Fin.ext rfl

theorem layer_agg (σ : Fin 320000 → Fin 320000) (hσ : Function.Bijective σ)
    (ei : Vec Ideal S2x320000 .i32) (ea : Vec Ideal S320000x2 .i32) (ha : ∀ j, (ea j).toNat ≤ 2)
    (l : Fin 3) (t1 : Vec Ideal S3x6x128 .f32) (t2 : Vec Ideal S3x3x128 .f32)
    (h : Vec Ideal S10000x128 .f32) (i1 i2 dcol : Vec Ideal S320000 .i32) (tab : Vec Ideal S576x128 .f32)
    (h1 : ∀ j : Fin 320000, i1 (ix1 j) = ei (ix2 (0 : Fin 2) (σ j)))
    (h2 : ∀ j : Fin 320000, (i2 (ix1 j)).toNat
      = (j.val / 10000) * 18 + (3 * (ea (ix2 (σ j) (0 : Fin 2))).toNat + (ea (ix2 (σ j) (1 : Fin 2))).toNat))
    (hd : ∀ j : Fin 320000, dcol (ix1 j) = ei (ix2 (1 : Fin 2) (σ j)))
    (htab : ∀ (B : Fin 32) (a : Fin 6) (c : Fin 3) (lane : Fin 128) (row : Fin 576),
      row.val = 18 * B.val + (3 * a.val + c.val) → tab (ix2 row lane) = blk6 t1 l (ix2 a lane) + blk3 t2 l (ix2 c lane)) :
    Host.scatterAdd scatter_S10000x128_S320000x1_S320000x128_1_0_0_1
        (broadcastInDim S10000x128 ![] bcast_S_S10000x128 (constant S_ FTy.f32 0#32))
        (broadcastInDim S320000x1 ![0] bcast_S320000_S320000x1_0 dcol)
        (gadd (R1 := 10000) (R2 := 576) (N := 320000) (by decide) (by decide) h i1 tab i2)
      = agg (msg h (blk6 t1 l) (blk3 t2 l) ei ea) ei := by
  funext jj
  obtain ⟨n, lane, rfl⟩ : ∃ n lane, jj = ix2 n lane := ⟨_, _, eq_ix2 jj⟩
  have hmsg : ∀ j : Fin 320000,
      gadd (R1 := 10000) (R2 := 576) (N := 320000) (by decide) (by decide) h i1 tab i2 (ix2 j lane)
        = msg h (blk6 t1 l) (blk3 t2 l) ei ea (ix2 (σ j) lane) := by
    intro j
    have ha0 := ha (ix2 (σ j) (0 : Fin 2))
    have ha1 := ha (ix2 (σ j) (1 : Fin 2))
    have hj := j.isLt
    have e2 := h2 j
    show h (ix2 (Cert.Value.rowOf 10000 (by decide) (i1 (ix1 j))) lane) + tab (ix2 (Cert.Value.rowOf 576 (by decide) (i2 (ix1 j))) lane)
      = h (ix2 (Cert.Value.rowOf 10000 (by decide) (ei (ix2 (0 : Fin 2) (σ j)))) lane)
        + (blk6 t1 l (ix2 (Cert.Value.rowOf 6 (by decide) (ea (ix2 (σ j) (0 : Fin 2)))) lane)
          + blk3 t2 l (ix2 (Cert.Value.rowOf 3 (by decide) (ea (ix2 (σ j) (1 : Fin 2)))) lane))
    rw [h1 j]
    congr 1
    refine htab ⟨j.val / 10000, by omega⟩ _ _ lane _ ?_
    unfold Cert.Value.rowOf
    rw [dif_pos (show (i2 (ix1 j)).toNat < 576 by omega), dif_pos (show (ea (ix2 (σ j) (0 : Fin 2))).toNat < 6 by omega),
      dif_pos (show (ea (ix2 (σ j) (1 : Fin 2))).toNat < 3 by omega)]
    show (i2 (ix1 j)).toNat = 18 * (j.val / 10000) + (3 * (ea (ix2 (σ j) (0 : Fin 2))).toNat + (ea (ix2 (σ j) (1 : Fin 2))).toNat)
    omega
  show Ideal.hostScatterAdd scatter_S10000x128_S320000x1_S320000x128_1_0_0_1 _ _ _ (ix2 n lane) = _
  rw [Cert.Segment.hostScatterAdd_rows _ rfl rfl rfl rfl]
  rw [show (broadcastInDim S10000x128 ![] bcast_S_S10000x128 (constant (F := Ideal) S_ FTy.f32 0#32)) (ix2 n lane) = 0
    from Ideal.ofBits_zero_f32, zero_add]
  show _ = ∑ e ∈ Finset.univ.filter (fun e : Fin 320000 => (ei (ix2 (1 : Fin 2) e)).toInt = (n.val : ℤ)),
    msg h (blk6 t1 l) (blk3 t2 l) ei ea (ix2 e lane)
  rw [Finset.sum_filter, Finset.sum_filter,
    ← Equiv.sum_comp (Equiv.ofBijective σ hσ) (fun e' : Fin 320000 =>
      if (ei (ix2 (1 : Fin 2) e')).toInt = (n.val : ℤ) then msg h (blk6 t1 l) (blk3 t2 l) ei ea (ix2 e' lane) else 0)]
  refine Finset.sum_congr rfl fun e _ => ?_
  show (if (broadcastInDim S320000x1 ![0] bcast_S320000_S320000x1_0 dcol (Predicate.ixP e)).toInt = (n.val : ℤ) then _ else 0)
    = if (ei (ix2 (1 : Fin 2) (σ e))).toInt = (n.val : ℤ) then msg h (blk6 t1 l) (blk3 t2 l) ei ea (ix2 (σ e) lane) else 0
  rw [Predicate.bcast_col1, ofFin_eq_ix1, hd e, hmsg e]

theorem a0_keep_tabs (W : Valuation τ sig (Elt Ideal)) :
    after opsA0 W (r main_arg5) = W (r main_arg5) ∧ after opsA0 W (r main_arg6) = W (r main_arg6) := by
  dsimp only [opsA0]
  constructor <;> after_results

set_option maxHeartbeats 2000000 in
theorem a1_keep_tabs (W : Valuation τ sig (Elt Ideal)) :
    after opsA1 W (r main_arg5) = W (r main_arg5) ∧ after opsA1 W (r main_arg6) = W (r main_arg6) := by
  dsimp only [opsA1]
  constructor <;> after_results_simp

set_option maxHeartbeats 2000000 in
theorem a2_keep_tabs (W : Valuation τ sig (Elt Ideal)) :
    after opsA2 W (r main_arg5) = W (r main_arg5) ∧ after opsA2 W (r main_arg6) = W (r main_arg6) := by
  dsimp only [opsA2]
  constructor <;> after_results_simp

theorem VB0_arg5 : VB0 V (r main_arg5) = V (r main_arg5) := by
  unfold VB0; rw [update_keep _ _ _ _ (by decide)]; exact (a0_keep_tabs V).1
theorem VB0_arg6 : VB0 V (r main_arg6) = V (r main_arg6) := by
  unfold VB0; rw [update_keep _ _ _ _ (by decide)]; exact (a0_keep_tabs V).2
theorem VB1_arg5 : VB1 V (r main_arg5) = V (r main_arg5) := by
  unfold VB1; rw [update_keep _ _ _ _ (by decide)]; unfold VA1; rw [(a1_keep_tabs _).1]; exact VB0_arg5 V
theorem VB1_arg6 : VB1 V (r main_arg6) = V (r main_arg6) := by
  unfold VB1; rw [update_keep _ _ _ _ (by decide)]; unfold VA1; rw [(a1_keep_tabs _).2]; exact VB0_arg6 V
theorem VB2_arg5 : VB2 V (r main_arg5) = V (r main_arg5) := by
  unfold VB2; rw [update_keep _ _ _ _ (by decide)]; unfold VA2; rw [(a2_keep_tabs _).1]; exact VB1_arg5 V
theorem VB2_arg6 : VB2 V (r main_arg6) = V (r main_arg6) := by
  unfold VB2; rw [update_keep _ _ _ _ (by decide)]; unfold VA2; rw [(a2_keep_tabs _).2]; exact VB1_arg6 V

set_option maxHeartbeats 2000000 in
theorem v60_eq : (VA1 V (r main_v60) : Vec Ideal S576x128 .f32)
    = tabOf 0 slices_S3x6x128_S1x6x128_0_0_0 slices_S3x3x128_S1x3x128_0_0_0 (V (r main_arg5)) (V (r main_arg6)) := by
  unfold VA1
  dsimp only [opsA1]
  after_results_simp
  rw [VB0_arg5, VB0_arg6]
  rfl

set_option maxHeartbeats 2000000 in
theorem v133_eq : (VA2 V (r main_v133) : Vec Ideal S576x128 .f32)
    = tabOf 1 slices_S3x6x128_S1x6x128_1_0_0 slices_S3x3x128_S1x3x128_1_0_0 (V (r main_arg5)) (V (r main_arg6)) := by
  unfold VA2
  dsimp only [opsA2]
  after_results_simp
  rw [VB1_arg5, VB1_arg6]
  rfl

set_option maxHeartbeats 2000000 in
theorem v206_eq : (VA3 V (r main_v206) : Vec Ideal S576x128 .f32)
    = tabOf 2 slices_S3x6x128_S1x6x128_2_0_0 slices_S3x3x128_S1x3x128_2_0_0 (V (r main_arg5)) (V (r main_arg6)) := by
  unfold VA3
  dsimp only [opsA3]
  after_results_simp
  rw [VB2_arg5, VB2_arg6]
  rfl

set_option maxHeartbeats 2000000 in
theorem v64_eq : (VA2 V (r main_v64) : Vec Ideal S10000x128 .f32)
    = Host.scatterAdd scatter_S10000x128_S320000x1_S320000x128_1_0_0_1
        (broadcastInDim S10000x128 ![] bcast_S_S10000x128 (constant S_ FTy.f32 0#32))
        (broadcastInDim S320000x1 ![0] bcast_S320000_S320000x1_0 (VA1 V (r main_v28))) (out1 V) := by
  unfold VA2
  dsimp only [opsA2]
  after_results_simp
  rw [keepB1_v28]
  unfold VB1
  rw [Function.update_self]

set_option maxHeartbeats 2000000 in
theorem v137_eq : (VA3 V (r main_v137) : Vec Ideal S10000x128 .f32)
    = Host.scatterAdd scatter_S10000x128_S320000x1_S320000x128_1_0_0_1
        (broadcastInDim S10000x128 ![] bcast_S_S10000x128 (constant S_ FTy.f32 0#32))
        (broadcastInDim S320000x1 ![0] bcast_S320000_S320000x1_0 (VA1 V (r main_v28))) (out2 V) := by
  unfold VA3
  dsimp only [opsA3]
  after_results_simp
  rw [keepB2_v28]
  unfold VB2
  rw [Function.update_self]

set_option maxHeartbeats 2000000 in
theorem v210_eq : (VA4 V (r main_v210) : Vec Ideal S10000x128 .f32)
    = Host.scatterAdd scatter_S10000x128_S320000x1_S320000x128_1_0_0_1
        (broadcastInDim S10000x128 ![] bcast_S_S10000x128 (constant S_ FTy.f32 0#32))
        (broadcastInDim S320000x1 ![0] bcast_S320000_S320000x1_0 (VA1 V (r main_v28))) (out3 V) := by
  unfold VA4
  dsimp only [opsA4]
  after_results_simp
  rw [keepB3_v28]
  unfold VB3
  rw [Function.update_self]

structure Ranges : Prop where
  hx : ∀ j : S10000x2.Idx, ((V (r main_arg0) : Vec Ideal S10000x2 .i32) j).toNat ≤ 3
  he : ∀ j : S2x320000.Idx, ((V (r main_arg1) : Vec Ideal S2x320000 .i32) j).toNat ≤ 9999
  ha : ∀ j : S320000x2.Idx, ((V (r main_arg2) : Vec Ideal S320000x2 .i32) j).toNat ≤ 2

theorem hK0 (hR : Ranges V) : (VA1 V (r main_v9) : Vec Ideal S10000x128 .f32) = h0 (V (r main_arg3)) (V (r main_arg4)) (V (r main_arg0)) :=
  hK0' V hR.hx

theorem aggK0 (hR : Ranges V) : (VA2 V (r main_v64) : Vec Ideal S10000x128 .f32)
    = agg (msg (VA1 V (r main_v9)) (blk6 (V (r main_arg5)) 0) (blk3 (V (r main_arg6)) 0) (V (r main_arg1)) (V (r main_arg2))) (V (r main_arg1)) := by
  rw [v64_eq]
  unfold out1
  rw [v60_eq]
  exact layer_agg (sigK V) (sigK_bijective V) _ _ hR.ha 0 _ _ _ _ _ _ _ (v21_at V) (v47_at V hR.ha) (v28_at V)
    (fun B a c lane row hrow => tabOf_apply 0 _ _ _ _ B a c lane row hrow)
theorem aggK1 (hR : Ranges V) : (VA3 V (r main_v137) : Vec Ideal S10000x128 .f32)
    = agg (msg (VA2 V (r main_v120)) (blk6 (V (r main_arg5)) 1) (blk3 (V (r main_arg6)) 1) (V (r main_arg1)) (V (r main_arg2))) (V (r main_arg1)) := by
  rw [v137_eq]
  unfold out2
  rw [v133_eq, keep2_v21, keep2_v47]
  exact layer_agg (sigK V) (sigK_bijective V) _ _ hR.ha 1 _ _ _ _ _ _ _ (v21_at V) (v47_at V hR.ha) (v28_at V)
    (fun B a c lane row hrow => tabOf_apply 1 _ _ _ _ B a c lane row hrow)
theorem aggK2 (hR : Ranges V) : (VA4 V (r main_v210) : Vec Ideal S10000x128 .f32)
    = agg (msg (VA3 V (r main_v193)) (blk6 (V (r main_arg5)) 2) (blk3 (V (r main_arg6)) 2) (V (r main_arg1)) (V (r main_arg2))) (V (r main_arg1)) := by
  rw [v210_eq]
  unfold out3
  rw [v206_eq, keep3_v21, keep3_v47]
  exact layer_agg (sigK V) (sigK_bijective V) _ _ hR.ha 2 _ _ _ _ _ _ _ (v21_at V) (v47_at V hR.ha) (v28_at V)
    (fun B a c lane row hrow => tabOf_apply 2 _ _ _ _ B a c lane row hrow)

end Cert.Value.K

end
-- ==== Proof.Value.RSide.lean ====
import proofs.«208129_g65403761983635_cont_9to1_m_1354_7_alg».proof.Proof.Ref.Ops
import proofs.«208129_g65403761983635_cont_9to1_m_1354_7_alg».proof.Proof.Value.Spec
import proofs.«208129_g65403761983635_cont_9to1_m_1354_7_alg».proof.Proof.LibSegment
import Idealize.ShloMosaic.PureOps.Ideal.Laws
import Idealize.ShloMosaic.Lib.StableHlo.Predicate
import Idealize.ShloMosaic.Lib.ValueLayout

noncomputable section

open scoped BigOperators

namespace Cert.Value.R

open Idealize.ShloMosaic Idealize.ShloMosaic.ValueIdx Idealize.ShloMosaic.StableHlo
open Cert.ReferenceIdeal Cert.ReferenceIdeal.Gen Cert.ReferenceIdeal.Hand Cert.Value

variable (V : Valuation τ sig (Elt Ideal))

abbrev r (b : Ref sig .tc) : DevRef τ sig := Proc.devRef .tc b

def W : Valuation τ sig (Elt Ideal) := after opsA0 V

structure Ranges : Prop where
  hx : ∀ j : S10000x2.Idx, ((V (r main_arg0) : Vec Ideal S10000x2 .i32) j).toNat ≤ 3
  he : ∀ j : S2x320000.Idx, ((V (r main_arg1) : Vec Ideal S2x320000 .i32) j).toNat ≤ 9999
  ha : ∀ j : S320000x2.Idx, ((V (r main_arg2) : Vec Ideal S320000x2 .i32) j).toNat ≤ 2

def xcol0 (x : IVec S10000x2 32) : IVec S10000 32 :=
  shapeCast S10000 (extractStridedSlice S10000x1 ![0, 0] x slices_S10000x2_S10000x1_0_0) shapeCasts_S10000x1_S10000

def xcol1 (x : IVec S10000x2 32) : IVec S10000 32 :=
  shapeCast S10000 (extractStridedSlice S10000x1 ![0, 1] x slices_S10000x2_S10000x1_0_1) shapeCasts_S10000x1_S10000

def eirow0 (ei : IVec S2x320000 32) : IVec S320000 32 :=
  shapeCast S320000 (extractStridedSlice S1x320000 ![0, 0] ei slices_S2x320000_S1x320000_0_0) shapeCasts_S1x320000_S320000

def eirow1 (ei : IVec S2x320000 32) : IVec S320000 32 :=
  shapeCast S320000 (extractStridedSlice S1x320000 ![1, 0] ei slices_S2x320000_S1x320000_1_0) shapeCasts_S1x320000_S320000

def eacol0 (ea : IVec S320000x2 32) : IVec S320000 32 :=
  shapeCast S320000 (extractStridedSlice S320000x1 ![0, 0] ea slices_S320000x2_S320000x1_0_0) shapeCasts_S320000x1_S320000

def eacol1 (ea : IVec S320000x2 32) : IVec S320000 32 :=
  shapeCast S320000 (extractStridedSlice S320000x1 ![0, 1] ea slices_S320000x2_S320000x1_0_1) shapeCasts_S320000x1_S320000

def neg {s : Shape} (hb : S_.BroadcastsInDim s (![] : Fin 0 → Fin s.rank)) (v : IVec s 32) : IVec s 1 :=
  cmpi .slt v (broadcastInDim s ![] hb (constantI S_ 32 0#32))

def plus {s : Shape} (hb : S_.BroadcastsInDim s (![] : Fin 0 → Fin s.rank)) (n : BitVec 32) (v : IVec s 32) : IVec s 32 :=
  addi v (broadcastInDim s ![] hb (constantI S_ 32 n))

def wrap {s : Shape} (hb : S_.BroadcastsInDim s (![] : Fin 0 → Fin s.rank)) (n : BitVec 32) (v : IVec s 32) : IVec s 32 :=
  select (neg hb v) (plus hb n v) v

def colN (v : IVec S10000 32) : IVec S10000x1 32 := broadcastInDim S10000x1 ![0] bcast_S10000_S10000x1_0 v

def colE (v : IVec S320000 32) : IVec S320000x1 32 := broadcastInDim S320000x1 ![0] bcast_S320000_S320000x1_0 v

def tab6 (l : ℕ) (hs : S3x6x128.Slices ![l, 0, 0] S1x6x128) (t : FVec Ideal S3x6x128 .f32) : FVec Ideal S6x128 .f32 :=
  shapeCast S6x128 (extractStridedSlice S1x6x128 ![l, 0, 0] t hs) shapeCasts_S1x6x128_S6x128

def tab3 (l : ℕ) (hs : S3x3x128.Slices ![l, 0, 0] S1x3x128) (t : FVec Ideal S3x3x128 .f32) : FVec Ideal S3x128 .f32 :=
  shapeCast S3x128 (extractStridedSlice S1x3x128 ![l, 0, 0] t hs) shapeCasts_S1x3x128_S3x128

def h0R (a1 : FVec Ideal S119x128 .f32) (a2 : FVec Ideal S4x128 .f32) (x : IVec S10000x2 32) : FVec Ideal S10000x128 .f32 :=
  addf (Host.gather gather_S119x128_S10000x1_S10000x128_1_0_n_n_0_1_1128 a1 (colN (wrap bcast_S_S10000 119#32 (xcol0 x))))
    (Host.gather gather_S4x128_S10000x1_S10000x128_1_0_n_n_0_1_1128 a2 (colN (wrap bcast_S_S10000 4#32 (xcol1 x))))

def eembR (e1 : FVec Ideal S6x128 .f32) (e2 : FVec Ideal S3x128 .f32) (i0 i1 : IVec S320000 32) : FVec Ideal S320000x128 .f32 :=
  addf (Host.gather gather_S6x128_S320000x1_S320000x128_1_0_n_n_0_1_1128 e1 (colE (wrap bcast_S_S320000 6#32 i0)))
    (Host.gather gather_S3x128_S320000x1_S320000x128_1_0_n_n_0_1_1128 e2 (colE (wrap bcast_S_S320000 3#32 i1)))

def aggR' (h : FVec Ideal S10000x128 .f32) (ee : FVec Ideal S320000x128 .f32) (srcCol : IVec S320000x1 32) (dst : IVec S320000 32) :
    FVec Ideal S10000x128 .f32 :=
  Host.scatterAdd scatter_S10000x128_S320000x1_S320000x128_1_0_0_1
    (broadcastInDim S10000x128 ![] bcast_S_S10000x128 (constant S_ .f32 0x00000000#32)) (colE dst)
    (addf (Host.gather gather_S10000x128_S320000x1_S320000x128_1_0_n_n_0_1_1128 h srcCol) ee)

def aggR (h : FVec Ideal S10000x128 .f32) (ee : FVec Ideal S320000x128 .f32) (src dst : IVec S320000 32) :
    FVec Ideal S10000x128 .f32 :=
  aggR' h ee (colE (wrap bcast_S_S320000 10000#32 src)) dst

section Reads
variable (X : Valuation τ sig (Elt Ideal))

theorem w0_v18 : (after (opsA0_w0 (F := Ideal)) X (r main_v18) : Vec Ideal S10000x128 .f32)
    = h0R (X (r main_arg3)) (X (r main_arg4)) (X (r main_arg0)) := by
  after_results_simp
  try rfl
theorem w0_v20 : (after (opsA0_w0 (F := Ideal)) X (r main_v20) : Vec Ideal S320000 .i32) = eirow0 (X (r main_arg1)) := by
  after_results_simp
  try rfl
theorem w0_v22 : (after (opsA0_w0 (F := Ideal)) X (r main_v22) : Vec Ideal S320000 .i32) = eirow1 (X (r main_arg1)) := by
  after_results_simp
  try rfl
theorem w0_v45 : (after (opsA0_w0 (F := Ideal)) X (r main_v45) : Vec Ideal S320000x128 .f32)
    = eembR (tab6 0 slices_S3x6x128_S1x6x128_0_0_0 (X (r main_arg5))) (tab3 0 slices_S3x3x128_S1x3x128_0_0_0 (X (r main_arg6)))
        (eacol0 (X (r main_arg2))) (eacol1 (X (r main_arg2))) := by
  after_results_simp
  try rfl
theorem w0_v47 : (after (opsA0_w0 (F := Ideal)) X (r main_v47) : Vec Ideal S320000 .i1)
    = neg bcast_S_S320000 (eirow0 (X (r main_arg1))) := by
  after_results_simp
  try rfl
theorem w0_v49 : (after (opsA0_w0 (F := Ideal)) X (r main_v49) : Vec Ideal S320000 .i32)
    = plus bcast_S_S320000 10000#32 (eirow0 (X (r main_arg1))) := by
  after_results_simp
  try rfl

theorem w1_v56 : (after (opsA0_w1 (F := Ideal)) X (r main_v56) : Vec Ideal S10000x128 .f32)
    = aggR' (X (r main_v18)) (X (r main_v45)) (colE (select (X (r main_v47)) (X (r main_v49)) (X (r main_v20)))) (X (r main_v22)) := by
  after_results_simp
  try rfl

theorem w2_v146 : (after (opsA0_w2 (F := Ideal)) X (r main_v146) : Vec Ideal S10000x128 .f32)
    = aggR (after (opsA0_w2 (F := Ideal)) X (r main_v112))
        (eembR (tab6 1 slices_S3x6x128_S1x6x128_1_0_0 (X (r main_arg5))) (tab3 1 slices_S3x3x128_S1x3x128_1_0_0 (X (r main_arg6)))
          (eacol0 (X (r main_arg2))) (eacol1 (X (r main_arg2))))
        (X (r main_v20)) (X (r main_v22)) := by
  after_results_simp
  try rfl

theorem w3_v204 : (after (opsA0_w3 (F := Ideal)) X (r main_v204) : Vec Ideal S6x128 .f32)
    = tab6 2 slices_S3x6x128_S1x6x128_2_0_0 (X (r main_arg5)) := by
  after_results_simp
  try rfl
theorem w3_v206 : (after (opsA0_w3 (F := Ideal)) X (r main_v206) : Vec Ideal S320000 .i32) = eacol0 (X (r main_arg2)) := by
  after_results_simp
  try rfl
theorem w3_v208 : (after (opsA0_w3 (F := Ideal)) X (r main_v208) : Vec Ideal S320000 .i1)
    = neg bcast_S_S320000 (eacol0 (X (r main_arg2))) := by
  after_results_simp
  try rfl

theorem w4_v236 : (after (opsA0_w4 (F := Ideal)) X (r main_v236) : Vec Ideal S10000x128 .f32)
    = aggR (X (r main_v202))
        (addf (Host.gather gather_S6x128_S320000x1_S320000x128_1_0_n_n_0_1_1128 (X (r main_v204))
            (colE (select (X (r main_v208)) (plus bcast_S_S320000 6#32 (X (r main_v206))) (X (r main_v206)))))
          (Host.gather gather_S3x128_S320000x1_S320000x128_1_0_n_n_0_1_1128 (tab3 2 slices_S3x3x128_S1x3x128_2_0_0 (X (r main_arg6)))
            (colE (wrap bcast_S_S320000 3#32 (eacol1 (X (r main_arg2)))))))
        (X (r main_v20)) (X (r main_v22)) := by
  after_results_simp
  try rfl
end Reads

section Pure
open Idealize.ShloMosaic.StableHlo.Predicate (ixP toInt_eq_toNat_of_lt slt_iff_toNat bcast_col1)

theorem wrap_apply {s : Shape} (hb : S_.BroadcastsInDim s (![] : Fin 0 → Fin s.rank)) (n : BitVec 32) (v : IVec s 32) (j : s.Idx)
    (h : (v j).toNat < 2 ^ 31) : wrap hb n v j = v j := by
  have h0 : IntOp.cmpi .slt (v j) 0#32 = 0#1 :=
    eq_zero_of_ne_one fun h1 => Nat.not_lt_zero _ ((slt_iff_toNat h (by decide)).mp h1)
  show Scalar.select (IntOp.cmpi .slt (v j) 0#32) _ _ = _
  rw [h0, select_zero]

theorem ofFin_eq_ix1 {n : ℕ} (e : Fin n) : Shape.Idx.ofFin e = ix1 e := by
  funext a; match a with | ⟨0, _⟩ => rfl

theorem colE_apply (v : IVec S320000 32) (e : Fin 320000) : colE v (ixP e) = v (ix1 e) :=
  (bcast_col1 bcast_S320000_S320000x1_0 v e).trans (congrArg v (ofFin_eq_ix1 e))
theorem colN_apply (v : IVec S10000 32) (e : Fin 10000) : colN v (ixP e) = v (ix1 e) :=
  (bcast_col1 bcast_S10000_S10000x1_0 v e).trans (congrArg v (ofFin_eq_ix1 e))

theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem xcol0_apply (x : IVec S10000x2 32) (i : Fin 10000) : xcol0 x (ix1 i) = x (ix2 i (0 : Fin 2)) :=
  (shapeCast_a1_a_apply _ _ i).trans (slice2_axis1_apply 0 x _ i (0 : Fin 1) (0 : Fin 2) rfl)
theorem xcol1_apply (x : IVec S10000x2 32) (i : Fin 10000) : xcol1 x (ix1 i) = x (ix2 i (1 : Fin 2)) :=
  (shapeCast_a1_a_apply _ _ i).trans (slice2_axis1_apply 1 x _ i (0 : Fin 1) (1 : Fin 2) rfl)
theorem eacol0_apply (ea : IVec S320000x2 32) (e : Fin 320000) : eacol0 ea (ix1 e) = ea (ix2 e (0 : Fin 2)) :=
  (shapeCast_a1_a_apply _ _ e).trans (slice2_axis1_apply 0 ea _ e (0 : Fin 1) (0 : Fin 2) rfl)
theorem eacol1_apply (ea : IVec S320000x2 32) (e : Fin 320000) : eacol1 ea (ix1 e) = ea (ix2 e (1 : Fin 2)) :=
  (shapeCast_a1_a_apply _ _ e).trans (slice2_axis1_apply 1 ea _ e (0 : Fin 1) (1 : Fin 2) rfl)
theorem eirow0_apply (ei : IVec S2x320000 32) (e : Fin 320000) : eirow0 ei (ix1 e) = ei (ix2 (0 : Fin 2) e) :=
  (shapeCast_1a_a_apply _ _ e).trans (slice2_axis0_apply 0 ei _ (0 : Fin 1) e (0 : Fin 2) rfl)
theorem eirow1_apply (ei : IVec S2x320000 32) (e : Fin 320000) : eirow1 ei (ix1 e) = ei (ix2 (1 : Fin 2) e) :=
  (shapeCast_1a_a_apply _ _ e).trans (slice2_axis0_apply 1 ei _ (0 : Fin 1) e (1 : Fin 2) rfl)

theorem tab6_apply (l : ℕ) (hl : l < 3) (hs : S3x6x128.Slices ![l, 0, 0] S1x6x128) (t : FVec Ideal S3x6x128 .f32)
    (a : Fin 6) (k : Fin 128) : tab6 l hs t (ix2 a k) = blk6 t ⟨l, hl⟩ (ix2 a k) :=
  (shapeCast_1ab_ab_apply _ _ a k).trans (extractStridedSlice_apply _ t hs _ _ fun ax => by
    match ax with
    | ⟨0, _⟩ => rfl
    | ⟨1, _⟩ => exact (Nat.zero_add _).symm
    | ⟨2, _⟩ => exact (Nat.zero_add _).symm)
theorem tab3_apply (l : ℕ) (hl : l < 3) (hs : S3x3x128.Slices ![l, 0, 0] S1x3x128) (t : FVec Ideal S3x3x128 .f32)
    (a : Fin 3) (k : Fin 128) : tab3 l hs t (ix2 a k) = blk3 t ⟨l, hl⟩ (ix2 a k) :=
  (shapeCast_1ab_ab_apply _ _ a k).trans (extractStridedSlice_apply _ t hs _ _ fun ax => by
    match ax with
    | ⟨0, _⟩ => rfl
    | ⟨1, _⟩ => exact (Nat.zero_add _).symm
    | ⟨2, _⟩ => exact (Nat.zero_add _).symm)

theorem gather_row {α : Type} {N C E : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N) (hN' : N ≤ 2 ^ 31)
    (x : (⟨2, ![N, C]⟩ : Shape).Idx → α) (idx : IVec ⟨2, ![E, 1]⟩ 32) (e : Fin E) (k : Fin C)
    (h : (idx (ixP e)).toNat < N) :
    Host.gather d x idx (ix2 e k) = x (ix2 (rowOf N hN (idx (ixP e))) k) := by
  rw [Cert.Segment.gather_rows d hoff hcoll hob hsim hivd x idx e k hN]
  refine congrArg (fun q => x (ix2 q k)) (Fin.ext ?_)
  unfold rowOf
  rw [dif_pos h]
  have hi : (idx (ixP e)).toInt = ((idx (ixP e)).toNat : ℤ) := toInt_eq_toNat_of_lt (by omega)
  show min (idx (ixP e)).toInt.toNat (N - 1) = (idx (ixP e)).toNat
  omega
end Pure

section Spec
open Idealize.ShloMosaic.StableHlo.Predicate (ixP)

theorem h0R_eq (a1 : FVec Ideal S119x128 .f32) (a2 : FVec Ideal S4x128 .f32) (x : IVec S10000x2 32)
    (hx : ∀ j : S10000x2.Idx, (x j).toNat ≤ 3) : h0R a1 a2 x = h0 a1 a2 x := by
  funext j
  obtain ⟨n, k, rfl⟩ : ∃ n k, j = ix2 n k := ⟨_, _, eq_ix2 j⟩
  have h0' := hx (ix2 n (0 : Fin 2))
  have h1' := hx (ix2 n (1 : Fin 2))
  have e0 : colN (wrap bcast_S_S10000 119#32 (xcol0 x)) (ixP n) = x (ix2 n (0 : Fin 2)) := by
    rw [colN_apply, wrap_apply _ _ _ _ (by rw [xcol0_apply]; omega), xcol0_apply]
  have e1 : colN (wrap bcast_S_S10000 4#32 (xcol1 x)) (ixP n) = x (ix2 n (1 : Fin 2)) := by
    rw [colN_apply, wrap_apply _ _ _ _ (by rw [xcol1_apply]; omega), xcol1_apply]
  show Host.gather _ a1 _ (ix2 n k) + Host.gather _ a2 _ (ix2 n k) = _
  rw [gather_row _ rfl rfl rfl rfl rfl (by decide) (by decide) a1 _ n k (by rw [e0]; omega),
    gather_row _ rfl rfl rfl rfl rfl (by decide) (by decide) a2 _ n k (by rw [e1]; omega), e0, e1]
  rfl

variable (h : FVec Ideal S10000x128 .f32) (l : ℕ) (hl : l < 3)
  (hs6 : S3x6x128.Slices ![l, 0, 0] S1x6x128) (hs3 : S3x3x128.Slices ![l, 0, 0] S1x3x128)
  (t5 : FVec Ideal S3x6x128 .f32) (t6 : FVec Ideal S3x3x128 .f32) (ei : IVec S2x320000 32) (ea : IVec S320000x2 32)
  (he : ∀ j : S2x320000.Idx, (ei j).toNat ≤ 9999) (ha : ∀ j : S320000x2.Idx, (ea j).toNat ≤ 2)

include he ha in

theorem msgR_apply (e : Fin 320000) (k : Fin 128) :
    addf (Host.gather gather_S10000x128_S320000x1_S320000x128_1_0_n_n_0_1_1128 h (colE (wrap bcast_S_S320000 10000#32 (eirow0 ei))))
        (eembR (tab6 l hs6 t5) (tab3 l hs3 t6) (eacol0 ea) (eacol1 ea)) (ix2 e k)
      = msg h (blk6 t5 ⟨l, hl⟩) (blk3 t6 ⟨l, hl⟩) ei ea (ix2 e k) := by
  have hs' := he (ix2 (0 : Fin 2) e)
  have ha0 := ha (ix2 e (0 : Fin 2))
  have ha1 := ha (ix2 e (1 : Fin 2))
  have es : colE (wrap bcast_S_S320000 10000#32 (eirow0 ei)) (ixP e) = ei (ix2 (0 : Fin 2) e) := by
    rw [colE_apply, wrap_apply _ _ _ _ (by rw [eirow0_apply]; omega), eirow0_apply]
  have e0 : colE (wrap bcast_S_S320000 6#32 (eacol0 ea)) (ixP e) = ea (ix2 e (0 : Fin 2)) := by
    rw [colE_apply, wrap_apply _ _ _ _ (by rw [eacol0_apply]; omega), eacol0_apply]
  have e1 : colE (wrap bcast_S_S320000 3#32 (eacol1 ea)) (ixP e) = ea (ix2 e (1 : Fin 2)) := by
    rw [colE_apply, wrap_apply _ _ _ _ (by rw [eacol1_apply]; omega), eacol1_apply]
  show Host.gather _ h _ (ix2 e k) + (Host.gather _ (tab6 l hs6 t5) _ (ix2 e k) + Host.gather _ (tab3 l hs3 t6) _ (ix2 e k)) = _
  rw [gather_row _ rfl rfl rfl rfl rfl (by decide) (by decide) h _ e k (by rw [es]; omega),
    gather_row _ rfl rfl rfl rfl rfl (by decide) (by decide) (tab6 l hs6 t5) _ e k (by rw [e0]; omega),
    gather_row _ rfl rfl rfl rfl rfl (by decide) (by decide) (tab3 l hs3 t6) _ e k (by rw [e1]; omega),
    es, e0, e1, tab6_apply l hl, tab3_apply l hl]
  rfl

include he ha in

theorem aggR_eq :
    aggR h (eembR (tab6 l hs6 t5) (tab3 l hs3 t6) (eacol0 ea) (eacol1 ea)) (eirow0 ei) (eirow1 ei)
      = agg (msg h (blk6 t5 ⟨l, hl⟩) (blk3 t6 ⟨l, hl⟩) ei ea) ei := by
  funext j
  obtain ⟨n, k, rfl⟩ : ∃ n k, j = ix2 n k := ⟨_, _, eq_ix2 j⟩
  show Ideal.hostScatterAdd scatter_S10000x128_S320000x1_S320000x128_1_0_0_1 _ (colE (eirow1 ei)) _ (ix2 n k) = _
  rw [Cert.Segment.hostScatterAdd_rows _ rfl rfl rfl rfl]
  have hz : (broadcastInDim S10000x128 ![] bcast_S_S10000x128 (constant (F := Ideal) S_ .f32 0x00000000#32)) (ix2 n k) = (0 : EReal) :=
    Ideal.ofBits_zero_f32
  rw [hz, zero_add]
  refine Finset.sum_congr (Finset.ext fun e => ?_) (fun e _ => msgR_apply h l hl hs6 hs3 t5 t6 ei ea he ha e k)
  simp only [Finset.mem_filter, Finset.mem_univ, true_and]
  rw [colE_apply, eirow1_apply]
end Spec

section Keeps

theorem refs_ne (A : List (Ref sig .tc)) {y : Ref sig .tc} (h : y ∉ A) :
    ∀ b ∈ A, ¬ (Proc.devRef .tc b : DevRef τ sig) = Proc.devRef .tc y :=
  fun _ hb e => h (Proc.devRef_injective _ e ▸ hb)

theorem after_keep {l : List (HloOp τ sig (Elt Ideal))} {A : List (Ref sig .tc)}
    (hl : l.Forall fun op => ∀ b ∈ A, (Proc.devRef .tc b : DevRef τ sig) ∉ op.writes)
    (X : Valuation τ sig (Elt Ideal)) (b : Ref sig .tc) (hb : b ∈ A) : after l X (r b) = X (r b) :=
  after_of_forall_not_mem l X fun op hop => List.forall_iff_forall_mem.mp hl op hop b hb

local macro "window_keeps" : tactic =>
  `(tactic| (simp only [List.Forall, nullary_writes, unary_writes, binary_writes, ternary_writes, reshape_writes,
               Finset.mem_singleton]
             repeat' apply And.intro
             all_goals exact refs_ne _ (by decide)))

abbrev K0 : List (Ref sig .tc) := [main_arg1, main_arg2, main_arg5, main_arg6]
abbrev K1 : List (Ref sig .tc) := [main_arg1, main_arg2, main_arg5, main_arg6, main_v18, main_v20, main_v22]
abbrev K2 : List (Ref sig .tc) := [main_arg1, main_arg2, main_arg5, main_arg6, main_v18, main_v20, main_v22, main_v56]
abbrev K3 : List (Ref sig .tc) := [main_arg2, main_arg6, main_v18, main_v20, main_v22, main_v56, main_v112, main_v146]
abbrev K4 : List (Ref sig .tc) := [main_v18, main_v56, main_v112, main_v146, main_v202]
abbrev K5 : List (Ref sig .tc) := [main_v18, main_v56, main_v112, main_v146, main_v202, main_v236]

set_option maxRecDepth 8192 in
theorem w0_keeps : (opsA0_w0 (F := Ideal)).Forall fun op => ∀ b ∈ K0, (Proc.devRef .tc b : DevRef τ sig) ∉ op.writes := by
  window_keeps
set_option maxRecDepth 8192 in
theorem w1_keeps : (opsA0_w1 (F := Ideal)).Forall fun op => ∀ b ∈ K1, (Proc.devRef .tc b : DevRef τ sig) ∉ op.writes := by
  window_keeps
set_option maxRecDepth 8192 in
theorem w2_keeps : (opsA0_w2 (F := Ideal)).Forall fun op => ∀ b ∈ K2, (Proc.devRef .tc b : DevRef τ sig) ∉ op.writes := by
  window_keeps
set_option maxRecDepth 8192 in
theorem w3_keeps : (opsA0_w3 (F := Ideal)).Forall fun op => ∀ b ∈ K3, (Proc.devRef .tc b : DevRef τ sig) ∉ op.writes := by
  window_keeps
set_option maxRecDepth 8192 in
theorem w4_keeps : (opsA0_w4 (F := Ideal)).Forall fun op => ∀ b ∈ K4, (Proc.devRef .tc b : DevRef τ sig) ∉ op.writes := by
  window_keeps
set_option maxRecDepth 8192 in
theorem w5_keeps : (opsA0_w5 (F := Ideal)).Forall fun op => ∀ b ∈ K5, (Proc.devRef .tc b : DevRef τ sig) ∉ op.writes := by
  window_keeps

theorem after_app (l₁ l₂ : List (HloOp τ sig (Elt Ideal))) (X : Valuation τ sig (Elt Ideal)) :
    after (l₁ ++ l₂) X = after l₂ (after l₁ X) := by
  induction l₁ generalizing X with
  | nil => rfl
  | cons op l ih => simp only [List.cons_append, after_cons, ih]

theorem W_eq : W V = after opsA0_w5 (after opsA0_w4 (after opsA0_w3 (after opsA0_w2 (after opsA0_w1 (after opsA0_w0 V))))) := by
  show after (opsA0_w0 ++ (opsA0_w1 ++ (opsA0_w2 ++ (opsA0_w3 ++ (opsA0_w4 ++ opsA0_w5))))) V = _
  rw [after_app, after_app, after_app, after_app, after_app]

theorem W_v18 : W V (r main_v18) = after opsA0_w0 V (r main_v18) := by
  rw [W_eq, after_keep w5_keeps _ _ (by decide), after_keep w4_keeps _ _ (by decide), after_keep w3_keeps _ _ (by decide),
    after_keep w2_keeps _ _ (by decide), after_keep w1_keeps _ _ (by decide)]
theorem W_v56 : W V (r main_v56) = after opsA0_w1 (after opsA0_w0 V) (r main_v56) := by
  rw [W_eq, after_keep w5_keeps _ _ (by decide), after_keep w4_keeps _ _ (by decide), after_keep w3_keeps _ _ (by decide),
    after_keep w2_keeps _ _ (by decide)]
theorem W_v112 : W V (r main_v112) = after opsA0_w2 (after opsA0_w1 (after opsA0_w0 V)) (r main_v112) := by
  rw [W_eq, after_keep w5_keeps _ _ (by decide), after_keep w4_keeps _ _ (by decide), after_keep w3_keeps _ _ (by decide)]
theorem W_v146 : W V (r main_v146) = after opsA0_w2 (after opsA0_w1 (after opsA0_w0 V)) (r main_v146) := by
  rw [W_eq, after_keep w5_keeps _ _ (by decide), after_keep w4_keeps _ _ (by decide), after_keep w3_keeps _ _ (by decide)]
theorem W_v202 : W V (r main_v202) = after opsA0_w3 (after opsA0_w2 (after opsA0_w1 (after opsA0_w0 V))) (r main_v202) := by
  rw [W_eq, after_keep w5_keeps _ _ (by decide), after_keep w4_keeps _ _ (by decide)]
theorem W_v236 : W V (r main_v236)
    = after opsA0_w4 (after opsA0_w3 (after opsA0_w2 (after opsA0_w1 (after opsA0_w0 V)))) (r main_v236) := by
  rw [W_eq, after_keep w5_keeps _ _ (by decide)]

theorem V2_keep (b : Ref sig .tc) (h0 : b ∈ K0) (h1 : b ∈ K1) : after opsA0_w1 (after opsA0_w0 V) (r b) = V (r b) := by
  rw [after_keep w1_keeps _ _ h1, after_keep w0_keeps _ _ h0]
theorem V3_keep (b : Ref sig .tc) (h0 : b ∈ K0) (h1 : b ∈ K1) (h2 : b ∈ K2) :
    after opsA0_w2 (after opsA0_w1 (after opsA0_w0 V)) (r b) = V (r b) := by
  rw [after_keep w2_keeps _ _ h2, V2_keep V b h0 h1]
theorem V4_keep (b : Ref sig .tc) (h0 : b ∈ K0) (h1 : b ∈ K1) (h2 : b ∈ K2) (h3 : b ∈ K3) :
    after opsA0_w3 (after opsA0_w2 (after opsA0_w1 (after opsA0_w0 V))) (r b) = V (r b) := by
  rw [after_keep w3_keeps _ _ h3, V3_keep V b h0 h1 h2]

theorem V2_v20 : after opsA0_w1 (after opsA0_w0 V) (r main_v20) = eirow0 (V (r main_arg1)) := by
  rw [after_keep w1_keeps _ _ (by decide), w0_v20]
theorem V2_v22 : after opsA0_w1 (after opsA0_w0 V) (r main_v22) = eirow1 (V (r main_arg1)) := by
  rw [after_keep w1_keeps _ _ (by decide), w0_v22]
theorem V3_v20 : after opsA0_w2 (after opsA0_w1 (after opsA0_w0 V)) (r main_v20) = eirow0 (V (r main_arg1)) := by
  rw [after_keep w2_keeps _ _ (by decide), V2_v20]
theorem V3_v22 : after opsA0_w2 (after opsA0_w1 (after opsA0_w0 V)) (r main_v22) = eirow1 (V (r main_arg1)) := by
  rw [after_keep w2_keeps _ _ (by decide), V2_v22]
theorem V4_v20 : after opsA0_w3 (after opsA0_w2 (after opsA0_w1 (after opsA0_w0 V))) (r main_v20) = eirow0 (V (r main_arg1)) := by
  rw [after_keep w3_keeps _ _ (by decide), V3_v20]
theorem V4_v22 : after opsA0_w3 (after opsA0_w2 (after opsA0_w1 (after opsA0_w0 V))) (r main_v22) = eirow1 (V (r main_arg1)) := by
  rw [after_keep w3_keeps _ _ (by decide), V3_v22]
end Keeps

theorem hR0 (hR : Ranges V) : (W V (r main_v18) : Vec Ideal S10000x128 .f32) = h0 (V (r main_arg3)) (V (r main_arg4)) (V (r main_arg0)) := by
  rw [W_v18, w0_v18]
  exact h0R_eq _ _ _ hR.hx

theorem aggR0 (hR : Ranges V) : (W V (r main_v56) : Vec Ideal S10000x128 .f32)
    = agg (msg (W V (r main_v18)) (blk6 (V (r main_arg5)) 0) (blk3 (V (r main_arg6)) 0) (V (r main_arg1)) (V (r main_arg2))) (V (r main_arg1)) := by
  rw [W_v56, W_v18, w1_v56, w0_v45, w0_v47, w0_v49, w0_v20, w0_v22]
  exact aggR_eq (after opsA0_w0 V (r main_v18)) 0 (by decide) _ _ (V (r main_arg5)) (V (r main_arg6)) (V (r main_arg1))
    (V (r main_arg2)) hR.he hR.ha
theorem aggR1 (hR : Ranges V) : (W V (r main_v146) : Vec Ideal S10000x128 .f32)
    = agg (msg (W V (r main_v112)) (blk6 (V (r main_arg5)) 1) (blk3 (V (r main_arg6)) 1) (V (r main_arg1)) (V (r main_arg2))) (V (r main_arg1)) := by
  rw [W_v146, W_v112, w2_v146, V2_keep V main_arg5 (by decide) (by decide), V2_keep V main_arg6 (by decide) (by decide),
    V2_keep V main_arg2 (by decide) (by decide), V2_v20, V2_v22]
  exact aggR_eq _ 1 (by decide) _ _ (V (r main_arg5)) (V (r main_arg6)) (V (r main_arg1)) (V (r main_arg2)) hR.he hR.ha
theorem aggR2 (hR : Ranges V) : (W V (r main_v236) : Vec Ideal S10000x128 .f32)
    = agg (msg (W V (r main_v202)) (blk6 (V (r main_arg5)) 2) (blk3 (V (r main_arg6)) 2) (V (r main_arg1)) (V (r main_arg2))) (V (r main_arg1)) := by
  rw [W_v236, W_v202, w4_v236, w3_v204, w3_v206, w3_v208, V3_keep V main_arg5 (by decide) (by decide) (by decide),
    V3_keep V main_arg2 (by decide) (by decide) (by decide), V4_keep V main_arg6 (by decide) (by decide) (by decide) (by decide),
    V4_keep V main_arg2 (by decide) (by decide) (by decide) (by decide), V4_v20, V4_v22]
  exact aggR_eq _ 2 (by decide) _ _ (V (r main_arg5)) (V (r main_arg6)) (V (r main_arg1)) (V (r main_arg2)) hR.he hR.ha

end Cert.Value.R

end
-- ==== Proof.Value.Tail.lean ====
import proofs.«208129_g65403761983635_cont_9to1_m_1354_7_alg».proof.Proof.Value.KSide
import proofs.«208129_g65403761983635_cont_9to1_m_1354_7_alg».proof.Proof.Value.RSide

noncomputable section

open scoped BigOperators

namespace Cert.Value

open Idealize.ShloMosaic Idealize.ShloMosaic.ValueIdx Idealize.ShloMosaic.StableHlo

theorem after_take_drop {τ : Topo} {sig : RefSig} {Val : EltTy → Type} :
    ∀ (n : ℕ) (L : List (HloOp τ sig Val)) (V : Valuation τ sig Val), after L V = after (L.drop n) (after (L.take n) V)
  | 0, _, _ => rfl
  | _ + 1, [], _ => rfl
  | n + 1, op :: L, V => by
    simp only [List.take_succ_cons, List.drop_succ_cons, after_cons]
    exact after_take_drop n L _

theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by
    simp only [List.cons_append, after_cons]
    exact after_app l₁ l₂ _

theorem ne_of_not_mem {τ : Topo} {sig : RefSig} {keep : List (Ref sig .tc)} {y : Ref sig .tc} (h : y ∉ keep) :
    ∀ a ∈ keep, ¬ (Proc.devRef .tc a : DevRef τ sig) = Proc.devRef .tc y :=
  fun _ ha e => h (Proc.devRef_injective _ e ▸ ha)

section Kept

variable {τ : Topo} {sig : RefSig} {Val : EltTy → Type} {keep : List (Ref sig .tc)} {ops : List (HloOp τ sig Val)}

theorem kept (h : ops.Forall fun op => ∀ a ∈ keep, (Proc.devRef .tc a : DevRef τ sig) ∉ op.writes) (V : Valuation τ sig Val)
    {a : Ref sig .tc} (ha : a ∈ keep) : after ops V (Proc.devRef .tc a) = V (Proc.devRef .tc a) :=
  after_of_forall_not_mem ops V fun op hop => List.forall_iff_forall_mem.mp h op hop a ha

theorem kept_take (h : ops.Forall fun op => ∀ a ∈ keep, (Proc.devRef .tc a : DevRef τ sig) ∉ op.writes) (V : Valuation τ sig Val)
    {a : Ref sig .tc} (ha : a ∈ keep) (n : ℕ) : after (ops.take n) V (Proc.devRef .tc a) = V (Proc.devRef .tc a) :=
  after_of_forall_not_mem _ V fun op hop => List.forall_iff_forall_mem.mp h op (List.mem_of_mem_take hop) a ha

theorem kept_drop (h : ops.Forall fun op => ∀ a ∈ keep, (Proc.devRef .tc a : DevRef τ sig) ∉ op.writes) (V : Valuation τ sig Val)
    {a : Ref sig .tc} (ha : a ∈ keep) (n : ℕ) : after (ops.drop n) V (Proc.devRef .tc a) = V (Proc.devRef .tc a) :=
  after_of_forall_not_mem _ V fun op hop => List.forall_iff_forall_mem.mp h op (List.mem_of_mem_drop hop) a ha

end Kept

local macro "keeps" : tactic =>
  `(tactic| (simp only [List.Forall, nullary_writes, unary_writes, binary_writes, ternary_writes, reshape_writes,
               Finset.mem_singleton]
             repeat' apply And.intro
             all_goals exact ne_of_not_mem (by decide)))

abbrev rK (b : Ref Cert.KernelIdeal.sig .tc) : DevRef Cert.KernelIdeal.τ Cert.KernelIdeal.sig := Proc.devRef .tc b
abbrev rR (b : Ref Cert.ReferenceIdeal.sig .tc) : DevRef Cert.ReferenceIdeal.τ Cert.ReferenceIdeal.sig := Proc.devRef .tc b

section KernelSide

open Cert.KernelIdeal Cert.KernelIdeal.Gen Cert.KernelIdeal.Hand

abbrev wK : List (Ref sig .tc) :=
  [main_arg5, main_arg6, main_arg7, main_arg8, main_arg9, main_arg10, main_arg11, main_arg12]

set_option maxRecDepth 8192 in
theorem kA0 : (opsA0 : List (HloOp τ sig (Elt Ideal))).Forall fun op => ∀ a ∈ wK, (Proc.devRef .tc a : DevRef τ sig) ∉ op.writes := by keeps
set_option maxRecDepth 8192 in
theorem kA1 : (opsA1 : List (HloOp τ sig (Elt Ideal))).Forall fun op => ∀ a ∈ wK, (Proc.devRef .tc a : DevRef τ sig) ∉ op.writes := by keeps
set_option maxRecDepth 8192 in
theorem kA2 : (opsA2 : List (HloOp τ sig (Elt Ideal))).Forall fun op => ∀ a ∈ wK, (Proc.devRef .tc a : DevRef τ sig) ∉ op.writes := by keeps
set_option maxRecDepth 8192 in
theorem kA3 : (opsA3 : List (HloOp τ sig (Elt Ideal))).Forall fun op => ∀ a ∈ wK, (Proc.devRef .tc a : DevRef τ sig) ∉ op.writes := by keeps
set_option maxRecDepth 8192 in
theorem kA4 : (opsA4 : List (HloOp τ sig (Elt Ideal))).Forall fun op => ∀ a ∈ wK, (Proc.devRef .tc a : DevRef τ sig) ∉ op.writes := by keeps

theorem VA1_w (V : Valuation τ sig (Elt Ideal)) {a : Ref sig .tc} (ha : a ∈ wK) : VA1 V (r a) = V (r a) := by
  unfold VA1 VB0 VA0
  rw [kept kA1 _ ha, Function.update_of_ne (ne_of_not_mem (show main_v8 ∉ wK by decide) a ha), kept kA0 _ ha]
theorem VA2_w (V : Valuation τ sig (Elt Ideal)) {a : Ref sig .tc} (ha : a ∈ wK) : VA2 V (r a) = V (r a) := by
  unfold VA2 VB1
  rw [kept kA2 _ ha, Function.update_of_ne (ne_of_not_mem (show main_v61 ∉ wK by decide) a ha), VA1_w V ha]
theorem VA3_w (V : Valuation τ sig (Elt Ideal)) {a : Ref sig .tc} (ha : a ∈ wK) : VA3 V (r a) = V (r a) := by
  unfold VA3 VB2
  rw [kept kA3 _ ha, Function.update_of_ne (ne_of_not_mem (show main_v134 ∉ wK by decide) a ha), VA2_w V ha]

def XK0 (V : Valuation τ sig (Elt Ideal)) : Valuation τ sig (Elt Ideal) := after ((opsA2 (F := Ideal)).take 4) (VB1 V)

theorem VA2_eq (V : Valuation τ sig (Elt Ideal)) : VA2 V = after ((opsA2 (F := Ideal)).drop 4) (XK0 V) :=
  after_take_drop 4 _ _

theorem XK0_w (V : Valuation τ sig (Elt Ideal)) {a : Ref sig .tc} (ha : a ∈ wK) : XK0 V (r a) = V (r a) := by
  unfold XK0 VB1
  rw [kept_take kA2 _ ha 4, Function.update_of_ne (ne_of_not_mem (show main_v61 ∉ wK by decide) a ha), VA1_w V ha]

theorem XK0_h (V : Valuation τ sig (Elt Ideal)) : XK0 V (r main_v9) = VA1 V (r main_v9) := by
  unfold XK0 VB1
  simp only [List.take_succ_cons, List.take_zero]
  after_results_simp
  exact Function.update_of_ne (devRef_ne_of_ne (by decide)) _ _

set_option maxRecDepth 8192 in

theorem XK0_agg (V : Valuation τ sig (Elt Ideal)) : VA2 V (r main_v64) = XK0 V (r main_v64) := by
  rw [VA2_eq]
  generalize XK0 V = X
  simp only [List.drop_succ_cons, List.drop_zero]
  after_results_simp

def XK1 (V : Valuation τ sig (Elt Ideal)) : Valuation τ sig (Elt Ideal) := after ((opsA3 (F := Ideal)).take 4) (VB2 V)

theorem VA3_eq (V : Valuation τ sig (Elt Ideal)) : VA3 V = after ((opsA3 (F := Ideal)).drop 4) (XK1 V) :=
  after_take_drop 4 _ _

theorem XK1_w (V : Valuation τ sig (Elt Ideal)) {a : Ref sig .tc} (ha : a ∈ wK) : XK1 V (r a) = V (r a) := by
  unfold XK1 VB2
  rw [kept_take kA3 _ ha 4, Function.update_of_ne (ne_of_not_mem (show main_v134 ∉ wK by decide) a ha), VA2_w V ha]

theorem XK1_h (V : Valuation τ sig (Elt Ideal)) : XK1 V (r main_v120) = VA2 V (r main_v120) := by
  unfold XK1 VB2
  simp only [List.take_succ_cons, List.take_zero]
  after_results_simp
  exact Function.update_of_ne (devRef_ne_of_ne (by decide)) _ _

set_option maxRecDepth 8192 in

theorem XK1_agg (V : Valuation τ sig (Elt Ideal)) : VA3 V (r main_v137) = XK1 V (r main_v137) := by
  rw [VA3_eq]
  generalize XK1 V = X
  simp only [List.drop_succ_cons, List.drop_zero]
  after_results_simp

def XK2 (V : Valuation τ sig (Elt Ideal)) : Valuation τ sig (Elt Ideal) := after ((opsA4 (F := Ideal)).take 4) (VB3 V)

theorem VA4_eq (V : Valuation τ sig (Elt Ideal)) : VA4 V = after ((opsA4 (F := Ideal)).drop 4) (XK2 V) :=
  after_take_drop 4 _ _

theorem XK2_w (V : Valuation τ sig (Elt Ideal)) {a : Ref sig .tc} (ha : a ∈ wK) : XK2 V (r a) = V (r a) := by
  unfold XK2 VB3
  rw [kept_take kA4 _ ha 4, Function.update_of_ne (ne_of_not_mem (show main_v207 ∉ wK by decide) a ha), VA3_w V ha]

theorem XK2_h (V : Valuation τ sig (Elt Ideal)) : XK2 V (r main_v193) = VA3 V (r main_v193) := by
  unfold XK2 VB3
  simp only [List.take_succ_cons, List.take_zero]
  after_results_simp
  exact Function.update_of_ne (devRef_ne_of_ne (by decide)) _ _

set_option maxRecDepth 8192 in

theorem XK2_agg (V : Valuation τ sig (Elt Ideal)) : VA4 V (r main_v210) = XK2 V (r main_v210) := by
  rw [VA4_eq]
  generalize XK2 V = X
  simp only [List.drop_succ_cons, List.drop_zero]
  after_results_simp

end KernelSide

section ReferenceSide

open Cert.ReferenceIdeal Cert.ReferenceIdeal.Gen Cert.ReferenceIdeal.Hand

abbrev wR : List (Ref sig .tc) :=
  [main_arg5, main_arg6, main_arg7, main_arg8, main_arg9, main_arg10, main_arg11, main_arg12]

abbrev kR1 : List (Ref sig .tc) := wR ++ [main_v18]
abbrev kR2 : List (Ref sig .tc) := wR ++ [main_v18, main_v56]
abbrev kR3 : List (Ref sig .tc) := wR ++ [main_v18, main_v56, main_v112, main_v146]
abbrev kR4 : List (Ref sig .tc) := wR ++ [main_v18, main_v56, main_v112, main_v146, main_v202]
abbrev kR5 : List (Ref sig .tc) := wR ++ [main_v18, main_v56, main_v112, main_v146, main_v202, main_v236]

set_option maxRecDepth 8192 in
theorem rW0 : (opsA0_w0 : List (HloOp τ sig (Elt Ideal))).Forall fun op => ∀ a ∈ wR, (Proc.devRef .tc a : DevRef τ sig) ∉ op.writes := by keeps
set_option maxRecDepth 8192 in
theorem rW1 : (opsA0_w1 : List (HloOp τ sig (Elt Ideal))).Forall fun op => ∀ a ∈ kR1, (Proc.devRef .tc a : DevRef τ sig) ∉ op.writes := by keeps
set_option maxRecDepth 8192 in
theorem rW2 : (opsA0_w2 : List (HloOp τ sig (Elt Ideal))).Forall fun op => ∀ a ∈ kR2, (Proc.devRef .tc a : DevRef τ sig) ∉ op.writes := by keeps
set_option maxRecDepth 8192 in
theorem rW3 : (opsA0_w3 : List (HloOp τ sig (Elt Ideal))).Forall fun op => ∀ a ∈ kR3, (Proc.devRef .tc a : DevRef τ sig) ∉ op.writes := by keeps
set_option maxRecDepth 8192 in
theorem rW4 : (opsA0_w4 : List (HloOp τ sig (Elt Ideal))).Forall fun op => ∀ a ∈ kR4, (Proc.devRef .tc a : DevRef τ sig) ∉ op.writes := by keeps
set_option maxRecDepth 8192 in
theorem rW5 : (opsA0_w5 : List (HloOp τ sig (Elt Ideal))).Forall fun op => ∀ a ∈ kR5, (Proc.devRef .tc a : DevRef τ sig) ∉ op.writes := by keeps

theorem wR1 : ∀ a ∈ wR, a ∈ kR1 := by decide
theorem wR2 : ∀ a ∈ wR, a ∈ kR2 := by decide
theorem wR3 : ∀ a ∈ wR, a ∈ kR3 := by decide
theorem wR4 : ∀ a ∈ wR, a ∈ kR4 := by decide

theorem W_eq (V' : Valuation τ sig (Elt Ideal)) :
    R.W V' = after opsA0_w5 (after opsA0_w4 (after opsA0_w3 (after opsA0_w2 (after opsA0_w1 (after opsA0_w0 V'))))) := by
  unfold R.W
  rw [after_app, after_app, after_app, after_app, after_app]

def XR0 (V' : Valuation τ sig (Elt Ideal)) : Valuation τ sig (Elt Ideal) :=
  after ((opsA0_w1 (F := Ideal)).take 8) (after opsA0_w0 V')

theorem W_eq0 (V' : Valuation τ sig (Elt Ideal)) :
    R.W V' = after opsA0_w5 (after opsA0_w4 (after opsA0_w3 (after opsA0_w2 (after ((opsA0_w1 (F := Ideal)).drop 8) (XR0 V'))))) := by
  rw [W_eq, after_take_drop 8 opsA0_w1]; rfl

theorem XR0_w (V' : Valuation τ sig (Elt Ideal)) {a : Ref sig .tc} (ha : a ∈ wR) : XR0 V' (R.r a) = V' (R.r a) := by
  unfold XR0
  rw [kept_take rW1 _ (wR1 a ha) 8, kept rW0 _ ha]

theorem W_h0 (V' : Valuation τ sig (Elt Ideal)) : R.W V' (R.r main_v18) = XR0 V' (R.r main_v18) := by
  rw [W_eq0, kept rW5 _ (show main_v18 ∈ kR5 by decide), kept rW4 _ (show main_v18 ∈ kR4 by decide),
    kept rW3 _ (show main_v18 ∈ kR3 by decide), kept rW2 _ (show main_v18 ∈ kR2 by decide),
    kept_drop rW1 _ (show main_v18 ∈ kR1 by decide) 8]

set_option maxRecDepth 8192 in
theorem W_agg0 (V' : Valuation τ sig (Elt Ideal)) : R.W V' (R.r main_v56) = XR0 V' (R.r main_v56) := by
  rw [W_eq0, kept rW5 _ (show main_v56 ∈ kR5 by decide), kept rW4 _ (show main_v56 ∈ kR4 by decide),
    kept rW3 _ (show main_v56 ∈ kR3 by decide), kept rW2 _ (show main_v56 ∈ kR2 by decide)]
  generalize XR0 V' = X
  simp only [List.drop_succ_cons, List.drop_zero]
  after_results_simp

theorem W_out0 (V' : Valuation τ sig (Elt Ideal)) :
    R.W V' (R.r main_v112) = after opsA0_w2 (after ((opsA0_w1 (F := Ideal)).drop 8) (XR0 V')) (R.r main_v112) := by
  rw [W_eq0, kept rW5 _ (show main_v112 ∈ kR5 by decide), kept rW4 _ (show main_v112 ∈ kR4 by decide),
    kept rW3 _ (show main_v112 ∈ kR3 by decide)]

def XR1 (V' : Valuation τ sig (Elt Ideal)) : Valuation τ sig (Elt Ideal) :=
  after ((opsA0_w2 (F := Ideal)).take 51) (after opsA0_w1 (after opsA0_w0 V'))

theorem W_eq1 (V' : Valuation τ sig (Elt Ideal)) :
    R.W V' = after opsA0_w5 (after opsA0_w4 (after opsA0_w3 (after ((opsA0_w2 (F := Ideal)).drop 51) (XR1 V')))) := by
  rw [W_eq, after_take_drop 51 opsA0_w2]; rfl

theorem XR1_w (V' : Valuation τ sig (Elt Ideal)) {a : Ref sig .tc} (ha : a ∈ wR) : XR1 V' (R.r a) = V' (R.r a) := by
  unfold XR1
  rw [kept_take rW2 _ (wR2 a ha) 51, kept rW1 _ (wR1 a ha), kept rW0 _ ha]

set_option maxRecDepth 8192 in
theorem W_h1 (V' : Valuation τ sig (Elt Ideal)) : R.W V' (R.r main_v112) = XR1 V' (R.r main_v112) := by
  rw [W_eq1, kept rW5 _ (show main_v112 ∈ kR5 by decide), kept rW4 _ (show main_v112 ∈ kR4 by decide),
    kept rW3 _ (show main_v112 ∈ kR3 by decide)]
  generalize XR1 V' = X
  simp only [List.drop_succ_cons, List.drop_zero]
  after_results_simp

set_option maxRecDepth 8192 in
theorem W_agg1 (V' : Valuation τ sig (Elt Ideal)) : R.W V' (R.r main_v146) = XR1 V' (R.r main_v146) := by
  rw [W_eq1, kept rW5 _ (show main_v146 ∈ kR5 by decide), kept rW4 _ (show main_v146 ∈ kR4 by decide),
    kept rW3 _ (show main_v146 ∈ kR3 by decide)]
  generalize XR1 V' = X
  simp only [List.drop_succ_cons, List.drop_zero]
  after_results_simp

theorem W_out1 (V' : Valuation τ sig (Elt Ideal)) :
    R.W V' (R.r main_v202) = after opsA0_w3 (after ((opsA0_w2 (F := Ideal)).drop 51) (XR1 V')) (R.r main_v202) := by
  rw [W_eq1, kept rW5 _ (show main_v202 ∈ kR5 by decide), kept rW4 _ (show main_v202 ∈ kR4 by decide)]

def XR2 (V' : Valuation τ sig (Elt Ideal)) : Valuation τ sig (Elt Ideal) :=
  after ((opsA0_w4 (F := Ideal)).take 34) (after opsA0_w3 (after opsA0_w2 (after opsA0_w1 (after opsA0_w0 V'))))

theorem W_eq2 (V' : Valuation τ sig (Elt Ideal)) :
    R.W V' = after opsA0_w5 (after ((opsA0_w4 (F := Ideal)).drop 34) (XR2 V')) := by
  rw [W_eq, after_take_drop 34 opsA0_w4]; rfl

theorem XR2_w (V' : Valuation τ sig (Elt Ideal)) {a : Ref sig .tc} (ha : a ∈ wR) : XR2 V' (R.r a) = V' (R.r a) := by
  unfold XR2
  rw [kept_take rW4 _ (wR4 a ha) 34, kept rW3 _ (wR3 a ha), kept rW2 _ (wR2 a ha), kept rW1 _ (wR1 a ha), kept rW0 _ ha]

theorem W_h2 (V' : Valuation τ sig (Elt Ideal)) : R.W V' (R.r main_v202) = XR2 V' (R.r main_v202) := by
  rw [W_eq2, kept rW5 _ (show main_v202 ∈ kR5 by decide), kept_drop rW4 _ (show main_v202 ∈ kR4 by decide) 34]

set_option maxRecDepth 8192 in
theorem W_agg2 (V' : Valuation τ sig (Elt Ideal)) : R.W V' (R.r main_v236) = XR2 V' (R.r main_v236) := by
  rw [W_eq2, kept rW5 _ (show main_v236 ∈ kR5 by decide)]
  generalize XR2 V' = X
  simp only [List.drop_succ_cons, List.drop_zero]
  after_results_simp

end ReferenceSide

set_option maxRecDepth 8192 in
set_option maxHeartbeats 3200000 in

theorem chain0 (XK : Valuation Cert.KernelIdeal.τ Cert.KernelIdeal.sig (Elt Ideal)) (XR : Valuation Cert.ReferenceIdeal.τ Cert.ReferenceIdeal.sig (Elt Ideal))
    (hagg : (XR (rR Cert.ReferenceIdeal.main_v56) : Vec Ideal Cert.KernelIdeal.S10000x128 .f32) = XK (rK Cert.KernelIdeal.main_v64))
    (hh : (XR (rR Cert.ReferenceIdeal.main_v18) : Vec Ideal Cert.KernelIdeal.S10000x128 .f32) = XK (rK Cert.KernelIdeal.main_v9))
    (h5 : XR (rR Cert.ReferenceIdeal.main_arg5) = XK (rK Cert.KernelIdeal.main_arg5))
    (h6 : XR (rR Cert.ReferenceIdeal.main_arg6) = XK (rK Cert.KernelIdeal.main_arg6))
    (h7 : XR (rR Cert.ReferenceIdeal.main_arg7) = XK (rK Cert.KernelIdeal.main_arg7))
    (h8 : XR (rR Cert.ReferenceIdeal.main_arg8) = XK (rK Cert.KernelIdeal.main_arg8))
    (h9 : XR (rR Cert.ReferenceIdeal.main_arg9) = XK (rK Cert.KernelIdeal.main_arg9))
    (h10 : XR (rR Cert.ReferenceIdeal.main_arg10) = XK (rK Cert.KernelIdeal.main_arg10))
    (h11 : XR (rR Cert.ReferenceIdeal.main_arg11) = XK (rK Cert.KernelIdeal.main_arg11))
    (h12 : XR (rR Cert.ReferenceIdeal.main_arg12) = XK (rK Cert.KernelIdeal.main_arg12)) :
    (after ((Cert.KernelIdeal.Hand.opsA2 (F := Ideal)).drop 4) XK (rK Cert.KernelIdeal.main_v120) : Vec Ideal Cert.KernelIdeal.S10000x128 .f32)
      = after (Cert.ReferenceIdeal.Hand.opsA0_w2 (F := Ideal)) (after ((Cert.ReferenceIdeal.Hand.opsA0_w1 (F := Ideal)).drop 8) XR) (rR Cert.ReferenceIdeal.main_v112) := by
  simp only [List.drop_succ_cons, List.drop_zero]
  after_results_simp
  rw [hagg, hh, h5, h6, h7, h8, h9, h10, h11, h12]
  rfl

set_option maxRecDepth 8192 in
set_option maxHeartbeats 3200000 in

theorem chain1 (XK : Valuation Cert.KernelIdeal.τ Cert.KernelIdeal.sig (Elt Ideal)) (XR : Valuation Cert.ReferenceIdeal.τ Cert.ReferenceIdeal.sig (Elt Ideal))
    (hagg : (XR (rR Cert.ReferenceIdeal.main_v146) : Vec Ideal Cert.KernelIdeal.S10000x128 .f32) = XK (rK Cert.KernelIdeal.main_v137))
    (hh : (XR (rR Cert.ReferenceIdeal.main_v112) : Vec Ideal Cert.KernelIdeal.S10000x128 .f32) = XK (rK Cert.KernelIdeal.main_v120))
    (h5 : XR (rR Cert.ReferenceIdeal.main_arg5) = XK (rK Cert.KernelIdeal.main_arg5))
    (h6 : XR (rR Cert.ReferenceIdeal.main_arg6) = XK (rK Cert.KernelIdeal.main_arg6))
    (h7 : XR (rR Cert.ReferenceIdeal.main_arg7) = XK (rK Cert.KernelIdeal.main_arg7))
    (h8 : XR (rR Cert.ReferenceIdeal.main_arg8) = XK (rK Cert.KernelIdeal.main_arg8))
    (h9 : XR (rR Cert.ReferenceIdeal.main_arg9) = XK (rK Cert.KernelIdeal.main_arg9))
    (h10 : XR (rR Cert.ReferenceIdeal.main_arg10) = XK (rK Cert.KernelIdeal.main_arg10))
    (h11 : XR (rR Cert.ReferenceIdeal.main_arg11) = XK (rK Cert.KernelIdeal.main_arg11))
    (h12 : XR (rR Cert.ReferenceIdeal.main_arg12) = XK (rK Cert.KernelIdeal.main_arg12)) :
    (after ((Cert.KernelIdeal.Hand.opsA3 (F := Ideal)).drop 4) XK (rK Cert.KernelIdeal.main_v193) : Vec Ideal Cert.KernelIdeal.S10000x128 .f32)
      = after (Cert.ReferenceIdeal.Hand.opsA0_w3 (F := Ideal)) (after ((Cert.ReferenceIdeal.Hand.opsA0_w2 (F := Ideal)).drop 51) XR) (rR Cert.ReferenceIdeal.main_v202) := by
  simp only [List.drop_succ_cons, List.drop_zero]
  after_results_simp
  rw [hagg, hh, h5, h6, h7, h8, h9, h10, h11, h12]
  rfl

set_option maxRecDepth 8192 in
set_option maxHeartbeats 3200000 in

theorem chain2 (XK : Valuation Cert.KernelIdeal.τ Cert.KernelIdeal.sig (Elt Ideal)) (XR : Valuation Cert.ReferenceIdeal.τ Cert.ReferenceIdeal.sig (Elt Ideal))
    (hagg : (XR (rR Cert.ReferenceIdeal.main_v236) : Vec Ideal Cert.KernelIdeal.S10000x128 .f32) = XK (rK Cert.KernelIdeal.main_v210))
    (hh : (XR (rR Cert.ReferenceIdeal.main_v202) : Vec Ideal Cert.KernelIdeal.S10000x128 .f32) = XK (rK Cert.KernelIdeal.main_v193))
    (h5 : XR (rR Cert.ReferenceIdeal.main_arg5) = XK (rK Cert.KernelIdeal.main_arg5))
    (h6 : XR (rR Cert.ReferenceIdeal.main_arg6) = XK (rK Cert.KernelIdeal.main_arg6))
    (h7 : XR (rR Cert.ReferenceIdeal.main_arg7) = XK (rK Cert.KernelIdeal.main_arg7))
    (h8 : XR (rR Cert.ReferenceIdeal.main_arg8) = XK (rK Cert.KernelIdeal.main_arg8))
    (h9 : XR (rR Cert.ReferenceIdeal.main_arg9) = XK (rK Cert.KernelIdeal.main_arg9))
    (h10 : XR (rR Cert.ReferenceIdeal.main_arg10) = XK (rK Cert.KernelIdeal.main_arg10))
    (h11 : XR (rR Cert.ReferenceIdeal.main_arg11) = XK (rK Cert.KernelIdeal.main_arg11))
    (h12 : XR (rR Cert.ReferenceIdeal.main_arg12) = XK (rK Cert.KernelIdeal.main_arg12)) :
    (after ((Cert.KernelIdeal.Hand.opsA4 (F := Ideal)).drop 4) XK (rK Cert.KernelIdeal.main_v268) : Vec Ideal Cert.KernelIdeal.S1x128 .f32)
      = after (Cert.ReferenceIdeal.Hand.opsA0_w5 (F := Ideal)) (after ((Cert.ReferenceIdeal.Hand.opsA0_w4 (F := Ideal)).drop 34) XR) (rR Cert.ReferenceIdeal.main_v294) := by
  simp only [List.drop_succ_cons, List.drop_zero]
  after_results_simp
  rw [hagg, hh, h5, h6, h7, h8, h9, h10, h11, h12]
  rfl

variable (V : Valuation Cert.KernelIdeal.τ Cert.KernelIdeal.sig (Elt Ideal)) (V' : Valuation Cert.ReferenceIdeal.τ Cert.ReferenceIdeal.sig (Elt Ideal))

structure ArgsEq : Prop where
  a0 : V' (R.r Cert.ReferenceIdeal.main_arg0) = V (Cert.KernelIdeal.Hand.r Cert.KernelIdeal.main_arg0)
  a1 : V' (R.r Cert.ReferenceIdeal.main_arg1) = V (Cert.KernelIdeal.Hand.r Cert.KernelIdeal.main_arg1)
  a2 : V' (R.r Cert.ReferenceIdeal.main_arg2) = V (Cert.KernelIdeal.Hand.r Cert.KernelIdeal.main_arg2)
  a3 : V' (R.r Cert.ReferenceIdeal.main_arg3) = V (Cert.KernelIdeal.Hand.r Cert.KernelIdeal.main_arg3)
  a4 : V' (R.r Cert.ReferenceIdeal.main_arg4) = V (Cert.KernelIdeal.Hand.r Cert.KernelIdeal.main_arg4)
  a5 : V' (R.r Cert.ReferenceIdeal.main_arg5) = V (Cert.KernelIdeal.Hand.r Cert.KernelIdeal.main_arg5)
  a6 : V' (R.r Cert.ReferenceIdeal.main_arg6) = V (Cert.KernelIdeal.Hand.r Cert.KernelIdeal.main_arg6)
  a7 : V' (R.r Cert.ReferenceIdeal.main_arg7) = V (Cert.KernelIdeal.Hand.r Cert.KernelIdeal.main_arg7)
  a8 : V' (R.r Cert.ReferenceIdeal.main_arg8) = V (Cert.KernelIdeal.Hand.r Cert.KernelIdeal.main_arg8)
  a9 : V' (R.r Cert.ReferenceIdeal.main_arg9) = V (Cert.KernelIdeal.Hand.r Cert.KernelIdeal.main_arg9)
  a10 : V' (R.r Cert.ReferenceIdeal.main_arg10) = V (Cert.KernelIdeal.Hand.r Cert.KernelIdeal.main_arg10)
  a11 : V' (R.r Cert.ReferenceIdeal.main_arg11) = V (Cert.KernelIdeal.Hand.r Cert.KernelIdeal.main_arg11)
  a12 : V' (R.r Cert.ReferenceIdeal.main_arg12) = V (Cert.KernelIdeal.Hand.r Cert.KernelIdeal.main_arg12)

open Cert.KernelIdeal.Hand in

theorem tail0 (hA : ArgsEq V V') (hh : (VA1 V (r Cert.KernelIdeal.main_v9) : Vec Ideal Cert.KernelIdeal.S10000x128 .f32) = R.W V' (R.r Cert.ReferenceIdeal.main_v18))
    (hagg : (VA2 V (r Cert.KernelIdeal.main_v64) : Vec Ideal Cert.KernelIdeal.S10000x128 .f32) = R.W V' (R.r Cert.ReferenceIdeal.main_v56)) :
    (VA2 V (r Cert.KernelIdeal.main_v120) : Vec Ideal Cert.KernelIdeal.S10000x128 .f32) = R.W V' (R.r Cert.ReferenceIdeal.main_v112) := by
  rw [VA2_eq, W_out0]
  exact chain0 (XK0 V) (XR0 V')
    ((W_agg0 V').symm.trans (hagg.symm.trans (XK0_agg V)))
    ((W_h0 V').symm.trans (hh.symm.trans (XK0_h V).symm))
    ((XR0_w V' (a := Cert.ReferenceIdeal.main_arg5) (by decide)).trans (hA.a5.trans (XK0_w V (a := Cert.KernelIdeal.main_arg5) (by decide)).symm))
    ((XR0_w V' (a := Cert.ReferenceIdeal.main_arg6) (by decide)).trans (hA.a6.trans (XK0_w V (a := Cert.KernelIdeal.main_arg6) (by decide)).symm))
    ((XR0_w V' (a := Cert.ReferenceIdeal.main_arg7) (by decide)).trans (hA.a7.trans (XK0_w V (a := Cert.KernelIdeal.main_arg7) (by decide)).symm))
    ((XR0_w V' (a := Cert.ReferenceIdeal.main_arg8) (by decide)).trans (hA.a8.trans (XK0_w V (a := Cert.KernelIdeal.main_arg8) (by decide)).symm))
    ((XR0_w V' (a := Cert.ReferenceIdeal.main_arg9) (by decide)).trans (hA.a9.trans (XK0_w V (a := Cert.KernelIdeal.main_arg9) (by decide)).symm))
    ((XR0_w V' (a := Cert.ReferenceIdeal.main_arg10) (by decide)).trans (hA.a10.trans (XK0_w V (a := Cert.KernelIdeal.main_arg10) (by decide)).symm))
    ((XR0_w V' (a := Cert.ReferenceIdeal.main_arg11) (by decide)).trans (hA.a11.trans (XK0_w V (a := Cert.KernelIdeal.main_arg11) (by decide)).symm))
    ((XR0_w V' (a := Cert.ReferenceIdeal.main_arg12) (by decide)).trans (hA.a12.trans (XK0_w V (a := Cert.KernelIdeal.main_arg12) (by decide)).symm))
open Cert.KernelIdeal.Hand in
theorem tail1 (hA : ArgsEq V V') (hh : (VA2 V (r Cert.KernelIdeal.main_v120) : Vec Ideal Cert.KernelIdeal.S10000x128 .f32) = R.W V' (R.r Cert.ReferenceIdeal.main_v112))
    (hagg : (VA3 V (r Cert.KernelIdeal.main_v137) : Vec Ideal Cert.KernelIdeal.S10000x128 .f32) = R.W V' (R.r Cert.ReferenceIdeal.main_v146)) :
    (VA3 V (r Cert.KernelIdeal.main_v193) : Vec Ideal Cert.KernelIdeal.S10000x128 .f32) = R.W V' (R.r Cert.ReferenceIdeal.main_v202) := by
  rw [VA3_eq, W_out1]
  exact chain1 (XK1 V) (XR1 V')
    ((W_agg1 V').symm.trans (hagg.symm.trans (XK1_agg V)))
    ((W_h1 V').symm.trans (hh.symm.trans (XK1_h V).symm))
    ((XR1_w V' (a := Cert.ReferenceIdeal.main_arg5) (by decide)).trans (hA.a5.trans (XK1_w V (a := Cert.KernelIdeal.main_arg5) (by decide)).symm))
    ((XR1_w V' (a := Cert.ReferenceIdeal.main_arg6) (by decide)).trans (hA.a6.trans (XK1_w V (a := Cert.KernelIdeal.main_arg6) (by decide)).symm))
    ((XR1_w V' (a := Cert.ReferenceIdeal.main_arg7) (by decide)).trans (hA.a7.trans (XK1_w V (a := Cert.KernelIdeal.main_arg7) (by decide)).symm))
    ((XR1_w V' (a := Cert.ReferenceIdeal.main_arg8) (by decide)).trans (hA.a8.trans (XK1_w V (a := Cert.KernelIdeal.main_arg8) (by decide)).symm))
    ((XR1_w V' (a := Cert.ReferenceIdeal.main_arg9) (by decide)).trans (hA.a9.trans (XK1_w V (a := Cert.KernelIdeal.main_arg9) (by decide)).symm))
    ((XR1_w V' (a := Cert.ReferenceIdeal.main_arg10) (by decide)).trans (hA.a10.trans (XK1_w V (a := Cert.KernelIdeal.main_arg10) (by decide)).symm))
    ((XR1_w V' (a := Cert.ReferenceIdeal.main_arg11) (by decide)).trans (hA.a11.trans (XK1_w V (a := Cert.KernelIdeal.main_arg11) (by decide)).symm))
    ((XR1_w V' (a := Cert.ReferenceIdeal.main_arg12) (by decide)).trans (hA.a12.trans (XK1_w V (a := Cert.KernelIdeal.main_arg12) (by decide)).symm))
open Cert.KernelIdeal.Hand in

theorem tail2 (hA : ArgsEq V V') (hh : (VA3 V (r Cert.KernelIdeal.main_v193) : Vec Ideal Cert.KernelIdeal.S10000x128 .f32) = R.W V' (R.r Cert.ReferenceIdeal.main_v202))
    (hagg : (VA4 V (r Cert.KernelIdeal.main_v210) : Vec Ideal Cert.KernelIdeal.S10000x128 .f32) = R.W V' (R.r Cert.ReferenceIdeal.main_v236)) :
    (VA4 V (r Cert.KernelIdeal.main_v268) : Vec Ideal Cert.KernelIdeal.S1x128 .f32) = R.W V' (R.r Cert.ReferenceIdeal.main_v294) := by
  rw [VA4_eq, W_eq2]
  exact chain2 (XK2 V) (XR2 V')
    ((W_agg2 V').symm.trans (hagg.symm.trans (XK2_agg V)))
    ((W_h2 V').symm.trans (hh.symm.trans (XK2_h V).symm))
    ((XR2_w V' (a := Cert.ReferenceIdeal.main_arg5) (by decide)).trans (hA.a5.trans (XK2_w V (a := Cert.KernelIdeal.main_arg5) (by decide)).symm))
    ((XR2_w V' (a := Cert.ReferenceIdeal.main_arg6) (by decide)).trans (hA.a6.trans (XK2_w V (a := Cert.KernelIdeal.main_arg6) (by decide)).symm))
    ((XR2_w V' (a := Cert.ReferenceIdeal.main_arg7) (by decide)).trans (hA.a7.trans (XK2_w V (a := Cert.KernelIdeal.main_arg7) (by decide)).symm))
    ((XR2_w V' (a := Cert.ReferenceIdeal.main_arg8) (by decide)).trans (hA.a8.trans (XK2_w V (a := Cert.KernelIdeal.main_arg8) (by decide)).symm))
    ((XR2_w V' (a := Cert.ReferenceIdeal.main_arg9) (by decide)).trans (hA.a9.trans (XK2_w V (a := Cert.KernelIdeal.main_arg9) (by decide)).symm))
    ((XR2_w V' (a := Cert.ReferenceIdeal.main_arg10) (by decide)).trans (hA.a10.trans (XK2_w V (a := Cert.KernelIdeal.main_arg10) (by decide)).symm))
    ((XR2_w V' (a := Cert.ReferenceIdeal.main_arg11) (by decide)).trans (hA.a11.trans (XK2_w V (a := Cert.KernelIdeal.main_arg11) (by decide)).symm))
    ((XR2_w V' (a := Cert.ReferenceIdeal.main_arg12) (by decide)).trans (hA.a12.trans (XK2_w V (a := Cert.KernelIdeal.main_arg12) (by decide)).symm))

open Cert.KernelIdeal.Hand in

theorem res_eq (hA : ArgsEq V V') (hR : K.Ranges V) :
    (VA4 V (r Cert.KernelIdeal.main_v268) : Vec Ideal Cert.KernelIdeal.S1x128 .f32) = after Cert.ReferenceIdeal.Hand.opsA0 V' (R.r Cert.ReferenceIdeal.main_v294) := by
  have hR' : R.Ranges V' :=
    ⟨fun j => by rw [hA.a0]; exact hR.hx j, fun j => by rw [hA.a1]; exact hR.he j, fun j => by rw [hA.a2]; exact hR.ha j⟩
  have h0 : (VA1 V (r Cert.KernelIdeal.main_v9) : Vec Ideal Cert.KernelIdeal.S10000x128 .f32) = R.W V' (R.r Cert.ReferenceIdeal.main_v18) := by
    rw [K.hK0 V hR, R.hR0 V' hR', hA.a0, hA.a3, hA.a4]
  have g0 : (VA2 V (r Cert.KernelIdeal.main_v64) : Vec Ideal Cert.KernelIdeal.S10000x128 .f32) = R.W V' (R.r Cert.ReferenceIdeal.main_v56) := by
    rw [K.aggK0 V hR, R.aggR0 V' hR', h0, hA.a1, hA.a2, hA.a5, hA.a6]
  have h1 := tail0 V V' hA h0 g0
  have g1 : (VA3 V (r Cert.KernelIdeal.main_v137) : Vec Ideal Cert.KernelIdeal.S10000x128 .f32) = R.W V' (R.r Cert.ReferenceIdeal.main_v146) := by
    rw [K.aggK1 V hR, R.aggR1 V' hR', h1, hA.a1, hA.a2, hA.a5, hA.a6]
  have h2 := tail1 V V' hA h1 g1
  have g2 : (VA4 V (r Cert.KernelIdeal.main_v210) : Vec Ideal Cert.KernelIdeal.S10000x128 .f32) = R.W V' (R.r Cert.ReferenceIdeal.main_v236) := by
    rw [K.aggK2 V hR, R.aggR2 V' hR', h2, hA.a1, hA.a2, hA.a5, hA.a6]
  exact tail2 V V' hA h2 g2

end Cert.Value

end
-- ==== Proof.lean ====
import proofs.«208129_g65403761983635_cont_9to1_m_1354_7_alg».proof.Defs
import proofs.«208129_g65403761983635_cont_9to1_m_1354_7_alg».proof.Proof.Gen.Kernel
import proofs.«208129_g65403761983635_cont_9to1_m_1354_7_alg».proof.Proof.Gen.KernelIdeal
import proofs.«208129_g65403761983635_cont_9to1_m_1354_7_alg».proof.Proof.Gen.ReferenceIdeal
import proofs.«208129_g65403761983635_cont_9to1_m_1354_7_alg».proof.Proof.Gen.Pre_input_domain
import proofs.«208129_g65403761983635_cont_9to1_m_1354_7_alg».proof.Proof.KI.Run
import proofs.«208129_g65403761983635_cont_9to1_m_1354_7_alg».proof.Proof.KI.PreOK
import proofs.«208129_g65403761983635_cont_9to1_m_1354_7_alg».proof.Proof.KI.Kept
import proofs.«208129_g65403761983635_cont_9to1_m_1354_7_alg».proof.Proof.KB.Run
import proofs.«208129_g65403761983635_cont_9to1_m_1354_7_alg».proof.Proof.KB.PreOK
import proofs.«208129_g65403761983635_cont_9to1_m_1354_7_alg».proof.Proof.KB.Kept
import proofs.«208129_g65403761983635_cont_9to1_m_1354_7_alg».proof.Proof.Ref.Run
import proofs.«208129_g65403761983635_cont_9to1_m_1354_7_alg».proof.Proof.Value.Tail
import Idealize.ShloMosaic.Adequacy
import Idealize.ShloMosaic.Init

noncomputable section

namespace Cert.Proof

open Idealize.ShloMosaic Idealize.SL.Sem

theorem frame_K : Cert.frame_Kernel := fun m g hpre =>
  (θ_run (Cert.Kernel.defs (F := Bits)) _ _).mono (fun _ h c => by
    have k := fun (a : Ref Cert.Kernel.sig .tc) ha => (h c a).trans (Cert.Kernel.Hand.arg_kept _ a ha)
    exact ⟨k _ (by decide), k _ (by decide), k _ (by decide), k _ (by decide), k _ (by decide), k _ (by decide), k _ (by decide), k _ (by decide), k _ (by decide), k _ (by decide), k _ (by decide), k _ (by decide), k _ (by decide)⟩)
    (Cert.Kernel.Hand.run_main (F := Bits) m g fun d => Cert.Kernel.Hand.ok_of_pre m hpre d)

theorem frame_KI : Cert.frame_KernelIdeal := fun m g hpre =>
  (θ_run (Cert.KernelIdeal.defs (F := Ideal)) _ _).mono (fun _ h c => by
    have k := fun (a : Ref Cert.KernelIdeal.sig .tc) ha => (h c a).trans (Cert.KernelIdeal.Hand.arg_kept _ a ha)
    exact ⟨k _ (by decide), k _ (by decide), k _ (by decide), k _ (by decide), k _ (by decide), k _ (by decide), k _ (by decide), k _ (by decide), k _ (by decide), k _ (by decide), k _ (by decide), k _ (by decide), k _ (by decide)⟩)
    (Cert.KernelIdeal.Hand.run_main (F := Ideal) m g fun d => Cert.KernelIdeal.Hand.ok_of_pre m hpre d)

theorem frame_R : Cert.frame_ReferenceIdeal := fun m g _ =>
  (θ_run (Cert.ReferenceIdeal.defs (F := Ideal)) _ _).mono (fun _ h c => by
    have k := fun (a : Ref Cert.ReferenceIdeal.sig .tc) ha => (h c a).trans (Cert.ReferenceIdeal.Hand.arg_kept _ a ha)
    exact ⟨k _ (by decide), k _ (by decide), k _ (by decide), k _ (by decide), k _ (by decide), k _ (by decide), k _ (by decide), k _ (by decide), k _ (by decide), k _ (by decide), k _ (by decide), k _ (by decide), k _ (by decide)⟩)
    (Cert.ReferenceIdeal.Hand.run (F := Ideal) m g)

theorem alg : Cert.algebraic_KernelIdeal_ReferenceIdeal := fun m g m' g' hpre hagree =>
  ⟨fun c => Cert.KernelIdeal.Hand.VA4 (StableHlo.launchContents m c) (Cert.KernelIdeal.Hand.r Cert.KernelIdeal.main_v268),
    (θ_run (Cert.KernelIdeal.defs (F := Ideal)) _ _).mono (fun _ h c => by
      have k := fun (a : Ref Cert.KernelIdeal.sig .tc) ha => (h c a).trans (Cert.KernelIdeal.Hand.arg_kept _ a ha)
      exact ⟨h c Cert.KernelIdeal.main_v268, k _ (by decide), k _ (by decide), k _ (by decide), k _ (by decide), k _ (by decide), k _ (by decide), k _ (by decide), k _ (by decide), k _ (by decide), k _ (by decide), k _ (by decide), k _ (by decide), k _ (by decide)⟩)
      (Cert.KernelIdeal.Hand.run_main (F := Ideal) m g fun d => Cert.KernelIdeal.Hand.ok_of_pre m hpre d),
    (θ_run (Cert.ReferenceIdeal.defs (F := Ideal)) _ _).mono (fun _ h c => by
      have k := fun (a : Ref Cert.ReferenceIdeal.sig .tc) ha => (h c a).trans (Cert.ReferenceIdeal.Hand.arg_kept _ a ha)
      exact ⟨(h c Cert.ReferenceIdeal.main_v294).trans
        (Cert.Value.res_eq (StableHlo.launchContents m c) (StableHlo.launchContents m' c)
          ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2⟩
          (let hr := Cert.KernelIdeal.Hand.ranges_of_pre m hpre c; ⟨hr.1, hr.2.1, hr.2.2⟩)).symm,
      k _ (by decide), k _ (by decide), k _ (by decide), k _ (by decide), k _ (by decide), k _ (by decide), k _ (by decide), k _ (by decide), k _ (by decide), k _ (by decide), k _ (by decide), k _ (by decide), k _ (by decide)⟩)
      (Cert.ReferenceIdeal.Hand.run (F := Ideal) m' g')⟩

theorem claim : Cert.Claim :=
  ⟨Cert.Kernel.Gen.facts, Cert.KernelIdeal.Gen.facts, Cert.ReferenceIdeal.Gen.facts, Cert.Pre_input_domain.Gen.facts,
    frame_K, frame_KI, frame_R, trivial, alg⟩

end Cert.Proof

end
